-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v85)) (v1 : (c : Dev Cert.KernelIdeal.nD) → Buf (Elt Ideal) ((c.tc : Thread Cert.KernelIdeal.nD Cert.KernelIdeal.τ).loc Cert.KernelIdeal.main_v97)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v85) = v0 c
          ∧ r.2.mem ((c.tc : Thread Cert.KernelIdeal.nD Cert.KernelIdeal.τ).loc Cert.KernelIdeal.main_v97) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v175) = v0 c
          ∧ r.2.mem ((c.tc : Thread Cert.ReferenceIdeal.nD Cert.ReferenceIdeal.τ).loc Cert.ReferenceIdeal.main_v242) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S100000 : Shape := ⟨1, ![100000]⟩
abbrev S200000x3x256 : Shape := ⟨3, ![200000, 3, 256]⟩
abbrev S200000 : Shape := ⟨1, ![200000]⟩
abbrev S4x256x256 : Shape := ⟨3, ![4, 256, 256]⟩
abbrev S4x256 : Shape := ⟨2, ![4, 256]⟩
abbrev S4x256x1 : Shape := ⟨3, ![4, 256, 1]⟩
abbrev S4x1 : Shape := ⟨2, ![4, 1]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S200000x3x256 : S_.BroadcastsInDim S200000x3x256 (![] : Fin 0 → Fin S200000x3x256.rank)
  reducesTo_S200000x3x256_S_d0_1_2 : S200000x3x256.ReducesTo [0, 1, 2] S_
  bcast_S_S4x256x256 : S_.BroadcastsInDim S4x256x256 (![] : Fin 0 → Fin S4x256x256.rank)
  reducesTo_S4x256x256_S_d0_1_2 : S4x256x256.ReducesTo [0, 1, 2] S_
  bcast_S_S4x256 : S_.BroadcastsInDim S4x256 (![] : Fin 0 → Fin S4x256.rank)
  reducesTo_S4x256_S_d0_1 : S4x256.ReducesTo [0, 1] S_
  bcast_S_S4x256x1 : S_.BroadcastsInDim S4x256x1 (![] : Fin 0 → Fin S4x256x1.rank)
  reducesTo_S4x256x1_S_d0_1_2 : S4x256x1.ReducesTo [0, 1, 2] S_
  bcast_S_S4x1 : S_.BroadcastsInDim S4x1 (![] : Fin 0 → Fin S4x1.rank)
  reducesTo_S4x1_S_d0_1 : S4x1.ReducesTo [0, 1] S_
  bcast_S_S100000 : S_.BroadcastsInDim S100000 (![] : Fin 0 → Fin S100000.rank)
  reducesTo_S100000_S_d0 : S100000.ReducesTo [0] S_

variable [Facts]

def fn_part3 {F : FTy → Type} [FloatOps F] (main_arg1 : IVec S100000 32) (main_v48 : IVec S_ 1) (main_v50 : IVec S100000 1) : IVec S_ 1 :=
  let main_c_19 : IVec S_ 32 := constantI S_ 32 4#32
  let main_v51 : IVec S100000 32 := broadcastInDim S100000 ![] bcast_S_S100000 main_c_19
  let main_v52 : IVec S100000 1 := cmpi .slt main_arg1 main_v51
  let main_v53 : IVec S100000 1 := andi main_v50 main_v52
  let main_c_20 : IVec S_ 1 := constantI S_ 1 1#1
  let main_v54 : IVec S_ 1 := (fun x v => Host.reduce IntOp.andi x v reducesTo_S100000_S_d0 h_S_) main_v53 main_c_20
  let main_v55 : IVec S_ 1 := andi main_v48 main_v54
  main_v55

def fn_part2 {F : FTy → Type} [FloatOps F] (main_arg1 : IVec S100000 32) (main_arg10 : FVec F S4x1 .f32) (main_arg11 : FVec F S4x256x1 .f32) (main_arg12 : FVec F S4x1 .f32) (main_v33 : IVec S_ 1) : IVec S_ 1 :=
  let main_v34 : FVec F S4x1 .f32 := Host.absf main_arg10
  let main_cst_12 : FVec F S_ .f32 := constant S_ .f32 0x7F800000#32
  let main_v35 : FVec F S4x1 .f32 := broadcastInDim S4x1 ![] bcast_S_S4x1 main_cst_12
  let main_v36 : IVec S4x1 1 := cmpf .olt main_v34 main_v35
  let main_c_13 : IVec S_ 1 := constantI S_ 1 1#1
  let main_v37 : IVec S_ 1 := (fun x v => Host.reduce IntOp.andi x v reducesTo_S4x1_S_d0_1 h_S_) main_v36 main_c_13
  let main_v38 : IVec S_ 1 := andi main_v33 main_v37
  let main_v39 : FVec F S4x256x1 .f32 := Host.absf main_arg11
  let main_cst_14 : FVec F S_ .f32 := constant S_ .f32 0x7F800000#32
  let main_v40 : FVec F S4x256x1 .f32 := broadcastInDim S4x256x1 ![] bcast_S_S4x256x1 main_cst_14
  let main_v41 : IVec S4x256x1 1 := cmpf .olt main_v39 main_v40
  let main_c_15 : IVec S_ 1 := constantI S_ 1 1#1
  let main_v42 : IVec S_ 1 := (fun x v => Host.reduce IntOp.andi x v reducesTo_S4x256x1_S_d0_1_2 h_S_) main_v41 main_c_15
  let main_v43 : IVec S_ 1 := andi main_v38 main_v42
  let main_v44 : FVec F S4x1 .f32 := Host.absf main_arg12
  let main_cst_16 : FVec F S_ .f32 := constant S_ .f32 0x7F800000#32
  let main_v45 : FVec F S4x1 .f32 := broadcastInDim S4x1 ![] bcast_S_S4x1 main_cst_16
  let main_v46 : IVec S4x1 1 := cmpf .olt main_v44 main_v45
  let main_c_17 : IVec S_ 1 := constantI S_ 1 1#1
  let main_v47 : IVec S_ 1 := (fun x v => Host.reduce IntOp.andi x v reducesTo_S4x1_S_d0_1 h_S_) main_v46 main_c_17
  let main_v48 : IVec S_ 1 := andi main_v43 main_v47
  let main_c_18 : IVec S_ 32 := constantI S_ 32 0#32
  let main_v49 : IVec S100000 32 := broadcastInDim S100000 ![] bcast_S_S100000 main_c_18
  let main_v50 : IVec S100000 1 := cmpi .sge main_arg1 main_v49
  fn_part3 (F := F) main_arg1 main_v48 main_v50

def fn_part1 {F : FTy → Type} [FloatOps F] (main_arg1 : IVec S100000 32) (main_arg7 : FVec F S4x256x256 .f32) (main_arg8 : FVec F S4x256 .f32) (main_arg9 : FVec F S4x256x1 .f32) (main_arg10 : FVec F S4x1 .f32) (main_arg11 : FVec F S4x256x1 .f32) (main_arg12 : FVec F S4x1 .f32) (main_v13 : IVec S_ 1) (main_v16 : IVec S4x256 1) : IVec S_ 1 :=
  let main_c_5 : IVec S_ 1 := constantI S_ 1 1#1
  let main_v17 : IVec S_ 1 := (fun x v => Host.reduce IntOp.andi x v reducesTo_S4x256_S_d0_1 h_S_) main_v16 main_c_5
  let main_v18 : IVec S_ 1 := andi main_v13 main_v17
  let main_v19 : FVec F S4x256x256 .f32 := Host.absf main_arg7
  let main_cst_6 : FVec F S_ .f32 := constant S_ .f32 0x7F800000#32
  let main_v20 : FVec F S4x256x256 .f32 := broadcastInDim S4x256x256 ![] bcast_S_S4x256x256 main_cst_6
  let main_v21 : IVec S4x256x256 1 := cmpf .olt main_v19 main_v20
  let main_c_7 : IVec S_ 1 := constantI S_ 1 1#1
  let main_v22 : IVec S_ 1 := (fun x v => Host.reduce IntOp.andi x v reducesTo_S4x256x256_S_d0_1_2 h_S_) main_v21 main_c_7
  let main_v23 : IVec S_ 1 := andi main_v18 main_v22
  let main_v24 : FVec F S4x256 .f32 := Host.absf main_arg8
  let main_cst_8 : FVec F S_ .f32 := constant S_ .f32 0x7F800000#32
  let main_v25 : FVec F S4x256 .f32 := broadcastInDim S4x256 ![] bcast_S_S4x256 main_cst_8
  let main_v26 : IVec S4x256 1 := cmpf .olt main_v24 main_v25
  let main_c_9 : IVec S_ 1 := constantI S_ 1 1#1
  let main_v27 : IVec S_ 1 := (fun x v => Host.reduce IntOp.andi x v reducesTo_S4x256_S_d0_1 h_S_) main_v26 main_c_9
  let main_v28 : IVec S_ 1 := andi main_v23 main_v27
  let main_v29 : FVec F S4x256x1 .f32 := Host.absf main_arg9
  let main_cst_10 : FVec F S_ .f32 := constant S_ .f32 0x7F800000#32
  let main_v30 : FVec F S4x256x1 .f32 := broadcastInDim S4x256x1 ![] bcast_S_S4x256x1 main_cst_10
  let main_v31 : IVec S4x256x1 1 := cmpf .olt main_v29 main_v30
  let main_c_11 : IVec S_ 1 := constantI S_ 1 1#1
  let main_v32 : IVec S_ 1 := (fun x v => Host.reduce IntOp.andi x v reducesTo_S4x256x1_S_d0_1_2 h_S_) main_v31 main_c_11
  let main_v33 : IVec S_ 1 := andi main_v28 main_v32
  fn_part2 (F := F) main_arg1 main_arg10 main_arg11 main_arg12 main_v33

def fn {F : FTy → Type} [FloatOps F] (main_arg0 : FVec F S100000x256 .f32) (main_arg1 : IVec S100000 32) (main_arg2 : IVec S100000 32) (main_arg3 : FVec F S200000x3x256 .f32) (main_arg4 : IVec S200000 32) (main_arg5 : FVec F S4x256x256 .f32) (main_arg6 : FVec F S4x256 .f32) (main_arg7 : FVec F S4x256x256 .f32) (main_arg8 : FVec F S4x256 .f32) (main_arg9 : FVec F S4x256x1 .f32) (main_arg10 : FVec F S4x1 .f32) (main_arg11 : FVec F S4x256x1 .f32) (main_arg12 : FVec F S4x1 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S200000x3x256 .f32 := Host.absf main_arg3
  let main_cst_0 : FVec F S_ .f32 := constant S_ .f32 0x7F800000#32
  let main_v5 : FVec F S200000x3x256 .f32 := broadcastInDim S200000x3x256 ![] bcast_S_S200000x3x256 main_cst_0
  let main_v6 : IVec S200000x3x256 1 := cmpf .olt main_v4 main_v5
  let main_c_1 : IVec S_ 1 := constantI S_ 1 1#1
  let main_v7 : IVec S_ 1 := (fun x v => Host.reduce IntOp.andi x v reducesTo_S200000x3x256_S_d0_1_2 h_S_) main_v6 main_c_1
  let main_v8 : IVec S_ 1 := andi main_v3 main_v7
  let main_v9 : FVec F S4x256x256 .f32 := Host.absf main_arg5
  let main_cst_2 : FVec F S_ .f32 := constant S_ .f32 0x7F800000#32
  let main_v10 : FVec F S4x256x256 .f32 := broadcastInDim S4x256x256 ![] bcast_S_S4x256x256 main_cst_2
  let main_v11 : IVec S4x256x256 1 := cmpf .olt main_v9 main_v10
  let main_c_3 : IVec S_ 1 := constantI S_ 1 1#1
  let main_v12 : IVec S_ 1 := (fun x v => Host.reduce IntOp.andi x v reducesTo_S4x256x256_S_d0_1_2 h_S_) main_v11 main_c_3
  let main_v13 : IVec S_ 1 := andi main_v8 main_v12
  let main_v14 : FVec F S4x256 .f32 := Host.absf main_arg6
  let main_cst_4 : FVec F S_ .f32 := constant S_ .f32 0x7F800000#32
  let main_v15 : FVec F S4x256 .f32 := broadcastInDim S4x256 ![] bcast_S_S4x256 main_cst_4
  let main_v16 : IVec S4x256 1 := cmpf .olt main_v14 main_v15
  fn_part1 (F := F) main_arg1 main_arg7 main_arg8 main_arg9 main_arg10 main_arg11 main_arg12 main_v13 main_v16
-- ==== Kernel.lean ====
abbrev S100000x256 : Shape := ⟨2, ![100000, 256]⟩
abbrev S100000 : Shape := ⟨1, ![100000]⟩
abbrev S200000x3x256 : Shape := ⟨3, ![200000, 3, 256]⟩
abbrev S200000 : Shape := ⟨1, ![200000]⟩
abbrev S4x256x256 : Shape := ⟨3, ![4, 256, 256]⟩
abbrev S4x256 : Shape := ⟨2, ![4, 256]⟩
abbrev S4x256x1 : Shape := ⟨3, ![4, 256, 1]⟩
abbrev S4x1 : Shape := ⟨2, ![4, 1]⟩
abbrev S_ : Shape := ⟨0, ![]⟩
abbrev S4 : Shape := ⟨1, ![4]⟩
abbrev S100000x1 : Shape := ⟨2, ![100000, 1]⟩
abbrev S1 : Shape := ⟨1, ![1]⟩
abbrev S3 : Shape := ⟨1, ![3]⟩
abbrev S104000 : Shape := ⟨1, ![104000]⟩
abbrev S104 : Shape := ⟨1, ![104]⟩
abbrev S104x1 : Shape := ⟨2, ![104, 1]⟩
abbrev S1x4 : Shape := ⟨2, ![1, 4]⟩
abbrev S104x4 : Shape := ⟨2, ![104, 4]⟩
abbrev S104000x1 : Shape := ⟨2, ![104000, 1]⟩
abbrev S1x1 : Shape := ⟨2, ![1, 1]⟩
abbrev S104000x256 : Shape := ⟨2, ![104000, 256]⟩
abbrev S4x1x256 : Shape := ⟨3, ![4, 1, 256]⟩
abbrev S4x1x1 : Shape := ⟨3, ![4, 1, 1]⟩
abbrev S1000x256 : Shape := ⟨2, ![1000, 256]⟩
abbrev S1x256x256 : Shape := ⟨3, ![1, 256, 256]⟩
abbrev S1x1x256 : Shape := ⟨3, ![1, 1, 256]⟩
abbrev S1x256x1 : Shape := ⟨3, ![1, 256, 1]⟩
abbrev S1x1x1 : Shape := ⟨3, ![1, 1, 1]⟩
abbrev S1000x1 : Shape := ⟨2, ![1000, 1]⟩
abbrev S256x256 : Shape := ⟨2, ![256, 256]⟩
abbrev S1x256 : Shape := ⟨2, ![1, 256]⟩
abbrev S256x1 : Shape := ⟨2, ![256, 1]⟩
abbrev S256 : Shape := ⟨1, ![256]⟩
abbrev S200000x1 : Shape := ⟨2, ![200000, 1]⟩
abbrev S200000x256 : Shape := ⟨2, ![200000, 256]⟩
abbrev S200000x768 : Shape := ⟨2, ![200000, 768]⟩
abbrev S200000x3 : Shape := ⟨2, ![200000, 3]⟩
abbrev S2000x256 : Shape := ⟨2, ![2000, 256]⟩
abbrev S2000x768 : Shape := ⟨2, ![2000, 768]⟩
abbrev S2000x3 : Shape := ⟨2, ![2000, 3]⟩
abbrev S2000 : Shape := ⟨1, ![2000]⟩
abbrev S2000x1 : Shape := ⟨2, ![2000, 1]⟩
abbrev S100000x3 : Shape := ⟨2, ![100000, 3]⟩

abbrev nBuf : Space → Nat
  | .hbm => 254
  | .vmem => 28
  | .smem => 1
  | _ => 0

abbrev hbmTy0_0 (i : Nat) : BufTy := match i % 128 with
  | 0 => ⟨S100000x256, .f32⟩
  | 1 => ⟨S100000, .i32⟩
  | 2 => ⟨S100000, .i32⟩
  | 3 => ⟨S200000x3x256, .f32⟩
  | 4 => ⟨S200000, .i32⟩
  | 5 => ⟨S4x256x256, .f32⟩
  | 6 => ⟨S4x256, .f32⟩
  | 7 => ⟨S4x256x256, .f32⟩
  | 8 => ⟨S4x256, .f32⟩
  | 9 => ⟨S4x256x1, .f32⟩
  | 10 => ⟨S4x1, .f32⟩
  | 11 => ⟨S4x256x1, .f32⟩
  | 12 => ⟨S4x1, .f32⟩
  | 13 => ⟨S_, .i32⟩
  | 14 => ⟨S4, .i32⟩
  | 15 => ⟨S_, .i32⟩
  | 16 => ⟨S_, .i32⟩
  | 17 => ⟨S100000, .i32⟩
  | 18 => ⟨S100000, .i32⟩
  | 19 => ⟨S_, .i32⟩
  | 20 => ⟨S100000, .i32⟩
  | 21 => ⟨S100000, .i1⟩
  | 22 => ⟨S_, .i32⟩
  | 23 => ⟨S100000, .i32⟩
  | 24 => ⟨S100000, .i32⟩
  | 25 => ⟨S100000, .i32⟩
  | 26 => ⟨S100000x1, .i32⟩
  | 27 => ⟨S_, .i32⟩
  | 28 => ⟨S100000, .i32⟩
  | 29 => ⟨S4, .i32⟩
  | 30 => ⟨S_, .i32⟩
  | 31 => ⟨S4, .i32⟩
  | 32 => ⟨S4, .i32⟩
  | 33 => ⟨S_, .i32⟩
  | 34 => ⟨S_, .i32⟩
  | 35 => ⟨S4, .i32⟩
  | 36 => ⟨S4, .i32⟩
  | 37 => ⟨S4, .i32⟩
  | 38 => ⟨S_, .i32⟩
  | 39 => ⟨S4, .i32⟩
  | 40 => ⟨S4, .i1⟩
  | 41 => ⟨S4, .i32⟩
  | 42 => ⟨S4, .i32⟩
  | 43 => ⟨S_, .i32⟩
  | 44 => ⟨S4, .i32⟩
  | 45 => ⟨S4, .i1⟩
  | 46 => ⟨S4, .i1⟩
  | 47 => ⟨S_, .i32⟩
  | 48 => ⟨S4, .i32⟩
  | 49 => ⟨S4, .i32⟩
  | 50 => ⟨S4, .i32⟩
  | 51 => ⟨S_, .i32⟩
  | 52 => ⟨S4, .i32⟩
  | 53 => ⟨S4, .i32⟩
  | 54 => ⟨S_, .i32⟩
  | 55 => ⟨S1, .i32⟩
  | 56 => ⟨S_, .i32⟩
  | 57 => ⟨S_, .i32⟩
  | 58 => ⟨S4, .i32⟩
  | 59 => ⟨S3, .i32⟩
  | 60 => ⟨S4, .i32⟩
  | 61 => ⟨S_, .i32⟩
  | 62 => ⟨S1, .i32⟩
  | 63 => ⟨S_, .i32⟩
  | 64 => ⟨S_, .i32⟩
  | 65 => ⟨S4, .i32⟩
  | 66 => ⟨S3, .i32⟩
  | 67 => ⟨S4, .i32⟩
  | 68 => ⟨S_, .i32⟩
  | 69 => ⟨S_, .i32⟩
  | 70 => ⟨S4, .i32⟩
  | 71 => ⟨S4, .i32⟩
  | 72 => ⟨S4, .i32⟩
  | 73 => ⟨S_, .i32⟩
  | 74 => ⟨S4, .i32⟩
  | 75 => ⟨S4, .i1⟩
  | 76 => ⟨S4, .i32⟩
  | 77 => ⟨S4, .i32⟩
  | 78 => ⟨S_, .i32⟩
  | 79 => ⟨S4, .i32⟩
  | 80 => ⟨S4, .i1⟩
  | 81 => ⟨S4, .i1⟩
  | 82 => ⟨S_, .i32⟩
  | 83 => ⟨S4, .i32⟩
  | 84 => ⟨S4, .i32⟩
  | 85 => ⟨S4, .i32⟩
  | 86 => ⟨S_, .i32⟩
  | 87 => ⟨S_, .i32⟩
  | 88 => ⟨S4, .i32⟩
  | 89 => ⟨S100000, .i32⟩
  | 90 => ⟨S100000, .i32⟩
  | 91 => ⟨S100000, .i32⟩
  | 92 => ⟨S_, .i32⟩
  | 93 => ⟨S100000, .i32⟩
  | 94 => ⟨S100000, .i1⟩
  | 95 => ⟨S_, .i32⟩
  | 96 => ⟨S100000, .i32⟩
  | 97 => ⟨S100000, .i32⟩
  | 98 => ⟨S100000, .i32⟩
  | 99 => ⟨S100000x1, .i32⟩
  | 100 => ⟨S100000, .i32⟩
  | 101 => ⟨S100000, .i32⟩
  | 102 => ⟨S_, .i32⟩
  | 103 => ⟨S100000, .i32⟩
  | 104 => ⟨S100000, .i1⟩
  | 105 => ⟨S_, .i32⟩
  | 106 => ⟨S100000, .i32⟩
  | 107 => ⟨S100000, .i32⟩
  | 108 => ⟨S100000, .i32⟩
  | 109 => ⟨S100000x1, .i32⟩
  | 110 => ⟨S100000, .i32⟩
  | 111 => ⟨S100000, .i32⟩
  | 112 => ⟨S_, .i32⟩
  | 113 => ⟨S100000, .i32⟩
  | 114 => ⟨S100000, .i1⟩
  | 115 => ⟨S_, .i32⟩
  | 116 => ⟨S100000, .i32⟩
  | 117 => ⟨S100000, .i32⟩
  | 118 => ⟨S100000, .i32⟩
  | 119 => ⟨S100000x1, .i32⟩
  | 120 => ⟨S100000, .i32⟩
  | 121 => ⟨S100000, .i32⟩
  | 122 => ⟨S_, .i32⟩
  | 123 => ⟨S104000, .i32⟩
  | 124 => ⟨S_, .i32⟩
  | 125 => ⟨S100000, .i32⟩
  | 126 => ⟨S100000, .i1⟩
  | 127 => ⟨S_, .i32⟩
  | _ => ⟨S100000x256, .f32⟩

abbrev hbmTy0_1 (i : Nat) : BufTy := match i % 128 with
  | 0 => ⟨S100000, .i32⟩
  | 1 => ⟨S100000, .i32⟩
  | 2 => ⟨S100000, .i32⟩
  | 3 => ⟨S100000x1, .i32⟩
  | 4 => ⟨S104000, .i32⟩
  | 5 => ⟨S_, .i32⟩
  | 6 => ⟨S100000, .i32⟩
  | 7 => ⟨S_, .i32⟩
  | 8 => ⟨S100000, .i32⟩
  | 9 => ⟨S100000, .i1⟩
  | 10 => ⟨S_, .i32⟩
  | 11 => ⟨S100000, .i32⟩
  | 12 => ⟨S100000, .i32⟩
  | 13 => ⟨S100000, .i32⟩
  | 14 => ⟨S100000x1, .i32⟩
  | 15 => ⟨S100000, .i32⟩
  | 16 => ⟨S104, .i32⟩
  | 17 => ⟨S104x1, .i32⟩
  | 18 => ⟨S1x4, .i32⟩
  | 19 => ⟨S104x4, .i32⟩
  | 20 => ⟨S104x4, .i32⟩
  | 21 => ⟨S104x4, .i1⟩
  | 22 => ⟨S104x4, .i32⟩
  | 23 => ⟨S_, .i32⟩
  | 24 => ⟨S104, .i32⟩
  | 25 => ⟨S_, .i32⟩
  | 26 => ⟨S_, .i32⟩
  | 27 => ⟨S_, .i32⟩
  | 28 => ⟨S104, .i32⟩
  | 29 => ⟨S104, .i32⟩
  | 30 => ⟨S_, .i32⟩
  | 31 => ⟨S104, .i32⟩
  | 32 => ⟨S_, .i32⟩
  | 33 => ⟨S104000, .i32⟩
  | 34 => ⟨S104000, .i1⟩
  | 35 => ⟨S_, .i32⟩
  | 36 => ⟨S104000, .i32⟩
  | 37 => ⟨S104000, .i32⟩
  | 38 => ⟨S104000, .i32⟩
  | 39 => ⟨S104000x1, .i32⟩
  | 40 => ⟨S1, .i32⟩
  | 41 => ⟨S_, .i32⟩
  | 42 => ⟨S104000x1, .i32⟩
  | 43 => ⟨S104000x1, .i1⟩
  | 44 => ⟨S1x1, .i32⟩
  | 45 => ⟨S104000x1, .i32⟩
  | 46 => ⟨S104000x1, .i1⟩
  | 47 => ⟨S104000x1, .i1⟩
  | 48 => ⟨S_, .i1⟩
  | 49 => ⟨S104000, .i1⟩
  | 50 => ⟨S104000x256, .f32⟩
  | 51 => ⟨S104000x256, .i1⟩
  | 52 => ⟨S_, .f32⟩
  | 53 => ⟨S104000x256, .f32⟩
  | 54 => ⟨S104000x256, .f32⟩
  | 55 => ⟨S4x1x256, .f32⟩
  | 56 => ⟨S4x1x256, .f32⟩
  | 57 => ⟨S4x1x1, .f32⟩
  | 58 => ⟨S4x1x1, .f32⟩
  | 59 => ⟨S104000x1, .f32⟩
  | 60 => ⟨S104000x256, .f32⟩
  | 61 => ⟨S_, .i32⟩
  | 62 => ⟨S100000, .i32⟩
  | 63 => ⟨S100000, .i1⟩
  | 64 => ⟨S_, .i32⟩
  | 65 => ⟨S100000, .i32⟩
  | 66 => ⟨S100000, .i32⟩
  | 67 => ⟨S100000, .i32⟩
  | 68 => ⟨S100000x1, .i32⟩
  | 69 => ⟨S1, .i32⟩
  | 70 => ⟨S_, .i32⟩
  | 71 => ⟨S100000x1, .i32⟩
  | 72 => ⟨S100000x1, .i1⟩
  | 73 => ⟨S1x1, .i32⟩
  | 74 => ⟨S100000x1, .i32⟩
  | 75 => ⟨S100000x1, .i1⟩
  | 76 => ⟨S100000x1, .i1⟩
  | 77 => ⟨S_, .i1⟩
  | 78 => ⟨S100000, .i1⟩
  | 79 => ⟨S100000x1, .f32⟩
  | 80 => ⟨S100000x1, .i1⟩
  | 81 => ⟨S_, .f32⟩
  | 82 => ⟨S100000x1, .f32⟩
  | 83 => ⟨S100000x1, .f32⟩
  | 84 => ⟨S_, .i32⟩
  | 85 => ⟨S100000, .i32⟩
  | 86 => ⟨S100000, .i1⟩
  | 87 => ⟨S_, .i32⟩
  | 88 => ⟨S100000, .i32⟩
  | 89 => ⟨S100000, .i32⟩
  | 90 => ⟨S100000, .i32⟩
  | 91 => ⟨S100000x1, .i32⟩
  | 92 => ⟨S1, .i32⟩
  | 93 => ⟨S_, .i32⟩
  | 94 => ⟨S100000x1, .i32⟩
  | 95 => ⟨S100000x1, .i1⟩
  | 96 => ⟨S1x1, .i32⟩
  | 97 => ⟨S100000x1, .i32⟩
  | 98 => ⟨S100000x1, .i1⟩
  | 99 => ⟨S100000x1, .i1⟩
  | 100 => ⟨S_, .i1⟩
  | 101 => ⟨S100000, .i1⟩
  | 102 => ⟨S100000x256, .f32⟩
  | 103 => ⟨S100000x256, .i1⟩
  | 104 => ⟨S_, .f32⟩
  | 105 => ⟨S100000x256, .f32⟩
  | 106 => ⟨S100000x256, .f32⟩
  | 107 => ⟨S_, .f32⟩
  | 108 => ⟨S1000x1, .f32⟩
  | 109 => ⟨S100000x1, .i32⟩
  | 110 => ⟨S1000x1, .f32⟩
  | 111 => ⟨S_, .i32⟩
  | 112 => ⟨S200000, .i32⟩
  | 113 => ⟨S200000, .i1⟩
  | 114 => ⟨S_, .i32⟩
  | 115 => ⟨S200000, .i32⟩
  | 116 => ⟨S200000, .i32⟩
  | 117 => ⟨S200000, .i32⟩
  | 118 => ⟨S200000x1, .i32⟩
  | 119 => ⟨S200000x256, .f32⟩
  | 120 => ⟨S200000x768, .f32⟩
  | 121 => ⟨S200000x3, .f32⟩
  | 122 => ⟨S_, .f32⟩
  | 123 => ⟨S100000x3, .f32⟩
  | 124 => ⟨S200000x1, .i32⟩
  | 125 => ⟨S100000x3, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | .local _ .vmem, ⟨0, _⟩ => ⟨S1000x256, .f32⟩
  | .local _ .vmem, ⟨1, _⟩ => ⟨S1000x256, .f32⟩
  | .local _ .vmem, ⟨2, _⟩ => ⟨S1x256x256, .f32⟩
  | .local _ .vmem, ⟨3, _⟩ => ⟨S1x256x256, .f32⟩
  | .local _ .vmem, ⟨4, _⟩ => ⟨S1x1x256, .f32⟩
  | .local _ .vmem, ⟨5, _⟩ => ⟨S1x1x256, .f32⟩
  | .local _ .vmem, ⟨6, _⟩ => ⟨S1x256x256, .f32⟩
  | .local _ .vmem, ⟨7, _⟩ => ⟨S1x256x256, .f32⟩
  | .local _ .vmem, ⟨8, _⟩ => ⟨S1x1x256, .f32⟩
  | .local _ .vmem, ⟨9, _⟩ => ⟨S1x1x256, .f32⟩
  | .local _ .vmem, ⟨10, _⟩ => ⟨S1x256x1, .f32⟩
  | .local _ .vmem, ⟨11, _⟩ => ⟨S1x256x1, .f32⟩
  | .local _ .vmem, ⟨12, _⟩ => ⟨S1x1x1, .f32⟩
  | .local _ .vmem, ⟨13, _⟩ => ⟨S1x1x1, .f32⟩
  | .local _ .vmem, ⟨14, _⟩ => ⟨S1x256x1, .f32⟩
  | .local _ .vmem, ⟨15, _⟩ => ⟨S1x256x1, .f32⟩
  | .local _ .vmem, ⟨16, _⟩ => ⟨S1x1x1, .f32⟩
  | .local _ .vmem, ⟨17, _⟩ => ⟨S1x1x1, .f32⟩
  | .local _ .vmem, ⟨18, _⟩ => ⟨S1000x1, .f32⟩
  | .local _ .vmem, ⟨19, _⟩ => ⟨S1000x1, .f32⟩
  | .local _ .vmem, ⟨20, _⟩ => ⟨S1000x256, .f32⟩
  | .local _ .vmem, ⟨21, _⟩ => ⟨S1000x256, .f32⟩
  | .local _ .vmem, ⟨22, _⟩ => ⟨S2000x256, .f32⟩
  | .local _ .vmem, ⟨23, _⟩ => ⟨S2000x256, .f32⟩
  | .local _ .vmem, ⟨24, _⟩ => ⟨S2000x768, .f32⟩
  | .local _ .vmem, ⟨25, _⟩ => ⟨S2000x768, .f32⟩
  | .local _ .vmem, ⟨26, _⟩ => ⟨S2000x3, .f32⟩
  | .local _ .vmem, ⟨27, _⟩ => ⟨S2000x3, .f32⟩
  | .local _ .smem, ⟨0, _⟩ => ⟨S104, .i32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_c_0 : Ref sig .tc := ⟨.hbm, 15, rfl⟩
abbrev main_call0_v0 : Ref sig .tc := ⟨.hbm, 16, rfl⟩
abbrev main_call0_v1 : Ref sig .tc := ⟨.hbm, 17, rfl⟩
abbrev main_v1 : Ref sig .tc := ⟨.hbm, 18, rfl⟩
abbrev main_c_1 : Ref sig .tc := ⟨.hbm, 19, rfl⟩
abbrev main_v2 : Ref sig .tc := ⟨.hbm, 20, rfl⟩
abbrev main_v3 : Ref sig .tc := ⟨.hbm, 21, rfl⟩
abbrev main_c_2 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_c_3 : Ref sig .tc := ⟨.hbm, 27, rfl⟩
abbrev main_v8 : Ref sig .tc := ⟨.hbm, 28, rfl⟩
abbrev main_v9 : Ref sig .tc := ⟨.hbm, 29, rfl⟩
abbrev main_c_4 : Ref sig .tc := ⟨.hbm, 30, rfl⟩
abbrev main_v10 : Ref sig .tc := ⟨.hbm, 31, rfl⟩
abbrev main_v11 : Ref sig .tc := ⟨.hbm, 32, rfl⟩
abbrev main_c_5 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_c : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_0 : Ref sig .tc := ⟨.hbm, 47, rfl⟩
abbrev main_call1_v12 : Ref sig .tc := ⟨.hbm, 48, rfl⟩
abbrev main_call1_v13 : Ref sig .tc := ⟨.hbm, 49, rfl⟩
abbrev main_v12 : Ref sig .tc := ⟨.hbm, 50, rfl⟩
abbrev main_c_6 : Ref sig .tc := ⟨.hbm, 51, rfl⟩
abbrev main_v13 : Ref sig .tc := ⟨.hbm, 52, rfl⟩
abbrev main_v14 : Ref sig .tc := ⟨.hbm, 53, rfl⟩
abbrev main_c_7 : Ref sig .tc := ⟨.hbm, 54, rfl⟩
abbrev main_v15 : Ref sig .tc := ⟨.hbm, 55, rfl⟩
abbrev main_call2_call0_c : Ref sig .tc := ⟨.hbm, 56, rfl⟩
abbrev main_call2_call0_v0 : Ref sig .tc := ⟨.hbm, 57, rfl⟩
abbrev main_v16 : Ref sig .tc := ⟨.hbm, 58, rfl⟩
abbrev main_v17 : Ref sig .tc := ⟨.hbm, 59, rfl⟩
abbrev main_v18 : Ref sig .tc := ⟨.hbm, 60, rfl⟩
abbrev main_c_8 : Ref sig .tc := ⟨.hbm, 61, rfl⟩
abbrev main_v19 : Ref sig .tc := ⟨.hbm, 62, rfl⟩
abbrev main_call3_call0_c : Ref sig .tc := ⟨.hbm, 63, rfl⟩
abbrev main_call3_call0_v0 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_c_9 : Ref sig .tc := ⟨.hbm, 68, rfl⟩
abbrev main_call4_v0 : Ref sig .tc := ⟨.hbm, 69, rfl⟩
abbrev main_call4_v1 : Ref sig .tc := ⟨.hbm, 70, rfl⟩
abbrev main_call4_v2 : Ref sig .tc := ⟨.hbm, 71, rfl⟩
abbrev main_call4_v3 : Ref sig .tc := ⟨.hbm, 72, rfl⟩
abbrev main_call4_v4 : Ref sig .tc := ⟨.hbm, 73, rfl⟩
abbrev main_call4_v5 : Ref sig .tc := ⟨.hbm, 74, rfl⟩
abbrev main_call4_v6 : Ref sig .tc := ⟨.hbm, 75, rfl⟩
abbrev main_call4_v7 : Ref sig .tc := ⟨.hbm, 76, rfl⟩
abbrev main_call4_v8 : Ref sig .tc := ⟨.hbm, 77, rfl⟩
abbrev main_call4_c : Ref sig .tc := ⟨.hbm, 78, rfl⟩
abbrev main_call4_v9 : Ref sig .tc := ⟨.hbm, 79, rfl⟩
abbrev main_call4_v10 : Ref sig .tc := ⟨.hbm, 80, rfl⟩
abbrev main_call4_v11 : Ref sig .tc := ⟨.hbm, 81, rfl⟩
abbrev main_call4_c_0 : Ref sig .tc := ⟨.hbm, 82, rfl⟩
abbrev main_call4_v12 : Ref sig .tc := ⟨.hbm, 83, rfl⟩
abbrev main_call4_v13 : Ref sig .tc := ⟨.hbm, 84, rfl⟩
abbrev main_v23 : Ref sig .tc := ⟨.hbm, 85, rfl⟩
abbrev main_call5_call0_c : Ref sig .tc := ⟨.hbm, 86, rfl⟩
abbrev main_call5_call0_v0 : Ref sig .tc := ⟨.hbm, 87, rfl⟩
abbrev main_v24 : Ref sig .tc := ⟨.hbm, 88, rfl⟩
abbrev main_call6_v0 : Ref sig .tc := ⟨.hbm, 89, rfl⟩
abbrev main_call6_v1_0 : Ref sig .tc := ⟨.hbm, 90, rfl⟩
abbrev main_v25 : Ref sig .tc := ⟨.hbm, 91, rfl⟩
abbrev main_c_10 : Ref sig .tc := ⟨.hbm, 92, rfl⟩
abbrev main_v26 : Ref sig .tc := ⟨.hbm, 93, rfl⟩
abbrev main_v27 : Ref sig .tc := ⟨.hbm, 94, rfl⟩
abbrev main_c_11 : Ref sig .tc := ⟨.hbm, 95, rfl⟩
abbrev main_v28 : Ref sig .tc := ⟨.hbm, 96, rfl⟩
abbrev main_v29 : Ref sig .tc := ⟨.hbm, 97, rfl⟩
abbrev main_v30 : Ref sig .tc := ⟨.hbm, 98, rfl⟩
abbrev main_v31 : Ref sig .tc := ⟨.hbm, 99, rfl⟩
abbrev main_v32 : Ref sig .tc := ⟨.hbm, 100, rfl⟩
abbrev main_v33 : Ref sig .tc := ⟨.hbm, 101, rfl⟩
abbrev main_c_12 : Ref sig .tc := ⟨.hbm, 102, rfl⟩
abbrev main_v34 : Ref sig .tc := ⟨.hbm, 103, rfl⟩
abbrev main_v35 : Ref sig .tc := ⟨.hbm, 104, rfl⟩
abbrev main_c_13 : Ref sig .tc := ⟨.hbm, 105, rfl⟩
abbrev main_v36 : Ref sig .tc := ⟨.hbm, 106, rfl⟩
abbrev main_v37 : Ref sig .tc := ⟨.hbm, 107, rfl⟩
abbrev main_v38 : Ref sig .tc := ⟨.hbm, 108, rfl⟩
abbrev main_v39 : Ref sig .tc := ⟨.hbm, 109, rfl⟩
abbrev main_v40 : Ref sig .tc := ⟨.hbm, 110, rfl⟩
abbrev main_v41 : Ref sig .tc := ⟨.hbm, 111, rfl⟩
abbrev main_c_14 : Ref sig .tc := ⟨.hbm, 112, rfl⟩
abbrev main_v42 : Ref sig .tc := ⟨.hbm, 113, rfl⟩
abbrev main_v43 : Ref sig .tc := ⟨.hbm, 114, rfl⟩
abbrev main_c_15 : Ref sig .tc := ⟨.hbm, 115, rfl⟩
abbrev main_v44 : Ref sig .tc := ⟨.hbm, 116, rfl⟩
abbrev main_v45 : Ref sig .tc := ⟨.hbm, 117, rfl⟩
abbrev main_v46 : Ref sig .tc := ⟨.hbm, 118, rfl⟩
abbrev main_v47 : Ref sig .tc := ⟨.hbm, 119, rfl⟩
abbrev main_v48 : Ref sig .tc := ⟨.hbm, 120, rfl⟩
abbrev main_v49 : Ref sig .tc := ⟨.hbm, 121, rfl⟩
abbrev main_c_16 : Ref sig .tc := ⟨.hbm, 122, rfl⟩
abbrev main_v50 : Ref sig .tc := ⟨.hbm, 123, rfl⟩
abbrev main_c_17 : Ref sig .tc := ⟨.hbm, 124, rfl⟩
abbrev main_v51 : Ref sig .tc := ⟨.hbm, 125, rfl⟩
abbrev main_v52 : Ref sig .tc := ⟨.hbm, 126, rfl⟩
abbrev main_c_18 : Ref sig .tc := ⟨.hbm, 127, rfl⟩
abbrev main_v53 : Ref sig .tc := ⟨.hbm, 128, rfl⟩
abbrev main_v54 : Ref sig .tc := ⟨.hbm, 129, rfl⟩
abbrev main_v55 : Ref sig .tc := ⟨.hbm, 130, rfl⟩
abbrev main_v56 : Ref sig .tc := ⟨.hbm, 131, rfl⟩
abbrev main_v57 : Ref sig .tc := ⟨.hbm, 132, rfl⟩
abbrev main_c_19 : Ref sig .tc := ⟨.hbm, 133, rfl⟩
abbrev main_v58 : Ref sig .tc := ⟨.hbm, 134, rfl⟩
abbrev main_c_20 : Ref sig .tc := ⟨.hbm, 135, rfl⟩
abbrev main_v59 : Ref sig .tc := ⟨.hbm, 136, rfl⟩
abbrev main_v60 : Ref sig .tc := ⟨.hbm, 137, rfl⟩
abbrev main_c_21 : Ref sig .tc := ⟨.hbm, 138, rfl⟩
abbrev main_v61 : Ref sig .tc := ⟨.hbm, 139, rfl⟩
abbrev main_v62 : Ref sig .tc := ⟨.hbm, 140, rfl⟩
abbrev main_v63 : Ref sig .tc := ⟨.hbm, 141, rfl⟩
abbrev main_v64 : Ref sig .tc := ⟨.hbm, 142, rfl⟩
abbrev main_v65 : Ref sig .tc := ⟨.hbm, 143, rfl⟩
abbrev main_v66 : Ref sig .tc := ⟨.hbm, 144, rfl⟩
abbrev main_v67 : Ref sig .tc := ⟨.hbm, 145, rfl⟩
abbrev main_v68 : Ref sig .tc := ⟨.hbm, 146, rfl⟩
abbrev main_v69 : Ref sig .tc := ⟨.hbm, 147, rfl⟩
abbrev main_v70 : Ref sig .tc := ⟨.hbm, 148, rfl⟩
abbrev main_v71 : Ref sig .tc := ⟨.hbm, 149, rfl⟩
abbrev main_v72 : Ref sig .tc := ⟨.hbm, 150, rfl⟩
abbrev main_c_22 : Ref sig .tc := ⟨.hbm, 151, rfl⟩
abbrev main_v73 : Ref sig .tc := ⟨.hbm, 152, rfl⟩
abbrev main_c_23 : Ref sig .tc := ⟨.hbm, 153, rfl⟩
abbrev main_c_24 : Ref sig .tc := ⟨.hbm, 154, rfl⟩
abbrev main_call7_v0 : Ref sig .tc := ⟨.hbm, 155, rfl⟩
abbrev main_call7_v1 : Ref sig .tc := ⟨.hbm, 156, rfl⟩
abbrev main_call7_v2 : Ref sig .tc := ⟨.hbm, 157, rfl⟩
abbrev main_call7_v3 : Ref sig .tc := ⟨.hbm, 158, rfl⟩
abbrev main_call7_v4 : Ref sig .tc := ⟨.hbm, 159, rfl⟩
abbrev main_call8_c : Ref sig .tc := ⟨.hbm, 160, rfl⟩
abbrev main_call8_v0 : Ref sig .tc := ⟨.hbm, 161, rfl⟩
abbrev main_call8_v1 : Ref sig .tc := ⟨.hbm, 162, rfl⟩
abbrev main_call8_c_0 : Ref sig .tc := ⟨.hbm, 163, rfl⟩
abbrev main_call8_v2 : Ref sig .tc := ⟨.hbm, 164, rfl⟩
abbrev main_call8_v3 : Ref sig .tc := ⟨.hbm, 165, rfl⟩
abbrev main_call8_v4 : Ref sig .tc := ⟨.hbm, 166, rfl⟩
abbrev main_call8_v5 : Ref sig .tc := ⟨.hbm, 167, rfl⟩
abbrev main_call8_c_1 : Ref sig .tc := ⟨.hbm, 168, rfl⟩
abbrev main_call8_c_2 : Ref sig .tc := ⟨.hbm, 169, rfl⟩
abbrev main_call8_v6 : Ref sig .tc := ⟨.hbm, 170, rfl⟩
abbrev main_call8_v7 : Ref sig .tc := ⟨.hbm, 171, rfl⟩
abbrev main_call8_v8 : Ref sig .tc := ⟨.hbm, 172, rfl⟩
abbrev main_call8_v9 : Ref sig .tc := ⟨.hbm, 173, rfl⟩
abbrev main_call8_v10 : Ref sig .tc := ⟨.hbm, 174, rfl⟩
abbrev main_call8_v11 : Ref sig .tc := ⟨.hbm, 175, rfl⟩
abbrev main_call8_c_3 : Ref sig .tc := ⟨.hbm, 176, rfl⟩
abbrev main_call8_v12 : Ref sig .tc := ⟨.hbm, 177, rfl⟩
abbrev main_call8_v13 : Ref sig .tc := ⟨.hbm, 178, rfl⟩
abbrev main_call8_v14 : Ref sig .tc := ⟨.hbm, 179, rfl⟩
abbrev main_call8_cst : Ref sig .tc := ⟨.hbm, 180, rfl⟩
abbrev main_call8_v15 : Ref sig .tc := ⟨.hbm, 181, rfl⟩
abbrev main_v75 : Ref sig .tc := ⟨.hbm, 182, rfl⟩
abbrev main_v76 : Ref sig .tc := ⟨.hbm, 183, rfl⟩
abbrev main_v77 : Ref sig .tc := ⟨.hbm, 184, rfl⟩
abbrev main_v78 : Ref sig .tc := ⟨.hbm, 185, rfl⟩
abbrev main_v79 : Ref sig .tc := ⟨.hbm, 186, rfl⟩
abbrev main_v80_0 : Ref sig .tc := ⟨.hbm, 187, rfl⟩
abbrev main_v80_1 : Ref sig .tc := ⟨.hbm, 188, rfl⟩
abbrev main_call9_c : Ref sig .tc := ⟨.hbm, 189, rfl⟩
abbrev main_call9_v0 : Ref sig .tc := ⟨.hbm, 190, rfl⟩
abbrev main_call9_v1 : Ref sig .tc := ⟨.hbm, 191, rfl⟩
abbrev main_call9_c_0 : Ref sig .tc := ⟨.hbm, 192, rfl⟩
abbrev main_call9_v2 : Ref sig .tc := ⟨.hbm, 193, rfl⟩
abbrev main_call9_v3 : Ref sig .tc := ⟨.hbm, 194, rfl⟩
abbrev main_call9_v4 : Ref sig .tc := ⟨.hbm, 195, rfl⟩
abbrev main_call9_v5 : Ref sig .tc := ⟨.hbm, 196, rfl⟩
abbrev main_call9_c_1 : Ref sig .tc := ⟨.hbm, 197, rfl⟩
abbrev main_call9_c_2 : Ref sig .tc := ⟨.hbm, 198, rfl⟩
abbrev main_call9_v6 : Ref sig .tc := ⟨.hbm, 199, rfl⟩
abbrev main_call9_v7 : Ref sig .tc := ⟨.hbm, 200, rfl⟩
abbrev main_call9_v8 : Ref sig .tc := ⟨.hbm, 201, rfl⟩
abbrev main_call9_v9 : Ref sig .tc := ⟨.hbm, 202, rfl⟩
abbrev main_call9_v10 : Ref sig .tc := ⟨.hbm, 203, rfl⟩
abbrev main_call9_v11 : Ref sig .tc := ⟨.hbm, 204, rfl⟩
abbrev main_call9_c_3 : Ref sig .tc := ⟨.hbm, 205, rfl⟩
abbrev main_call9_v12 : Ref sig .tc := ⟨.hbm, 206, rfl⟩
abbrev main_call9_v13 : Ref sig .tc := ⟨.hbm, 207, rfl⟩
abbrev main_call9_v14 : Ref sig .tc := ⟨.hbm, 208, rfl⟩
abbrev main_call9_cst : Ref sig .tc := ⟨.hbm, 209, rfl⟩
abbrev main_call9_v15 : Ref sig .tc := ⟨.hbm, 210, rfl⟩
abbrev main_v81 : Ref sig .tc := ⟨.hbm, 211, rfl⟩
abbrev main_call10_c : Ref sig .tc := ⟨.hbm, 212, rfl⟩
abbrev main_call10_v0 : Ref sig .tc := ⟨.hbm, 213, rfl⟩
abbrev main_call10_v1 : Ref sig .tc := ⟨.hbm, 214, rfl⟩
abbrev main_call10_c_0 : Ref sig .tc := ⟨.hbm, 215, rfl⟩
abbrev main_call10_v2 : Ref sig .tc := ⟨.hbm, 216, rfl⟩
abbrev main_call10_v3 : Ref sig .tc := ⟨.hbm, 217, rfl⟩
abbrev main_call10_v4 : Ref sig .tc := ⟨.hbm, 218, rfl⟩
abbrev main_call10_v5 : Ref sig .tc := ⟨.hbm, 219, rfl⟩
abbrev main_call10_c_1 : Ref sig .tc := ⟨.hbm, 220, rfl⟩
abbrev main_call10_c_2 : Ref sig .tc := ⟨.hbm, 221, rfl⟩
abbrev main_call10_v6 : Ref sig .tc := ⟨.hbm, 222, rfl⟩
abbrev main_call10_v7 : Ref sig .tc := ⟨.hbm, 223, rfl⟩
abbrev main_call10_v8 : Ref sig .tc := ⟨.hbm, 224, rfl⟩
abbrev main_call10_v9 : Ref sig .tc := ⟨.hbm, 225, rfl⟩
abbrev main_call10_v10 : Ref sig .tc := ⟨.hbm, 226, rfl⟩
abbrev main_call10_v11 : Ref sig .tc := ⟨.hbm, 227, rfl⟩
abbrev main_call10_c_3 : Ref sig .tc := ⟨.hbm, 228, rfl⟩
abbrev main_call10_v12 : Ref sig .tc := ⟨.hbm, 229, rfl⟩
abbrev main_call10_v13 : Ref sig .tc := ⟨.hbm, 230, rfl⟩
abbrev main_call10_v14 : Ref sig .tc := ⟨.hbm, 231, rfl⟩
abbrev main_call10_cst : Ref sig .tc := ⟨.hbm, 232, rfl⟩
abbrev main_call10_v15 : Ref sig .tc := ⟨.hbm, 233, rfl⟩
abbrev main_v82 : Ref sig .tc := ⟨.hbm, 234, rfl⟩
abbrev main_cst : Ref sig .tc := ⟨.hbm, 235, rfl⟩
abbrev main_v83 : Ref sig .tc := ⟨.hbm, 236, rfl⟩
abbrev main_v84 : Ref sig .tc := ⟨.hbm, 237, rfl⟩
abbrev main_v85 : Ref sig .tc := ⟨.hbm, 238, rfl⟩
abbrev main_c_25 : Ref sig .tc := ⟨.hbm, 239, rfl⟩
abbrev main_v86 : Ref sig .tc := ⟨.hbm, 240, rfl⟩
abbrev main_v87 : Ref sig .tc := ⟨.hbm, 241, rfl⟩
abbrev main_c_26 : Ref sig .tc := ⟨.hbm, 242, rfl⟩
abbrev main_v88 : Ref sig .tc := ⟨.hbm, 243, rfl⟩
abbrev main_v89 : Ref sig .tc := ⟨.hbm, 244, rfl⟩
abbrev main_v90 : Ref sig .tc := ⟨.hbm, 245, rfl⟩
abbrev main_v91 : Ref sig .tc := ⟨.hbm, 246, rfl⟩
abbrev main_v92 : Ref sig .tc := ⟨.hbm, 247, rfl⟩
abbrev main_v93 : Ref sig .tc := ⟨.hbm, 248, rfl⟩
abbrev main_v94 : Ref sig .tc := ⟨.hbm, 249, rfl⟩
abbrev main_cst_27 : Ref sig .tc := ⟨.hbm, 250, rfl⟩
abbrev main_v95 : Ref sig .tc := ⟨.hbm, 251, rfl⟩
abbrev main_v96 : Ref sig .tc := ⟨.hbm, 252, rfl⟩
abbrev main_v97 : Ref sig .tc := ⟨.hbm, 253, rfl⟩
abbrev main_v74 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc1_stg0_0 : Ref sig .tc := ⟨.vmem, 22, rfl⟩
abbrev cc1_stg0_1 : Ref sig .tc := ⟨.vmem, 23, rfl⟩
abbrev cc1_stg1_0 : Ref sig .tc := ⟨.vmem, 24, rfl⟩
abbrev cc1_stg1_1 : Ref sig .tc := ⟨.vmem, 25, rfl⟩
abbrev cc1_stg2_0 : Ref sig .tc := ⟨.vmem, 26, rfl⟩
abbrev cc1_stg2_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc1_sem0_0 : DmaSem sig := 22
abbrev cc1_sem0_1 : DmaSem sig := 23
abbrev cc1_sem1_0 : DmaSem sig := 24
abbrev cc1_sem1_1 : DmaSem sig := 25
abbrev cc1_sem2_0 : DmaSem sig := 26
abbrev cc1_sem2_1 : DmaSem sig := 27

abbrev nD : Nat := 1
abbrev τ : Topo := Topo.v7x

variable {F : FTy → Type} [FloatOps F]

abbrev grid0 : Pipeline.Grid := ⟨1, ![104], ![false]⟩

abbrev pre0 : Pipeline.Prefetch sig := ⟨1, ![main_v74.idx], fun | 0 => main_v74.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S104.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S104) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S104.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S104) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S104.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S104) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S104.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S104) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S104.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S104) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_6 (k0_off1_inb : ∀ i : grid0.Coords, ∀ a, (k0_off1 i) a + S1.size a ≤ S104.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S104) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_7 (k0_off1_inb : ∀ i : grid0.Coords, ∀ a, (k0_off1 i) a + S1.size a ≤ S104.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S104) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_8 (k0_off1_inb : ∀ i : grid0.Coords, ∀ a, (k0_off1 i) a + S1.size a ≤ S104.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S104) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1000x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1000x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x768 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x3 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  bcast_S_S4 : S_.BroadcastsInDim S4 (![] : Fin 0 → Fin S4.rank)
  bcast_S_S100000 : S_.BroadcastsInDim S100000 (![] : Fin 0 → Fin S100000.rank)
  bcast_S100000_S100000x1_0 : S100000.BroadcastsInDim S100000x1 (![0] : Fin 1 → Fin S100000x1.rank)
  bcast_S_S1 : S_.BroadcastsInDim S1 (![] : Fin 0 → Fin S1.rank)
  bcast_S_S_ : S_.BroadcastsInDim S_ (![] : Fin 0 → Fin S_.rank)
  reduceWindows_S4_S4_w4s1p3_0 : S4.ReduceWindows (![4] : Fin 1 → Nat) ![1] ![3] ![0] S4
  h_S_ : 0 < S_.numel
  slices_S4_S3_0 : S4.Slices ![0] S3
  concatenates_S1_S3_S4_d0 : Shape.Concatenates [S1, S3] S4 0
  bcast_S_S104000 : S_.BroadcastsInDim S104000 (![] : Fin 0 → Fin S104000.rank)
  bcast_S104_S104x1_0 : S104.BroadcastsInDim S104x1 (![0] : Fin 1 → Fin S104x1.rank)
  bcast_S4_S1x4_1 : S4.BroadcastsInDim S1x4 (![1] : Fin 1 → Fin S1x4.rank)
  bcast_S104x1_S104x4_0_1 : S104x1.BroadcastsInDim S104x4 (![0, 1] : Fin 2 → Fin S104x4.rank)
  bcast_S1x4_S104x4_0_1 : S1x4.BroadcastsInDim S104x4 (![0, 1] : Fin 2 → Fin S104x4.rank)
  natLt_1_32 : 1 < 32
  reducesTo_S104x4_S104_d1 : S104x4.ReducesTo [1] S104
  bcast_S_S104 : S_.BroadcastsInDim S104 (![] : Fin 0 → Fin S104.rank)
  bcast_S104000_S104000x1_0 : S104000.BroadcastsInDim S104000x1 (![0] : Fin 1 → Fin S104000x1.rank)
  bcast_S_S104000x1 : S_.BroadcastsInDim S104000x1 (![] : Fin 0 → Fin S104000x1.rank)
  bcast_S1_S1x1_1 : S1.BroadcastsInDim S1x1 (![1] : Fin 1 → Fin S1x1.rank)
  bcast_S1x1_S104000x1_0_1 : S1x1.BroadcastsInDim S104000x1 (![0, 1] : Fin 2 → Fin S104000x1.rank)
  reducesTo_S104000x1_S104000_d1 : S104000x1.ReducesTo [1] S104000
  bcast_S104000_S104000x256_0 : S104000.BroadcastsInDim S104000x256 (![0] : Fin 1 → Fin S104000x256.rank)
  bcast_S_S104000x256 : S_.BroadcastsInDim S104000x256 (![] : Fin 0 → Fin S104000x256.rank)
  bcast_S4x256_S4x1x256_0_2 : S4x256.BroadcastsInDim S4x1x256 (![0, 2] : Fin 2 → Fin S4x1x256.rank)
  bcast_S4x1_S4x1x1_0_2 : S4x1.BroadcastsInDim S4x1x1 (![0, 2] : Fin 2 → Fin S4x1x1.rank)
  numel1_S1 : S1.numel = 1
  inb_S1000x256_S1000x256_0_0 : ∀ a, (![0, 0] : Fin 2 → Nat) a + S1000x256.size a ≤ S1000x256.size a
  h_S1000x256 : 0 < S1000x256.numel
  shapeCasts_S1000x256_S1000x256 : S1000x256.ShapeCasts S1000x256
  bitsLt_bf16_f32 : FTy.bits .bf16 < FTy.bits .f32
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  inb_S1x1x256_S1x1x256_0_0_0 : ∀ a, (![0, 0, 0] : Fin 3 → Nat) a + S1x1x256.size a ≤ S1x1x256.size a
  h_S1x1x256 : 0 < S1x1x256.numel
  shapeCasts_S1x1x256_S1x256 : S1x1x256.ShapeCasts S1x256
  broadcasts_S1x256_S1000x256 : S1x256.Broadcasts S1000x256
  inb_S1x256x1_S1x256x1_0_0_0 : ∀ a, (![0, 0, 0] : Fin 3 → Nat) a + S1x256x1.size a ≤ S1x256x1.size a
  h_S1x256x1 : 0 < S1x256x1.numel
  shapeCasts_S1x256x1_S256x1 : S1x256x1.ShapeCasts S256x1
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  broadcasts_S1x1_S1000x1 : S1x1.Broadcasts S1000x1
  inb_S1000x1_S1000x1_0_0 : ∀ a, (![0, 0] : Fin 2 → Nat) a + S1000x1.size a ≤ S1000x1.size a
  h_S1000x1 : 0 < S1000x1.numel
  shapeCasts_S256x1_S256 : S256x1.ShapeCasts S256
  shapeCasts_S256_S1x256 : S256.ShapeCasts S1x256
  bcast_S_S100000x1 : S_.BroadcastsInDim S100000x1 (![] : Fin 0 → Fin S100000x1.rank)
  bcast_S1x1_S100000x1_0_1 : S1x1.BroadcastsInDim S100000x1 (![0, 1] : Fin 2 → Fin S100000x1.rank)
  reducesTo_S100000x1_S100000_d1 : S100000x1.ReducesTo [1] S100000
  bcast_S100000_S100000x256_0 : S100000.BroadcastsInDim S100000x256 (![0] : Fin 1 → Fin S100000x256.rank)
  bcast_S_S100000x256 : S_.BroadcastsInDim S100000x256 (![] : Fin 0 → Fin S100000x256.rank)
  bcast_S_S1000x1 : S_.BroadcastsInDim S1000x1 (![] : Fin 0 → Fin S1000x1.rank)
  bcast_S_S200000 : S_.BroadcastsInDim S200000 (![] : Fin 0 → Fin S200000.rank)
  bcast_S200000_S200000x1_0 : S200000.BroadcastsInDim S200000x1 (![0] : Fin 1 → Fin S200000x1.rank)
  shapeCasts_S200000x3x256_S200000x768 : S200000x3x256.ShapeCasts S200000x768
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S2000x768_S2000x768_0_0 : ∀ a, (![0, 0] : Fin 2 → Nat) a + S2000x768.size a ≤ S2000x768.size a
  h_S2000x768 : 0 < S2000x768.numel
  shapeCasts_S2000x768_S2000x768 : S2000x768.ShapeCasts S2000x768
  slices_S2000x768_o0_0_S2000x256 : S2000x768.Slices ![0, 0] S2000x256
  reduces_S2000x256_S2000 : S2000x256.Reduces [1] S2000
  shapeCasts_S2000_S2000x1 : S2000.ShapeCasts S2000x1
  slices_S2000x768_o0_256_S2000x256 : S2000x768.Slices ![0, 256] S2000x256
  slices_S2000x768_o0_512_S2000x256 : S2000x768.Slices ![0, 512] S2000x256
  concatenates_S2000x1_S2000x1_S2000x1_S2000x3_d1 : Shape.Concatenates [S2000x1, S2000x1, S2000x1] S2000x3 1
  inb_S2000x3_S2000x3_0_0 : ∀ a, (![0, 0] : Fin 2 → Nat) a + S2000x3.size a ≤ S2000x3.size a
  h_S2000x3 : 0 < S2000x3.numel
  bcast_S_S100000x3 : S_.BroadcastsInDim S100000x3 (![] : Fin 0 → Fin S100000x3.rank)
  scatter_S4_S100000x1_S100000_n_0_0_1_wf : ScatterDims.WF S4 S100000x1 S100000 [] [0] [0] 1
  gather_S100000_S100000x1_S100000_n_0_n_n_0_1_1_wf : GatherDims.WF S100000 S100000x1 S100000 [] [0] [] [0] [] 1 ![1]
  gather_S4_S100000x1_S100000_n_0_n_n_0_1_1_wf : GatherDims.WF S4 S100000x1 S100000 [] [0] [] [0] [] 1 ![1]
  scatter_S104000_S100000x1_S100000_n_0_0_1_wf : ScatterDims.WF S104000 S100000x1 S100000 [] [0] [0] 1
  scatter_S100000_S100000x1_S100000_n_0_0_1_wf : ScatterDims.WF S100000 S100000x1 S100000 [] [0] [0] 1
  gather_S100000x256_S104000x1_S104000x256_1_0_n_n_0_1_1256_wf : GatherDims.WF S100000x256 S104000x1 S104000x256 [1] [0] [] [0] [] 1 ![1, 256]
  dot_S1000x256_S256x256_S1000x256_1_0_0_1_n_n_wf : DotDims.WF S1000x256 S256x256 S1000x256 [1] [0] [0] [1] [] []
  dot_S1000x256_S256x1_S1000x1_1_0_0_1_n_n_wf : DotDims.WF S1000x256 S256x1 S1000x1 [1] [0] [0] [1] [] []
  dot_S1000x256_S256x256_S1000x256_1_1_0_0_n_n_wf : DotDims.WF S1000x256 S256x256 S1000x256 [1] [1] [0] [0] [] []
  gather_S104000x1_S100000x1_S100000x1_1_0_n_n_0_1_11_wf : GatherDims.WF S104000x1 S100000x1 S100000x1 [1] [0] [] [0] [] 1 ![1, 1]
  gather_S104000x256_S100000x1_S100000x256_1_0_n_n_0_1_1256_wf : GatherDims.WF S104000x256 S100000x1 S100000x256 [1] [0] [] [0] [] 1 ![1, 256]
  scatter_S1000x1_S100000x1_S100000x1_1_0_0_1_wf : ScatterDims.WF S1000x1 S100000x1 S100000x1 [1] [0] [0] 1
  gather_S100000x256_S200000x1_S200000x256_1_0_n_n_0_1_1256_wf : GatherDims.WF S100000x256 S200000x1 S200000x256 [1] [0] [] [0] [] 1 ![1, 256]
  scatter_S100000x3_S200000x1_S200000x3_1_0_0_1_wf : ScatterDims.WF S100000x3 S200000x1 S200000x3 [1] [0] [0] 1
  hrank0 : 0 < grid0.rank
  k0_off1_inb : ∀ i : grid0.Coords, ∀ a, (k0_off1 i) a + S1.size a ≤ S104.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x256.size a ≤ S104000x256.size a
  hwx0_0 : ∀ i : grid0.Coords, EltTy.bits .f32 = 32 ∨ (Rect.block (s := S104000x256) S1000x256.size (cc0_transform_0 i) (hinb0_0 i)).WholeWords (EltTy.packing .f32)
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 false = 2
  hreads0_2 : ∀ {F : FTy → Type} [FloatOps F] (pf : pre0.Contents (Elt F)) (i i' : grid0.Coords), (∀ a, reads0_2 a = true → i a = i' a) → cc0_transform_2 k0_off1_inb numel1_S1 pf i = cc0_transform_2 k0_off1_inb numel1_S1 pf i'
  hstage0_3 : ∀ j, (stage0_3 j).IsWhole
  nbuf0_3 : grid0.bufCount reads0_3 false = 2
  hreads0_3 : ∀ {F : FTy → Type} [FloatOps F] (pf : pre0.Contents (Elt F)) (i i' : grid0.Coords), (∀ a, reads0_3 a = true → i a = i' a) → cc0_transform_3 k0_off1_inb numel1_S1 pf i = cc0_transform_3 k0_off1_inb numel1_S1 pf i'
  hstage0_4 : ∀ j, (stage0_4 j).IsWhole
  nbuf0_4 : grid0.bufCount reads0_4 false = 2
  hreads0_4 : ∀ {F : FTy → Type} [FloatOps F] (pf : pre0.Contents (Elt F)) (i i' : grid0.Coords), (∀ a, reads0_4 a = true → i a = i' a) → cc0_transform_4 k0_off1_inb numel1_S1 pf i = cc0_transform_4 k0_off1_inb numel1_S1 pf i'
  hstage0_5 : ∀ j, (stage0_5 j).IsWhole
  nbuf0_5 : grid0.bufCount reads0_5 false = 2
  hreads0_5 : ∀ {F : FTy → Type} [FloatOps F] (pf : pre0.Contents (Elt F)) (i i' : grid0.Coords), (∀ a, reads0_5 a = true → i a = i' a) → cc0_transform_5 k0_off1_inb numel1_S1 pf i = cc0_transform_5 k0_off1_inb numel1_S1 pf i'
  hstage0_6 : ∀ j, (stage0_6 j).IsWhole
  nbuf0_6 : grid0.bufCount reads0_6 false = 2
  hreads0_6 : ∀ {F : FTy → Type} [FloatOps F] (pf : pre0.Contents (Elt F)) (i i' : grid0.Coords), (∀ a, reads0_6 a = true → i a = i' a) → cc0_transform_6 k0_off1_inb numel1_S1 pf i = cc0_transform_6 k0_off1_inb numel1_S1 pf i'
  hstage0_7 : ∀ j, (stage0_7 j).IsWhole
  nbuf0_7 : grid0.bufCount reads0_7 false = 2
  hreads0_7 : ∀ {F : FTy → Type} [FloatOps F] (pf : pre0.Contents (Elt F)) (i i' : grid0.Coords), (∀ a, reads0_7 a = true → i a = i' a) → cc0_transform_7 k0_off1_inb numel1_S1 pf i = cc0_transform_7 k0_off1_inb numel1_S1 pf i'
  hstage0_8 : ∀ j, (stage0_8 j).IsWhole
  nbuf0_8 : grid0.bufCount reads0_8 false = 2
  hreads0_8 : ∀ {F : FTy → Type} [FloatOps F] (pf : pre0.Contents (Elt F)) (i i' : grid0.Coords), (∀ a, reads0_8 a = true → i a = i' a) → cc0_transform_8 k0_off1_inb numel1_S1 pf i = cc0_transform_8 k0_off1_inb numel1_S1 pf i'
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1000x1.size a ≤ S104000x1.size a
  hwx0_9 : ∀ i : grid0.Coords, EltTy.bits .f32 = 32 ∨ (Rect.block (s := S104000x1) S1000x1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1000x256.size a ≤ S104000x256.size a
  hwx0_10 : ∀ i : grid0.Coords, EltTy.bits .f32 = 32 ∨ (Rect.block (s := S104000x256) S1000x256.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S200000x256.size a
  hwx1_0 : ∀ i : grid1.Coords, EltTy.bits .f32 = 32 ∨ (Rect.block (s := S200000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x768.size a ≤ S200000x768.size a
  hwx1_1 : ∀ i : grid1.Coords, EltTy.bits .f32 = 32 ∨ (Rect.block (s := S200000x768) S2000x768.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x3.size a ≤ S200000x3.size a
  hwx1_2 : ∀ i : grid1.Coords, EltTy.bits .f32 = 32 ∨ (Rect.block (s := S200000x3) S2000x3.size (cc1_transform_2 i) (hinb1_2 i)).WholeWords (EltTy.packing .f32)

variable [Facts₀]

def scatter_S4_S100000x1_S100000_n_0_0_1 : ScatterDims S4 S100000x1 S100000 where
  updateWindowDims := []
  insertedWindowDims := [0]
  scatterDimsToOperandDims := [0]
  indexVectorDim := 1
  wf := scatter_S4_S100000x1_S100000_n_0_0_1_wf
def comparator_i32_i32_d0 : BitVec 32 × BitVec 32 → BitVec 32 × BitVec 32 → BitVec 1 :=
  fun l r =>
    let v2 := IntOp.cmpi .slt l.1 r.1
    v2
def gather_S100000_S100000x1_S100000_n_0_n_n_0_1_1 : GatherDims S100000 S100000x1 S100000 where
  offsetDims := []
  collapsedSliceDims := [0]
  operandBatchingDims := []
  startIndicesBatchingDims := []
  startIndexMap := [0]
  indexVectorDim := 1
  sliceSizes := ![1]
  wf := gather_S100000_S100000x1_S100000_n_0_n_n_0_1_1_wf
def gather_S4_S100000x1_S100000_n_0_n_n_0_1_1 : GatherDims S4 S100000x1 S100000 where
  offsetDims := []
  collapsedSliceDims := [0]
  operandBatchingDims := []
  startIndicesBatchingDims := []
  startIndexMap := [0]
  indexVectorDim := 1
  sliceSizes := ![1]
  wf := gather_S4_S100000x1_S100000_n_0_n_n_0_1_1_wf
def scatter_S104000_S100000x1_S100000_n_0_0_1 : ScatterDims S104000 S100000x1 S100000 where
  updateWindowDims := []
  insertedWindowDims := [0]
  scatterDimsToOperandDims := [0]
  indexVectorDim := 1
  wf := scatter_S104000_S100000x1_S100000_n_0_0_1_wf
def scatter_S100000_S100000x1_S100000_n_0_0_1 : ScatterDims S100000 S100000x1 S100000 where
  updateWindowDims := []
  insertedWindowDims := [0]
  scatterDimsToOperandDims := [0]
  indexVectorDim := 1
  wf := scatter_S100000_S100000x1_S100000_n_0_0_1_wf
def gather_S100000x256_S104000x1_S104000x256_1_0_n_n_0_1_1256 : GatherDims S100000x256 S104000x1 S104000x256 where
  offsetDims := [1]
  collapsedSliceDims := [0]
  operandBatchingDims := []
  startIndicesBatchingDims := []
  startIndexMap := [0]
  indexVectorDim := 1
  sliceSizes := ![1, 256]
  wf := gather_S100000x256_S104000x1_S104000x256_1_0_n_n_0_1_1256_wf
def dot_S1000x256_S256x256_S1000x256_1_0_0_1_n_n : DotDims S1000x256 S256x256 S1000x256 where
  lhsContracting := [1]
  rhsContracting := [0]
  lhsNonContracting := [0]
  rhsNonContracting := [1]
  lhsBatch := []
  rhsBatch := []
  wf := dot_S1000x256_S256x256_S1000x256_1_0_0_1_n_n_wf
def dot_S1000x256_S256x1_S1000x1_1_0_0_1_n_n : DotDims S1000x256 S256x1 S1000x1 where
  lhsContracting := [1]
  rhsContracting := [0]
  lhsNonContracting := [0]
  rhsNonContracting := [1]
  lhsBatch := []
  rhsBatch := []
  wf := dot_S1000x256_S256x1_S1000x1_1_0_0_1_n_n_wf
def dot_S1000x256_S256x256_S1000x256_1_1_0_0_n_n : DotDims S1000x256 S256x256 S1000x256 where
  lhsContracting := [1]
  rhsContracting := [1]
  lhsNonContracting := [0]
  rhsNonContracting := [0]
  lhsBatch := []
  rhsBatch := []
  wf := dot_S1000x256_S256x256_S1000x256_1_1_0_0_n_n_wf
def gather_S104000x1_S100000x1_S100000x1_1_0_n_n_0_1_11 : GatherDims S104000x1 S100000x1 S100000x1 where
  offsetDims := [1]
  collapsedSliceDims := [0]
  operandBatchingDims := []
  startIndicesBatchingDims := []
  startIndexMap := [0]
  indexVectorDim := 1
  sliceSizes := ![1, 1]
  wf := gather_S104000x1_S100000x1_S100000x1_1_0_n_n_0_1_11_wf
def gather_S104000x256_S100000x1_S100000x256_1_0_n_n_0_1_1256 : GatherDims S104000x256 S100000x1 S100000x256 where
  offsetDims := [1]
  collapsedSliceDims := [0]
  operandBatchingDims := []
  startIndicesBatchingDims := []
  startIndexMap := [0]
  indexVectorDim := 1
  sliceSizes := ![1, 256]
  wf := gather_S104000x256_S100000x1_S100000x256_1_0_n_n_0_1_1256_wf
def scatter_S1000x1_S100000x1_S100000x1_1_0_0_1 : ScatterDims S1000x1 S100000x1 S100000x1 where
  updateWindowDims := [1]
  insertedWindowDims := [0]
  scatterDimsToOperandDims := [0]
  indexVectorDim := 1
  wf := scatter_S1000x1_S100000x1_S100000x1_1_0_0_1_wf
def gather_S100000x256_S200000x1_S200000x256_1_0_n_n_0_1_1256 : GatherDims S100000x256 S200000x1 S200000x256 where
  offsetDims := [1]
  collapsedSliceDims := [0]
  operandBatchingDims := []
  startIndicesBatchingDims := []
  startIndexMap := [0]
  indexVectorDim := 1
  sliceSizes := ![1, 256]
  wf := gather_S100000x256_S200000x1_S200000x256_1_0_n_n_0_1_1256_wf
def scatter_S100000x3_S200000x1_S200000x3_1_0_0_1 : ScatterDims S100000x3 S200000x1 S200000x3 where
  updateWindowDims := [1]
  insertedWindowDims := [0]
  scatterDimsToOperandDims := [0]
  indexVectorDim := 1
  wf := scatter_S100000x3_S200000x1_S200000x3_1_0_0_1_wf

abbrev spec0_0 : Pipeline.WinSpec sig grid0.rank :=
  Pipeline.WinSpec.ofSpec (Memref.whole main_v75) S1000x256.size reads0_0 false false 2 stage0_0 sem0_0 nbuf0_0 hstage0_0

abbrev spec0_1 : Pipeline.WinSpec sig grid0.rank :=
  Pipeline.WinSpec.ofSpec (Memref.whole main_arg5) S1x256x256.size reads0_1 false false 2 stage0_1 sem0_1 nbuf0_1 hstage0_1

abbrev spec0_2 : Pipeline.WinSpec sig grid0.rank :=
  Pipeline.WinSpec.ofSpec (Memref.whole main_v76) S1x1x256.size reads0_2 false false 2 stage0_2 sem0_2 nbuf0_2 hstage0_2

abbrev spec0_3 : Pipeline.WinSpec sig grid0.rank :=
  Pipeline.WinSpec.ofSpec (Memref.whole main_arg7) S1x256x256.size reads0_3 false false 2 stage0_3 sem0_3 nbuf0_3 hstage0_3

abbrev spec0_4 : Pipeline.WinSpec sig grid0.rank :=
  Pipeline.WinSpec.ofSpec (Memref.whole main_v77) S1x1x256.size reads0_4 false false 2 stage0_4 sem0_4 nbuf0_4 hstage0_4

abbrev spec0_5 : Pipeline.WinSpec sig grid0.rank :=
  Pipeline.WinSpec.ofSpec (Memref.whole main_arg9) S1x256x1.size reads0_5 false false 2 stage0_5 sem0_5 nbuf0_5 hstage0_5

abbrev spec0_6 : Pipeline.WinSpec sig grid0.rank :=
  Pipeline.WinSpec.ofSpec (Memref.whole main_v78) S1x1x1.size reads0_6 false false 2 stage0_6 sem0_6 nbuf0_6 hstage0_6

abbrev spec0_7 : Pipeline.WinSpec sig grid0.rank :=
  Pipeline.WinSpec.ofSpec (Memref.whole main_arg11) S1x256x1.size reads0_7 false false 2 stage0_7 sem0_7 nbuf0_7 hstage0_7

abbrev spec0_8 : Pipeline.WinSpec sig grid0.rank :=
  Pipeline.WinSpec.ofSpec (Memref.whole main_v79) S1x1x1.size reads0_8 false false 2 stage0_8 sem0_8 nbuf0_8 hstage0_8

abbrev spec0_9 : Pipeline.WinSpec sig grid0.rank :=
  Pipeline.WinSpec.ofSpec (Memref.whole main_v80_0) S1000x1.size reads0_9 true false 2 stage0_9 sem0_9 nbuf0_9 hstage0_9

abbrev spec0_10 : Pipeline.WinSpec sig grid0.rank :=
  Pipeline.WinSpec.ofSpec (Memref.whole main_v80_1) S1000x256.size reads0_10 true false 2 stage0_10 sem0_10 nbuf0_10 hstage0_10

abbrev spec0 : Fin 11 → Pipeline.WinSpec sig grid0.rank := fun | 0 => spec0_0 | 1 => spec0_1 | 2 => spec0_2 | 3 => spec0_3 | 4 => spec0_4 | 5 => spec0_5 | 6 => spec0_6 | 7 => spec0_7 | 8 => spec0_8 | 9 => spec0_9 | 10 => spec0_10 | ⟨_ + 11, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | 5 => nbuf0_5 | 6 => nbuf0_6 | 7 => nbuf0_7 | 8 => nbuf0_8 | 9 => nbuf0_9 | 10 => nbuf0_10 | ⟨_ + 11, h⟩ => absurd h (Nat.not_lt.2 (Nat.le_add_left _ _))
abbrev ix0 (pf : pre0.Contents (Elt F)) : (w : Fin 11) → grid0.Coords → Fin (spec0 w).shape.rank → Nat := fun | 0 => cc0_transform_0 | 1 => cc0_transform_1 k0_off1_inb numel1_S1 pf | 2 => cc0_transform_2 k0_off1_inb numel1_S1 pf | 3 => cc0_transform_3 k0_off1_inb numel1_S1 pf | 4 => cc0_transform_4 k0_off1_inb numel1_S1 pf | 5 => cc0_transform_5 k0_off1_inb numel1_S1 pf | 6 => cc0_transform_6 k0_off1_inb numel1_S1 pf | 7 => cc0_transform_7 k0_off1_inb numel1_S1 pf | 8 => cc0_transform_8 k0_off1_inb numel1_S1 pf | 9 => cc0_transform_9 | 10 => cc0_transform_10 | ⟨_ + 11, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 pf | 2 => hreads0_2 pf | 3 => hreads0_3 pf | 4 => hreads0_4 pf | 5 => hreads0_5 pf | 6 => hreads0_6 pf | 7 => hreads0_7 pf | 8 => hreads0_8 pf | 9 => hreads0_9 | 10 => hreads0_10 | ⟨_ + 11, h⟩ => absurd h (Nat.not_lt.2 (Nat.le_add_left _ _))
def ok0 (pf : pre0.Contents (Elt F)) : Prop :=
  (∀ i : grid0.Coords, ∃ h : (∀ a, (cc0_transform_1 k0_off1_inb numel1_S1 pf i a + 1) * S1x256x256.size a ≤ S4x256x256.size a), EltTy.bits .f32 = 32 ∨ (Rect.block (s := S4x256x256) S1x256x256.size (cc0_transform_1 k0_off1_inb numel1_S1 pf i) h).WholeWords (EltTy.packing .f32)) ∧
  (∀ i : grid0.Coords, ∃ h : (∀ a, (cc0_transform_2 k0_off1_inb numel1_S1 pf i a + 1) * S1x1x256.size a ≤ S4x1x256.size a), EltTy.bits .f32 = 32 ∨ (Rect.block (s := S4x1x256) S1x1x256.size (cc0_transform_2 k0_off1_inb numel1_S1 pf i) h).WholeWords (EltTy.packing .f32)) ∧
  (∀ i : grid0.Coords, ∃ h : (∀ a, (cc0_transform_3 k0_off1_inb numel1_S1 pf i a + 1) * S1x256x256.size a ≤ S4x256x256.size a), EltTy.bits .f32 = 32 ∨ (Rect.block (s := S4x256x256) S1x256x256.size (cc0_transform_3 k0_off1_inb numel1_S1 pf i) h).WholeWords (EltTy.packing .f32)) ∧
  (∀ i : grid0.Coords, ∃ h : (∀ a, (cc0_transform_4 k0_off1_inb numel1_S1 pf i a + 1) * S1x1x256.size a ≤ S4x1x256.size a), EltTy.bits .f32 = 32 ∨ (Rect.block (s := S4x1x256) S1x1x256.size (cc0_transform_4 k0_off1_inb numel1_S1 pf i) h).WholeWords (EltTy.packing .f32)) ∧
  (∀ i : grid0.Coords, ∃ h : (∀ a, (cc0_transform_5 k0_off1_inb numel1_S1 pf i a + 1) * S1x256x1.size a ≤ S4x256x1.size a), EltTy.bits .f32 = 32 ∨ (Rect.block (s := S4x256x1) S1x256x1.size (cc0_transform_5 k0_off1_inb numel1_S1 pf i) h).WholeWords (EltTy.packing .f32)) ∧
  (∀ i : grid0.Coords, ∃ h : (∀ a, (cc0_transform_6 k0_off1_inb numel1_S1 pf i a + 1) * S1x1x1.size a ≤ S4x1x1.size a), EltTy.bits .f32 = 32 ∨ (Rect.block (s := S4x1x1) S1x1x1.size (cc0_transform_6 k0_off1_inb numel1_S1 pf i) h).WholeWords (EltTy.packing .f32)) ∧
  (∀ i : grid0.Coords, ∃ h : (∀ a, (cc0_transform_7 k0_off1_inb numel1_S1 pf i a + 1) * S1x256x1.size a ≤ S4x256x1.size a), EltTy.bits .f32 = 32 ∨ (Rect.block (s := S4x256x1) S1x256x1.size (cc0_transform_7 k0_off1_inb numel1_S1 pf i) h).WholeWords (EltTy.packing .f32)) ∧
  (∀ i : grid0.Coords, ∃ h : (∀ a, (cc0_transform_8 k0_off1_inb numel1_S1 pf i a + 1) * S1x1x1.size a ≤ S4x1x1.size a), EltTy.bits .f32 = 32 ∨ (Rect.block (s := S4x1x1) S1x1x1.size (cc0_transform_8 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => hinb0_0 | 1 => fun i a => (hok.1 i).elim fun h _ => h a | 2 => fun i a => (hok.2.1 i).elim fun h _ => h a | 3 => fun i a => (hok.2.2.1 i).elim fun h _ => h a | 4 => fun i a => (hok.2.2.2.1 i).elim fun h _ => h a | 5 => fun i a => (hok.2.2.2.2.1 i).elim fun h _ => h a | 6 => fun i a => (hok.2.2.2.2.2.1 i).elim fun h _ => h a | 7 => fun i a => (hok.2.2.2.2.2.2.1 i).elim fun h _ => h a | 8 => fun i a => (hok.2.2.2.2.2.2.2 i).elim fun h _ => h a | 9 => hinb0_9 | 10 => hinb0_10 | ⟨_ + 11, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => hwx0_0 | 1 => fun i => (hok.1 i).elim fun _ h => h | 2 => fun i => (hok.2.1 i).elim fun _ h => h | 3 => fun i => (hok.2.2.1 i).elim fun _ h => h | 4 => fun i => (hok.2.2.2.1 i).elim fun _ h => h | 5 => fun i => (hok.2.2.2.2.1 i).elim fun _ h => h | 6 => fun i => (hok.2.2.2.2.2.1 i).elim fun _ h => h | 7 => fun i => (hok.2.2.2.2.2.2.1 i).elim fun _ h => h | 8 => fun i => (hok.2.2.2.2.2.2.2 i).elim fun _ h => h | 9 => hwx0_9 | 10 => hwx0_10 | ⟨_ + 11, h⟩ => absurd h (Nat.not_lt.2 (Nat.le_add_left _ _))
abbrev win1_0 : Pipeline.Window sig grid1 :=
  Pipeline.Window.ofSpec (Memref.whole main_v92) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v93) S2000x768.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v94) S2000x3.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where
  harr0 : ∀ w, (spec0 w).arr.IsWhole

variable [Facts]
-- ==== ReferenceIdeal.lean ====
abbrev S100000x256 : Shape := ⟨2, ![100000, 256]⟩
abbrev S100000 : Shape := ⟨1, ![100000]⟩
abbrev S200000x3x256 : Shape := ⟨3, ![200000, 3, 256]⟩
abbrev S200000 : Shape := ⟨1, ![200000]⟩
abbrev S4x256x256 : Shape := ⟨3, ![4, 256, 256]⟩
abbrev S4x256 : Shape := ⟨2, ![4, 256]⟩
abbrev S4x256x1 : Shape := ⟨3, ![4, 256, 1]⟩
abbrev S4x1 : Shape := ⟨2, ![4, 1]⟩
abbrev S_ : Shape := ⟨0, ![]⟩
abbrev S100000x1 : Shape := ⟨2, ![100000, 1]⟩
abbrev S1x256x256 : Shape := ⟨3, ![1, 256, 256]⟩
abbrev S256x256 : Shape := ⟨2, ![256, 256]⟩
abbrev S1x256 : Shape := ⟨2, ![1, 256]⟩
abbrev S256 : Shape := ⟨1, ![256]⟩
abbrev S1x256x1 : Shape := ⟨3, ![1, 256, 1]⟩
abbrev S256x1 : Shape := ⟨2, ![256, 1]⟩
abbrev S1x1 : Shape := ⟨2, ![1, 1]⟩
abbrev S1 : Shape := ⟨1, ![1]⟩
abbrev S1000x1 : Shape := ⟨2, ![1000, 1]⟩
abbrev S200000x1 : Shape := ⟨2, ![200000, 1]⟩
abbrev S200000x256 : Shape := ⟨2, ![200000, 256]⟩
abbrev S200000x1x256 : Shape := ⟨3, ![200000, 1, 256]⟩
abbrev S200000x3 : Shape := ⟨2, ![200000, 3]⟩
abbrev S100000x3 : Shape := ⟨2, ![100000, 3]⟩

abbrev nBuf : Space → Nat
  | .hbm => 288
  | .vmem => 0
  | .smem => 0
  | _ => 0

abbrev hbmTy0_0 (i : Nat) : BufTy := match i % 128 with
  | 0 => ⟨S100000x256, .f32⟩
  | 1 => ⟨S100000, .i32⟩
  | 2 => ⟨S100000, .i32⟩
  | 3 => ⟨S200000x3x256, .f32⟩
  | 4 => ⟨S200000, .i32⟩
  | 5 => ⟨S4x256x256, .f32⟩
  | 6 => ⟨S4x256, .f32⟩
  | 7 => ⟨S4x256x256, .f32⟩
  | 8 => ⟨S4x256, .f32⟩
  | 9 => ⟨S4x256x1, .f32⟩
  | 10 => ⟨S4x1, .f32⟩
  | 11 => ⟨S4x256x1, .f32⟩
  | 12 => ⟨S4x1, .f32⟩
  | 13 => ⟨S_, .f32⟩
  | 14 => ⟨S100000x1, .f32⟩
  | 15 => ⟨S1x256x256, .f32⟩
  | 16 => ⟨S256x256, .f32⟩
  | 17 => ⟨S100000x256, .f32⟩
  | 18 => ⟨S1x256, .f32⟩
  | 19 => ⟨S256, .f32⟩
  | 20 => ⟨S1x256, .f32⟩
  | 21 => ⟨S100000x256, .f32⟩
  | 22 => ⟨S100000x256, .f32⟩
  | 23 => ⟨S100000x256, .f32⟩
  | 24 => ⟨S_, .f32⟩
  | 25 => ⟨S100000x256, .f32⟩
  | 26 => ⟨S100000x256, .f32⟩
  | 27 => ⟨S1x256x256, .f32⟩
  | 28 => ⟨S256x256, .f32⟩
  | 29 => ⟨S100000x256, .f32⟩
  | 30 => ⟨S1x256, .f32⟩
  | 31 => ⟨S256, .f32⟩
  | 32 => ⟨S1x256, .f32⟩
  | 33 => ⟨S100000x256, .f32⟩
  | 34 => ⟨S100000x256, .f32⟩
  | 35 => ⟨S100000x256, .f32⟩
  | 36 => ⟨S_, .f32⟩
  | 37 => ⟨S100000x256, .f32⟩
  | 38 => ⟨S100000x256, .f32⟩
  | 39 => ⟨S1x256x1, .f32⟩
  | 40 => ⟨S256x1, .f32⟩
  | 41 => ⟨S100000x1, .f32⟩
  | 42 => ⟨S1x1, .f32⟩
  | 43 => ⟨S1, .f32⟩
  | 44 => ⟨S1x1, .f32⟩
  | 45 => ⟨S100000x1, .f32⟩
  | 46 => ⟨S100000x1, .f32⟩
  | 47 => ⟨S1x256x1, .f32⟩
  | 48 => ⟨S256x1, .f32⟩
  | 49 => ⟨S100000x1, .f32⟩
  | 50 => ⟨S100000x1, .f32⟩
  | 51 => ⟨S1x1, .f32⟩
  | 52 => ⟨S1, .f32⟩
  | 53 => ⟨S1x1, .f32⟩
  | 54 => ⟨S100000x1, .f32⟩
  | 55 => ⟨S100000x1, .f32⟩
  | 56 => ⟨S_, .i32⟩
  | 57 => ⟨S100000, .i32⟩
  | 58 => ⟨S100000, .i1⟩
  | 59 => ⟨S100000x1, .i1⟩
  | 60 => ⟨S100000x1, .f32⟩
  | 61 => ⟨S_, .f32⟩
  | 62 => ⟨S100000x1, .f32⟩
  | 63 => ⟨S1x256x256, .f32⟩
  | 64 => ⟨S256x256, .f32⟩
  | 65 => ⟨S100000x256, .f32⟩
  | 66 => ⟨S1x256, .f32⟩
  | 67 => ⟨S256, .f32⟩
  | 68 => ⟨S1x256, .f32⟩
  | 69 => ⟨S100000x256, .f32⟩
  | 70 => ⟨S100000x256, .f32⟩
  | 71 => ⟨S100000x256, .f32⟩
  | 72 => ⟨S_, .f32⟩
  | 73 => ⟨S100000x256, .f32⟩
  | 74 => ⟨S100000x256, .f32⟩
  | 75 => ⟨S1x256x256, .f32⟩
  | 76 => ⟨S256x256, .f32⟩
  | 77 => ⟨S100000x256, .f32⟩
  | 78 => ⟨S1x256, .f32⟩
  | 79 => ⟨S256, .f32⟩
  | 80 => ⟨S1x256, .f32⟩
  | 81 => ⟨S100000x256, .f32⟩
  | 82 => ⟨S100000x256, .f32⟩
  | 83 => ⟨S100000x256, .f32⟩
  | 84 => ⟨S_, .f32⟩
  | 85 => ⟨S100000x256, .f32⟩
  | 86 => ⟨S100000x256, .f32⟩
  | 87 => ⟨S1x256x1, .f32⟩
  | 88 => ⟨S256x1, .f32⟩
  | 89 => ⟨S100000x1, .f32⟩
  | 90 => ⟨S1x1, .f32⟩
  | 91 => ⟨S1, .f32⟩
  | 92 => ⟨S1x1, .f32⟩
  | 93 => ⟨S100000x1, .f32⟩
  | 94 => ⟨S100000x1, .f32⟩
  | 95 => ⟨S1x256x1, .f32⟩
  | 96 => ⟨S256x1, .f32⟩
  | 97 => ⟨S100000x1, .f32⟩
  | 98 => ⟨S100000x1, .f32⟩
  | 99 => ⟨S1x1, .f32⟩
  | 100 => ⟨S1, .f32⟩
  | 101 => ⟨S1x1, .f32⟩
  | 102 => ⟨S100000x1, .f32⟩
  | 103 => ⟨S100000x1, .f32⟩
  | 104 => ⟨S_, .i32⟩
  | 105 => ⟨S100000, .i32⟩
  | 106 => ⟨S100000, .i1⟩
  | 107 => ⟨S100000x1, .i1⟩
  | 108 => ⟨S100000x1, .f32⟩
  | 109 => ⟨S1x256x256, .f32⟩
  | 110 => ⟨S256x256, .f32⟩
  | 111 => ⟨S100000x256, .f32⟩
  | 112 => ⟨S1x256, .f32⟩
  | 113 => ⟨S256, .f32⟩
  | 114 => ⟨S1x256, .f32⟩
  | 115 => ⟨S100000x256, .f32⟩
  | 116 => ⟨S100000x256, .f32⟩
  | 117 => ⟨S100000x256, .f32⟩
  | 118 => ⟨S_, .f32⟩
  | 119 => ⟨S100000x256, .f32⟩
  | 120 => ⟨S100000x256, .f32⟩
  | 121 => ⟨S1x256x256, .f32⟩
  | 122 => ⟨S256x256, .f32⟩
  | 123 => ⟨S100000x256, .f32⟩
  | 124 => ⟨S1x256, .f32⟩
  | 125 => ⟨S256, .f32⟩
  | 126 => ⟨S1x256, .f32⟩
  | 127 => ⟨S100000x256, .f32⟩
  | _ => ⟨S100000x256, .f32⟩

abbrev hbmTy0_1 (i : Nat) : BufTy := match i % 128 with
  | 0 => ⟨S100000x256, .f32⟩
  | 1 => ⟨S100000x256, .f32⟩
  | 2 => ⟨S_, .f32⟩
  | 3 => ⟨S100000x256, .f32⟩
  | 4 => ⟨S100000x256, .f32⟩
  | 5 => ⟨S1x256x1, .f32⟩
  | 6 => ⟨S256x1, .f32⟩
  | 7 => ⟨S100000x1, .f32⟩
  | 8 => ⟨S1x1, .f32⟩
  | 9 => ⟨S1, .f32⟩
  | 10 => ⟨S1x1, .f32⟩
  | 11 => ⟨S100000x1, .f32⟩
  | 12 => ⟨S100000x1, .f32⟩
  | 13 => ⟨S1x256x1, .f32⟩
  | 14 => ⟨S256x1, .f32⟩
  | 15 => ⟨S100000x1, .f32⟩
  | 16 => ⟨S100000x1, .f32⟩
  | 17 => ⟨S1x1, .f32⟩
  | 18 => ⟨S1, .f32⟩
  | 19 => ⟨S1x1, .f32⟩
  | 20 => ⟨S100000x1, .f32⟩
  | 21 => ⟨S100000x1, .f32⟩
  | 22 => ⟨S_, .i32⟩
  | 23 => ⟨S100000, .i32⟩
  | 24 => ⟨S100000, .i1⟩
  | 25 => ⟨S100000x1, .i1⟩
  | 26 => ⟨S100000x1, .f32⟩
  | 27 => ⟨S1x256x256, .f32⟩
  | 28 => ⟨S256x256, .f32⟩
  | 29 => ⟨S100000x256, .f32⟩
  | 30 => ⟨S1x256, .f32⟩
  | 31 => ⟨S256, .f32⟩
  | 32 => ⟨S1x256, .f32⟩
  | 33 => ⟨S100000x256, .f32⟩
  | 34 => ⟨S100000x256, .f32⟩
  | 35 => ⟨S100000x256, .f32⟩
  | 36 => ⟨S_, .f32⟩
  | 37 => ⟨S100000x256, .f32⟩
  | 38 => ⟨S100000x256, .f32⟩
  | 39 => ⟨S1x256x256, .f32⟩
  | 40 => ⟨S256x256, .f32⟩
  | 41 => ⟨S100000x256, .f32⟩
  | 42 => ⟨S1x256, .f32⟩
  | 43 => ⟨S256, .f32⟩
  | 44 => ⟨S1x256, .f32⟩
  | 45 => ⟨S100000x256, .f32⟩
  | 46 => ⟨S100000x256, .f32⟩
  | 47 => ⟨S100000x256, .f32⟩
  | 48 => ⟨S_, .f32⟩
  | 49 => ⟨S100000x256, .f32⟩
  | 50 => ⟨S100000x256, .f32⟩
  | 51 => ⟨S1x256x1, .f32⟩
  | 52 => ⟨S256x1, .f32⟩
  | 53 => ⟨S100000x1, .f32⟩
  | 54 => ⟨S1x1, .f32⟩
  | 55 => ⟨S1, .f32⟩
  | 56 => ⟨S1x1, .f32⟩
  | 57 => ⟨S100000x1, .f32⟩
  | 58 => ⟨S100000x1, .f32⟩
  | 59 => ⟨S1x256x1, .f32⟩
  | 60 => ⟨S256x1, .f32⟩
  | 61 => ⟨S100000x1, .f32⟩
  | 62 => ⟨S100000x1, .f32⟩
  | 63 => ⟨S1x1, .f32⟩
  | 64 => ⟨S1, .f32⟩
  | 65 => ⟨S1x1, .f32⟩
  | 66 => ⟨S100000x1, .f32⟩
  | 67 => ⟨S100000x1, .f32⟩
  | 68 => ⟨S_, .i32⟩
  | 69 => ⟨S100000, .i32⟩
  | 70 => ⟨S100000, .i1⟩
  | 71 => ⟨S100000x1, .i1⟩
  | 72 => ⟨S100000x1, .f32⟩
  | 73 => ⟨S_, .f32⟩
  | 74 => ⟨S1000x1, .f32⟩
  | 75 => ⟨S100000x1, .i32⟩
  | 76 => ⟨S1000x1, .f32⟩
  | 77 => ⟨S_, .f32⟩
  | 78 => ⟨S100000x1, .f32⟩
  | 79 => ⟨S_, .f32⟩
  | 80 => ⟨S100000x1, .f32⟩
  | 81 => ⟨S100000x1, .f32⟩
  | 82 => ⟨S100000x1, .f32⟩
  | 83 => ⟨S100000x256, .f32⟩
  | 84 => ⟨S100000x256, .f32⟩
  | 85 => ⟨S100000x256, .f32⟩
  | 86 => ⟨S100000x256, .f32⟩
  | 87 => ⟨S100000x256, .f32⟩
  | 88 => ⟨S100000x256, .f32⟩
  | 89 => ⟨S100000x256, .f32⟩
  | 90 => ⟨S100000x256, .f32⟩
  | 91 => ⟨S100000x256, .f32⟩
  | 92 => ⟨S100000x256, .f32⟩
  | 93 => ⟨S100000x256, .f32⟩
  | 94 => ⟨S_, .f32⟩
  | 95 => ⟨S100000x1, .f32⟩
  | 96 => ⟨S100000x1, .f32⟩
  | 97 => ⟨S100000x1, .f32⟩
  | 98 => ⟨S100000x256, .f32⟩
  | 99 => ⟨S100000x256, .f32⟩
  | 100 => ⟨S100000x256, .f32⟩
  | 101 => ⟨S100000x256, .f32⟩
  | 102 => ⟨S100000x256, .f32⟩
  | 103 => ⟨S100000x256, .f32⟩
  | 104 => ⟨S100000x256, .f32⟩
  | 105 => ⟨S100000x256, .f32⟩
  | 106 => ⟨S100000x256, .f32⟩
  | 107 => ⟨S100000x256, .f32⟩
  | 108 => ⟨S100000x256, .f32⟩
  | 109 => ⟨S100000x256, .f32⟩
  | 110 => ⟨S_, .f32⟩
  | 111 => ⟨S100000x1, .f32⟩
  | 112 => ⟨S100000x1, .f32⟩
  | 113 => ⟨S100000x1, .f32⟩
  | 114 => ⟨S100000x256, .f32⟩
  | 115 => ⟨S100000x256, .f32⟩
  | 116 => ⟨S100000x256, .f32⟩
  | 117 => ⟨S100000x256, .f32⟩
  | 118 => ⟨S100000x256, .f32⟩
  | 119 => ⟨S100000x256, .f32⟩
  | 120 => ⟨S100000x256, .f32⟩
  | 121 => ⟨S100000x256, .f32⟩
  | 122 => ⟨S100000x256, .f32⟩
  | 123 => ⟨S100000x256, .f32⟩
  | 124 => ⟨S100000x256, .f32⟩
  | 125 => ⟨S100000x256, .f32⟩
  | 126 => ⟨S_, .f32⟩
  | 127 => ⟨S100000x1, .f32⟩
  | _ => ⟨S100000x256, .f32⟩

abbrev hbmTy0_2 (i : Nat) : BufTy := match i % 128 with
  | 0 => ⟨S100000x1, .f32⟩
  | 1 => ⟨S100000x256, .f32⟩
  | 2 => ⟨S100000x256, .f32⟩
  | 3 => ⟨S100000x256, .f32⟩
  | 4 => ⟨S100000x256, .f32⟩
  | 5 => ⟨S100000x256, .f32⟩
  | 6 => ⟨S100000x256, .f32⟩
  | 7 => ⟨S100000x256, .f32⟩
  | 8 => ⟨S100000x256, .f32⟩
  | 9 => ⟨S100000x256, .f32⟩
  | 10 => ⟨S100000x256, .f32⟩
  | 11 => ⟨S100000x256, .f32⟩
  | 12 => ⟨S100000x256, .f32⟩
  | 13 => ⟨S_, .i32⟩
  | 14 => ⟨S200000, .i32⟩
  | 15 => ⟨S200000, .i1⟩
  | 16 => ⟨S_, .i32⟩
  | 17 => ⟨S200000, .i32⟩
  | 18 => ⟨S200000, .i32⟩
  | 19 => ⟨S200000, .i32⟩
  | 20 => ⟨S200000x1, .i32⟩
  | 21 => ⟨S200000x256, .f32⟩
  | 22 => ⟨S200000x1x256, .f32⟩
  | 23 => ⟨S200000x3x256, .f32⟩
  | 24 => ⟨S200000x3x256, .f32⟩
  | 25 => ⟨S_, .f32⟩
  | 26 => ⟨S200000x3, .f32⟩
  | 27 => ⟨S200000x3, .f32⟩
  | 28 => ⟨S_, .f32⟩
  | 29 => ⟨S100000x3, .f32⟩
  | 30 => ⟨S200000x1, .i32⟩
  | 31 => ⟨S100000x3, .f32⟩
  | _ => ⟨S100000x256, .f32⟩

abbrev hbmTy (i : Nat) : BufTy := match i / 128 with
  | 0 => hbmTy0_0 i
  | 1 => hbmTy0_1 i
  | 2 => hbmTy0_2 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_1 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_c : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43_0 : Ref sig .tc := ⟨.hbm, 60, rfl⟩
abbrev main_call0_cst : Ref sig .tc := ⟨.hbm, 61, rfl⟩
abbrev main_v43_1 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_2 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_cst_3 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_c_4 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_cst_5 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_cst_6 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_c_7 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_v129 : Ref sig .tc := ⟨.hbm, 154, rfl⟩
abbrev main_v130 : Ref sig .tc := ⟨.hbm, 155, rfl⟩
abbrev main_v131 : Ref sig .tc := ⟨.hbm, 156, rfl⟩
abbrev main_v132 : Ref sig .tc := ⟨.hbm, 157, rfl⟩
abbrev main_v133 : Ref sig .tc := ⟨.hbm, 158, rfl⟩
abbrev main_v134 : Ref sig .tc := ⟨.hbm, 159, rfl⟩
abbrev main_v135 : Ref sig .tc := ⟨.hbm, 160, rfl⟩
abbrev main_v136 : Ref sig .tc := ⟨.hbm, 161, rfl⟩
abbrev main_v137 : Ref sig .tc := ⟨.hbm, 162, rfl⟩
abbrev main_v138 : Ref sig .tc := ⟨.hbm, 163, rfl⟩
abbrev main_cst_8 : Ref sig .tc := ⟨.hbm, 164, rfl⟩
abbrev main_v139 : Ref sig .tc := ⟨.hbm, 165, rfl⟩
abbrev main_v140 : Ref sig .tc := ⟨.hbm, 166, rfl⟩
abbrev main_v141 : Ref sig .tc := ⟨.hbm, 167, rfl⟩
abbrev main_v142 : Ref sig .tc := ⟨.hbm, 168, rfl⟩
abbrev main_v143 : Ref sig .tc := ⟨.hbm, 169, rfl⟩
abbrev main_v144 : Ref sig .tc := ⟨.hbm, 170, rfl⟩
abbrev main_v145 : Ref sig .tc := ⟨.hbm, 171, rfl⟩
abbrev main_v146 : Ref sig .tc := ⟨.hbm, 172, rfl⟩
abbrev main_v147 : Ref sig .tc := ⟨.hbm, 173, rfl⟩
abbrev main_v148 : Ref sig .tc := ⟨.hbm, 174, rfl⟩
abbrev main_v149 : Ref sig .tc := ⟨.hbm, 175, rfl⟩
abbrev main_cst_9 : Ref sig .tc := ⟨.hbm, 176, rfl⟩
abbrev main_v150 : Ref sig .tc := ⟨.hbm, 177, rfl⟩
abbrev main_v151 : Ref sig .tc := ⟨.hbm, 178, rfl⟩
abbrev main_v152 : Ref sig .tc := ⟨.hbm, 179, rfl⟩
abbrev main_v153 : Ref sig .tc := ⟨.hbm, 180, rfl⟩
abbrev main_v154 : Ref sig .tc := ⟨.hbm, 181, rfl⟩
abbrev main_v155 : Ref sig .tc := ⟨.hbm, 182, rfl⟩
abbrev main_v156 : Ref sig .tc := ⟨.hbm, 183, rfl⟩
abbrev main_v157 : Ref sig .tc := ⟨.hbm, 184, rfl⟩
abbrev main_v158 : Ref sig .tc := ⟨.hbm, 185, rfl⟩
abbrev main_v159 : Ref sig .tc := ⟨.hbm, 186, rfl⟩
abbrev main_v160 : Ref sig .tc := ⟨.hbm, 187, rfl⟩
abbrev main_v161 : Ref sig .tc := ⟨.hbm, 188, rfl⟩
abbrev main_v162 : Ref sig .tc := ⟨.hbm, 189, rfl⟩
abbrev main_v163 : Ref sig .tc := ⟨.hbm, 190, rfl⟩
abbrev main_v164 : Ref sig .tc := ⟨.hbm, 191, rfl⟩
abbrev main_v165 : Ref sig .tc := ⟨.hbm, 192, rfl⟩
abbrev main_v166 : Ref sig .tc := ⟨.hbm, 193, rfl⟩
abbrev main_v167 : Ref sig .tc := ⟨.hbm, 194, rfl⟩
abbrev main_v168 : Ref sig .tc := ⟨.hbm, 195, rfl⟩
abbrev main_c_10 : Ref sig .tc := ⟨.hbm, 196, rfl⟩
abbrev main_v169 : Ref sig .tc := ⟨.hbm, 197, rfl⟩
abbrev main_v170 : Ref sig .tc := ⟨.hbm, 198, rfl⟩
abbrev main_v171 : Ref sig .tc := ⟨.hbm, 199, rfl⟩
abbrev main_v172 : Ref sig .tc := ⟨.hbm, 200, rfl⟩
abbrev main_cst_11 : Ref sig .tc := ⟨.hbm, 201, rfl⟩
abbrev main_v173 : Ref sig .tc := ⟨.hbm, 202, rfl⟩
abbrev main_v174 : Ref sig .tc := ⟨.hbm, 203, rfl⟩
abbrev main_v175 : Ref sig .tc := ⟨.hbm, 204, rfl⟩
abbrev main_cst_12 : Ref sig .tc := ⟨.hbm, 205, rfl⟩
abbrev main_v176 : Ref sig .tc := ⟨.hbm, 206, rfl⟩
abbrev main_call4_cst : Ref sig .tc := ⟨.hbm, 207, rfl⟩
abbrev main_call4_v0 : Ref sig .tc := ⟨.hbm, 208, rfl⟩
abbrev main_v177_1 : Ref sig .tc := ⟨.hbm, 209, rfl⟩
abbrev main_v177_0 : Ref sig .tc := ⟨.hbm, 210, rfl⟩
abbrev main_v178 : Ref sig .tc := ⟨.hbm, 211, rfl⟩
abbrev main_v179 : Ref sig .tc := ⟨.hbm, 212, rfl⟩
abbrev main_v180 : Ref sig .tc := ⟨.hbm, 213, rfl⟩
abbrev main_v181 : Ref sig .tc := ⟨.hbm, 214, rfl⟩
abbrev main_v182 : Ref sig .tc := ⟨.hbm, 215, rfl⟩
abbrev main_v183 : Ref sig .tc := ⟨.hbm, 216, rfl⟩
abbrev main_v184 : Ref sig .tc := ⟨.hbm, 217, rfl⟩
abbrev main_v185 : Ref sig .tc := ⟨.hbm, 218, rfl⟩
abbrev main_v186 : Ref sig .tc := ⟨.hbm, 219, rfl⟩
abbrev main_v187 : Ref sig .tc := ⟨.hbm, 220, rfl⟩
abbrev main_v188 : Ref sig .tc := ⟨.hbm, 221, rfl⟩
abbrev main_call5_cst : Ref sig .tc := ⟨.hbm, 222, rfl⟩
abbrev main_call5_v0 : Ref sig .tc := ⟨.hbm, 223, rfl⟩
abbrev main_v189_1 : Ref sig .tc := ⟨.hbm, 224, rfl⟩
abbrev main_v189_0 : Ref sig .tc := ⟨.hbm, 225, rfl⟩
abbrev main_v190 : Ref sig .tc := ⟨.hbm, 226, rfl⟩
abbrev main_v191 : Ref sig .tc := ⟨.hbm, 227, rfl⟩
abbrev main_v192 : Ref sig .tc := ⟨.hbm, 228, rfl⟩
abbrev main_v193 : Ref sig .tc := ⟨.hbm, 229, rfl⟩
abbrev main_v194 : Ref sig .tc := ⟨.hbm, 230, rfl⟩
abbrev main_v195 : Ref sig .tc := ⟨.hbm, 231, rfl⟩
abbrev main_v196 : Ref sig .tc := ⟨.hbm, 232, rfl⟩
abbrev main_v197 : Ref sig .tc := ⟨.hbm, 233, rfl⟩
abbrev main_v198 : Ref sig .tc := ⟨.hbm, 234, rfl⟩
abbrev main_v199 : Ref sig .tc := ⟨.hbm, 235, rfl⟩
abbrev main_v200 : Ref sig .tc := ⟨.hbm, 236, rfl⟩
abbrev main_v201 : Ref sig .tc := ⟨.hbm, 237, rfl⟩
abbrev main_call6_cst : Ref sig .tc := ⟨.hbm, 238, rfl⟩
abbrev main_call6_v0 : Ref sig .tc := ⟨.hbm, 239, rfl⟩
abbrev main_v202_1 : Ref sig .tc := ⟨.hbm, 240, rfl⟩
abbrev main_v202_0 : Ref sig .tc := ⟨.hbm, 241, rfl⟩
abbrev main_v203 : Ref sig .tc := ⟨.hbm, 242, rfl⟩
abbrev main_v204 : Ref sig .tc := ⟨.hbm, 243, rfl⟩
abbrev main_v205 : Ref sig .tc := ⟨.hbm, 244, rfl⟩
abbrev main_v206 : Ref sig .tc := ⟨.hbm, 245, rfl⟩
abbrev main_v207 : Ref sig .tc := ⟨.hbm, 246, rfl⟩
abbrev main_v208 : Ref sig .tc := ⟨.hbm, 247, rfl⟩
abbrev main_v209 : Ref sig .tc := ⟨.hbm, 248, rfl⟩
abbrev main_v210 : Ref sig .tc := ⟨.hbm, 249, rfl⟩
abbrev main_v211 : Ref sig .tc := ⟨.hbm, 250, rfl⟩
abbrev main_v212 : Ref sig .tc := ⟨.hbm, 251, rfl⟩
abbrev main_v213 : Ref sig .tc := ⟨.hbm, 252, rfl⟩
abbrev main_v214 : Ref sig .tc := ⟨.hbm, 253, rfl⟩
abbrev main_call7_cst : Ref sig .tc := ⟨.hbm, 254, rfl⟩
abbrev main_call7_v0 : Ref sig .tc := ⟨.hbm, 255, rfl⟩
abbrev main_v215 : Ref sig .tc := ⟨.hbm, 256, rfl⟩
abbrev main_v216 : Ref sig .tc := ⟨.hbm, 257, rfl⟩
abbrev main_v217 : Ref sig .tc := ⟨.hbm, 258, rfl⟩
abbrev main_v218 : Ref sig .tc := ⟨.hbm, 259, rfl⟩
abbrev main_v219 : Ref sig .tc := ⟨.hbm, 260, rfl⟩
abbrev main_v220 : Ref sig .tc := ⟨.hbm, 261, rfl⟩
abbrev main_v221 : Ref sig .tc := ⟨.hbm, 262, rfl⟩
abbrev main_v222 : Ref sig .tc := ⟨.hbm, 263, rfl⟩
abbrev main_v223 : Ref sig .tc := ⟨.hbm, 264, rfl⟩
abbrev main_v224 : Ref sig .tc := ⟨.hbm, 265, rfl⟩
abbrev main_v225 : Ref sig .tc := ⟨.hbm, 266, rfl⟩
abbrev main_v226 : Ref sig .tc := ⟨.hbm, 267, rfl⟩
abbrev main_v227 : Ref sig .tc := ⟨.hbm, 268, rfl⟩
abbrev main_c_13 : Ref sig .tc := ⟨.hbm, 269, rfl⟩
abbrev main_v228 : Ref sig .tc := ⟨.hbm, 270, rfl⟩
abbrev main_v229 : Ref sig .tc := ⟨.hbm, 271, rfl⟩
abbrev main_c_14 : Ref sig .tc := ⟨.hbm, 272, rfl⟩
abbrev main_v230 : Ref sig .tc := ⟨.hbm, 273, rfl⟩
abbrev main_v231 : Ref sig .tc := ⟨.hbm, 274, rfl⟩
abbrev main_v232 : Ref sig .tc := ⟨.hbm, 275, rfl⟩
abbrev main_v233 : Ref sig .tc := ⟨.hbm, 276, rfl⟩
abbrev main_v234 : Ref sig .tc := ⟨.hbm, 277, rfl⟩
abbrev main_v235 : Ref sig .tc := ⟨.hbm, 278, rfl⟩
abbrev main_v236 : Ref sig .tc := ⟨.hbm, 279, rfl⟩
abbrev main_v237 : Ref sig .tc := ⟨.hbm, 280, rfl⟩
abbrev main_cst_15 : Ref sig .tc := ⟨.hbm, 281, rfl⟩
abbrev main_v238 : Ref sig .tc := ⟨.hbm, 282, rfl⟩
abbrev main_v239 : Ref sig .tc := ⟨.hbm, 283, rfl⟩
abbrev main_cst_16 : Ref sig .tc := ⟨.hbm, 284, rfl⟩
abbrev main_v240 : Ref sig .tc := ⟨.hbm, 285, rfl⟩
abbrev main_v241 : Ref sig .tc := ⟨.hbm, 286, rfl⟩
abbrev main_v242 : Ref sig .tc := ⟨.hbm, 287, rfl⟩

abbrev nD : Nat := 1
abbrev τ : Topo := Topo.v7x

variable {F : FTy → Type} [FloatOps F]

class Facts₀ : Prop where
  bcast_S_S100000x1 : S_.BroadcastsInDim S100000x1 (![] : Fin 0 → Fin S100000x1.rank)
  slices_S4x256x256_S1x256x256_0_0_0 : S4x256x256.Slices ![0, 0, 0] S1x256x256
  shapeCasts_S1x256x256_S256x256 : S1x256x256.ShapeCasts S256x256
  slices_S4x256_S1x256_0_0 : S4x256.Slices ![0, 0] S1x256
  shapeCasts_S1x256_S256 : S1x256.ShapeCasts S256
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  slices_S4x256x1_S1x256x1_0_0_0 : S4x256x1.Slices ![0, 0, 0] S1x256x1
  shapeCasts_S1x256x1_S256x1 : S1x256x1.ShapeCasts S256x1
  slices_S4x1_S1x1_0_0 : S4x1.Slices ![0, 0] S1x1
  shapeCasts_S1x1_S1 : S1x1.ShapeCasts S1
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S100000 : S_.BroadcastsInDim S100000 (![] : Fin 0 → Fin S100000.rank)
  bcast_S100000_S100000x1_0 : S100000.BroadcastsInDim S100000x1 (![0] : Fin 1 → Fin S100000x1.rank)
  slices_S4x256x256_S1x256x256_1_0_0 : S4x256x256.Slices ![1, 0, 0] S1x256x256
  slices_S4x256_S1x256_1_0 : S4x256.Slices ![1, 0] S1x256
  slices_S4x256x1_S1x256x1_1_0_0 : S4x256x1.Slices ![1, 0, 0] S1x256x1
  slices_S4x1_S1x1_1_0 : S4x1.Slices ![1, 0] S1x1
  slices_S4x256x256_S1x256x256_2_0_0 : S4x256x256.Slices ![2, 0, 0] S1x256x256
  slices_S4x256_S1x256_2_0 : S4x256.Slices ![2, 0] S1x256
  slices_S4x256x1_S1x256x1_2_0_0 : S4x256x1.Slices ![2, 0, 0] S1x256x1
  slices_S4x1_S1x1_2_0 : S4x1.Slices ![2, 0] S1x1
  slices_S4x256x256_S1x256x256_3_0_0 : S4x256x256.Slices ![3, 0, 0] S1x256x256
  slices_S4x256_S1x256_3_0 : S4x256.Slices ![3, 0] S1x256
  slices_S4x256x1_S1x256x1_3_0_0 : S4x256x1.Slices ![3, 0, 0] S1x256x1
  slices_S4x1_S1x1_3_0 : S4x1.Slices ![3, 0] S1x1
  bcast_S_S1000x1 : S_.BroadcastsInDim S1000x1 (![] : Fin 0 → Fin S1000x1.rank)
  bcast_S_S200000 : S_.BroadcastsInDim S200000 (![] : Fin 0 → Fin S200000.rank)
  bcast_S200000_S200000x1_0 : S200000.BroadcastsInDim S200000x1 (![0] : Fin 1 → Fin S200000x1.rank)
  bcast_S200000x256_S200000x1x256_0_2 : S200000x256.BroadcastsInDim S200000x1x256 (![0, 2] : Fin 2 → Fin S200000x1x256.rank)
  bcast_S200000x1x256_S200000x3x256_0_1_2 : S200000x1x256.BroadcastsInDim S200000x3x256 (![0, 1, 2] : Fin 3 → Fin S200000x3x256.rank)
  reducesTo_S200000x3x256_S200000x3_d2 : S200000x3x256.ReducesTo [2] S200000x3
  h_S_ : 0 < S_.numel
  bcast_S_S100000x3 : S_.BroadcastsInDim S100000x3 (![] : Fin 0 → Fin S100000x3.rank)
  dot_S100000x256_S256x256_S100000x256_1_0_0_1_n_n_wf : DotDims.WF S100000x256 S256x256 S100000x256 [1] [0] [0] [1] [] []
  dot_S100000x256_S256x1_S100000x1_1_0_0_1_n_n_wf : DotDims.WF S100000x256 S256x1 S100000x1 [1] [0] [0] [1] [] []
  scatter_S1000x1_S100000x1_S100000x1_1_0_0_1_wf : ScatterDims.WF S1000x1 S100000x1 S100000x1 [1] [0] [0] 1
  dot_S100000x1_S256x1_S100000x256_1_1_0_0_n_n_wf : DotDims.WF S100000x1 S256x1 S100000x256 [1] [1] [0] [0] [] []
  dot_S100000x256_S256x256_S100000x256_1_1_0_0_n_n_wf : DotDims.WF S100000x256 S256x256 S100000x256 [1] [1] [0] [0] [] []
  gather_S100000x256_S200000x1_S200000x256_1_0_n_n_0_1_1256_wf : GatherDims.WF S100000x256 S200000x1 S200000x256 [1] [0] [] [0] [] 1 ![1, 256]
  scatter_S100000x3_S200000x1_S200000x3_1_0_0_1_wf : ScatterDims.WF S100000x3 S200000x1 S200000x3 [1] [0] [0] 1

variable [Facts₀]

def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf
def dot_S100000x256_S256x1_S100000x1_1_0_0_1_n_n : DotDims S100000x256 S256x1 S100000x1 where
  lhsContracting := [1]
  rhsContracting := [0]
  lhsNonContracting := [0]
  rhsNonContracting := [1]
  lhsBatch := []
  rhsBatch := []
  wf := dot_S100000x256_S256x1_S100000x1_1_0_0_1_n_n_wf
def scatter_S1000x1_S100000x1_S100000x1_1_0_0_1 : ScatterDims S1000x1 S100000x1 S100000x1 where
  updateWindowDims := [1]
  insertedWindowDims := [0]
  scatterDimsToOperandDims := [0]
  indexVectorDim := 1
  wf := scatter_S1000x1_S100000x1_S100000x1_1_0_0_1_wf
def dot_S100000x1_S256x1_S100000x256_1_1_0_0_n_n : DotDims S100000x1 S256x1 S100000x256 where
  lhsContracting := [1]
  rhsContracting := [1]
  lhsNonContracting := [0]
  rhsNonContracting := [0]
  lhsBatch := []
  rhsBatch := []
  wf := dot_S100000x1_S256x1_S100000x256_1_1_0_0_n_n_wf
def dot_S100000x256_S256x256_S100000x256_1_1_0_0_n_n : DotDims S100000x256 S256x256 S100000x256 where
  lhsContracting := [1]
  rhsContracting := [1]
  lhsNonContracting := [0]
  rhsNonContracting := [0]
  lhsBatch := []
  rhsBatch := []
  wf := dot_S100000x256_S256x256_S100000x256_1_1_0_0_n_n_wf
def gather_S100000x256_S200000x1_S200000x256_1_0_n_n_0_1_1256 : GatherDims S100000x256 S200000x1 S200000x256 where
  offsetDims := [1]
  collapsedSliceDims := [0]
  operandBatchingDims := []
  startIndicesBatchingDims := []
  startIndexMap := [0]
  indexVectorDim := 1
  sliceSizes := ![1, 256]
  wf := gather_S100000x256_S200000x1_S200000x256_1_0_n_n_0_1_1256_wf
def scatter_S100000x3_S200000x1_S200000x3_1_0_0_1 : ScatterDims S100000x3 S200000x1 S200000x3 where
  updateWindowDims := [1]
  insertedWindowDims := [0]
  scatterDimsToOperandDims := [0]
  indexVectorDim := 1
  wf := scatter_S100000x3_S200000x1_S200000x3_1_0_0_1_wf

class Facts : Prop extends Facts₀ where

variable [Facts]
-- ==== Proof.KOut.lean ====
import proofs.«428180_j4174708212170_2_alg».proof.Proof.Gen.KernelIdeal.Skeleton

noncomputable section

namespace Cert.KernelIdeal.Hand

open Cert.KernelIdeal Cert.KernelIdeal.Gen Idealize.ShloMosaic

variable {F : FTy → Type} [FloatOps F]

def blkOut (v0 : Vec F S1000x256 .f32) (v3 : Vec F S1x256x256 .f32) (v6 : Vec F S1x1x256 .f32) (v13 : Vec F S1x256x256 .f32)
    (v16 : Vec F S1x1x256 .f32) (v23 : Vec F S1x256x1 .f32) (v26 : Vec F S1x1x1 .f32) (v31 : Vec F S1x256x1 .f32)
    (v34 : Vec F S1x1x1 .f32) : Vec F S1000x1 .f32 :=
  k0_pay1 (k0_pay3 v0) (k0_pay9 v0 v3 v6 v13 v16 v23 v26) (k0_pay10 v31) v34

def blkGrad (v0 : Vec F S1000x256 .f32) (v3 : Vec F S1x256x256 .f32) (v6 : Vec F S1x1x256 .f32) (v13 : Vec F S1x256x256 .f32)
    (v16 : Vec F S1x1x256 .f32) (v23 : Vec F S1x256x1 .f32) (v31 : Vec F S1x256x1 .f32) : Vec F S1000x256 .f32 :=
  k0_pay2 (k0_pay4 v3) (k0_pay5 v0 v3 v6) (k0_pay6 v13) (k0_pay7 v0 v3 v6 v13 v16) (k0_pay8 v23) (k0_pay10 v31)

def blkForce (v0 : Vec F S2000x256 .f32) (v2 : Vec F S2000x768 .f32) : Vec F S2000x3 .f32 :=
  k1_pay1 v0 v2

end Cert.KernelIdeal.Hand

end
-- ==== Proof.Region0.lean ====
import proofs.«428180_j4174708212170_2_alg».proof.Proof.KOut
import proofs.«428180_j4174708212170_2_alg».proof.Proof.Gen.KernelIdeal.Launch
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

private theorem readAt_whole0 {sig' : RefSig} {κ : Kind} {sp : Space} {S : Shape} {e : EltTy} (v : View sig' κ sp S e)
    (f : v.ty.Contents (Elt F)) {off : Fin S.rank → ℕ} (h : off = fun _ => 0) (inb : ∀ a, off a + S.size a ≤ S.size a) :
    v.readAt (Elt F) (Rect.unit off S.size inb).toLoadRect f = v.read (Elt F) f :=
  (View.readAt_eq_ld v f _).trans (View.ld_unit_zero h inb _)

private theorem read_write_whole0 {sig' : RefSig} {κ : Kind} {sp : Space} {S : Shape} {e : EltTy} (v : View sig' κ sp S e)
    (f : v.ty.Contents (Elt F)) {off : Fin S.rank → ℕ} (h : off = fun _ => 0) (inb : ∀ a, off a + S.size a ≤ S.size a)
    (w : S.Idx → Elt F e) :
    v.read (Elt F) (v.writes (Elt F) f [⟨Rect.unit off S.size inb, w⟩]) = w :=
  (View.read_writes_eq_canon v f _ fun y => ⟨_, List.mem_singleton_self _, View.mem_set_unit_zero h inb y⟩).trans
    (View.canon_unit_zero h inb w)

private theorem zeros2 : (![0, 0] : Fin 2 → ℕ) = fun _ => 0 := by funext a; fin_cases a <;> rfl
private theorem zeros3 : (![0, 0, 0] : Fin 3 → ℕ) = fun _ => 0 := by funext a; fin_cases a <;> rfl

set_option maxHeartbeats 1000000 in

theorem sound_kernel0 (c : Dev nD) (E : Set ℕ) (i : grid0.Coords) (arg1 : Memref sig .tc .smem S104 .i32) (harg1 : arg1.IsWhole) (arg2 : Memref sig .tc .vmem S1000x256 .f32) (harg2 : arg2.IsWhole) (arg3 : Memref sig .tc .vmem S1x256x256 .f32) (harg3 : arg3.IsWhole) (arg4 : Memref sig .tc .vmem S1x1x256 .f32) (harg4 : arg4.IsWhole) (arg5 : Memref sig .tc .vmem S1x256x256 .f32) (harg5 : arg5.IsWhole) (arg6 : Memref sig .tc .vmem S1x1x256 .f32) (harg6 : arg6.IsWhole) (arg7 : Memref sig .tc .vmem S1x256x1 .f32) (harg7 : arg7.IsWhole) (arg8 : Memref sig .tc .vmem S1x1x1 .f32) (harg8 : arg8.IsWhole) (arg9 : Memref sig .tc .vmem S1x256x1 .f32) (harg9 : arg9.IsWhole) (arg10 : Memref sig .tc .vmem S1x1x1 .f32) (harg10 : arg10.IsWhole) (arg11 : Memref sig .tc .vmem S1000x1 .f32) (harg11 : arg11.IsWhole) (arg12 : Memref sig .tc .vmem S1000x256 .f32) (harg12 : arg12.IsWhole)
    (x0 : Vec F S1000x256 .f32) (w1 : Vec F S1x256x256 .f32) (b1 : Vec F S1x1x256 .f32) (w2 : Vec F S1x256x256 .f32) (b2 : Vec F S1x1x256 .f32) (w3 : Vec F S1x256x1 .f32) (b3 : Vec F S1x1x1 .f32) (ws : Vec F S1x256x1 .f32) (bs : Vec F S1x1x1 .f32) (K : PUnit → sProp 𝕄) :
    iprop(owns (c : Thread nD τ) arg2 fullShare x0 ∗ owns (c : Thread nD τ) arg3 fullShare w1 ∗ owns (c : Thread nD τ) arg4 fullShare b1 ∗ owns (c : Thread nD τ) arg5 fullShare w2 ∗ owns (c : Thread nD τ) arg6 fullShare b2 ∗ owns (c : Thread nD τ) arg7 fullShare w3 ∗ owns (c : Thread nD τ) arg8 fullShare b3 ∗ owns (c : Thread nD τ) arg9 fullShare ws ∗ owns (c : Thread nD τ) arg10 fullShare bs
        ∗ (∃ d, owns (c : Thread nD τ) arg11 fullShare d) ∗ (∃ d, owns (c : Thread nD τ) arg12 fullShare d)
        ∗ (iprop(owns (c : Thread nD τ) arg2 fullShare x0 ∗ owns (c : Thread nD τ) arg3 fullShare w1 ∗ owns (c : Thread nD τ) arg4 fullShare b1 ∗ owns (c : Thread nD τ) arg5 fullShare w2 ∗ owns (c : Thread nD τ) arg6 fullShare b2 ∗ owns (c : Thread nD τ) arg7 fullShare w3 ∗ owns (c : Thread nD τ) arg8 fullShare b3 ∗ owns (c : Thread nD τ) arg9 fullShare ws ∗ owns (c : Thread nD τ) arg10 fullShare bs
            ∗ owns (c : Thread nD τ) arg11 fullShare (blkOut x0 w1 b1 w2 b2 w3 b3 ws bs) ∗ owns (c : Thread nD τ) arg12 fullShare (blkGrad x0 w1 b1 w2 b2 w3 ws)) -∗ K ⟨⟩))
      ⊢ wp frame (wpE (defs₀ (F := F)) Variants.none c none) E (cc0__species_mlp_kernel i arg1 harg1 arg2 harg2 arg3 harg3 arg4 harg4 arg5 harg5 arg6 harg6 arg7 harg7 arg8 harg8 arg9 harg9 arg10 harg10 arg11 harg11 arg12 harg12) K := by
  simp only [cc0__species_mlp_kernel_eq_skeleton]; unfold cc0__species_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro

    refine (read_write_whole0 _ _ zeros2 _ _).trans ?_
    sl_unfold_run_names
    unfold blkOut
    simp only [readAt_whole0 arg2.view f0 zeros2, readAt_whole0 arg3.view f1 zeros3, readAt_whole0 arg4.view f2 zeros3,
      readAt_whole0 arg5.view f3 zeros3, readAt_whole0 arg6.view f4 zeros3, readAt_whole0 arg7.view f5 zeros3,
      readAt_whole0 arg8.view f6 zeros3, readAt_whole0 arg9.view f7 zeros3, readAt_whole0 arg10.view f8 zeros3]
  iexists _; isplitr
  swap; · iexact H10
  ipureintro
  refine (read_write_whole0 _ _ zeros2 _ _).trans ?_
  sl_unfold_run_names
  unfold blkGrad
  simp only [readAt_whole0 arg2.view f0 zeros2, readAt_whole0 arg3.view f1 zeros3, readAt_whole0 arg4.view f2 zeros3,
    readAt_whole0 arg5.view f3 zeros3, readAt_whole0 arg6.view f4 zeros3, readAt_whole0 arg7.view f5 zeros3,
    readAt_whole0 arg8.view f6 zeros3, readAt_whole0 arg9.view f7 zeros3, readAt_whole0 arg10.view f8 zeros3]

section Region

variable (V : (c : Dev nD) → (b : Ref sig .tc) → Buf (Elt F) ((c : Thread nD τ).loc b))
variable (a : (pcfg0 (F := F)).Adm)

def iblk0 (c : Dev nD) (w : Fin (cfg0 a).W) (t : Fin (cfg0 a).N) :
    (((cfg0 a).win w).xblock ((cfg0 a).grid.coords t)).Idx → Elt F ((cfg0 a).win w).elt :=
  (((cfg0 a).win w).blk t).view.read (Elt F) (V c (Pipeline.arrRef spec0 w))

theorem before0_0_of {c : Dev nD} (dat : Dat τ (Elt F) Unit ℕ (UR sig nD τ) ℕ (cfg0 a) c) (hA : dat.A 0 = V c (Pipeline.arrRef spec0 0))
    (hafter : ∀ t, dat.after 0 t = iblk0 V a c 0 t) (t : Fin (cfg0 a).N) (d) : dat.before 0 t d = iblk0 V a c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ (cfg0 a) c) (hA : dat.A 1 = V c (Pipeline.arrRef spec0 1))
    (hafter : ∀ t, dat.after 1 t = iblk0 V a c 1 t) (t : Fin (cfg0 a).N) (d) : dat.before 1 t d = iblk0 V a c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ (cfg0 a) c) (hA : dat.A 2 = V c (Pipeline.arrRef spec0 2))
    (hafter : ∀ t, dat.after 2 t = iblk0 V a c 2 t) (t : Fin (cfg0 a).N) (d) : dat.before 2 t d = iblk0 V a c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ (cfg0 a) c) (hA : dat.A 3 = V c (Pipeline.arrRef spec0 3))
    (hafter : ∀ t, dat.after 3 t = iblk0 V a c 3 t) (t : Fin (cfg0 a).N) (d) : dat.before 3 t d = iblk0 V a c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ (cfg0 a) c) (hA : dat.A 4 = V c (Pipeline.arrRef spec0 4))
    (hafter : ∀ t, dat.after 4 t = iblk0 V a c 4 t) (t : Fin (cfg0 a).N) (d) : dat.before 4 t d = iblk0 V a c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_5_of {c : Dev nD} (dat : Dat τ (Elt F) Unit ℕ (UR sig nD τ) ℕ (cfg0 a) c) (hA : dat.A 5 = V c (Pipeline.arrRef spec0 5))
    (hafter : ∀ t, dat.after 5 t = iblk0 V a c 5 t) (t : Fin (cfg0 a).N) (d) : dat.before 5 t d = iblk0 V a c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

theorem before0_6_of {c : Dev nD} (dat : Dat τ (Elt F) Unit ℕ (UR sig nD τ) ℕ (cfg0 a) c) (hA : dat.A 6 = V c (Pipeline.arrRef spec0 6))
    (hafter : ∀ t, dat.after 6 t = iblk0 V a c 6 t) (t : Fin (cfg0 a).N) (d) : dat.before 6 t d = iblk0 V a c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

theorem before0_7_of {c : Dev nD} (dat : Dat τ (Elt F) Unit ℕ (UR sig nD τ) ℕ (cfg0 a) c) (hA : dat.A 7 = V c (Pipeline.arrRef spec0 7))
    (hafter : ∀ t, dat.after 7 t = iblk0 V a c 7 t) (t : Fin (cfg0 a).N) (d) : dat.before 7 t d = iblk0 V a c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

theorem before0_8_of {c : Dev nD} (dat : Dat τ (Elt F) Unit ℕ (UR sig nD τ) ℕ (cfg0 a) c) (hA : dat.A 8 = V c (Pipeline.arrRef spec0 8))
    (hafter : ∀ t, dat.after 8 t = iblk0 V a c 8 t) (t : Fin (cfg0 a).N) (d) : dat.before 8 t d = iblk0 V a c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

def dat0 (c : Dev nD) : Dat τ (Elt F) Unit ℕ (UR sig nD τ) ℕ (cfg0 a) c where
  A w := V c (Pipeline.arrRef spec0 w)
  after w t := match w with
    | ⟨0, _⟩ => iblk0 V a c 0 t
    | ⟨1, _⟩ => iblk0 V a c 1 t
    | ⟨2, _⟩ => iblk0 V a c 2 t
    | ⟨3, _⟩ => iblk0 V a c 3 t
    | ⟨4, _⟩ => iblk0 V a c 4 t
    | ⟨5, _⟩ => iblk0 V a c 5 t
    | ⟨6, _⟩ => iblk0 V a c 6 t
    | ⟨7, _⟩ => iblk0 V a c 7 t
    | ⟨8, _⟩ => iblk0 V a c 8 t
    | ⟨9, _⟩ => blkOut (iblk0 V a c 0 t) (iblk0 V a c 1 t) (iblk0 V a c 2 t) (iblk0 V a c 3 t) (iblk0 V a c 4 t) (iblk0 V a c 5 t) (iblk0 V a c 6 t) (iblk0 V a c 7 t) (iblk0 V a c 8 t)
    | ⟨10, _⟩ => blkGrad (iblk0 V a c 0 t) (iblk0 V a c 1 t) (iblk0 V a c 2 t) (iblk0 V a c 3 t) (iblk0 V a c 4 t) (iblk0 V a c 5 t) (iblk0 V a c 7 t)
  Φ _ := iprop(Pipeline.ΦA spec0 c ∗ Pipeline.prefHeld pre0 c (fun _ => fullShare) a.1)
  q _ := fullShare
  owed _ := 0

theorem A_eq0 (c : Dev nD) (w : Fin (cfg0 a).W) : (dat0 V a c).A w = V c (Pipeline.arrRef spec0 w) := by
  dsimp only [dat0]

theorem Φ_eq0 (c : Dev nD) (t : Fin ((cfg0 a).N + 1)) :
    (dat0 V a c).Φ t = iprop(Pipeline.ΦA spec0 c ∗ Pipeline.prefHeld pre0 c (fun _ => fullShare) a.1) := rfl

theorem after0_0 (c : Dev nD) (t : Fin (cfg0 a).N) : (dat0 V a c).after 0 t = iblk0 V a c 0 t := by dsimp only [dat0]; rfl
theorem after0_1 (c : Dev nD) (t : Fin (cfg0 a).N) : (dat0 V a c).after 1 t = iblk0 V a c 1 t := by dsimp only [dat0]; rfl
theorem after0_2 (c : Dev nD) (t : Fin (cfg0 a).N) : (dat0 V a c).after 2 t = iblk0 V a c 2 t := by dsimp only [dat0]; rfl
theorem after0_3 (c : Dev nD) (t : Fin (cfg0 a).N) : (dat0 V a c).after 3 t = iblk0 V a c 3 t := by dsimp only [dat0]; rfl
theorem after0_4 (c : Dev nD) (t : Fin (cfg0 a).N) : (dat0 V a c).after 4 t = iblk0 V a c 4 t := by dsimp only [dat0]; rfl
theorem after0_5 (c : Dev nD) (t : Fin (cfg0 a).N) : (dat0 V a c).after 5 t = iblk0 V a c 5 t := by dsimp only [dat0]; rfl
theorem after0_6 (c : Dev nD) (t : Fin (cfg0 a).N) : (dat0 V a c).after 6 t = iblk0 V a c 6 t := by dsimp only [dat0]; rfl
theorem after0_7 (c : Dev nD) (t : Fin (cfg0 a).N) : (dat0 V a c).after 7 t = iblk0 V a c 7 t := by dsimp only [dat0]; rfl
theorem after0_8 (c : Dev nD) (t : Fin (cfg0 a).N) : (dat0 V a c).after 8 t = iblk0 V a c 8 t := by dsimp only [dat0]; rfl
theorem after0_9 (c : Dev nD) (t : Fin (cfg0 a).N) : (dat0 V a c).after 9 t = blkOut (iblk0 V a c 0 t) (iblk0 V a c 1 t) (iblk0 V a c 2 t) (iblk0 V a c 3 t) (iblk0 V a c 4 t) (iblk0 V a c 5 t) (iblk0 V a c 6 t) (iblk0 V a c 7 t) (iblk0 V a c 8 t) := by dsimp only [dat0]; rfl
theorem after0_10 (c : Dev nD) (t : Fin (cfg0 a).N) : (dat0 V a c).after 10 t = blkGrad (iblk0 V a c 0 t) (iblk0 V a c 1 t) (iblk0 V a c 2 t) (iblk0 V a c 3 t) (iblk0 V a c 4 t) (iblk0 V a c 5 t) (iblk0 V a c 7 t) := by dsimp only [dat0]; rfl

theorem before0_0 (c : Dev nD) (t : Fin (cfg0 a).N) (d) : (dat0 V a c).before 0 t d = iblk0 V a c 0 t :=
  before0_0_of V a (dat0 V a c) (A_eq0 V a c 0) (after0_0 V a c) t d
theorem before0_1 (c : Dev nD) (t : Fin (cfg0 a).N) (d) : (dat0 V a c).before 1 t d = iblk0 V a c 1 t :=
  before0_1_of V a (dat0 V a c) (A_eq0 V a c 1) (after0_1 V a c) t d
theorem before0_2 (c : Dev nD) (t : Fin (cfg0 a).N) (d) : (dat0 V a c).before 2 t d = iblk0 V a c 2 t :=
  before0_2_of V a (dat0 V a c) (A_eq0 V a c 2) (after0_2 V a c) t d
theorem before0_3 (c : Dev nD) (t : Fin (cfg0 a).N) (d) : (dat0 V a c).before 3 t d = iblk0 V a c 3 t :=
  before0_3_of V a (dat0 V a c) (A_eq0 V a c 3) (after0_3 V a c) t d
theorem before0_4 (c : Dev nD) (t : Fin (cfg0 a).N) (d) : (dat0 V a c).before 4 t d = iblk0 V a c 4 t :=
  before0_4_of V a (dat0 V a c) (A_eq0 V a c 4) (after0_4 V a c) t d
theorem before0_5 (c : Dev nD) (t : Fin (cfg0 a).N) (d) : (dat0 V a c).before 5 t d = iblk0 V a c 5 t :=
  before0_5_of V a (dat0 V a c) (A_eq0 V a c 5) (after0_5 V a c) t d
theorem before0_6 (c : Dev nD) (t : Fin (cfg0 a).N) (d) : (dat0 V a c).before 6 t d = iblk0 V a c 6 t :=
  before0_6_of V a (dat0 V a c) (A_eq0 V a c 6) (after0_6 V a c) t d
theorem before0_7 (c : Dev nD) (t : Fin (cfg0 a).N) (d) : (dat0 V a c).before 7 t d = iblk0 V a c 7 t :=
  before0_7_of V a (dat0 V a c) (A_eq0 V a c 7) (after0_7 V a c) t d
theorem before0_8 (c : Dev nD) (t : Fin (cfg0 a).N) (d) : (dat0 V a c).before 8 t d = iblk0 V a c 8 t :=
  before0_8_of V a (dat0 V a c) (A_eq0 V a c 8) (after0_8 V a c) t d

abbrev st0_0 (t : Fin (cfg0 a).N) := ((cfg0 a).win 0).stage ((cfg0 a).slots t 0)
abbrev st0_1 (t : Fin (cfg0 a).N) := ((cfg0 a).win 1).stage ((cfg0 a).slots t 1)
abbrev st0_2 (t : Fin (cfg0 a).N) := ((cfg0 a).win 2).stage ((cfg0 a).slots t 2)
abbrev st0_3 (t : Fin (cfg0 a).N) := ((cfg0 a).win 3).stage ((cfg0 a).slots t 3)
abbrev st0_4 (t : Fin (cfg0 a).N) := ((cfg0 a).win 4).stage ((cfg0 a).slots t 4)
abbrev st0_5 (t : Fin (cfg0 a).N) := ((cfg0 a).win 5).stage ((cfg0 a).slots t 5)
abbrev st0_6 (t : Fin (cfg0 a).N) := ((cfg0 a).win 6).stage ((cfg0 a).slots t 6)
abbrev st0_7 (t : Fin (cfg0 a).N) := ((cfg0 a).win 7).stage ((cfg0 a).slots t 7)
abbrev st0_8 (t : Fin (cfg0 a).N) := ((cfg0 a).win 8).stage ((cfg0 a).slots t 8)
abbrev st0_9 (t : Fin (cfg0 a).N) := ((cfg0 a).win 9).stage ((cfg0 a).slots t 9)
abbrev st0_10 (t : Fin (cfg0 a).N) := ((cfg0 a).win 10).stage ((cfg0 a).slots t 10)

abbrev bodyAt0 (t : Fin (cfg0 a).N) : Prog (TpuEff nD τ sig (Elt F) Λ₀ .tc) PUnit :=
  cc0__species_mlp_kernel (grid0.coords t) (Memref.whole main_v74) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10))

def bodyPre0 (c : Dev nD) (t : Fin (cfg0 a).N) : sProp 𝕄 :=
  iprop((dat0 V a c).Φ t.castSucc ∗ (dat0 V a c).owesAt () t.castSucc
    ∗ (∃ d, owns (c : Thread nD τ) (st0_0 a t) fullShare ((dat0 V a c).before 0 t d))
    ∗ (∃ d, owns (c : Thread nD τ) (st0_1 a t) fullShare ((dat0 V a c).before 1 t d))
    ∗ (∃ d, owns (c : Thread nD τ) (st0_2 a t) fullShare ((dat0 V a c).before 2 t d))
    ∗ (∃ d, owns (c : Thread nD τ) (st0_3 a t) fullShare ((dat0 V a c).before 3 t d))
    ∗ (∃ d, owns (c : Thread nD τ) (st0_4 a t) fullShare ((dat0 V a c).before 4 t d))
    ∗ (∃ d, owns (c : Thread nD τ) (st0_5 a t) fullShare ((dat0 V a c).before 5 t d))
    ∗ (∃ d, owns (c : Thread nD τ) (st0_6 a t) fullShare ((dat0 V a c).before 6 t d))
    ∗ (∃ d, owns (c : Thread nD τ) (st0_7 a t) fullShare ((dat0 V a c).before 7 t d))
    ∗ (∃ d, owns (c : Thread nD τ) (st0_8 a t) fullShare ((dat0 V a c).before 8 t d))
    ∗ (∃ d, owns (c : Thread nD τ) (st0_9 a t) fullShare ((dat0 V a c).before 9 t d))
    ∗ (∃ d, owns (c : Thread nD τ) (st0_10 a t) fullShare ((dat0 V a c).before 10 t d)))

def bodyPost0 (c : Dev nD) (t : Fin (cfg0 a).N) : sProp 𝕄 :=
  iprop((dat0 V a c).Φ t.succ ∗ (dat0 V a c).owesAt () t.succ
    ∗ owns (c : Thread nD τ) (st0_0 a t) fullShare ((dat0 V a c).after 0 t)
    ∗ owns (c : Thread nD τ) (st0_1 a t) fullShare ((dat0 V a c).after 1 t)
    ∗ owns (c : Thread nD τ) (st0_2 a t) fullShare ((dat0 V a c).after 2 t)
    ∗ owns (c : Thread nD τ) (st0_3 a t) fullShare ((dat0 V a c).after 3 t)
    ∗ owns (c : Thread nD τ) (st0_4 a t) fullShare ((dat0 V a c).after 4 t)
    ∗ owns (c : Thread nD τ) (st0_5 a t) fullShare ((dat0 V a c).after 5 t)
    ∗ owns (c : Thread nD τ) (st0_6 a t) fullShare ((dat0 V a c).after 6 t)
    ∗ owns (c : Thread nD τ) (st0_7 a t) fullShare ((dat0 V a c).after 7 t)
    ∗ owns (c : Thread nD τ) (st0_8 a t) fullShare ((dat0 V a c).after 8 t)
    ∗ owns (c : Thread nD τ) (st0_9 a t) fullShare ((dat0 V a c).after 9 t)
    ∗ owns (c : Thread nD τ) (st0_10 a t) fullShare ((dat0 V a c).after 10 t))

theorem sound_body0 (c : Dev nD) (t : Fin (cfg0 a).N) :
    bodyPre0 V a c t ⊢ wp frame (wpE (defs₀ (F := F)) Variants.none c none) Set.univ (bodyAt0 a t) (fun _ => bodyPost0 V a c t) := by
  unfold bodyPre0 bodyPost0 bodyAt0
  simp only [before0_0, before0_1, before0_2, before0_3, before0_4, before0_5, before0_6, before0_7, before0_8]
  rw [show (dat0 V a c).Φ t.succ = (dat0 V a c).Φ t.castSucc from rfl,
    show (dat0 V a c).owesAt () t.succ = (dat0 V a c).owesAt () t.castSucc from rfl,
    after0_0, after0_1, after0_2, after0_3, after0_4, after0_5, after0_6, after0_7, after0_8, after0_9, after0_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel0 c Set.univ _ _ _ _ _ _ _ _ _ _ _ _ _ _ _ _ _ _ _ _ _ _ _ _ _ (iblk0 V a c 0 t) (iblk0 V a c 1 t) (iblk0 V a c 2 t) (iblk0 V a c 3 t) (iblk0 V a c 4 t) (iblk0 V a c 5 t) (iblk0 V a c 6 t) (iblk0 V a c 7 t) (iblk0 V a c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem body_obligation0 (c : Dev nD) : BodyObligation (dat0 (F := F) V a c) (defs₀ (F := F)) Variants.none () Set.univ := fun t => by
  rw [bigSep_W0, bigSep_W0]
  exact sound_body0 V a c t

end Region

end Cert.KernelIdeal.Hand

end
-- ==== Proof.Region1.lean ====
import proofs.«428180_j4174708212170_2_alg».proof.Proof.KOut
import proofs.«428180_j4174708212170_2_alg».proof.Proof.Gen.KernelIdeal.Launch
import proofs.«428180_j4174708212170_2_alg».proof.Proof.Gen.KernelIdeal.Points
import Idealize.ShloMosaic.Lib.Pipeline.FrameBody
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem zero_offsets : (![0, 0] : Fin 2 → Nat) = fun _ => 0 := funext fun a => by fin_cases a <;> rfl

abbrev r1_0 : Rect S2000x256 := Rect.unit (s := S2000x256) ![0, 0] S2000x256.size inb_S2000x256_S2000x256_0_0
abbrev r1_1 : Rect S2000x768 := Rect.unit (s := S2000x768) ![0, 0] S2000x768.size inb_S2000x768_S2000x768_0_0
abbrev r1_2 : Rect S2000x3 := Rect.unit (s := S2000x3) ![0, 0] S2000x3.size inb_S2000x3_S2000x3_0_0

theorem cover1_2 (p0 : Vec F S2000x3 .f32) (y : S2000x3.Idx) :
    ∃ pc ∈ ([⟨r1_2, p0⟩] : List (View.Piece (Elt F) S2000x3 .f32)), y ∈ pc.1.set :=
  ⟨_, List.mem_singleton_self _, View.mem_set_unit_zero (S := S2000x3) zero_offsets inb_S2000x3_S2000x3_0_0 y⟩

theorem stored1_2 (x0 : Vec F S2000x256 .f32) (x1 : Vec F S2000x768 .f32) :
    View.canon [(⟨r1_2, k1_pay1 (View.ld x0 r1_0) (View.ld x1 r1_1)⟩ : View.Piece (Elt F) S2000x3 .f32)] = blkForce x0 x1 := by
  rw [View.canon_unit_zero (S := S2000x3) zero_offsets]
  rw [View.ld_unit_zero (S := S2000x256) zero_offsets, View.ld_unit_zero (S := S2000x768) zero_offsets]
  rfl

set_option maxHeartbeats 1000000 in

theorem sound_kernel1 (c : Dev nD) (E : Set ℕ) (i : grid1.Coords) (arg1 : Memref sig .tc .vmem S2000x256 .f32) (harg1 : arg1.IsWhole) (arg2 : Memref sig .tc .vmem S2000x768 .f32) (harg2 : arg2.IsWhole) (arg3 : Memref sig .tc .vmem S2000x3 .f32) (harg3 : arg3.IsWhole)
    (x0 : Vec F S2000x256 .f32) (x1 : Vec F S2000x768 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (blkForce x0 x1)) -∗ K ⟨⟩))
      ⊢ wp frame (wpE (defs₀ (F := F)) Variants.none c none) E (cc1__force_contract_kernel i arg1 harg1 arg2 harg2 arg3 harg3) K := by
  simp only [cc1__force_contract_kernel_eq_skeleton]; unfold cc1__force_contract_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact (View.read_writes_eq_canon _ _ _ (cover1_2 _)).trans (stored1_2 _ _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => blkForce (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = blkForce (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Region1

end Cert.KernelIdeal.Hand

end
-- ==== Proof.KTable.lean ====
import proofs.«428180_j4174708212170_2_alg».proof.Proof.Gen.KernelIdeal.Regions
import Idealize.ShloMosaic.Lib.StableHlo.Run
import Idealize.ShloMosaic.Lib.WordArith
import Idealize.ShloMosaic.Lib.ValueIdx

noncomputable section

namespace Cert.KernelIdeal.Hand

open Cert.KernelIdeal Cert.KernelIdeal.Gen
open Idealize.ShloMosaic Idealize.ShloMosaic.TcCoe Idealize.SL.Sem
open Idealize.ShloMosaic.StableHlo

variable {F : FTy → Type} [FloatOps F]

theorem toNat_clip_le3 (x : BitVec 32) : (IntOp.minsi 3#32 (IntOp.maxsi 0#32 x)).toNat ≤ 3 := by
  have hm := WordArith.toInt_maxsi_zero x
  generalize IntOp.maxsi 0#32 x = y at hm ⊢
  have h3 : (3#32 : BitVec 32).toInt = 3 := by decide
  have hc := BitVec.toInt_eq_toNat_cond y
  have hl := y.isLt
  unfold IntOp.minsi
  by_cases h : (3#32 : BitVec 32).slt y = true
  · rw [if_pos h]; decide
  · rw [if_neg h]
    rw [BitVec.slt_iff_toInt_lt, h3] at h
    split at hc <;> omega

theorem after_clip_tbl (W : Valuation τ sig (Elt F)) :
    (StableHlo.after hostOps0_13 W (Proc.devRef .tc main_v74) : IVec S104 32)
      = minsi (broadcastInDim S104 ![] bcast_S_S104 (W (Proc.devRef .tc main_c_24) : IVec S_ 32))
          (maxsi (broadcastInDim S104 ![] bcast_S_S104 (W (Proc.devRef .tc main_c_23) : IVec S_ 32))
            (W (Proc.devRef .tc main_v73) : IVec S104 32)) := by
  after_results
  rfl

theorem after_sched_hi (W : Valuation τ sig (Elt F)) :
    (StableHlo.after hostOps0_12 W (Proc.devRef .tc main_c_24) : IVec S_ 32) = constantI S_ 32 3#32 := by
  after_results

theorem after_sched_lo (W : Valuation τ sig (Elt F)) :
    (StableHlo.after hostOps0_12 W (Proc.devRef .tc main_c_23) : IVec S_ 32) = constantI S_ 32 0#32 := by
  after_results

theorem V14_tbl (m : (ℓ : Loc nD τ sig) → Buf (Elt F) ℓ) (c : Dev nD) (j : S104.Idx) :
    (Gen.V14 m c main_v74 : IVec S104 32) j
      = IntOp.minsi 3#32 (IntOp.maxsi 0#32 ((Gen.V13 m c main_v73 : IVec S104 32) j)) := by
  have e : (Gen.V14 m c main_v74 : IVec S104 32)
      = minsi (broadcastInDim S104 ![] bcast_S_S104 (constantI S_ 32 3#32))
          (maxsi (broadcastInDim S104 ![] bcast_S_S104 (constantI S_ 32 0#32)) (Gen.V13 m c main_v73 : IVec S104 32)) := by
    refine (after_clip_tbl (Gen.V13 m c)).trans ?_
    rw [show (Gen.V13 m c (Proc.devRef .tc main_c_24) : IVec S_ 32) = constantI S_ 32 3#32 from after_sched_hi (Gen.V12 m c),
      show (Gen.V13 m c (Proc.devRef .tc main_c_23) : IVec S_ 32) = constantI S_ 32 0#32 from after_sched_lo (Gen.V12 m c)]
  rw [e]
  rfl

theorem tbl_le3 (m : (ℓ : Loc nD τ sig) → Buf (Elt F) ℓ) (c : Dev nD) (t : Fin 104) :
    ((Gen.V16 m c main_v74 : IVec S104 32) (ValueIdx.ix1 t)).toNat ≤ 3 := by
  rw [Gen.V16_of m c main_v74 (by decide), Gen.V15_of m c main_v74 (by decide), V14_tbl]
  exact toNat_clip_le3 _

theorem blk_inb (n p q : Nat) (hn : n ≤ 3) (a : Fin 3) :
    ((![n, 0, 0] : Fin 3 → Nat) a + 1) * (![1, p, q] : Fin 3 → Nat) a ≤ (![4, p, q] : Fin 3 → Nat) a := by
  fin_cases a
  · show (n + 1) * 1 ≤ 4; omega
  · show (0 + 1) * p ≤ p; omega
  · show (0 + 1) * q ≤ q; omega

theorem ok0_of_le3 (pf : pre0.Contents (Elt F))
    (h : ∀ t : Fin 104, ((pf 0 : IVec S104 32) (ValueIdx.ix1 t)).toNat ≤ 3) : ok0 pf := by
  have hl : ∀ x : S104.Idx, ((pf 0 : IVec S104 32) x).toNat ≤ 3 := fun x => by
    have e : x = ValueIdx.ix1 (x 0 : Fin 104) := by
      funext d
      match d with
      | ⟨0, _⟩ => rfl
    rw [e]; exact h _
  exact ⟨fun i => ⟨blk_inb _ 256 256 (hl _), Or.inl rfl⟩, fun i => ⟨blk_inb _ 1 256 (hl _), Or.inl rfl⟩,
    fun i => ⟨blk_inb _ 256 256 (hl _), Or.inl rfl⟩, fun i => ⟨blk_inb _ 1 256 (hl _), Or.inl rfl⟩,
    fun i => ⟨blk_inb _ 256 1 (hl _), Or.inl rfl⟩, fun i => ⟨blk_inb _ 1 1 (hl _), Or.inl rfl⟩,
    fun i => ⟨blk_inb _ 256 1 (hl _), Or.inl rfl⟩, fun i => ⟨blk_inb _ 1 1 (hl _), Or.inl rfl⟩⟩

def tbl0 (m : (ℓ : Loc nD τ sig) → Buf (Elt F) ℓ) : pre0.Contents (Elt F) := fun k => Gen.V16 m (0 : Dev nD) (pre0.ref k)

theorem tbl0_zero (m : (ℓ : Loc nD τ sig) → Buf (Elt F) ℓ) : tbl0 m 0 = Gen.V16 m (0 : Dev nD) main_v74 := rfl

def adm0 (m : (ℓ : Loc nD τ sig) → Buf (Elt F) ℓ) : (pcfg0 (F := F)).Adm :=
  ⟨tbl0 m, ok0_of_le3 (tbl0 m) fun t => tbl_le3 m 0 t⟩

theorem adm0_val (m : (ℓ : Loc nD τ sig) → Buf (Elt F) ℓ) : (adm0 m).1 = tbl0 m := rfl

theorem adm0_tbl (m : (ℓ : Loc nD τ sig) → Buf (Elt F) ℓ) (c : Dev nD) (k : Fin pre0.K) :
    Gen.V16 m c (pre0.ref k) = (adm0 m).1 k := by
  obtain rfl : c = 0 := Subsingleton.elim _ _
  rfl

end Cert.KernelIdeal.Hand

end
-- ==== Proof.KRun.lean ====
import proofs.«428180_j4174708212170_2_alg».proof.Proof.Region0
import proofs.«428180_j4174708212170_2_alg».proof.Proof.Region1
import proofs.«428180_j4174708212170_2_alg».proof.Proof.KTable
import proofs.«428180_j4174708212170_2_alg».proof.Proof.Gen.KernelIdeal.Regions
import Idealize.ShloMosaic.Lib.Pipeline.RegionsLoop
import Idealize.ShloMosaic.Lib.Pipeline.Kit

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation Seg HostSeg RegionSeg)

variable {F : FTy → Type} [FloatOps F]

local notation "𝕄" => MT nD τ sig Unit (Elt F) ℕ (UR sig nD τ) ℕ

variable (m : (ℓ : Loc nD τ sig) → Buf (Elt F) ℓ)

abbrev VR16 : (c : Dev nD) → (b : Ref sig .tc) → Buf (Elt F) ((c : Thread nD τ).loc b) := fun c b => Gen.V16 m c b

def outs0 : Gen.Outs (F := F) := fun _ r c =>
  Function.update (Function.update (Gen.V16 m c) main_v80_0 ((dat0 (VR16 m) (adm0 m) c).arrAt 9 (cfg0 (adm0 m)).N))
    main_v80_1 ((dat0 (VR16 m) (adm0 m) c).arrAt 10 (cfg0 (adm0 m)).N) r

abbrev VR20₀ : (c : Dev nD) → (b : Ref sig .tc) → Buf (Elt F) ((c : Thread nD τ).loc b) := fun c b => Gen.V20 m (outs0 m) c b

def outs : Gen.Outs (F := F) := fun J r c =>
  if J = 21 then Function.update (Gen.V20 m (outs0 m) c) main_v94 ((dat1 (VR20₀ m) c).arrAt 2 cfg1.N) r
  else outs0 m J r c

abbrev VR20 : (c : Dev nD) → (b : Ref sig .tc) → Buf (Elt F) ((c : Thread nD τ).loc b) := fun c b => Gen.V20 m (outs m) c b

theorem outs_17 : outs m 17 = outs0 m 17 := funext fun r => funext fun c => if_neg (by decide)

theorem ne_v80 : (Proc.devRef .tc main_v80_0 : DevRef τ sig) ≠ Proc.devRef .tc main_v80_1 := StableHlo.devRef_ne_of_ne (by decide)

theorem V17_v80_0 (o : Gen.Outs (F := F)) (c : Dev nD) : Gen.V17 m o c main_v80_0 = o 17 main_v80_0 c :=
  (Function.update_of_ne ne_v80 _ _).trans (Function.update_self _ _ _)

theorem V17_v80_1 (o : Gen.Outs (F := F)) (c : Dev nD) : Gen.V17 m o c main_v80_1 = o 17 main_v80_1 c :=
  Function.update_self _ _ _

theorem V21_v94 (o : Gen.Outs (F := F)) (c : Dev nD) : Gen.V21 m o c main_v94 = o 21 main_v94 c :=
  Function.update_self _ _ _

theorem V17_outs (c : Dev nD) : Gen.V17 m (outs m) c = Gen.V17 m (outs0 m) c := by
  show Function.update (Function.update (Gen.V16 m c) main_v80_0 (outs m 17 main_v80_0 c)) main_v80_1 (outs m 17 main_v80_1 c) = _
  rw [outs_17]
theorem V20_outs (c : Dev nD) : Gen.V20 m (outs m) c = Gen.V20 m (outs0 m) c :=
  congrArg (fun W => StableHlo.after hostOps1_2 (StableHlo.after hostOps1_1 (StableHlo.after hostOps1 W))) (V17_outs m c)
theorem VR20_outs : VR20 m = VR20₀ m :=
  funext fun c => funext fun b => congrFun (V20_outs m c) b

theorem outs_v80_0 (c : Dev nD) : outs m 17 main_v80_0 c = (dat0 (VR16 m) (adm0 m) c).arrAt 9 (cfg0 (adm0 m)).N :=
  (congrFun (congrFun (outs_17 m) main_v80_0) c).trans ((Function.update_of_ne ne_v80 _ _).trans (Function.update_self _ _ _))

theorem outs_v80_1 (c : Dev nD) : outs m 17 main_v80_1 c = (dat0 (VR16 m) (adm0 m) c).arrAt 10 (cfg0 (adm0 m)).N :=
  (congrFun (congrFun (outs_17 m) main_v80_1) c).trans (Function.update_self _ _ _)

theorem outs_v94 (c : Dev nD) : outs m 21 main_v94 c = (dat1 (VR20 m) c).arrAt 2 cfg1.N := by
  rw [VR20_outs]
  exact (if_pos rfl).trans (Function.update_self _ _ _)

abbrev adm : (p : Fin 2) → (pcfgs (F := F) p).Adm :=
  fun | ⟨0, _⟩ => adm0 m | ⟨1, _⟩ => cfg1.toPCfg_adm | ⟨_ + 2, h⟩ => absurd h (Nat.not_lt.2 (Nat.le_add_left _ _))

def pdats : (p : Fin 2) → (c : Dev nD) → Dat τ (Elt F) Unit ℕ (UR sig nD τ) ℕ (Pipeline.pin (pcfgs (F := F)) (adm m) p) c
  | ⟨0, _⟩ => fun c => dat0 (VR16 m) (adm0 m) c
  | ⟨1, _⟩ => fun c => dat1 (VR20 m) c

abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev E : Fin 3 → Dev nD → sProp 𝕄 := fun _ c => R c

theorem arr0_in : ∀ w : Fin 11, w.val < 9 → Pipeline.arrRef spec0 w ∉ ([main_v80_0, main_v80_1] : List (Ref sig .tc)) := by decide

theorem hF0_in (c : Dev nD) (w : Fin 11) (hw : w.val < 9) (hin : ((cfg0 (adm0 m)).win w).isOut = false) :
    (dat0 (VR16 m) (adm0 m) c).arrAt w (cfg0 (adm0 m)).N = Gen.V17 m (outs m) c (Pipeline.arrRef spec0 w) :=
  ((dat0 (VR16 m) (adm0 m) c).arrAt_in w hin _).trans ((A_eq0 (VR16 m) (adm0 m) c w).trans (Gen.V17_of m (outs m) c _ (arr0_in w hw)).symm)

theorem hF0 (c : Dev nD) : ∀ w : Fin 11,
    (dat0 (VR16 m) (adm0 m) c).arrAt w (cfg0 (adm0 m)).N = Gen.V17 m (outs m) c (Pipeline.arrRef spec0 w)
  | ⟨0, h⟩ => hF0_in m c ⟨0, h⟩ (show 0 < 9 by decide) rfl
  | ⟨1, h⟩ => hF0_in m c ⟨1, h⟩ (show 1 < 9 by decide) rfl
  | ⟨2, h⟩ => hF0_in m c ⟨2, h⟩ (show 2 < 9 by decide) rfl
  | ⟨3, h⟩ => hF0_in m c ⟨3, h⟩ (show 3 < 9 by decide) rfl
  | ⟨4, h⟩ => hF0_in m c ⟨4, h⟩ (show 4 < 9 by decide) rfl
  | ⟨5, h⟩ => hF0_in m c ⟨5, h⟩ (show 5 < 9 by decide) rfl
  | ⟨6, h⟩ => hF0_in m c ⟨6, h⟩ (show 6 < 9 by decide) rfl
  | ⟨7, h⟩ => hF0_in m c ⟨7, h⟩ (show 7 < 9 by decide) rfl
  | ⟨8, h⟩ => hF0_in m c ⟨8, h⟩ (show 8 < 9 by decide) rfl
  | ⟨9, _⟩ => ((V17_v80_0 m (outs m) c).trans (outs_v80_0 m c)).symm
  | ⟨10, _⟩ => ((V17_v80_1 m (outs m) c).trans (outs_v80_1 m c)).symm

theorem hrest0 (c : Dev nD) (b : Ref sig .tc) (hb : b ∉ Finset.univ.image (Pipeline.arrRef spec0)) :
    Gen.V17 m (outs m) c b = Gen.V16 m c b :=
  Gen.V17_of m (outs m) c b fun hmem => by
    simp only [List.mem_cons, List.not_mem_nil, or_false] at hmem
    rcases hmem with rfl | rfl
    · exact hb (Finset.mem_image.mpr ⟨9, Finset.mem_univ _, rfl⟩)
    · exact hb (Finset.mem_image.mpr ⟨10, Finset.mem_univ _, rfl⟩)

theorem rest0_split (c : Dev nD) :
    (Pipeline.unscopedRest spec0 c (VR16 m c) : sProp 𝕄)
      = iprop(Pipeline.prefHeld pre0 c (fun _ => fullShare) (adm0 m).1 ∗ Pipeline.unscopedRestP pre0 spec0 c (VR16 m c)) := by
  rw [Pipeline.unscopedRest_split preFacts0 c (VR16 m c),
    show (fun k => VR16 m c (pre0.ref k)) = (adm0 m).1 from funext fun k => adm0_tbl m c k]

set_option backward.isDefEq.respectTransparency.types false in

theorem entry0 (c : Dev nD) :
    (StableHlo.held (c : Thread nD τ) (Pipeline.ucRefs τ sig) (Gen.V16 m c) : sProp 𝕄)
      ⊢ iprop((pdats m 0 c).arrays ((pdats m 0 c).arrAt · 0) ∗ Pipeline.prefHeld pre0 c (fun _ => fullShare) (adm0 m).1
          ∗ Pipeline.unscopedRestP pre0 spec0 c (VR16 m c)) := by
  have hsplit := Pipeline.arrays_of_unscopedBufs (p := 0) (pcfgs (F := F)) (adm m) (pdats m) (launch0 (F := F)).win (launch0 (F := F)).arr_whole c
    ((pdats m 0 c).share_full fun _ => rfl) (VR16 m c) fun _ => rfl
  rw [Pipeline.unscopedBufs_held] at hsplit
  exact hsplit.trans (sep_mono .rfl (Entails.of_eq (rest0_split m c)))

set_option backward.isDefEq.respectTransparency.types false in

theorem exit0 (c : Dev nD) :
    iprop((pdats m 0 c).arrays ((pdats m 0 c).arrAt · (cfg0 (adm0 m)).N) ∗ Pipeline.prefHeld pre0 c (fun _ => fullShare) (adm0 m).1
        ∗ Pipeline.unscopedRestP pre0 spec0 c (VR16 m c))
      ⊢ (StableHlo.held (c : Thread nD τ) (Pipeline.ucRefs τ sig) (Gen.V17 m (outs m) c) : sProp 𝕄) := by
  have hjoin := Pipeline.unscopedBufs_of_arrays (p := 0) (pcfgs (F := F)) (adm m) (Ix := Unit) (Name := ℕ) (U := UR sig nD τ) (Lvl := ℕ)
    (launch0 (F := F)).win (launch0 (F := F)).arr_whole c (pdats m) ((pdats m 0 c).share_full fun _ => rfl)
    (VR16 m c) (fun b => Gen.V17 m (outs m) c b) ((pdats m 0 c).arrAt · (cfg0 (adm0 m)).N) (hF0 m c) (hrest0 m c)
  rw [Pipeline.unscopedBufs_held] at hjoin
  exact (sep_mono .rfl (Entails.of_eq (rest0_split m c).symm)).trans hjoin

set_option backward.isDefEq.respectTransparency.types false in

def reg0 : RegionSeg (pcfgs (F := F)) (adm m) (pdats m) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (body_obligation0 (VR16 m) (adm0 m) c).loose
  hwaits := Pipeline.hwaits_of_owed_zero _ _ _ _ L lv 0 fun _ _ => rfl
  pre c := iprop(StableHlo.held (c : Thread nD τ) (Pipeline.ucRefs τ sig) (Gen.V16 m c) ∗ R c)
  post c := iprop(StableHlo.held (c : Thread nD τ) (Pipeline.ucRefs τ sig) (Gen.V17 m (outs m) c) ∗ R c)
  X c := iprop(∃ r, prngReg c r)
  Y c := iprop((∃ r, prngReg c r) ∗ Pipeline.prefHeld pre0 c (fun _ => fullShare) (adm0 m).1)
  Z c := Pipeline.unscopedRestP (Ix := Unit) (Name := ℕ) (U := UR sig nD τ) (Lvl := ℕ) pre0 spec0 c (VR16 m c)
  hentry c := by
    rw [Pipeline.ownSems0_none]
    iintro ⟨⟨Hub, Hp, HO⟩, -, -⟩
    ihave H := (entry0 m c) $$ Hub
    icases H with ⟨Ha, Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = iprop(Pipeline.ΦA spec0 c ∗ Pipeline.prefHeld pre0 c (fun _ => fullShare) (adm0 m).1) from Φ_eq0 (VR16 m) (adm0 m) c 0]
    unfold Pipeline.ΦA
    iintro ⟨Hp, Ht, Hr⟩
    isplitr [Ht]
    · isplitl [Hr]; · iexact Hr
      iexact Hp
    · iexact Ht
  hout c := by
    rw [Pipeline.ownSems0_none, show (pdats m 0 c).Φ (Fin.last _) = iprop(Pipeline.ΦA spec0 c ∗ Pipeline.prefHeld pre0 c (fun _ => fullShare) (adm0 m).1) from Φ_eq0 (VR16 m) (adm0 m) c _]
    unfold Pipeline.ΦA
    iintro ⟨⟨Hr, Hp⟩, Ht⟩
    isplitl [Hp Ht]
    · isplitl [Hp]; · iexact Hp
      iexact Ht
    isplitr; · iempintro
    iexact Hr
  hexit c := by
    iintro ⟨Ha, HO, ⟨Hp, Ht⟩, Hrest⟩
    imodintro
    isplitl [Ha Ht Hrest]
    · iapply (exit0 m c)
      isplitl [Ha]; · iexact Ha
      isplitl [Ht]; · iexact Ht
      iexact Hrest
    isplitl [Hp]; · iexact Hp
    unfold Pipeline.Dat.owesAt Pipeline.owesWithin
    icases HO with ⟨%W, -, HO⟩; iexists W; iexact HO

theorem arr1_in : ∀ w : Fin 3, w.val < 2 → Pipeline.arrRef spec1 w ∉ ([main_v94] : List (Ref sig .tc)) := by decide

theorem hF1_in (c : Dev nD) (w : Fin 3) (hw : w.val < 2) (hin : (cfg1.win w).isOut = false) :
    (dat1 (VR20 m) c).arrAt w cfg1.N = Gen.V21 m (outs m) c (Pipeline.arrRef spec1 w) :=
  ((dat1 (VR20 m) c).arrAt_in w hin _).trans ((A_eq1 (VR20 m) c w).trans (Gen.V21_of m (outs m) c _ (arr1_in w hw)).symm)

theorem hF1 (c : Dev nD) : ∀ w : Fin 3,
    (dat1 (VR20 m) c).arrAt w cfg1.N = Gen.V21 m (outs m) c (Pipeline.arrRef spec1 w)
  | ⟨0, h⟩ => hF1_in m c ⟨0, h⟩ (show 0 < 2 by decide) rfl
  | ⟨1, h⟩ => hF1_in m c ⟨1, h⟩ (show 1 < 2 by decide) rfl
  | ⟨2, _⟩ => ((V21_v94 m (outs m) c).trans (outs_v94 m c)).symm

theorem hrest1 (c : Dev nD) (b : Ref sig .tc) (hb : b ∉ Finset.univ.image (Pipeline.arrRef spec1)) :
    Gen.V21 m (outs m) c b = Gen.V20 m (outs m) c b :=
  Gen.V21_of m (outs m) c b fun hmem => by
    simp only [List.mem_cons, List.not_mem_nil, or_false] at hmem
    subst hmem
    exact hb (Finset.mem_image.mpr ⟨2, Finset.mem_univ _, rfl⟩)

set_option backward.isDefEq.respectTransparency.types false in

def reg1 : RegionSeg (pcfgs (F := F)) (adm m) (pdats m) () defs₀ 𝒱₀ L lv 1 where
  win := (launch1 (F := F)).win.to₀
  block_pos := (launch1 (F := F)).block_pos
  stage_whole := (launch1 (F := F)).stage_whole
  K := PEmpty
  osem k := k.elim
  ho := Pipeline.OwnSemFacts.none _
  hbody c := (body_obligation1 (VR20 m) c).loose
  hwaits := Pipeline.hwaits_of_owed_zero _ _ _ _ L lv 1 fun _ _ => rfl
  pre c := iprop(StableHlo.held (c : Thread nD τ) (Pipeline.ucRefs τ sig) (Gen.V20 m (outs m) c) ∗ R c)
  post c := iprop(StableHlo.held (c : Thread nD τ) (Pipeline.ucRefs τ sig) (Gen.V21 m (outs m) c) ∗ R c)
  X c := iprop(∃ r, prngReg c r)
  Y c := iprop(∃ r, prngReg c r)
  Z c := Pipeline.unscopedRest (Ix := Unit) (Name := ℕ) (U := UR sig nD τ) (Lvl := ℕ) spec1 c (VR20 m c)
  hentry c := by
    rw [Pipeline.ownSems0_none]
    have hsplit := Pipeline.arrays_of_unscopedBufs (p := 1) (pcfgs (F := F)) (adm m) (pdats m) (launch1 (F := F)).win (launch1 (F := F)).arr_whole c
      ((pdats m 1 c).share_full fun _ => rfl) (VR20 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) (adm m) (Ix := Unit) (Name := ℕ) (U := UR sig nD τ) (Lvl := ℕ)
      (launch1 (F := F)).win (launch1 (F := F)).arr_whole c (pdats m) ((pdats m 1 c).share_full fun _ => rfl)
      (VR20 m c) (fun b => Gen.V21 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

theorem run_full (ρ : Dev nD → PrngReg) :
    θ_run defs (onTc (τ := τ) (main (F := F))) ⟨m, fun _ => 0, ρ⟩ (fun r => ∀ c : Dev nD,
      r.2.mem ((c.tc : Thread nD τ).loc main_v85) = Gen.V22 m (outs m) c main_v85
      ∧ r.2.mem ((c.tc : Thread nD τ).loc main_v97) = Gen.V22 m (outs m) c main_v97
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) := by
  refine Pipeline.θ_run_regions_kit_dev (pcfgs (F := F)) (adm m) (pdats m) () (cellOf_inj (adm m)) emb₁ defs₀ 𝒱₀ L lv m ρ main
    (fun c => Gen.segs m (outs m) 𝒱₀ L lv (E (F := F)) () (adm m) (pdats m) (reg0 m) (reg1 m) c)
    (fun c Q => by
      rewrite [main_chain c, Seg.run_eq_chain,
        show (Gen.segs m (outs m) 𝒱₀ L lv (E (F := F)) () (adm m) (pdats m) (reg0 m) (reg1 m) c).map Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          StableHlo.seq hostOps0_9,
          StableHlo.seq hostOps0_10,
          StableHlo.seq hostOps0_11,
          StableHlo.seq hostOps0_12,
          StableHlo.seq hostOps0_13,
          StableHlo.seq hostOps0_14,
          StableHlo.seq hostOps0_15,
          Prog.lift (.customCall (Pipeline.entry 0) ()),
          StableHlo.seq hostOps1,
          StableHlo.seq hostOps1_1,
          StableHlo.seq hostOps1_2,
          Prog.lift (.customCall (Pipeline.entry 1) ()),
          StableHlo.seq hostOps2 ] from rfl]
      exact .rfl)
    (fun c => by simp only [Gen.segs, Seg.pipes_host, Seg.pipes_region, Seg.pipes_nil]; decide) 0 (fun _ _ => rfl)
    (fun _ => iprop(emp))
    (initOf (Pipeline.cells (Pipeline.pin (pcfgs (F := F)) (adm m)) (cellOf_inj (adm m))) (Pipeline.launchToks (Pipeline.pin (pcfgs (F := F)) (adm m)) (cellOf_inj (adm m))))
    (by
      iintro Hu; imodintro
      isplitl [Hu]
      · iapply (show (ownU (initOf (Pipeline.cells (Pipeline.pin (pcfgs (F := F)) (adm m)) (cellOf_inj (adm m))) (Pipeline.launchToks (Pipeline.pin (pcfgs (F := F)) (adm m)) (cellOf_inj (adm m)))) : sProp 𝕄)
            ⊢ BI.own (emb₁ (initOf (Pipeline.cells (Pipeline.pin (pcfgs (F := F)) (adm m)) (cellOf_inj (adm m))) (Pipeline.launchToks (Pipeline.pin (pcfgs (F := F)) (adm m)) (cellOf_inj (adm m))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => StableHlo.held (c : Thread nD τ) (Pipeline.ucRefs τ sig) (Gen.V22 m (outs m) c))
    (hch := fun c => ⟨.rfl, .rfl, .rfl, .rfl, .rfl, .rfl, .rfl, .rfl, .rfl, .rfl, .rfl, .rfl, .rfl, .rfl, .rfl, .rfl, .rfl, .rfl, .rfl, .rfl, .rfl, .rfl,
      sep_mono .rfl (by iintro ⟨-, H⟩; iexact H)⟩)
    (hinit := ?_) (QY := fun c s => s.mem ((c.tc : Thread nD τ).loc main_v85) = Gen.V22 m (outs m) c main_v85
      ∧ s.mem ((c.tc : Thread nD τ).loc main_v97) = Gen.V22 m (outs m) c main_v97
      ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11) ∧ s.mem ((c.tc : Thread nD τ).loc main_arg12) = m ((c.tc : Thread nD τ).loc main_arg12))
    (hfin := fun c s' => ?_) (hQ := fun _ h => h)
  ·
    refine Pipeline.initEach L lv fun c => ?_
    rw [show unscopedBufs c (fun b => m ((c : Thread nD τ).loc b)) = StableHlo.held (c : Thread nD τ) (Pipeline.ucRefs τ sig) (Gen.V0 m c)
      from Pipeline.unscopedBufs_held c (Gen.V0 m c)]
    iintro ⟨⟨Hh, -, HO, -, Hp, -⟩, -⟩
    imodintro
    isplitl [Hh]; · iexact Hh
    isplitl [Hp]; · iexists _; iexact Hp
    iexists ∅; iexact HO
  ·
    unfold StableHlo.held
    iintro ⟨Hh, HSI⟩
    ihave Hr := (pointsTo_read_all (Pipeline.ucRefs τ sig) (fun b => ((c : Thread nD τ).1, b)) (Gen.V22 m (outs m) c) s') $$ [Hh HSI]
    · isplitl [Hh] <;> iassumption
    icases Hr with ⟨%h, HSI⟩
    imodintro
    isplitr
    · ipureintro
      exact ⟨h (Proc.devRef .tc main_v85) (Finset.mem_filter.mpr ⟨StableHlo.devRef_mem_tcRefs main_v85, by decide⟩),
        h (Proc.devRef .tc main_v97) (Finset.mem_filter.mpr ⟨StableHlo.devRef_mem_tcRefs main_v97, by decide⟩),
        (h (Proc.devRef .tc main_arg0) (Finset.mem_filter.mpr ⟨StableHlo.devRef_mem_tcRefs main_arg0, by decide⟩)).trans (Gen.V22_main_arg0 m (outs m) c),
        (h (Proc.devRef .tc main_arg1) (Finset.mem_filter.mpr ⟨StableHlo.devRef_mem_tcRefs main_arg1, by decide⟩)).trans (Gen.V22_main_arg1 m (outs m) c),
        (h (Proc.devRef .tc main_arg2) (Finset.mem_filter.mpr ⟨StableHlo.devRef_mem_tcRefs main_arg2, by decide⟩)).trans (Gen.V22_main_arg2 m (outs m) c),
        (h (Proc.devRef .tc main_arg3) (Finset.mem_filter.mpr ⟨StableHlo.devRef_mem_tcRefs main_arg3, by decide⟩)).trans (Gen.V22_main_arg3 m (outs m) c),
        (h (Proc.devRef .tc main_arg4) (Finset.mem_filter.mpr ⟨StableHlo.devRef_mem_tcRefs main_arg4, by decide⟩)).trans (Gen.V22_main_arg4 m (outs m) c),
        (h (Proc.devRef .tc main_arg5) (Finset.mem_filter.mpr ⟨StableHlo.devRef_mem_tcRefs main_arg5, by decide⟩)).trans (Gen.V22_main_arg5 m (outs m) c),
        (h (Proc.devRef .tc main_arg6) (Finset.mem_filter.mpr ⟨StableHlo.devRef_mem_tcRefs main_arg6, by decide⟩)).trans (Gen.V22_main_arg6 m (outs m) c),
        (h (Proc.devRef .tc main_arg7) (Finset.mem_filter.mpr ⟨StableHlo.devRef_mem_tcRefs main_arg7, by decide⟩)).trans (Gen.V22_main_arg7 m (outs m) c),
        (h (Proc.devRef .tc main_arg8) (Finset.mem_filter.mpr ⟨StableHlo.devRef_mem_tcRefs main_arg8, by decide⟩)).trans (Gen.V22_main_arg8 m (outs m) c),
        (h (Proc.devRef .tc main_arg9) (Finset.mem_filter.mpr ⟨StableHlo.devRef_mem_tcRefs main_arg9, by decide⟩)).trans (Gen.V22_main_arg9 m (outs m) c),
        (h (Proc.devRef .tc main_arg10) (Finset.mem_filter.mpr ⟨StableHlo.devRef_mem_tcRefs main_arg10, by decide⟩)).trans (Gen.V22_main_arg10 m (outs m) c),
        (h (Proc.devRef .tc main_arg11) (Finset.mem_filter.mpr ⟨StableHlo.devRef_mem_tcRefs main_arg11, by decide⟩)).trans (Gen.V22_main_arg11 m (outs m) c),
        (h (Proc.devRef .tc main_arg12) (Finset.mem_filter.mpr ⟨StableHlo.devRef_mem_tcRefs main_arg12, by decide⟩)).trans (Gen.V22_main_arg12 m (outs m) c)⟩
    · iexact HSI

theorem frame_all (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs (onTc (τ := τ) (main (F := F))) ⟨m, fun _ => 0, ρ⟩).mono (fun r h c => (h c).2.2) (run_full m ρ)

end Cert.KernelIdeal.Hand

end
-- ==== Proof.BOut.lean ====
import proofs.«428180_j4174708212170_2_alg».proof.Proof.Gen.Kernel.Skeleton

noncomputable section

namespace Cert.Kernel.Hand

open Cert.Kernel Cert.Kernel.Gen Idealize.ShloMosaic

variable {F : FTy → Type} [FloatOps F]

def blkOut (v0 : Vec F S1000x256 .f32) (v3 : Vec F S1x256x256 .f32) (v6 : Vec F S1x1x256 .f32) (v13 : Vec F S1x256x256 .f32)
    (v16 : Vec F S1x1x256 .f32) (v23 : Vec F S1x256x1 .f32) (v26 : Vec F S1x1x1 .f32) (v31 : Vec F S1x256x1 .f32)
    (v34 : Vec F S1x1x1 .f32) : Vec F S1000x1 .f32 :=
  k0_pay1 (k0_pay3 v0) (k0_pay9 v0 v3 v6 v13 v16 v23 v26) (k0_pay10 v31) v34

def blkGrad (v0 : Vec F S1000x256 .f32) (v3 : Vec F S1x256x256 .f32) (v6 : Vec F S1x1x256 .f32) (v13 : Vec F S1x256x256 .f32)
    (v16 : Vec F S1x1x256 .f32) (v23 : Vec F S1x256x1 .f32) (v31 : Vec F S1x256x1 .f32) : Vec F S1000x256 .f32 :=
  k0_pay2 (k0_pay4 v3) (k0_pay5 v0 v3 v6) (k0_pay6 v13) (k0_pay7 v0 v3 v6 v13 v16) (k0_pay8 v23) (k0_pay10 v31)

def blkForce (v0 : Vec F S2000x256 .f32) (v2 : Vec F S2000x768 .f32) : Vec F S2000x3 .f32 :=
  k1_pay1 v0 v2

end Cert.Kernel.Hand

end
-- ==== Proof.BRegion0.lean ====
import proofs.«428180_j4174708212170_2_alg».proof.Proof.BOut
import proofs.«428180_j4174708212170_2_alg».proof.Proof.Gen.Kernel.Launch
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

private theorem readAt_whole0 {sig' : RefSig} {κ : Kind} {sp : Space} {S : Shape} {e : EltTy} (v : View sig' κ sp S e)
    (f : v.ty.Contents (Elt F)) {off : Fin S.rank → ℕ} (h : off = fun _ => 0) (inb : ∀ a, off a + S.size a ≤ S.size a) :
    v.readAt (Elt F) (Rect.unit off S.size inb).toLoadRect f = v.read (Elt F) f :=
  (View.readAt_eq_ld v f _).trans (View.ld_unit_zero h inb _)

private theorem read_write_whole0 {sig' : RefSig} {κ : Kind} {sp : Space} {S : Shape} {e : EltTy} (v : View sig' κ sp S e)
    (f : v.ty.Contents (Elt F)) {off : Fin S.rank → ℕ} (h : off = fun _ => 0) (inb : ∀ a, off a + S.size a ≤ S.size a)
    (w : S.Idx → Elt F e) :
    v.read (Elt F) (v.writes (Elt F) f [⟨Rect.unit off S.size inb, w⟩]) = w :=
  (View.read_writes_eq_canon v f _ fun y => ⟨_, List.mem_singleton_self _, View.mem_set_unit_zero h inb y⟩).trans
    (View.canon_unit_zero h inb w)

private theorem zeros2 : (![0, 0] : Fin 2 → ℕ) = fun _ => 0 := by funext a; fin_cases a <;> rfl
private theorem zeros3 : (![0, 0, 0] : Fin 3 → ℕ) = fun _ => 0 := by funext a; fin_cases a <;> rfl

set_option maxHeartbeats 1000000 in

theorem sound_kernel0 (c : Dev nD) (E : Set ℕ) (i : grid0.Coords) (arg1 : Memref sig .tc .smem S104 .i32) (harg1 : arg1.IsWhole) (arg2 : Memref sig .tc .vmem S1000x256 .f32) (harg2 : arg2.IsWhole) (arg3 : Memref sig .tc .vmem S1x256x256 .f32) (harg3 : arg3.IsWhole) (arg4 : Memref sig .tc .vmem S1x1x256 .f32) (harg4 : arg4.IsWhole) (arg5 : Memref sig .tc .vmem S1x256x256 .f32) (harg5 : arg5.IsWhole) (arg6 : Memref sig .tc .vmem S1x1x256 .f32) (harg6 : arg6.IsWhole) (arg7 : Memref sig .tc .vmem S1x256x1 .f32) (harg7 : arg7.IsWhole) (arg8 : Memref sig .tc .vmem S1x1x1 .f32) (harg8 : arg8.IsWhole) (arg9 : Memref sig .tc .vmem S1x256x1 .f32) (harg9 : arg9.IsWhole) (arg10 : Memref sig .tc .vmem S1x1x1 .f32) (harg10 : arg10.IsWhole) (arg11 : Memref sig .tc .vmem S1000x1 .f32) (harg11 : arg11.IsWhole) (arg12 : Memref sig .tc .vmem S1000x256 .f32) (harg12 : arg12.IsWhole)
    (x0 : Vec F S1000x256 .f32) (w1 : Vec F S1x256x256 .f32) (b1 : Vec F S1x1x256 .f32) (w2 : Vec F S1x256x256 .f32) (b2 : Vec F S1x1x256 .f32) (w3 : Vec F S1x256x1 .f32) (b3 : Vec F S1x1x1 .f32) (ws : Vec F S1x256x1 .f32) (bs : Vec F S1x1x1 .f32) (K : PUnit → sProp 𝕄) :
    iprop(owns (c : Thread nD τ) arg2 fullShare x0 ∗ owns (c : Thread nD τ) arg3 fullShare w1 ∗ owns (c : Thread nD τ) arg4 fullShare b1 ∗ owns (c : Thread nD τ) arg5 fullShare w2 ∗ owns (c : Thread nD τ) arg6 fullShare b2 ∗ owns (c : Thread nD τ) arg7 fullShare w3 ∗ owns (c : Thread nD τ) arg8 fullShare b3 ∗ owns (c : Thread nD τ) arg9 fullShare ws ∗ owns (c : Thread nD τ) arg10 fullShare bs
        ∗ (∃ d, owns (c : Thread nD τ) arg11 fullShare d) ∗ (∃ d, owns (c : Thread nD τ) arg12 fullShare d)
        ∗ (iprop(owns (c : Thread nD τ) arg2 fullShare x0 ∗ owns (c : Thread nD τ) arg3 fullShare w1 ∗ owns (c : Thread nD τ) arg4 fullShare b1 ∗ owns (c : Thread nD τ) arg5 fullShare w2 ∗ owns (c : Thread nD τ) arg6 fullShare b2 ∗ owns (c : Thread nD τ) arg7 fullShare w3 ∗ owns (c : Thread nD τ) arg8 fullShare b3 ∗ owns (c : Thread nD τ) arg9 fullShare ws ∗ owns (c : Thread nD τ) arg10 fullShare bs
            ∗ owns (c : Thread nD τ) arg11 fullShare (blkOut x0 w1 b1 w2 b2 w3 b3 ws bs) ∗ owns (c : Thread nD τ) arg12 fullShare (blkGrad x0 w1 b1 w2 b2 w3 ws)) -∗ K ⟨⟩))
      ⊢ wp frame (wpE (defs₀ (F := F)) Variants.none c none) E (cc0__species_mlp_kernel i arg1 harg1 arg2 harg2 arg3 harg3 arg4 harg4 arg5 harg5 arg6 harg6 arg7 harg7 arg8 harg8 arg9 harg9 arg10 harg10 arg11 harg11 arg12 harg12) K := by
  simp only [cc0__species_mlp_kernel_eq_skeleton]; unfold cc0__species_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro

    refine (read_write_whole0 _ _ zeros2 _ _).trans ?_
    sl_unfold_run_names
    unfold blkOut
    simp only [readAt_whole0 arg2.view f0 zeros2, readAt_whole0 arg3.view f1 zeros3, readAt_whole0 arg4.view f2 zeros3,
      readAt_whole0 arg5.view f3 zeros3, readAt_whole0 arg6.view f4 zeros3, readAt_whole0 arg7.view f5 zeros3,
      readAt_whole0 arg8.view f6 zeros3, readAt_whole0 arg9.view f7 zeros3, readAt_whole0 arg10.view f8 zeros3]
  iexists _; isplitr
  swap; · iexact H10
  ipureintro
  refine (read_write_whole0 _ _ zeros2 _ _).trans ?_
  sl_unfold_run_names
  unfold blkGrad
  simp only [readAt_whole0 arg2.view f0 zeros2, readAt_whole0 arg3.view f1 zeros3, readAt_whole0 arg4.view f2 zeros3,
    readAt_whole0 arg5.view f3 zeros3, readAt_whole0 arg6.view f4 zeros3, readAt_whole0 arg7.view f5 zeros3,
    readAt_whole0 arg8.view f6 zeros3, readAt_whole0 arg9.view f7 zeros3, readAt_whole0 arg10.view f8 zeros3]

section Region

variable (V : (c : Dev nD) → (b : Ref sig .tc) → Buf (Elt F) ((c : Thread nD τ).loc b))
variable (a : (pcfg0 (F := F)).Adm)

def iblk0 (c : Dev nD) (w : Fin (cfg0 a).W) (t : Fin (cfg0 a).N) :
    (((cfg0 a).win w).xblock ((cfg0 a).grid.coords t)).Idx → Elt F ((cfg0 a).win w).elt :=
  (((cfg0 a).win w).blk t).view.read (Elt F) (V c (Pipeline.arrRef spec0 w))

theorem before0_0_of {c : Dev nD} (dat : Dat τ (Elt F) Unit ℕ (UR sig nD τ) ℕ (cfg0 a) c) (hA : dat.A 0 = V c (Pipeline.arrRef spec0 0))
    (hafter : ∀ t, dat.after 0 t = iblk0 V a c 0 t) (t : Fin (cfg0 a).N) (d) : dat.before 0 t d = iblk0 V a c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ (cfg0 a) c) (hA : dat.A 1 = V c (Pipeline.arrRef spec0 1))
    (hafter : ∀ t, dat.after 1 t = iblk0 V a c 1 t) (t : Fin (cfg0 a).N) (d) : dat.before 1 t d = iblk0 V a c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ (cfg0 a) c) (hA : dat.A 2 = V c (Pipeline.arrRef spec0 2))
    (hafter : ∀ t, dat.after 2 t = iblk0 V a c 2 t) (t : Fin (cfg0 a).N) (d) : dat.before 2 t d = iblk0 V a c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ (cfg0 a) c) (hA : dat.A 3 = V c (Pipeline.arrRef spec0 3))
    (hafter : ∀ t, dat.after 3 t = iblk0 V a c 3 t) (t : Fin (cfg0 a).N) (d) : dat.before 3 t d = iblk0 V a c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ (cfg0 a) c) (hA : dat.A 4 = V c (Pipeline.arrRef spec0 4))
    (hafter : ∀ t, dat.after 4 t = iblk0 V a c 4 t) (t : Fin (cfg0 a).N) (d) : dat.before 4 t d = iblk0 V a c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_5_of {c : Dev nD} (dat : Dat τ (Elt F) Unit ℕ (UR sig nD τ) ℕ (cfg0 a) c) (hA : dat.A 5 = V c (Pipeline.arrRef spec0 5))
    (hafter : ∀ t, dat.after 5 t = iblk0 V a c 5 t) (t : Fin (cfg0 a).N) (d) : dat.before 5 t d = iblk0 V a c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

theorem before0_6_of {c : Dev nD} (dat : Dat τ (Elt F) Unit ℕ (UR sig nD τ) ℕ (cfg0 a) c) (hA : dat.A 6 = V c (Pipeline.arrRef spec0 6))
    (hafter : ∀ t, dat.after 6 t = iblk0 V a c 6 t) (t : Fin (cfg0 a).N) (d) : dat.before 6 t d = iblk0 V a c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

theorem before0_7_of {c : Dev nD} (dat : Dat τ (Elt F) Unit ℕ (UR sig nD τ) ℕ (cfg0 a) c) (hA : dat.A 7 = V c (Pipeline.arrRef spec0 7))
    (hafter : ∀ t, dat.after 7 t = iblk0 V a c 7 t) (t : Fin (cfg0 a).N) (d) : dat.before 7 t d = iblk0 V a c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

theorem before0_8_of {c : Dev nD} (dat : Dat τ (Elt F) Unit ℕ (UR sig nD τ) ℕ (cfg0 a) c) (hA : dat.A 8 = V c (Pipeline.arrRef spec0 8))
    (hafter : ∀ t, dat.after 8 t = iblk0 V a c 8 t) (t : Fin (cfg0 a).N) (d) : dat.before 8 t d = iblk0 V a c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

def dat0 (c : Dev nD) : Dat τ (Elt F) Unit ℕ (UR sig nD τ) ℕ (cfg0 a) c where
  A w := V c (Pipeline.arrRef spec0 w)
  after w t := match w with
    | ⟨0, _⟩ => iblk0 V a c 0 t
    | ⟨1, _⟩ => iblk0 V a c 1 t
    | ⟨2, _⟩ => iblk0 V a c 2 t
    | ⟨3, _⟩ => iblk0 V a c 3 t
    | ⟨4, _⟩ => iblk0 V a c 4 t
    | ⟨5, _⟩ => iblk0 V a c 5 t
    | ⟨6, _⟩ => iblk0 V a c 6 t
    | ⟨7, _⟩ => iblk0 V a c 7 t
    | ⟨8, _⟩ => iblk0 V a c 8 t
    | ⟨9, _⟩ => blkOut (iblk0 V a c 0 t) (iblk0 V a c 1 t) (iblk0 V a c 2 t) (iblk0 V a c 3 t) (iblk0 V a c 4 t) (iblk0 V a c 5 t) (iblk0 V a c 6 t) (iblk0 V a c 7 t) (iblk0 V a c 8 t)
    | ⟨10, _⟩ => blkGrad (iblk0 V a c 0 t) (iblk0 V a c 1 t) (iblk0 V a c 2 t) (iblk0 V a c 3 t) (iblk0 V a c 4 t) (iblk0 V a c 5 t) (iblk0 V a c 7 t)
  Φ _ := iprop(Pipeline.ΦA spec0 c ∗ Pipeline.prefHeld pre0 c (fun _ => fullShare) a.1)
  q _ := fullShare
  owed _ := 0

theorem A_eq0 (c : Dev nD) (w : Fin (cfg0 a).W) : (dat0 V a c).A w = V c (Pipeline.arrRef spec0 w) := by
  dsimp only [dat0]

theorem Φ_eq0 (c : Dev nD) (t : Fin ((cfg0 a).N + 1)) :
    (dat0 V a c).Φ t = iprop(Pipeline.ΦA spec0 c ∗ Pipeline.prefHeld pre0 c (fun _ => fullShare) a.1) := rfl

theorem after0_0 (c : Dev nD) (t : Fin (cfg0 a).N) : (dat0 V a c).after 0 t = iblk0 V a c 0 t := by dsimp only [dat0]; rfl
theorem after0_1 (c : Dev nD) (t : Fin (cfg0 a).N) : (dat0 V a c).after 1 t = iblk0 V a c 1 t := by dsimp only [dat0]; rfl
theorem after0_2 (c : Dev nD) (t : Fin (cfg0 a).N) : (dat0 V a c).after 2 t = iblk0 V a c 2 t := by dsimp only [dat0]; rfl
theorem after0_3 (c : Dev nD) (t : Fin (cfg0 a).N) : (dat0 V a c).after 3 t = iblk0 V a c 3 t := by dsimp only [dat0]; rfl
theorem after0_4 (c : Dev nD) (t : Fin (cfg0 a).N) : (dat0 V a c).after 4 t = iblk0 V a c 4 t := by dsimp only [dat0]; rfl
theorem after0_5 (c : Dev nD) (t : Fin (cfg0 a).N) : (dat0 V a c).after 5 t = iblk0 V a c 5 t := by dsimp only [dat0]; rfl
theorem after0_6 (c : Dev nD) (t : Fin (cfg0 a).N) : (dat0 V a c).after 6 t = iblk0 V a c 6 t := by dsimp only [dat0]; rfl
theorem after0_7 (c : Dev nD) (t : Fin (cfg0 a).N) : (dat0 V a c).after 7 t = iblk0 V a c 7 t := by dsimp only [dat0]; rfl
theorem after0_8 (c : Dev nD) (t : Fin (cfg0 a).N) : (dat0 V a c).after 8 t = iblk0 V a c 8 t := by dsimp only [dat0]; rfl
theorem after0_9 (c : Dev nD) (t : Fin (cfg0 a).N) : (dat0 V a c).after 9 t = blkOut (iblk0 V a c 0 t) (iblk0 V a c 1 t) (iblk0 V a c 2 t) (iblk0 V a c 3 t) (iblk0 V a c 4 t) (iblk0 V a c 5 t) (iblk0 V a c 6 t) (iblk0 V a c 7 t) (iblk0 V a c 8 t) := by dsimp only [dat0]; rfl
theorem after0_10 (c : Dev nD) (t : Fin (cfg0 a).N) : (dat0 V a c).after 10 t = blkGrad (iblk0 V a c 0 t) (iblk0 V a c 1 t) (iblk0 V a c 2 t) (iblk0 V a c 3 t) (iblk0 V a c 4 t) (iblk0 V a c 5 t) (iblk0 V a c 7 t) := by dsimp only [dat0]; rfl

theorem before0_0 (c : Dev nD) (t : Fin (cfg0 a).N) (d) : (dat0 V a c).before 0 t d = iblk0 V a c 0 t :=
  before0_0_of V a (dat0 V a c) (A_eq0 V a c 0) (after0_0 V a c) t d
theorem before0_1 (c : Dev nD) (t : Fin (cfg0 a).N) (d) : (dat0 V a c).before 1 t d = iblk0 V a c 1 t :=
  before0_1_of V a (dat0 V a c) (A_eq0 V a c 1) (after0_1 V a c) t d
theorem before0_2 (c : Dev nD) (t : Fin (cfg0 a).N) (d) : (dat0 V a c).before 2 t d = iblk0 V a c 2 t :=
  before0_2_of V a (dat0 V a c) (A_eq0 V a c 2) (after0_2 V a c) t d
theorem before0_3 (c : Dev nD) (t : Fin (cfg0 a).N) (d) : (dat0 V a c).before 3 t d = iblk0 V a c 3 t :=
  before0_3_of V a (dat0 V a c) (A_eq0 V a c 3) (after0_3 V a c) t d
theorem before0_4 (c : Dev nD) (t : Fin (cfg0 a).N) (d) : (dat0 V a c).before 4 t d = iblk0 V a c 4 t :=
  before0_4_of V a (dat0 V a c) (A_eq0 V a c 4) (after0_4 V a c) t d
theorem before0_5 (c : Dev nD) (t : Fin (cfg0 a).N) (d) : (dat0 V a c).before 5 t d = iblk0 V a c 5 t :=
  before0_5_of V a (dat0 V a c) (A_eq0 V a c 5) (after0_5 V a c) t d
theorem before0_6 (c : Dev nD) (t : Fin (cfg0 a).N) (d) : (dat0 V a c).before 6 t d = iblk0 V a c 6 t :=
  before0_6_of V a (dat0 V a c) (A_eq0 V a c 6) (after0_6 V a c) t d
theorem before0_7 (c : Dev nD) (t : Fin (cfg0 a).N) (d) : (dat0 V a c).before 7 t d = iblk0 V a c 7 t :=
  before0_7_of V a (dat0 V a c) (A_eq0 V a c 7) (after0_7 V a c) t d
theorem before0_8 (c : Dev nD) (t : Fin (cfg0 a).N) (d) : (dat0 V a c).before 8 t d = iblk0 V a c 8 t :=
  before0_8_of V a (dat0 V a c) (A_eq0 V a c 8) (after0_8 V a c) t d

abbrev st0_0 (t : Fin (cfg0 a).N) := ((cfg0 a).win 0).stage ((cfg0 a).slots t 0)
abbrev st0_1 (t : Fin (cfg0 a).N) := ((cfg0 a).win 1).stage ((cfg0 a).slots t 1)
abbrev st0_2 (t : Fin (cfg0 a).N) := ((cfg0 a).win 2).stage ((cfg0 a).slots t 2)
abbrev st0_3 (t : Fin (cfg0 a).N) := ((cfg0 a).win 3).stage ((cfg0 a).slots t 3)
abbrev st0_4 (t : Fin (cfg0 a).N) := ((cfg0 a).win 4).stage ((cfg0 a).slots t 4)
abbrev st0_5 (t : Fin (cfg0 a).N) := ((cfg0 a).win 5).stage ((cfg0 a).slots t 5)
abbrev st0_6 (t : Fin (cfg0 a).N) := ((cfg0 a).win 6).stage ((cfg0 a).slots t 6)
abbrev st0_7 (t : Fin (cfg0 a).N) := ((cfg0 a).win 7).stage ((cfg0 a).slots t 7)
abbrev st0_8 (t : Fin (cfg0 a).N) := ((cfg0 a).win 8).stage ((cfg0 a).slots t 8)
abbrev st0_9 (t : Fin (cfg0 a).N) := ((cfg0 a).win 9).stage ((cfg0 a).slots t 9)
abbrev st0_10 (t : Fin (cfg0 a).N) := ((cfg0 a).win 10).stage ((cfg0 a).slots t 10)

abbrev bodyAt0 (t : Fin (cfg0 a).N) : Prog (TpuEff nD τ sig (Elt F) Λ₀ .tc) PUnit :=
  cc0__species_mlp_kernel (grid0.coords t) (Memref.whole main_v74) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10))

def bodyPre0 (c : Dev nD) (t : Fin (cfg0 a).N) : sProp 𝕄 :=
  iprop((dat0 V a c).Φ t.castSucc ∗ (dat0 V a c).owesAt () t.castSucc
    ∗ (∃ d, owns (c : Thread nD τ) (st0_0 a t) fullShare ((dat0 V a c).before 0 t d))
    ∗ (∃ d, owns (c : Thread nD τ) (st0_1 a t) fullShare ((dat0 V a c).before 1 t d))
    ∗ (∃ d, owns (c : Thread nD τ) (st0_2 a t) fullShare ((dat0 V a c).before 2 t d))
    ∗ (∃ d, owns (c : Thread nD τ) (st0_3 a t) fullShare ((dat0 V a c).before 3 t d))
    ∗ (∃ d, owns (c : Thread nD τ) (st0_4 a t) fullShare ((dat0 V a c).before 4 t d))
    ∗ (∃ d, owns (c : Thread nD τ) (st0_5 a t) fullShare ((dat0 V a c).before 5 t d))
    ∗ (∃ d, owns (c : Thread nD τ) (st0_6 a t) fullShare ((dat0 V a c).before 6 t d))
    ∗ (∃ d, owns (c : Thread nD τ) (st0_7 a t) fullShare ((dat0 V a c).before 7 t d))
    ∗ (∃ d, owns (c : Thread nD τ) (st0_8 a t) fullShare ((dat0 V a c).before 8 t d))
    ∗ (∃ d, owns (c : Thread nD τ) (st0_9 a t) fullShare ((dat0 V a c).before 9 t d))
    ∗ (∃ d, owns (c : Thread nD τ) (st0_10 a t) fullShare ((dat0 V a c).before 10 t d)))

def bodyPost0 (c : Dev nD) (t : Fin (cfg0 a).N) : sProp 𝕄 :=
  iprop((dat0 V a c).Φ t.succ ∗ (dat0 V a c).owesAt () t.succ
    ∗ owns (c : Thread nD τ) (st0_0 a t) fullShare ((dat0 V a c).after 0 t)
    ∗ owns (c : Thread nD τ) (st0_1 a t) fullShare ((dat0 V a c).after 1 t)
    ∗ owns (c : Thread nD τ) (st0_2 a t) fullShare ((dat0 V a c).after 2 t)
    ∗ owns (c : Thread nD τ) (st0_3 a t) fullShare ((dat0 V a c).after 3 t)
    ∗ owns (c : Thread nD τ) (st0_4 a t) fullShare ((dat0 V a c).after 4 t)
    ∗ owns (c : Thread nD τ) (st0_5 a t) fullShare ((dat0 V a c).after 5 t)
    ∗ owns (c : Thread nD τ) (st0_6 a t) fullShare ((dat0 V a c).after 6 t)
    ∗ owns (c : Thread nD τ) (st0_7 a t) fullShare ((dat0 V a c).after 7 t)
    ∗ owns (c : Thread nD τ) (st0_8 a t) fullShare ((dat0 V a c).after 8 t)
    ∗ owns (c : Thread nD τ) (st0_9 a t) fullShare ((dat0 V a c).after 9 t)
    ∗ owns (c : Thread nD τ) (st0_10 a t) fullShare ((dat0 V a c).after 10 t))

theorem sound_body0 (c : Dev nD) (t : Fin (cfg0 a).N) :
    bodyPre0 V a c t ⊢ wp frame (wpE (defs₀ (F := F)) Variants.none c none) Set.univ (bodyAt0 a t) (fun _ => bodyPost0 V a c t) := by
  unfold bodyPre0 bodyPost0 bodyAt0
  simp only [before0_0, before0_1, before0_2, before0_3, before0_4, before0_5, before0_6, before0_7, before0_8]
  rw [show (dat0 V a c).Φ t.succ = (dat0 V a c).Φ t.castSucc from rfl,
    show (dat0 V a c).owesAt () t.succ = (dat0 V a c).owesAt () t.castSucc from rfl,
    after0_0, after0_1, after0_2, after0_3, after0_4, after0_5, after0_6, after0_7, after0_8, after0_9, after0_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel0 c Set.univ _ _ _ _ _ _ _ _ _ _ _ _ _ _ _ _ _ _ _ _ _ _ _ _ _ (iblk0 V a c 0 t) (iblk0 V a c 1 t) (iblk0 V a c 2 t) (iblk0 V a c 3 t) (iblk0 V a c 4 t) (iblk0 V a c 5 t) (iblk0 V a c 6 t) (iblk0 V a c 7 t) (iblk0 V a c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem body_obligation0 (c : Dev nD) : BodyObligation (dat0 (F := F) V a c) (defs₀ (F := F)) Variants.none () Set.univ := fun t => by
  rw [bigSep_W0, bigSep_W0]
  exact sound_body0 V a c t

end Region

end Cert.Kernel.Hand

end
-- ==== Proof.BRegion1.lean ====
import proofs.«428180_j4174708212170_2_alg».proof.Proof.BOut
import proofs.«428180_j4174708212170_2_alg».proof.Proof.Gen.Kernel.Launch
import proofs.«428180_j4174708212170_2_alg».proof.Proof.Gen.Kernel.Points
import Idealize.ShloMosaic.Lib.Pipeline.FrameBody
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem zero_offsets : (![0, 0] : Fin 2 → Nat) = fun _ => 0 := funext fun a => by fin_cases a <;> rfl

abbrev r1_0 : Rect S2000x256 := Rect.unit (s := S2000x256) ![0, 0] S2000x256.size inb_S2000x256_S2000x256_0_0
abbrev r1_1 : Rect S2000x768 := Rect.unit (s := S2000x768) ![0, 0] S2000x768.size inb_S2000x768_S2000x768_0_0
abbrev r1_2 : Rect S2000x3 := Rect.unit (s := S2000x3) ![0, 0] S2000x3.size inb_S2000x3_S2000x3_0_0

theorem cover1_2 (p0 : Vec F S2000x3 .f32) (y : S2000x3.Idx) :
    ∃ pc ∈ ([⟨r1_2, p0⟩] : List (View.Piece (Elt F) S2000x3 .f32)), y ∈ pc.1.set :=
  ⟨_, List.mem_singleton_self _, View.mem_set_unit_zero (S := S2000x3) zero_offsets inb_S2000x3_S2000x3_0_0 y⟩

theorem stored1_2 (x0 : Vec F S2000x256 .f32) (x1 : Vec F S2000x768 .f32) :
    View.canon [(⟨r1_2, k1_pay1 (View.ld x0 r1_0) (View.ld x1 r1_1)⟩ : View.Piece (Elt F) S2000x3 .f32)] = blkForce x0 x1 := by
  rw [View.canon_unit_zero (S := S2000x3) zero_offsets]
  rw [View.ld_unit_zero (S := S2000x256) zero_offsets, View.ld_unit_zero (S := S2000x768) zero_offsets]
  rfl

set_option maxHeartbeats 1000000 in

theorem sound_kernel1 (c : Dev nD) (E : Set ℕ) (i : grid1.Coords) (arg1 : Memref sig .tc .vmem S2000x256 .f32) (harg1 : arg1.IsWhole) (arg2 : Memref sig .tc .vmem S2000x768 .f32) (harg2 : arg2.IsWhole) (arg3 : Memref sig .tc .vmem S2000x3 .f32) (harg3 : arg3.IsWhole)
    (x0 : Vec F S2000x256 .f32) (x1 : Vec F S2000x768 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (blkForce x0 x1)) -∗ K ⟨⟩))
      ⊢ wp frame (wpE (defs₀ (F := F)) Variants.none c none) E (cc1__force_contract_kernel i arg1 harg1 arg2 harg2 arg3 harg3) K := by
  simp only [cc1__force_contract_kernel_eq_skeleton]; unfold cc1__force_contract_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact (View.read_writes_eq_canon _ _ _ (cover1_2 _)).trans (stored1_2 _ _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => blkForce (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = blkForce (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Region1

end Cert.Kernel.Hand

end
-- ==== Proof.BTable.lean ====
import proofs.«428180_j4174708212170_2_alg».proof.Proof.Gen.Kernel.Regions
import Idealize.ShloMosaic.Lib.StableHlo.Run
import Idealize.ShloMosaic.Lib.WordArith
import Idealize.ShloMosaic.Lib.ValueIdx

noncomputable section

namespace Cert.Kernel.Hand

open Cert.Kernel Cert.Kernel.Gen
open Idealize.ShloMosaic Idealize.ShloMosaic.TcCoe Idealize.SL.Sem
open Idealize.ShloMosaic.StableHlo

variable {F : FTy → Type} [FloatOps F]

theorem toNat_clip_le3 (x : BitVec 32) : (IntOp.minsi 3#32 (IntOp.maxsi 0#32 x)).toNat ≤ 3 := by
  have hm := WordArith.toInt_maxsi_zero x
  generalize IntOp.maxsi 0#32 x = y at hm ⊢
  have h3 : (3#32 : BitVec 32).toInt = 3 := by decide
  have hc := BitVec.toInt_eq_toNat_cond y
  have hl := y.isLt
  unfold IntOp.minsi
  by_cases h : (3#32 : BitVec 32).slt y = true
  · rw [if_pos h]; decide
  · rw [if_neg h]
    rw [BitVec.slt_iff_toInt_lt, h3] at h
    split at hc <;> omega

theorem after_clip_tbl (W : Valuation τ sig (Elt F)) :
    (StableHlo.after hostOps0_13 W (Proc.devRef .tc main_v74) : IVec S104 32)
      = minsi (broadcastInDim S104 ![] bcast_S_S104 (W (Proc.devRef .tc main_c_24) : IVec S_ 32))
          (maxsi (broadcastInDim S104 ![] bcast_S_S104 (W (Proc.devRef .tc main_c_23) : IVec S_ 32))
            (W (Proc.devRef .tc main_v73) : IVec S104 32)) := by
  after_results
  rfl

theorem after_sched_hi (W : Valuation τ sig (Elt F)) :
    (StableHlo.after hostOps0_12 W (Proc.devRef .tc main_c_24) : IVec S_ 32) = constantI S_ 32 3#32 := by
  after_results

theorem after_sched_lo (W : Valuation τ sig (Elt F)) :
    (StableHlo.after hostOps0_12 W (Proc.devRef .tc main_c_23) : IVec S_ 32) = constantI S_ 32 0#32 := by
  after_results

theorem V14_tbl (m : (ℓ : Loc nD τ sig) → Buf (Elt F) ℓ) (c : Dev nD) (j : S104.Idx) :
    (Gen.V14 m c main_v74 : IVec S104 32) j
      = IntOp.minsi 3#32 (IntOp.maxsi 0#32 ((Gen.V13 m c main_v73 : IVec S104 32) j)) := by
  have e : (Gen.V14 m c main_v74 : IVec S104 32)
      = minsi (broadcastInDim S104 ![] bcast_S_S104 (constantI S_ 32 3#32))
          (maxsi (broadcastInDim S104 ![] bcast_S_S104 (constantI S_ 32 0#32)) (Gen.V13 m c main_v73 : IVec S104 32)) := by
    refine (after_clip_tbl (Gen.V13 m c)).trans ?_
    rw [show (Gen.V13 m c (Proc.devRef .tc main_c_24) : IVec S_ 32) = constantI S_ 32 3#32 from after_sched_hi (Gen.V12 m c),
      show (Gen.V13 m c (Proc.devRef .tc main_c_23) : IVec S_ 32) = constantI S_ 32 0#32 from after_sched_lo (Gen.V12 m c)]
  rw [e]
  rfl

theorem tbl_le3 (m : (ℓ : Loc nD τ sig) → Buf (Elt F) ℓ) (c : Dev nD) (t : Fin 104) :
    ((Gen.V16 m c main_v74 : IVec S104 32) (ValueIdx.ix1 t)).toNat ≤ 3 := by
  rw [Gen.V16_of m c main_v74 (by decide), Gen.V15_of m c main_v74 (by decide), V14_tbl]
  exact toNat_clip_le3 _

theorem blk_inb (n p q : Nat) (hn : n ≤ 3) (a : Fin 3) :
    ((![n, 0, 0] : Fin 3 → Nat) a + 1) * (![1, p, q] : Fin 3 → Nat) a ≤ (![4, p, q] : Fin 3 → Nat) a := by
  fin_cases a
  · show (n + 1) * 1 ≤ 4; omega
  · show (0 + 1) * p ≤ p; omega
  · show (0 + 1) * q ≤ q; omega

theorem ok0_of_le3 (pf : pre0.Contents (Elt F))
    (h : ∀ t : Fin 104, ((pf 0 : IVec S104 32) (ValueIdx.ix1 t)).toNat ≤ 3) : ok0 pf := by
  have hl : ∀ x : S104.Idx, ((pf 0 : IVec S104 32) x).toNat ≤ 3 := fun x => by
    have e : x = ValueIdx.ix1 (x 0 : Fin 104) := by
      funext d
      match d with
      | ⟨0, _⟩ => rfl
    rw [e]; exact h _
  exact ⟨fun i => ⟨blk_inb _ 256 256 (hl _), Or.inl rfl⟩, fun i => ⟨blk_inb _ 1 256 (hl _), Or.inl rfl⟩,
    fun i => ⟨blk_inb _ 256 256 (hl _), Or.inl rfl⟩, fun i => ⟨blk_inb _ 1 256 (hl _), Or.inl rfl⟩,
    fun i => ⟨blk_inb _ 256 1 (hl _), Or.inl rfl⟩, fun i => ⟨blk_inb _ 1 1 (hl _), Or.inl rfl⟩,
    fun i => ⟨blk_inb _ 256 1 (hl _), Or.inl rfl⟩, fun i => ⟨blk_inb _ 1 1 (hl _), Or.inl rfl⟩⟩

def tbl0 (m : (ℓ : Loc nD τ sig) → Buf (Elt F) ℓ) : pre0.Contents (Elt F) := fun k => Gen.V16 m (0 : Dev nD) (pre0.ref k)

theorem tbl0_zero (m : (ℓ : Loc nD τ sig) → Buf (Elt F) ℓ) : tbl0 m 0 = Gen.V16 m (0 : Dev nD) main_v74 := rfl

def adm0 (m : (ℓ : Loc nD τ sig) → Buf (Elt F) ℓ) : (pcfg0 (F := F)).Adm :=
  ⟨tbl0 m, ok0_of_le3 (tbl0 m) fun t => tbl_le3 m 0 t⟩

theorem adm0_val (m : (ℓ : Loc nD τ sig) → Buf (Elt F) ℓ) : (adm0 m).1 = tbl0 m := rfl

theorem adm0_tbl (m : (ℓ : Loc nD τ sig) → Buf (Elt F) ℓ) (c : Dev nD) (k : Fin pre0.K) :
    Gen.V16 m c (pre0.ref k) = (adm0 m).1 k := by
  obtain rfl : c = 0 := Subsingleton.elim _ _
  rfl

end Cert.Kernel.Hand

end
-- ==== Proof.BRun.lean ====
import proofs.«428180_j4174708212170_2_alg».proof.Proof.BRegion0
import proofs.«428180_j4174708212170_2_alg».proof.Proof.BRegion1
import proofs.«428180_j4174708212170_2_alg».proof.Proof.BTable
import proofs.«428180_j4174708212170_2_alg».proof.Proof.Gen.Kernel.Regions
import Idealize.ShloMosaic.Lib.Pipeline.RegionsLoop
import Idealize.ShloMosaic.Lib.Pipeline.Kit

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation Seg HostSeg RegionSeg)

variable {F : FTy → Type} [FloatOps F]

local notation "𝕄" => MT nD τ sig Unit (Elt F) ℕ (UR sig nD τ) ℕ

variable (m : (ℓ : Loc nD τ sig) → Buf (Elt F) ℓ)

abbrev VR16 : (c : Dev nD) → (b : Ref sig .tc) → Buf (Elt F) ((c : Thread nD τ).loc b) := fun c b => Gen.V16 m c b

def outs0 : Gen.Outs (F := F) := fun _ r c =>
  Function.update (Function.update (Gen.V16 m c) main_v80_0 ((dat0 (VR16 m) (adm0 m) c).arrAt 9 (cfg0 (adm0 m)).N))
    main_v80_1 ((dat0 (VR16 m) (adm0 m) c).arrAt 10 (cfg0 (adm0 m)).N) r

abbrev VR20₀ : (c : Dev nD) → (b : Ref sig .tc) → Buf (Elt F) ((c : Thread nD τ).loc b) := fun c b => Gen.V20 m (outs0 m) c b

def outs : Gen.Outs (F := F) := fun J r c =>
  if J = 21 then Function.update (Gen.V20 m (outs0 m) c) main_v94 ((dat1 (VR20₀ m) c).arrAt 2 cfg1.N) r
  else outs0 m J r c

abbrev VR20 : (c : Dev nD) → (b : Ref sig .tc) → Buf (Elt F) ((c : Thread nD τ).loc b) := fun c b => Gen.V20 m (outs m) c b

theorem outs_17 : outs m 17 = outs0 m 17 := funext fun r => funext fun c => if_neg (by decide)

theorem ne_v80 : (Proc.devRef .tc main_v80_0 : DevRef τ sig) ≠ Proc.devRef .tc main_v80_1 := StableHlo.devRef_ne_of_ne (by decide)

theorem V17_v80_0 (o : Gen.Outs (F := F)) (c : Dev nD) : Gen.V17 m o c main_v80_0 = o 17 main_v80_0 c :=
  (Function.update_of_ne ne_v80 _ _).trans (Function.update_self _ _ _)

theorem V17_v80_1 (o : Gen.Outs (F := F)) (c : Dev nD) : Gen.V17 m o c main_v80_1 = o 17 main_v80_1 c :=
  Function.update_self _ _ _

theorem V21_v94 (o : Gen.Outs (F := F)) (c : Dev nD) : Gen.V21 m o c main_v94 = o 21 main_v94 c :=
  Function.update_self _ _ _

theorem V17_outs (c : Dev nD) : Gen.V17 m (outs m) c = Gen.V17 m (outs0 m) c := by
  show Function.update (Function.update (Gen.V16 m c) main_v80_0 (outs m 17 main_v80_0 c)) main_v80_1 (outs m 17 main_v80_1 c) = _
  rw [outs_17]
theorem V20_outs (c : Dev nD) : Gen.V20 m (outs m) c = Gen.V20 m (outs0 m) c :=
  congrArg (fun W => StableHlo.after hostOps1_2 (StableHlo.after hostOps1_1 (StableHlo.after hostOps1 W))) (V17_outs m c)
theorem VR20_outs : VR20 m = VR20₀ m :=
  funext fun c => funext fun b => congrFun (V20_outs m c) b

theorem outs_v80_0 (c : Dev nD) : outs m 17 main_v80_0 c = (dat0 (VR16 m) (adm0 m) c).arrAt 9 (cfg0 (adm0 m)).N :=
  (congrFun (congrFun (outs_17 m) main_v80_0) c).trans ((Function.update_of_ne ne_v80 _ _).trans (Function.update_self _ _ _))

theorem outs_v80_1 (c : Dev nD) : outs m 17 main_v80_1 c = (dat0 (VR16 m) (adm0 m) c).arrAt 10 (cfg0 (adm0 m)).N :=
  (congrFun (congrFun (outs_17 m) main_v80_1) c).trans (Function.update_self _ _ _)

theorem outs_v94 (c : Dev nD) : outs m 21 main_v94 c = (dat1 (VR20 m) c).arrAt 2 cfg1.N := by
  rw [VR20_outs]
  exact (if_pos rfl).trans (Function.update_self _ _ _)

abbrev adm : (p : Fin 2) → (pcfgs (F := F) p).Adm :=
  fun | ⟨0, _⟩ => adm0 m | ⟨1, _⟩ => cfg1.toPCfg_adm | ⟨_ + 2, h⟩ => absurd h (Nat.not_lt.2 (Nat.le_add_left _ _))

def pdats : (p : Fin 2) → (c : Dev nD) → Dat τ (Elt F) Unit ℕ (UR sig nD τ) ℕ (Pipeline.pin (pcfgs (F := F)) (adm m) p) c
  | ⟨0, _⟩ => fun c => dat0 (VR16 m) (adm0 m) c
  | ⟨1, _⟩ => fun c => dat1 (VR20 m) c

abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev E : Fin 3 → Dev nD → sProp 𝕄 := fun _ c => R c

theorem arr0_in : ∀ w : Fin 11, w.val < 9 → Pipeline.arrRef spec0 w ∉ ([main_v80_0, main_v80_1] : List (Ref sig .tc)) := by decide

theorem hF0_in (c : Dev nD) (w : Fin 11) (hw : w.val < 9) (hin : ((cfg0 (adm0 m)).win w).isOut = false) :
    (dat0 (VR16 m) (adm0 m) c).arrAt w (cfg0 (adm0 m)).N = Gen.V17 m (outs m) c (Pipeline.arrRef spec0 w) :=
  ((dat0 (VR16 m) (adm0 m) c).arrAt_in w hin _).trans ((A_eq0 (VR16 m) (adm0 m) c w).trans (Gen.V17_of m (outs m) c _ (arr0_in w hw)).symm)

theorem hF0 (c : Dev nD) : ∀ w : Fin 11,
    (dat0 (VR16 m) (adm0 m) c).arrAt w (cfg0 (adm0 m)).N = Gen.V17 m (outs m) c (Pipeline.arrRef spec0 w)
  | ⟨0, h⟩ => hF0_in m c ⟨0, h⟩ (show 0 < 9 by decide) rfl
  | ⟨1, h⟩ => hF0_in m c ⟨1, h⟩ (show 1 < 9 by decide) rfl
  | ⟨2, h⟩ => hF0_in m c ⟨2, h⟩ (show 2 < 9 by decide) rfl
  | ⟨3, h⟩ => hF0_in m c ⟨3, h⟩ (show 3 < 9 by decide) rfl
  | ⟨4, h⟩ => hF0_in m c ⟨4, h⟩ (show 4 < 9 by decide) rfl
  | ⟨5, h⟩ => hF0_in m c ⟨5, h⟩ (show 5 < 9 by decide) rfl
  | ⟨6, h⟩ => hF0_in m c ⟨6, h⟩ (show 6 < 9 by decide) rfl
  | ⟨7, h⟩ => hF0_in m c ⟨7, h⟩ (show 7 < 9 by decide) rfl
  | ⟨8, h⟩ => hF0_in m c ⟨8, h⟩ (show 8 < 9 by decide) rfl
  | ⟨9, _⟩ => ((V17_v80_0 m (outs m) c).trans (outs_v80_0 m c)).symm
  | ⟨10, _⟩ => ((V17_v80_1 m (outs m) c).trans (outs_v80_1 m c)).symm

theorem hrest0 (c : Dev nD) (b : Ref sig .tc) (hb : b ∉ Finset.univ.image (Pipeline.arrRef spec0)) :
    Gen.V17 m (outs m) c b = Gen.V16 m c b :=
  Gen.V17_of m (outs m) c b fun hmem => by
    simp only [List.mem_cons, List.not_mem_nil, or_false] at hmem
    rcases hmem with rfl | rfl
    · exact hb (Finset.mem_image.mpr ⟨9, Finset.mem_univ _, rfl⟩)
    · exact hb (Finset.mem_image.mpr ⟨10, Finset.mem_univ _, rfl⟩)

theorem rest0_split (c : Dev nD) :
    (Pipeline.unscopedRest spec0 c (VR16 m c) : sProp 𝕄)
      = iprop(Pipeline.prefHeld pre0 c (fun _ => fullShare) (adm0 m).1 ∗ Pipeline.unscopedRestP pre0 spec0 c (VR16 m c)) := by
  rw [Pipeline.unscopedRest_split preFacts0 c (VR16 m c),
    show (fun k => VR16 m c (pre0.ref k)) = (adm0 m).1 from funext fun k => adm0_tbl m c k]

set_option backward.isDefEq.respectTransparency.types false in

theorem entry0 (c : Dev nD) :
    (StableHlo.held (c : Thread nD τ) (Pipeline.ucRefs τ sig) (Gen.V16 m c) : sProp 𝕄)
      ⊢ iprop((pdats m 0 c).arrays ((pdats m 0 c).arrAt · 0) ∗ Pipeline.prefHeld pre0 c (fun _ => fullShare) (adm0 m).1
          ∗ Pipeline.unscopedRestP pre0 spec0 c (VR16 m c)) := by
  have hsplit := Pipeline.arrays_of_unscopedBufs (p := 0) (pcfgs (F := F)) (adm m) (pdats m) (launch0 (F := F)).win (launch0 (F := F)).arr_whole c
    ((pdats m 0 c).share_full fun _ => rfl) (VR16 m c) fun _ => rfl
  rw [Pipeline.unscopedBufs_held] at hsplit
  exact hsplit.trans (sep_mono .rfl (Entails.of_eq (rest0_split m c)))

set_option backward.isDefEq.respectTransparency.types false in

theorem exit0 (c : Dev nD) :
    iprop((pdats m 0 c).arrays ((pdats m 0 c).arrAt · (cfg0 (adm0 m)).N) ∗ Pipeline.prefHeld pre0 c (fun _ => fullShare) (adm0 m).1
        ∗ Pipeline.unscopedRestP pre0 spec0 c (VR16 m c))
      ⊢ (StableHlo.held (c : Thread nD τ) (Pipeline.ucRefs τ sig) (Gen.V17 m (outs m) c) : sProp 𝕄) := by
  have hjoin := Pipeline.unscopedBufs_of_arrays (p := 0) (pcfgs (F := F)) (adm m) (Ix := Unit) (Name := ℕ) (U := UR sig nD τ) (Lvl := ℕ)
    (launch0 (F := F)).win (launch0 (F := F)).arr_whole c (pdats m) ((pdats m 0 c).share_full fun _ => rfl)
    (VR16 m c) (fun b => Gen.V17 m (outs m) c b) ((pdats m 0 c).arrAt · (cfg0 (adm0 m)).N) (hF0 m c) (hrest0 m c)
  rw [Pipeline.unscopedBufs_held] at hjoin
  exact (sep_mono .rfl (Entails.of_eq (rest0_split m c).symm)).trans hjoin

set_option backward.isDefEq.respectTransparency.types false in

def reg0 : RegionSeg (pcfgs (F := F)) (adm m) (pdats m) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (body_obligation0 (VR16 m) (adm0 m) c).loose
  hwaits := Pipeline.hwaits_of_owed_zero _ _ _ _ L lv 0 fun _ _ => rfl
  pre c := iprop(StableHlo.held (c : Thread nD τ) (Pipeline.ucRefs τ sig) (Gen.V16 m c) ∗ R c)
  post c := iprop(StableHlo.held (c : Thread nD τ) (Pipeline.ucRefs τ sig) (Gen.V17 m (outs m) c) ∗ R c)
  X c := iprop(∃ r, prngReg c r)
  Y c := iprop((∃ r, prngReg c r) ∗ Pipeline.prefHeld pre0 c (fun _ => fullShare) (adm0 m).1)
  Z c := Pipeline.unscopedRestP (Ix := Unit) (Name := ℕ) (U := UR sig nD τ) (Lvl := ℕ) pre0 spec0 c (VR16 m c)
  hentry c := by
    rw [Pipeline.ownSems0_none]
    iintro ⟨⟨Hub, Hp, HO⟩, -, -⟩
    ihave H := (entry0 m c) $$ Hub
    icases H with ⟨Ha, Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = iprop(Pipeline.ΦA spec0 c ∗ Pipeline.prefHeld pre0 c (fun _ => fullShare) (adm0 m).1) from Φ_eq0 (VR16 m) (adm0 m) c 0]
    unfold Pipeline.ΦA
    iintro ⟨Hp, Ht, Hr⟩
    isplitr [Ht]
    · isplitl [Hr]; · iexact Hr
      iexact Hp
    · iexact Ht
  hout c := by
    rw [Pipeline.ownSems0_none, show (pdats m 0 c).Φ (Fin.last _) = iprop(Pipeline.ΦA spec0 c ∗ Pipeline.prefHeld pre0 c (fun _ => fullShare) (adm0 m).1) from Φ_eq0 (VR16 m) (adm0 m) c _]
    unfold Pipeline.ΦA
    iintro ⟨⟨Hr, Hp⟩, Ht⟩
    isplitl [Hp Ht]
    · isplitl [Hp]; · iexact Hp
      iexact Ht
    isplitr; · iempintro
    iexact Hr
  hexit c := by
    iintro ⟨Ha, HO, ⟨Hp, Ht⟩, Hrest⟩
    imodintro
    isplitl [Ha Ht Hrest]
    · iapply (exit0 m c)
      isplitl [Ha]; · iexact Ha
      isplitl [Ht]; · iexact Ht
      iexact Hrest
    isplitl [Hp]; · iexact Hp
    unfold Pipeline.Dat.owesAt Pipeline.owesWithin
    icases HO with ⟨%W, -, HO⟩; iexists W; iexact HO

theorem arr1_in : ∀ w : Fin 3, w.val < 2 → Pipeline.arrRef spec1 w ∉ ([main_v94] : List (Ref sig .tc)) := by decide

theorem hF1_in (c : Dev nD) (w : Fin 3) (hw : w.val < 2) (hin : (cfg1.win w).isOut = false) :
    (dat1 (VR20 m) c).arrAt w cfg1.N = Gen.V21 m (outs m) c (Pipeline.arrRef spec1 w) :=
  ((dat1 (VR20 m) c).arrAt_in w hin _).trans ((A_eq1 (VR20 m) c w).trans (Gen.V21_of m (outs m) c _ (arr1_in w hw)).symm)

theorem hF1 (c : Dev nD) : ∀ w : Fin 3,
    (dat1 (VR20 m) c).arrAt w cfg1.N = Gen.V21 m (outs m) c (Pipeline.arrRef spec1 w)
  | ⟨0, h⟩ => hF1_in m c ⟨0, h⟩ (show 0 < 2 by decide) rfl
  | ⟨1, h⟩ => hF1_in m c ⟨1, h⟩ (show 1 < 2 by decide) rfl
  | ⟨2, _⟩ => ((V21_v94 m (outs m) c).trans (outs_v94 m c)).symm

theorem hrest1 (c : Dev nD) (b : Ref sig .tc) (hb : b ∉ Finset.univ.image (Pipeline.arrRef spec1)) :
    Gen.V21 m (outs m) c b = Gen.V20 m (outs m) c b :=
  Gen.V21_of m (outs m) c b fun hmem => by
    simp only [List.mem_cons, List.not_mem_nil, or_false] at hmem
    subst hmem
    exact hb (Finset.mem_image.mpr ⟨2, Finset.mem_univ _, rfl⟩)

set_option backward.isDefEq.respectTransparency.types false in

def reg1 : RegionSeg (pcfgs (F := F)) (adm m) (pdats m) () defs₀ 𝒱₀ L lv 1 where
  win := (launch1 (F := F)).win.to₀
  block_pos := (launch1 (F := F)).block_pos
  stage_whole := (launch1 (F := F)).stage_whole
  K := PEmpty
  osem k := k.elim
  ho := Pipeline.OwnSemFacts.none _
  hbody c := (body_obligation1 (VR20 m) c).loose
  hwaits := Pipeline.hwaits_of_owed_zero _ _ _ _ L lv 1 fun _ _ => rfl
  pre c := iprop(StableHlo.held (c : Thread nD τ) (Pipeline.ucRefs τ sig) (Gen.V20 m (outs m) c) ∗ R c)
  post c := iprop(StableHlo.held (c : Thread nD τ) (Pipeline.ucRefs τ sig) (Gen.V21 m (outs m) c) ∗ R c)
  X c := iprop(∃ r, prngReg c r)
  Y c := iprop(∃ r, prngReg c r)
  Z c := Pipeline.unscopedRest (Ix := Unit) (Name := ℕ) (U := UR sig nD τ) (Lvl := ℕ) spec1 c (VR20 m c)
  hentry c := by
    rw [Pipeline.ownSems0_none]
    have hsplit := Pipeline.arrays_of_unscopedBufs (p := 1) (pcfgs (F := F)) (adm m) (pdats m) (launch1 (F := F)).win (launch1 (F := F)).arr_whole c
      ((pdats m 1 c).share_full fun _ => rfl) (VR20 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) (adm m) (Ix := Unit) (Name := ℕ) (U := UR sig nD τ) (Lvl := ℕ)
      (launch1 (F := F)).win (launch1 (F := F)).arr_whole c (pdats m) ((pdats m 1 c).share_full fun _ => rfl)
      (VR20 m c) (fun b => Gen.V21 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

theorem run_full (ρ : Dev nD → PrngReg) :
    θ_run defs (onTc (τ := τ) (main (F := F))) ⟨m, fun _ => 0, ρ⟩ (fun r => ∀ c : Dev nD,
      r.2.mem ((c.tc : Thread nD τ).loc main_v85) = Gen.V22 m (outs m) c main_v85
      ∧ r.2.mem ((c.tc : Thread nD τ).loc main_v97) = Gen.V22 m (outs m) c main_v97
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) := by
  refine Pipeline.θ_run_regions_kit_dev (pcfgs (F := F)) (adm m) (pdats m) () (cellOf_inj (adm m)) emb₁ defs₀ 𝒱₀ L lv m ρ main
    (fun c => Gen.segs m (outs m) 𝒱₀ L lv (E (F := F)) () (adm m) (pdats m) (reg0 m) (reg1 m) c)
    (fun c Q => by
      rewrite [main_chain c, Seg.run_eq_chain,
        show (Gen.segs m (outs m) 𝒱₀ L lv (E (F := F)) () (adm m) (pdats m) (reg0 m) (reg1 m) c).map Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          StableHlo.seq hostOps0_9,
          StableHlo.seq hostOps0_10,
          StableHlo.seq hostOps0_11,
          StableHlo.seq hostOps0_12,
          StableHlo.seq hostOps0_13,
          StableHlo.seq hostOps0_14,
          StableHlo.seq hostOps0_15,
          Prog.lift (.customCall (Pipeline.entry 0) ()),
          StableHlo.seq hostOps1,
          StableHlo.seq hostOps1_1,
          StableHlo.seq hostOps1_2,
          Prog.lift (.customCall (Pipeline.entry 1) ()),
          StableHlo.seq hostOps2 ] from rfl]
      exact .rfl)
    (fun c => by simp only [Gen.segs, Seg.pipes_host, Seg.pipes_region, Seg.pipes_nil]; decide) 0 (fun _ _ => rfl)
    (fun _ => iprop(emp))
    (initOf (Pipeline.cells (Pipeline.pin (pcfgs (F := F)) (adm m)) (cellOf_inj (adm m))) (Pipeline.launchToks (Pipeline.pin (pcfgs (F := F)) (adm m)) (cellOf_inj (adm m))))
    (by
      iintro Hu; imodintro
      isplitl [Hu]
      · iapply (show (ownU (initOf (Pipeline.cells (Pipeline.pin (pcfgs (F := F)) (adm m)) (cellOf_inj (adm m))) (Pipeline.launchToks (Pipeline.pin (pcfgs (F := F)) (adm m)) (cellOf_inj (adm m)))) : sProp 𝕄)
            ⊢ BI.own (emb₁ (initOf (Pipeline.cells (Pipeline.pin (pcfgs (F := F)) (adm m)) (cellOf_inj (adm m))) (Pipeline.launchToks (Pipeline.pin (pcfgs (F := F)) (adm m)) (cellOf_inj (adm m))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => StableHlo.held (c : Thread nD τ) (Pipeline.ucRefs τ sig) (Gen.V22 m (outs m) c))
    (hch := fun c => ⟨.rfl, .rfl, .rfl, .rfl, .rfl, .rfl, .rfl, .rfl, .rfl, .rfl, .rfl, .rfl, .rfl, .rfl, .rfl, .rfl, .rfl, .rfl, .rfl, .rfl, .rfl, .rfl,
      sep_mono .rfl (by iintro ⟨-, H⟩; iexact H)⟩)
    (hinit := ?_) (QY := fun c s => s.mem ((c.tc : Thread nD τ).loc main_v85) = Gen.V22 m (outs m) c main_v85
      ∧ s.mem ((c.tc : Thread nD τ).loc main_v97) = Gen.V22 m (outs m) c main_v97
      ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11) ∧ s.mem ((c.tc : Thread nD τ).loc main_arg12) = m ((c.tc : Thread nD τ).loc main_arg12))
    (hfin := fun c s' => ?_) (hQ := fun _ h => h)
  ·
    refine Pipeline.initEach L lv fun c => ?_
    rw [show unscopedBufs c (fun b => m ((c : Thread nD τ).loc b)) = StableHlo.held (c : Thread nD τ) (Pipeline.ucRefs τ sig) (Gen.V0 m c)
      from Pipeline.unscopedBufs_held c (Gen.V0 m c)]
    iintro ⟨⟨Hh, -, HO, -, Hp, -⟩, -⟩
    imodintro
    isplitl [Hh]; · iexact Hh
    isplitl [Hp]; · iexists _; iexact Hp
    iexists ∅; iexact HO
  ·
    unfold StableHlo.held
    iintro ⟨Hh, HSI⟩
    ihave Hr := (pointsTo_read_all (Pipeline.ucRefs τ sig) (fun b => ((c : Thread nD τ).1, b)) (Gen.V22 m (outs m) c) s') $$ [Hh HSI]
    · isplitl [Hh] <;> iassumption
    icases Hr with ⟨%h, HSI⟩
    imodintro
    isplitr
    · ipureintro
      exact ⟨h (Proc.devRef .tc main_v85) (Finset.mem_filter.mpr ⟨StableHlo.devRef_mem_tcRefs main_v85, by decide⟩),
        h (Proc.devRef .tc main_v97) (Finset.mem_filter.mpr ⟨StableHlo.devRef_mem_tcRefs main_v97, by decide⟩),
        (h (Proc.devRef .tc main_arg0) (Finset.mem_filter.mpr ⟨StableHlo.devRef_mem_tcRefs main_arg0, by decide⟩)).trans (Gen.V22_main_arg0 m (outs m) c),
        (h (Proc.devRef .tc main_arg1) (Finset.mem_filter.mpr ⟨StableHlo.devRef_mem_tcRefs main_arg1, by decide⟩)).trans (Gen.V22_main_arg1 m (outs m) c),
        (h (Proc.devRef .tc main_arg2) (Finset.mem_filter.mpr ⟨StableHlo.devRef_mem_tcRefs main_arg2, by decide⟩)).trans (Gen.V22_main_arg2 m (outs m) c),
        (h (Proc.devRef .tc main_arg3) (Finset.mem_filter.mpr ⟨StableHlo.devRef_mem_tcRefs main_arg3, by decide⟩)).trans (Gen.V22_main_arg3 m (outs m) c),
        (h (Proc.devRef .tc main_arg4) (Finset.mem_filter.mpr ⟨StableHlo.devRef_mem_tcRefs main_arg4, by decide⟩)).trans (Gen.V22_main_arg4 m (outs m) c),
        (h (Proc.devRef .tc main_arg5) (Finset.mem_filter.mpr ⟨StableHlo.devRef_mem_tcRefs main_arg5, by decide⟩)).trans (Gen.V22_main_arg5 m (outs m) c),
        (h (Proc.devRef .tc main_arg6) (Finset.mem_filter.mpr ⟨StableHlo.devRef_mem_tcRefs main_arg6, by decide⟩)).trans (Gen.V22_main_arg6 m (outs m) c),
        (h (Proc.devRef .tc main_arg7) (Finset.mem_filter.mpr ⟨StableHlo.devRef_mem_tcRefs main_arg7, by decide⟩)).trans (Gen.V22_main_arg7 m (outs m) c),
        (h (Proc.devRef .tc main_arg8) (Finset.mem_filter.mpr ⟨StableHlo.devRef_mem_tcRefs main_arg8, by decide⟩)).trans (Gen.V22_main_arg8 m (outs m) c),
        (h (Proc.devRef .tc main_arg9) (Finset.mem_filter.mpr ⟨StableHlo.devRef_mem_tcRefs main_arg9, by decide⟩)).trans (Gen.V22_main_arg9 m (outs m) c),
        (h (Proc.devRef .tc main_arg10) (Finset.mem_filter.mpr ⟨StableHlo.devRef_mem_tcRefs main_arg10, by decide⟩)).trans (Gen.V22_main_arg10 m (outs m) c),
        (h (Proc.devRef .tc main_arg11) (Finset.mem_filter.mpr ⟨StableHlo.devRef_mem_tcRefs main_arg11, by decide⟩)).trans (Gen.V22_main_arg11 m (outs m) c),
        (h (Proc.devRef .tc main_arg12) (Finset.mem_filter.mpr ⟨StableHlo.devRef_mem_tcRefs main_arg12, by decide⟩)).trans (Gen.V22_main_arg12 m (outs m) c)⟩
    · iexact HSI

theorem frame_all (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs (onTc (τ := τ) (main (F := F))) ⟨m, fun _ => 0, ρ⟩).mono (fun r h c => (h c).2.2) (run_full m ρ)

end Cert.Kernel.Hand

end
-- ==== Proof.RefRead.lean ====
import proofs.«428180_j4174708212170_2_alg».proof.Proof.Gen.ReferenceIdeal
import Idealize.ShloMosaic.Lib.StableHlo.Run
import Idealize.ShloMosaic.Lib.Pipeline.Value
import Idealize.ShloMosaic.Lib.ValueIdx
import Idealize.ShloMosaic.PureOps.Ideal.Laws

noncomputable section

namespace Cert.ReferenceIdeal.Read

open Cert.ReferenceIdeal Cert.ReferenceIdeal.Gen Idealize.ShloMosaic Idealize.ShloMosaic.TcCoe Idealize.SL.Sem Idealize.ShloMosaic.StableHlo

variable {F : FTy → Type} [FloatOps F]

section
variable
  (x0 : (⟨S100000x256, .f32⟩ : BufTy).Contents (Elt F)) (x1 : (⟨S100000, .i32⟩ : BufTy).Contents (Elt F)) (x2 : (⟨S100000, .i32⟩ : BufTy).Contents (Elt F))
  (x3 : (⟨S200000x3x256, .f32⟩ : BufTy).Contents (Elt F)) (x4 : (⟨S200000, .i32⟩ : BufTy).Contents (Elt F)) (x5 : (⟨S4x256x256, .f32⟩ : BufTy).Contents (Elt F))
  (x6 : (⟨S4x256, .f32⟩ : BufTy).Contents (Elt F)) (x7 : (⟨S4x256x256, .f32⟩ : BufTy).Contents (Elt F)) (x8 : (⟨S4x256, .f32⟩ : BufTy).Contents (Elt F))
  (x9 : (⟨S4x256x1, .f32⟩ : BufTy).Contents (Elt F)) (x10 : (⟨S4x1, .f32⟩ : BufTy).Contents (Elt F)) (x11 : (⟨S4x256x1, .f32⟩ : BufTy).Contents (Elt F))
  (x12 : (⟨S4x1, .f32⟩ : BufTy).Contents (Elt F))

abbrev idx_shapeCasts_S1x256x256_S256x256 (i : S256x256.Idx) : S1x256x256.Idx := fun a => match a with
  | ⟨0, _⟩ => ⟨0, Nat.one_pos⟩
  | ⟨1, _⟩ => ⟨((i 0).val * 256 + (i 1).val) / 256 % 256, by have h0 : (i 0).val < 256 := (i 0).isLt; have h1 : (i 1).val < 256 := (i 1).isLt; show ((i 0).val * 256 + (i 1).val) / 256 % 256 < 256; omega⟩
  | ⟨2, _⟩ => ⟨((i 0).val * 256 + (i 1).val) % 256, by have h0 : (i 0).val < 256 := (i 0).isLt; have h1 : (i 1).val < 256 := (i 1).isLt; show ((i 0).val * 256 + (i 1).val) % 256 < 256; omega⟩

theorem shapeCasts_S1x256x256_S256x256_apply (y : (⟨S1x256x256, .f32⟩ : BufTy).Contents (Elt F)) (i : S256x256.Idx) :
    shapeCast _ y shapeCasts_S1x256x256_S256x256 i = y (idx_shapeCasts_S1x256x256_S256x256 i) := by
  exact shapeCast_apply y shapeCasts_S1x256x256_S256x256 i (idx_shapeCasts_S1x256x256_S256x256 i)
    (by rewrite [Shape.rowMajor_val_three, Shape.rowMajor_val_two]; have h0 : (i 0).val < 256 := (i 0).isLt; have h1 : (i 1).val < 256 := (i 1).isLt; show (0 * 256 + ((i 0).val * 256 + (i 1).val) / 256 % 256) * 256 + ((i 0).val * 256 + (i 1).val) % 256 = (i 0).val * 256 + (i 1).val; omega)

abbrev idx_shapeCasts_S1x256_S256 (i : S256.Idx) : S1x256.Idx := fun a => match a with
  | ⟨0, _⟩ => ⟨0, Nat.one_pos⟩
  | ⟨1, _⟩ => ⟨((i 0).val) % 256, by have h0 : (i 0).val < 256 := (i 0).isLt; show ((i 0).val) % 256 < 256; omega⟩

theorem shapeCasts_S1x256_S256_apply (y : (⟨S1x256, .f32⟩ : BufTy).Contents (Elt F)) (i : S256.Idx) :
    shapeCast _ y shapeCasts_S1x256_S256 i = y (idx_shapeCasts_S1x256_S256 i) := by
  exact shapeCast_apply y shapeCasts_S1x256_S256 i (idx_shapeCasts_S1x256_S256 i)
    (by rewrite [Shape.rowMajor_val_two, Shape.rowMajor_val_one]; have h0 : (i 0).val < 256 := (i 0).isLt; show 0 * 256 + ((i 0).val) % 256 = (i 0).val; omega)

abbrev idx_bcast_S256_S1x256_1 (i : S1x256.Idx) : S256.Idx := fun a => match a with
  | ⟨0, _⟩ => ⟨(i 1).val, (i 1).isLt⟩

theorem bcast_S256_S1x256_1_apply (y : (⟨S256, .f32⟩ : BufTy).Contents (Elt F)) (i : S1x256.Idx) :
    broadcastInDim S1x256 ![1] bcast_S256_S1x256_1 y i = y (idx_bcast_S256_S1x256_1 i) := by
  exact broadcastInDim_apply _ bcast_S256_S1x256_1 y i (idx_bcast_S256_S1x256_1 i) (fun a => match a with
    | ⟨0, _⟩ => by show (i 1).val = if (256 : Nat) = 1 then 0 else (i 1).val; rw [if_neg (by decide)])

abbrev idx_bcast_S1x256_S100000x256_0_1 (i : S100000x256.Idx) : S1x256.Idx := fun a => match a with
  | ⟨0, _⟩ => ⟨0, Nat.one_pos⟩
  | ⟨1, _⟩ => ⟨(i 1).val, (i 1).isLt⟩

theorem bcast_S1x256_S100000x256_0_1_apply (y : (⟨S1x256, .f32⟩ : BufTy).Contents (Elt F)) (i : S100000x256.Idx) :
    broadcastInDim S100000x256 ![0, 1] bcast_S1x256_S100000x256_0_1 y i = y (idx_bcast_S1x256_S100000x256_0_1 i) := by
  exact broadcastInDim_apply _ bcast_S1x256_S100000x256_0_1 y i (idx_bcast_S1x256_S100000x256_0_1 i) (fun a => match a with
    | ⟨0, _⟩ => by show 0 = if (1 : Nat) = 1 then 0 else (i 0).val; rw [if_pos rfl]
    | ⟨1, _⟩ => by show (i 1).val = if (256 : Nat) = 1 then 0 else (i 1).val; rw [if_neg (by decide)])

abbrev idx_bcast_S_S100000x256 (i : S100000x256.Idx) : S_.Idx := fun a => a.elim0

theorem bcast_S_S100000x256_apply (y : (⟨S_, .f32⟩ : BufTy).Contents (Elt F)) (i : S100000x256.Idx) :
    broadcastInDim S100000x256 ![] bcast_S_S100000x256 y i = y (idx_bcast_S_S100000x256 i) := by
  exact broadcastInDim_apply _ bcast_S_S100000x256 y i (idx_bcast_S_S100000x256 i) (fun a => a.elim0)

abbrev idx_shapeCasts_S1x256x1_S256x1 (i : S256x1.Idx) : S1x256x1.Idx := fun a => match a with
  | ⟨0, _⟩ => ⟨0, Nat.one_pos⟩
  | ⟨1, _⟩ => ⟨((i 0).val * 1 + (i 1).val) / 1 % 256, by have h0 : (i 0).val < 256 := (i 0).isLt; have h1 : (i 1).val < 1 := (i 1).isLt; show ((i 0).val * 1 + (i 1).val) / 1 % 256 < 256; omega⟩
  | ⟨2, _⟩ => ⟨0, Nat.one_pos⟩

theorem shapeCasts_S1x256x1_S256x1_apply (y : (⟨S1x256x1, .f32⟩ : BufTy).Contents (Elt F)) (i : S256x1.Idx) :
    shapeCast _ y shapeCasts_S1x256x1_S256x1 i = y (idx_shapeCasts_S1x256x1_S256x1 i) := by
  exact shapeCast_apply y shapeCasts_S1x256x1_S256x1 i (idx_shapeCasts_S1x256x1_S256x1 i)
    (by rewrite [Shape.rowMajor_val_three, Shape.rowMajor_val_two]; have h0 : (i 0).val < 256 := (i 0).isLt; have h1 : (i 1).val < 1 := (i 1).isLt; show (0 * 256 + ((i 0).val * 1 + (i 1).val) / 1 % 256) * 1 + 0 = (i 0).val * 1 + (i 1).val; omega)

abbrev idx_shapeCasts_S1x1_S1 (i : S1.Idx) : S1x1.Idx := fun a => match a with
  | ⟨0, _⟩ => ⟨0, Nat.one_pos⟩
  | ⟨1, _⟩ => ⟨0, Nat.one_pos⟩

theorem shapeCasts_S1x1_S1_apply (y : (⟨S1x1, .f32⟩ : BufTy).Contents (Elt F)) (i : S1.Idx) :
    shapeCast _ y shapeCasts_S1x1_S1 i = y (idx_shapeCasts_S1x1_S1 i) := by
  exact shapeCast_apply y shapeCasts_S1x1_S1 i (idx_shapeCasts_S1x1_S1 i)
    (by rewrite [Shape.rowMajor_val_two, Shape.rowMajor_val_one]; have h0 : (i 0).val < 1 := (i 0).isLt; show 0 * 1 + 0 = (i 0).val; omega)

abbrev idx_bcast_S1_S1x1_1 (i : S1x1.Idx) : S1.Idx := fun a => match a with
  | ⟨0, _⟩ => ⟨0, Nat.one_pos⟩

theorem bcast_S1_S1x1_1_apply (y : (⟨S1, .f32⟩ : BufTy).Contents (Elt F)) (i : S1x1.Idx) :
    broadcastInDim S1x1 ![1] bcast_S1_S1x1_1 y i = y (idx_bcast_S1_S1x1_1 i) := by
  exact broadcastInDim_apply _ bcast_S1_S1x1_1 y i (idx_bcast_S1_S1x1_1 i) (fun a => match a with
    | ⟨0, _⟩ => by show 0 = if (1 : Nat) = 1 then 0 else (i 1).val; rw [if_pos rfl])

abbrev idx_bcast_S1x1_S100000x1_0_1 (i : S100000x1.Idx) : S1x1.Idx := fun a => match a with
  | ⟨0, _⟩ => ⟨0, Nat.one_pos⟩
  | ⟨1, _⟩ => ⟨0, Nat.one_pos⟩

theorem bcast_S1x1_S100000x1_0_1_apply (y : (⟨S1x1, .f32⟩ : BufTy).Contents (Elt F)) (i : S100000x1.Idx) :
    broadcastInDim S100000x1 ![0, 1] bcast_S1x1_S100000x1_0_1 y i = y (idx_bcast_S1x1_S100000x1_0_1 i) := by
  exact broadcastInDim_apply _ bcast_S1x1_S100000x1_0_1 y i (idx_bcast_S1x1_S100000x1_0_1 i) (fun a => match a with
    | ⟨0, _⟩ => by show 0 = if (1 : Nat) = 1 then 0 else (i 0).val; rw [if_pos rfl]
    | ⟨1, _⟩ => by show 0 = if (1 : Nat) = 1 then 0 else (i 1).val; rw [if_pos rfl])

abbrev idx_bcast_S100000_S100000x1_0 (i : S100000x1.Idx) : S100000.Idx := fun a => match a with
  | ⟨0, _⟩ => ⟨(i 0).val, (i 0).isLt⟩

theorem bcast_S100000_S100000x1_0_apply (y : (⟨S100000, .i1⟩ : BufTy).Contents (Elt F)) (i : S100000x1.Idx) :
    broadcastInDim S100000x1 ![0] bcast_S100000_S100000x1_0 y i = y (idx_bcast_S100000_S100000x1_0 i) := by
  exact broadcastInDim_apply _ bcast_S100000_S100000x1_0 y i (idx_bcast_S100000_S100000x1_0 i) (fun a => match a with
    | ⟨0, _⟩ => by show (i 0).val = if (100000 : Nat) = 1 then 0 else (i 0).val; rw [if_neg (by decide)])

abbrev idx_bcast_S_S100000 (i : S100000.Idx) : S_.Idx := fun a => a.elim0

theorem bcast_S_S100000_apply (y : (⟨S_, .i32⟩ : BufTy).Contents (Elt F)) (i : S100000.Idx) :
    broadcastInDim S100000 ![] bcast_S_S100000 y i = y (idx_bcast_S_S100000 i) := by
  exact broadcastInDim_apply _ bcast_S_S100000 y i (idx_bcast_S_S100000 i) (fun a => a.elim0)

abbrev idx_bcast_S_S200000 (i : S200000.Idx) : S_.Idx := fun a => a.elim0

theorem bcast_S_S200000_apply (y : (⟨S_, .i32⟩ : BufTy).Contents (Elt F)) (i : S200000.Idx) :
    broadcastInDim S200000 ![] bcast_S_S200000 y i = y (idx_bcast_S_S200000 i) := by
  exact broadcastInDim_apply _ bcast_S_S200000 y i (idx_bcast_S_S200000 i) (fun a => a.elim0)

theorem lhs_xW_0 (i : S100000x256.Idx) (q : dot_S100000x256_S256x256_S100000x256_1_0_0_1_n_n.contr.Idx) :
    (dot_S100000x256_S256x256_S100000x256_1_0_0_1_n_n.lhsIdx i q 0).val = (i 0).val := by
  unfold DotDims.lhsIdx
  rw [dif_neg (show ¬(0 : Fin S100000x256.rank) ∈ dot_S100000x256_S256x256_S100000x256_1_0_0_1_n_n.lhsBatch by decide), dif_pos (show (0 : Fin S100000x256.rank) ∈ dot_S100000x256_S256x256_S100000x256_1_0_0_1_n_n.lhsNonContracting by decide)]
  rfl

theorem lhs_xW_1 (i : S100000x256.Idx) (q : dot_S100000x256_S256x256_S100000x256_1_0_0_1_n_n.contr.Idx) :
    (dot_S100000x256_S256x256_S100000x256_1_0_0_1_n_n.lhsIdx i q 1).val = (q ⟨0, by decide⟩).val :=
  dot_S100000x256_S256x256_S100000x256_1_0_0_1_n_n.lhsIdx_val_of_single rfl i q

theorem rhs_xW_0 (i : S100000x256.Idx) (q : dot_S100000x256_S256x256_S100000x256_1_0_0_1_n_n.contr.Idx) :
    (dot_S100000x256_S256x256_S100000x256_1_0_0_1_n_n.rhsIdx i q 0).val = (q ⟨0, by decide⟩).val :=
  dot_S100000x256_S256x256_S100000x256_1_0_0_1_n_n.rhsIdx_val_of_single rfl i q

theorem rhs_xW_1 (i : S100000x256.Idx) (q : dot_S100000x256_S256x256_S100000x256_1_0_0_1_n_n.contr.Idx) :
    (dot_S100000x256_S256x256_S100000x256_1_0_0_1_n_n.rhsIdx i q 1).val = (i 1).val := by
  unfold DotDims.rhsIdx
  rw [dif_neg (show ¬(1 : Fin S256x256.rank) ∈ dot_S100000x256_S256x256_S100000x256_1_0_0_1_n_n.rhsBatch by decide), dif_pos (show (1 : Fin S256x256.rank) ∈ dot_S100000x256_S256x256_S100000x256_1_0_0_1_n_n.rhsNonContracting by decide)]
  rfl

abbrev lidx_xW (i : S100000x256.Idx) (k : Fin 256) : S100000x256.Idx := fun a => match a with
  | ⟨0, _⟩ => ⟨(i 0).val, (i 0).isLt⟩
  | ⟨1, _⟩ => ⟨k.val, k.isLt⟩

abbrev ridx_xW (i : S100000x256.Idx) (k : Fin 256) : S256x256.Idx := fun a => match a with
  | ⟨0, _⟩ => ⟨k.val, k.isLt⟩
  | ⟨1, _⟩ => ⟨(i 1).val, (i 1).isLt⟩

theorem lhs_xw_0 (i : S100000x1.Idx) (q : dot_S100000x256_S256x1_S100000x1_1_0_0_1_n_n.contr.Idx) :
    (dot_S100000x256_S256x1_S100000x1_1_0_0_1_n_n.lhsIdx i q 0).val = (i 0).val := by
  unfold DotDims.lhsIdx
  rw [dif_neg (show ¬(0 : Fin S100000x256.rank) ∈ dot_S100000x256_S256x1_S100000x1_1_0_0_1_n_n.lhsBatch by decide), dif_pos (show (0 : Fin S100000x256.rank) ∈ dot_S100000x256_S256x1_S100000x1_1_0_0_1_n_n.lhsNonContracting by decide)]
  rfl

theorem lhs_xw_1 (i : S100000x1.Idx) (q : dot_S100000x256_S256x1_S100000x1_1_0_0_1_n_n.contr.Idx) :
    (dot_S100000x256_S256x1_S100000x1_1_0_0_1_n_n.lhsIdx i q 1).val = (q ⟨0, by decide⟩).val :=
  dot_S100000x256_S256x1_S100000x1_1_0_0_1_n_n.lhsIdx_val_of_single rfl i q

theorem rhs_xw_0 (i : S100000x1.Idx) (q : dot_S100000x256_S256x1_S100000x1_1_0_0_1_n_n.contr.Idx) :
    (dot_S100000x256_S256x1_S100000x1_1_0_0_1_n_n.rhsIdx i q 0).val = (q ⟨0, by decide⟩).val :=
  dot_S100000x256_S256x1_S100000x1_1_0_0_1_n_n.rhsIdx_val_of_single rfl i q

theorem rhs_xw_1 (i : S100000x1.Idx) (q : dot_S100000x256_S256x1_S100000x1_1_0_0_1_n_n.contr.Idx) :
    (dot_S100000x256_S256x1_S100000x1_1_0_0_1_n_n.rhsIdx i q 1).val = (i 1).val := by
  unfold DotDims.rhsIdx
  rw [dif_neg (show ¬(1 : Fin S256x1.rank) ∈ dot_S100000x256_S256x1_S100000x1_1_0_0_1_n_n.rhsBatch by decide), dif_pos (show (1 : Fin S256x1.rank) ∈ dot_S100000x256_S256x1_S100000x1_1_0_0_1_n_n.rhsNonContracting by decide)]
  rfl

abbrev lidx_xw (i : S100000x1.Idx) (k : Fin 256) : S100000x256.Idx := fun a => match a with
  | ⟨0, _⟩ => ⟨(i 0).val, (i 0).isLt⟩
  | ⟨1, _⟩ => ⟨k.val, k.isLt⟩

abbrev ridx_xw (i : S100000x1.Idx) (k : Fin 256) : S256x1.Idx := fun a => match a with
  | ⟨0, _⟩ => ⟨k.val, k.isLt⟩
  | ⟨1, _⟩ => ⟨(i 1).val, (i 1).isLt⟩

theorem lhs_cwT_0 (i : S100000x256.Idx) (q : dot_S100000x1_S256x1_S100000x256_1_1_0_0_n_n.contr.Idx) :
    (dot_S100000x1_S256x1_S100000x256_1_1_0_0_n_n.lhsIdx i q 0).val = (i 0).val := by
  unfold DotDims.lhsIdx
  rw [dif_neg (show ¬(0 : Fin S100000x1.rank) ∈ dot_S100000x1_S256x1_S100000x256_1_1_0_0_n_n.lhsBatch by decide), dif_pos (show (0 : Fin S100000x1.rank) ∈ dot_S100000x1_S256x1_S100000x256_1_1_0_0_n_n.lhsNonContracting by decide)]
  rfl

theorem lhs_cwT_1 (i : S100000x256.Idx) (q : dot_S100000x1_S256x1_S100000x256_1_1_0_0_n_n.contr.Idx) :
    (dot_S100000x1_S256x1_S100000x256_1_1_0_0_n_n.lhsIdx i q 1).val = (q ⟨0, by decide⟩).val :=
  dot_S100000x1_S256x1_S100000x256_1_1_0_0_n_n.lhsIdx_val_of_single rfl i q

theorem rhs_cwT_0 (i : S100000x256.Idx) (q : dot_S100000x1_S256x1_S100000x256_1_1_0_0_n_n.contr.Idx) :
    (dot_S100000x1_S256x1_S100000x256_1_1_0_0_n_n.rhsIdx i q 0).val = (i 1).val := by
  unfold DotDims.rhsIdx
  rw [dif_neg (show ¬(0 : Fin S256x1.rank) ∈ dot_S100000x1_S256x1_S100000x256_1_1_0_0_n_n.rhsBatch by decide), dif_pos (show (0 : Fin S256x1.rank) ∈ dot_S100000x1_S256x1_S100000x256_1_1_0_0_n_n.rhsNonContracting by decide)]
  rfl

theorem rhs_cwT_1 (i : S100000x256.Idx) (q : dot_S100000x1_S256x1_S100000x256_1_1_0_0_n_n.contr.Idx) :
    (dot_S100000x1_S256x1_S100000x256_1_1_0_0_n_n.rhsIdx i q 1).val = (q ⟨0, by decide⟩).val :=
  dot_S100000x1_S256x1_S100000x256_1_1_0_0_n_n.rhsIdx_val_of_single rfl i q

abbrev lidx_cwT (i : S100000x256.Idx) (k : Fin 1) : S100000x1.Idx := fun a => match a with
  | ⟨0, _⟩ => ⟨(i 0).val, (i 0).isLt⟩
  | ⟨1, _⟩ => ⟨k.val, k.isLt⟩

abbrev ridx_cwT (i : S100000x256.Idx) (k : Fin 1) : S256x1.Idx := fun a => match a with
  | ⟨0, _⟩ => ⟨(i 1).val, (i 1).isLt⟩
  | ⟨1, _⟩ => ⟨k.val, k.isLt⟩

theorem lhs_xWT_0 (i : S100000x256.Idx) (q : dot_S100000x256_S256x256_S100000x256_1_1_0_0_n_n.contr.Idx) :
    (dot_S100000x256_S256x256_S100000x256_1_1_0_0_n_n.lhsIdx i q 0).val = (i 0).val := by
  unfold DotDims.lhsIdx
  rw [dif_neg (show ¬(0 : Fin S100000x256.rank) ∈ dot_S100000x256_S256x256_S100000x256_1_1_0_0_n_n.lhsBatch by decide), dif_pos (show (0 : Fin S100000x256.rank) ∈ dot_S100000x256_S256x256_S100000x256_1_1_0_0_n_n.lhsNonContracting by decide)]
  rfl

theorem lhs_xWT_1 (i : S100000x256.Idx) (q : dot_S100000x256_S256x256_S100000x256_1_1_0_0_n_n.contr.Idx) :
    (dot_S100000x256_S256x256_S100000x256_1_1_0_0_n_n.lhsIdx i q 1).val = (q ⟨0, by decide⟩).val :=
  dot_S100000x256_S256x256_S100000x256_1_1_0_0_n_n.lhsIdx_val_of_single rfl i q

theorem rhs_xWT_0 (i : S100000x256.Idx) (q : dot_S100000x256_S256x256_S100000x256_1_1_0_0_n_n.contr.Idx) :
    (dot_S100000x256_S256x256_S100000x256_1_1_0_0_n_n.rhsIdx i q 0).val = (i 1).val := by
  unfold DotDims.rhsIdx
  rw [dif_neg (show ¬(0 : Fin S256x256.rank) ∈ dot_S100000x256_S256x256_S100000x256_1_1_0_0_n_n.rhsBatch by decide), dif_pos (show (0 : Fin S256x256.rank) ∈ dot_S100000x256_S256x256_S100000x256_1_1_0_0_n_n.rhsNonContracting by decide)]
  rfl

theorem rhs_xWT_1 (i : S100000x256.Idx) (q : dot_S100000x256_S256x256_S100000x256_1_1_0_0_n_n.contr.Idx) :
    (dot_S100000x256_S256x256_S100000x256_1_1_0_0_n_n.rhsIdx i q 1).val = (q ⟨0, by decide⟩).val :=
  dot_S100000x256_S256x256_S100000x256_1_1_0_0_n_n.rhsIdx_val_of_single rfl i q

abbrev lidx_xWT (i : S100000x256.Idx) (k : Fin 256) : S100000x256.Idx := fun a => match a with
  | ⟨0, _⟩ => ⟨(i 0).val, (i 0).isLt⟩
  | ⟨1, _⟩ => ⟨k.val, k.isLt⟩

abbrev ridx_xWT (i : S100000x256.Idx) (k : Fin 256) : S256x256.Idx := fun a => match a with
  | ⟨0, _⟩ => ⟨(i 1).val, (i 1).isLt⟩
  | ⟨1, _⟩ => ⟨k.val, k.isLt⟩

def val_main_cst : (⟨S_, .f32⟩ : BufTy).Contents (Elt F) :=
  constant S_ .f32 0x00000000#32

theorem val_main_cst_apply (i : S_.Idx) :
    val_main_cst (F := F) i = FloatOps.ofBits .f32 0x00000000#32 := rfl

def val_main_v0 : (⟨S100000x1, .f32⟩ : BufTy).Contents (Elt F) :=
  broadcastInDim S100000x1 ![] bcast_S_S100000x1 (val_main_cst (F := F))

abbrev idx_main_v0 (i : S100000x1.Idx) : S_.Idx := fun a => a.elim0

theorem val_main_v0_apply (i : S100000x1.Idx) :
    val_main_v0 (F := F) i = val_main_cst (F := F) (idx_main_v0 i) := by
  unfold val_main_v0
  generalize val_main_cst (F := F) = y
  exact broadcastInDim_apply _ bcast_S_S100000x1 y i (idx_main_v0 i) (fun a => a.elim0)

def val_main_v1 : (⟨S1x256x256, .f32⟩ : BufTy).Contents (Elt F) :=
  extractStridedSlice S1x256x256 ![0, 0, 0] (x5) slices_S4x256x256_S1x256x256_0_0_0

abbrev idx_main_v1 (i : S1x256x256.Idx) : S4x256x256.Idx := fun a => match a with
  | ⟨0, _⟩ => ⟨(i 0).val, by have h0 : (i 0).val < 1 := (i 0).isLt; show (i 0).val < 4; omega⟩
  | ⟨1, _⟩ => ⟨(i 1).val, (i 1).isLt⟩
  | ⟨2, _⟩ => ⟨(i 2).val, (i 2).isLt⟩

theorem val_main_v1_apply (i : S1x256x256.Idx) :
    val_main_v1 (F := F) x5 i = x5 (idx_main_v1 i) := by
  unfold val_main_v1
  exact extractStridedSlice_apply ![0, 0, 0] x5 slices_S4x256x256_S1x256x256_0_0_0 i (idx_main_v1 i) (fun a => match a with
    | ⟨0, _⟩ => by show (i 0).val = 0 + (i 0).val; omega
    | ⟨1, _⟩ => by show (i 1).val = 0 + (i 1).val; omega
    | ⟨2, _⟩ => by show (i 2).val = 0 + (i 2).val; omega)

def val_main_v2 : (⟨S256x256, .f32⟩ : BufTy).Contents (Elt F) :=
  shapeCast _ (val_main_v1 (F := F) x5) shapeCasts_S1x256x256_S256x256

abbrev idx_main_v2 := idx_shapeCasts_S1x256x256_S256x256

theorem val_main_v2_apply (i : S256x256.Idx) :
    val_main_v2 (F := F) x5 i = val_main_v1 (F := F) x5 (idx_main_v2 i) :=
  shapeCasts_S1x256x256_S256x256_apply _ i

def val_main_v3 : (⟨S100000x256, .f32⟩ : BufTy).Contents (Elt F) :=
  Host.dotGeneral dot_S100000x256_S256x256_S100000x256_1_0_0_1_n_n none (x0) (val_main_v2 (F := F) x5)

abbrev lidx_main_v3 := lidx_xW

abbrev ridx_main_v3 := ridx_xW

def val_main_v4 : (⟨S1x256, .f32⟩ : BufTy).Contents (Elt F) :=
  extractStridedSlice S1x256 ![0, 0] (x6) slices_S4x256_S1x256_0_0

abbrev idx_main_v4 (i : S1x256.Idx) : S4x256.Idx := fun a => match a with
  | ⟨0, _⟩ => ⟨(i 0).val, by have h0 : (i 0).val < 1 := (i 0).isLt; show (i 0).val < 4; omega⟩
  | ⟨1, _⟩ => ⟨(i 1).val, (i 1).isLt⟩

theorem val_main_v4_apply (i : S1x256.Idx) :
    val_main_v4 (F := F) x6 i = x6 (idx_main_v4 i) := by
  unfold val_main_v4
  exact extractStridedSlice_apply ![0, 0] x6 slices_S4x256_S1x256_0_0 i (idx_main_v4 i) (fun a => match a with
    | ⟨0, _⟩ => by show (i 0).val = 0 + (i 0).val; omega
    | ⟨1, _⟩ => by show (i 1).val = 0 + (i 1).val; omega)

def val_main_v5 : (⟨S256, .f32⟩ : BufTy).Contents (Elt F) :=
  shapeCast _ (val_main_v4 (F := F) x6) shapeCasts_S1x256_S256

abbrev idx_main_v5 := idx_shapeCasts_S1x256_S256

theorem val_main_v5_apply (i : S256.Idx) :
    val_main_v5 (F := F) x6 i = val_main_v4 (F := F) x6 (idx_main_v5 i) :=
  shapeCasts_S1x256_S256_apply _ i

def val_main_v6 : (⟨S1x256, .f32⟩ : BufTy).Contents (Elt F) :=
  broadcastInDim S1x256 ![1] bcast_S256_S1x256_1 (val_main_v5 (F := F) x6)

abbrev idx_main_v6 := idx_bcast_S256_S1x256_1

theorem val_main_v6_apply (i : S1x256.Idx) :
    val_main_v6 (F := F) x6 i = val_main_v5 (F := F) x6 (idx_main_v6 i) :=
  bcast_S256_S1x256_1_apply _ i

def val_main_v7 : (⟨S100000x256, .f32⟩ : BufTy).Contents (Elt F) :=
  broadcastInDim S100000x256 ![0, 1] bcast_S1x256_S100000x256_0_1 (val_main_v6 (F := F) x6)

abbrev idx_main_v7 := idx_bcast_S1x256_S100000x256_0_1

theorem val_main_v7_apply (i : S100000x256.Idx) :
    val_main_v7 (F := F) x6 i = val_main_v6 (F := F) x6 (idx_main_v7 i) :=
  bcast_S1x256_S100000x256_0_1_apply _ i

def val_main_v8 : (⟨S100000x256, .f32⟩ : BufTy).Contents (Elt F) :=
  addf (val_main_v3 (F := F) x0 x5) (val_main_v7 (F := F) x6)

theorem val_main_v8_apply (i : S100000x256.Idx) :
    val_main_v8 (F := F) x0 x5 x6 i = FloatOps.addf (val_main_v3 (F := F) x0 x5 i) (val_main_v7 (F := F) x6 i) := rfl

def val_main_v9 : (⟨S100000x256, .f32⟩ : BufTy).Contents (Elt F) :=
  Host.tanh (val_main_v8 (F := F) x0 x5 x6)

theorem val_main_v9_apply (i : S100000x256.Idx) :
    val_main_v9 (F := F) x0 x5 x6 i = FloatOps.hostUnary .tanh (val_main_v8 (F := F) x0 x5 x6 i) := rfl

def val_main_cst_0 : (⟨S_, .f32⟩ : BufTy).Contents (Elt F) :=
  constant S_ .f32 0x3F800000#32

theorem val_main_cst_0_apply (i : S_.Idx) :
    val_main_cst_0 (F := F) i = FloatOps.ofBits .f32 0x3F800000#32 := rfl

def val_main_v10 : (⟨S100000x256, .f32⟩ : BufTy).Contents (Elt F) :=
  broadcastInDim S100000x256 ![] bcast_S_S100000x256 (val_main_cst_0 (F := F))

abbrev idx_main_v10 := idx_bcast_S_S100000x256

theorem val_main_v10_apply (i : S100000x256.Idx) :
    val_main_v10 (F := F) i = val_main_cst_0 (F := F) (idx_main_v10 i) :=
  bcast_S_S100000x256_apply _ i

def val_main_v11 : (⟨S100000x256, .f32⟩ : BufTy).Contents (Elt F) :=
  subf (val_main_v10 (F := F)) (val_main_v9 (F := F) x0 x5 x6)

theorem val_main_v11_apply (i : S100000x256.Idx) :
    val_main_v11 (F := F) x0 x5 x6 i = FloatOps.subf (val_main_v10 (F := F) i) (val_main_v9 (F := F) x0 x5 x6 i) := rfl

def val_main_v12 : (⟨S1x256x256, .f32⟩ : BufTy).Contents (Elt F) :=
  extractStridedSlice S1x256x256 ![0, 0, 0] (x7) slices_S4x256x256_S1x256x256_0_0_0

abbrev idx_main_v12 (i : S1x256x256.Idx) : S4x256x256.Idx := fun a => match a with
  | ⟨0, _⟩ => ⟨(i 0).val, by have h0 : (i 0).val < 1 := (i 0).isLt; show (i 0).val < 4; omega⟩
  | ⟨1, _⟩ => ⟨(i 1).val, (i 1).isLt⟩
  | ⟨2, _⟩ => ⟨(i 2).val, (i 2).isLt⟩

theorem val_main_v12_apply (i : S1x256x256.Idx) :
    val_main_v12 (F := F) x7 i = x7 (idx_main_v12 i) := by
  unfold val_main_v12
  exact extractStridedSlice_apply ![0, 0, 0] x7 slices_S4x256x256_S1x256x256_0_0_0 i (idx_main_v12 i) (fun a => match a with
    | ⟨0, _⟩ => by show (i 0).val = 0 + (i 0).val; omega
    | ⟨1, _⟩ => by show (i 1).val = 0 + (i 1).val; omega
    | ⟨2, _⟩ => by show (i 2).val = 0 + (i 2).val; omega)

def val_main_v13 : (⟨S256x256, .f32⟩ : BufTy).Contents (Elt F) :=
  shapeCast _ (val_main_v12 (F := F) x7) shapeCasts_S1x256x256_S256x256

abbrev idx_main_v13 := idx_shapeCasts_S1x256x256_S256x256

theorem val_main_v13_apply (i : S256x256.Idx) :
    val_main_v13 (F := F) x7 i = val_main_v12 (F := F) x7 (idx_main_v13 i) :=
  shapeCasts_S1x256x256_S256x256_apply _ i

def val_main_v14 : (⟨S100000x256, .f32⟩ : BufTy).Contents (Elt F) :=
  Host.dotGeneral dot_S100000x256_S256x256_S100000x256_1_0_0_1_n_n none (val_main_v9 (F := F) x0 x5 x6) (val_main_v13 (F := F) x7)

abbrev lidx_main_v14 := lidx_xW

abbrev ridx_main_v14 := ridx_xW

def val_main_v15 : (⟨S1x256, .f32⟩ : BufTy).Contents (Elt F) :=
  extractStridedSlice S1x256 ![0, 0] (x8) slices_S4x256_S1x256_0_0

abbrev idx_main_v15 (i : S1x256.Idx) : S4x256.Idx := fun a => match a with
  | ⟨0, _⟩ => ⟨(i 0).val, by have h0 : (i 0).val < 1 := (i 0).isLt; show (i 0).val < 4; omega⟩
  | ⟨1, _⟩ => ⟨(i 1).val, (i 1).isLt⟩

theorem val_main_v15_apply (i : S1x256.Idx) :
    val_main_v15 (F := F) x8 i = x8 (idx_main_v15 i) := by
  unfold val_main_v15
  exact extractStridedSlice_apply ![0, 0] x8 slices_S4x256_S1x256_0_0 i (idx_main_v15 i) (fun a => match a with
    | ⟨0, _⟩ => by show (i 0).val = 0 + (i 0).val; omega
    | ⟨1, _⟩ => by show (i 1).val = 0 + (i 1).val; omega)

def val_main_v16 : (⟨S256, .f32⟩ : BufTy).Contents (Elt F) :=
  shapeCast _ (val_main_v15 (F := F) x8) shapeCasts_S1x256_S256

abbrev idx_main_v16 := idx_shapeCasts_S1x256_S256

theorem val_main_v16_apply (i : S256.Idx) :
    val_main_v16 (F := F) x8 i = val_main_v15 (F := F) x8 (idx_main_v16 i) :=
  shapeCasts_S1x256_S256_apply _ i

def val_main_v17 : (⟨S1x256, .f32⟩ : BufTy).Contents (Elt F) :=
  broadcastInDim S1x256 ![1] bcast_S256_S1x256_1 (val_main_v16 (F := F) x8)

abbrev idx_main_v17 := idx_bcast_S256_S1x256_1

theorem val_main_v17_apply (i : S1x256.Idx) :
    val_main_v17 (F := F) x8 i = val_main_v16 (F := F) x8 (idx_main_v17 i) :=
  bcast_S256_S1x256_1_apply _ i

def val_main_v18 : (⟨S100000x256, .f32⟩ : BufTy).Contents (Elt F) :=
  broadcastInDim S100000x256 ![0, 1] bcast_S1x256_S100000x256_0_1 (val_main_v17 (F := F) x8)

abbrev idx_main_v18 := idx_bcast_S1x256_S100000x256_0_1

theorem val_main_v18_apply (i : S100000x256.Idx) :
    val_main_v18 (F := F) x8 i = val_main_v17 (F := F) x8 (idx_main_v18 i) :=
  bcast_S1x256_S100000x256_0_1_apply _ i

def val_main_v19 : (⟨S100000x256, .f32⟩ : BufTy).Contents (Elt F) :=
  addf (val_main_v14 (F := F) x0 x5 x6 x7) (val_main_v18 (F := F) x8)

theorem val_main_v19_apply (i : S100000x256.Idx) :
    val_main_v19 (F := F) x0 x5 x6 x7 x8 i = FloatOps.addf (val_main_v14 (F := F) x0 x5 x6 x7 i) (val_main_v18 (F := F) x8 i) := rfl

def val_main_v20 : (⟨S100000x256, .f32⟩ : BufTy).Contents (Elt F) :=
  Host.tanh (val_main_v19 (F := F) x0 x5 x6 x7 x8)

theorem val_main_v20_apply (i : S100000x256.Idx) :
    val_main_v20 (F := F) x0 x5 x6 x7 x8 i = FloatOps.hostUnary .tanh (val_main_v19 (F := F) x0 x5 x6 x7 x8 i) := rfl

def val_main_cst_1 : (⟨S_, .f32⟩ : BufTy).Contents (Elt F) :=
  constant S_ .f32 0x3F800000#32

theorem val_main_cst_1_apply (i : S_.Idx) :
    val_main_cst_1 (F := F) i = FloatOps.ofBits .f32 0x3F800000#32 := rfl

def val_main_v21 : (⟨S100000x256, .f32⟩ : BufTy).Contents (Elt F) :=
  broadcastInDim S100000x256 ![] bcast_S_S100000x256 (val_main_cst_1 (F := F))

abbrev idx_main_v21 := idx_bcast_S_S100000x256

theorem val_main_v21_apply (i : S100000x256.Idx) :
    val_main_v21 (F := F) i = val_main_cst_1 (F := F) (idx_main_v21 i) :=
  bcast_S_S100000x256_apply _ i

def val_main_v22 : (⟨S100000x256, .f32⟩ : BufTy).Contents (Elt F) :=
  subf (val_main_v21 (F := F)) (val_main_v20 (F := F) x0 x5 x6 x7 x8)

theorem val_main_v22_apply (i : S100000x256.Idx) :
    val_main_v22 (F := F) x0 x5 x6 x7 x8 i = FloatOps.subf (val_main_v21 (F := F) i) (val_main_v20 (F := F) x0 x5 x6 x7 x8 i) := rfl

def val_main_v23 : (⟨S1x256x1, .f32⟩ : BufTy).Contents (Elt F) :=
  extractStridedSlice S1x256x1 ![0, 0, 0] (x9) slices_S4x256x1_S1x256x1_0_0_0

abbrev idx_main_v23 (i : S1x256x1.Idx) : S4x256x1.Idx := fun a => match a with
  | ⟨0, _⟩ => ⟨(i 0).val, by have h0 : (i 0).val < 1 := (i 0).isLt; show (i 0).val < 4; omega⟩
  | ⟨1, _⟩ => ⟨(i 1).val, (i 1).isLt⟩
  | ⟨2, _⟩ => ⟨(i 2).val, (i 2).isLt⟩

theorem val_main_v23_apply (i : S1x256x1.Idx) :
    val_main_v23 (F := F) x9 i = x9 (idx_main_v23 i) := by
  unfold val_main_v23
  exact extractStridedSlice_apply ![0, 0, 0] x9 slices_S4x256x1_S1x256x1_0_0_0 i (idx_main_v23 i) (fun a => match a with
    | ⟨0, _⟩ => by show (i 0).val = 0 + (i 0).val; omega
    | ⟨1, _⟩ => by show (i 1).val = 0 + (i 1).val; omega
    | ⟨2, _⟩ => by show (i 2).val = 0 + (i 2).val; omega)

def val_main_v24 : (⟨S256x1, .f32⟩ : BufTy).Contents (Elt F) :=
  shapeCast _ (val_main_v23 (F := F) x9) shapeCasts_S1x256x1_S256x1

abbrev idx_main_v24 := idx_shapeCasts_S1x256x1_S256x1

theorem val_main_v24_apply (i : S256x1.Idx) :
    val_main_v24 (F := F) x9 i = val_main_v23 (F := F) x9 (idx_main_v24 i) :=
  shapeCasts_S1x256x1_S256x1_apply _ i

def val_main_v25 : (⟨S100000x1, .f32⟩ : BufTy).Contents (Elt F) :=
  Host.dotGeneral dot_S100000x256_S256x1_S100000x1_1_0_0_1_n_n none (val_main_v20 (F := F) x0 x5 x6 x7 x8) (val_main_v24 (F := F) x9)

abbrev lidx_main_v25 := lidx_xw

abbrev ridx_main_v25 := ridx_xw

def val_main_v26 : (⟨S1x1, .f32⟩ : BufTy).Contents (Elt F) :=
  extractStridedSlice S1x1 ![0, 0] (x10) slices_S4x1_S1x1_0_0

abbrev idx_main_v26 (i : S1x1.Idx) : S4x1.Idx := fun a => match a with
  | ⟨0, _⟩ => ⟨(i 0).val, by have h0 : (i 0).val < 1 := (i 0).isLt; show (i 0).val < 4; omega⟩
  | ⟨1, _⟩ => ⟨(i 1).val, (i 1).isLt⟩

theorem val_main_v26_apply (i : S1x1.Idx) :
    val_main_v26 (F := F) x10 i = x10 (idx_main_v26 i) := by
  unfold val_main_v26
  exact extractStridedSlice_apply ![0, 0] x10 slices_S4x1_S1x1_0_0 i (idx_main_v26 i) (fun a => match a with
    | ⟨0, _⟩ => by show (i 0).val = 0 + (i 0).val; omega
    | ⟨1, _⟩ => by show (i 1).val = 0 + (i 1).val; omega)

def val_main_v27 : (⟨S1, .f32⟩ : BufTy).Contents (Elt F) :=
  shapeCast _ (val_main_v26 (F := F) x10) shapeCasts_S1x1_S1

abbrev idx_main_v27 := idx_shapeCasts_S1x1_S1

theorem val_main_v27_apply (i : S1.Idx) :
    val_main_v27 (F := F) x10 i = val_main_v26 (F := F) x10 (idx_main_v27 i) :=
  shapeCasts_S1x1_S1_apply _ i

def val_main_v28 : (⟨S1x1, .f32⟩ : BufTy).Contents (Elt F) :=
  broadcastInDim S1x1 ![1] bcast_S1_S1x1_1 (val_main_v27 (F := F) x10)

abbrev idx_main_v28 := idx_bcast_S1_S1x1_1

theorem val_main_v28_apply (i : S1x1.Idx) :
    val_main_v28 (F := F) x10 i = val_main_v27 (F := F) x10 (idx_main_v28 i) :=
  bcast_S1_S1x1_1_apply _ i

def val_main_v29 : (⟨S100000x1, .f32⟩ : BufTy).Contents (Elt F) :=
  broadcastInDim S100000x1 ![0, 1] bcast_S1x1_S100000x1_0_1 (val_main_v28 (F := F) x10)

abbrev idx_main_v29 := idx_bcast_S1x1_S100000x1_0_1

theorem val_main_v29_apply (i : S100000x1.Idx) :
    val_main_v29 (F := F) x10 i = val_main_v28 (F := F) x10 (idx_main_v29 i) :=
  bcast_S1x1_S100000x1_0_1_apply _ i

def val_main_v30 : (⟨S100000x1, .f32⟩ : BufTy).Contents (Elt F) :=
  addf (val_main_v25 (F := F) x0 x5 x6 x7 x8 x9) (val_main_v29 (F := F) x10)

theorem val_main_v30_apply (i : S100000x1.Idx) :
    val_main_v30 (F := F) x0 x5 x6 x7 x8 x9 x10 i = FloatOps.addf (val_main_v25 (F := F) x0 x5 x6 x7 x8 x9 i) (val_main_v29 (F := F) x10 i) := rfl

def val_main_v31 : (⟨S1x256x1, .f32⟩ : BufTy).Contents (Elt F) :=
  extractStridedSlice S1x256x1 ![0, 0, 0] (x11) slices_S4x256x1_S1x256x1_0_0_0

abbrev idx_main_v31 (i : S1x256x1.Idx) : S4x256x1.Idx := fun a => match a with
  | ⟨0, _⟩ => ⟨(i 0).val, by have h0 : (i 0).val < 1 := (i 0).isLt; show (i 0).val < 4; omega⟩
  | ⟨1, _⟩ => ⟨(i 1).val, (i 1).isLt⟩
  | ⟨2, _⟩ => ⟨(i 2).val, (i 2).isLt⟩

theorem val_main_v31_apply (i : S1x256x1.Idx) :
    val_main_v31 (F := F) x11 i = x11 (idx_main_v31 i) := by
  unfold val_main_v31
  exact extractStridedSlice_apply ![0, 0, 0] x11 slices_S4x256x1_S1x256x1_0_0_0 i (idx_main_v31 i) (fun a => match a with
    | ⟨0, _⟩ => by show (i 0).val = 0 + (i 0).val; omega
    | ⟨1, _⟩ => by show (i 1).val = 0 + (i 1).val; omega
    | ⟨2, _⟩ => by show (i 2).val = 0 + (i 2).val; omega)

def val_main_v32 : (⟨S256x1, .f32⟩ : BufTy).Contents (Elt F) :=
  shapeCast _ (val_main_v31 (F := F) x11) shapeCasts_S1x256x1_S256x1

abbrev idx_main_v32 := idx_shapeCasts_S1x256x1_S256x1

theorem val_main_v32_apply (i : S256x1.Idx) :
    val_main_v32 (F := F) x11 i = val_main_v31 (F := F) x11 (idx_main_v32 i) :=
  shapeCasts_S1x256x1_S256x1_apply _ i

def val_main_v33 : (⟨S100000x1, .f32⟩ : BufTy).Contents (Elt F) :=
  Host.dotGeneral dot_S100000x256_S256x1_S100000x1_1_0_0_1_n_n none (x0) (val_main_v32 (F := F) x11)

abbrev lidx_main_v33 := lidx_xw

abbrev ridx_main_v33 := ridx_xw

def val_main_v34 : (⟨S100000x1, .f32⟩ : BufTy).Contents (Elt F) :=
  addf (val_main_v30 (F := F) x0 x5 x6 x7 x8 x9 x10) (val_main_v33 (F := F) x0 x11)

theorem val_main_v34_apply (i : S100000x1.Idx) :
    val_main_v34 (F := F) x0 x5 x6 x7 x8 x9 x10 x11 i = FloatOps.addf (val_main_v30 (F := F) x0 x5 x6 x7 x8 x9 x10 i) (val_main_v33 (F := F) x0 x11 i) := rfl

def val_main_v35 : (⟨S1x1, .f32⟩ : BufTy).Contents (Elt F) :=
  extractStridedSlice S1x1 ![0, 0] (x12) slices_S4x1_S1x1_0_0

abbrev idx_main_v35 (i : S1x1.Idx) : S4x1.Idx := fun a => match a with
  | ⟨0, _⟩ => ⟨(i 0).val, by have h0 : (i 0).val < 1 := (i 0).isLt; show (i 0).val < 4; omega⟩
  | ⟨1, _⟩ => ⟨(i 1).val, (i 1).isLt⟩

theorem val_main_v35_apply (i : S1x1.Idx) :
    val_main_v35 (F := F) x12 i = x12 (idx_main_v35 i) := by
  unfold val_main_v35
  exact extractStridedSlice_apply ![0, 0] x12 slices_S4x1_S1x1_0_0 i (idx_main_v35 i) (fun a => match a with
    | ⟨0, _⟩ => by show (i 0).val = 0 + (i 0).val; omega
    | ⟨1, _⟩ => by show (i 1).val = 0 + (i 1).val; omega)

def val_main_v36 : (⟨S1, .f32⟩ : BufTy).Contents (Elt F) :=
  shapeCast _ (val_main_v35 (F := F) x12) shapeCasts_S1x1_S1

abbrev idx_main_v36 := idx_shapeCasts_S1x1_S1

theorem val_main_v36_apply (i : S1.Idx) :
    val_main_v36 (F := F) x12 i = val_main_v35 (F := F) x12 (idx_main_v36 i) :=
  shapeCasts_S1x1_S1_apply _ i

def val_main_v37 : (⟨S1x1, .f32⟩ : BufTy).Contents (Elt F) :=
  broadcastInDim S1x1 ![1] bcast_S1_S1x1_1 (val_main_v36 (F := F) x12)

abbrev idx_main_v37 := idx_bcast_S1_S1x1_1

theorem val_main_v37_apply (i : S1x1.Idx) :
    val_main_v37 (F := F) x12 i = val_main_v36 (F := F) x12 (idx_main_v37 i) :=
  bcast_S1_S1x1_1_apply _ i

def val_main_v38 : (⟨S100000x1, .f32⟩ : BufTy).Contents (Elt F) :=
  broadcastInDim S100000x1 ![0, 1] bcast_S1x1_S100000x1_0_1 (val_main_v37 (F := F) x12)

abbrev idx_main_v38 := idx_bcast_S1x1_S100000x1_0_1

theorem val_main_v38_apply (i : S100000x1.Idx) :
    val_main_v38 (F := F) x12 i = val_main_v37 (F := F) x12 (idx_main_v38 i) :=
  bcast_S1x1_S100000x1_0_1_apply _ i

def val_main_v39 : (⟨S100000x1, .f32⟩ : BufTy).Contents (Elt F) :=
  addf (val_main_v34 (F := F) x0 x5 x6 x7 x8 x9 x10 x11) (val_main_v38 (F := F) x12)

theorem val_main_v39_apply (i : S100000x1.Idx) :
    val_main_v39 (F := F) x0 x5 x6 x7 x8 x9 x10 x11 x12 i = FloatOps.addf (val_main_v34 (F := F) x0 x5 x6 x7 x8 x9 x10 x11 i) (val_main_v38 (F := F) x12 i) := rfl

def val_main_c : (⟨S_, .i32⟩ : BufTy).Contents (Elt F) :=
  constantI S_ 32 0#32

theorem val_main_c_apply (i : S_.Idx) :
    val_main_c (F := F) i = 0#32 := rfl

def val_main_v40 : (⟨S100000, .i32⟩ : BufTy).Contents (Elt F) :=
  broadcastInDim S100000 ![] bcast_S_S100000 (val_main_c (F := F))

abbrev idx_main_v40 (i : S100000.Idx) : S_.Idx := fun a => a.elim0

theorem val_main_v40_apply (i : S100000.Idx) :
    val_main_v40 (F := F) i = val_main_c (F := F) (idx_main_v40 i) := by
  unfold val_main_v40
  generalize val_main_c (F := F) = y
  exact broadcastInDim_apply _ bcast_S_S100000 y i (idx_main_v40 i) (fun a => a.elim0)

def val_main_v41 : (⟨S100000, .i1⟩ : BufTy).Contents (Elt F) :=
  cmpi .eq (x1) (val_main_v40 (F := F))

theorem val_main_v41_apply (i : S100000.Idx) :
    val_main_v41 (F := F) x1 i = IntOp.cmpi .eq (x1 i) (val_main_v40 (F := F) i) := rfl

def val_main_v42 : (⟨S100000x1, .i1⟩ : BufTy).Contents (Elt F) :=
  broadcastInDim S100000x1 ![0] bcast_S100000_S100000x1_0 (val_main_v41 (F := F) x1)

abbrev idx_main_v42 := idx_bcast_S100000_S100000x1_0

theorem val_main_v42_apply (i : S100000x1.Idx) :
    val_main_v42 (F := F) x1 i = val_main_v41 (F := F) x1 (idx_main_v42 i) :=
  bcast_S100000_S100000x1_0_apply _ i

def val_main_v43_0 : (⟨S100000x1, .f32⟩ : BufTy).Contents (Elt F) :=
  select (val_main_v42 (F := F) x1) (val_main_v39 (F := F) x0 x5 x6 x7 x8 x9 x10 x11 x12) (val_main_v0 (F := F))

theorem val_main_v43_0_apply (i : S100000x1.Idx) :
    val_main_v43_0 (F := F) x0 x1 x5 x6 x7 x8 x9 x10 x11 x12 i = Scalar.select (val_main_v42 (F := F) x1 i) (val_main_v39 (F := F) x0 x5 x6 x7 x8 x9 x10 x11 x12 i) (val_main_v0 (F := F) i) := rfl

def val_main_call0_cst : (⟨S_, .f32⟩ : BufTy).Contents (Elt F) :=
  constant S_ .f32 0x00000000#32

theorem val_main_call0_cst_apply (i : S_.Idx) :
    val_main_call0_cst (F := F) i = FloatOps.ofBits .f32 0x00000000#32 := rfl

def val_main_v43_1 : (⟨S100000x1, .f32⟩ : BufTy).Contents (Elt F) :=
  broadcastInDim S100000x1 ![] bcast_S_S100000x1 (val_main_call0_cst (F := F))

abbrev idx_main_v43_1 (i : S100000x1.Idx) : S_.Idx := fun a => a.elim0

theorem val_main_v43_1_apply (i : S100000x1.Idx) :
    val_main_v43_1 (F := F) i = val_main_call0_cst (F := F) (idx_main_v43_1 i) := by
  unfold val_main_v43_1
  generalize val_main_call0_cst (F := F) = y
  exact broadcastInDim_apply _ bcast_S_S100000x1 y i (idx_main_v43_1 i) (fun a => a.elim0)

def val_main_v44 : (⟨S1x256x256, .f32⟩ : BufTy).Contents (Elt F) :=
  extractStridedSlice S1x256x256 ![1, 0, 0] (x5) slices_S4x256x256_S1x256x256_1_0_0

abbrev idx_main_v44 (i : S1x256x256.Idx) : S4x256x256.Idx := fun a => match a with
  | ⟨0, _⟩ => ⟨1 + (i 0).val, by have h0 : (i 0).val < 1 := (i 0).isLt; show 1 + (i 0).val < 4; omega⟩
  | ⟨1, _⟩ => ⟨(i 1).val, (i 1).isLt⟩
  | ⟨2, _⟩ => ⟨(i 2).val, (i 2).isLt⟩

theorem val_main_v44_apply (i : S1x256x256.Idx) :
    val_main_v44 (F := F) x5 i = x5 (idx_main_v44 i) := by
  unfold val_main_v44
  exact extractStridedSlice_apply ![1, 0, 0] x5 slices_S4x256x256_S1x256x256_1_0_0 i (idx_main_v44 i) (fun a => match a with
    | ⟨0, _⟩ => by show 1 + (i 0).val = 1 + (i 0).val; omega
    | ⟨1, _⟩ => by show (i 1).val = 0 + (i 1).val; omega
    | ⟨2, _⟩ => by show (i 2).val = 0 + (i 2).val; omega)

def val_main_v45 : (⟨S256x256, .f32⟩ : BufTy).Contents (Elt F) :=
  shapeCast _ (val_main_v44 (F := F) x5) shapeCasts_S1x256x256_S256x256

abbrev idx_main_v45 := idx_shapeCasts_S1x256x256_S256x256

theorem val_main_v45_apply (i : S256x256.Idx) :
    val_main_v45 (F := F) x5 i = val_main_v44 (F := F) x5 (idx_main_v45 i) :=
  shapeCasts_S1x256x256_S256x256_apply _ i

def val_main_v46 : (⟨S100000x256, .f32⟩ : BufTy).Contents (Elt F) :=
  Host.dotGeneral dot_S100000x256_S256x256_S100000x256_1_0_0_1_n_n none (x0) (val_main_v45 (F := F) x5)

abbrev lidx_main_v46 := lidx_xW

abbrev ridx_main_v46 := ridx_xW

def val_main_v47 : (⟨S1x256, .f32⟩ : BufTy).Contents (Elt F) :=
  extractStridedSlice S1x256 ![1, 0] (x6) slices_S4x256_S1x256_1_0

abbrev idx_main_v47 (i : S1x256.Idx) : S4x256.Idx := fun a => match a with
  | ⟨0, _⟩ => ⟨1 + (i 0).val, by have h0 : (i 0).val < 1 := (i 0).isLt; show 1 + (i 0).val < 4; omega⟩
  | ⟨1, _⟩ => ⟨(i 1).val, (i 1).isLt⟩

theorem val_main_v47_apply (i : S1x256.Idx) :
    val_main_v47 (F := F) x6 i = x6 (idx_main_v47 i) := by
  unfold val_main_v47
  exact extractStridedSlice_apply ![1, 0] x6 slices_S4x256_S1x256_1_0 i (idx_main_v47 i) (fun a => match a with
    | ⟨0, _⟩ => by show 1 + (i 0).val = 1 + (i 0).val; omega
    | ⟨1, _⟩ => by show (i 1).val = 0 + (i 1).val; omega)

def val_main_v48 : (⟨S256, .f32⟩ : BufTy).Contents (Elt F) :=
  shapeCast _ (val_main_v47 (F := F) x6) shapeCasts_S1x256_S256

abbrev idx_main_v48 := idx_shapeCasts_S1x256_S256

theorem val_main_v48_apply (i : S256.Idx) :
    val_main_v48 (F := F) x6 i = val_main_v47 (F := F) x6 (idx_main_v48 i) :=
  shapeCasts_S1x256_S256_apply _ i

def val_main_v49 : (⟨S1x256, .f32⟩ : BufTy).Contents (Elt F) :=
  broadcastInDim S1x256 ![1] bcast_S256_S1x256_1 (val_main_v48 (F := F) x6)

abbrev idx_main_v49 := idx_bcast_S256_S1x256_1

theorem val_main_v49_apply (i : S1x256.Idx) :
    val_main_v49 (F := F) x6 i = val_main_v48 (F := F) x6 (idx_main_v49 i) :=
  bcast_S256_S1x256_1_apply _ i

def val_main_v50 : (⟨S100000x256, .f32⟩ : BufTy).Contents (Elt F) :=
  broadcastInDim S100000x256 ![0, 1] bcast_S1x256_S100000x256_0_1 (val_main_v49 (F := F) x6)

abbrev idx_main_v50 := idx_bcast_S1x256_S100000x256_0_1

theorem val_main_v50_apply (i : S100000x256.Idx) :
    val_main_v50 (F := F) x6 i = val_main_v49 (F := F) x6 (idx_main_v50 i) :=
  bcast_S1x256_S100000x256_0_1_apply _ i

def val_main_v51 : (⟨S100000x256, .f32⟩ : BufTy).Contents (Elt F) :=
  addf (val_main_v46 (F := F) x0 x5) (val_main_v50 (F := F) x6)

theorem val_main_v51_apply (i : S100000x256.Idx) :
    val_main_v51 (F := F) x0 x5 x6 i = FloatOps.addf (val_main_v46 (F := F) x0 x5 i) (val_main_v50 (F := F) x6 i) := rfl

def val_main_v52 : (⟨S100000x256, .f32⟩ : BufTy).Contents (Elt F) :=
  Host.tanh (val_main_v51 (F := F) x0 x5 x6)

theorem val_main_v52_apply (i : S100000x256.Idx) :
    val_main_v52 (F := F) x0 x5 x6 i = FloatOps.hostUnary .tanh (val_main_v51 (F := F) x0 x5 x6 i) := rfl

def val_main_cst_2 : (⟨S_, .f32⟩ : BufTy).Contents (Elt F) :=
  constant S_ .f32 0x3F800000#32

theorem val_main_cst_2_apply (i : S_.Idx) :
    val_main_cst_2 (F := F) i = FloatOps.ofBits .f32 0x3F800000#32 := rfl

def val_main_v53 : (⟨S100000x256, .f32⟩ : BufTy).Contents (Elt F) :=
  broadcastInDim S100000x256 ![] bcast_S_S100000x256 (val_main_cst_2 (F := F))

abbrev idx_main_v53 := idx_bcast_S_S100000x256

theorem val_main_v53_apply (i : S100000x256.Idx) :
    val_main_v53 (F := F) i = val_main_cst_2 (F := F) (idx_main_v53 i) :=
  bcast_S_S100000x256_apply _ i

def val_main_v54 : (⟨S100000x256, .f32⟩ : BufTy).Contents (Elt F) :=
  subf (val_main_v53 (F := F)) (val_main_v52 (F := F) x0 x5 x6)

theorem val_main_v54_apply (i : S100000x256.Idx) :
    val_main_v54 (F := F) x0 x5 x6 i = FloatOps.subf (val_main_v53 (F := F) i) (val_main_v52 (F := F) x0 x5 x6 i) := rfl

def val_main_v55 : (⟨S1x256x256, .f32⟩ : BufTy).Contents (Elt F) :=
  extractStridedSlice S1x256x256 ![1, 0, 0] (x7) slices_S4x256x256_S1x256x256_1_0_0

abbrev idx_main_v55 (i : S1x256x256.Idx) : S4x256x256.Idx := fun a => match a with
  | ⟨0, _⟩ => ⟨1 + (i 0).val, by have h0 : (i 0).val < 1 := (i 0).isLt; show 1 + (i 0).val < 4; omega⟩
  | ⟨1, _⟩ => ⟨(i 1).val, (i 1).isLt⟩
  | ⟨2, _⟩ => ⟨(i 2).val, (i 2).isLt⟩

theorem val_main_v55_apply (i : S1x256x256.Idx) :
    val_main_v55 (F := F) x7 i = x7 (idx_main_v55 i) := by
  unfold val_main_v55
  exact extractStridedSlice_apply ![1, 0, 0] x7 slices_S4x256x256_S1x256x256_1_0_0 i (idx_main_v55 i) (fun a => match a with
    | ⟨0, _⟩ => by show 1 + (i 0).val = 1 + (i 0).val; omega
    | ⟨1, _⟩ => by show (i 1).val = 0 + (i 1).val; omega
    | ⟨2, _⟩ => by show (i 2).val = 0 + (i 2).val; omega)

def val_main_v56 : (⟨S256x256, .f32⟩ : BufTy).Contents (Elt F) :=
  shapeCast _ (val_main_v55 (F := F) x7) shapeCasts_S1x256x256_S256x256

abbrev idx_main_v56 := idx_shapeCasts_S1x256x256_S256x256

theorem val_main_v56_apply (i : S256x256.Idx) :
    val_main_v56 (F := F) x7 i = val_main_v55 (F := F) x7 (idx_main_v56 i) :=
  shapeCasts_S1x256x256_S256x256_apply _ i

def val_main_v57 : (⟨S100000x256, .f32⟩ : BufTy).Contents (Elt F) :=
  Host.dotGeneral dot_S100000x256_S256x256_S100000x256_1_0_0_1_n_n none (val_main_v52 (F := F) x0 x5 x6) (val_main_v56 (F := F) x7)

abbrev lidx_main_v57 := lidx_xW

abbrev ridx_main_v57 := ridx_xW

def val_main_v58 : (⟨S1x256, .f32⟩ : BufTy).Contents (Elt F) :=
  extractStridedSlice S1x256 ![1, 0] (x8) slices_S4x256_S1x256_1_0

abbrev idx_main_v58 (i : S1x256.Idx) : S4x256.Idx := fun a => match a with
  | ⟨0, _⟩ => ⟨1 + (i 0).val, by have h0 : (i 0).val < 1 := (i 0).isLt; show 1 + (i 0).val < 4; omega⟩
  | ⟨1, _⟩ => ⟨(i 1).val, (i 1).isLt⟩

theorem val_main_v58_apply (i : S1x256.Idx) :
    val_main_v58 (F := F) x8 i = x8 (idx_main_v58 i) := by
  unfold val_main_v58
  exact extractStridedSlice_apply ![1, 0] x8 slices_S4x256_S1x256_1_0 i (idx_main_v58 i) (fun a => match a with
    | ⟨0, _⟩ => by show 1 + (i 0).val = 1 + (i 0).val; omega
    | ⟨1, _⟩ => by show (i 1).val = 0 + (i 1).val; omega)

def val_main_v59 : (⟨S256, .f32⟩ : BufTy).Contents (Elt F) :=
  shapeCast _ (val_main_v58 (F := F) x8) shapeCasts_S1x256_S256

abbrev idx_main_v59 := idx_shapeCasts_S1x256_S256

theorem val_main_v59_apply (i : S256.Idx) :
    val_main_v59 (F := F) x8 i = val_main_v58 (F := F) x8 (idx_main_v59 i) :=
  shapeCasts_S1x256_S256_apply _ i

def val_main_v60 : (⟨S1x256, .f32⟩ : BufTy).Contents (Elt F) :=
  broadcastInDim S1x256 ![1] bcast_S256_S1x256_1 (val_main_v59 (F := F) x8)

abbrev idx_main_v60 := idx_bcast_S256_S1x256_1

theorem val_main_v60_apply (i : S1x256.Idx) :
    val_main_v60 (F := F) x8 i = val_main_v59 (F := F) x8 (idx_main_v60 i) :=
  bcast_S256_S1x256_1_apply _ i

def val_main_v61 : (⟨S100000x256, .f32⟩ : BufTy).Contents (Elt F) :=
  broadcastInDim S100000x256 ![0, 1] bcast_S1x256_S100000x256_0_1 (val_main_v60 (F := F) x8)

abbrev idx_main_v61 := idx_bcast_S1x256_S100000x256_0_1

theorem val_main_v61_apply (i : S100000x256.Idx) :
    val_main_v61 (F := F) x8 i = val_main_v60 (F := F) x8 (idx_main_v61 i) :=
  bcast_S1x256_S100000x256_0_1_apply _ i

def val_main_v62 : (⟨S100000x256, .f32⟩ : BufTy).Contents (Elt F) :=
  addf (val_main_v57 (F := F) x0 x5 x6 x7) (val_main_v61 (F := F) x8)

theorem val_main_v62_apply (i : S100000x256.Idx) :
    val_main_v62 (F := F) x0 x5 x6 x7 x8 i = FloatOps.addf (val_main_v57 (F := F) x0 x5 x6 x7 i) (val_main_v61 (F := F) x8 i) := rfl

def val_main_v63 : (⟨S100000x256, .f32⟩ : BufTy).Contents (Elt F) :=
  Host.tanh (val_main_v62 (F := F) x0 x5 x6 x7 x8)

theorem val_main_v63_apply (i : S100000x256.Idx) :
    val_main_v63 (F := F) x0 x5 x6 x7 x8 i = FloatOps.hostUnary .tanh (val_main_v62 (F := F) x0 x5 x6 x7 x8 i) := rfl

def val_main_cst_3 : (⟨S_, .f32⟩ : BufTy).Contents (Elt F) :=
  constant S_ .f32 0x3F800000#32

theorem val_main_cst_3_apply (i : S_.Idx) :
    val_main_cst_3 (F := F) i = FloatOps.ofBits .f32 0x3F800000#32 := rfl

def val_main_v64 : (⟨S100000x256, .f32⟩ : BufTy).Contents (Elt F) :=
  broadcastInDim S100000x256 ![] bcast_S_S100000x256 (val_main_cst_3 (F := F))

abbrev idx_main_v64 := idx_bcast_S_S100000x256

theorem val_main_v64_apply (i : S100000x256.Idx) :
    val_main_v64 (F := F) i = val_main_cst_3 (F := F) (idx_main_v64 i) :=
  bcast_S_S100000x256_apply _ i

def val_main_v65 : (⟨S100000x256, .f32⟩ : BufTy).Contents (Elt F) :=
  subf (val_main_v64 (F := F)) (val_main_v63 (F := F) x0 x5 x6 x7 x8)

theorem val_main_v65_apply (i : S100000x256.Idx) :
    val_main_v65 (F := F) x0 x5 x6 x7 x8 i = FloatOps.subf (val_main_v64 (F := F) i) (val_main_v63 (F := F) x0 x5 x6 x7 x8 i) := rfl

def val_main_v66 : (⟨S1x256x1, .f32⟩ : BufTy).Contents (Elt F) :=
  extractStridedSlice S1x256x1 ![1, 0, 0] (x9) slices_S4x256x1_S1x256x1_1_0_0

abbrev idx_main_v66 (i : S1x256x1.Idx) : S4x256x1.Idx := fun a => match a with
  | ⟨0, _⟩ => ⟨1 + (i 0).val, by have h0 : (i 0).val < 1 := (i 0).isLt; show 1 + (i 0).val < 4; omega⟩
  | ⟨1, _⟩ => ⟨(i 1).val, (i 1).isLt⟩
  | ⟨2, _⟩ => ⟨(i 2).val, (i 2).isLt⟩

theorem val_main_v66_apply (i : S1x256x1.Idx) :
    val_main_v66 (F := F) x9 i = x9 (idx_main_v66 i) := by
  unfold val_main_v66
  exact extractStridedSlice_apply ![1, 0, 0] x9 slices_S4x256x1_S1x256x1_1_0_0 i (idx_main_v66 i) (fun a => match a with
    | ⟨0, _⟩ => by show 1 + (i 0).val = 1 + (i 0).val; omega
    | ⟨1, _⟩ => by show (i 1).val = 0 + (i 1).val; omega
    | ⟨2, _⟩ => by show (i 2).val = 0 + (i 2).val; omega)

def val_main_v67 : (⟨S256x1, .f32⟩ : BufTy).Contents (Elt F) :=
  shapeCast _ (val_main_v66 (F := F) x9) shapeCasts_S1x256x1_S256x1

abbrev idx_main_v67 := idx_shapeCasts_S1x256x1_S256x1

theorem val_main_v67_apply (i : S256x1.Idx) :
    val_main_v67 (F := F) x9 i = val_main_v66 (F := F) x9 (idx_main_v67 i) :=
  shapeCasts_S1x256x1_S256x1_apply _ i

def val_main_v68 : (⟨S100000x1, .f32⟩ : BufTy).Contents (Elt F) :=
  Host.dotGeneral dot_S100000x256_S256x1_S100000x1_1_0_0_1_n_n none (val_main_v63 (F := F) x0 x5 x6 x7 x8) (val_main_v67 (F := F) x9)

abbrev lidx_main_v68 := lidx_xw

abbrev ridx_main_v68 := ridx_xw

def val_main_v69 : (⟨S1x1, .f32⟩ : BufTy).Contents (Elt F) :=
  extractStridedSlice S1x1 ![1, 0] (x10) slices_S4x1_S1x1_1_0

abbrev idx_main_v69 (i : S1x1.Idx) : S4x1.Idx := fun a => match a with
  | ⟨0, _⟩ => ⟨1 + (i 0).val, by have h0 : (i 0).val < 1 := (i 0).isLt; show 1 + (i 0).val < 4; omega⟩
  | ⟨1, _⟩ => ⟨(i 1).val, (i 1).isLt⟩

theorem val_main_v69_apply (i : S1x1.Idx) :
    val_main_v69 (F := F) x10 i = x10 (idx_main_v69 i) := by
  unfold val_main_v69
  exact extractStridedSlice_apply ![1, 0] x10 slices_S4x1_S1x1_1_0 i (idx_main_v69 i) (fun a => match a with
    | ⟨0, _⟩ => by show 1 + (i 0).val = 1 + (i 0).val; omega
    | ⟨1, _⟩ => by show (i 1).val = 0 + (i 1).val; omega)

def val_main_v70 : (⟨S1, .f32⟩ : BufTy).Contents (Elt F) :=
  shapeCast _ (val_main_v69 (F := F) x10) shapeCasts_S1x1_S1

abbrev idx_main_v70 := idx_shapeCasts_S1x1_S1

theorem val_main_v70_apply (i : S1.Idx) :
    val_main_v70 (F := F) x10 i = val_main_v69 (F := F) x10 (idx_main_v70 i) :=
  shapeCasts_S1x1_S1_apply _ i

def val_main_v71 : (⟨S1x1, .f32⟩ : BufTy).Contents (Elt F) :=
  broadcastInDim S1x1 ![1] bcast_S1_S1x1_1 (val_main_v70 (F := F) x10)

abbrev idx_main_v71 := idx_bcast_S1_S1x1_1

theorem val_main_v71_apply (i : S1x1.Idx) :
    val_main_v71 (F := F) x10 i = val_main_v70 (F := F) x10 (idx_main_v71 i) :=
  bcast_S1_S1x1_1_apply _ i

def val_main_v72 : (⟨S100000x1, .f32⟩ : BufTy).Contents (Elt F) :=
  broadcastInDim S100000x1 ![0, 1] bcast_S1x1_S100000x1_0_1 (val_main_v71 (F := F) x10)

abbrev idx_main_v72 := idx_bcast_S1x1_S100000x1_0_1

theorem val_main_v72_apply (i : S100000x1.Idx) :
    val_main_v72 (F := F) x10 i = val_main_v71 (F := F) x10 (idx_main_v72 i) :=
  bcast_S1x1_S100000x1_0_1_apply _ i

def val_main_v73 : (⟨S100000x1, .f32⟩ : BufTy).Contents (Elt F) :=
  addf (val_main_v68 (F := F) x0 x5 x6 x7 x8 x9) (val_main_v72 (F := F) x10)

theorem val_main_v73_apply (i : S100000x1.Idx) :
    val_main_v73 (F := F) x0 x5 x6 x7 x8 x9 x10 i = FloatOps.addf (val_main_v68 (F := F) x0 x5 x6 x7 x8 x9 i) (val_main_v72 (F := F) x10 i) := rfl

def val_main_v74 : (⟨S1x256x1, .f32⟩ : BufTy).Contents (Elt F) :=
  extractStridedSlice S1x256x1 ![1, 0, 0] (x11) slices_S4x256x1_S1x256x1_1_0_0

abbrev idx_main_v74 (i : S1x256x1.Idx) : S4x256x1.Idx := fun a => match a with
  | ⟨0, _⟩ => ⟨1 + (i 0).val, by have h0 : (i 0).val < 1 := (i 0).isLt; show 1 + (i 0).val < 4; omega⟩
  | ⟨1, _⟩ => ⟨(i 1).val, (i 1).isLt⟩
  | ⟨2, _⟩ => ⟨(i 2).val, (i 2).isLt⟩

theorem val_main_v74_apply (i : S1x256x1.Idx) :
    val_main_v74 (F := F) x11 i = x11 (idx_main_v74 i) := by
  unfold val_main_v74
  exact extractStridedSlice_apply ![1, 0, 0] x11 slices_S4x256x1_S1x256x1_1_0_0 i (idx_main_v74 i) (fun a => match a with
    | ⟨0, _⟩ => by show 1 + (i 0).val = 1 + (i 0).val; omega
    | ⟨1, _⟩ => by show (i 1).val = 0 + (i 1).val; omega
    | ⟨2, _⟩ => by show (i 2).val = 0 + (i 2).val; omega)

def val_main_v75 : (⟨S256x1, .f32⟩ : BufTy).Contents (Elt F) :=
  shapeCast _ (val_main_v74 (F := F) x11) shapeCasts_S1x256x1_S256x1

abbrev idx_main_v75 := idx_shapeCasts_S1x256x1_S256x1

theorem val_main_v75_apply (i : S256x1.Idx) :
    val_main_v75 (F := F) x11 i = val_main_v74 (F := F) x11 (idx_main_v75 i) :=
  shapeCasts_S1x256x1_S256x1_apply _ i

def val_main_v76 : (⟨S100000x1, .f32⟩ : BufTy).Contents (Elt F) :=
  Host.dotGeneral dot_S100000x256_S256x1_S100000x1_1_0_0_1_n_n none (x0) (val_main_v75 (F := F) x11)

abbrev lidx_main_v76 := lidx_xw

abbrev ridx_main_v76 := ridx_xw

def val_main_v77 : (⟨S100000x1, .f32⟩ : BufTy).Contents (Elt F) :=
  addf (val_main_v73 (F := F) x0 x5 x6 x7 x8 x9 x10) (val_main_v76 (F := F) x0 x11)

theorem val_main_v77_apply (i : S100000x1.Idx) :
    val_main_v77 (F := F) x0 x5 x6 x7 x8 x9 x10 x11 i = FloatOps.addf (val_main_v73 (F := F) x0 x5 x6 x7 x8 x9 x10 i) (val_main_v76 (F := F) x0 x11 i) := rfl

def val_main_v78 : (⟨S1x1, .f32⟩ : BufTy).Contents (Elt F) :=
  extractStridedSlice S1x1 ![1, 0] (x12) slices_S4x1_S1x1_1_0

abbrev idx_main_v78 (i : S1x1.Idx) : S4x1.Idx := fun a => match a with
  | ⟨0, _⟩ => ⟨1 + (i 0).val, by have h0 : (i 0).val < 1 := (i 0).isLt; show 1 + (i 0).val < 4; omega⟩
  | ⟨1, _⟩ => ⟨(i 1).val, (i 1).isLt⟩

theorem val_main_v78_apply (i : S1x1.Idx) :
    val_main_v78 (F := F) x12 i = x12 (idx_main_v78 i) := by
  unfold val_main_v78
  exact extractStridedSlice_apply ![1, 0] x12 slices_S4x1_S1x1_1_0 i (idx_main_v78 i) (fun a => match a with
    | ⟨0, _⟩ => by show 1 + (i 0).val = 1 + (i 0).val; omega
    | ⟨1, _⟩ => by show (i 1).val = 0 + (i 1).val; omega)

def val_main_v79 : (⟨S1, .f32⟩ : BufTy).Contents (Elt F) :=
  shapeCast _ (val_main_v78 (F := F) x12) shapeCasts_S1x1_S1

abbrev idx_main_v79 := idx_shapeCasts_S1x1_S1

theorem val_main_v79_apply (i : S1.Idx) :
    val_main_v79 (F := F) x12 i = val_main_v78 (F := F) x12 (idx_main_v79 i) :=
  shapeCasts_S1x1_S1_apply _ i

def val_main_v80 : (⟨S1x1, .f32⟩ : BufTy).Contents (Elt F) :=
  broadcastInDim S1x1 ![1] bcast_S1_S1x1_1 (val_main_v79 (F := F) x12)

abbrev idx_main_v80 := idx_bcast_S1_S1x1_1

theorem val_main_v80_apply (i : S1x1.Idx) :
    val_main_v80 (F := F) x12 i = val_main_v79 (F := F) x12 (idx_main_v80 i) :=
  bcast_S1_S1x1_1_apply _ i

def val_main_v81 : (⟨S100000x1, .f32⟩ : BufTy).Contents (Elt F) :=
  broadcastInDim S100000x1 ![0, 1] bcast_S1x1_S100000x1_0_1 (val_main_v80 (F := F) x12)

abbrev idx_main_v81 := idx_bcast_S1x1_S100000x1_0_1

theorem val_main_v81_apply (i : S100000x1.Idx) :
    val_main_v81 (F := F) x12 i = val_main_v80 (F := F) x12 (idx_main_v81 i) :=
  bcast_S1x1_S100000x1_0_1_apply _ i

def val_main_v82 : (⟨S100000x1, .f32⟩ : BufTy).Contents (Elt F) :=
  addf (val_main_v77 (F := F) x0 x5 x6 x7 x8 x9 x10 x11) (val_main_v81 (F := F) x12)

theorem val_main_v82_apply (i : S100000x1.Idx) :
    val_main_v82 (F := F) x0 x5 x6 x7 x8 x9 x10 x11 x12 i = FloatOps.addf (val_main_v77 (F := F) x0 x5 x6 x7 x8 x9 x10 x11 i) (val_main_v81 (F := F) x12 i) := rfl

def val_main_c_4 : (⟨S_, .i32⟩ : BufTy).Contents (Elt F) :=
  constantI S_ 32 1#32

theorem val_main_c_4_apply (i : S_.Idx) :
    val_main_c_4 (F := F) i = 1#32 := rfl

def val_main_v83 : (⟨S100000, .i32⟩ : BufTy).Contents (Elt F) :=
  broadcastInDim S100000 ![] bcast_S_S100000 (val_main_c_4 (F := F))

abbrev idx_main_v83 := idx_bcast_S_S100000

theorem val_main_v83_apply (i : S100000.Idx) :
    val_main_v83 (F := F) i = val_main_c_4 (F := F) (idx_main_v83 i) :=
  bcast_S_S100000_apply _ i

def val_main_v84 : (⟨S100000, .i1⟩ : BufTy).Contents (Elt F) :=
  cmpi .eq (x1) (val_main_v83 (F := F))

theorem val_main_v84_apply (i : S100000.Idx) :
    val_main_v84 (F := F) x1 i = IntOp.cmpi .eq (x1 i) (val_main_v83 (F := F) i) := rfl

def val_main_v85 : (⟨S100000x1, .i1⟩ : BufTy).Contents (Elt F) :=
  broadcastInDim S100000x1 ![0] bcast_S100000_S100000x1_0 (val_main_v84 (F := F) x1)

abbrev idx_main_v85 := idx_bcast_S100000_S100000x1_0

theorem val_main_v85_apply (i : S100000x1.Idx) :
    val_main_v85 (F := F) x1 i = val_main_v84 (F := F) x1 (idx_main_v85 i) :=
  bcast_S100000_S100000x1_0_apply _ i

def val_main_v86 : (⟨S100000x1, .f32⟩ : BufTy).Contents (Elt F) :=
  select (val_main_v85 (F := F) x1) (val_main_v82 (F := F) x0 x5 x6 x7 x8 x9 x10 x11 x12) (val_main_v43_0 (F := F) x0 x1 x5 x6 x7 x8 x9 x10 x11 x12)

theorem val_main_v86_apply (i : S100000x1.Idx) :
    val_main_v86 (F := F) x0 x1 x5 x6 x7 x8 x9 x10 x11 x12 i = Scalar.select (val_main_v85 (F := F) x1 i) (val_main_v82 (F := F) x0 x5 x6 x7 x8 x9 x10 x11 x12 i) (val_main_v43_0 (F := F) x0 x1 x5 x6 x7 x8 x9 x10 x11 x12 i) := rfl

def val_main_v87 : (⟨S1x256x256, .f32⟩ : BufTy).Contents (Elt F) :=
  extractStridedSlice S1x256x256 ![2, 0, 0] (x5) slices_S4x256x256_S1x256x256_2_0_0

abbrev idx_main_v87 (i : S1x256x256.Idx) : S4x256x256.Idx := fun a => match a with
  | ⟨0, _⟩ => ⟨2 + (i 0).val, by have h0 : (i 0).val < 1 := (i 0).isLt; show 2 + (i 0).val < 4; omega⟩
  | ⟨1, _⟩ => ⟨(i 1).val, (i 1).isLt⟩
  | ⟨2, _⟩ => ⟨(i 2).val, (i 2).isLt⟩

theorem val_main_v87_apply (i : S1x256x256.Idx) :
    val_main_v87 (F := F) x5 i = x5 (idx_main_v87 i) := by
  unfold val_main_v87
  exact extractStridedSlice_apply ![2, 0, 0] x5 slices_S4x256x256_S1x256x256_2_0_0 i (idx_main_v87 i) (fun a => match a with
    | ⟨0, _⟩ => by show 2 + (i 0).val = 2 + (i 0).val; omega
    | ⟨1, _⟩ => by show (i 1).val = 0 + (i 1).val; omega
    | ⟨2, _⟩ => by show (i 2).val = 0 + (i 2).val; omega)

def val_main_v88 : (⟨S256x256, .f32⟩ : BufTy).Contents (Elt F) :=
  shapeCast _ (val_main_v87 (F := F) x5) shapeCasts_S1x256x256_S256x256

abbrev idx_main_v88 := idx_shapeCasts_S1x256x256_S256x256

theorem val_main_v88_apply (i : S256x256.Idx) :
    val_main_v88 (F := F) x5 i = val_main_v87 (F := F) x5 (idx_main_v88 i) :=
  shapeCasts_S1x256x256_S256x256_apply _ i

def val_main_v89 : (⟨S100000x256, .f32⟩ : BufTy).Contents (Elt F) :=
  Host.dotGeneral dot_S100000x256_S256x256_S100000x256_1_0_0_1_n_n none (x0) (val_main_v88 (F := F) x5)

abbrev lidx_main_v89 := lidx_xW

abbrev ridx_main_v89 := ridx_xW

def val_main_v90 : (⟨S1x256, .f32⟩ : BufTy).Contents (Elt F) :=
  extractStridedSlice S1x256 ![2, 0] (x6) slices_S4x256_S1x256_2_0

abbrev idx_main_v90 (i : S1x256.Idx) : S4x256.Idx := fun a => match a with
  | ⟨0, _⟩ => ⟨2 + (i 0).val, by have h0 : (i 0).val < 1 := (i 0).isLt; show 2 + (i 0).val < 4; omega⟩
  | ⟨1, _⟩ => ⟨(i 1).val, (i 1).isLt⟩

theorem val_main_v90_apply (i : S1x256.Idx) :
    val_main_v90 (F := F) x6 i = x6 (idx_main_v90 i) := by
  unfold val_main_v90
  exact extractStridedSlice_apply ![2, 0] x6 slices_S4x256_S1x256_2_0 i (idx_main_v90 i) (fun a => match a with
    | ⟨0, _⟩ => by show 2 + (i 0).val = 2 + (i 0).val; omega
    | ⟨1, _⟩ => by show (i 1).val = 0 + (i 1).val; omega)

def val_main_v91 : (⟨S256, .f32⟩ : BufTy).Contents (Elt F) :=
  shapeCast _ (val_main_v90 (F := F) x6) shapeCasts_S1x256_S256

abbrev idx_main_v91 := idx_shapeCasts_S1x256_S256

theorem val_main_v91_apply (i : S256.Idx) :
    val_main_v91 (F := F) x6 i = val_main_v90 (F := F) x6 (idx_main_v91 i) :=
  shapeCasts_S1x256_S256_apply _ i

def val_main_v92 : (⟨S1x256, .f32⟩ : BufTy).Contents (Elt F) :=
  broadcastInDim S1x256 ![1] bcast_S256_S1x256_1 (val_main_v91 (F := F) x6)

abbrev idx_main_v92 := idx_bcast_S256_S1x256_1

theorem val_main_v92_apply (i : S1x256.Idx) :
    val_main_v92 (F := F) x6 i = val_main_v91 (F := F) x6 (idx_main_v92 i) :=
  bcast_S256_S1x256_1_apply _ i

def val_main_v93 : (⟨S100000x256, .f32⟩ : BufTy).Contents (Elt F) :=
  broadcastInDim S100000x256 ![0, 1] bcast_S1x256_S100000x256_0_1 (val_main_v92 (F := F) x6)

abbrev idx_main_v93 := idx_bcast_S1x256_S100000x256_0_1

theorem val_main_v93_apply (i : S100000x256.Idx) :
    val_main_v93 (F := F) x6 i = val_main_v92 (F := F) x6 (idx_main_v93 i) :=
  bcast_S1x256_S100000x256_0_1_apply _ i

def val_main_v94 : (⟨S100000x256, .f32⟩ : BufTy).Contents (Elt F) :=
  addf (val_main_v89 (F := F) x0 x5) (val_main_v93 (F := F) x6)

theorem val_main_v94_apply (i : S100000x256.Idx) :
    val_main_v94 (F := F) x0 x5 x6 i = FloatOps.addf (val_main_v89 (F := F) x0 x5 i) (val_main_v93 (F := F) x6 i) := rfl

def val_main_v95 : (⟨S100000x256, .f32⟩ : BufTy).Contents (Elt F) :=
  Host.tanh (val_main_v94 (F := F) x0 x5 x6)

theorem val_main_v95_apply (i : S100000x256.Idx) :
    val_main_v95 (F := F) x0 x5 x6 i = FloatOps.hostUnary .tanh (val_main_v94 (F := F) x0 x5 x6 i) := rfl

def val_main_cst_5 : (⟨S_, .f32⟩ : BufTy).Contents (Elt F) :=
  constant S_ .f32 0x3F800000#32

theorem val_main_cst_5_apply (i : S_.Idx) :
    val_main_cst_5 (F := F) i = FloatOps.ofBits .f32 0x3F800000#32 := rfl

def val_main_v96 : (⟨S100000x256, .f32⟩ : BufTy).Contents (Elt F) :=
  broadcastInDim S100000x256 ![] bcast_S_S100000x256 (val_main_cst_5 (F := F))

abbrev idx_main_v96 := idx_bcast_S_S100000x256

theorem val_main_v96_apply (i : S100000x256.Idx) :
    val_main_v96 (F := F) i = val_main_cst_5 (F := F) (idx_main_v96 i) :=
  bcast_S_S100000x256_apply _ i

def val_main_v97 : (⟨S100000x256, .f32⟩ : BufTy).Contents (Elt F) :=
  subf (val_main_v96 (F := F)) (val_main_v95 (F := F) x0 x5 x6)

theorem val_main_v97_apply (i : S100000x256.Idx) :
    val_main_v97 (F := F) x0 x5 x6 i = FloatOps.subf (val_main_v96 (F := F) i) (val_main_v95 (F := F) x0 x5 x6 i) := rfl

def val_main_v98 : (⟨S1x256x256, .f32⟩ : BufTy).Contents (Elt F) :=
  extractStridedSlice S1x256x256 ![2, 0, 0] (x7) slices_S4x256x256_S1x256x256_2_0_0

abbrev idx_main_v98 (i : S1x256x256.Idx) : S4x256x256.Idx := fun a => match a with
  | ⟨0, _⟩ => ⟨2 + (i 0).val, by have h0 : (i 0).val < 1 := (i 0).isLt; show 2 + (i 0).val < 4; omega⟩
  | ⟨1, _⟩ => ⟨(i 1).val, (i 1).isLt⟩
  | ⟨2, _⟩ => ⟨(i 2).val, (i 2).isLt⟩

theorem val_main_v98_apply (i : S1x256x256.Idx) :
    val_main_v98 (F := F) x7 i = x7 (idx_main_v98 i) := by
  unfold val_main_v98
  exact extractStridedSlice_apply ![2, 0, 0] x7 slices_S4x256x256_S1x256x256_2_0_0 i (idx_main_v98 i) (fun a => match a with
    | ⟨0, _⟩ => by show 2 + (i 0).val = 2 + (i 0).val; omega
    | ⟨1, _⟩ => by show (i 1).val = 0 + (i 1).val; omega
    | ⟨2, _⟩ => by show (i 2).val = 0 + (i 2).val; omega)

def val_main_v99 : (⟨S256x256, .f32⟩ : BufTy).Contents (Elt F) :=
  shapeCast _ (val_main_v98 (F := F) x7) shapeCasts_S1x256x256_S256x256

abbrev idx_main_v99 := idx_shapeCasts_S1x256x256_S256x256

theorem val_main_v99_apply (i : S256x256.Idx) :
    val_main_v99 (F := F) x7 i = val_main_v98 (F := F) x7 (idx_main_v99 i) :=
  shapeCasts_S1x256x256_S256x256_apply _ i

def val_main_v100 : (⟨S100000x256, .f32⟩ : BufTy).Contents (Elt F) :=
  Host.dotGeneral dot_S100000x256_S256x256_S100000x256_1_0_0_1_n_n none (val_main_v95 (F := F) x0 x5 x6) (val_main_v99 (F := F) x7)

abbrev lidx_main_v100 := lidx_xW

abbrev ridx_main_v100 := ridx_xW

def val_main_v101 : (⟨S1x256, .f32⟩ : BufTy).Contents (Elt F) :=
  extractStridedSlice S1x256 ![2, 0] (x8) slices_S4x256_S1x256_2_0

abbrev idx_main_v101 (i : S1x256.Idx) : S4x256.Idx := fun a => match a with
  | ⟨0, _⟩ => ⟨2 + (i 0).val, by have h0 : (i 0).val < 1 := (i 0).isLt; show 2 + (i 0).val < 4; omega⟩
  | ⟨1, _⟩ => ⟨(i 1).val, (i 1).isLt⟩

theorem val_main_v101_apply (i : S1x256.Idx) :
    val_main_v101 (F := F) x8 i = x8 (idx_main_v101 i) := by
  unfold val_main_v101
  exact extractStridedSlice_apply ![2, 0] x8 slices_S4x256_S1x256_2_0 i (idx_main_v101 i) (fun a => match a with
    | ⟨0, _⟩ => by show 2 + (i 0).val = 2 + (i 0).val; omega
    | ⟨1, _⟩ => by show (i 1).val = 0 + (i 1).val; omega)

def val_main_v102 : (⟨S256, .f32⟩ : BufTy).Contents (Elt F) :=
  shapeCast _ (val_main_v101 (F := F) x8) shapeCasts_S1x256_S256

abbrev idx_main_v102 := idx_shapeCasts_S1x256_S256

theorem val_main_v102_apply (i : S256.Idx) :
    val_main_v102 (F := F) x8 i = val_main_v101 (F := F) x8 (idx_main_v102 i) :=
  shapeCasts_S1x256_S256_apply _ i

def val_main_v103 : (⟨S1x256, .f32⟩ : BufTy).Contents (Elt F) :=
  broadcastInDim S1x256 ![1] bcast_S256_S1x256_1 (val_main_v102 (F := F) x8)

abbrev idx_main_v103 := idx_bcast_S256_S1x256_1

theorem val_main_v103_apply (i : S1x256.Idx) :
    val_main_v103 (F := F) x8 i = val_main_v102 (F := F) x8 (idx_main_v103 i) :=
  bcast_S256_S1x256_1_apply _ i

def val_main_v104 : (⟨S100000x256, .f32⟩ : BufTy).Contents (Elt F) :=
  broadcastInDim S100000x256 ![0, 1] bcast_S1x256_S100000x256_0_1 (val_main_v103 (F := F) x8)

abbrev idx_main_v104 := idx_bcast_S1x256_S100000x256_0_1

theorem val_main_v104_apply (i : S100000x256.Idx) :
    val_main_v104 (F := F) x8 i = val_main_v103 (F := F) x8 (idx_main_v104 i) :=
  bcast_S1x256_S100000x256_0_1_apply _ i

def val_main_v105 : (⟨S100000x256, .f32⟩ : BufTy).Contents (Elt F) :=
  addf (val_main_v100 (F := F) x0 x5 x6 x7) (val_main_v104 (F := F) x8)

theorem val_main_v105_apply (i : S100000x256.Idx) :
    val_main_v105 (F := F) x0 x5 x6 x7 x8 i = FloatOps.addf (val_main_v100 (F := F) x0 x5 x6 x7 i) (val_main_v104 (F := F) x8 i) := rfl

def val_main_v106 : (⟨S100000x256, .f32⟩ : BufTy).Contents (Elt F) :=
  Host.tanh (val_main_v105 (F := F) x0 x5 x6 x7 x8)

theorem val_main_v106_apply (i : S100000x256.Idx) :
    val_main_v106 (F := F) x0 x5 x6 x7 x8 i = FloatOps.hostUnary .tanh (val_main_v105 (F := F) x0 x5 x6 x7 x8 i) := rfl

def val_main_cst_6 : (⟨S_, .f32⟩ : BufTy).Contents (Elt F) :=
  constant S_ .f32 0x3F800000#32

theorem val_main_cst_6_apply (i : S_.Idx) :
    val_main_cst_6 (F := F) i = FloatOps.ofBits .f32 0x3F800000#32 := rfl

def val_main_v107 : (⟨S100000x256, .f32⟩ : BufTy).Contents (Elt F) :=
  broadcastInDim S100000x256 ![] bcast_S_S100000x256 (val_main_cst_6 (F := F))

abbrev idx_main_v107 := idx_bcast_S_S100000x256

theorem val_main_v107_apply (i : S100000x256.Idx) :
    val_main_v107 (F := F) i = val_main_cst_6 (F := F) (idx_main_v107 i) :=
  bcast_S_S100000x256_apply _ i

def val_main_v108 : (⟨S100000x256, .f32⟩ : BufTy).Contents (Elt F) :=
  subf (val_main_v107 (F := F)) (val_main_v106 (F := F) x0 x5 x6 x7 x8)

theorem val_main_v108_apply (i : S100000x256.Idx) :
    val_main_v108 (F := F) x0 x5 x6 x7 x8 i = FloatOps.subf (val_main_v107 (F := F) i) (val_main_v106 (F := F) x0 x5 x6 x7 x8 i) := rfl

def val_main_v109 : (⟨S1x256x1, .f32⟩ : BufTy).Contents (Elt F) :=
  extractStridedSlice S1x256x1 ![2, 0, 0] (x9) slices_S4x256x1_S1x256x1_2_0_0

abbrev idx_main_v109 (i : S1x256x1.Idx) : S4x256x1.Idx := fun a => match a with
  | ⟨0, _⟩ => ⟨2 + (i 0).val, by have h0 : (i 0).val < 1 := (i 0).isLt; show 2 + (i 0).val < 4; omega⟩
  | ⟨1, _⟩ => ⟨(i 1).val, (i 1).isLt⟩
  | ⟨2, _⟩ => ⟨(i 2).val, (i 2).isLt⟩

theorem val_main_v109_apply (i : S1x256x1.Idx) :
    val_main_v109 (F := F) x9 i = x9 (idx_main_v109 i) := by
  unfold val_main_v109
  exact extractStridedSlice_apply ![2, 0, 0] x9 slices_S4x256x1_S1x256x1_2_0_0 i (idx_main_v109 i) (fun a => match a with
    | ⟨0, _⟩ => by show 2 + (i 0).val = 2 + (i 0).val; omega
    | ⟨1, _⟩ => by show (i 1).val = 0 + (i 1).val; omega
    | ⟨2, _⟩ => by show (i 2).val = 0 + (i 2).val; omega)

def val_main_v110 : (⟨S256x1, .f32⟩ : BufTy).Contents (Elt F) :=
  shapeCast _ (val_main_v109 (F := F) x9) shapeCasts_S1x256x1_S256x1

abbrev idx_main_v110 := idx_shapeCasts_S1x256x1_S256x1

theorem val_main_v110_apply (i : S256x1.Idx) :
    val_main_v110 (F := F) x9 i = val_main_v109 (F := F) x9 (idx_main_v110 i) :=
  shapeCasts_S1x256x1_S256x1_apply _ i

def val_main_v111 : (⟨S100000x1, .f32⟩ : BufTy).Contents (Elt F) :=
  Host.dotGeneral dot_S100000x256_S256x1_S100000x1_1_0_0_1_n_n none (val_main_v106 (F := F) x0 x5 x6 x7 x8) (val_main_v110 (F := F) x9)

abbrev lidx_main_v111 := lidx_xw

abbrev ridx_main_v111 := ridx_xw

def val_main_v112 : (⟨S1x1, .f32⟩ : BufTy).Contents (Elt F) :=
  extractStridedSlice S1x1 ![2, 0] (x10) slices_S4x1_S1x1_2_0

abbrev idx_main_v112 (i : S1x1.Idx) : S4x1.Idx := fun a => match a with
  | ⟨0, _⟩ => ⟨2 + (i 0).val, by have h0 : (i 0).val < 1 := (i 0).isLt; show 2 + (i 0).val < 4; omega⟩
  | ⟨1, _⟩ => ⟨(i 1).val, (i 1).isLt⟩

theorem val_main_v112_apply (i : S1x1.Idx) :
    val_main_v112 (F := F) x10 i = x10 (idx_main_v112 i) := by
  unfold val_main_v112
  exact extractStridedSlice_apply ![2, 0] x10 slices_S4x1_S1x1_2_0 i (idx_main_v112 i) (fun a => match a with
    | ⟨0, _⟩ => by show 2 + (i 0).val = 2 + (i 0).val; omega
    | ⟨1, _⟩ => by show (i 1).val = 0 + (i 1).val; omega)

def val_main_v113 : (⟨S1, .f32⟩ : BufTy).Contents (Elt F) :=
  shapeCast _ (val_main_v112 (F := F) x10) shapeCasts_S1x1_S1

abbrev idx_main_v113 := idx_shapeCasts_S1x1_S1

theorem val_main_v113_apply (i : S1.Idx) :
    val_main_v113 (F := F) x10 i = val_main_v112 (F := F) x10 (idx_main_v113 i) :=
  shapeCasts_S1x1_S1_apply _ i

def val_main_v114 : (⟨S1x1, .f32⟩ : BufTy).Contents (Elt F) :=
  broadcastInDim S1x1 ![1] bcast_S1_S1x1_1 (val_main_v113 (F := F) x10)

abbrev idx_main_v114 := idx_bcast_S1_S1x1_1

theorem val_main_v114_apply (i : S1x1.Idx) :
    val_main_v114 (F := F) x10 i = val_main_v113 (F := F) x10 (idx_main_v114 i) :=
  bcast_S1_S1x1_1_apply _ i

def val_main_v115 : (⟨S100000x1, .f32⟩ : BufTy).Contents (Elt F) :=
  broadcastInDim S100000x1 ![0, 1] bcast_S1x1_S100000x1_0_1 (val_main_v114 (F := F) x10)

abbrev idx_main_v115 := idx_bcast_S1x1_S100000x1_0_1

theorem val_main_v115_apply (i : S100000x1.Idx) :
    val_main_v115 (F := F) x10 i = val_main_v114 (F := F) x10 (idx_main_v115 i) :=
  bcast_S1x1_S100000x1_0_1_apply _ i

def val_main_v116 : (⟨S100000x1, .f32⟩ : BufTy).Contents (Elt F) :=
  addf (val_main_v111 (F := F) x0 x5 x6 x7 x8 x9) (val_main_v115 (F := F) x10)

theorem val_main_v116_apply (i : S100000x1.Idx) :
    val_main_v116 (F := F) x0 x5 x6 x7 x8 x9 x10 i = FloatOps.addf (val_main_v111 (F := F) x0 x5 x6 x7 x8 x9 i) (val_main_v115 (F := F) x10 i) := rfl

def val_main_v117 : (⟨S1x256x1, .f32⟩ : BufTy).Contents (Elt F) :=
  extractStridedSlice S1x256x1 ![2, 0, 0] (x11) slices_S4x256x1_S1x256x1_2_0_0

abbrev idx_main_v117 (i : S1x256x1.Idx) : S4x256x1.Idx := fun a => match a with
  | ⟨0, _⟩ => ⟨2 + (i 0).val, by have h0 : (i 0).val < 1 := (i 0).isLt; show 2 + (i 0).val < 4; omega⟩
  | ⟨1, _⟩ => ⟨(i 1).val, (i 1).isLt⟩
  | ⟨2, _⟩ => ⟨(i 2).val, (i 2).isLt⟩

theorem val_main_v117_apply (i : S1x256x1.Idx) :
    val_main_v117 (F := F) x11 i = x11 (idx_main_v117 i) := by
  unfold val_main_v117
  exact extractStridedSlice_apply ![2, 0, 0] x11 slices_S4x256x1_S1x256x1_2_0_0 i (idx_main_v117 i) (fun a => match a with
    | ⟨0, _⟩ => by show 2 + (i 0).val = 2 + (i 0).val; omega
    | ⟨1, _⟩ => by show (i 1).val = 0 + (i 1).val; omega
    | ⟨2, _⟩ => by show (i 2).val = 0 + (i 2).val; omega)

def val_main_v118 : (⟨S256x1, .f32⟩ : BufTy).Contents (Elt F) :=
  shapeCast _ (val_main_v117 (F := F) x11) shapeCasts_S1x256x1_S256x1

abbrev idx_main_v118 := idx_shapeCasts_S1x256x1_S256x1

theorem val_main_v118_apply (i : S256x1.Idx) :
    val_main_v118 (F := F) x11 i = val_main_v117 (F := F) x11 (idx_main_v118 i) :=
  shapeCasts_S1x256x1_S256x1_apply _ i

def val_main_v119 : (⟨S100000x1, .f32⟩ : BufTy).Contents (Elt F) :=
  Host.dotGeneral dot_S100000x256_S256x1_S100000x1_1_0_0_1_n_n none (x0) (val_main_v118 (F := F) x11)

abbrev lidx_main_v119 := lidx_xw

abbrev ridx_main_v119 := ridx_xw

def val_main_v120 : (⟨S100000x1, .f32⟩ : BufTy).Contents (Elt F) :=
  addf (val_main_v116 (F := F) x0 x5 x6 x7 x8 x9 x10) (val_main_v119 (F := F) x0 x11)

theorem val_main_v120_apply (i : S100000x1.Idx) :
    val_main_v120 (F := F) x0 x5 x6 x7 x8 x9 x10 x11 i = FloatOps.addf (val_main_v116 (F := F) x0 x5 x6 x7 x8 x9 x10 i) (val_main_v119 (F := F) x0 x11 i) := rfl

def val_main_v121 : (⟨S1x1, .f32⟩ : BufTy).Contents (Elt F) :=
  extractStridedSlice S1x1 ![2, 0] (x12) slices_S4x1_S1x1_2_0

abbrev idx_main_v121 (i : S1x1.Idx) : S4x1.Idx := fun a => match a with
  | ⟨0, _⟩ => ⟨2 + (i 0).val, by have h0 : (i 0).val < 1 := (i 0).isLt; show 2 + (i 0).val < 4; omega⟩
  | ⟨1, _⟩ => ⟨(i 1).val, (i 1).isLt⟩

theorem val_main_v121_apply (i : S1x1.Idx) :
    val_main_v121 (F := F) x12 i = x12 (idx_main_v121 i) := by
  unfold val_main_v121
  exact extractStridedSlice_apply ![2, 0] x12 slices_S4x1_S1x1_2_0 i (idx_main_v121 i) (fun a => match a with
    | ⟨0, _⟩ => by show 2 + (i 0).val = 2 + (i 0).val; omega
    | ⟨1, _⟩ => by show (i 1).val = 0 + (i 1).val; omega)

def val_main_v122 : (⟨S1, .f32⟩ : BufTy).Contents (Elt F) :=
  shapeCast _ (val_main_v121 (F := F) x12) shapeCasts_S1x1_S1

abbrev idx_main_v122 := idx_shapeCasts_S1x1_S1

theorem val_main_v122_apply (i : S1.Idx) :
    val_main_v122 (F := F) x12 i = val_main_v121 (F := F) x12 (idx_main_v122 i) :=
  shapeCasts_S1x1_S1_apply _ i

def val_main_v123 : (⟨S1x1, .f32⟩ : BufTy).Contents (Elt F) :=
  broadcastInDim S1x1 ![1] bcast_S1_S1x1_1 (val_main_v122 (F := F) x12)

abbrev idx_main_v123 := idx_bcast_S1_S1x1_1

theorem val_main_v123_apply (i : S1x1.Idx) :
    val_main_v123 (F := F) x12 i = val_main_v122 (F := F) x12 (idx_main_v123 i) :=
  bcast_S1_S1x1_1_apply _ i

def val_main_v124 : (⟨S100000x1, .f32⟩ : BufTy).Contents (Elt F) :=
  broadcastInDim S100000x1 ![0, 1] bcast_S1x1_S100000x1_0_1 (val_main_v123 (F := F) x12)

abbrev idx_main_v124 := idx_bcast_S1x1_S100000x1_0_1

theorem val_main_v124_apply (i : S100000x1.Idx) :
    val_main_v124 (F := F) x12 i = val_main_v123 (F := F) x12 (idx_main_v124 i) :=
  bcast_S1x1_S100000x1_0_1_apply _ i

def val_main_v125 : (⟨S100000x1, .f32⟩ : BufTy).Contents (Elt F) :=
  addf (val_main_v120 (F := F) x0 x5 x6 x7 x8 x9 x10 x11) (val_main_v124 (F := F) x12)

theorem val_main_v125_apply (i : S100000x1.Idx) :
    val_main_v125 (F := F) x0 x5 x6 x7 x8 x9 x10 x11 x12 i = FloatOps.addf (val_main_v120 (F := F) x0 x5 x6 x7 x8 x9 x10 x11 i) (val_main_v124 (F := F) x12 i) := rfl

def val_main_c_7 : (⟨S_, .i32⟩ : BufTy).Contents (Elt F) :=
  constantI S_ 32 2#32

theorem val_main_c_7_apply (i : S_.Idx) :
    val_main_c_7 (F := F) i = 2#32 := rfl

def val_main_v126 : (⟨S100000, .i32⟩ : BufTy).Contents (Elt F) :=
  broadcastInDim S100000 ![] bcast_S_S100000 (val_main_c_7 (F := F))

abbrev idx_main_v126 := idx_bcast_S_S100000

theorem val_main_v126_apply (i : S100000.Idx) :
    val_main_v126 (F := F) i = val_main_c_7 (F := F) (idx_main_v126 i) :=
  bcast_S_S100000_apply _ i

def val_main_v127 : (⟨S100000, .i1⟩ : BufTy).Contents (Elt F) :=
  cmpi .eq (x1) (val_main_v126 (F := F))

theorem val_main_v127_apply (i : S100000.Idx) :
    val_main_v127 (F := F) x1 i = IntOp.cmpi .eq (x1 i) (val_main_v126 (F := F) i) := rfl

def val_main_v128 : (⟨S100000x1, .i1⟩ : BufTy).Contents (Elt F) :=
  broadcastInDim S100000x1 ![0] bcast_S100000_S100000x1_0 (val_main_v127 (F := F) x1)

abbrev idx_main_v128 := idx_bcast_S100000_S100000x1_0

theorem val_main_v128_apply (i : S100000x1.Idx) :
    val_main_v128 (F := F) x1 i = val_main_v127 (F := F) x1 (idx_main_v128 i) :=
  bcast_S100000_S100000x1_0_apply _ i

def val_main_v129 : (⟨S100000x1, .f32⟩ : BufTy).Contents (Elt F) :=
  select (val_main_v128 (F := F) x1) (val_main_v125 (F := F) x0 x5 x6 x7 x8 x9 x10 x11 x12) (val_main_v86 (F := F) x0 x1 x5 x6 x7 x8 x9 x10 x11 x12)

theorem val_main_v129_apply (i : S100000x1.Idx) :
    val_main_v129 (F := F) x0 x1 x5 x6 x7 x8 x9 x10 x11 x12 i = Scalar.select (val_main_v128 (F := F) x1 i) (val_main_v125 (F := F) x0 x5 x6 x7 x8 x9 x10 x11 x12 i) (val_main_v86 (F := F) x0 x1 x5 x6 x7 x8 x9 x10 x11 x12 i) := rfl

def val_main_v130 : (⟨S1x256x256, .f32⟩ : BufTy).Contents (Elt F) :=
  extractStridedSlice S1x256x256 ![3, 0, 0] (x5) slices_S4x256x256_S1x256x256_3_0_0

abbrev idx_main_v130 (i : S1x256x256.Idx) : S4x256x256.Idx := fun a => match a with
  | ⟨0, _⟩ => ⟨3 + (i 0).val, by have h0 : (i 0).val < 1 := (i 0).isLt; show 3 + (i 0).val < 4; omega⟩
  | ⟨1, _⟩ => ⟨(i 1).val, (i 1).isLt⟩
  | ⟨2, _⟩ => ⟨(i 2).val, (i 2).isLt⟩

theorem val_main_v130_apply (i : S1x256x256.Idx) :
    val_main_v130 (F := F) x5 i = x5 (idx_main_v130 i) := by
  unfold val_main_v130
  exact extractStridedSlice_apply ![3, 0, 0] x5 slices_S4x256x256_S1x256x256_3_0_0 i (idx_main_v130 i) (fun a => match a with
    | ⟨0, _⟩ => by show 3 + (i 0).val = 3 + (i 0).val; omega
    | ⟨1, _⟩ => by show (i 1).val = 0 + (i 1).val; omega
    | ⟨2, _⟩ => by show (i 2).val = 0 + (i 2).val; omega)

def val_main_v131 : (⟨S256x256, .f32⟩ : BufTy).Contents (Elt F) :=
  shapeCast _ (val_main_v130 (F := F) x5) shapeCasts_S1x256x256_S256x256

abbrev idx_main_v131 := idx_shapeCasts_S1x256x256_S256x256

theorem val_main_v131_apply (i : S256x256.Idx) :
    val_main_v131 (F := F) x5 i = val_main_v130 (F := F) x5 (idx_main_v131 i) :=
  shapeCasts_S1x256x256_S256x256_apply _ i

def val_main_v132 : (⟨S100000x256, .f32⟩ : BufTy).Contents (Elt F) :=
  Host.dotGeneral dot_S100000x256_S256x256_S100000x256_1_0_0_1_n_n none (x0) (val_main_v131 (F := F) x5)

abbrev lidx_main_v132 := lidx_xW

abbrev ridx_main_v132 := ridx_xW

def val_main_v133 : (⟨S1x256, .f32⟩ : BufTy).Contents (Elt F) :=
  extractStridedSlice S1x256 ![3, 0] (x6) slices_S4x256_S1x256_3_0

abbrev idx_main_v133 (i : S1x256.Idx) : S4x256.Idx := fun a => match a with
  | ⟨0, _⟩ => ⟨3 + (i 0).val, by have h0 : (i 0).val < 1 := (i 0).isLt; show 3 + (i 0).val < 4; omega⟩
  | ⟨1, _⟩ => ⟨(i 1).val, (i 1).isLt⟩

theorem val_main_v133_apply (i : S1x256.Idx) :
    val_main_v133 (F := F) x6 i = x6 (idx_main_v133 i) := by
  unfold val_main_v133
  exact extractStridedSlice_apply ![3, 0] x6 slices_S4x256_S1x256_3_0 i (idx_main_v133 i) (fun a => match a with
    | ⟨0, _⟩ => by show 3 + (i 0).val = 3 + (i 0).val; omega
    | ⟨1, _⟩ => by show (i 1).val = 0 + (i 1).val; omega)

def val_main_v134 : (⟨S256, .f32⟩ : BufTy).Contents (Elt F) :=
  shapeCast _ (val_main_v133 (F := F) x6) shapeCasts_S1x256_S256

abbrev idx_main_v134 := idx_shapeCasts_S1x256_S256

theorem val_main_v134_apply (i : S256.Idx) :
    val_main_v134 (F := F) x6 i = val_main_v133 (F := F) x6 (idx_main_v134 i) :=
  shapeCasts_S1x256_S256_apply _ i

def val_main_v135 : (⟨S1x256, .f32⟩ : BufTy).Contents (Elt F) :=
  broadcastInDim S1x256 ![1] bcast_S256_S1x256_1 (val_main_v134 (F := F) x6)

abbrev idx_main_v135 := idx_bcast_S256_S1x256_1

theorem val_main_v135_apply (i : S1x256.Idx) :
    val_main_v135 (F := F) x6 i = val_main_v134 (F := F) x6 (idx_main_v135 i) :=
  bcast_S256_S1x256_1_apply _ i

def val_main_v136 : (⟨S100000x256, .f32⟩ : BufTy).Contents (Elt F) :=
  broadcastInDim S100000x256 ![0, 1] bcast_S1x256_S100000x256_0_1 (val_main_v135 (F := F) x6)

abbrev idx_main_v136 := idx_bcast_S1x256_S100000x256_0_1

theorem val_main_v136_apply (i : S100000x256.Idx) :
    val_main_v136 (F := F) x6 i = val_main_v135 (F := F) x6 (idx_main_v136 i) :=
  bcast_S1x256_S100000x256_0_1_apply _ i

def val_main_v137 : (⟨S100000x256, .f32⟩ : BufTy).Contents (Elt F) :=
  addf (val_main_v132 (F := F) x0 x5) (val_main_v136 (F := F) x6)

theorem val_main_v137_apply (i : S100000x256.Idx) :
    val_main_v137 (F := F) x0 x5 x6 i = FloatOps.addf (val_main_v132 (F := F) x0 x5 i) (val_main_v136 (F := F) x6 i) := rfl

def val_main_v138 : (⟨S100000x256, .f32⟩ : BufTy).Contents (Elt F) :=
  Host.tanh (val_main_v137 (F := F) x0 x5 x6)

theorem val_main_v138_apply (i : S100000x256.Idx) :
    val_main_v138 (F := F) x0 x5 x6 i = FloatOps.hostUnary .tanh (val_main_v137 (F := F) x0 x5 x6 i) := rfl

def val_main_cst_8 : (⟨S_, .f32⟩ : BufTy).Contents (Elt F) :=
  constant S_ .f32 0x3F800000#32

theorem val_main_cst_8_apply (i : S_.Idx) :
    val_main_cst_8 (F := F) i = FloatOps.ofBits .f32 0x3F800000#32 := rfl

def val_main_v139 : (⟨S100000x256, .f32⟩ : BufTy).Contents (Elt F) :=
  broadcastInDim S100000x256 ![] bcast_S_S100000x256 (val_main_cst_8 (F := F))

abbrev idx_main_v139 := idx_bcast_S_S100000x256

theorem val_main_v139_apply (i : S100000x256.Idx) :
    val_main_v139 (F := F) i = val_main_cst_8 (F := F) (idx_main_v139 i) :=
  bcast_S_S100000x256_apply _ i

def val_main_v140 : (⟨S100000x256, .f32⟩ : BufTy).Contents (Elt F) :=
  subf (val_main_v139 (F := F)) (val_main_v138 (F := F) x0 x5 x6)

theorem val_main_v140_apply (i : S100000x256.Idx) :
    val_main_v140 (F := F) x0 x5 x6 i = FloatOps.subf (val_main_v139 (F := F) i) (val_main_v138 (F := F) x0 x5 x6 i) := rfl

def val_main_v141 : (⟨S1x256x256, .f32⟩ : BufTy).Contents (Elt F) :=
  extractStridedSlice S1x256x256 ![3, 0, 0] (x7) slices_S4x256x256_S1x256x256_3_0_0

abbrev idx_main_v141 (i : S1x256x256.Idx) : S4x256x256.Idx := fun a => match a with
  | ⟨0, _⟩ => ⟨3 + (i 0).val, by have h0 : (i 0).val < 1 := (i 0).isLt; show 3 + (i 0).val < 4; omega⟩
  | ⟨1, _⟩ => ⟨(i 1).val, (i 1).isLt⟩
  | ⟨2, _⟩ => ⟨(i 2).val, (i 2).isLt⟩

theorem val_main_v141_apply (i : S1x256x256.Idx) :
    val_main_v141 (F := F) x7 i = x7 (idx_main_v141 i) := by
  unfold val_main_v141
  exact extractStridedSlice_apply ![3, 0, 0] x7 slices_S4x256x256_S1x256x256_3_0_0 i (idx_main_v141 i) (fun a => match a with
    | ⟨0, _⟩ => by show 3 + (i 0).val = 3 + (i 0).val; omega
    | ⟨1, _⟩ => by show (i 1).val = 0 + (i 1).val; omega
    | ⟨2, _⟩ => by show (i 2).val = 0 + (i 2).val; omega)

def val_main_v142 : (⟨S256x256, .f32⟩ : BufTy).Contents (Elt F) :=
  shapeCast _ (val_main_v141 (F := F) x7) shapeCasts_S1x256x256_S256x256

abbrev idx_main_v142 := idx_shapeCasts_S1x256x256_S256x256

theorem val_main_v142_apply (i : S256x256.Idx) :
    val_main_v142 (F := F) x7 i = val_main_v141 (F := F) x7 (idx_main_v142 i) :=
  shapeCasts_S1x256x256_S256x256_apply _ i

def val_main_v143 : (⟨S100000x256, .f32⟩ : BufTy).Contents (Elt F) :=
  Host.dotGeneral dot_S100000x256_S256x256_S100000x256_1_0_0_1_n_n none (val_main_v138 (F := F) x0 x5 x6) (val_main_v142 (F := F) x7)

abbrev lidx_main_v143 := lidx_xW

abbrev ridx_main_v143 := ridx_xW

def val_main_v144 : (⟨S1x256, .f32⟩ : BufTy).Contents (Elt F) :=
  extractStridedSlice S1x256 ![3, 0] (x8) slices_S4x256_S1x256_3_0

abbrev idx_main_v144 (i : S1x256.Idx) : S4x256.Idx := fun a => match a with
  | ⟨0, _⟩ => ⟨3 + (i 0).val, by have h0 : (i 0).val < 1 := (i 0).isLt; show 3 + (i 0).val < 4; omega⟩
  | ⟨1, _⟩ => ⟨(i 1).val, (i 1).isLt⟩

theorem val_main_v144_apply (i : S1x256.Idx) :
    val_main_v144 (F := F) x8 i = x8 (idx_main_v144 i) := by
  unfold val_main_v144
  exact extractStridedSlice_apply ![3, 0] x8 slices_S4x256_S1x256_3_0 i (idx_main_v144 i) (fun a => match a with
    | ⟨0, _⟩ => by show 3 + (i 0).val = 3 + (i 0).val; omega
    | ⟨1, _⟩ => by show (i 1).val = 0 + (i 1).val; omega)

def val_main_v145 : (⟨S256, .f32⟩ : BufTy).Contents (Elt F) :=
  shapeCast _ (val_main_v144 (F := F) x8) shapeCasts_S1x256_S256

abbrev idx_main_v145 := idx_shapeCasts_S1x256_S256

theorem val_main_v145_apply (i : S256.Idx) :
    val_main_v145 (F := F) x8 i = val_main_v144 (F := F) x8 (idx_main_v145 i) :=
  shapeCasts_S1x256_S256_apply _ i

def val_main_v146 : (⟨S1x256, .f32⟩ : BufTy).Contents (Elt F) :=
  broadcastInDim S1x256 ![1] bcast_S256_S1x256_1 (val_main_v145 (F := F) x8)

abbrev idx_main_v146 := idx_bcast_S256_S1x256_1

theorem val_main_v146_apply (i : S1x256.Idx) :
    val_main_v146 (F := F) x8 i = val_main_v145 (F := F) x8 (idx_main_v146 i) :=
  bcast_S256_S1x256_1_apply _ i

def val_main_v147 : (⟨S100000x256, .f32⟩ : BufTy).Contents (Elt F) :=
  broadcastInDim S100000x256 ![0, 1] bcast_S1x256_S100000x256_0_1 (val_main_v146 (F := F) x8)

abbrev idx_main_v147 := idx_bcast_S1x256_S100000x256_0_1

theorem val_main_v147_apply (i : S100000x256.Idx) :
    val_main_v147 (F := F) x8 i = val_main_v146 (F := F) x8 (idx_main_v147 i) :=
  bcast_S1x256_S100000x256_0_1_apply _ i

def val_main_v148 : (⟨S100000x256, .f32⟩ : BufTy).Contents (Elt F) :=
  addf (val_main_v143 (F := F) x0 x5 x6 x7) (val_main_v147 (F := F) x8)

theorem val_main_v148_apply (i : S100000x256.Idx) :
    val_main_v148 (F := F) x0 x5 x6 x7 x8 i = FloatOps.addf (val_main_v143 (F := F) x0 x5 x6 x7 i) (val_main_v147 (F := F) x8 i) := rfl

def val_main_v149 : (⟨S100000x256, .f32⟩ : BufTy).Contents (Elt F) :=
  Host.tanh (val_main_v148 (F := F) x0 x5 x6 x7 x8)

theorem val_main_v149_apply (i : S100000x256.Idx) :
    val_main_v149 (F := F) x0 x5 x6 x7 x8 i = FloatOps.hostUnary .tanh (val_main_v148 (F := F) x0 x5 x6 x7 x8 i) := rfl

def val_main_cst_9 : (⟨S_, .f32⟩ : BufTy).Contents (Elt F) :=
  constant S_ .f32 0x3F800000#32

theorem val_main_cst_9_apply (i : S_.Idx) :
    val_main_cst_9 (F := F) i = FloatOps.ofBits .f32 0x3F800000#32 := rfl

def val_main_v150 : (⟨S100000x256, .f32⟩ : BufTy).Contents (Elt F) :=
  broadcastInDim S100000x256 ![] bcast_S_S100000x256 (val_main_cst_9 (F := F))

abbrev idx_main_v150 := idx_bcast_S_S100000x256

theorem val_main_v150_apply (i : S100000x256.Idx) :
    val_main_v150 (F := F) i = val_main_cst_9 (F := F) (idx_main_v150 i) :=
  bcast_S_S100000x256_apply _ i

def val_main_v151 : (⟨S100000x256, .f32⟩ : BufTy).Contents (Elt F) :=
  subf (val_main_v150 (F := F)) (val_main_v149 (F := F) x0 x5 x6 x7 x8)

theorem val_main_v151_apply (i : S100000x256.Idx) :
    val_main_v151 (F := F) x0 x5 x6 x7 x8 i = FloatOps.subf (val_main_v150 (F := F) i) (val_main_v149 (F := F) x0 x5 x6 x7 x8 i) := rfl

def val_main_v152 : (⟨S1x256x1, .f32⟩ : BufTy).Contents (Elt F) :=
  extractStridedSlice S1x256x1 ![3, 0, 0] (x9) slices_S4x256x1_S1x256x1_3_0_0

abbrev idx_main_v152 (i : S1x256x1.Idx) : S4x256x1.Idx := fun a => match a with
  | ⟨0, _⟩ => ⟨3 + (i 0).val, by have h0 : (i 0).val < 1 := (i 0).isLt; show 3 + (i 0).val < 4; omega⟩
  | ⟨1, _⟩ => ⟨(i 1).val, (i 1).isLt⟩
  | ⟨2, _⟩ => ⟨(i 2).val, (i 2).isLt⟩

theorem val_main_v152_apply (i : S1x256x1.Idx) :
    val_main_v152 (F := F) x9 i = x9 (idx_main_v152 i) := by
  unfold val_main_v152
  exact extractStridedSlice_apply ![3, 0, 0] x9 slices_S4x256x1_S1x256x1_3_0_0 i (idx_main_v152 i) (fun a => match a with
    | ⟨0, _⟩ => by show 3 + (i 0).val = 3 + (i 0).val; omega
    | ⟨1, _⟩ => by show (i 1).val = 0 + (i 1).val; omega
    | ⟨2, _⟩ => by show (i 2).val = 0 + (i 2).val; omega)

def val_main_v153 : (⟨S256x1, .f32⟩ : BufTy).Contents (Elt F) :=
  shapeCast _ (val_main_v152 (F := F) x9) shapeCasts_S1x256x1_S256x1

abbrev idx_main_v153 := idx_shapeCasts_S1x256x1_S256x1

theorem val_main_v153_apply (i : S256x1.Idx) :
    val_main_v153 (F := F) x9 i = val_main_v152 (F := F) x9 (idx_main_v153 i) :=
  shapeCasts_S1x256x1_S256x1_apply _ i

def val_main_v154 : (⟨S100000x1, .f32⟩ : BufTy).Contents (Elt F) :=
  Host.dotGeneral dot_S100000x256_S256x1_S100000x1_1_0_0_1_n_n none (val_main_v149 (F := F) x0 x5 x6 x7 x8) (val_main_v153 (F := F) x9)

abbrev lidx_main_v154 := lidx_xw

abbrev ridx_main_v154 := ridx_xw

def val_main_v155 : (⟨S1x1, .f32⟩ : BufTy).Contents (Elt F) :=
  extractStridedSlice S1x1 ![3, 0] (x10) slices_S4x1_S1x1_3_0

abbrev idx_main_v155 (i : S1x1.Idx) : S4x1.Idx := fun a => match a with
  | ⟨0, _⟩ => ⟨3 + (i 0).val, by have h0 : (i 0).val < 1 := (i 0).isLt; show 3 + (i 0).val < 4; omega⟩
  | ⟨1, _⟩ => ⟨(i 1).val, (i 1).isLt⟩

theorem val_main_v155_apply (i : S1x1.Idx) :
    val_main_v155 (F := F) x10 i = x10 (idx_main_v155 i) := by
  unfold val_main_v155
  exact extractStridedSlice_apply ![3, 0] x10 slices_S4x1_S1x1_3_0 i (idx_main_v155 i) (fun a => match a with
    | ⟨0, _⟩ => by show 3 + (i 0).val = 3 + (i 0).val; omega
    | ⟨1, _⟩ => by show (i 1).val = 0 + (i 1).val; omega)

def val_main_v156 : (⟨S1, .f32⟩ : BufTy).Contents (Elt F) :=
  shapeCast _ (val_main_v155 (F := F) x10) shapeCasts_S1x1_S1

abbrev idx_main_v156 := idx_shapeCasts_S1x1_S1

theorem val_main_v156_apply (i : S1.Idx) :
    val_main_v156 (F := F) x10 i = val_main_v155 (F := F) x10 (idx_main_v156 i) :=
  shapeCasts_S1x1_S1_apply _ i

def val_main_v157 : (⟨S1x1, .f32⟩ : BufTy).Contents (Elt F) :=
  broadcastInDim S1x1 ![1] bcast_S1_S1x1_1 (val_main_v156 (F := F) x10)

abbrev idx_main_v157 := idx_bcast_S1_S1x1_1

theorem val_main_v157_apply (i : S1x1.Idx) :
    val_main_v157 (F := F) x10 i = val_main_v156 (F := F) x10 (idx_main_v157 i) :=
  bcast_S1_S1x1_1_apply _ i

def val_main_v158 : (⟨S100000x1, .f32⟩ : BufTy).Contents (Elt F) :=
  broadcastInDim S100000x1 ![0, 1] bcast_S1x1_S100000x1_0_1 (val_main_v157 (F := F) x10)

abbrev idx_main_v158 := idx_bcast_S1x1_S100000x1_0_1

theorem val_main_v158_apply (i : S100000x1.Idx) :
    val_main_v158 (F := F) x10 i = val_main_v157 (F := F) x10 (idx_main_v158 i) :=
  bcast_S1x1_S100000x1_0_1_apply _ i

def val_main_v159 : (⟨S100000x1, .f32⟩ : BufTy).Contents (Elt F) :=
  addf (val_main_v154 (F := F) x0 x5 x6 x7 x8 x9) (val_main_v158 (F := F) x10)

theorem val_main_v159_apply (i : S100000x1.Idx) :
    val_main_v159 (F := F) x0 x5 x6 x7 x8 x9 x10 i = FloatOps.addf (val_main_v154 (F := F) x0 x5 x6 x7 x8 x9 i) (val_main_v158 (F := F) x10 i) := rfl

def val_main_v160 : (⟨S1x256x1, .f32⟩ : BufTy).Contents (Elt F) :=
  extractStridedSlice S1x256x1 ![3, 0, 0] (x11) slices_S4x256x1_S1x256x1_3_0_0

abbrev idx_main_v160 (i : S1x256x1.Idx) : S4x256x1.Idx := fun a => match a with
  | ⟨0, _⟩ => ⟨3 + (i 0).val, by have h0 : (i 0).val < 1 := (i 0).isLt; show 3 + (i 0).val < 4; omega⟩
  | ⟨1, _⟩ => ⟨(i 1).val, (i 1).isLt⟩
  | ⟨2, _⟩ => ⟨(i 2).val, (i 2).isLt⟩

theorem val_main_v160_apply (i : S1x256x1.Idx) :
    val_main_v160 (F := F) x11 i = x11 (idx_main_v160 i) := by
  unfold val_main_v160
  exact extractStridedSlice_apply ![3, 0, 0] x11 slices_S4x256x1_S1x256x1_3_0_0 i (idx_main_v160 i) (fun a => match a with
    | ⟨0, _⟩ => by show 3 + (i 0).val = 3 + (i 0).val; omega
    | ⟨1, _⟩ => by show (i 1).val = 0 + (i 1).val; omega
    | ⟨2, _⟩ => by show (i 2).val = 0 + (i 2).val; omega)

def val_main_v161 : (⟨S256x1, .f32⟩ : BufTy).Contents (Elt F) :=
  shapeCast _ (val_main_v160 (F := F) x11) shapeCasts_S1x256x1_S256x1

abbrev idx_main_v161 := idx_shapeCasts_S1x256x1_S256x1

theorem val_main_v161_apply (i : S256x1.Idx) :
    val_main_v161 (F := F) x11 i = val_main_v160 (F := F) x11 (idx_main_v161 i) :=
  shapeCasts_S1x256x1_S256x1_apply _ i

def val_main_v162 : (⟨S100000x1, .f32⟩ : BufTy).Contents (Elt F) :=
  Host.dotGeneral dot_S100000x256_S256x1_S100000x1_1_0_0_1_n_n none (x0) (val_main_v161 (F := F) x11)

abbrev lidx_main_v162 := lidx_xw

abbrev ridx_main_v162 := ridx_xw

def val_main_v163 : (⟨S100000x1, .f32⟩ : BufTy).Contents (Elt F) :=
  addf (val_main_v159 (F := F) x0 x5 x6 x7 x8 x9 x10) (val_main_v162 (F := F) x0 x11)

theorem val_main_v163_apply (i : S100000x1.Idx) :
    val_main_v163 (F := F) x0 x5 x6 x7 x8 x9 x10 x11 i = FloatOps.addf (val_main_v159 (F := F) x0 x5 x6 x7 x8 x9 x10 i) (val_main_v162 (F := F) x0 x11 i) := rfl

def val_main_v164 : (⟨S1x1, .f32⟩ : BufTy).Contents (Elt F) :=
  extractStridedSlice S1x1 ![3, 0] (x12) slices_S4x1_S1x1_3_0

abbrev idx_main_v164 (i : S1x1.Idx) : S4x1.Idx := fun a => match a with
  | ⟨0, _⟩ => ⟨3 + (i 0).val, by have h0 : (i 0).val < 1 := (i 0).isLt; show 3 + (i 0).val < 4; omega⟩
  | ⟨1, _⟩ => ⟨(i 1).val, (i 1).isLt⟩

theorem val_main_v164_apply (i : S1x1.Idx) :
    val_main_v164 (F := F) x12 i = x12 (idx_main_v164 i) := by
  unfold val_main_v164
  exact extractStridedSlice_apply ![3, 0] x12 slices_S4x1_S1x1_3_0 i (idx_main_v164 i) (fun a => match a with
    | ⟨0, _⟩ => by show 3 + (i 0).val = 3 + (i 0).val; omega
    | ⟨1, _⟩ => by show (i 1).val = 0 + (i 1).val; omega)

def val_main_v165 : (⟨S1, .f32⟩ : BufTy).Contents (Elt F) :=
  shapeCast _ (val_main_v164 (F := F) x12) shapeCasts_S1x1_S1

abbrev idx_main_v165 := idx_shapeCasts_S1x1_S1

theorem val_main_v165_apply (i : S1.Idx) :
    val_main_v165 (F := F) x12 i = val_main_v164 (F := F) x12 (idx_main_v165 i) :=
  shapeCasts_S1x1_S1_apply _ i

def val_main_v166 : (⟨S1x1, .f32⟩ : BufTy).Contents (Elt F) :=
  broadcastInDim S1x1 ![1] bcast_S1_S1x1_1 (val_main_v165 (F := F) x12)

abbrev idx_main_v166 := idx_bcast_S1_S1x1_1

theorem val_main_v166_apply (i : S1x1.Idx) :
    val_main_v166 (F := F) x12 i = val_main_v165 (F := F) x12 (idx_main_v166 i) :=
  bcast_S1_S1x1_1_apply _ i

def val_main_v167 : (⟨S100000x1, .f32⟩ : BufTy).Contents (Elt F) :=
  broadcastInDim S100000x1 ![0, 1] bcast_S1x1_S100000x1_0_1 (val_main_v166 (F := F) x12)

abbrev idx_main_v167 := idx_bcast_S1x1_S100000x1_0_1

theorem val_main_v167_apply (i : S100000x1.Idx) :
    val_main_v167 (F := F) x12 i = val_main_v166 (F := F) x12 (idx_main_v167 i) :=
  bcast_S1x1_S100000x1_0_1_apply _ i

def val_main_v168 : (⟨S100000x1, .f32⟩ : BufTy).Contents (Elt F) :=
  addf (val_main_v163 (F := F) x0 x5 x6 x7 x8 x9 x10 x11) (val_main_v167 (F := F) x12)

theorem val_main_v168_apply (i : S100000x1.Idx) :
    val_main_v168 (F := F) x0 x5 x6 x7 x8 x9 x10 x11 x12 i = FloatOps.addf (val_main_v163 (F := F) x0 x5 x6 x7 x8 x9 x10 x11 i) (val_main_v167 (F := F) x12 i) := rfl

def val_main_c_10 : (⟨S_, .i32⟩ : BufTy).Contents (Elt F) :=
  constantI S_ 32 3#32

theorem val_main_c_10_apply (i : S_.Idx) :
    val_main_c_10 (F := F) i = 3#32 := rfl

def val_main_v169 : (⟨S100000, .i32⟩ : BufTy).Contents (Elt F) :=
  broadcastInDim S100000 ![] bcast_S_S100000 (val_main_c_10 (F := F))

abbrev idx_main_v169 := idx_bcast_S_S100000

theorem val_main_v169_apply (i : S100000.Idx) :
    val_main_v169 (F := F) i = val_main_c_10 (F := F) (idx_main_v169 i) :=
  bcast_S_S100000_apply _ i

def val_main_v170 : (⟨S100000, .i1⟩ : BufTy).Contents (Elt F) :=
  cmpi .eq (x1) (val_main_v169 (F := F))

theorem val_main_v170_apply (i : S100000.Idx) :
    val_main_v170 (F := F) x1 i = IntOp.cmpi .eq (x1 i) (val_main_v169 (F := F) i) := rfl

def val_main_v171 : (⟨S100000x1, .i1⟩ : BufTy).Contents (Elt F) :=
  broadcastInDim S100000x1 ![0] bcast_S100000_S100000x1_0 (val_main_v170 (F := F) x1)

abbrev idx_main_v171 := idx_bcast_S100000_S100000x1_0

theorem val_main_v171_apply (i : S100000x1.Idx) :
    val_main_v171 (F := F) x1 i = val_main_v170 (F := F) x1 (idx_main_v171 i) :=
  bcast_S100000_S100000x1_0_apply _ i

def val_main_v172 : (⟨S100000x1, .f32⟩ : BufTy).Contents (Elt F) :=
  select (val_main_v171 (F := F) x1) (val_main_v168 (F := F) x0 x5 x6 x7 x8 x9 x10 x11 x12) (val_main_v129 (F := F) x0 x1 x5 x6 x7 x8 x9 x10 x11 x12)

theorem val_main_v172_apply (i : S100000x1.Idx) :
    val_main_v172 (F := F) x0 x1 x5 x6 x7 x8 x9 x10 x11 x12 i = Scalar.select (val_main_v171 (F := F) x1 i) (val_main_v168 (F := F) x0 x5 x6 x7 x8 x9 x10 x11 x12 i) (val_main_v129 (F := F) x0 x1 x5 x6 x7 x8 x9 x10 x11 x12 i) := rfl

def val_main_cst_11 : (⟨S_, .f32⟩ : BufTy).Contents (Elt F) :=
  constant S_ .f32 0x00000000#32

theorem val_main_cst_11_apply (i : S_.Idx) :
    val_main_cst_11 (F := F) i = FloatOps.ofBits .f32 0x00000000#32 := rfl

def val_main_v173 : (⟨S1000x1, .f32⟩ : BufTy).Contents (Elt F) :=
  broadcastInDim S1000x1 ![] bcast_S_S1000x1 (val_main_cst_11 (F := F))

abbrev idx_main_v173 (i : S1000x1.Idx) : S_.Idx := fun a => a.elim0

theorem val_main_v173_apply (i : S1000x1.Idx) :
    val_main_v173 (F := F) i = val_main_cst_11 (F := F) (idx_main_v173 i) := by
  unfold val_main_v173
  generalize val_main_cst_11 (F := F) = y
  exact broadcastInDim_apply _ bcast_S_S1000x1 y i (idx_main_v173 i) (fun a => a.elim0)

def val_main_v174 : (⟨S100000x1, .i32⟩ : BufTy).Contents (Elt F) :=
  broadcastInDim S100000x1 ![0] bcast_S100000_S100000x1_0 (x2)

abbrev idx_main_v174 (i : S100000x1.Idx) : S100000.Idx := fun a => match a with
  | ⟨0, _⟩ => ⟨(i 0).val, (i 0).isLt⟩

theorem val_main_v174_apply (i : S100000x1.Idx) :
    val_main_v174 (F := F) x2 i = x2 (idx_main_v174 i) := by
  unfold val_main_v174
  exact broadcastInDim_apply _ bcast_S100000_S100000x1_0 x2 i (idx_main_v174 i) (fun a => match a with
    | ⟨0, _⟩ => by show (i 0).val = if (100000 : Nat) = 1 then 0 else (i 0).val; rw [if_neg (by decide)])

def val_main_v175 : (⟨S1000x1, .f32⟩ : BufTy).Contents (Elt F) :=
  Host.scatterAdd scatter_S1000x1_S100000x1_S100000x1_1_0_0_1 (val_main_v173 (F := F)) (val_main_v174 (F := F) x2) (val_main_v172 (F := F) x0 x1 x5 x6 x7 x8 x9 x10 x11 x12)

def val_main_cst_12 : (⟨S_, .f32⟩ : BufTy).Contents (Elt F) :=
  constant S_ .f32 0x3F800000#32

theorem val_main_cst_12_apply (i : S_.Idx) :
    val_main_cst_12 (F := F) i = FloatOps.ofBits .f32 0x3F800000#32 := rfl

def val_main_v176 : (⟨S100000x1, .f32⟩ : BufTy).Contents (Elt F) :=
  broadcastInDim S100000x1 ![] bcast_S_S100000x1 (val_main_cst_12 (F := F))

abbrev idx_main_v176 (i : S100000x1.Idx) : S_.Idx := fun a => a.elim0

theorem val_main_v176_apply (i : S100000x1.Idx) :
    val_main_v176 (F := F) i = val_main_cst_12 (F := F) (idx_main_v176 i) := by
  unfold val_main_v176
  generalize val_main_cst_12 (F := F) = y
  exact broadcastInDim_apply _ bcast_S_S100000x1 y i (idx_main_v176 i) (fun a => a.elim0)

def val_main_call4_cst : (⟨S_, .f32⟩ : BufTy).Contents (Elt F) :=
  constant S_ .f32 0x00000000#32

theorem val_main_call4_cst_apply (i : S_.Idx) :
    val_main_call4_cst (F := F) i = FloatOps.ofBits .f32 0x00000000#32 := rfl

def val_main_call4_v0 : (⟨S100000x1, .f32⟩ : BufTy).Contents (Elt F) :=
  broadcastInDim S100000x1 ![] bcast_S_S100000x1 (val_main_call4_cst (F := F))

abbrev idx_main_call4_v0 (i : S100000x1.Idx) : S_.Idx := fun a => a.elim0

theorem val_main_call4_v0_apply (i : S100000x1.Idx) :
    val_main_call4_v0 (F := F) i = val_main_call4_cst (F := F) (idx_main_call4_v0 i) := by
  unfold val_main_call4_v0
  generalize val_main_call4_cst (F := F) = y
  exact broadcastInDim_apply _ bcast_S_S100000x1 y i (idx_main_call4_v0 i) (fun a => a.elim0)

def val_main_v177_1 : (⟨S100000x1, .f32⟩ : BufTy).Contents (Elt F) :=
  select (val_main_v171 (F := F) x1) (val_main_call4_v0 (F := F)) (val_main_v176 (F := F))

theorem val_main_v177_1_apply (i : S100000x1.Idx) :
    val_main_v177_1 (F := F) x1 i = Scalar.select (val_main_v171 (F := F) x1 i) (val_main_call4_v0 (F := F) i) (val_main_v176 (F := F) i) := rfl

def val_main_v177_0 : (⟨S100000x1, .f32⟩ : BufTy).Contents (Elt F) :=
  select (val_main_v171 (F := F) x1) (val_main_v176 (F := F)) (val_main_call4_v0 (F := F))

theorem val_main_v177_0_apply (i : S100000x1.Idx) :
    val_main_v177_0 (F := F) x1 i = Scalar.select (val_main_v171 (F := F) x1 i) (val_main_v176 (F := F) i) (val_main_call4_v0 (F := F) i) := rfl

def val_main_v178 : (⟨S100000x256, .f32⟩ : BufTy).Contents (Elt F) :=
  Host.dotGeneral dot_S100000x1_S256x1_S100000x256_1_1_0_0_n_n none (val_main_v177_0 (F := F) x1) (val_main_v161 (F := F) x11)

abbrev lidx_main_v178 := lidx_cwT

abbrev ridx_main_v178 := ridx_cwT

def val_main_v179 : (⟨S100000x256, .f32⟩ : BufTy).Contents (Elt F) :=
  Host.dotGeneral dot_S100000x1_S256x1_S100000x256_1_1_0_0_n_n none (val_main_v177_0 (F := F) x1) (val_main_v153 (F := F) x9)

abbrev lidx_main_v179 := lidx_cwT

abbrev ridx_main_v179 := ridx_cwT

def val_main_v180 : (⟨S100000x256, .f32⟩ : BufTy).Contents (Elt F) :=
  mulf (val_main_v179 (F := F) x1 x9) (val_main_v151 (F := F) x0 x5 x6 x7 x8)

theorem val_main_v180_apply (i : S100000x256.Idx) :
    val_main_v180 (F := F) x0 x1 x5 x6 x7 x8 x9 i = FloatOps.mulf (val_main_v179 (F := F) x1 x9 i) (val_main_v151 (F := F) x0 x5 x6 x7 x8 i) := rfl

def val_main_v181 : (⟨S100000x256, .f32⟩ : BufTy).Contents (Elt F) :=
  mulf (val_main_v180 (F := F) x0 x1 x5 x6 x7 x8 x9) (val_main_v149 (F := F) x0 x5 x6 x7 x8)

theorem val_main_v181_apply (i : S100000x256.Idx) :
    val_main_v181 (F := F) x0 x1 x5 x6 x7 x8 x9 i = FloatOps.mulf (val_main_v180 (F := F) x0 x1 x5 x6 x7 x8 x9 i) (val_main_v149 (F := F) x0 x5 x6 x7 x8 i) := rfl

def val_main_v182 : (⟨S100000x256, .f32⟩ : BufTy).Contents (Elt F) :=
  addf (val_main_v180 (F := F) x0 x1 x5 x6 x7 x8 x9) (val_main_v181 (F := F) x0 x1 x5 x6 x7 x8 x9)

theorem val_main_v182_apply (i : S100000x256.Idx) :
    val_main_v182 (F := F) x0 x1 x5 x6 x7 x8 x9 i = FloatOps.addf (val_main_v180 (F := F) x0 x1 x5 x6 x7 x8 x9 i) (val_main_v181 (F := F) x0 x1 x5 x6 x7 x8 x9 i) := rfl

def val_main_v183 : (⟨S100000x256, .f32⟩ : BufTy).Contents (Elt F) :=
  Host.dotGeneral dot_S100000x256_S256x256_S100000x256_1_1_0_0_n_n none (val_main_v182 (F := F) x0 x1 x5 x6 x7 x8 x9) (val_main_v142 (F := F) x7)

abbrev lidx_main_v183 := lidx_xWT

abbrev ridx_main_v183 := ridx_xWT

def val_main_v184 : (⟨S100000x256, .f32⟩ : BufTy).Contents (Elt F) :=
  mulf (val_main_v183 (F := F) x0 x1 x5 x6 x7 x8 x9) (val_main_v140 (F := F) x0 x5 x6)

theorem val_main_v184_apply (i : S100000x256.Idx) :
    val_main_v184 (F := F) x0 x1 x5 x6 x7 x8 x9 i = FloatOps.mulf (val_main_v183 (F := F) x0 x1 x5 x6 x7 x8 x9 i) (val_main_v140 (F := F) x0 x5 x6 i) := rfl

def val_main_v185 : (⟨S100000x256, .f32⟩ : BufTy).Contents (Elt F) :=
  mulf (val_main_v184 (F := F) x0 x1 x5 x6 x7 x8 x9) (val_main_v138 (F := F) x0 x5 x6)

theorem val_main_v185_apply (i : S100000x256.Idx) :
    val_main_v185 (F := F) x0 x1 x5 x6 x7 x8 x9 i = FloatOps.mulf (val_main_v184 (F := F) x0 x1 x5 x6 x7 x8 x9 i) (val_main_v138 (F := F) x0 x5 x6 i) := rfl

def val_main_v186 : (⟨S100000x256, .f32⟩ : BufTy).Contents (Elt F) :=
  addf (val_main_v184 (F := F) x0 x1 x5 x6 x7 x8 x9) (val_main_v185 (F := F) x0 x1 x5 x6 x7 x8 x9)

theorem val_main_v186_apply (i : S100000x256.Idx) :
    val_main_v186 (F := F) x0 x1 x5 x6 x7 x8 x9 i = FloatOps.addf (val_main_v184 (F := F) x0 x1 x5 x6 x7 x8 x9 i) (val_main_v185 (F := F) x0 x1 x5 x6 x7 x8 x9 i) := rfl

def val_main_v187 : (⟨S100000x256, .f32⟩ : BufTy).Contents (Elt F) :=
  Host.dotGeneral dot_S100000x256_S256x256_S100000x256_1_1_0_0_n_n none (val_main_v186 (F := F) x0 x1 x5 x6 x7 x8 x9) (val_main_v131 (F := F) x5)

abbrev lidx_main_v187 := lidx_xWT

abbrev ridx_main_v187 := ridx_xWT

def val_main_v188 : (⟨S100000x256, .f32⟩ : BufTy).Contents (Elt F) :=
  addf (val_main_v178 (F := F) x1 x11) (val_main_v187 (F := F) x0 x1 x5 x6 x7 x8 x9)

theorem val_main_v188_apply (i : S100000x256.Idx) :
    val_main_v188 (F := F) x0 x1 x5 x6 x7 x8 x9 x11 i = FloatOps.addf (val_main_v178 (F := F) x1 x11 i) (val_main_v187 (F := F) x0 x1 x5 x6 x7 x8 x9 i) := rfl

def val_main_call5_cst : (⟨S_, .f32⟩ : BufTy).Contents (Elt F) :=
  constant S_ .f32 0x00000000#32

theorem val_main_call5_cst_apply (i : S_.Idx) :
    val_main_call5_cst (F := F) i = FloatOps.ofBits .f32 0x00000000#32 := rfl

def val_main_call5_v0 : (⟨S100000x1, .f32⟩ : BufTy).Contents (Elt F) :=
  broadcastInDim S100000x1 ![] bcast_S_S100000x1 (val_main_call5_cst (F := F))

abbrev idx_main_call5_v0 (i : S100000x1.Idx) : S_.Idx := fun a => a.elim0

theorem val_main_call5_v0_apply (i : S100000x1.Idx) :
    val_main_call5_v0 (F := F) i = val_main_call5_cst (F := F) (idx_main_call5_v0 i) := by
  unfold val_main_call5_v0
  generalize val_main_call5_cst (F := F) = y
  exact broadcastInDim_apply _ bcast_S_S100000x1 y i (idx_main_call5_v0 i) (fun a => a.elim0)

def val_main_v189_1 : (⟨S100000x1, .f32⟩ : BufTy).Contents (Elt F) :=
  select (val_main_v128 (F := F) x1) (val_main_call5_v0 (F := F)) (val_main_v177_1 (F := F) x1)

theorem val_main_v189_1_apply (i : S100000x1.Idx) :
    val_main_v189_1 (F := F) x1 i = Scalar.select (val_main_v128 (F := F) x1 i) (val_main_call5_v0 (F := F) i) (val_main_v177_1 (F := F) x1 i) := rfl

def val_main_v189_0 : (⟨S100000x1, .f32⟩ : BufTy).Contents (Elt F) :=
  select (val_main_v128 (F := F) x1) (val_main_v177_1 (F := F) x1) (val_main_call5_v0 (F := F))

theorem val_main_v189_0_apply (i : S100000x1.Idx) :
    val_main_v189_0 (F := F) x1 i = Scalar.select (val_main_v128 (F := F) x1 i) (val_main_v177_1 (F := F) x1 i) (val_main_call5_v0 (F := F) i) := rfl

def val_main_v190 : (⟨S100000x256, .f32⟩ : BufTy).Contents (Elt F) :=
  Host.dotGeneral dot_S100000x1_S256x1_S100000x256_1_1_0_0_n_n none (val_main_v189_0 (F := F) x1) (val_main_v118 (F := F) x11)

abbrev lidx_main_v190 := lidx_cwT

abbrev ridx_main_v190 := ridx_cwT

def val_main_v191 : (⟨S100000x256, .f32⟩ : BufTy).Contents (Elt F) :=
  addf (val_main_v188 (F := F) x0 x1 x5 x6 x7 x8 x9 x11) (val_main_v190 (F := F) x1 x11)

theorem val_main_v191_apply (i : S100000x256.Idx) :
    val_main_v191 (F := F) x0 x1 x5 x6 x7 x8 x9 x11 i = FloatOps.addf (val_main_v188 (F := F) x0 x1 x5 x6 x7 x8 x9 x11 i) (val_main_v190 (F := F) x1 x11 i) := rfl

def val_main_v192 : (⟨S100000x256, .f32⟩ : BufTy).Contents (Elt F) :=
  Host.dotGeneral dot_S100000x1_S256x1_S100000x256_1_1_0_0_n_n none (val_main_v189_0 (F := F) x1) (val_main_v110 (F := F) x9)

abbrev lidx_main_v192 := lidx_cwT

abbrev ridx_main_v192 := ridx_cwT

def val_main_v193 : (⟨S100000x256, .f32⟩ : BufTy).Contents (Elt F) :=
  mulf (val_main_v192 (F := F) x1 x9) (val_main_v108 (F := F) x0 x5 x6 x7 x8)

theorem val_main_v193_apply (i : S100000x256.Idx) :
    val_main_v193 (F := F) x0 x1 x5 x6 x7 x8 x9 i = FloatOps.mulf (val_main_v192 (F := F) x1 x9 i) (val_main_v108 (F := F) x0 x5 x6 x7 x8 i) := rfl

def val_main_v194 : (⟨S100000x256, .f32⟩ : BufTy).Contents (Elt F) :=
  mulf (val_main_v193 (F := F) x0 x1 x5 x6 x7 x8 x9) (val_main_v106 (F := F) x0 x5 x6 x7 x8)

theorem val_main_v194_apply (i : S100000x256.Idx) :
    val_main_v194 (F := F) x0 x1 x5 x6 x7 x8 x9 i = FloatOps.mulf (val_main_v193 (F := F) x0 x1 x5 x6 x7 x8 x9 i) (val_main_v106 (F := F) x0 x5 x6 x7 x8 i) := rfl

def val_main_v195 : (⟨S100000x256, .f32⟩ : BufTy).Contents (Elt F) :=
  addf (val_main_v193 (F := F) x0 x1 x5 x6 x7 x8 x9) (val_main_v194 (F := F) x0 x1 x5 x6 x7 x8 x9)

theorem val_main_v195_apply (i : S100000x256.Idx) :
    val_main_v195 (F := F) x0 x1 x5 x6 x7 x8 x9 i = FloatOps.addf (val_main_v193 (F := F) x0 x1 x5 x6 x7 x8 x9 i) (val_main_v194 (F := F) x0 x1 x5 x6 x7 x8 x9 i) := rfl

def val_main_v196 : (⟨S100000x256, .f32⟩ : BufTy).Contents (Elt F) :=
  Host.dotGeneral dot_S100000x256_S256x256_S100000x256_1_1_0_0_n_n none (val_main_v195 (F := F) x0 x1 x5 x6 x7 x8 x9) (val_main_v99 (F := F) x7)

abbrev lidx_main_v196 := lidx_xWT

abbrev ridx_main_v196 := ridx_xWT

def val_main_v197 : (⟨S100000x256, .f32⟩ : BufTy).Contents (Elt F) :=
  mulf (val_main_v196 (F := F) x0 x1 x5 x6 x7 x8 x9) (val_main_v97 (F := F) x0 x5 x6)

theorem val_main_v197_apply (i : S100000x256.Idx) :
    val_main_v197 (F := F) x0 x1 x5 x6 x7 x8 x9 i = FloatOps.mulf (val_main_v196 (F := F) x0 x1 x5 x6 x7 x8 x9 i) (val_main_v97 (F := F) x0 x5 x6 i) := rfl

def val_main_v198 : (⟨S100000x256, .f32⟩ : BufTy).Contents (Elt F) :=
  mulf (val_main_v197 (F := F) x0 x1 x5 x6 x7 x8 x9) (val_main_v95 (F := F) x0 x5 x6)

theorem val_main_v198_apply (i : S100000x256.Idx) :
    val_main_v198 (F := F) x0 x1 x5 x6 x7 x8 x9 i = FloatOps.mulf (val_main_v197 (F := F) x0 x1 x5 x6 x7 x8 x9 i) (val_main_v95 (F := F) x0 x5 x6 i) := rfl

def val_main_v199 : (⟨S100000x256, .f32⟩ : BufTy).Contents (Elt F) :=
  addf (val_main_v197 (F := F) x0 x1 x5 x6 x7 x8 x9) (val_main_v198 (F := F) x0 x1 x5 x6 x7 x8 x9)

theorem val_main_v199_apply (i : S100000x256.Idx) :
    val_main_v199 (F := F) x0 x1 x5 x6 x7 x8 x9 i = FloatOps.addf (val_main_v197 (F := F) x0 x1 x5 x6 x7 x8 x9 i) (val_main_v198 (F := F) x0 x1 x5 x6 x7 x8 x9 i) := rfl

def val_main_v200 : (⟨S100000x256, .f32⟩ : BufTy).Contents (Elt F) :=
  Host.dotGeneral dot_S100000x256_S256x256_S100000x256_1_1_0_0_n_n none (val_main_v199 (F := F) x0 x1 x5 x6 x7 x8 x9) (val_main_v88 (F := F) x5)

abbrev lidx_main_v200 := lidx_xWT

abbrev ridx_main_v200 := ridx_xWT

def val_main_v201 : (⟨S100000x256, .f32⟩ : BufTy).Contents (Elt F) :=
  addf (val_main_v191 (F := F) x0 x1 x5 x6 x7 x8 x9 x11) (val_main_v200 (F := F) x0 x1 x5 x6 x7 x8 x9)

theorem val_main_v201_apply (i : S100000x256.Idx) :
    val_main_v201 (F := F) x0 x1 x5 x6 x7 x8 x9 x11 i = FloatOps.addf (val_main_v191 (F := F) x0 x1 x5 x6 x7 x8 x9 x11 i) (val_main_v200 (F := F) x0 x1 x5 x6 x7 x8 x9 i) := rfl

def val_main_call6_cst : (⟨S_, .f32⟩ : BufTy).Contents (Elt F) :=
  constant S_ .f32 0x00000000#32

theorem val_main_call6_cst_apply (i : S_.Idx) :
    val_main_call6_cst (F := F) i = FloatOps.ofBits .f32 0x00000000#32 := rfl

def val_main_call6_v0 : (⟨S100000x1, .f32⟩ : BufTy).Contents (Elt F) :=
  broadcastInDim S100000x1 ![] bcast_S_S100000x1 (val_main_call6_cst (F := F))

abbrev idx_main_call6_v0 (i : S100000x1.Idx) : S_.Idx := fun a => a.elim0

theorem val_main_call6_v0_apply (i : S100000x1.Idx) :
    val_main_call6_v0 (F := F) i = val_main_call6_cst (F := F) (idx_main_call6_v0 i) := by
  unfold val_main_call6_v0
  generalize val_main_call6_cst (F := F) = y
  exact broadcastInDim_apply _ bcast_S_S100000x1 y i (idx_main_call6_v0 i) (fun a => a.elim0)

def val_main_v202_1 : (⟨S100000x1, .f32⟩ : BufTy).Contents (Elt F) :=
  select (val_main_v85 (F := F) x1) (val_main_call6_v0 (F := F)) (val_main_v189_1 (F := F) x1)

theorem val_main_v202_1_apply (i : S100000x1.Idx) :
    val_main_v202_1 (F := F) x1 i = Scalar.select (val_main_v85 (F := F) x1 i) (val_main_call6_v0 (F := F) i) (val_main_v189_1 (F := F) x1 i) := rfl

def val_main_v202_0 : (⟨S100000x1, .f32⟩ : BufTy).Contents (Elt F) :=
  select (val_main_v85 (F := F) x1) (val_main_v189_1 (F := F) x1) (val_main_call6_v0 (F := F))

theorem val_main_v202_0_apply (i : S100000x1.Idx) :
    val_main_v202_0 (F := F) x1 i = Scalar.select (val_main_v85 (F := F) x1 i) (val_main_v189_1 (F := F) x1 i) (val_main_call6_v0 (F := F) i) := rfl

def val_main_v203 : (⟨S100000x256, .f32⟩ : BufTy).Contents (Elt F) :=
  Host.dotGeneral dot_S100000x1_S256x1_S100000x256_1_1_0_0_n_n none (val_main_v202_0 (F := F) x1) (val_main_v75 (F := F) x11)

abbrev lidx_main_v203 := lidx_cwT

abbrev ridx_main_v203 := ridx_cwT

def val_main_v204 : (⟨S100000x256, .f32⟩ : BufTy).Contents (Elt F) :=
  addf (val_main_v201 (F := F) x0 x1 x5 x6 x7 x8 x9 x11) (val_main_v203 (F := F) x1 x11)

theorem val_main_v204_apply (i : S100000x256.Idx) :
    val_main_v204 (F := F) x0 x1 x5 x6 x7 x8 x9 x11 i = FloatOps.addf (val_main_v201 (F := F) x0 x1 x5 x6 x7 x8 x9 x11 i) (val_main_v203 (F := F) x1 x11 i) := rfl

def val_main_v205 : (⟨S100000x256, .f32⟩ : BufTy).Contents (Elt F) :=
  Host.dotGeneral dot_S100000x1_S256x1_S100000x256_1_1_0_0_n_n none (val_main_v202_0 (F := F) x1) (val_main_v67 (F := F) x9)

abbrev lidx_main_v205 := lidx_cwT

abbrev ridx_main_v205 := ridx_cwT

def val_main_v206 : (⟨S100000x256, .f32⟩ : BufTy).Contents (Elt F) :=
  mulf (val_main_v205 (F := F) x1 x9) (val_main_v65 (F := F) x0 x5 x6 x7 x8)

theorem val_main_v206_apply (i : S100000x256.Idx) :
    val_main_v206 (F := F) x0 x1 x5 x6 x7 x8 x9 i = FloatOps.mulf (val_main_v205 (F := F) x1 x9 i) (val_main_v65 (F := F) x0 x5 x6 x7 x8 i) := rfl

def val_main_v207 : (⟨S100000x256, .f32⟩ : BufTy).Contents (Elt F) :=
  mulf (val_main_v206 (F := F) x0 x1 x5 x6 x7 x8 x9) (val_main_v63 (F := F) x0 x5 x6 x7 x8)

theorem val_main_v207_apply (i : S100000x256.Idx) :
    val_main_v207 (F := F) x0 x1 x5 x6 x7 x8 x9 i = FloatOps.mulf (val_main_v206 (F := F) x0 x1 x5 x6 x7 x8 x9 i) (val_main_v63 (F := F) x0 x5 x6 x7 x8 i) := rfl

def val_main_v208 : (⟨S100000x256, .f32⟩ : BufTy).Contents (Elt F) :=
  addf (val_main_v206 (F := F) x0 x1 x5 x6 x7 x8 x9) (val_main_v207 (F := F) x0 x1 x5 x6 x7 x8 x9)

theorem val_main_v208_apply (i : S100000x256.Idx) :
    val_main_v208 (F := F) x0 x1 x5 x6 x7 x8 x9 i = FloatOps.addf (val_main_v206 (F := F) x0 x1 x5 x6 x7 x8 x9 i) (val_main_v207 (F := F) x0 x1 x5 x6 x7 x8 x9 i) := rfl

def val_main_v209 : (⟨S100000x256, .f32⟩ : BufTy).Contents (Elt F) :=
  Host.dotGeneral dot_S100000x256_S256x256_S100000x256_1_1_0_0_n_n none (val_main_v208 (F := F) x0 x1 x5 x6 x7 x8 x9) (val_main_v56 (F := F) x7)

abbrev lidx_main_v209 := lidx_xWT

abbrev ridx_main_v209 := ridx_xWT

def val_main_v210 : (⟨S100000x256, .f32⟩ : BufTy).Contents (Elt F) :=
  mulf (val_main_v209 (F := F) x0 x1 x5 x6 x7 x8 x9) (val_main_v54 (F := F) x0 x5 x6)

theorem val_main_v210_apply (i : S100000x256.Idx) :
    val_main_v210 (F := F) x0 x1 x5 x6 x7 x8 x9 i = FloatOps.mulf (val_main_v209 (F := F) x0 x1 x5 x6 x7 x8 x9 i) (val_main_v54 (F := F) x0 x5 x6 i) := rfl

def val_main_v211 : (⟨S100000x256, .f32⟩ : BufTy).Contents (Elt F) :=
  mulf (val_main_v210 (F := F) x0 x1 x5 x6 x7 x8 x9) (val_main_v52 (F := F) x0 x5 x6)

theorem val_main_v211_apply (i : S100000x256.Idx) :
    val_main_v211 (F := F) x0 x1 x5 x6 x7 x8 x9 i = FloatOps.mulf (val_main_v210 (F := F) x0 x1 x5 x6 x7 x8 x9 i) (val_main_v52 (F := F) x0 x5 x6 i) := rfl

def val_main_v212 : (⟨S100000x256, .f32⟩ : BufTy).Contents (Elt F) :=
  addf (val_main_v210 (F := F) x0 x1 x5 x6 x7 x8 x9) (val_main_v211 (F := F) x0 x1 x5 x6 x7 x8 x9)

theorem val_main_v212_apply (i : S100000x256.Idx) :
    val_main_v212 (F := F) x0 x1 x5 x6 x7 x8 x9 i = FloatOps.addf (val_main_v210 (F := F) x0 x1 x5 x6 x7 x8 x9 i) (val_main_v211 (F := F) x0 x1 x5 x6 x7 x8 x9 i) := rfl

def val_main_v213 : (⟨S100000x256, .f32⟩ : BufTy).Contents (Elt F) :=
  Host.dotGeneral dot_S100000x256_S256x256_S100000x256_1_1_0_0_n_n none (val_main_v212 (F := F) x0 x1 x5 x6 x7 x8 x9) (val_main_v45 (F := F) x5)

abbrev lidx_main_v213 := lidx_xWT

abbrev ridx_main_v213 := ridx_xWT

def val_main_v214 : (⟨S100000x256, .f32⟩ : BufTy).Contents (Elt F) :=
  addf (val_main_v204 (F := F) x0 x1 x5 x6 x7 x8 x9 x11) (val_main_v213 (F := F) x0 x1 x5 x6 x7 x8 x9)

theorem val_main_v214_apply (i : S100000x256.Idx) :
    val_main_v214 (F := F) x0 x1 x5 x6 x7 x8 x9 x11 i = FloatOps.addf (val_main_v204 (F := F) x0 x1 x5 x6 x7 x8 x9 x11 i) (val_main_v213 (F := F) x0 x1 x5 x6 x7 x8 x9 i) := rfl

def val_main_call7_cst : (⟨S_, .f32⟩ : BufTy).Contents (Elt F) :=
  constant S_ .f32 0x00000000#32

theorem val_main_call7_cst_apply (i : S_.Idx) :
    val_main_call7_cst (F := F) i = FloatOps.ofBits .f32 0x00000000#32 := rfl

def val_main_call7_v0 : (⟨S100000x1, .f32⟩ : BufTy).Contents (Elt F) :=
  broadcastInDim S100000x1 ![] bcast_S_S100000x1 (val_main_call7_cst (F := F))

abbrev idx_main_call7_v0 (i : S100000x1.Idx) : S_.Idx := fun a => a.elim0

theorem val_main_call7_v0_apply (i : S100000x1.Idx) :
    val_main_call7_v0 (F := F) i = val_main_call7_cst (F := F) (idx_main_call7_v0 i) := by
  unfold val_main_call7_v0
  generalize val_main_call7_cst (F := F) = y
  exact broadcastInDim_apply _ bcast_S_S100000x1 y i (idx_main_call7_v0 i) (fun a => a.elim0)

def val_main_v215 : (⟨S100000x1, .f32⟩ : BufTy).Contents (Elt F) :=
  select (val_main_v42 (F := F) x1) (val_main_v202_1 (F := F) x1) (val_main_call7_v0 (F := F))

theorem val_main_v215_apply (i : S100000x1.Idx) :
    val_main_v215 (F := F) x1 i = Scalar.select (val_main_v42 (F := F) x1 i) (val_main_v202_1 (F := F) x1 i) (val_main_call7_v0 (F := F) i) := rfl

def val_main_v216 : (⟨S100000x256, .f32⟩ : BufTy).Contents (Elt F) :=
  Host.dotGeneral dot_S100000x1_S256x1_S100000x256_1_1_0_0_n_n none (val_main_v215 (F := F) x1) (val_main_v32 (F := F) x11)

abbrev lidx_main_v216 := lidx_cwT

abbrev ridx_main_v216 := ridx_cwT

def val_main_v217 : (⟨S100000x256, .f32⟩ : BufTy).Contents (Elt F) :=
  addf (val_main_v214 (F := F) x0 x1 x5 x6 x7 x8 x9 x11) (val_main_v216 (F := F) x1 x11)

theorem val_main_v217_apply (i : S100000x256.Idx) :
    val_main_v217 (F := F) x0 x1 x5 x6 x7 x8 x9 x11 i = FloatOps.addf (val_main_v214 (F := F) x0 x1 x5 x6 x7 x8 x9 x11 i) (val_main_v216 (F := F) x1 x11 i) := rfl

def val_main_v218 : (⟨S100000x256, .f32⟩ : BufTy).Contents (Elt F) :=
  Host.dotGeneral dot_S100000x1_S256x1_S100000x256_1_1_0_0_n_n none (val_main_v215 (F := F) x1) (val_main_v24 (F := F) x9)

abbrev lidx_main_v218 := lidx_cwT

abbrev ridx_main_v218 := ridx_cwT

def val_main_v219 : (⟨S100000x256, .f32⟩ : BufTy).Contents (Elt F) :=
  mulf (val_main_v218 (F := F) x1 x9) (val_main_v22 (F := F) x0 x5 x6 x7 x8)

theorem val_main_v219_apply (i : S100000x256.Idx) :
    val_main_v219 (F := F) x0 x1 x5 x6 x7 x8 x9 i = FloatOps.mulf (val_main_v218 (F := F) x1 x9 i) (val_main_v22 (F := F) x0 x5 x6 x7 x8 i) := rfl

def val_main_v220 : (⟨S100000x256, .f32⟩ : BufTy).Contents (Elt F) :=
  mulf (val_main_v219 (F := F) x0 x1 x5 x6 x7 x8 x9) (val_main_v20 (F := F) x0 x5 x6 x7 x8)

theorem val_main_v220_apply (i : S100000x256.Idx) :
    val_main_v220 (F := F) x0 x1 x5 x6 x7 x8 x9 i = FloatOps.mulf (val_main_v219 (F := F) x0 x1 x5 x6 x7 x8 x9 i) (val_main_v20 (F := F) x0 x5 x6 x7 x8 i) := rfl

def val_main_v221 : (⟨S100000x256, .f32⟩ : BufTy).Contents (Elt F) :=
  addf (val_main_v219 (F := F) x0 x1 x5 x6 x7 x8 x9) (val_main_v220 (F := F) x0 x1 x5 x6 x7 x8 x9)

theorem val_main_v221_apply (i : S100000x256.Idx) :
    val_main_v221 (F := F) x0 x1 x5 x6 x7 x8 x9 i = FloatOps.addf (val_main_v219 (F := F) x0 x1 x5 x6 x7 x8 x9 i) (val_main_v220 (F := F) x0 x1 x5 x6 x7 x8 x9 i) := rfl

def val_main_v222 : (⟨S100000x256, .f32⟩ : BufTy).Contents (Elt F) :=
  Host.dotGeneral dot_S100000x256_S256x256_S100000x256_1_1_0_0_n_n none (val_main_v221 (F := F) x0 x1 x5 x6 x7 x8 x9) (val_main_v13 (F := F) x7)

abbrev lidx_main_v222 := lidx_xWT

abbrev ridx_main_v222 := ridx_xWT

def val_main_v223 : (⟨S100000x256, .f32⟩ : BufTy).Contents (Elt F) :=
  mulf (val_main_v222 (F := F) x0 x1 x5 x6 x7 x8 x9) (val_main_v11 (F := F) x0 x5 x6)

theorem val_main_v223_apply (i : S100000x256.Idx) :
    val_main_v223 (F := F) x0 x1 x5 x6 x7 x8 x9 i = FloatOps.mulf (val_main_v222 (F := F) x0 x1 x5 x6 x7 x8 x9 i) (val_main_v11 (F := F) x0 x5 x6 i) := rfl

def val_main_v224 : (⟨S100000x256, .f32⟩ : BufTy).Contents (Elt F) :=
  mulf (val_main_v223 (F := F) x0 x1 x5 x6 x7 x8 x9) (val_main_v9 (F := F) x0 x5 x6)

theorem val_main_v224_apply (i : S100000x256.Idx) :
    val_main_v224 (F := F) x0 x1 x5 x6 x7 x8 x9 i = FloatOps.mulf (val_main_v223 (F := F) x0 x1 x5 x6 x7 x8 x9 i) (val_main_v9 (F := F) x0 x5 x6 i) := rfl

def val_main_v225 : (⟨S100000x256, .f32⟩ : BufTy).Contents (Elt F) :=
  addf (val_main_v223 (F := F) x0 x1 x5 x6 x7 x8 x9) (val_main_v224 (F := F) x0 x1 x5 x6 x7 x8 x9)

theorem val_main_v225_apply (i : S100000x256.Idx) :
    val_main_v225 (F := F) x0 x1 x5 x6 x7 x8 x9 i = FloatOps.addf (val_main_v223 (F := F) x0 x1 x5 x6 x7 x8 x9 i) (val_main_v224 (F := F) x0 x1 x5 x6 x7 x8 x9 i) := rfl

def val_main_v226 : (⟨S100000x256, .f32⟩ : BufTy).Contents (Elt F) :=
  Host.dotGeneral dot_S100000x256_S256x256_S100000x256_1_1_0_0_n_n none (val_main_v225 (F := F) x0 x1 x5 x6 x7 x8 x9) (val_main_v2 (F := F) x5)

abbrev lidx_main_v226 := lidx_xWT

abbrev ridx_main_v226 := ridx_xWT

def val_main_v227 : (⟨S100000x256, .f32⟩ : BufTy).Contents (Elt F) :=
  addf (val_main_v217 (F := F) x0 x1 x5 x6 x7 x8 x9 x11) (val_main_v226 (F := F) x0 x1 x5 x6 x7 x8 x9)

theorem val_main_v227_apply (i : S100000x256.Idx) :
    val_main_v227 (F := F) x0 x1 x5 x6 x7 x8 x9 x11 i = FloatOps.addf (val_main_v217 (F := F) x0 x1 x5 x6 x7 x8 x9 x11 i) (val_main_v226 (F := F) x0 x1 x5 x6 x7 x8 x9 i) := rfl

def val_main_c_13 : (⟨S_, .i32⟩ : BufTy).Contents (Elt F) :=
  constantI S_ 32 0#32

theorem val_main_c_13_apply (i : S_.Idx) :
    val_main_c_13 (F := F) i = 0#32 := rfl

def val_main_v228 : (⟨S200000, .i32⟩ : BufTy).Contents (Elt F) :=
  broadcastInDim S200000 ![] bcast_S_S200000 (val_main_c_13 (F := F))

abbrev idx_main_v228 := idx_bcast_S_S200000

theorem val_main_v228_apply (i : S200000.Idx) :
    val_main_v228 (F := F) i = val_main_c_13 (F := F) (idx_main_v228 i) :=
  bcast_S_S200000_apply _ i

def val_main_v229 : (⟨S200000, .i1⟩ : BufTy).Contents (Elt F) :=
  cmpi .slt (x4) (val_main_v228 (F := F))

theorem val_main_v229_apply (i : S200000.Idx) :
    val_main_v229 (F := F) x4 i = IntOp.cmpi .slt (x4 i) (val_main_v228 (F := F) i) := rfl

def val_main_c_14 : (⟨S_, .i32⟩ : BufTy).Contents (Elt F) :=
  constantI S_ 32 100000#32

theorem val_main_c_14_apply (i : S_.Idx) :
    val_main_c_14 (F := F) i = 100000#32 := rfl

def val_main_v230 : (⟨S200000, .i32⟩ : BufTy).Contents (Elt F) :=
  broadcastInDim S200000 ![] bcast_S_S200000 (val_main_c_14 (F := F))

abbrev idx_main_v230 := idx_bcast_S_S200000

theorem val_main_v230_apply (i : S200000.Idx) :
    val_main_v230 (F := F) i = val_main_c_14 (F := F) (idx_main_v230 i) :=
  bcast_S_S200000_apply _ i

def val_main_v231 : (⟨S200000, .i32⟩ : BufTy).Contents (Elt F) :=
  addi (x4) (val_main_v230 (F := F))

theorem val_main_v231_apply (i : S200000.Idx) :
    val_main_v231 (F := F) x4 i = IntOp.addi (x4 i) (val_main_v230 (F := F) i) := rfl

def val_main_v232 : (⟨S200000, .i32⟩ : BufTy).Contents (Elt F) :=
  select (val_main_v229 (F := F) x4) (val_main_v231 (F := F) x4) (x4)

theorem val_main_v232_apply (i : S200000.Idx) :
    val_main_v232 (F := F) x4 i = Scalar.select (val_main_v229 (F := F) x4 i) (val_main_v231 (F := F) x4 i) (x4 i) := rfl

def val_main_v233 : (⟨S200000x1, .i32⟩ : BufTy).Contents (Elt F) :=
  broadcastInDim S200000x1 ![0] bcast_S200000_S200000x1_0 (val_main_v232 (F := F) x4)

abbrev idx_main_v233 (i : S200000x1.Idx) : S200000.Idx := fun a => match a with
  | ⟨0, _⟩ => ⟨(i 0).val, (i 0).isLt⟩

theorem val_main_v233_apply (i : S200000x1.Idx) :
    val_main_v233 (F := F) x4 i = val_main_v232 (F := F) x4 (idx_main_v233 i) := by
  unfold val_main_v233
  generalize val_main_v232 (F := F) x4 = y
  exact broadcastInDim_apply _ bcast_S200000_S200000x1_0 y i (idx_main_v233 i) (fun a => match a with
    | ⟨0, _⟩ => by show (i 0).val = if (200000 : Nat) = 1 then 0 else (i 0).val; rw [if_neg (by decide)])

def val_main_v234 : (⟨S200000x256, .f32⟩ : BufTy).Contents (Elt F) :=
  Host.gather gather_S100000x256_S200000x1_S200000x256_1_0_n_n_0_1_1256 (val_main_v227 (F := F) x0 x1 x5 x6 x7 x8 x9 x11) (val_main_v233 (F := F) x4)

def val_main_v235 : (⟨S200000x1x256, .f32⟩ : BufTy).Contents (Elt F) :=
  broadcastInDim S200000x1x256 ![0, 2] bcast_S200000x256_S200000x1x256_0_2 (val_main_v234 (F := F) x0 x1 x4 x5 x6 x7 x8 x9 x11)

abbrev idx_main_v235 (i : S200000x1x256.Idx) : S200000x256.Idx := fun a => match a with
  | ⟨0, _⟩ => ⟨(i 0).val, (i 0).isLt⟩
  | ⟨1, _⟩ => ⟨(i 2).val, (i 2).isLt⟩

theorem val_main_v235_apply (i : S200000x1x256.Idx) :
    val_main_v235 (F := F) x0 x1 x4 x5 x6 x7 x8 x9 x11 i = val_main_v234 (F := F) x0 x1 x4 x5 x6 x7 x8 x9 x11 (idx_main_v235 i) := by
  unfold val_main_v235
  generalize val_main_v234 (F := F) x0 x1 x4 x5 x6 x7 x8 x9 x11 = y
  exact broadcastInDim_apply _ bcast_S200000x256_S200000x1x256_0_2 y i (idx_main_v235 i) (fun a => match a with
    | ⟨0, _⟩ => by show (i 0).val = if (200000 : Nat) = 1 then 0 else (i 0).val; rw [if_neg (by decide)]
    | ⟨1, _⟩ => by show (i 2).val = if (256 : Nat) = 1 then 0 else (i 2).val; rw [if_neg (by decide)])

def val_main_v236 : (⟨S200000x3x256, .f32⟩ : BufTy).Contents (Elt F) :=
  broadcastInDim S200000x3x256 ![0, 1, 2] bcast_S200000x1x256_S200000x3x256_0_1_2 (val_main_v235 (F := F) x0 x1 x4 x5 x6 x7 x8 x9 x11)

abbrev idx_main_v236 (i : S200000x3x256.Idx) : S200000x1x256.Idx := fun a => match a with
  | ⟨0, _⟩ => ⟨(i 0).val, (i 0).isLt⟩
  | ⟨1, _⟩ => ⟨0, Nat.one_pos⟩
  | ⟨2, _⟩ => ⟨(i 2).val, (i 2).isLt⟩

theorem val_main_v236_apply (i : S200000x3x256.Idx) :
    val_main_v236 (F := F) x0 x1 x4 x5 x6 x7 x8 x9 x11 i = val_main_v235 (F := F) x0 x1 x4 x5 x6 x7 x8 x9 x11 (idx_main_v236 i) := by
  unfold val_main_v236
  generalize val_main_v235 (F := F) x0 x1 x4 x5 x6 x7 x8 x9 x11 = y
  exact broadcastInDim_apply _ bcast_S200000x1x256_S200000x3x256_0_1_2 y i (idx_main_v236 i) (fun a => match a with
    | ⟨0, _⟩ => by show (i 0).val = if (200000 : Nat) = 1 then 0 else (i 0).val; rw [if_neg (by decide)]
    | ⟨1, _⟩ => by show 0 = if (1 : Nat) = 1 then 0 else (i 1).val; rw [if_pos rfl]
    | ⟨2, _⟩ => by show (i 2).val = if (256 : Nat) = 1 then 0 else (i 2).val; rw [if_neg (by decide)])

def val_main_v237 : (⟨S200000x3x256, .f32⟩ : BufTy).Contents (Elt F) :=
  mulf (x3) (val_main_v236 (F := F) x0 x1 x4 x5 x6 x7 x8 x9 x11)

theorem val_main_v237_apply (i : S200000x3x256.Idx) :
    val_main_v237 (F := F) x0 x1 x3 x4 x5 x6 x7 x8 x9 x11 i = FloatOps.mulf (x3 i) (val_main_v236 (F := F) x0 x1 x4 x5 x6 x7 x8 x9 x11 i) := rfl

def val_main_cst_15 : (⟨S_, .f32⟩ : BufTy).Contents (Elt F) :=
  constant S_ .f32 0x00000000#32

theorem val_main_cst_15_apply (i : S_.Idx) :
    val_main_cst_15 (F := F) i = FloatOps.ofBits .f32 0x00000000#32 := rfl

def val_main_v238 : (⟨S200000x3, .f32⟩ : BufTy).Contents (Elt F) :=
  Host.reduceAdd (val_main_v237 (F := F) x0 x1 x3 x4 x5 x6 x7 x8 x9 x11) (val_main_cst_15 (F := F)) reducesTo_S200000x3x256_S200000x3_d2 h_S_

abbrev idx_main_v238 (i : S200000x3.Idx) (k : Fin 256) : S200000x3x256.Idx := fun a => match a with
  | ⟨0, _⟩ => ⟨(i 0).val, (i 0).isLt⟩
  | ⟨1, _⟩ => ⟨(i 1).val, (i 1).isLt⟩
  | ⟨2, _⟩ => ⟨k.val, k.isLt⟩

def val_main_v239 : (⟨S200000x3, .f32⟩ : BufTy).Contents (Elt F) :=
  Host.negf (val_main_v238 (F := F) x0 x1 x3 x4 x5 x6 x7 x8 x9 x11)

theorem val_main_v239_apply (i : S200000x3.Idx) :
    val_main_v239 (F := F) x0 x1 x3 x4 x5 x6 x7 x8 x9 x11 i = FloatOps.hostNegf (val_main_v238 (F := F) x0 x1 x3 x4 x5 x6 x7 x8 x9 x11 i) := rfl

def val_main_cst_16 : (⟨S_, .f32⟩ : BufTy).Contents (Elt F) :=
  constant S_ .f32 0x00000000#32

theorem val_main_cst_16_apply (i : S_.Idx) :
    val_main_cst_16 (F := F) i = FloatOps.ofBits .f32 0x00000000#32 := rfl

def val_main_v240 : (⟨S100000x3, .f32⟩ : BufTy).Contents (Elt F) :=
  broadcastInDim S100000x3 ![] bcast_S_S100000x3 (val_main_cst_16 (F := F))

abbrev idx_main_v240 (i : S100000x3.Idx) : S_.Idx := fun a => a.elim0

theorem val_main_v240_apply (i : S100000x3.Idx) :
    val_main_v240 (F := F) i = val_main_cst_16 (F := F) (idx_main_v240 i) := by
  unfold val_main_v240
  generalize val_main_cst_16 (F := F) = y
  exact broadcastInDim_apply _ bcast_S_S100000x3 y i (idx_main_v240 i) (fun a => a.elim0)

def val_main_v241 : (⟨S200000x1, .i32⟩ : BufTy).Contents (Elt F) :=
  broadcastInDim S200000x1 ![0] bcast_S200000_S200000x1_0 (x4)

abbrev idx_main_v241 (i : S200000x1.Idx) : S200000.Idx := fun a => match a with
  | ⟨0, _⟩ => ⟨(i 0).val, (i 0).isLt⟩

theorem val_main_v241_apply (i : S200000x1.Idx) :
    val_main_v241 (F := F) x4 i = x4 (idx_main_v241 i) := by
  unfold val_main_v241
  exact broadcastInDim_apply _ bcast_S200000_S200000x1_0 x4 i (idx_main_v241 i) (fun a => match a with
    | ⟨0, _⟩ => by show (i 0).val = if (200000 : Nat) = 1 then 0 else (i 0).val; rw [if_neg (by decide)])

def val_main_v242 : (⟨S100000x3, .f32⟩ : BufTy).Contents (Elt F) :=
  Host.scatterAdd scatter_S100000x3_S200000x1_S200000x3_1_0_0_1 (val_main_v240 (F := F)) (val_main_v241 (F := F) x4) (val_main_v239 (F := F) x0 x1 x3 x4 x5 x6 x7 x8 x9 x11)

end

section
variable
  (x0 : (⟨S100000x256, .f32⟩ : BufTy).Contents (Elt Ideal)) (x1 : (⟨S100000, .i32⟩ : BufTy).Contents (Elt Ideal)) (x2 : (⟨S100000, .i32⟩ : BufTy).Contents (Elt Ideal))
  (x3 : (⟨S200000x3x256, .f32⟩ : BufTy).Contents (Elt Ideal)) (x4 : (⟨S200000, .i32⟩ : BufTy).Contents (Elt Ideal)) (x5 : (⟨S4x256x256, .f32⟩ : BufTy).Contents (Elt Ideal))
  (x6 : (⟨S4x256, .f32⟩ : BufTy).Contents (Elt Ideal)) (x7 : (⟨S4x256x256, .f32⟩ : BufTy).Contents (Elt Ideal)) (x8 : (⟨S4x256, .f32⟩ : BufTy).Contents (Elt Ideal))
  (x9 : (⟨S4x256x1, .f32⟩ : BufTy).Contents (Elt Ideal)) (x10 : (⟨S4x1, .f32⟩ : BufTy).Contents (Elt Ideal)) (x11 : (⟨S4x256x1, .f32⟩ : BufTy).Contents (Elt Ideal))
  (x12 : (⟨S4x1, .f32⟩ : BufTy).Contents (Elt Ideal))

theorem dot_xW_apply (y0 : (⟨S100000x256, .f32⟩ : BufTy).Contents (Elt Ideal)) (y1 : (⟨S256x256, .f32⟩ : BufTy).Contents (Elt Ideal)) (i : S100000x256.Idx) :
    Host.dotGeneral (F := Ideal) (φ₁ := .f32) (φ₂ := .f32) dot_S100000x256_S256x256_S100000x256_1_0_0_1_n_n none y0 y1 i = ∑ k : Fin 256, y0 (lidx_xW i k) * y1 (ridx_xW i k) := by
  simp only [Host.dotGeneral]
  rw [Ideal.dotGeneral_apply, ← Equiv.sum_comp (ValueIdx.contrEquiv1 dot_S100000x256_S256x256_S100000x256_1_0_0_1_n_n 256 rfl rfl).symm]
  refine Finset.sum_congr rfl fun k _ => ?_
  have hk := ValueIdx.contrEquiv1_symm_val dot_S100000x256_S256x256_S100000x256_1_0_0_1_n_n 256 rfl rfl k
  have el : dot_S100000x256_S256x256_S100000x256_1_0_0_1_n_n.lhsIdx i ((ValueIdx.contrEquiv1 dot_S100000x256_S256x256_S100000x256_1_0_0_1_n_n 256 rfl rfl).symm k) = lidx_xW i k := funext fun a => Fin.ext (by
    match a with
    | ⟨0, _⟩ => exact lhs_xW_0 _ _
    | ⟨1, _⟩ => exact (lhs_xW_1 _ _).trans hk)
  have er : dot_S100000x256_S256x256_S100000x256_1_0_0_1_n_n.rhsIdx i ((ValueIdx.contrEquiv1 dot_S100000x256_S256x256_S100000x256_1_0_0_1_n_n 256 rfl rfl).symm k) = ridx_xW i k := funext fun a => Fin.ext (by
    match a with
    | ⟨0, _⟩ => exact (rhs_xW_0 _ _).trans hk
    | ⟨1, _⟩ => exact rhs_xW_1 _ _)
  rw [el, er]

theorem dot_xw_apply (y0 : (⟨S100000x256, .f32⟩ : BufTy).Contents (Elt Ideal)) (y1 : (⟨S256x1, .f32⟩ : BufTy).Contents (Elt Ideal)) (i : S100000x1.Idx) :
    Host.dotGeneral (F := Ideal) (φ₁ := .f32) (φ₂ := .f32) dot_S100000x256_S256x1_S100000x1_1_0_0_1_n_n none y0 y1 i = ∑ k : Fin 256, y0 (lidx_xw i k) * y1 (ridx_xw i k) := by
  simp only [Host.dotGeneral]
  rw [Ideal.dotGeneral_apply, ← Equiv.sum_comp (ValueIdx.contrEquiv1 dot_S100000x256_S256x1_S100000x1_1_0_0_1_n_n 256 rfl rfl).symm]
  refine Finset.sum_congr rfl fun k _ => ?_
  have hk := ValueIdx.contrEquiv1_symm_val dot_S100000x256_S256x1_S100000x1_1_0_0_1_n_n 256 rfl rfl k
  have el : dot_S100000x256_S256x1_S100000x1_1_0_0_1_n_n.lhsIdx i ((ValueIdx.contrEquiv1 dot_S100000x256_S256x1_S100000x1_1_0_0_1_n_n 256 rfl rfl).symm k) = lidx_xw i k := funext fun a => Fin.ext (by
    match a with
    | ⟨0, _⟩ => exact lhs_xw_0 _ _
    | ⟨1, _⟩ => exact (lhs_xw_1 _ _).trans hk)
  have er : dot_S100000x256_S256x1_S100000x1_1_0_0_1_n_n.rhsIdx i ((ValueIdx.contrEquiv1 dot_S100000x256_S256x1_S100000x1_1_0_0_1_n_n 256 rfl rfl).symm k) = ridx_xw i k := funext fun a => Fin.ext (by
    match a with
    | ⟨0, _⟩ => exact (rhs_xw_0 _ _).trans hk
    | ⟨1, _⟩ => exact rhs_xw_1 _ _)
  rw [el, er]

theorem dot_cwT_apply (y0 : (⟨S100000x1, .f32⟩ : BufTy).Contents (Elt Ideal)) (y1 : (⟨S256x1, .f32⟩ : BufTy).Contents (Elt Ideal)) (i : S100000x256.Idx) :
    Host.dotGeneral (F := Ideal) (φ₁ := .f32) (φ₂ := .f32) dot_S100000x1_S256x1_S100000x256_1_1_0_0_n_n none y0 y1 i = ∑ k : Fin 1, y0 (lidx_cwT i k) * y1 (ridx_cwT i k) := by
  simp only [Host.dotGeneral]
  rw [Ideal.dotGeneral_apply, ← Equiv.sum_comp (ValueIdx.contrEquiv1 dot_S100000x1_S256x1_S100000x256_1_1_0_0_n_n 1 rfl rfl).symm]
  refine Finset.sum_congr rfl fun k _ => ?_
  have hk := ValueIdx.contrEquiv1_symm_val dot_S100000x1_S256x1_S100000x256_1_1_0_0_n_n 1 rfl rfl k
  have el : dot_S100000x1_S256x1_S100000x256_1_1_0_0_n_n.lhsIdx i ((ValueIdx.contrEquiv1 dot_S100000x1_S256x1_S100000x256_1_1_0_0_n_n 1 rfl rfl).symm k) = lidx_cwT i k := funext fun a => Fin.ext (by
    match a with
    | ⟨0, _⟩ => exact lhs_cwT_0 _ _
    | ⟨1, _⟩ => exact (lhs_cwT_1 _ _).trans hk)
  have er : dot_S100000x1_S256x1_S100000x256_1_1_0_0_n_n.rhsIdx i ((ValueIdx.contrEquiv1 dot_S100000x1_S256x1_S100000x256_1_1_0_0_n_n 1 rfl rfl).symm k) = ridx_cwT i k := funext fun a => Fin.ext (by
    match a with
    | ⟨0, _⟩ => exact rhs_cwT_0 _ _
    | ⟨1, _⟩ => exact (rhs_cwT_1 _ _).trans hk)
  rw [el, er]

theorem dot_xWT_apply (y0 : (⟨S100000x256, .f32⟩ : BufTy).Contents (Elt Ideal)) (y1 : (⟨S256x256, .f32⟩ : BufTy).Contents (Elt Ideal)) (i : S100000x256.Idx) :
    Host.dotGeneral (F := Ideal) (φ₁ := .f32) (φ₂ := .f32) dot_S100000x256_S256x256_S100000x256_1_1_0_0_n_n none y0 y1 i = ∑ k : Fin 256, y0 (lidx_xWT i k) * y1 (ridx_xWT i k) := by
  simp only [Host.dotGeneral]
  rw [Ideal.dotGeneral_apply, ← Equiv.sum_comp (ValueIdx.contrEquiv1 dot_S100000x256_S256x256_S100000x256_1_1_0_0_n_n 256 rfl rfl).symm]
  refine Finset.sum_congr rfl fun k _ => ?_
  have hk := ValueIdx.contrEquiv1_symm_val dot_S100000x256_S256x256_S100000x256_1_1_0_0_n_n 256 rfl rfl k
  have el : dot_S100000x256_S256x256_S100000x256_1_1_0_0_n_n.lhsIdx i ((ValueIdx.contrEquiv1 dot_S100000x256_S256x256_S100000x256_1_1_0_0_n_n 256 rfl rfl).symm k) = lidx_xWT i k := funext fun a => Fin.ext (by
    match a with
    | ⟨0, _⟩ => exact lhs_xWT_0 _ _
    | ⟨1, _⟩ => exact (lhs_xWT_1 _ _).trans hk)
  have er : dot_S100000x256_S256x256_S100000x256_1_1_0_0_n_n.rhsIdx i ((ValueIdx.contrEquiv1 dot_S100000x256_S256x256_S100000x256_1_1_0_0_n_n 256 rfl rfl).symm k) = ridx_xWT i k := funext fun a => Fin.ext (by
    match a with
    | ⟨0, _⟩ => exact rhs_xWT_0 _ _
    | ⟨1, _⟩ => exact (rhs_xWT_1 _ _).trans hk)
  rw [el, er]

theorem val_main_v3_apply (i : S100000x256.Idx) :
    val_main_v3 (F := Ideal) x0 x5 i = ∑ k : Fin 256, x0 (lidx_main_v3 i k) * (val_main_v2 (F := Ideal) x5) (ridx_main_v3 i k) :=
  dot_xW_apply _ _ i

theorem val_main_v14_apply (i : S100000x256.Idx) :
    val_main_v14 (F := Ideal) x0 x5 x6 x7 i = ∑ k : Fin 256, (val_main_v9 (F := Ideal) x0 x5 x6) (lidx_main_v14 i k) * (val_main_v13 (F := Ideal) x7) (ridx_main_v14 i k) :=
  dot_xW_apply _ _ i

theorem val_main_v25_apply (i : S100000x1.Idx) :
    val_main_v25 (F := Ideal) x0 x5 x6 x7 x8 x9 i = ∑ k : Fin 256, (val_main_v20 (F := Ideal) x0 x5 x6 x7 x8) (lidx_main_v25 i k) * (val_main_v24 (F := Ideal) x9) (ridx_main_v25 i k) :=
  dot_xw_apply _ _ i

theorem val_main_v33_apply (i : S100000x1.Idx) :
    val_main_v33 (F := Ideal) x0 x11 i = ∑ k : Fin 256, x0 (lidx_main_v33 i k) * (val_main_v32 (F := Ideal) x11) (ridx_main_v33 i k) :=
  dot_xw_apply _ _ i

theorem val_main_v46_apply (i : S100000x256.Idx) :
    val_main_v46 (F := Ideal) x0 x5 i = ∑ k : Fin 256, x0 (lidx_main_v46 i k) * (val_main_v45 (F := Ideal) x5) (ridx_main_v46 i k) :=
  dot_xW_apply _ _ i

theorem val_main_v57_apply (i : S100000x256.Idx) :
    val_main_v57 (F := Ideal) x0 x5 x6 x7 i = ∑ k : Fin 256, (val_main_v52 (F := Ideal) x0 x5 x6) (lidx_main_v57 i k) * (val_main_v56 (F := Ideal) x7) (ridx_main_v57 i k) :=
  dot_xW_apply _ _ i

theorem val_main_v68_apply (i : S100000x1.Idx) :
    val_main_v68 (F := Ideal) x0 x5 x6 x7 x8 x9 i = ∑ k : Fin 256, (val_main_v63 (F := Ideal) x0 x5 x6 x7 x8) (lidx_main_v68 i k) * (val_main_v67 (F := Ideal) x9) (ridx_main_v68 i k) :=
  dot_xw_apply _ _ i

theorem val_main_v76_apply (i : S100000x1.Idx) :
    val_main_v76 (F := Ideal) x0 x11 i = ∑ k : Fin 256, x0 (lidx_main_v76 i k) * (val_main_v75 (F := Ideal) x11) (ridx_main_v76 i k) :=
  dot_xw_apply _ _ i

theorem val_main_v89_apply (i : S100000x256.Idx) :
    val_main_v89 (F := Ideal) x0 x5 i = ∑ k : Fin 256, x0 (lidx_main_v89 i k) * (val_main_v88 (F := Ideal) x5) (ridx_main_v89 i k) :=
  dot_xW_apply _ _ i

theorem val_main_v100_apply (i : S100000x256.Idx) :
    val_main_v100 (F := Ideal) x0 x5 x6 x7 i = ∑ k : Fin 256, (val_main_v95 (F := Ideal) x0 x5 x6) (lidx_main_v100 i k) * (val_main_v99 (F := Ideal) x7) (ridx_main_v100 i k) :=
  dot_xW_apply _ _ i

theorem val_main_v111_apply (i : S100000x1.Idx) :
    val_main_v111 (F := Ideal) x0 x5 x6 x7 x8 x9 i = ∑ k : Fin 256, (val_main_v106 (F := Ideal) x0 x5 x6 x7 x8) (lidx_main_v111 i k) * (val_main_v110 (F := Ideal) x9) (ridx_main_v111 i k) :=
  dot_xw_apply _ _ i

theorem val_main_v119_apply (i : S100000x1.Idx) :
    val_main_v119 (F := Ideal) x0 x11 i = ∑ k : Fin 256, x0 (lidx_main_v119 i k) * (val_main_v118 (F := Ideal) x11) (ridx_main_v119 i k) :=
  dot_xw_apply _ _ i

theorem val_main_v132_apply (i : S100000x256.Idx) :
    val_main_v132 (F := Ideal) x0 x5 i = ∑ k : Fin 256, x0 (lidx_main_v132 i k) * (val_main_v131 (F := Ideal) x5) (ridx_main_v132 i k) :=
  dot_xW_apply _ _ i

theorem val_main_v143_apply (i : S100000x256.Idx) :
    val_main_v143 (F := Ideal) x0 x5 x6 x7 i = ∑ k : Fin 256, (val_main_v138 (F := Ideal) x0 x5 x6) (lidx_main_v143 i k) * (val_main_v142 (F := Ideal) x7) (ridx_main_v143 i k) :=
  dot_xW_apply _ _ i

theorem val_main_v154_apply (i : S100000x1.Idx) :
    val_main_v154 (F := Ideal) x0 x5 x6 x7 x8 x9 i = ∑ k : Fin 256, (val_main_v149 (F := Ideal) x0 x5 x6 x7 x8) (lidx_main_v154 i k) * (val_main_v153 (F := Ideal) x9) (ridx_main_v154 i k) :=
  dot_xw_apply _ _ i

theorem val_main_v162_apply (i : S100000x1.Idx) :
    val_main_v162 (F := Ideal) x0 x11 i = ∑ k : Fin 256, x0 (lidx_main_v162 i k) * (val_main_v161 (F := Ideal) x11) (ridx_main_v162 i k) :=
  dot_xw_apply _ _ i

theorem val_main_v178_apply (i : S100000x256.Idx) :
    val_main_v178 (F := Ideal) x1 x11 i = ∑ k : Fin 1, (val_main_v177_0 (F := Ideal) x1) (lidx_main_v178 i k) * (val_main_v161 (F := Ideal) x11) (ridx_main_v178 i k) :=
  dot_cwT_apply _ _ i

theorem val_main_v179_apply (i : S100000x256.Idx) :
    val_main_v179 (F := Ideal) x1 x9 i = ∑ k : Fin 1, (val_main_v177_0 (F := Ideal) x1) (lidx_main_v179 i k) * (val_main_v153 (F := Ideal) x9) (ridx_main_v179 i k) :=
  dot_cwT_apply _ _ i

theorem val_main_v183_apply (i : S100000x256.Idx) :
    val_main_v183 (F := Ideal) x0 x1 x5 x6 x7 x8 x9 i = ∑ k : Fin 256, (val_main_v182 (F := Ideal) x0 x1 x5 x6 x7 x8 x9) (lidx_main_v183 i k) * (val_main_v142 (F := Ideal) x7) (ridx_main_v183 i k) :=
  dot_xWT_apply _ _ i

theorem val_main_v187_apply (i : S100000x256.Idx) :
    val_main_v187 (F := Ideal) x0 x1 x5 x6 x7 x8 x9 i = ∑ k : Fin 256, (val_main_v186 (F := Ideal) x0 x1 x5 x6 x7 x8 x9) (lidx_main_v187 i k) * (val_main_v131 (F := Ideal) x5) (ridx_main_v187 i k) :=
  dot_xWT_apply _ _ i

theorem val_main_v190_apply (i : S100000x256.Idx) :
    val_main_v190 (F := Ideal) x1 x11 i = ∑ k : Fin 1, (val_main_v189_0 (F := Ideal) x1) (lidx_main_v190 i k) * (val_main_v118 (F := Ideal) x11) (ridx_main_v190 i k) :=
  dot_cwT_apply _ _ i

theorem val_main_v192_apply (i : S100000x256.Idx) :
    val_main_v192 (F := Ideal) x1 x9 i = ∑ k : Fin 1, (val_main_v189_0 (F := Ideal) x1) (lidx_main_v192 i k) * (val_main_v110 (F := Ideal) x9) (ridx_main_v192 i k) :=
  dot_cwT_apply _ _ i

theorem val_main_v196_apply (i : S100000x256.Idx) :
    val_main_v196 (F := Ideal) x0 x1 x5 x6 x7 x8 x9 i = ∑ k : Fin 256, (val_main_v195 (F := Ideal) x0 x1 x5 x6 x7 x8 x9) (lidx_main_v196 i k) * (val_main_v99 (F := Ideal) x7) (ridx_main_v196 i k) :=
  dot_xWT_apply _ _ i

theorem val_main_v200_apply (i : S100000x256.Idx) :
    val_main_v200 (F := Ideal) x0 x1 x5 x6 x7 x8 x9 i = ∑ k : Fin 256, (val_main_v199 (F := Ideal) x0 x1 x5 x6 x7 x8 x9) (lidx_main_v200 i k) * (val_main_v88 (F := Ideal) x5) (ridx_main_v200 i k) :=
  dot_xWT_apply _ _ i

theorem val_main_v203_apply (i : S100000x256.Idx) :
    val_main_v203 (F := Ideal) x1 x11 i = ∑ k : Fin 1, (val_main_v202_0 (F := Ideal) x1) (lidx_main_v203 i k) * (val_main_v75 (F := Ideal) x11) (ridx_main_v203 i k) :=
  dot_cwT_apply _ _ i

theorem val_main_v205_apply (i : S100000x256.Idx) :
    val_main_v205 (F := Ideal) x1 x9 i = ∑ k : Fin 1, (val_main_v202_0 (F := Ideal) x1) (lidx_main_v205 i k) * (val_main_v67 (F := Ideal) x9) (ridx_main_v205 i k) :=
  dot_cwT_apply _ _ i

theorem val_main_v209_apply (i : S100000x256.Idx) :
    val_main_v209 (F := Ideal) x0 x1 x5 x6 x7 x8 x9 i = ∑ k : Fin 256, (val_main_v208 (F := Ideal) x0 x1 x5 x6 x7 x8 x9) (lidx_main_v209 i k) * (val_main_v56 (F := Ideal) x7) (ridx_main_v209 i k) :=
  dot_xWT_apply _ _ i

theorem val_main_v213_apply (i : S100000x256.Idx) :
    val_main_v213 (F := Ideal) x0 x1 x5 x6 x7 x8 x9 i = ∑ k : Fin 256, (val_main_v212 (F := Ideal) x0 x1 x5 x6 x7 x8 x9) (lidx_main_v213 i k) * (val_main_v45 (F := Ideal) x5) (ridx_main_v213 i k) :=
  dot_xWT_apply _ _ i

theorem val_main_v216_apply (i : S100000x256.Idx) :
    val_main_v216 (F := Ideal) x1 x11 i = ∑ k : Fin 1, (val_main_v215 (F := Ideal) x1) (lidx_main_v216 i k) * (val_main_v32 (F := Ideal) x11) (ridx_main_v216 i k) :=
  dot_cwT_apply _ _ i

theorem val_main_v218_apply (i : S100000x256.Idx) :
    val_main_v218 (F := Ideal) x1 x9 i = ∑ k : Fin 1, (val_main_v215 (F := Ideal) x1) (lidx_main_v218 i k) * (val_main_v24 (F := Ideal) x9) (ridx_main_v218 i k) :=
  dot_cwT_apply _ _ i

theorem val_main_v222_apply (i : S100000x256.Idx) :
    val_main_v222 (F := Ideal) x0 x1 x5 x6 x7 x8 x9 i = ∑ k : Fin 256, (val_main_v221 (F := Ideal) x0 x1 x5 x6 x7 x8 x9) (lidx_main_v222 i k) * (val_main_v13 (F := Ideal) x7) (ridx_main_v222 i k) :=
  dot_xWT_apply _ _ i

theorem val_main_v226_apply (i : S100000x256.Idx) :
    val_main_v226 (F := Ideal) x0 x1 x5 x6 x7 x8 x9 i = ∑ k : Fin 256, (val_main_v225 (F := Ideal) x0 x1 x5 x6 x7 x8 x9) (lidx_main_v226 i k) * (val_main_v2 (F := Ideal) x5) (ridx_main_v226 i k) :=
  dot_xWT_apply _ _ i

theorem val_main_v238_apply (i : S200000x3.Idx) :
    val_main_v238 (F := Ideal) x0 x1 x3 x4 x5 x6 x7 x8 x9 x11 i = (val_main_cst_15 (F := Ideal)) (Shape.Idx.first h_S_) + ∑ k : Fin 256, (val_main_v237 (F := Ideal) x0 x1 x3 x4 x5 x6 x7 x8 x9 x11) (idx_main_v238 i k) := by
  unfold val_main_v238
  generalize val_main_v237 (F := Ideal) x0 x1 x3 x4 x5 x6 x7 x8 x9 x11 = y0
  simp only [Host.reduceAdd, Ideal.hostReduceAdd_def]
  rw [Ideal.hostReduceAdd_single reducesTo_S200000x3x256_S200000x3_d2 (by decide)]
  refine congrArg (_ + ·) (Finset.sum_congr rfl fun k _ => ?_)
  exact congrArg y0 (funext fun a => Fin.ext (by match a with | ⟨0, _⟩ => rfl | ⟨1, _⟩ => rfl | ⟨2, _⟩ => rfl))

end

end Cert.ReferenceIdeal.Read

end
-- ==== Proof.RefStep.lean ====
import Idealize.ShloMosaic.Lib.StableHlo.Run

open Idealize.ShloMosaic Idealize.ShloMosaic.StableHlo

/-- Closes "this buffer holds this stage function" after a list of host operations, from the same facts before it. -/
macro "stretch" : tactic =>
  `(tactic| (simp (disch := decide) only [after_cons, after_nil, nullary_result', unary_result', binary_result', ternary_result', quaternary_result', reshape_result', nullary_result_ne', unary_result_ne', binary_result_ne', ternary_result_ne', quaternary_result_ne', reshape_result_ne', *] <;> (try simp only [TRef.ofBuf, TRef.toBuf, cast_eq]) <;> rfl))
-- ==== Proof.RefRunA.lean ====
import proofs.«428180_j4174708212170_2_alg».proof.Proof.RefRead
import proofs.«428180_j4174708212170_2_alg».proof.Proof.RefStep

noncomputable section

namespace Cert.RefRun

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

abbrev opsA : List (HloOp τ sig (Elt F)) :=
  [ nullary main_cst (constant S_ .f32 0x00000000#32),
    unary main_cst main_v0 (broadcastInDim S100000x1 ![] bcast_S_S100000x1 : (⟨S_, .f32⟩ : BufTy).Contents (Elt F) → (⟨S100000x1, .f32⟩ : BufTy).Contents (Elt F)),
    unary main_arg5 main_v1 ((extractStridedSlice S1x256x256 ![0, 0, 0] · slices_S4x256x256_S1x256x256_0_0_0) : (⟨S4x256x256, .f32⟩ : BufTy).Contents (Elt F) → (⟨S1x256x256, .f32⟩ : BufTy).Contents (Elt F)),
    reshape main_v1 main_v2 rfl shapeCasts_S1x256x256_S256x256,
    binary main_arg0 main_v2 main_v3 ((fun l r => Host.dotGeneral dot_S100000x256_S256x256_S100000x256_1_0_0_1_n_n none l r) : (⟨S100000x256, .f32⟩ : BufTy).Contents (Elt F) → (⟨S256x256, .f32⟩ : BufTy).Contents (Elt F) → (⟨S100000x256, .f32⟩ : BufTy).Contents (Elt F)),
    unary main_arg6 main_v4 ((extractStridedSlice S1x256 ![0, 0] · slices_S4x256_S1x256_0_0) : (⟨S4x256, .f32⟩ : BufTy).Contents (Elt F) → (⟨S1x256, .f32⟩ : BufTy).Contents (Elt F)),
    reshape main_v4 main_v5 rfl shapeCasts_S1x256_S256,
    unary main_v5 main_v6 (broadcastInDim S1x256 ![1] bcast_S256_S1x256_1 : (⟨S256, .f32⟩ : BufTy).Contents (Elt F) → (⟨S1x256, .f32⟩ : BufTy).Contents (Elt F)),
    unary main_v6 main_v7 (broadcastInDim S100000x256 ![0, 1] bcast_S1x256_S100000x256_0_1 : (⟨S1x256, .f32⟩ : BufTy).Contents (Elt F) → (⟨S100000x256, .f32⟩ : BufTy).Contents (Elt F)),
    binary main_v3 main_v7 main_v8 (addf : (⟨S100000x256, .f32⟩ : BufTy).Contents (Elt F) → (⟨S100000x256, .f32⟩ : BufTy).Contents (Elt F) → (⟨S100000x256, .f32⟩ : BufTy).Contents (Elt F)),
    unary main_v8 main_v9 (Host.tanh : (⟨S100000x256, .f32⟩ : BufTy).Contents (Elt F) → (⟨S100000x256, .f32⟩ : BufTy).Contents (Elt F)),
    nullary main_cst_0 (constant S_ .f32 0x3F800000#32),
    unary main_cst_0 main_v10 (broadcastInDim S100000x256 ![] bcast_S_S100000x256 : (⟨S_, .f32⟩ : BufTy).Contents (Elt F) → (⟨S100000x256, .f32⟩ : BufTy).Contents (Elt F)),
    binary main_v10 main_v9 main_v11 (subf : (⟨S100000x256, .f32⟩ : BufTy).Contents (Elt F) → (⟨S100000x256, .f32⟩ : BufTy).Contents (Elt F) → (⟨S100000x256, .f32⟩ : BufTy).Contents (Elt F)),
    unary main_arg7 main_v12 ((extractStridedSlice S1x256x256 ![0, 0, 0] · slices_S4x256x256_S1x256x256_0_0_0) : (⟨S4x256x256, .f32⟩ : BufTy).Contents (Elt F) → (⟨S1x256x256, .f32⟩ : BufTy).Contents (Elt F)),
    reshape main_v12 main_v13 rfl shapeCasts_S1x256x256_S256x256,
    binary main_v9 main_v13 main_v14 ((fun l r => Host.dotGeneral dot_S100000x256_S256x256_S100000x256_1_0_0_1_n_n none l r) : (⟨S100000x256, .f32⟩ : BufTy).Contents (Elt F) → (⟨S256x256, .f32⟩ : BufTy).Contents (Elt F) → (⟨S100000x256, .f32⟩ : BufTy).Contents (Elt F)),
    unary main_arg8 main_v15 ((extractStridedSlice S1x256 ![0, 0] · slices_S4x256_S1x256_0_0) : (⟨S4x256, .f32⟩ : BufTy).Contents (Elt F) → (⟨S1x256, .f32⟩ : BufTy).Contents (Elt F)),
    reshape main_v15 main_v16 rfl shapeCasts_S1x256_S256,
    unary main_v16 main_v17 (broadcastInDim S1x256 ![1] bcast_S256_S1x256_1 : (⟨S256, .f32⟩ : BufTy).Contents (Elt F) → (⟨S1x256, .f32⟩ : BufTy).Contents (Elt F)),
    unary main_v17 main_v18 (broadcastInDim S100000x256 ![0, 1] bcast_S1x256_S100000x256_0_1 : (⟨S1x256, .f32⟩ : BufTy).Contents (Elt F) → (⟨S100000x256, .f32⟩ : BufTy).Contents (Elt F)),
    binary main_v14 main_v18 main_v19 (addf : (⟨S100000x256, .f32⟩ : BufTy).Contents (Elt F) → (⟨S100000x256, .f32⟩ : BufTy).Contents (Elt F) → (⟨S100000x256, .f32⟩ : BufTy).Contents (Elt F)),
    unary main_v19 main_v20 (Host.tanh : (⟨S100000x256, .f32⟩ : BufTy).Contents (Elt F) → (⟨S100000x256, .f32⟩ : BufTy).Contents (Elt F)),
    nullary main_cst_1 (constant S_ .f32 0x3F800000#32),
    unary main_cst_1 main_v21 (broadcastInDim S100000x256 ![] bcast_S_S100000x256 : (⟨S_, .f32⟩ : BufTy).Contents (Elt F) → (⟨S100000x256, .f32⟩ : BufTy).Contents (Elt F)),
    binary main_v21 main_v20 main_v22 (subf : (⟨S100000x256, .f32⟩ : BufTy).Contents (Elt F) → (⟨S100000x256, .f32⟩ : BufTy).Contents (Elt F) → (⟨S100000x256, .f32⟩ : BufTy).Contents (Elt F)),
    unary main_arg9 main_v23 ((extractStridedSlice S1x256x1 ![0, 0, 0] · slices_S4x256x1_S1x256x1_0_0_0) : (⟨S4x256x1, .f32⟩ : BufTy).Contents (Elt F) → (⟨S1x256x1, .f32⟩ : BufTy).Contents (Elt F)),
    reshape main_v23 main_v24 rfl shapeCasts_S1x256x1_S256x1,
    binary main_v20 main_v24 main_v25 ((fun l r => Host.dotGeneral dot_S100000x256_S256x1_S100000x1_1_0_0_1_n_n none l r) : (⟨S100000x256, .f32⟩ : BufTy).Contents (Elt F) → (⟨S256x1, .f32⟩ : BufTy).Contents (Elt F) → (⟨S100000x1, .f32⟩ : BufTy).Contents (Elt F)),
    unary main_arg10 main_v26 ((extractStridedSlice S1x1 ![0, 0] · slices_S4x1_S1x1_0_0) : (⟨S4x1, .f32⟩ : BufTy).Contents (Elt F) → (⟨S1x1, .f32⟩ : BufTy).Contents (Elt F)),
    reshape main_v26 main_v27 rfl shapeCasts_S1x1_S1,
    unary main_v27 main_v28 (broadcastInDim S1x1 ![1] bcast_S1_S1x1_1 : (⟨S1, .f32⟩ : BufTy).Contents (Elt F) → (⟨S1x1, .f32⟩ : BufTy).Contents (Elt F)),
    unary main_v28 main_v29 (broadcastInDim S100000x1 ![0, 1] bcast_S1x1_S100000x1_0_1 : (⟨S1x1, .f32⟩ : BufTy).Contents (Elt F) → (⟨S100000x1, .f32⟩ : BufTy).Contents (Elt F)),
    binary main_v25 main_v29 main_v30 (addf : (⟨S100000x1, .f32⟩ : BufTy).Contents (Elt F) → (⟨S100000x1, .f32⟩ : BufTy).Contents (Elt F) → (⟨S100000x1, .f32⟩ : BufTy).Contents (Elt F)),
    unary main_arg11 main_v31 ((extractStridedSlice S1x256x1 ![0, 0, 0] · slices_S4x256x1_S1x256x1_0_0_0) : (⟨S4x256x1, .f32⟩ : BufTy).Contents (Elt F) → (⟨S1x256x1, .f32⟩ : BufTy).Contents (Elt F)),
    reshape main_v31 main_v32 rfl shapeCasts_S1x256x1_S256x1,
    binary main_arg0 main_v32 main_v33 ((fun l r => Host.dotGeneral dot_S100000x256_S256x1_S100000x1_1_0_0_1_n_n none l r) : (⟨S100000x256, .f32⟩ : BufTy).Contents (Elt F) → (⟨S256x1, .f32⟩ : BufTy).Contents (Elt F) → (⟨S100000x1, .f32⟩ : BufTy).Contents (Elt F)),
    binary main_v30 main_v33 main_v34 (addf : (⟨S100000x1, .f32⟩ : BufTy).Contents (Elt F) → (⟨S100000x1, .f32⟩ : BufTy).Contents (Elt F) → (⟨S100000x1, .f32⟩ : BufTy).Contents (Elt F)),
    unary main_arg12 main_v35 ((extractStridedSlice S1x1 ![0, 0] · slices_S4x1_S1x1_0_0) : (⟨S4x1, .f32⟩ : BufTy).Contents (Elt F) → (⟨S1x1, .f32⟩ : BufTy).Contents (Elt F)),
    reshape main_v35 main_v36 rfl shapeCasts_S1x1_S1,
    unary main_v36 main_v37 (broadcastInDim S1x1 ![1] bcast_S1_S1x1_1 : (⟨S1, .f32⟩ : BufTy).Contents (Elt F) → (⟨S1x1, .f32⟩ : BufTy).Contents (Elt F)),
    unary main_v37 main_v38 (broadcastInDim S100000x1 ![0, 1] bcast_S1x1_S100000x1_0_1 : (⟨S1x1, .f32⟩ : BufTy).Contents (Elt F) → (⟨S100000x1, .f32⟩ : BufTy).Contents (Elt F)),
    binary main_v34 main_v38 main_v39 (addf : (⟨S100000x1, .f32⟩ : BufTy).Contents (Elt F) → (⟨S100000x1, .f32⟩ : BufTy).Contents (Elt F) → (⟨S100000x1, .f32⟩ : BufTy).Contents (Elt F)),
    nullary main_c (constantI S_ 32 0#32),
    unary main_c main_v40 (broadcastInDim S100000 ![] bcast_S_S100000 : (⟨S_, .i32⟩ : BufTy).Contents (Elt F) → (⟨S100000, .i32⟩ : BufTy).Contents (Elt F)),
    binary main_arg1 main_v40 main_v41 (cmpi .eq : (⟨S100000, .i32⟩ : BufTy).Contents (Elt F) → (⟨S100000, .i32⟩ : BufTy).Contents (Elt F) → (⟨S100000, .i1⟩ : BufTy).Contents (Elt F)),
    unary main_v41 main_v42 (broadcastInDim S100000x1 ![0] bcast_S100000_S100000x1_0 : (⟨S100000, .i1⟩ : BufTy).Contents (Elt F) → (⟨S100000x1, .i1⟩ : BufTy).Contents (Elt F)),
    TRef.ternary (TRef.of (T := ⟨S100000x1, .i1⟩) main_v42) (TRef.of (T := ⟨S100000x1, .f32⟩) main_v39) (TRef.of (T := ⟨S100000x1, .f32⟩) main_v0) (TRef.of (T := ⟨S100000x1, .f32⟩) main_v43_0) select,
    TRef.nullary (TRef.of (T := ⟨S_, .f32⟩) main_call0_cst) (constant S_ .f32 0x00000000#32),
    TRef.unary (TRef.of (T := ⟨S_, .f32⟩) main_call0_cst) (TRef.of (T := ⟨S100000x1, .f32⟩) main_v43_1) (broadcastInDim S100000x1 ![] bcast_S_S100000x1),
    unary main_arg5 main_v44 ((extractStridedSlice S1x256x256 ![1, 0, 0] · slices_S4x256x256_S1x256x256_1_0_0) : (⟨S4x256x256, .f32⟩ : BufTy).Contents (Elt F) → (⟨S1x256x256, .f32⟩ : BufTy).Contents (Elt F)),
    reshape main_v44 main_v45 rfl shapeCasts_S1x256x256_S256x256,
    binary main_arg0 main_v45 main_v46 ((fun l r => Host.dotGeneral dot_S100000x256_S256x256_S100000x256_1_0_0_1_n_n none l r) : (⟨S100000x256, .f32⟩ : BufTy).Contents (Elt F) → (⟨S256x256, .f32⟩ : BufTy).Contents (Elt F) → (⟨S100000x256, .f32⟩ : BufTy).Contents (Elt F)),
    unary main_arg6 main_v47 ((extractStridedSlice S1x256 ![1, 0] · slices_S4x256_S1x256_1_0) : (⟨S4x256, .f32⟩ : BufTy).Contents (Elt F) → (⟨S1x256, .f32⟩ : BufTy).Contents (Elt F)),
    reshape main_v47 main_v48 rfl shapeCasts_S1x256_S256,
    unary main_v48 main_v49 (broadcastInDim S1x256 ![1] bcast_S256_S1x256_1 : (⟨S256, .f32⟩ : BufTy).Contents (Elt F) → (⟨S1x256, .f32⟩ : BufTy).Contents (Elt F)),
    unary main_v49 main_v50 (broadcastInDim S100000x256 ![0, 1] bcast_S1x256_S100000x256_0_1 : (⟨S1x256, .f32⟩ : BufTy).Contents (Elt F) → (⟨S100000x256, .f32⟩ : BufTy).Contents (Elt F)),
    binary main_v46 main_v50 main_v51 (addf : (⟨S100000x256, .f32⟩ : BufTy).Contents (Elt F) → (⟨S100000x256, .f32⟩ : BufTy).Contents (Elt F) → (⟨S100000x256, .f32⟩ : BufTy).Contents (Elt F)),
    unary main_v51 main_v52 (Host.tanh : (⟨S100000x256, .f32⟩ : BufTy).Contents (Elt F) → (⟨S100000x256, .f32⟩ : BufTy).Contents (Elt F)),
    nullary main_cst_2 (constant S_ .f32 0x3F800000#32),
    unary main_cst_2 main_v53 (broadcastInDim S100000x256 ![] bcast_S_S100000x256 : (⟨S_, .f32⟩ : BufTy).Contents (Elt F) → (⟨S100000x256, .f32⟩ : BufTy).Contents (Elt F)),
    binary main_v53 main_v52 main_v54 (subf : (⟨S100000x256, .f32⟩ : BufTy).Contents (Elt F) → (⟨S100000x256, .f32⟩ : BufTy).Contents (Elt F) → (⟨S100000x256, .f32⟩ : BufTy).Contents (Elt F)) ]

set_option maxRecDepth 8192 in
set_option maxHeartbeats 4000000 in
theorem partA_eq (c : Dev nD) : main_part0 (F := F) c = seq opsA := rfl

theorem opsA_sub : (opsA : List (HloOp τ sig (Elt F))).Forall fun op => op.bufs ⊆ tcRefs τ sig :=
  ⟨nullary_bufs_sub .., unary_bufs_sub .., unary_bufs_sub .., reshape_bufs_sub .., binary_bufs_sub .., unary_bufs_sub .., reshape_bufs_sub .., unary_bufs_sub .., unary_bufs_sub .., binary_bufs_sub .., unary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., binary_bufs_sub .., binary_bufs_sub .., unary_bufs_sub .., reshape_bufs_sub .., unary_bufs_sub .., unary_bufs_sub .., binary_bufs_sub .., nullary_bufs_sub .., unary_bufs_sub .., binary_bufs_sub .., unary_bufs_sub .., ternary_bufs_sub .., nullary_bufs_sub .., unary_bufs_sub .., unary_bufs_sub .., reshape_bufs_sub .., binary_bufs_sub .., unary_bufs_sub .., reshape_bufs_sub .., unary_bufs_sub .., unary_bufs_sub .., binary_bufs_sub .., unary_bufs_sub .., nullary_bufs_sub .., unary_bufs_sub .., binary_bufs_sub ..⟩

theorem opsA_fresh : ∀ op ∈ (opsA : List (HloOp τ sig (Elt F))), op.fresh = ∅ := by
  intro _ h; (repeat (cases h with | head => rfl | tail _ h => ?_)); exact nomatch h

variable (V : Valuation τ sig (Elt F))
  (x0 : (⟨S100000x256, .f32⟩ : BufTy).Contents (Elt F)) (x1 : (⟨S100000, .i32⟩ : BufTy).Contents (Elt F)) (x2 : (⟨S100000, .i32⟩ : BufTy).Contents (Elt F))
  (x3 : (⟨S200000x3x256, .f32⟩ : BufTy).Contents (Elt F)) (x4 : (⟨S200000, .i32⟩ : BufTy).Contents (Elt F)) (x5 : (⟨S4x256x256, .f32⟩ : BufTy).Contents (Elt F))
  (x6 : (⟨S4x256, .f32⟩ : BufTy).Contents (Elt F)) (x7 : (⟨S4x256x256, .f32⟩ : BufTy).Contents (Elt F)) (x8 : (⟨S4x256, .f32⟩ : BufTy).Contents (Elt F))
  (x9 : (⟨S4x256x1, .f32⟩ : BufTy).Contents (Elt F)) (x10 : (⟨S4x1, .f32⟩ : BufTy).Contents (Elt F)) (x11 : (⟨S4x256x1, .f32⟩ : BufTy).Contents (Elt F))
  (x12 : (⟨S4x1, .f32⟩ : BufTy).Contents (Elt F))

structure PreA : Prop where
  arg0 : V (Proc.devRef .tc main_arg0) = x0
  arg1 : V (Proc.devRef .tc main_arg1) = x1
  arg2 : V (Proc.devRef .tc main_arg2) = x2
  arg3 : V (Proc.devRef .tc main_arg3) = x3
  arg4 : V (Proc.devRef .tc main_arg4) = x4
  arg5 : V (Proc.devRef .tc main_arg5) = x5
  arg6 : V (Proc.devRef .tc main_arg6) = x6
  arg7 : V (Proc.devRef .tc main_arg7) = x7
  arg8 : V (Proc.devRef .tc main_arg8) = x8
  arg9 : V (Proc.devRef .tc main_arg9) = x9
  arg10 : V (Proc.devRef .tc main_arg10) = x10
  arg11 : V (Proc.devRef .tc main_arg11) = x11
  arg12 : V (Proc.devRef .tc main_arg12) = x12

structure PostA : Prop where
  arg0 : V (Proc.devRef .tc main_arg0) = x0
  arg1 : V (Proc.devRef .tc main_arg1) = x1
  arg2 : V (Proc.devRef .tc main_arg2) = x2
  arg3 : V (Proc.devRef .tc main_arg3) = x3
  arg4 : V (Proc.devRef .tc main_arg4) = x4
  arg5 : V (Proc.devRef .tc main_arg5) = x5
  arg6 : V (Proc.devRef .tc main_arg6) = x6
  arg7 : V (Proc.devRef .tc main_arg7) = x7
  arg8 : V (Proc.devRef .tc main_arg8) = x8
  arg9 : V (Proc.devRef .tc main_arg9) = x9
  arg10 : V (Proc.devRef .tc main_arg10) = x10
  arg11 : V (Proc.devRef .tc main_arg11) = x11
  arg12 : V (Proc.devRef .tc main_arg12) = x12
  v2 : V (Proc.devRef .tc main_v2) = val_main_v2 (F := F) x5
  v9 : V (Proc.devRef .tc main_v9) = val_main_v9 (F := F) x0 x5 x6
  v11 : V (Proc.devRef .tc main_v11) = val_main_v11 (F := F) x0 x5 x6
  v13 : V (Proc.devRef .tc main_v13) = val_main_v13 (F := F) x7
  v20 : V (Proc.devRef .tc main_v20) = val_main_v20 (F := F) x0 x5 x6 x7 x8
  v22 : V (Proc.devRef .tc main_v22) = val_main_v22 (F := F) x0 x5 x6 x7 x8
  v24 : V (Proc.devRef .tc main_v24) = val_main_v24 (F := F) x9
  v32 : V (Proc.devRef .tc main_v32) = val_main_v32 (F := F) x11
  v42 : V (Proc.devRef .tc main_v42) = val_main_v42 (F := F) x1
  v43_0 : V (Proc.devRef .tc main_v43_0) = val_main_v43_0 (F := F) x0 x1 x5 x6 x7 x8 x9 x10 x11 x12
  v45 : V (Proc.devRef .tc main_v45) = val_main_v45 (F := F) x5
  v52 : V (Proc.devRef .tc main_v52) = val_main_v52 (F := F) x0 x5 x6
  v54 : V (Proc.devRef .tc main_v54) = val_main_v54 (F := F) x0 x5 x6

set_option maxRecDepth 8192 in
set_option maxHeartbeats 4000000 in
theorem stepA (h : PreA V x0 x1 x2 x3 x4 x5 x6 x7 x8 x9 x10 x11 x12) : PostA (after opsA V) x0 x1 x2 x3 x4 x5 x6 x7 x8 x9 x10 x11 x12 := by
  cases h; constructor <;> stretch

end Cert.RefRun

end
-- ==== Proof.RefRunB.lean ====
import proofs.«428180_j4174708212170_2_alg».proof.Proof.RefRead
import proofs.«428180_j4174708212170_2_alg».proof.Proof.RefStep

noncomputable section

namespace Cert.RefRun

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

abbrev opsB : List (HloOp τ sig (Elt F)) :=
  [ unary main_arg7 main_v55 ((extractStridedSlice S1x256x256 ![1, 0, 0] · slices_S4x256x256_S1x256x256_1_0_0) : (⟨S4x256x256, .f32⟩ : BufTy).Contents (Elt F) → (⟨S1x256x256, .f32⟩ : BufTy).Contents (Elt F)),
    reshape main_v55 main_v56 rfl shapeCasts_S1x256x256_S256x256,
    binary main_v52 main_v56 main_v57 ((fun l r => Host.dotGeneral dot_S100000x256_S256x256_S100000x256_1_0_0_1_n_n none l r) : (⟨S100000x256, .f32⟩ : BufTy).Contents (Elt F) → (⟨S256x256, .f32⟩ : BufTy).Contents (Elt F) → (⟨S100000x256, .f32⟩ : BufTy).Contents (Elt F)),
    unary main_arg8 main_v58 ((extractStridedSlice S1x256 ![1, 0] · slices_S4x256_S1x256_1_0) : (⟨S4x256, .f32⟩ : BufTy).Contents (Elt F) → (⟨S1x256, .f32⟩ : BufTy).Contents (Elt F)),
    reshape main_v58 main_v59 rfl shapeCasts_S1x256_S256,
    unary main_v59 main_v60 (broadcastInDim S1x256 ![1] bcast_S256_S1x256_1 : (⟨S256, .f32⟩ : BufTy).Contents (Elt F) → (⟨S1x256, .f32⟩ : BufTy).Contents (Elt F)),
    unary main_v60 main_v61 (broadcastInDim S100000x256 ![0, 1] bcast_S1x256_S100000x256_0_1 : (⟨S1x256, .f32⟩ : BufTy).Contents (Elt F) → (⟨S100000x256, .f32⟩ : BufTy).Contents (Elt F)),
    binary main_v57 main_v61 main_v62 (addf : (⟨S100000x256, .f32⟩ : BufTy).Contents (Elt F) → (⟨S100000x256, .f32⟩ : BufTy).Contents (Elt F) → (⟨S100000x256, .f32⟩ : BufTy).Contents (Elt F)),
    unary main_v62 main_v63 (Host.tanh : (⟨S100000x256, .f32⟩ : BufTy).Contents (Elt F) → (⟨S100000x256, .f32⟩ : BufTy).Contents (Elt F)),
    nullary main_cst_3 (constant S_ .f32 0x3F800000#32),
    unary main_cst_3 main_v64 (broadcastInDim S100000x256 ![] bcast_S_S100000x256 : (⟨S_, .f32⟩ : BufTy).Contents (Elt F) → (⟨S100000x256, .f32⟩ : BufTy).Contents (Elt F)),
    binary main_v64 main_v63 main_v65 (subf : (⟨S100000x256, .f32⟩ : BufTy).Contents (Elt F) → (⟨S100000x256, .f32⟩ : BufTy).Contents (Elt F) → (⟨S100000x256, .f32⟩ : BufTy).Contents (Elt F)),
    unary main_arg9 main_v66 ((extractStridedSlice S1x256x1 ![1, 0, 0] · slices_S4x256x1_S1x256x1_1_0_0) : (⟨S4x256x1, .f32⟩ : BufTy).Contents (Elt F) → (⟨S1x256x1, .f32⟩ : BufTy).Contents (Elt F)),
    reshape main_v66 main_v67 rfl shapeCasts_S1x256x1_S256x1,
    binary main_v63 main_v67 main_v68 ((fun l r => Host.dotGeneral dot_S100000x256_S256x1_S100000x1_1_0_0_1_n_n none l r) : (⟨S100000x256, .f32⟩ : BufTy).Contents (Elt F) → (⟨S256x1, .f32⟩ : BufTy).Contents (Elt F) → (⟨S100000x1, .f32⟩ : BufTy).Contents (Elt F)),
    unary main_arg10 main_v69 ((extractStridedSlice S1x1 ![1, 0] · slices_S4x1_S1x1_1_0) : (⟨S4x1, .f32⟩ : BufTy).Contents (Elt F) → (⟨S1x1, .f32⟩ : BufTy).Contents (Elt F)),
    reshape main_v69 main_v70 rfl shapeCasts_S1x1_S1,
    unary main_v70 main_v71 (broadcastInDim S1x1 ![1] bcast_S1_S1x1_1 : (⟨S1, .f32⟩ : BufTy).Contents (Elt F) → (⟨S1x1, .f32⟩ : BufTy).Contents (Elt F)),
    unary main_v71 main_v72 (broadcastInDim S100000x1 ![0, 1] bcast_S1x1_S100000x1_0_1 : (⟨S1x1, .f32⟩ : BufTy).Contents (Elt F) → (⟨S100000x1, .f32⟩ : BufTy).Contents (Elt F)),
    binary main_v68 main_v72 main_v73 (addf : (⟨S100000x1, .f32⟩ : BufTy).Contents (Elt F) → (⟨S100000x1, .f32⟩ : BufTy).Contents (Elt F) → (⟨S100000x1, .f32⟩ : BufTy).Contents (Elt F)),
    unary main_arg11 main_v74 ((extractStridedSlice S1x256x1 ![1, 0, 0] · slices_S4x256x1_S1x256x1_1_0_0) : (⟨S4x256x1, .f32⟩ : BufTy).Contents (Elt F) → (⟨S1x256x1, .f32⟩ : BufTy).Contents (Elt F)),
    reshape main_v74 main_v75 rfl shapeCasts_S1x256x1_S256x1,
    binary main_arg0 main_v75 main_v76 ((fun l r => Host.dotGeneral dot_S100000x256_S256x1_S100000x1_1_0_0_1_n_n none l r) : (⟨S100000x256, .f32⟩ : BufTy).Contents (Elt F) → (⟨S256x1, .f32⟩ : BufTy).Contents (Elt F) → (⟨S100000x1, .f32⟩ : BufTy).Contents (Elt F)),
    binary main_v73 main_v76 main_v77 (addf : (⟨S100000x1, .f32⟩ : BufTy).Contents (Elt F) → (⟨S100000x1, .f32⟩ : BufTy).Contents (Elt F) → (⟨S100000x1, .f32⟩ : BufTy).Contents (Elt F)),
    unary main_arg12 main_v78 ((extractStridedSlice S1x1 ![1, 0] · slices_S4x1_S1x1_1_0) : (⟨S4x1, .f32⟩ : BufTy).Contents (Elt F) → (⟨S1x1, .f32⟩ : BufTy).Contents (Elt F)),
    reshape main_v78 main_v79 rfl shapeCasts_S1x1_S1,
    unary main_v79 main_v80 (broadcastInDim S1x1 ![1] bcast_S1_S1x1_1 : (⟨S1, .f32⟩ : BufTy).Contents (Elt F) → (⟨S1x1, .f32⟩ : BufTy).Contents (Elt F)),
    unary main_v80 main_v81 (broadcastInDim S100000x1 ![0, 1] bcast_S1x1_S100000x1_0_1 : (⟨S1x1, .f32⟩ : BufTy).Contents (Elt F) → (⟨S100000x1, .f32⟩ : BufTy).Contents (Elt F)),
    binary main_v77 main_v81 main_v82 (addf : (⟨S100000x1, .f32⟩ : BufTy).Contents (Elt F) → (⟨S100000x1, .f32⟩ : BufTy).Contents (Elt F) → (⟨S100000x1, .f32⟩ : BufTy).Contents (Elt F)),
    nullary main_c_4 (constantI S_ 32 1#32),
    unary main_c_4 main_v83 (broadcastInDim S100000 ![] bcast_S_S100000 : (⟨S_, .i32⟩ : BufTy).Contents (Elt F) → (⟨S100000, .i32⟩ : BufTy).Contents (Elt F)),
    binary main_arg1 main_v83 main_v84 (cmpi .eq : (⟨S100000, .i32⟩ : BufTy).Contents (Elt F) → (⟨S100000, .i32⟩ : BufTy).Contents (Elt F) → (⟨S100000, .i1⟩ : BufTy).Contents (Elt F)),
    unary main_v84 main_v85 (broadcastInDim S100000x1 ![0] bcast_S100000_S100000x1_0 : (⟨S100000, .i1⟩ : BufTy).Contents (Elt F) → (⟨S100000x1, .i1⟩ : BufTy).Contents (Elt F)),
    TRef.ternary (TRef.of (T := ⟨S100000x1, .i1⟩) main_v85) (TRef.of (T := ⟨S100000x1, .f32⟩) main_v82) (TRef.of (T := ⟨S100000x1, .f32⟩) main_v43_0) (TRef.of (T := ⟨S100000x1, .f32⟩) main_v86) select,
    unary main_arg5 main_v87 ((extractStridedSlice S1x256x256 ![2, 0, 0] · slices_S4x256x256_S1x256x256_2_0_0) : (⟨S4x256x256, .f32⟩ : BufTy).Contents (Elt F) → (⟨S1x256x256, .f32⟩ : BufTy).Contents (Elt F)),
    reshape main_v87 main_v88 rfl shapeCasts_S1x256x256_S256x256,
    binary main_arg0 main_v88 main_v89 ((fun l r => Host.dotGeneral dot_S100000x256_S256x256_S100000x256_1_0_0_1_n_n none l r) : (⟨S100000x256, .f32⟩ : BufTy).Contents (Elt F) → (⟨S256x256, .f32⟩ : BufTy).Contents (Elt F) → (⟨S100000x256, .f32⟩ : BufTy).Contents (Elt F)),
    unary main_arg6 main_v90 ((extractStridedSlice S1x256 ![2, 0] · slices_S4x256_S1x256_2_0) : (⟨S4x256, .f32⟩ : BufTy).Contents (Elt F) → (⟨S1x256, .f32⟩ : BufTy).Contents (Elt F)),
    reshape main_v90 main_v91 rfl shapeCasts_S1x256_S256,
    unary main_v91 main_v92 (broadcastInDim S1x256 ![1] bcast_S256_S1x256_1 : (⟨S256, .f32⟩ : BufTy).Contents (Elt F) → (⟨S1x256, .f32⟩ : BufTy).Contents (Elt F)),
    unary main_v92 main_v93 (broadcastInDim S100000x256 ![0, 1] bcast_S1x256_S100000x256_0_1 : (⟨S1x256, .f32⟩ : BufTy).Contents (Elt F) → (⟨S100000x256, .f32⟩ : BufTy).Contents (Elt F)),
    binary main_v89 main_v93 main_v94 (addf : (⟨S100000x256, .f32⟩ : BufTy).Contents (Elt F) → (⟨S100000x256, .f32⟩ : BufTy).Contents (Elt F) → (⟨S100000x256, .f32⟩ : BufTy).Contents (Elt F)),
    unary main_v94 main_v95 (Host.tanh : (⟨S100000x256, .f32⟩ : BufTy).Contents (Elt F) → (⟨S100000x256, .f32⟩ : BufTy).Contents (Elt F)),
    nullary main_cst_5 (constant S_ .f32 0x3F800000#32),
    unary main_cst_5 main_v96 (broadcastInDim S100000x256 ![] bcast_S_S100000x256 : (⟨S_, .f32⟩ : BufTy).Contents (Elt F) → (⟨S100000x256, .f32⟩ : BufTy).Contents (Elt F)),
    binary main_v96 main_v95 main_v97 (subf : (⟨S100000x256, .f32⟩ : BufTy).Contents (Elt F) → (⟨S100000x256, .f32⟩ : BufTy).Contents (Elt F) → (⟨S100000x256, .f32⟩ : BufTy).Contents (Elt F)),
    unary main_arg7 main_v98 ((extractStridedSlice S1x256x256 ![2, 0, 0] · slices_S4x256x256_S1x256x256_2_0_0) : (⟨S4x256x256, .f32⟩ : BufTy).Contents (Elt F) → (⟨S1x256x256, .f32⟩ : BufTy).Contents (Elt F)),
    reshape main_v98 main_v99 rfl shapeCasts_S1x256x256_S256x256,
    binary main_v95 main_v99 main_v100 ((fun l r => Host.dotGeneral dot_S100000x256_S256x256_S100000x256_1_0_0_1_n_n none l r) : (⟨S100000x256, .f32⟩ : BufTy).Contents (Elt F) → (⟨S256x256, .f32⟩ : BufTy).Contents (Elt F) → (⟨S100000x256, .f32⟩ : BufTy).Contents (Elt F)),
    unary main_arg8 main_v101 ((extractStridedSlice S1x256 ![2, 0] · slices_S4x256_S1x256_2_0) : (⟨S4x256, .f32⟩ : BufTy).Contents (Elt F) → (⟨S1x256, .f32⟩ : BufTy).Contents (Elt F)),
    reshape main_v101 main_v102 rfl shapeCasts_S1x256_S256,
    unary main_v102 main_v103 (broadcastInDim S1x256 ![1] bcast_S256_S1x256_1 : (⟨S256, .f32⟩ : BufTy).Contents (Elt F) → (⟨S1x256, .f32⟩ : BufTy).Contents (Elt F)),
    unary main_v103 main_v104 (broadcastInDim S100000x256 ![0, 1] bcast_S1x256_S100000x256_0_1 : (⟨S1x256, .f32⟩ : BufTy).Contents (Elt F) → (⟨S100000x256, .f32⟩ : BufTy).Contents (Elt F)),
    binary main_v100 main_v104 main_v105 (addf : (⟨S100000x256, .f32⟩ : BufTy).Contents (Elt F) → (⟨S100000x256, .f32⟩ : BufTy).Contents (Elt F) → (⟨S100000x256, .f32⟩ : BufTy).Contents (Elt F)),
    unary main_v105 main_v106 (Host.tanh : (⟨S100000x256, .f32⟩ : BufTy).Contents (Elt F) → (⟨S100000x256, .f32⟩ : BufTy).Contents (Elt F)),
    nullary main_cst_6 (constant S_ .f32 0x3F800000#32),
    unary main_cst_6 main_v107 (broadcastInDim S100000x256 ![] bcast_S_S100000x256 : (⟨S_, .f32⟩ : BufTy).Contents (Elt F) → (⟨S100000x256, .f32⟩ : BufTy).Contents (Elt F)),
    binary main_v107 main_v106 main_v108 (subf : (⟨S100000x256, .f32⟩ : BufTy).Contents (Elt F) → (⟨S100000x256, .f32⟩ : BufTy).Contents (Elt F) → (⟨S100000x256, .f32⟩ : BufTy).Contents (Elt F)),
    unary main_arg9 main_v109 ((extractStridedSlice S1x256x1 ![2, 0, 0] · slices_S4x256x1_S1x256x1_2_0_0) : (⟨S4x256x1, .f32⟩ : BufTy).Contents (Elt F) → (⟨S1x256x1, .f32⟩ : BufTy).Contents (Elt F)),
    reshape main_v109 main_v110 rfl shapeCasts_S1x256x1_S256x1 ]

set_option maxRecDepth 8192 in
set_option maxHeartbeats 4000000 in
theorem partB_eq (c : Dev nD) : main_part1 (F := F) c = seq opsB := rfl

theorem opsB_sub : (opsB : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., unary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., binary_bufs_sub .., binary_bufs_sub .., unary_bufs_sub .., reshape_bufs_sub .., unary_bufs_sub .., unary_bufs_sub .., binary_bufs_sub .., nullary_bufs_sub .., unary_bufs_sub .., binary_bufs_sub .., unary_bufs_sub .., ternary_bufs_sub .., unary_bufs_sub .., reshape_bufs_sub .., binary_bufs_sub .., unary_bufs_sub .., reshape_bufs_sub .., unary_bufs_sub .., unary_bufs_sub .., binary_bufs_sub .., unary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., nullary_bufs_sub .., unary_bufs_sub .., binary_bufs_sub .., unary_bufs_sub .., reshape_bufs_sub ..⟩

theorem opsB_fresh : ∀ op ∈ (opsB : List (HloOp τ sig (Elt F))), op.fresh = ∅ := by
  intro _ h; (repeat (cases h with | head => rfl | tail _ h => ?_)); exact nomatch h

variable (V : Valuation τ sig (Elt F))
  (x0 : (⟨S100000x256, .f32⟩ : BufTy).Contents (Elt F)) (x1 : (⟨S100000, .i32⟩ : BufTy).Contents (Elt F)) (x2 : (⟨S100000, .i32⟩ : BufTy).Contents (Elt F))
  (x3 : (⟨S200000x3x256, .f32⟩ : BufTy).Contents (Elt F)) (x4 : (⟨S200000, .i32⟩ : BufTy).Contents (Elt F)) (x5 : (⟨S4x256x256, .f32⟩ : BufTy).Contents (Elt F))
  (x6 : (⟨S4x256, .f32⟩ : BufTy).Contents (Elt F)) (x7 : (⟨S4x256x256, .f32⟩ : BufTy).Contents (Elt F)) (x8 : (⟨S4x256, .f32⟩ : BufTy).Contents (Elt F))
  (x9 : (⟨S4x256x1, .f32⟩ : BufTy).Contents (Elt F)) (x10 : (⟨S4x1, .f32⟩ : BufTy).Contents (Elt F)) (x11 : (⟨S4x256x1, .f32⟩ : BufTy).Contents (Elt F))
  (x12 : (⟨S4x1, .f32⟩ : BufTy).Contents (Elt F))

structure PreB : Prop where
  arg0 : V (Proc.devRef .tc main_arg0) = x0
  arg1 : V (Proc.devRef .tc main_arg1) = x1
  arg2 : V (Proc.devRef .tc main_arg2) = x2
  arg3 : V (Proc.devRef .tc main_arg3) = x3
  arg4 : V (Proc.devRef .tc main_arg4) = x4
  arg5 : V (Proc.devRef .tc main_arg5) = x5
  arg6 : V (Proc.devRef .tc main_arg6) = x6
  arg7 : V (Proc.devRef .tc main_arg7) = x7
  arg8 : V (Proc.devRef .tc main_arg8) = x8
  arg9 : V (Proc.devRef .tc main_arg9) = x9
  arg10 : V (Proc.devRef .tc main_arg10) = x10
  arg11 : V (Proc.devRef .tc main_arg11) = x11
  arg12 : V (Proc.devRef .tc main_arg12) = x12
  v2 : V (Proc.devRef .tc main_v2) = val_main_v2 (F := F) x5
  v9 : V (Proc.devRef .tc main_v9) = val_main_v9 (F := F) x0 x5 x6
  v11 : V (Proc.devRef .tc main_v11) = val_main_v11 (F := F) x0 x5 x6
  v13 : V (Proc.devRef .tc main_v13) = val_main_v13 (F := F) x7
  v20 : V (Proc.devRef .tc main_v20) = val_main_v20 (F := F) x0 x5 x6 x7 x8
  v22 : V (Proc.devRef .tc main_v22) = val_main_v22 (F := F) x0 x5 x6 x7 x8
  v24 : V (Proc.devRef .tc main_v24) = val_main_v24 (F := F) x9
  v32 : V (Proc.devRef .tc main_v32) = val_main_v32 (F := F) x11
  v42 : V (Proc.devRef .tc main_v42) = val_main_v42 (F := F) x1
  v43_0 : V (Proc.devRef .tc main_v43_0) = val_main_v43_0 (F := F) x0 x1 x5 x6 x7 x8 x9 x10 x11 x12
  v45 : V (Proc.devRef .tc main_v45) = val_main_v45 (F := F) x5
  v52 : V (Proc.devRef .tc main_v52) = val_main_v52 (F := F) x0 x5 x6
  v54 : V (Proc.devRef .tc main_v54) = val_main_v54 (F := F) x0 x5 x6

structure PostB : Prop where
  arg0 : V (Proc.devRef .tc main_arg0) = x0
  arg1 : V (Proc.devRef .tc main_arg1) = x1
  arg2 : V (Proc.devRef .tc main_arg2) = x2
  arg3 : V (Proc.devRef .tc main_arg3) = x3
  arg4 : V (Proc.devRef .tc main_arg4) = x4
  arg5 : V (Proc.devRef .tc main_arg5) = x5
  arg6 : V (Proc.devRef .tc main_arg6) = x6
  arg7 : V (Proc.devRef .tc main_arg7) = x7
  arg8 : V (Proc.devRef .tc main_arg8) = x8
  arg9 : V (Proc.devRef .tc main_arg9) = x9
  arg10 : V (Proc.devRef .tc main_arg10) = x10
  arg11 : V (Proc.devRef .tc main_arg11) = x11
  arg12 : V (Proc.devRef .tc main_arg12) = x12
  v2 : V (Proc.devRef .tc main_v2) = val_main_v2 (F := F) x5
  v9 : V (Proc.devRef .tc main_v9) = val_main_v9 (F := F) x0 x5 x6
  v11 : V (Proc.devRef .tc main_v11) = val_main_v11 (F := F) x0 x5 x6
  v13 : V (Proc.devRef .tc main_v13) = val_main_v13 (F := F) x7
  v20 : V (Proc.devRef .tc main_v20) = val_main_v20 (F := F) x0 x5 x6 x7 x8
  v22 : V (Proc.devRef .tc main_v22) = val_main_v22 (F := F) x0 x5 x6 x7 x8
  v24 : V (Proc.devRef .tc main_v24) = val_main_v24 (F := F) x9
  v32 : V (Proc.devRef .tc main_v32) = val_main_v32 (F := F) x11
  v42 : V (Proc.devRef .tc main_v42) = val_main_v42 (F := F) x1
  v45 : V (Proc.devRef .tc main_v45) = val_main_v45 (F := F) x5
  v52 : V (Proc.devRef .tc main_v52) = val_main_v52 (F := F) x0 x5 x6
  v54 : V (Proc.devRef .tc main_v54) = val_main_v54 (F := F) x0 x5 x6
  v56 : V (Proc.devRef .tc main_v56) = val_main_v56 (F := F) x7
  v63 : V (Proc.devRef .tc main_v63) = val_main_v63 (F := F) x0 x5 x6 x7 x8
  v65 : V (Proc.devRef .tc main_v65) = val_main_v65 (F := F) x0 x5 x6 x7 x8
  v67 : V (Proc.devRef .tc main_v67) = val_main_v67 (F := F) x9
  v75 : V (Proc.devRef .tc main_v75) = val_main_v75 (F := F) x11
  v85 : V (Proc.devRef .tc main_v85) = val_main_v85 (F := F) x1
  v86 : V (Proc.devRef .tc main_v86) = val_main_v86 (F := F) x0 x1 x5 x6 x7 x8 x9 x10 x11 x12
  v88 : V (Proc.devRef .tc main_v88) = val_main_v88 (F := F) x5
  v95 : V (Proc.devRef .tc main_v95) = val_main_v95 (F := F) x0 x5 x6
  v97 : V (Proc.devRef .tc main_v97) = val_main_v97 (F := F) x0 x5 x6
  v99 : V (Proc.devRef .tc main_v99) = val_main_v99 (F := F) x7
  v106 : V (Proc.devRef .tc main_v106) = val_main_v106 (F := F) x0 x5 x6 x7 x8
  v108 : V (Proc.devRef .tc main_v108) = val_main_v108 (F := F) x0 x5 x6 x7 x8
  v110 : V (Proc.devRef .tc main_v110) = val_main_v110 (F := F) x9

set_option maxRecDepth 8192 in
set_option maxHeartbeats 4000000 in
theorem stepB (h : PreB V x0 x1 x2 x3 x4 x5 x6 x7 x8 x9 x10 x11 x12) : PostB (after opsB V) x0 x1 x2 x3 x4 x5 x6 x7 x8 x9 x10 x11 x12 := by
  cases h; constructor <;> stretch

end Cert.RefRun

end
-- ==== Proof.RefRunC.lean ====
import proofs.«428180_j4174708212170_2_alg».proof.Proof.RefRead
import proofs.«428180_j4174708212170_2_alg».proof.Proof.RefStep

noncomputable section

namespace Cert.RefRun

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

abbrev opsC : List (HloOp τ sig (Elt F)) :=
  [ binary main_v106 main_v110 main_v111 ((fun l r => Host.dotGeneral dot_S100000x256_S256x1_S100000x1_1_0_0_1_n_n none l r) : (⟨S100000x256, .f32⟩ : BufTy).Contents (Elt F) → (⟨S256x1, .f32⟩ : BufTy).Contents (Elt F) → (⟨S100000x1, .f32⟩ : BufTy).Contents (Elt F)),
    unary main_arg10 main_v112 ((extractStridedSlice S1x1 ![2, 0] · slices_S4x1_S1x1_2_0) : (⟨S4x1, .f32⟩ : BufTy).Contents (Elt F) → (⟨S1x1, .f32⟩ : BufTy).Contents (Elt F)),
    reshape main_v112 main_v113 rfl shapeCasts_S1x1_S1,
    unary main_v113 main_v114 (broadcastInDim S1x1 ![1] bcast_S1_S1x1_1 : (⟨S1, .f32⟩ : BufTy).Contents (Elt F) → (⟨S1x1, .f32⟩ : BufTy).Contents (Elt F)),
    unary main_v114 main_v115 (broadcastInDim S100000x1 ![0, 1] bcast_S1x1_S100000x1_0_1 : (⟨S1x1, .f32⟩ : BufTy).Contents (Elt F) → (⟨S100000x1, .f32⟩ : BufTy).Contents (Elt F)),
    binary main_v111 main_v115 main_v116 (addf : (⟨S100000x1, .f32⟩ : BufTy).Contents (Elt F) → (⟨S100000x1, .f32⟩ : BufTy).Contents (Elt F) → (⟨S100000x1, .f32⟩ : BufTy).Contents (Elt F)),
    unary main_arg11 main_v117 ((extractStridedSlice S1x256x1 ![2, 0, 0] · slices_S4x256x1_S1x256x1_2_0_0) : (⟨S4x256x1, .f32⟩ : BufTy).Contents (Elt F) → (⟨S1x256x1, .f32⟩ : BufTy).Contents (Elt F)),
    reshape main_v117 main_v118 rfl shapeCasts_S1x256x1_S256x1,
    binary main_arg0 main_v118 main_v119 ((fun l r => Host.dotGeneral dot_S100000x256_S256x1_S100000x1_1_0_0_1_n_n none l r) : (⟨S100000x256, .f32⟩ : BufTy).Contents (Elt F) → (⟨S256x1, .f32⟩ : BufTy).Contents (Elt F) → (⟨S100000x1, .f32⟩ : BufTy).Contents (Elt F)),
    binary main_v116 main_v119 main_v120 (addf : (⟨S100000x1, .f32⟩ : BufTy).Contents (Elt F) → (⟨S100000x1, .f32⟩ : BufTy).Contents (Elt F) → (⟨S100000x1, .f32⟩ : BufTy).Contents (Elt F)),
    unary main_arg12 main_v121 ((extractStridedSlice S1x1 ![2, 0] · slices_S4x1_S1x1_2_0) : (⟨S4x1, .f32⟩ : BufTy).Contents (Elt F) → (⟨S1x1, .f32⟩ : BufTy).Contents (Elt F)),
    reshape main_v121 main_v122 rfl shapeCasts_S1x1_S1,
    unary main_v122 main_v123 (broadcastInDim S1x1 ![1] bcast_S1_S1x1_1 : (⟨S1, .f32⟩ : BufTy).Contents (Elt F) → (⟨S1x1, .f32⟩ : BufTy).Contents (Elt F)),
    unary main_v123 main_v124 (broadcastInDim S100000x1 ![0, 1] bcast_S1x1_S100000x1_0_1 : (⟨S1x1, .f32⟩ : BufTy).Contents (Elt F) → (⟨S100000x1, .f32⟩ : BufTy).Contents (Elt F)),
    binary main_v120 main_v124 main_v125 (addf : (⟨S100000x1, .f32⟩ : BufTy).Contents (Elt F) → (⟨S100000x1, .f32⟩ : BufTy).Contents (Elt F) → (⟨S100000x1, .f32⟩ : BufTy).Contents (Elt F)),
    nullary main_c_7 (constantI S_ 32 2#32),
    unary main_c_7 main_v126 (broadcastInDim S100000 ![] bcast_S_S100000 : (⟨S_, .i32⟩ : BufTy).Contents (Elt F) → (⟨S100000, .i32⟩ : BufTy).Contents (Elt F)),
    binary main_arg1 main_v126 main_v127 (cmpi .eq : (⟨S100000, .i32⟩ : BufTy).Contents (Elt F) → (⟨S100000, .i32⟩ : BufTy).Contents (Elt F) → (⟨S100000, .i1⟩ : BufTy).Contents (Elt F)),
    unary main_v127 main_v128 (broadcastInDim S100000x1 ![0] bcast_S100000_S100000x1_0 : (⟨S100000, .i1⟩ : BufTy).Contents (Elt F) → (⟨S100000x1, .i1⟩ : BufTy).Contents (Elt F)),
    TRef.ternary (TRef.of (T := ⟨S100000x1, .i1⟩) main_v128) (TRef.of (T := ⟨S100000x1, .f32⟩) main_v125) (TRef.of (T := ⟨S100000x1, .f32⟩) main_v86) (TRef.of (T := ⟨S100000x1, .f32⟩) main_v129) select,
    unary main_arg5 main_v130 ((extractStridedSlice S1x256x256 ![3, 0, 0] · slices_S4x256x256_S1x256x256_3_0_0) : (⟨S4x256x256, .f32⟩ : BufTy).Contents (Elt F) → (⟨S1x256x256, .f32⟩ : BufTy).Contents (Elt F)),
    reshape main_v130 main_v131 rfl shapeCasts_S1x256x256_S256x256,
    binary main_arg0 main_v131 main_v132 ((fun l r => Host.dotGeneral dot_S100000x256_S256x256_S100000x256_1_0_0_1_n_n none l r) : (⟨S100000x256, .f32⟩ : BufTy).Contents (Elt F) → (⟨S256x256, .f32⟩ : BufTy).Contents (Elt F) → (⟨S100000x256, .f32⟩ : BufTy).Contents (Elt F)),
    unary main_arg6 main_v133 ((extractStridedSlice S1x256 ![3, 0] · slices_S4x256_S1x256_3_0) : (⟨S4x256, .f32⟩ : BufTy).Contents (Elt F) → (⟨S1x256, .f32⟩ : BufTy).Contents (Elt F)),
    reshape main_v133 main_v134 rfl shapeCasts_S1x256_S256,
    unary main_v134 main_v135 (broadcastInDim S1x256 ![1] bcast_S256_S1x256_1 : (⟨S256, .f32⟩ : BufTy).Contents (Elt F) → (⟨S1x256, .f32⟩ : BufTy).Contents (Elt F)),
    unary main_v135 main_v136 (broadcastInDim S100000x256 ![0, 1] bcast_S1x256_S100000x256_0_1 : (⟨S1x256, .f32⟩ : BufTy).Contents (Elt F) → (⟨S100000x256, .f32⟩ : BufTy).Contents (Elt F)),
    binary main_v132 main_v136 main_v137 (addf : (⟨S100000x256, .f32⟩ : BufTy).Contents (Elt F) → (⟨S100000x256, .f32⟩ : BufTy).Contents (Elt F) → (⟨S100000x256, .f32⟩ : BufTy).Contents (Elt F)),
    unary main_v137 main_v138 (Host.tanh : (⟨S100000x256, .f32⟩ : BufTy).Contents (Elt F) → (⟨S100000x256, .f32⟩ : BufTy).Contents (Elt F)),
    nullary main_cst_8 (constant S_ .f32 0x3F800000#32),
    unary main_cst_8 main_v139 (broadcastInDim S100000x256 ![] bcast_S_S100000x256 : (⟨S_, .f32⟩ : BufTy).Contents (Elt F) → (⟨S100000x256, .f32⟩ : BufTy).Contents (Elt F)),
    binary main_v139 main_v138 main_v140 (subf : (⟨S100000x256, .f32⟩ : BufTy).Contents (Elt F) → (⟨S100000x256, .f32⟩ : BufTy).Contents (Elt F) → (⟨S100000x256, .f32⟩ : BufTy).Contents (Elt F)),
    unary main_arg7 main_v141 ((extractStridedSlice S1x256x256 ![3, 0, 0] · slices_S4x256x256_S1x256x256_3_0_0) : (⟨S4x256x256, .f32⟩ : BufTy).Contents (Elt F) → (⟨S1x256x256, .f32⟩ : BufTy).Contents (Elt F)),
    reshape main_v141 main_v142 rfl shapeCasts_S1x256x256_S256x256,
    binary main_v138 main_v142 main_v143 ((fun l r => Host.dotGeneral dot_S100000x256_S256x256_S100000x256_1_0_0_1_n_n none l r) : (⟨S100000x256, .f32⟩ : BufTy).Contents (Elt F) → (⟨S256x256, .f32⟩ : BufTy).Contents (Elt F) → (⟨S100000x256, .f32⟩ : BufTy).Contents (Elt F)),
    unary main_arg8 main_v144 ((extractStridedSlice S1x256 ![3, 0] · slices_S4x256_S1x256_3_0) : (⟨S4x256, .f32⟩ : BufTy).Contents (Elt F) → (⟨S1x256, .f32⟩ : BufTy).Contents (Elt F)),
    reshape main_v144 main_v145 rfl shapeCasts_S1x256_S256,
    unary main_v145 main_v146 (broadcastInDim S1x256 ![1] bcast_S256_S1x256_1 : (⟨S256, .f32⟩ : BufTy).Contents (Elt F) → (⟨S1x256, .f32⟩ : BufTy).Contents (Elt F)),
    unary main_v146 main_v147 (broadcastInDim S100000x256 ![0, 1] bcast_S1x256_S100000x256_0_1 : (⟨S1x256, .f32⟩ : BufTy).Contents (Elt F) → (⟨S100000x256, .f32⟩ : BufTy).Contents (Elt F)),
    binary main_v143 main_v147 main_v148 (addf : (⟨S100000x256, .f32⟩ : BufTy).Contents (Elt F) → (⟨S100000x256, .f32⟩ : BufTy).Contents (Elt F) → (⟨S100000x256, .f32⟩ : BufTy).Contents (Elt F)),
    unary main_v148 main_v149 (Host.tanh : (⟨S100000x256, .f32⟩ : BufTy).Contents (Elt F) → (⟨S100000x256, .f32⟩ : BufTy).Contents (Elt F)),
    nullary main_cst_9 (constant S_ .f32 0x3F800000#32),
    unary main_cst_9 main_v150 (broadcastInDim S100000x256 ![] bcast_S_S100000x256 : (⟨S_, .f32⟩ : BufTy).Contents (Elt F) → (⟨S100000x256, .f32⟩ : BufTy).Contents (Elt F)),
    binary main_v150 main_v149 main_v151 (subf : (⟨S100000x256, .f32⟩ : BufTy).Contents (Elt F) → (⟨S100000x256, .f32⟩ : BufTy).Contents (Elt F) → (⟨S100000x256, .f32⟩ : BufTy).Contents (Elt F)),
    unary main_arg9 main_v152 ((extractStridedSlice S1x256x1 ![3, 0, 0] · slices_S4x256x1_S1x256x1_3_0_0) : (⟨S4x256x1, .f32⟩ : BufTy).Contents (Elt F) → (⟨S1x256x1, .f32⟩ : BufTy).Contents (Elt F)),
    reshape main_v152 main_v153 rfl shapeCasts_S1x256x1_S256x1,
    binary main_v149 main_v153 main_v154 ((fun l r => Host.dotGeneral dot_S100000x256_S256x1_S100000x1_1_0_0_1_n_n none l r) : (⟨S100000x256, .f32⟩ : BufTy).Contents (Elt F) → (⟨S256x1, .f32⟩ : BufTy).Contents (Elt F) → (⟨S100000x1, .f32⟩ : BufTy).Contents (Elt F)),
    unary main_arg10 main_v155 ((extractStridedSlice S1x1 ![3, 0] · slices_S4x1_S1x1_3_0) : (⟨S4x1, .f32⟩ : BufTy).Contents (Elt F) → (⟨S1x1, .f32⟩ : BufTy).Contents (Elt F)),
    reshape main_v155 main_v156 rfl shapeCasts_S1x1_S1,
    unary main_v156 main_v157 (broadcastInDim S1x1 ![1] bcast_S1_S1x1_1 : (⟨S1, .f32⟩ : BufTy).Contents (Elt F) → (⟨S1x1, .f32⟩ : BufTy).Contents (Elt F)),
    unary main_v157 main_v158 (broadcastInDim S100000x1 ![0, 1] bcast_S1x1_S100000x1_0_1 : (⟨S1x1, .f32⟩ : BufTy).Contents (Elt F) → (⟨S100000x1, .f32⟩ : BufTy).Contents (Elt F)),
    binary main_v154 main_v158 main_v159 (addf : (⟨S100000x1, .f32⟩ : BufTy).Contents (Elt F) → (⟨S100000x1, .f32⟩ : BufTy).Contents (Elt F) → (⟨S100000x1, .f32⟩ : BufTy).Contents (Elt F)),
    unary main_arg11 main_v160 ((extractStridedSlice S1x256x1 ![3, 0, 0] · slices_S4x256x1_S1x256x1_3_0_0) : (⟨S4x256x1, .f32⟩ : BufTy).Contents (Elt F) → (⟨S1x256x1, .f32⟩ : BufTy).Contents (Elt F)),
    reshape main_v160 main_v161 rfl shapeCasts_S1x256x1_S256x1,
    binary main_arg0 main_v161 main_v162 ((fun l r => Host.dotGeneral dot_S100000x256_S256x1_S100000x1_1_0_0_1_n_n none l r) : (⟨S100000x256, .f32⟩ : BufTy).Contents (Elt F) → (⟨S256x1, .f32⟩ : BufTy).Contents (Elt F) → (⟨S100000x1, .f32⟩ : BufTy).Contents (Elt F)),
    binary main_v159 main_v162 main_v163 (addf : (⟨S100000x1, .f32⟩ : BufTy).Contents (Elt F) → (⟨S100000x1, .f32⟩ : BufTy).Contents (Elt F) → (⟨S100000x1, .f32⟩ : BufTy).Contents (Elt F)),
    unary main_arg12 main_v164 ((extractStridedSlice S1x1 ![3, 0] · slices_S4x1_S1x1_3_0) : (⟨S4x1, .f32⟩ : BufTy).Contents (Elt F) → (⟨S1x1, .f32⟩ : BufTy).Contents (Elt F)),
    reshape main_v164 main_v165 rfl shapeCasts_S1x1_S1,
    unary main_v165 main_v166 (broadcastInDim S1x1 ![1] bcast_S1_S1x1_1 : (⟨S1, .f32⟩ : BufTy).Contents (Elt F) → (⟨S1x1, .f32⟩ : BufTy).Contents (Elt F)),
    unary main_v166 main_v167 (broadcastInDim S100000x1 ![0, 1] bcast_S1x1_S100000x1_0_1 : (⟨S1x1, .f32⟩ : BufTy).Contents (Elt F) → (⟨S100000x1, .f32⟩ : BufTy).Contents (Elt F)) ]

set_option maxRecDepth 8192 in
set_option maxHeartbeats 4000000 in
theorem partC_eq (c : Dev nD) : main_part2 (F := F) c = seq opsC := rfl

theorem opsC_sub : (opsC : List (HloOp τ sig (Elt F))).Forall fun op => op.bufs ⊆ tcRefs τ sig :=
  ⟨binary_bufs_sub .., unary_bufs_sub .., reshape_bufs_sub .., unary_bufs_sub .., unary_bufs_sub .., binary_bufs_sub .., unary_bufs_sub .., reshape_bufs_sub .., binary_bufs_sub .., binary_bufs_sub .., unary_bufs_sub .., reshape_bufs_sub .., unary_bufs_sub .., unary_bufs_sub .., binary_bufs_sub .., nullary_bufs_sub .., unary_bufs_sub .., binary_bufs_sub .., unary_bufs_sub .., ternary_bufs_sub .., unary_bufs_sub .., reshape_bufs_sub .., binary_bufs_sub .., unary_bufs_sub .., reshape_bufs_sub .., unary_bufs_sub .., unary_bufs_sub .., binary_bufs_sub .., unary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., binary_bufs_sub .., binary_bufs_sub .., unary_bufs_sub .., reshape_bufs_sub .., unary_bufs_sub .., unary_bufs_sub ..⟩

theorem opsC_fresh : ∀ op ∈ (opsC : List (HloOp τ sig (Elt F))), op.fresh = ∅ := by
  intro _ h; (repeat (cases h with | head => rfl | tail _ h => ?_)); exact nomatch h

variable (V : Valuation τ sig (Elt F))
  (x0 : (⟨S100000x256, .f32⟩ : BufTy).Contents (Elt F)) (x1 : (⟨S100000, .i32⟩ : BufTy).Contents (Elt F)) (x2 : (⟨S100000, .i32⟩ : BufTy).Contents (Elt F))
  (x3 : (⟨S200000x3x256, .f32⟩ : BufTy).Contents (Elt F)) (x4 : (⟨S200000, .i32⟩ : BufTy).Contents (Elt F)) (x5 : (⟨S4x256x256, .f32⟩ : BufTy).Contents (Elt F))
  (x6 : (⟨S4x256, .f32⟩ : BufTy).Contents (Elt F)) (x7 : (⟨S4x256x256, .f32⟩ : BufTy).Contents (Elt F)) (x8 : (⟨S4x256, .f32⟩ : BufTy).Contents (Elt F))
  (x9 : (⟨S4x256x1, .f32⟩ : BufTy).Contents (Elt F)) (x10 : (⟨S4x1, .f32⟩ : BufTy).Contents (Elt F)) (x11 : (⟨S4x256x1, .f32⟩ : BufTy).Contents (Elt F))
  (x12 : (⟨S4x1, .f32⟩ : BufTy).Contents (Elt F))

structure PreC : Prop where
  arg0 : V (Proc.devRef .tc main_arg0) = x0
  arg1 : V (Proc.devRef .tc main_arg1) = x1
  arg2 : V (Proc.devRef .tc main_arg2) = x2
  arg3 : V (Proc.devRef .tc main_arg3) = x3
  arg4 : V (Proc.devRef .tc main_arg4) = x4
  arg5 : V (Proc.devRef .tc main_arg5) = x5
  arg6 : V (Proc.devRef .tc main_arg6) = x6
  arg7 : V (Proc.devRef .tc main_arg7) = x7
  arg8 : V (Proc.devRef .tc main_arg8) = x8
  arg9 : V (Proc.devRef .tc main_arg9) = x9
  arg10 : V (Proc.devRef .tc main_arg10) = x10
  arg11 : V (Proc.devRef .tc main_arg11) = x11
  arg12 : V (Proc.devRef .tc main_arg12) = x12
  v2 : V (Proc.devRef .tc main_v2) = val_main_v2 (F := F) x5
  v9 : V (Proc.devRef .tc main_v9) = val_main_v9 (F := F) x0 x5 x6
  v11 : V (Proc.devRef .tc main_v11) = val_main_v11 (F := F) x0 x5 x6
  v13 : V (Proc.devRef .tc main_v13) = val_main_v13 (F := F) x7
  v20 : V (Proc.devRef .tc main_v20) = val_main_v20 (F := F) x0 x5 x6 x7 x8
  v22 : V (Proc.devRef .tc main_v22) = val_main_v22 (F := F) x0 x5 x6 x7 x8
  v24 : V (Proc.devRef .tc main_v24) = val_main_v24 (F := F) x9
  v32 : V (Proc.devRef .tc main_v32) = val_main_v32 (F := F) x11
  v42 : V (Proc.devRef .tc main_v42) = val_main_v42 (F := F) x1
  v45 : V (Proc.devRef .tc main_v45) = val_main_v45 (F := F) x5
  v52 : V (Proc.devRef .tc main_v52) = val_main_v52 (F := F) x0 x5 x6
  v54 : V (Proc.devRef .tc main_v54) = val_main_v54 (F := F) x0 x5 x6
  v56 : V (Proc.devRef .tc main_v56) = val_main_v56 (F := F) x7
  v63 : V (Proc.devRef .tc main_v63) = val_main_v63 (F := F) x0 x5 x6 x7 x8
  v65 : V (Proc.devRef .tc main_v65) = val_main_v65 (F := F) x0 x5 x6 x7 x8
  v67 : V (Proc.devRef .tc main_v67) = val_main_v67 (F := F) x9
  v75 : V (Proc.devRef .tc main_v75) = val_main_v75 (F := F) x11
  v85 : V (Proc.devRef .tc main_v85) = val_main_v85 (F := F) x1
  v86 : V (Proc.devRef .tc main_v86) = val_main_v86 (F := F) x0 x1 x5 x6 x7 x8 x9 x10 x11 x12
  v88 : V (Proc.devRef .tc main_v88) = val_main_v88 (F := F) x5
  v95 : V (Proc.devRef .tc main_v95) = val_main_v95 (F := F) x0 x5 x6
  v97 : V (Proc.devRef .tc main_v97) = val_main_v97 (F := F) x0 x5 x6
  v99 : V (Proc.devRef .tc main_v99) = val_main_v99 (F := F) x7
  v106 : V (Proc.devRef .tc main_v106) = val_main_v106 (F := F) x0 x5 x6 x7 x8
  v108 : V (Proc.devRef .tc main_v108) = val_main_v108 (F := F) x0 x5 x6 x7 x8
  v110 : V (Proc.devRef .tc main_v110) = val_main_v110 (F := F) x9

structure PostC : Prop where
  arg0 : V (Proc.devRef .tc main_arg0) = x0
  arg1 : V (Proc.devRef .tc main_arg1) = x1
  arg2 : V (Proc.devRef .tc main_arg2) = x2
  arg3 : V (Proc.devRef .tc main_arg3) = x3
  arg4 : V (Proc.devRef .tc main_arg4) = x4
  arg5 : V (Proc.devRef .tc main_arg5) = x5
  arg6 : V (Proc.devRef .tc main_arg6) = x6
  arg7 : V (Proc.devRef .tc main_arg7) = x7
  arg8 : V (Proc.devRef .tc main_arg8) = x8
  arg9 : V (Proc.devRef .tc main_arg9) = x9
  arg10 : V (Proc.devRef .tc main_arg10) = x10
  arg11 : V (Proc.devRef .tc main_arg11) = x11
  arg12 : V (Proc.devRef .tc main_arg12) = x12
  v2 : V (Proc.devRef .tc main_v2) = val_main_v2 (F := F) x5
  v9 : V (Proc.devRef .tc main_v9) = val_main_v9 (F := F) x0 x5 x6
  v11 : V (Proc.devRef .tc main_v11) = val_main_v11 (F := F) x0 x5 x6
  v13 : V (Proc.devRef .tc main_v13) = val_main_v13 (F := F) x7
  v20 : V (Proc.devRef .tc main_v20) = val_main_v20 (F := F) x0 x5 x6 x7 x8
  v22 : V (Proc.devRef .tc main_v22) = val_main_v22 (F := F) x0 x5 x6 x7 x8
  v24 : V (Proc.devRef .tc main_v24) = val_main_v24 (F := F) x9
  v32 : V (Proc.devRef .tc main_v32) = val_main_v32 (F := F) x11
  v42 : V (Proc.devRef .tc main_v42) = val_main_v42 (F := F) x1
  v45 : V (Proc.devRef .tc main_v45) = val_main_v45 (F := F) x5
  v52 : V (Proc.devRef .tc main_v52) = val_main_v52 (F := F) x0 x5 x6
  v54 : V (Proc.devRef .tc main_v54) = val_main_v54 (F := F) x0 x5 x6
  v56 : V (Proc.devRef .tc main_v56) = val_main_v56 (F := F) x7
  v63 : V (Proc.devRef .tc main_v63) = val_main_v63 (F := F) x0 x5 x6 x7 x8
  v65 : V (Proc.devRef .tc main_v65) = val_main_v65 (F := F) x0 x5 x6 x7 x8
  v67 : V (Proc.devRef .tc main_v67) = val_main_v67 (F := F) x9
  v75 : V (Proc.devRef .tc main_v75) = val_main_v75 (F := F) x11
  v85 : V (Proc.devRef .tc main_v85) = val_main_v85 (F := F) x1
  v88 : V (Proc.devRef .tc main_v88) = val_main_v88 (F := F) x5
  v95 : V (Proc.devRef .tc main_v95) = val_main_v95 (F := F) x0 x5 x6
  v97 : V (Proc.devRef .tc main_v97) = val_main_v97 (F := F) x0 x5 x6
  v99 : V (Proc.devRef .tc main_v99) = val_main_v99 (F := F) x7
  v106 : V (Proc.devRef .tc main_v106) = val_main_v106 (F := F) x0 x5 x6 x7 x8
  v108 : V (Proc.devRef .tc main_v108) = val_main_v108 (F := F) x0 x5 x6 x7 x8
  v110 : V (Proc.devRef .tc main_v110) = val_main_v110 (F := F) x9
  v118 : V (Proc.devRef .tc main_v118) = val_main_v118 (F := F) x11
  v128 : V (Proc.devRef .tc main_v128) = val_main_v128 (F := F) x1
  v129 : V (Proc.devRef .tc main_v129) = val_main_v129 (F := F) x0 x1 x5 x6 x7 x8 x9 x10 x11 x12
  v131 : V (Proc.devRef .tc main_v131) = val_main_v131 (F := F) x5
  v138 : V (Proc.devRef .tc main_v138) = val_main_v138 (F := F) x0 x5 x6
  v140 : V (Proc.devRef .tc main_v140) = val_main_v140 (F := F) x0 x5 x6
  v142 : V (Proc.devRef .tc main_v142) = val_main_v142 (F := F) x7
  v149 : V (Proc.devRef .tc main_v149) = val_main_v149 (F := F) x0 x5 x6 x7 x8
  v151 : V (Proc.devRef .tc main_v151) = val_main_v151 (F := F) x0 x5 x6 x7 x8
  v153 : V (Proc.devRef .tc main_v153) = val_main_v153 (F := F) x9
  v161 : V (Proc.devRef .tc main_v161) = val_main_v161 (F := F) x11
  v163 : V (Proc.devRef .tc main_v163) = val_main_v163 (F := F) x0 x5 x6 x7 x8 x9 x10 x11
  v167 : V (Proc.devRef .tc main_v167) = val_main_v167 (F := F) x12

set_option maxRecDepth 8192 in
set_option maxHeartbeats 4000000 in
theorem stepC (h : PreC V x0 x1 x2 x3 x4 x5 x6 x7 x8 x9 x10 x11 x12) : PostC (after opsC V) x0 x1 x2 x3 x4 x5 x6 x7 x8 x9 x10 x11 x12 := by
  cases h; constructor <;> stretch

end Cert.RefRun

end
-- ==== Proof.RefRunD.lean ====
import proofs.«428180_j4174708212170_2_alg».proof.Proof.RefRead
import proofs.«428180_j4174708212170_2_alg».proof.Proof.RefStep

noncomputable section

namespace Cert.RefRun

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

abbrev opsD : List (HloOp τ sig (Elt F)) :=
  [ binary main_v163 main_v167 main_v168 (addf : (⟨S100000x1, .f32⟩ : BufTy).Contents (Elt F) → (⟨S100000x1, .f32⟩ : BufTy).Contents (Elt F) → (⟨S100000x1, .f32⟩ : BufTy).Contents (Elt F)),
    nullary main_c_10 (constantI S_ 32 3#32),
    unary main_c_10 main_v169 (broadcastInDim S100000 ![] bcast_S_S100000 : (⟨S_, .i32⟩ : BufTy).Contents (Elt F) → (⟨S100000, .i32⟩ : BufTy).Contents (Elt F)),
    binary main_arg1 main_v169 main_v170 (cmpi .eq : (⟨S100000, .i32⟩ : BufTy).Contents (Elt F) → (⟨S100000, .i32⟩ : BufTy).Contents (Elt F) → (⟨S100000, .i1⟩ : BufTy).Contents (Elt F)),
    unary main_v170 main_v171 (broadcastInDim S100000x1 ![0] bcast_S100000_S100000x1_0 : (⟨S100000, .i1⟩ : BufTy).Contents (Elt F) → (⟨S100000x1, .i1⟩ : BufTy).Contents (Elt F)),
    TRef.ternary (TRef.of (T := ⟨S100000x1, .i1⟩) main_v171) (TRef.of (T := ⟨S100000x1, .f32⟩) main_v168) (TRef.of (T := ⟨S100000x1, .f32⟩) main_v129) (TRef.of (T := ⟨S100000x1, .f32⟩) main_v172) select,
    nullary main_cst_11 (constant S_ .f32 0x00000000#32),
    unary main_cst_11 main_v173 (broadcastInDim S1000x1 ![] bcast_S_S1000x1 : (⟨S_, .f32⟩ : BufTy).Contents (Elt F) → (⟨S1000x1, .f32⟩ : BufTy).Contents (Elt F)),
    unary main_arg2 main_v174 (broadcastInDim S100000x1 ![0] bcast_S100000_S100000x1_0 : (⟨S100000, .i32⟩ : BufTy).Contents (Elt F) → (⟨S100000x1, .i32⟩ : BufTy).Contents (Elt F)),
    ternary main_v173 main_v174 main_v172 main_v175 ((fun x i u => Host.scatterAdd scatter_S1000x1_S100000x1_S100000x1_1_0_0_1 x i u) : (⟨S1000x1, .f32⟩ : BufTy).Contents (Elt F) → (⟨S100000x1, .i32⟩ : BufTy).Contents (Elt F) → (⟨S100000x1, .f32⟩ : BufTy).Contents (Elt F) → (⟨S1000x1, .f32⟩ : BufTy).Contents (Elt F)),
    nullary main_cst_12 (constant S_ .f32 0x3F800000#32),
    unary main_cst_12 main_v176 (broadcastInDim S100000x1 ![] bcast_S_S100000x1 : (⟨S_, .f32⟩ : BufTy).Contents (Elt F) → (⟨S100000x1, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S100000x1, .f32⟩) main_call4_v0) (broadcastInDim S100000x1 ![] bcast_S_S100000x1),
    TRef.ternary (TRef.of (T := ⟨S100000x1, .i1⟩) main_v171) (TRef.of (T := ⟨S100000x1, .f32⟩) main_call4_v0) (TRef.of (T := ⟨S100000x1, .f32⟩) main_v176) (TRef.of (T := ⟨S100000x1, .f32⟩) main_v177_1) select,
    TRef.ternary (TRef.of (T := ⟨S100000x1, .i1⟩) main_v171) (TRef.of (T := ⟨S100000x1, .f32⟩) main_v176) (TRef.of (T := ⟨S100000x1, .f32⟩) main_call4_v0) (TRef.of (T := ⟨S100000x1, .f32⟩) main_v177_0) select,
    binary main_v177_0 main_v161 main_v178 ((fun l r => Host.dotGeneral dot_S100000x1_S256x1_S100000x256_1_1_0_0_n_n none l r) : (⟨S100000x1, .f32⟩ : BufTy).Contents (Elt F) → (⟨S256x1, .f32⟩ : BufTy).Contents (Elt F) → (⟨S100000x256, .f32⟩ : BufTy).Contents (Elt F)),
    binary main_v177_0 main_v153 main_v179 ((fun l r => Host.dotGeneral dot_S100000x1_S256x1_S100000x256_1_1_0_0_n_n none l r) : (⟨S100000x1, .f32⟩ : BufTy).Contents (Elt F) → (⟨S256x1, .f32⟩ : BufTy).Contents (Elt F) → (⟨S100000x256, .f32⟩ : BufTy).Contents (Elt F)),
    binary main_v179 main_v151 main_v180 (mulf : (⟨S100000x256, .f32⟩ : BufTy).Contents (Elt F) → (⟨S100000x256, .f32⟩ : BufTy).Contents (Elt F) → (⟨S100000x256, .f32⟩ : BufTy).Contents (Elt F)),
    binary main_v180 main_v149 main_v181 (mulf : (⟨S100000x256, .f32⟩ : BufTy).Contents (Elt F) → (⟨S100000x256, .f32⟩ : BufTy).Contents (Elt F) → (⟨S100000x256, .f32⟩ : BufTy).Contents (Elt F)),
    binary main_v180 main_v181 main_v182 (addf : (⟨S100000x256, .f32⟩ : BufTy).Contents (Elt F) → (⟨S100000x256, .f32⟩ : BufTy).Contents (Elt F) → (⟨S100000x256, .f32⟩ : BufTy).Contents (Elt F)),
    binary main_v182 main_v142 main_v183 ((fun l r => Host.dotGeneral dot_S100000x256_S256x256_S100000x256_1_1_0_0_n_n none l r) : (⟨S100000x256, .f32⟩ : BufTy).Contents (Elt F) → (⟨S256x256, .f32⟩ : BufTy).Contents (Elt F) → (⟨S100000x256, .f32⟩ : BufTy).Contents (Elt F)),
    binary main_v183 main_v140 main_v184 (mulf : (⟨S100000x256, .f32⟩ : BufTy).Contents (Elt F) → (⟨S100000x256, .f32⟩ : BufTy).Contents (Elt F) → (⟨S100000x256, .f32⟩ : BufTy).Contents (Elt F)),
    binary main_v184 main_v138 main_v185 (mulf : (⟨S100000x256, .f32⟩ : BufTy).Contents (Elt F) → (⟨S100000x256, .f32⟩ : BufTy).Contents (Elt F) → (⟨S100000x256, .f32⟩ : BufTy).Contents (Elt F)),
    binary main_v184 main_v185 main_v186 (addf : (⟨S100000x256, .f32⟩ : BufTy).Contents (Elt F) → (⟨S100000x256, .f32⟩ : BufTy).Contents (Elt F) → (⟨S100000x256, .f32⟩ : BufTy).Contents (Elt F)),
    binary main_v186 main_v131 main_v187 ((fun l r => Host.dotGeneral dot_S100000x256_S256x256_S100000x256_1_1_0_0_n_n none l r) : (⟨S100000x256, .f32⟩ : BufTy).Contents (Elt F) → (⟨S256x256, .f32⟩ : BufTy).Contents (Elt F) → (⟨S100000x256, .f32⟩ : BufTy).Contents (Elt F)),
    binary main_v178 main_v187 main_v188 (addf : (⟨S100000x256, .f32⟩ : BufTy).Contents (Elt F) → (⟨S100000x256, .f32⟩ : BufTy).Contents (Elt F) → (⟨S100000x256, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S100000x1, .f32⟩) main_call5_v0) (broadcastInDim S100000x1 ![] bcast_S_S100000x1),
    TRef.ternary (TRef.of (T := ⟨S100000x1, .i1⟩) main_v128) (TRef.of (T := ⟨S100000x1, .f32⟩) main_call5_v0) (TRef.of (T := ⟨S100000x1, .f32⟩) main_v177_1) (TRef.of (T := ⟨S100000x1, .f32⟩) main_v189_1) select,
    TRef.ternary (TRef.of (T := ⟨S100000x1, .i1⟩) main_v128) (TRef.of (T := ⟨S100000x1, .f32⟩) main_v177_1) (TRef.of (T := ⟨S100000x1, .f32⟩) main_call5_v0) (TRef.of (T := ⟨S100000x1, .f32⟩) main_v189_0) select,
    binary main_v189_0 main_v118 main_v190 ((fun l r => Host.dotGeneral dot_S100000x1_S256x1_S100000x256_1_1_0_0_n_n none l r) : (⟨S100000x1, .f32⟩ : BufTy).Contents (Elt F) → (⟨S256x1, .f32⟩ : BufTy).Contents (Elt F) → (⟨S100000x256, .f32⟩ : BufTy).Contents (Elt F)),
    binary main_v188 main_v190 main_v191 (addf : (⟨S100000x256, .f32⟩ : BufTy).Contents (Elt F) → (⟨S100000x256, .f32⟩ : BufTy).Contents (Elt F) → (⟨S100000x256, .f32⟩ : BufTy).Contents (Elt F)),
    binary main_v189_0 main_v110 main_v192 ((fun l r => Host.dotGeneral dot_S100000x1_S256x1_S100000x256_1_1_0_0_n_n none l r) : (⟨S100000x1, .f32⟩ : BufTy).Contents (Elt F) → (⟨S256x1, .f32⟩ : BufTy).Contents (Elt F) → (⟨S100000x256, .f32⟩ : BufTy).Contents (Elt F)),
    binary main_v192 main_v108 main_v193 (mulf : (⟨S100000x256, .f32⟩ : BufTy).Contents (Elt F) → (⟨S100000x256, .f32⟩ : BufTy).Contents (Elt F) → (⟨S100000x256, .f32⟩ : BufTy).Contents (Elt F)),
    binary main_v193 main_v106 main_v194 (mulf : (⟨S100000x256, .f32⟩ : BufTy).Contents (Elt F) → (⟨S100000x256, .f32⟩ : BufTy).Contents (Elt F) → (⟨S100000x256, .f32⟩ : BufTy).Contents (Elt F)),
    binary main_v193 main_v194 main_v195 (addf : (⟨S100000x256, .f32⟩ : BufTy).Contents (Elt F) → (⟨S100000x256, .f32⟩ : BufTy).Contents (Elt F) → (⟨S100000x256, .f32⟩ : BufTy).Contents (Elt F)),
    binary main_v195 main_v99 main_v196 ((fun l r => Host.dotGeneral dot_S100000x256_S256x256_S100000x256_1_1_0_0_n_n none l r) : (⟨S100000x256, .f32⟩ : BufTy).Contents (Elt F) → (⟨S256x256, .f32⟩ : BufTy).Contents (Elt F) → (⟨S100000x256, .f32⟩ : BufTy).Contents (Elt F)),
    binary main_v196 main_v97 main_v197 (mulf : (⟨S100000x256, .f32⟩ : BufTy).Contents (Elt F) → (⟨S100000x256, .f32⟩ : BufTy).Contents (Elt F) → (⟨S100000x256, .f32⟩ : BufTy).Contents (Elt F)),
    binary main_v197 main_v95 main_v198 (mulf : (⟨S100000x256, .f32⟩ : BufTy).Contents (Elt F) → (⟨S100000x256, .f32⟩ : BufTy).Contents (Elt F) → (⟨S100000x256, .f32⟩ : BufTy).Contents (Elt F)),
    binary main_v197 main_v198 main_v199 (addf : (⟨S100000x256, .f32⟩ : BufTy).Contents (Elt F) → (⟨S100000x256, .f32⟩ : BufTy).Contents (Elt F) → (⟨S100000x256, .f32⟩ : BufTy).Contents (Elt F)),
    binary main_v199 main_v88 main_v200 ((fun l r => Host.dotGeneral dot_S100000x256_S256x256_S100000x256_1_1_0_0_n_n none l r) : (⟨S100000x256, .f32⟩ : BufTy).Contents (Elt F) → (⟨S256x256, .f32⟩ : BufTy).Contents (Elt F) → (⟨S100000x256, .f32⟩ : BufTy).Contents (Elt F)),
    binary main_v191 main_v200 main_v201 (addf : (⟨S100000x256, .f32⟩ : BufTy).Contents (Elt F) → (⟨S100000x256, .f32⟩ : BufTy).Contents (Elt F) → (⟨S100000x256, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S100000x1, .f32⟩) main_call6_v0) (broadcastInDim S100000x1 ![] bcast_S_S100000x1),
    TRef.ternary (TRef.of (T := ⟨S100000x1, .i1⟩) main_v85) (TRef.of (T := ⟨S100000x1, .f32⟩) main_call6_v0) (TRef.of (T := ⟨S100000x1, .f32⟩) main_v189_1) (TRef.of (T := ⟨S100000x1, .f32⟩) main_v202_1) select,
    TRef.ternary (TRef.of (T := ⟨S100000x1, .i1⟩) main_v85) (TRef.of (T := ⟨S100000x1, .f32⟩) main_v189_1) (TRef.of (T := ⟨S100000x1, .f32⟩) main_call6_v0) (TRef.of (T := ⟨S100000x1, .f32⟩) main_v202_0) select,
    binary main_v202_0 main_v75 main_v203 ((fun l r => Host.dotGeneral dot_S100000x1_S256x1_S100000x256_1_1_0_0_n_n none l r) : (⟨S100000x1, .f32⟩ : BufTy).Contents (Elt F) → (⟨S256x1, .f32⟩ : BufTy).Contents (Elt F) → (⟨S100000x256, .f32⟩ : BufTy).Contents (Elt F)),
    binary main_v201 main_v203 main_v204 (addf : (⟨S100000x256, .f32⟩ : BufTy).Contents (Elt F) → (⟨S100000x256, .f32⟩ : BufTy).Contents (Elt F) → (⟨S100000x256, .f32⟩ : BufTy).Contents (Elt F)),
    binary main_v202_0 main_v67 main_v205 ((fun l r => Host.dotGeneral dot_S100000x1_S256x1_S100000x256_1_1_0_0_n_n none l r) : (⟨S100000x1, .f32⟩ : BufTy).Contents (Elt F) → (⟨S256x1, .f32⟩ : BufTy).Contents (Elt F) → (⟨S100000x256, .f32⟩ : BufTy).Contents (Elt F)),
    binary main_v205 main_v65 main_v206 (mulf : (⟨S100000x256, .f32⟩ : BufTy).Contents (Elt F) → (⟨S100000x256, .f32⟩ : BufTy).Contents (Elt F) → (⟨S100000x256, .f32⟩ : BufTy).Contents (Elt F)),
    binary main_v206 main_v63 main_v207 (mulf : (⟨S100000x256, .f32⟩ : BufTy).Contents (Elt F) → (⟨S100000x256, .f32⟩ : BufTy).Contents (Elt F) → (⟨S100000x256, .f32⟩ : BufTy).Contents (Elt F)),
    binary main_v206 main_v207 main_v208 (addf : (⟨S100000x256, .f32⟩ : BufTy).Contents (Elt F) → (⟨S100000x256, .f32⟩ : BufTy).Contents (Elt F) → (⟨S100000x256, .f32⟩ : BufTy).Contents (Elt F)),
    binary main_v208 main_v56 main_v209 ((fun l r => Host.dotGeneral dot_S100000x256_S256x256_S100000x256_1_1_0_0_n_n none l r) : (⟨S100000x256, .f32⟩ : BufTy).Contents (Elt F) → (⟨S256x256, .f32⟩ : BufTy).Contents (Elt F) → (⟨S100000x256, .f32⟩ : BufTy).Contents (Elt F)),
    binary main_v209 main_v54 main_v210 (mulf : (⟨S100000x256, .f32⟩ : BufTy).Contents (Elt F) → (⟨S100000x256, .f32⟩ : BufTy).Contents (Elt F) → (⟨S100000x256, .f32⟩ : BufTy).Contents (Elt F)),
    binary main_v210 main_v52 main_v211 (mulf : (⟨S100000x256, .f32⟩ : BufTy).Contents (Elt F) → (⟨S100000x256, .f32⟩ : BufTy).Contents (Elt F) → (⟨S100000x256, .f32⟩ : BufTy).Contents (Elt F)),
    binary main_v210 main_v211 main_v212 (addf : (⟨S100000x256, .f32⟩ : BufTy).Contents (Elt F) → (⟨S100000x256, .f32⟩ : BufTy).Contents (Elt F) → (⟨S100000x256, .f32⟩ : BufTy).Contents (Elt F)),
    binary main_v212 main_v45 main_v213 ((fun l r => Host.dotGeneral dot_S100000x256_S256x256_S100000x256_1_1_0_0_n_n none l r) : (⟨S100000x256, .f32⟩ : BufTy).Contents (Elt F) → (⟨S256x256, .f32⟩ : BufTy).Contents (Elt F) → (⟨S100000x256, .f32⟩ : BufTy).Contents (Elt F)),
    binary main_v204 main_v213 main_v214 (addf : (⟨S100000x256, .f32⟩ : BufTy).Contents (Elt F) → (⟨S100000x256, .f32⟩ : BufTy).Contents (Elt F) → (⟨S100000x256, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S100000x1, .f32⟩) main_call7_v0) (broadcastInDim S100000x1 ![] bcast_S_S100000x1),
    TRef.ternary (TRef.of (T := ⟨S100000x1, .i1⟩) main_v42) (TRef.of (T := ⟨S100000x1, .f32⟩) main_v202_1) (TRef.of (T := ⟨S100000x1, .f32⟩) main_call7_v0) (TRef.of (T := ⟨S100000x1, .f32⟩) main_v215) select,
    binary main_v215 main_v32 main_v216 ((fun l r => Host.dotGeneral dot_S100000x1_S256x1_S100000x256_1_1_0_0_n_n none l r) : (⟨S100000x1, .f32⟩ : BufTy).Contents (Elt F) → (⟨S256x1, .f32⟩ : BufTy).Contents (Elt F) → (⟨S100000x256, .f32⟩ : BufTy).Contents (Elt F)),
    binary main_v214 main_v216 main_v217 (addf : (⟨S100000x256, .f32⟩ : BufTy).Contents (Elt F) → (⟨S100000x256, .f32⟩ : BufTy).Contents (Elt F) → (⟨S100000x256, .f32⟩ : BufTy).Contents (Elt F)),
    binary main_v215 main_v24 main_v218 ((fun l r => Host.dotGeneral dot_S100000x1_S256x1_S100000x256_1_1_0_0_n_n none l r) : (⟨S100000x1, .f32⟩ : BufTy).Contents (Elt F) → (⟨S256x1, .f32⟩ : BufTy).Contents (Elt F) → (⟨S100000x256, .f32⟩ : BufTy).Contents (Elt F)),
    binary main_v218 main_v22 main_v219 (mulf : (⟨S100000x256, .f32⟩ : BufTy).Contents (Elt F) → (⟨S100000x256, .f32⟩ : BufTy).Contents (Elt F) → (⟨S100000x256, .f32⟩ : BufTy).Contents (Elt F)),
    binary main_v219 main_v20 main_v220 (mulf : (⟨S100000x256, .f32⟩ : BufTy).Contents (Elt F) → (⟨S100000x256, .f32⟩ : BufTy).Contents (Elt F) → (⟨S100000x256, .f32⟩ : BufTy).Contents (Elt F)),
    binary main_v219 main_v220 main_v221 (addf : (⟨S100000x256, .f32⟩ : BufTy).Contents (Elt F) → (⟨S100000x256, .f32⟩ : BufTy).Contents (Elt F) → (⟨S100000x256, .f32⟩ : BufTy).Contents (Elt F)),
    binary main_v221 main_v13 main_v222 ((fun l r => Host.dotGeneral dot_S100000x256_S256x256_S100000x256_1_1_0_0_n_n none l r) : (⟨S100000x256, .f32⟩ : BufTy).Contents (Elt F) → (⟨S256x256, .f32⟩ : BufTy).Contents (Elt F) → (⟨S100000x256, .f32⟩ : BufTy).Contents (Elt F)),
    binary main_v222 main_v11 main_v223 (mulf : (⟨S100000x256, .f32⟩ : BufTy).Contents (Elt F) → (⟨S100000x256, .f32⟩ : BufTy).Contents (Elt F) → (⟨S100000x256, .f32⟩ : BufTy).Contents (Elt F)),
    binary main_v223 main_v9 main_v224 (mulf : (⟨S100000x256, .f32⟩ : BufTy).Contents (Elt F) → (⟨S100000x256, .f32⟩ : BufTy).Contents (Elt F) → (⟨S100000x256, .f32⟩ : BufTy).Contents (Elt F)) ]

set_option maxRecDepth 8192 in
set_option maxHeartbeats 4000000 in
theorem partD_eq (c : Dev nD) : main_part3 (F := F) c = seq opsD := rfl

theorem opsD_sub : (opsD : List (HloOp τ sig (Elt F))).Forall fun op => op.bufs ⊆ tcRefs τ sig :=
  ⟨binary_bufs_sub .., nullary_bufs_sub .., unary_bufs_sub .., binary_bufs_sub .., unary_bufs_sub .., ternary_bufs_sub .., nullary_bufs_sub .., unary_bufs_sub .., unary_bufs_sub .., ternary_bufs_sub .., nullary_bufs_sub .., unary_bufs_sub .., nullary_bufs_sub .., unary_bufs_sub .., ternary_bufs_sub .., ternary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., nullary_bufs_sub .., unary_bufs_sub .., ternary_bufs_sub .., ternary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., nullary_bufs_sub .., unary_bufs_sub .., ternary_bufs_sub .., ternary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., nullary_bufs_sub .., unary_bufs_sub .., ternary_bufs_sub .., binary_bufs_sub .., binary_bufs_sub .., binary_bufs_sub .., binary_bufs_sub .., binary_bufs_sub .., binary_bufs_sub .., binary_bufs_sub .., binary_bufs_sub .., binary_bufs_sub ..⟩

theorem opsD_fresh : ∀ op ∈ (opsD : List (HloOp τ sig (Elt F))), op.fresh = ∅ := by
  intro _ h; (repeat (cases h with | head => rfl | tail _ h => ?_)); exact nomatch h

variable (V : Valuation τ sig (Elt F))
  (x0 : (⟨S100000x256, .f32⟩ : BufTy).Contents (Elt F)) (x1 : (⟨S100000, .i32⟩ : BufTy).Contents (Elt F)) (x2 : (⟨S100000, .i32⟩ : BufTy).Contents (Elt F))
  (x3 : (⟨S200000x3x256, .f32⟩ : BufTy).Contents (Elt F)) (x4 : (⟨S200000, .i32⟩ : BufTy).Contents (Elt F)) (x5 : (⟨S4x256x256, .f32⟩ : BufTy).Contents (Elt F))
  (x6 : (⟨S4x256, .f32⟩ : BufTy).Contents (Elt F)) (x7 : (⟨S4x256x256, .f32⟩ : BufTy).Contents (Elt F)) (x8 : (⟨S4x256, .f32⟩ : BufTy).Contents (Elt F))
  (x9 : (⟨S4x256x1, .f32⟩ : BufTy).Contents (Elt F)) (x10 : (⟨S4x1, .f32⟩ : BufTy).Contents (Elt F)) (x11 : (⟨S4x256x1, .f32⟩ : BufTy).Contents (Elt F))
  (x12 : (⟨S4x1, .f32⟩ : BufTy).Contents (Elt F))

structure PreD : Prop where
  arg0 : V (Proc.devRef .tc main_arg0) = x0
  arg1 : V (Proc.devRef .tc main_arg1) = x1
  arg2 : V (Proc.devRef .tc main_arg2) = x2
  arg3 : V (Proc.devRef .tc main_arg3) = x3
  arg4 : V (Proc.devRef .tc main_arg4) = x4
  arg5 : V (Proc.devRef .tc main_arg5) = x5
  arg6 : V (Proc.devRef .tc main_arg6) = x6
  arg7 : V (Proc.devRef .tc main_arg7) = x7
  arg8 : V (Proc.devRef .tc main_arg8) = x8
  arg9 : V (Proc.devRef .tc main_arg9) = x9
  arg10 : V (Proc.devRef .tc main_arg10) = x10
  arg11 : V (Proc.devRef .tc main_arg11) = x11
  arg12 : V (Proc.devRef .tc main_arg12) = x12
  v2 : V (Proc.devRef .tc main_v2) = val_main_v2 (F := F) x5
  v9 : V (Proc.devRef .tc main_v9) = val_main_v9 (F := F) x0 x5 x6
  v11 : V (Proc.devRef .tc main_v11) = val_main_v11 (F := F) x0 x5 x6
  v13 : V (Proc.devRef .tc main_v13) = val_main_v13 (F := F) x7
  v20 : V (Proc.devRef .tc main_v20) = val_main_v20 (F := F) x0 x5 x6 x7 x8
  v22 : V (Proc.devRef .tc main_v22) = val_main_v22 (F := F) x0 x5 x6 x7 x8
  v24 : V (Proc.devRef .tc main_v24) = val_main_v24 (F := F) x9
  v32 : V (Proc.devRef .tc main_v32) = val_main_v32 (F := F) x11
  v42 : V (Proc.devRef .tc main_v42) = val_main_v42 (F := F) x1
  v45 : V (Proc.devRef .tc main_v45) = val_main_v45 (F := F) x5
  v52 : V (Proc.devRef .tc main_v52) = val_main_v52 (F := F) x0 x5 x6
  v54 : V (Proc.devRef .tc main_v54) = val_main_v54 (F := F) x0 x5 x6
  v56 : V (Proc.devRef .tc main_v56) = val_main_v56 (F := F) x7
  v63 : V (Proc.devRef .tc main_v63) = val_main_v63 (F := F) x0 x5 x6 x7 x8
  v65 : V (Proc.devRef .tc main_v65) = val_main_v65 (F := F) x0 x5 x6 x7 x8
  v67 : V (Proc.devRef .tc main_v67) = val_main_v67 (F := F) x9
  v75 : V (Proc.devRef .tc main_v75) = val_main_v75 (F := F) x11
  v85 : V (Proc.devRef .tc main_v85) = val_main_v85 (F := F) x1
  v88 : V (Proc.devRef .tc main_v88) = val_main_v88 (F := F) x5
  v95 : V (Proc.devRef .tc main_v95) = val_main_v95 (F := F) x0 x5 x6
  v97 : V (Proc.devRef .tc main_v97) = val_main_v97 (F := F) x0 x5 x6
  v99 : V (Proc.devRef .tc main_v99) = val_main_v99 (F := F) x7
  v106 : V (Proc.devRef .tc main_v106) = val_main_v106 (F := F) x0 x5 x6 x7 x8
  v108 : V (Proc.devRef .tc main_v108) = val_main_v108 (F := F) x0 x5 x6 x7 x8
  v110 : V (Proc.devRef .tc main_v110) = val_main_v110 (F := F) x9
  v118 : V (Proc.devRef .tc main_v118) = val_main_v118 (F := F) x11
  v128 : V (Proc.devRef .tc main_v128) = val_main_v128 (F := F) x1
  v129 : V (Proc.devRef .tc main_v129) = val_main_v129 (F := F) x0 x1 x5 x6 x7 x8 x9 x10 x11 x12
  v131 : V (Proc.devRef .tc main_v131) = val_main_v131 (F := F) x5
  v138 : V (Proc.devRef .tc main_v138) = val_main_v138 (F := F) x0 x5 x6
  v140 : V (Proc.devRef .tc main_v140) = val_main_v140 (F := F) x0 x5 x6
  v142 : V (Proc.devRef .tc main_v142) = val_main_v142 (F := F) x7
  v149 : V (Proc.devRef .tc main_v149) = val_main_v149 (F := F) x0 x5 x6 x7 x8
  v151 : V (Proc.devRef .tc main_v151) = val_main_v151 (F := F) x0 x5 x6 x7 x8
  v153 : V (Proc.devRef .tc main_v153) = val_main_v153 (F := F) x9
  v161 : V (Proc.devRef .tc main_v161) = val_main_v161 (F := F) x11
  v163 : V (Proc.devRef .tc main_v163) = val_main_v163 (F := F) x0 x5 x6 x7 x8 x9 x10 x11
  v167 : V (Proc.devRef .tc main_v167) = val_main_v167 (F := F) x12

structure PostD : Prop where
  arg0 : V (Proc.devRef .tc main_arg0) = x0
  arg1 : V (Proc.devRef .tc main_arg1) = x1
  arg2 : V (Proc.devRef .tc main_arg2) = x2
  arg3 : V (Proc.devRef .tc main_arg3) = x3
  arg4 : V (Proc.devRef .tc main_arg4) = x4
  arg5 : V (Proc.devRef .tc main_arg5) = x5
  arg6 : V (Proc.devRef .tc main_arg6) = x6
  arg7 : V (Proc.devRef .tc main_arg7) = x7
  arg8 : V (Proc.devRef .tc main_arg8) = x8
  arg9 : V (Proc.devRef .tc main_arg9) = x9
  arg10 : V (Proc.devRef .tc main_arg10) = x10
  arg11 : V (Proc.devRef .tc main_arg11) = x11
  arg12 : V (Proc.devRef .tc main_arg12) = x12
  v2 : V (Proc.devRef .tc main_v2) = val_main_v2 (F := F) x5
  v175 : V (Proc.devRef .tc main_v175) = val_main_v175 (F := F) x0 x1 x2 x5 x6 x7 x8 x9 x10 x11 x12
  v217 : V (Proc.devRef .tc main_v217) = val_main_v217 (F := F) x0 x1 x5 x6 x7 x8 x9 x11
  v223 : V (Proc.devRef .tc main_v223) = val_main_v223 (F := F) x0 x1 x5 x6 x7 x8 x9
  v224 : V (Proc.devRef .tc main_v224) = val_main_v224 (F := F) x0 x1 x5 x6 x7 x8 x9

set_option maxRecDepth 8192 in
set_option maxHeartbeats 4000000 in
theorem stepD (h : PreD V x0 x1 x2 x3 x4 x5 x6 x7 x8 x9 x10 x11 x12) : PostD (after opsD V) x0 x1 x2 x3 x4 x5 x6 x7 x8 x9 x10 x11 x12 := by
  cases h; constructor <;> stretch

end Cert.RefRun

end
-- ==== Proof.RefRunE.lean ====
import proofs.«428180_j4174708212170_2_alg».proof.Proof.RefRead
import proofs.«428180_j4174708212170_2_alg».proof.Proof.RefStep

noncomputable section

namespace Cert.RefRun

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

abbrev opsE : List (HloOp τ sig (Elt F)) :=
  [ binary main_v223 main_v224 main_v225 (addf : (⟨S100000x256, .f32⟩ : BufTy).Contents (Elt F) → (⟨S100000x256, .f32⟩ : BufTy).Contents (Elt F) → (⟨S100000x256, .f32⟩ : BufTy).Contents (Elt F)),
    binary main_v225 main_v2 main_v226 ((fun l r => Host.dotGeneral dot_S100000x256_S256x256_S100000x256_1_1_0_0_n_n none l r) : (⟨S100000x256, .f32⟩ : BufTy).Contents (Elt F) → (⟨S256x256, .f32⟩ : BufTy).Contents (Elt F) → (⟨S100000x256, .f32⟩ : BufTy).Contents (Elt F)),
    binary main_v217 main_v226 main_v227 (addf : (⟨S100000x256, .f32⟩ : BufTy).Contents (Elt F) → (⟨S100000x256, .f32⟩ : BufTy).Contents (Elt F) → (⟨S100000x256, .f32⟩ : BufTy).Contents (Elt F)),
    nullary main_c_13 (constantI S_ 32 0#32),
    unary main_c_13 main_v228 (broadcastInDim S200000 ![] bcast_S_S200000 : (⟨S_, .i32⟩ : BufTy).Contents (Elt F) → (⟨S200000, .i32⟩ : BufTy).Contents (Elt F)),
    binary main_arg4 main_v228 main_v229 (cmpi .slt : (⟨S200000, .i32⟩ : BufTy).Contents (Elt F) → (⟨S200000, .i32⟩ : BufTy).Contents (Elt F) → (⟨S200000, .i1⟩ : BufTy).Contents (Elt F)),
    nullary main_c_14 (constantI S_ 32 100000#32),
    unary main_c_14 main_v230 (broadcastInDim S200000 ![] bcast_S_S200000 : (⟨S_, .i32⟩ : BufTy).Contents (Elt F) → (⟨S200000, .i32⟩ : BufTy).Contents (Elt F)),
    binary main_arg4 main_v230 main_v231 (addi : (⟨S200000, .i32⟩ : BufTy).Contents (Elt F) → (⟨S200000, .i32⟩ : BufTy).Contents (Elt F) → (⟨S200000, .i32⟩ : BufTy).Contents (Elt F)),
    ternary main_v229 main_v231 main_arg4 main_v232 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v232 main_v233 (broadcastInDim S200000x1 ![0] bcast_S200000_S200000x1_0 : (⟨S200000, .i32⟩ : BufTy).Contents (Elt F) → (⟨S200000x1, .i32⟩ : BufTy).Contents (Elt F)),
    binary main_v227 main_v233 main_v234 ((fun x i => Host.gather gather_S100000x256_S200000x1_S200000x256_1_0_n_n_0_1_1256 x i) : (⟨S100000x256, .f32⟩ : BufTy).Contents (Elt F) → (⟨S200000x1, .i32⟩ : BufTy).Contents (Elt F) → (⟨S200000x256, .f32⟩ : BufTy).Contents (Elt F)),
    unary main_v234 main_v235 (broadcastInDim S200000x1x256 ![0, 2] bcast_S200000x256_S200000x1x256_0_2 : (⟨S200000x256, .f32⟩ : BufTy).Contents (Elt F) → (⟨S200000x1x256, .f32⟩ : BufTy).Contents (Elt F)),
    unary main_v235 main_v236 (broadcastInDim S200000x3x256 ![0, 1, 2] bcast_S200000x1x256_S200000x3x256_0_1_2 : (⟨S200000x1x256, .f32⟩ : BufTy).Contents (Elt F) → (⟨S200000x3x256, .f32⟩ : BufTy).Contents (Elt F)),
    binary main_arg3 main_v236 main_v237 (mulf : (⟨S200000x3x256, .f32⟩ : BufTy).Contents (Elt F) → (⟨S200000x3x256, .f32⟩ : BufTy).Contents (Elt F) → (⟨S200000x3x256, .f32⟩ : BufTy).Contents (Elt F)),
    nullary main_cst_15 (constant S_ .f32 0x00000000#32),
    binary main_v237 main_cst_15 main_v238 ((fun x v => Host.reduceAdd x v reducesTo_S200000x3x256_S200000x3_d2 h_S_) : (⟨S200000x3x256, .f32⟩ : BufTy).Contents (Elt F) → (⟨S_, .f32⟩ : BufTy).Contents (Elt F) → (⟨S200000x3, .f32⟩ : BufTy).Contents (Elt F)),
    unary main_v238 main_v239 (Host.negf : (⟨S200000x3, .f32⟩ : BufTy).Contents (Elt F) → (⟨S200000x3, .f32⟩ : BufTy).Contents (Elt F)),
    nullary main_cst_16 (constant S_ .f32 0x00000000#32),
    unary main_cst_16 main_v240 (broadcastInDim S100000x3 ![] bcast_S_S100000x3 : (⟨S_, .f32⟩ : BufTy).Contents (Elt F) → (⟨S100000x3, .f32⟩ : BufTy).Contents (Elt F)),
    unary main_arg4 main_v241 (broadcastInDim S200000x1 ![0] bcast_S200000_S200000x1_0 : (⟨S200000, .i32⟩ : BufTy).Contents (Elt F) → (⟨S200000x1, .i32⟩ : BufTy).Contents (Elt F)),
    ternary main_v240 main_v241 main_v239 main_v242 ((fun x i u => Host.scatterAdd scatter_S100000x3_S200000x1_S200000x3_1_0_0_1 x i u) : (⟨S100000x3, .f32⟩ : BufTy).Contents (Elt F) → (⟨S200000x1, .i32⟩ : BufTy).Contents (Elt F) → (⟨S200000x3, .f32⟩ : BufTy).Contents (Elt F) → (⟨S100000x3, .f32⟩ : BufTy).Contents (Elt F)) ]

set_option maxRecDepth 8192 in
set_option maxHeartbeats 4000000 in
theorem partE_eq (c : Dev nD) : main_part4 (F := F) c = seq opsE := rfl

theorem opsE_sub : (opsE : List (HloOp τ sig (Elt F))).Forall fun op => op.bufs ⊆ tcRefs τ sig :=
  ⟨binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., binary_bufs_sub .., unary_bufs_sub .., nullary_bufs_sub .., unary_bufs_sub .., unary_bufs_sub .., ternary_bufs_sub ..⟩

theorem opsE_fresh : ∀ op ∈ (opsE : List (HloOp τ sig (Elt F))), op.fresh = ∅ := by
  intro _ h; (repeat (cases h with | head => rfl | tail _ h => ?_)); exact nomatch h

variable (V : Valuation τ sig (Elt F))
  (x0 : (⟨S100000x256, .f32⟩ : BufTy).Contents (Elt F)) (x1 : (⟨S100000, .i32⟩ : BufTy).Contents (Elt F)) (x2 : (⟨S100000, .i32⟩ : BufTy).Contents (Elt F))
  (x3 : (⟨S200000x3x256, .f32⟩ : BufTy).Contents (Elt F)) (x4 : (⟨S200000, .i32⟩ : BufTy).Contents (Elt F)) (x5 : (⟨S4x256x256, .f32⟩ : BufTy).Contents (Elt F))
  (x6 : (⟨S4x256, .f32⟩ : BufTy).Contents (Elt F)) (x7 : (⟨S4x256x256, .f32⟩ : BufTy).Contents (Elt F)) (x8 : (⟨S4x256, .f32⟩ : BufTy).Contents (Elt F))
  (x9 : (⟨S4x256x1, .f32⟩ : BufTy).Contents (Elt F)) (x10 : (⟨S4x1, .f32⟩ : BufTy).Contents (Elt F)) (x11 : (⟨S4x256x1, .f32⟩ : BufTy).Contents (Elt F))
  (x12 : (⟨S4x1, .f32⟩ : BufTy).Contents (Elt F))

structure PreE : Prop where
  arg0 : V (Proc.devRef .tc main_arg0) = x0
  arg1 : V (Proc.devRef .tc main_arg1) = x1
  arg2 : V (Proc.devRef .tc main_arg2) = x2
  arg3 : V (Proc.devRef .tc main_arg3) = x3
  arg4 : V (Proc.devRef .tc main_arg4) = x4
  arg5 : V (Proc.devRef .tc main_arg5) = x5
  arg6 : V (Proc.devRef .tc main_arg6) = x6
  arg7 : V (Proc.devRef .tc main_arg7) = x7
  arg8 : V (Proc.devRef .tc main_arg8) = x8
  arg9 : V (Proc.devRef .tc main_arg9) = x9
  arg10 : V (Proc.devRef .tc main_arg10) = x10
  arg11 : V (Proc.devRef .tc main_arg11) = x11
  arg12 : V (Proc.devRef .tc main_arg12) = x12
  v2 : V (Proc.devRef .tc main_v2) = val_main_v2 (F := F) x5
  v175 : V (Proc.devRef .tc main_v175) = val_main_v175 (F := F) x0 x1 x2 x5 x6 x7 x8 x9 x10 x11 x12
  v217 : V (Proc.devRef .tc main_v217) = val_main_v217 (F := F) x0 x1 x5 x6 x7 x8 x9 x11
  v223 : V (Proc.devRef .tc main_v223) = val_main_v223 (F := F) x0 x1 x5 x6 x7 x8 x9
  v224 : V (Proc.devRef .tc main_v224) = val_main_v224 (F := F) x0 x1 x5 x6 x7 x8 x9

structure PostE : Prop where
  arg0 : V (Proc.devRef .tc main_arg0) = x0
  arg1 : V (Proc.devRef .tc main_arg1) = x1
  arg2 : V (Proc.devRef .tc main_arg2) = x2
  arg3 : V (Proc.devRef .tc main_arg3) = x3
  arg4 : V (Proc.devRef .tc main_arg4) = x4
  arg5 : V (Proc.devRef .tc main_arg5) = x5
  arg6 : V (Proc.devRef .tc main_arg6) = x6
  arg7 : V (Proc.devRef .tc main_arg7) = x7
  arg8 : V (Proc.devRef .tc main_arg8) = x8
  arg9 : V (Proc.devRef .tc main_arg9) = x9
  arg10 : V (Proc.devRef .tc main_arg10) = x10
  arg11 : V (Proc.devRef .tc main_arg11) = x11
  arg12 : V (Proc.devRef .tc main_arg12) = x12
  v175 : V (Proc.devRef .tc main_v175) = val_main_v175 (F := F) x0 x1 x2 x5 x6 x7 x8 x9 x10 x11 x12
  v242 : V (Proc.devRef .tc main_v242) = val_main_v242 (F := F) x0 x1 x3 x4 x5 x6 x7 x8 x9 x11

set_option maxRecDepth 8192 in
set_option maxHeartbeats 4000000 in
theorem stepE (h : PreE V x0 x1 x2 x3 x4 x5 x6 x7 x8 x9 x10 x11 x12) : PostE (after opsE V) x0 x1 x2 x3 x4 x5 x6 x7 x8 x9 x10 x11 x12 := by
  cases h; constructor <;> stretch

end Cert.RefRun

end
-- ==== Proof.RefRun.lean ====
import proofs.«428180_j4174708212170_2_alg».proof.Proof.RefRunA
import proofs.«428180_j4174708212170_2_alg».proof.Proof.RefRunB
import proofs.«428180_j4174708212170_2_alg».proof.Proof.RefRunC
import proofs.«428180_j4174708212170_2_alg».proof.Proof.RefRunD
import proofs.«428180_j4174708212170_2_alg».proof.Proof.RefRunE
import proofs.«428180_j4174708212170_2_alg».proof.Proof.Gen.Pre_finite_inputs
import proofs.«428180_j4174708212170_2_alg».proof.Defs
import Idealize.ShloMosaic.Lib.Pipeline.Frame

noncomputable section

namespace Cert.RefRun

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

def ops : List (HloOp τ sig (Elt F)) := opsA ++ (opsB ++ (opsC ++ (opsD ++ opsE)))

theorem main_eq (c : Dev nD) : main (F := F) c = seq (ops (F := F)) := by
  unfold main ops
  rw [partA_eq, partB_eq, partC_eq, partD_eq, partE_eq, seq_append, seq_append, seq_append, seq_append]

theorem ops_sub : (ops : List (HloOp τ sig (Elt F))).Forall fun op => op.bufs ⊆ tcRefs τ sig :=
  List.forall_append.2 ⟨opsA_sub, List.forall_append.2 ⟨opsB_sub, List.forall_append.2 ⟨opsC_sub,
    List.forall_append.2 ⟨opsD_sub, opsE_sub⟩⟩⟩⟩

theorem ops_fresh : ∀ op ∈ (ops : List (HloOp τ sig (Elt F))), op.fresh = ∅ := by
  intro op h
  rcases List.mem_append.1 h with h | h
  · exact opsA_fresh op h
  rcases List.mem_append.1 h with h | h
  · exact opsB_fresh op h
  rcases List.mem_append.1 h with h | h
  · exact opsC_fresh op h
  rcases List.mem_append.1 h with h | h
  · exact opsD_fresh op h
  · exact opsE_fresh op h

theorem after_ops (V : Valuation τ sig (Elt F)) :
    after (ops (F := F)) V = after opsE (after opsD (after opsC (after opsB (after opsA V)))) := by
  rw [ops, StableHlo.after_append, StableHlo.after_append, StableHlo.after_append, StableHlo.after_append]

theorem scopedRefs_eq : (Finset.univ.filter fun b : Ref sig .tc => b.isScoped) = ∅ := by decide

theorem scopedSems_eq : (Finset.univ.filter fun sm : SemLoc sig => sm.isScoped .tc) = ∅ := by decide

section Chain
variable {V : Valuation τ sig (Elt F)} {x0 : (⟨S100000x256, .f32⟩ : BufTy).Contents (Elt F)}
  {x1 : (⟨S100000, .i32⟩ : BufTy).Contents (Elt F)} {x2 : (⟨S100000, .i32⟩ : BufTy).Contents (Elt F)}
  {x3 : (⟨S200000x3x256, .f32⟩ : BufTy).Contents (Elt F)} {x4 : (⟨S200000, .i32⟩ : BufTy).Contents (Elt F)}
  {x5 : (⟨S4x256x256, .f32⟩ : BufTy).Contents (Elt F)} {x6 : (⟨S4x256, .f32⟩ : BufTy).Contents (Elt F)}
  {x7 : (⟨S4x256x256, .f32⟩ : BufTy).Contents (Elt F)} {x8 : (⟨S4x256, .f32⟩ : BufTy).Contents (Elt F)}
  {x9 : (⟨S4x256x1, .f32⟩ : BufTy).Contents (Elt F)} {x10 : (⟨S4x1, .f32⟩ : BufTy).Contents (Elt F)}
  {x11 : (⟨S4x256x1, .f32⟩ : BufTy).Contents (Elt F)} {x12 : (⟨S4x1, .f32⟩ : BufTy).Contents (Elt F)}

theorem preB_of_postA (h : PostA V x0 x1 x2 x3 x4 x5 x6 x7 x8 x9 x10 x11 x12) : PreB V x0 x1 x2 x3 x4 x5 x6 x7 x8 x9 x10 x11 x12 := by
  cases h; constructor <;> assumption

theorem preC_of_postB (h : PostB V x0 x1 x2 x3 x4 x5 x6 x7 x8 x9 x10 x11 x12) : PreC V x0 x1 x2 x3 x4 x5 x6 x7 x8 x9 x10 x11 x12 := by
  cases h; constructor <;> assumption

theorem preD_of_postC (h : PostC V x0 x1 x2 x3 x4 x5 x6 x7 x8 x9 x10 x11 x12) : PreD V x0 x1 x2 x3 x4 x5 x6 x7 x8 x9 x10 x11 x12 := by
  cases h; constructor <;> assumption

theorem preE_of_postD (h : PostD V x0 x1 x2 x3 x4 x5 x6 x7 x8 x9 x10 x11 x12) : PreE V x0 x1 x2 x3 x4 x5 x6 x7 x8 x9 x10 x11 x12 := by
  cases h; constructor <;> assumption

theorem postE_of_preA (h : PreA V x0 x1 x2 x3 x4 x5 x6 x7 x8 x9 x10 x11 x12) : PostE (after (ops (F := F)) V) x0 x1 x2 x3 x4 x5 x6 x7 x8 x9 x10 x11 x12 := by
  rw [after_ops]
  exact stepE _ _ _ _ _ _ _ _ _ _ _ _ _ _ (preE_of_postD (stepD _ _ _ _ _ _ _ _ _ _ _ _ _ _ (preD_of_postC (stepC _ _ _ _ _ _ _ _ _ _ _ _ _ _
    (preC_of_postB (stepB _ _ _ _ _ _ _ _ _ _ _ _ _ _ (preB_of_postA (stepA _ _ _ _ _ _ _ _ _ _ _ _ _ _ h))))))))

end Chain

theorem preA_launch (m : (ℓ : Loc nD τ sig) → Buf (Elt F) ℓ) (c : Dev nD) :
    PreA (launchContents m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  constructor <;> rfl

theorem ref_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v175) = val_main_v175 (F := F) (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_v242) = val_main_v242 (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => by
      have P := postE_of_preA (preA_launch (F := F) m c)
      exact ⟨(h c main_v175).trans P.v175, (h c main_v242).trans P.v242,
        (h c main_arg0).trans P.arg0, (h c main_arg1).trans P.arg1, (h c main_arg2).trans P.arg2, (h c main_arg3).trans P.arg3, (h c main_arg4).trans P.arg4, (h c main_arg5).trans P.arg5, (h c main_arg6).trans P.arg6, (h c main_arg7).trans P.arg7, (h c main_arg8).trans P.arg8, (h c main_arg9).trans P.arg9, (h c main_arg10).trans P.arg10, (h c main_arg11).trans P.arg11, (h c main_arg12).trans P.arg12⟩)
    (run_seq scopedRefs_eq scopedSems_eq defs main (fun _ => ops) main_eq (fun _ => ops_sub) m ρ (fun _ => ops_fresh))

theorem ref_frame (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => (h c).2.2) (ref_run m ρ)

theorem frame_ri : Cert.frame_ReferenceIdeal := fun m g _ => ref_frame (F := Ideal) m g

end Cert.RefRun

end
-- ==== Proof.PreFacts.lean ====
import proofs.«428180_j4174708212170_2_alg».proof.Defs
import Idealize.ShloMosaic.PureOps.Ideal
import Idealize.ShloMosaic.Lib.ReduceAll
import Idealize.ShloMosaic.Lib.ValueIdx

noncomputable section

namespace Cert.PreFacts

open Idealize.ShloMosaic Idealize.ShloMosaic.ValueIdx Cert.Pre_finite_inputs

instance : Subsingleton S_.Idx := ⟨fun a b => funext fun d => d.elim0⟩

theorem inf_f32 : Ideal.ofBits .f32 0x7F800000#32 = ⊤ := by simp [Ideal.ofBits, Ideal.ieee]

theorem real_of_abs_lt (x : EReal) (h : max x (-x) < ⊤) : ∃ r : ℝ, x = (r : EReal) := by
  induction x using EReal.rec with
  | bot => simp at h
  | coe r => exact ⟨r, rfl⟩
  | top => simp at h

theorem real_of_cmp (x : Ideal .f32)
    (h : FloatOps.cmpf .olt (FloatOps.hostAbsf x) (FloatOps.ofBits (F := Ideal) .f32 0x7F800000#32) = 1#1) :
    ∃ r : ℝ, x = (r : EReal) := by
  have h' : BitVec.ofBool (decide (max x (-x) < Ideal.ofBits .f32 0x7F800000#32)) = 1#1 := h
  rw [inf_f32] at h'
  refine real_of_abs_lt x ?_
  by_contra hn
  rw [decide_eq_false hn] at h'
  exact absurd h' (by decide)

theorem toNat_lt_four (w : BitVec 32) (h0 : IntOp.cmpi .sge w 0#32 = 1#1) (h4 : IntOp.cmpi .slt w 4#32 = 1#1) :
    w.toNat < 4 := by
  have hlo := IntOp.cmpi_sge.1 h0
  have hhi := IntOp.cmpi_slt.1 h4
  rw [show (0#32 : BitVec 32).toInt = 0 from by decide] at hlo
  rw [show (4#32 : BitVec 32).toInt = 4 from by decide] at hhi
  have hc := BitVec.toInt_eq_toNat_cond w
  have hw := w.isLt
  split at hc <;> omega

theorem real_of_all {S : Shape} {axes : List (Fin S.rank)} (hb : S_.BroadcastsInDim S (![] : Fin 0 → Fin S.rank))
    (hr : S.ReducesTo axes S_) (h0 : 0 < S_.numel) (a : FVec Ideal S .f32)
    (h : Host.reduce IntOp.andi (cmpf .olt (Host.absf a) (broadcastInDim S ![] hb (constant S_ .f32 0x7F800000#32)))
      (constantI S_ 1 1#1) hr h0 ix0 = 1#1) (i : S.Idx) : ∃ r : ℝ, a i = (r : EReal) :=
  real_of_cmp (a i) (Host.reduce_andi_all _ _ hr h0 ix0 h i)

theorem lt_four_of_all (hb : S_.BroadcastsInDim S100000 (![] : Fin 0 → Fin S100000.rank)) (hr : S100000.ReducesTo [0] S_)
    (h0 : 0 < S_.numel) (z : IVec S100000 32)
    (h : Host.reduce IntOp.andi (andi (cmpi .sge z (broadcastInDim S100000 ![] hb (constantI S_ 32 0#32)))
      (cmpi .slt z (broadcastInDim S100000 ![] hb (constantI S_ 32 4#32)))) (constantI S_ 1 1#1) hr h0 ix0 = 1#1)
    (i : S100000.Idx) : (z i).toNat < 4 := by
  obtain ⟨h1, h2⟩ := IntOp.andi_eq_one.1 (Host.reduce_andi_all _ _ hr h0 ix0 h i)
  exact toNat_lt_four _ h1 h2

theorem and_ix0 {x y : IVec S_ 1} (h : andi x y ix0 = 1#1) : x ix0 = 1#1 ∧ y ix0 = 1#1 := IntOp.andi_eq_one.1 h

variable [Cert.Pre_finite_inputs.Facts]

theorem of_pre (a0 : FVec Ideal S100000x256 .f32) (a1 : IVec S100000 32) (a2 : IVec S100000 32)
    (a3 : FVec Ideal S200000x3x256 .f32) (a4 : IVec S200000 32) (a5 : FVec Ideal S4x256x256 .f32)
    (a6 : FVec Ideal S4x256 .f32) (a7 : FVec Ideal S4x256x256 .f32) (a8 : FVec Ideal S4x256 .f32)
    (a9 : FVec Ideal S4x256x1 .f32) (a10 : FVec Ideal S4x1 .f32) (a11 : FVec Ideal S4x256x1 .f32)
    (a12 : FVec Ideal S4x1 .f32)
    (h : fn (F := Ideal) a0 a1 a2 a3 a4 a5 a6 a7 a8 a9 a10 a11 a12 = (fun _ => 1#1)) :
    (∀ i, ∃ r : ℝ, a0 i = (r : EReal))
      ∧ (∀ i, ∃ r : ℝ, a3 i = (r : EReal))
      ∧ (∀ i, ∃ r : ℝ, a5 i = (r : EReal))
      ∧ (∀ i, ∃ r : ℝ, a6 i = (r : EReal))
      ∧ (∀ i, ∃ r : ℝ, a7 i = (r : EReal))
      ∧ (∀ i, ∃ r : ℝ, a8 i = (r : EReal))
      ∧ (∀ i, ∃ r : ℝ, a9 i = (r : EReal))
      ∧ (∀ i, ∃ r : ℝ, a10 i = (r : EReal))
      ∧ (∀ i, ∃ r : ℝ, a11 i = (r : EReal))
      ∧ (∀ i, ∃ r : ℝ, a12 i = (r : EReal))
      ∧ (∀ i : Fin 100000, (a1 (ix1 i)).toNat < 4) := by
  have e : fn (F := Ideal) a0 a1 a2 a3 a4 a5 a6 a7 a8 a9 a10 a11 a12 ix0 = 1#1 := congrFun h ix0
  unfold fn fn_part1 fn_part2 fn_part3 at e
  dsimp only at e
  obtain ⟨e, hz⟩ := and_ix0 e
  obtain ⟨e, h12⟩ := and_ix0 e
  obtain ⟨e, h11⟩ := and_ix0 e
  obtain ⟨e, h10⟩ := and_ix0 e
  obtain ⟨e, h9⟩ := and_ix0 e
  obtain ⟨e, h8⟩ := and_ix0 e
  obtain ⟨e, h7⟩ := and_ix0 e
  obtain ⟨e, h6⟩ := and_ix0 e
  obtain ⟨e, h5⟩ := and_ix0 e
  obtain ⟨h0, h3⟩ := and_ix0 e
  exact ⟨real_of_all _ _ _ a0 h0, real_of_all _ _ _ a3 h3, real_of_all _ _ _ a5 h5, real_of_all _ _ _ a6 h6,
    real_of_all _ _ _ a7 h7, real_of_all _ _ _ a8 h8, real_of_all _ _ _ a9 h9, real_of_all _ _ _ a10 h10,
    real_of_all _ _ _ a11 h11, real_of_all _ _ _ a12 h12, fun i => lt_four_of_all _ _ _ a1 hz (ix1 i)⟩

open Idealize.SL.Sem in

theorem of_pre_KernelIdeal
    (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ i, ∃ r : ℝ, (m ((c.tc : Thread Cert.KernelIdeal.nD Cert.KernelIdeal.τ).loc Cert.KernelIdeal.main_arg0) : FVec Ideal S100000x256 .f32) i = (r : EReal))
      ∧ (∀ i, ∃ r : ℝ, (m ((c.tc : Thread Cert.KernelIdeal.nD Cert.KernelIdeal.τ).loc Cert.KernelIdeal.main_arg3) : FVec Ideal S200000x3x256 .f32) i = (r : EReal))
      ∧ (∀ i, ∃ r : ℝ, (m ((c.tc : Thread Cert.KernelIdeal.nD Cert.KernelIdeal.τ).loc Cert.KernelIdeal.main_arg5) : FVec Ideal S4x256x256 .f32) i = (r : EReal))
      ∧ (∀ i, ∃ r : ℝ, (m ((c.tc : Thread Cert.KernelIdeal.nD Cert.KernelIdeal.τ).loc Cert.KernelIdeal.main_arg6) : FVec Ideal S4x256 .f32) i = (r : EReal))
      ∧ (∀ i, ∃ r : ℝ, (m ((c.tc : Thread Cert.KernelIdeal.nD Cert.KernelIdeal.τ).loc Cert.KernelIdeal.main_arg7) : FVec Ideal S4x256x256 .f32) i = (r : EReal))
      ∧ (∀ i, ∃ r : ℝ, (m ((c.tc : Thread Cert.KernelIdeal.nD Cert.KernelIdeal.τ).loc Cert.KernelIdeal.main_arg8) : FVec Ideal S4x256 .f32) i = (r : EReal))
      ∧ (∀ i, ∃ r : ℝ, (m ((c.tc : Thread Cert.KernelIdeal.nD Cert.KernelIdeal.τ).loc Cert.KernelIdeal.main_arg9) : FVec Ideal S4x256x1 .f32) i = (r : EReal))
      ∧ (∀ i, ∃ r : ℝ, (m ((c.tc : Thread Cert.KernelIdeal.nD Cert.KernelIdeal.τ).loc Cert.KernelIdeal.main_arg10) : FVec Ideal S4x1 .f32) i = (r : EReal))
      ∧ (∀ i, ∃ r : ℝ, (m ((c.tc : Thread Cert.KernelIdeal.nD Cert.KernelIdeal.τ).loc Cert.KernelIdeal.main_arg11) : FVec Ideal S4x256x1 .f32) i = (r : EReal))
      ∧ (∀ i, ∃ r : ℝ, (m ((c.tc : Thread Cert.KernelIdeal.nD Cert.KernelIdeal.τ).loc Cert.KernelIdeal.main_arg12) : FVec Ideal S4x1 .f32) i = (r : EReal))
      ∧ (∀ i : Fin 100000, ((m ((c.tc : Thread Cert.KernelIdeal.nD Cert.KernelIdeal.τ).loc Cert.KernelIdeal.main_arg1) : IVec S100000 32) (ix1 i)).toNat < 4) :=
  of_pre _ _ _ _ _ _ _ _ _ _ _ _ _ (hpre c)

end Cert.PreFacts

end
-- ==== Proof.LibRows.lean ====
import Idealize.ShloMosaic.PureOps.Ideal
import Idealize.ShloMosaic.PureOps.ShapeOps
import Idealize.ShloMosaic.PureOps.Contract
import Idealize.ShloMosaic.Lib.ValueIdx

noncomputable section

open scoped BigOperators

namespace Cert.LibRows

open Idealize.ShloMosaic Idealize.ShloMosaic.ValueIdx

theorem mem_kept {s : Shape} (axes : List (Fin s.rank)) (a : Fin s.rank) : a ∈ s.kept axes ↔ a ∉ axes := by
  simp [Shape.kept, List.mem_filter, List.mem_finRange]

theorem fin2_one_nmem : (1 : Fin 2) ∉ ([0] : List (Fin 2)) := by decide

theorem fin3_one_nmem : (1 : Fin 3) ∉ ([0] : List (Fin 3)) := by decide

theorem fin3_two_nmem : (2 : Fin 3) ∉ ([0] : List (Fin 3)) := by decide

section Scatter2
variable {N C E w : Nat} (d : ScatterDims ⟨2, ![N, C]⟩ ⟨2, ![E, 1]⟩ ⟨2, ![E, C]⟩)

theorem sc2_start0 (huw : d.updateWindowDims = [1]) (hsd : d.scatterDimsToOperandDims = [0])
    (hivd : d.indexVectorDim = 1) (idx : IVec ⟨2, ![E, 1]⟩ w) (j : (⟨2, ![E, C]⟩ : Shape).Idx) :
    d.start j idx 0 = (idx (ix2 (j 0) (0 : Fin 1))).toInt := by
  obtain ⟨uw, iw, sd, ivd, wf⟩ := d
  simp only at huw hsd hivd
  subst huw hsd hivd
  unfold ScatterDims.start
  rw [dif_pos (List.mem_singleton.mpr rfl)]
  congr 2
  funext b
  match b with
  | ⟨0, _⟩ => rfl
  | ⟨1, _⟩ => rfl

theorem sc2_start1 (hsd : d.scatterDimsToOperandDims = [0])
    (idx : IVec ⟨2, ![E, 1]⟩ w) (j : (⟨2, ![E, C]⟩ : Shape).Idx) :
    d.start j idx 1 = 0 := by
  unfold ScatterDims.start
  rw [dif_neg (by rw [hsd]; exact fin2_one_nmem)]

theorem sc2_window0 (hiw : d.insertedWindowDims = [0]) (j : (⟨2, ![E, C]⟩ : Shape).Idx) :
    d.window j 0 = 0 := by
  unfold ScatterDims.window
  rw [dif_neg (by rw [ScatterDims.sKept, mem_kept, hiw]; exact fun h => h (List.mem_singleton.mpr rfl))]

theorem sc2_window1 (huw : d.updateWindowDims = [1]) (hiw : d.insertedWindowDims = [0])
    (j : (⟨2, ![E, C]⟩ : Shape).Idx) :
    d.window j 1 = (j 1).val := by
  obtain ⟨uw, iw, sd, ivd, wf⟩ := d
  simp only at huw hiw
  subst huw hiw
  unfold ScatterDims.window
  rw [dif_pos (by rw [ScatterDims.sKept, mem_kept]; exact fin2_one_nmem)]
  rfl

theorem sc2_resultIdx (huw : d.updateWindowDims = [1]) (hiw : d.insertedWindowDims = [0])
    (hsd : d.scatterDimsToOperandDims = [0]) (hivd : d.indexVectorDim = 1)
    (idx : IVec ⟨2, ![E, 1]⟩ w) (e : Fin E) (c : Fin C) (n : Fin N) (c' : Fin C) :
    d.resultIdx? (ix2 e c) idx = some (ix2 n c') ↔ (idx (ix2 e (0 : Fin 1))).toInt = (n.val : Int) ∧ c = c' := by
  have hs0 : d.start (ix2 e c) idx 0 = (idx (ix2 e (0 : Fin 1))).toInt := sc2_start0 d huw hsd hivd idx _
  have hs1 : d.start (ix2 e c) idx 1 = 0 := sc2_start1 d hsd idx _
  have hw0 : d.window (ix2 e c) 0 = 0 := sc2_window0 d hiw _
  have hw1 : d.window (ix2 e c) 1 = c.val := sc2_window1 d huw hiw _
  generalize (idx (ix2 e (0 : Fin 1))).toInt = z at hs0 ⊢
  have hn := n.isLt
  have hc := c.isLt
  unfold ScatterDims.resultIdx?
  split
  · next h =>
    rw [Option.some.injEq]
    constructor
    · intro hf
      have h0 : (d.start (ix2 e c) idx 0 + (d.window (ix2 e c) 0 : Int)).toNat = n.val :=
        congrArg (fun f : (⟨2, ![N, C]⟩ : Shape).Idx => (f 0).val) hf
      have h1 : (d.start (ix2 e c) idx 1 + (d.window (ix2 e c) 1 : Int)).toNat = c'.val :=
        congrArg (fun f : (⟨2, ![N, C]⟩ : Shape).Idx => (f 1).val) hf
      have h00 := (h 0).1
      rw [hs0, hw0] at h0 h00
      rw [hs1, hw1] at h1
      exact ⟨by omega, Fin.ext (by omega)⟩
    · rintro ⟨hz, rfl⟩
      funext a
      match a with
      | ⟨0, _⟩ =>
        refine Fin.ext ?_
        show (d.start (ix2 e c) idx 0 + (d.window (ix2 e c) 0 : Int)).toNat = n.val
        rw [hs0, hw0]; omega
      | ⟨1, _⟩ =>
        refine Fin.ext ?_
        show (d.start (ix2 e c) idx 1 + (d.window (ix2 e c) 1 : Int)).toNat = c.val
        rw [hs1, hw1]; omega
  · next h =>
    constructor
    · intro hf; cases hf
    · rintro ⟨hz, rfl⟩
      refine absurd ?_ h
      intro a
      match a with
      | ⟨0, _⟩ =>
        show 0 ≤ d.start (ix2 e c) idx 0 + (d.window (ix2 e c) 0 : Int)
          ∧ d.start (ix2 e c) idx 0 + (d.window (ix2 e c) 0 : Int) < (N : Int)
        rw [hs0, hw0]; omega
      | ⟨1, _⟩ =>
        show 0 ≤ d.start (ix2 e c) idx 1 + (d.window (ix2 e c) 1 : Int)
          ∧ d.start (ix2 e c) idx 1 + (d.window (ix2 e c) 1 : Int) < (C : Int)
        rw [hs1, hw1]; omega

theorem scatterAdd_rows2 (huw : d.updateWindowDims = [1]) (hiw : d.insertedWindowDims = [0])
    (hsd : d.scatterDimsToOperandDims = [0]) (hivd : d.indexVectorDim = 1)
    (x : (⟨2, ![N, C]⟩ : Shape).Idx → EReal) (idx : IVec ⟨2, ![E, 1]⟩ w) (upd : (⟨2, ![E, C]⟩ : Shape).Idx → EReal)
    (n : Fin N) (c : Fin C) :
    Ideal.hostScatterAdd d x idx upd (ix2 n c) = x (ix2 n c)
      + ∑ e ∈ Finset.univ.filter (fun e : Fin E => (idx (ix2 e (0 : Fin 1))).toInt = (n.val : Int)), upd (ix2 e c) := by
  unfold Ideal.hostScatterAdd
  congr 1
  refine Finset.sum_bij' (fun j _ => (j 0 : Fin E)) (fun e _ => ix2 e c) ?_ ?_ ?_ ?_ ?_
  · intro j hj
    obtain ⟨e, c', rfl⟩ : ∃ (e : Fin E) (c' : Fin C), j = ix2 e c' := ⟨j 0, j 1, eq_ix2 j⟩
    exact Finset.mem_filter.2 ⟨Finset.mem_univ _,
      ((sc2_resultIdx d huw hiw hsd hivd idx e c' n c).1 (Finset.mem_filter.1 hj).2).1⟩
  · intro e he
    exact Finset.mem_filter.2 ⟨Finset.mem_univ _,
      (sc2_resultIdx d huw hiw hsd hivd idx e c n c).2 ⟨(Finset.mem_filter.1 he).2, rfl⟩⟩
  · intro j hj
    obtain ⟨e, c', rfl⟩ : ∃ (e : Fin E) (c' : Fin C), j = ix2 e c' := ⟨j 0, j 1, eq_ix2 j⟩
    obtain rfl := ((sc2_resultIdx d huw hiw hsd hivd idx e c' n c).1 (Finset.mem_filter.1 hj).2).2
    rfl
  · intro e _
    rfl
  · intro j hj
    obtain ⟨e, c', rfl⟩ : ∃ (e : Fin E) (c' : Fin C), j = ix2 e c' := ⟨j 0, j 1, eq_ix2 j⟩
    obtain rfl := ((sc2_resultIdx d huw hiw hsd hivd idx e c' n c).1 (Finset.mem_filter.1 hj).2).2
    rfl

end Scatter2

section Scatter3
variable {N H K E w : Nat} (d : ScatterDims ⟨3, ![N, H, K]⟩ ⟨2, ![E, 1]⟩ ⟨3, ![E, H, K]⟩)

theorem sc3_start0 (huw : d.updateWindowDims = [1, 2]) (hsd : d.scatterDimsToOperandDims = [0])
    (hivd : d.indexVectorDim = 1) (idx : IVec ⟨2, ![E, 1]⟩ w) (j : (⟨3, ![E, H, K]⟩ : Shape).Idx) :
    d.start j idx 0 = (idx (ix2 (j 0) (0 : Fin 1))).toInt := by
  obtain ⟨uw, iw, sd, ivd, wf⟩ := d
  simp only at huw hsd hivd
  subst huw hsd hivd
  unfold ScatterDims.start
  rw [dif_pos (List.mem_singleton.mpr rfl)]
  congr 2
  funext b
  match b with
  | ⟨0, _⟩ => rfl
  | ⟨1, _⟩ => rfl

theorem sc3_start1 (hsd : d.scatterDimsToOperandDims = [0])
    (idx : IVec ⟨2, ![E, 1]⟩ w) (j : (⟨3, ![E, H, K]⟩ : Shape).Idx) :
    d.start j idx 1 = 0 := by
  unfold ScatterDims.start
  rw [dif_neg (by rw [hsd]; exact fin3_one_nmem)]

theorem sc3_start2 (hsd : d.scatterDimsToOperandDims = [0])
    (idx : IVec ⟨2, ![E, 1]⟩ w) (j : (⟨3, ![E, H, K]⟩ : Shape).Idx) :
    d.start j idx 2 = 0 := by
  unfold ScatterDims.start
  rw [dif_neg (by rw [hsd]; exact fin3_two_nmem)]

theorem sc3_window0 (hiw : d.insertedWindowDims = [0]) (j : (⟨3, ![E, H, K]⟩ : Shape).Idx) :
    d.window j 0 = 0 := by
  unfold ScatterDims.window
  rw [dif_neg (by rw [ScatterDims.sKept, mem_kept, hiw]; exact fun h => h (List.mem_singleton.mpr rfl))]

theorem sc3_window1 (huw : d.updateWindowDims = [1, 2]) (hiw : d.insertedWindowDims = [0])
    (j : (⟨3, ![E, H, K]⟩ : Shape).Idx) :
    d.window j 1 = (j 1).val := by
  obtain ⟨uw, iw, sd, ivd, wf⟩ := d
  simp only at huw hiw
  subst huw hiw
  unfold ScatterDims.window
  rw [dif_pos (by rw [ScatterDims.sKept, mem_kept]; exact fin3_one_nmem)]
  rfl

theorem sc3_window2 (huw : d.updateWindowDims = [1, 2]) (hiw : d.insertedWindowDims = [0])
    (j : (⟨3, ![E, H, K]⟩ : Shape).Idx) :
    d.window j 2 = (j 2).val := by
  obtain ⟨uw, iw, sd, ivd, wf⟩ := d
  simp only at huw hiw
  subst huw hiw
  unfold ScatterDims.window
  rw [dif_pos (by rw [ScatterDims.sKept, mem_kept]; exact fin3_two_nmem)]
  rfl

theorem sc3_resultIdx (huw : d.updateWindowDims = [1, 2]) (hiw : d.insertedWindowDims = [0])
    (hsd : d.scatterDimsToOperandDims = [0]) (hivd : d.indexVectorDim = 1)
    (idx : IVec ⟨2, ![E, 1]⟩ w) (e : Fin E) (h : Fin H) (k : Fin K) (n : Fin N) (h' : Fin H) (k' : Fin K) :
    d.resultIdx? (ix3 e h k) idx = some (ix3 n h' k')
      ↔ (idx (ix2 e (0 : Fin 1))).toInt = (n.val : Int) ∧ h = h' ∧ k = k' := by
  have hs0 : d.start (ix3 e h k) idx 0 = (idx (ix2 e (0 : Fin 1))).toInt := sc3_start0 d huw hsd hivd idx _
  have hs1 : d.start (ix3 e h k) idx 1 = 0 := sc3_start1 d hsd idx _
  have hs2 : d.start (ix3 e h k) idx 2 = 0 := sc3_start2 d hsd idx _
  have hw0 : d.window (ix3 e h k) 0 = 0 := sc3_window0 d hiw _
  have hw1 : d.window (ix3 e h k) 1 = h.val := sc3_window1 d huw hiw _
  have hw2 : d.window (ix3 e h k) 2 = k.val := sc3_window2 d huw hiw _
  generalize (idx (ix2 e (0 : Fin 1))).toInt = z at hs0 ⊢
  have hn := n.isLt
  have hh := h.isLt
  have hk := k.isLt
  unfold ScatterDims.resultIdx?
  split
  · next hin =>
    rw [Option.some.injEq]
    constructor
    · intro hf
      have h0 : (d.start (ix3 e h k) idx 0 + (d.window (ix3 e h k) 0 : Int)).toNat = n.val :=
        congrArg (fun f : (⟨3, ![N, H, K]⟩ : Shape).Idx => (f 0).val) hf
      have h1 : (d.start (ix3 e h k) idx 1 + (d.window (ix3 e h k) 1 : Int)).toNat = h'.val :=
        congrArg (fun f : (⟨3, ![N, H, K]⟩ : Shape).Idx => (f 1).val) hf
      have h2 : (d.start (ix3 e h k) idx 2 + (d.window (ix3 e h k) 2 : Int)).toNat = k'.val :=
        congrArg (fun f : (⟨3, ![N, H, K]⟩ : Shape).Idx => (f 2).val) hf
      have h00 := (hin 0).1
      rw [hs0, hw0] at h0 h00
      rw [hs1, hw1] at h1
      rw [hs2, hw2] at h2
      exact ⟨by omega, Fin.ext (by omega), Fin.ext (by omega)⟩
    · rintro ⟨hz, rfl, rfl⟩
      funext a
      match a with
      | ⟨0, _⟩ =>
        refine Fin.ext ?_
        show (d.start (ix3 e h k) idx 0 + (d.window (ix3 e h k) 0 : Int)).toNat = n.val
        rw [hs0, hw0]; omega
      | ⟨1, _⟩ =>
        refine Fin.ext ?_
        show (d.start (ix3 e h k) idx 1 + (d.window (ix3 e h k) 1 : Int)).toNat = h.val
        rw [hs1, hw1]; omega
      | ⟨2, _⟩ =>
        refine Fin.ext ?_
        show (d.start (ix3 e h k) idx 2 + (d.window (ix3 e h k) 2 : Int)).toNat = k.val
        rw [hs2, hw2]; omega
  · next hin =>
    constructor
    · intro hf; cases hf
    · rintro ⟨hz, rfl, rfl⟩
      refine absurd ?_ hin
      intro a
      match a with
      | ⟨0, _⟩ =>
        show 0 ≤ d.start (ix3 e h k) idx 0 + (d.window (ix3 e h k) 0 : Int)
          ∧ d.start (ix3 e h k) idx 0 + (d.window (ix3 e h k) 0 : Int) < (N : Int)
        rw [hs0, hw0]; omega
      | ⟨1, _⟩ =>
        show 0 ≤ d.start (ix3 e h k) idx 1 + (d.window (ix3 e h k) 1 : Int)
          ∧ d.start (ix3 e h k) idx 1 + (d.window (ix3 e h k) 1 : Int) < (H : Int)
        rw [hs1, hw1]; omega
      | ⟨2, _⟩ =>
        show 0 ≤ d.start (ix3 e h k) idx 2 + (d.window (ix3 e h k) 2 : Int)
          ∧ d.start (ix3 e h k) idx 2 + (d.window (ix3 e h k) 2 : Int) < (K : Int)
        rw [hs2, hw2]; omega

theorem scatterAdd_rows3 (huw : d.updateWindowDims = [1, 2]) (hiw : d.insertedWindowDims = [0])
    (hsd : d.scatterDimsToOperandDims = [0]) (hivd : d.indexVectorDim = 1)
    (x : (⟨3, ![N, H, K]⟩ : Shape).Idx → EReal) (idx : IVec ⟨2, ![E, 1]⟩ w)
    (upd : (⟨3, ![E, H, K]⟩ : Shape).Idx → EReal) (n : Fin N) (h : Fin H) (k : Fin K) :
    Ideal.hostScatterAdd d x idx upd (ix3 n h k) = x (ix3 n h k)
      + ∑ e ∈ Finset.univ.filter (fun e : Fin E => (idx (ix2 e (0 : Fin 1))).toInt = (n.val : Int)), upd (ix3 e h k) := by
  unfold Ideal.hostScatterAdd
  congr 1
  refine Finset.sum_bij' (fun j _ => (j 0 : Fin E)) (fun e _ => ix3 e h k) ?_ ?_ ?_ ?_ ?_
  · intro j hj
    obtain ⟨e, h', k', rfl⟩ : ∃ (e : Fin E) (h' : Fin H) (k' : Fin K), j = ix3 e h' k' := ⟨j 0, j 1, j 2, eq_ix3 j⟩
    exact Finset.mem_filter.2 ⟨Finset.mem_univ _,
      ((sc3_resultIdx d huw hiw hsd hivd idx e h' k' n h k).1 (Finset.mem_filter.1 hj).2).1⟩
  · intro e he
    exact Finset.mem_filter.2 ⟨Finset.mem_univ _,
      (sc3_resultIdx d huw hiw hsd hivd idx e h k n h k).2 ⟨(Finset.mem_filter.1 he).2, rfl, rfl⟩⟩
  · intro j hj
    obtain ⟨e, h', k', rfl⟩ : ∃ (e : Fin E) (h' : Fin H) (k' : Fin K), j = ix3 e h' k' := ⟨j 0, j 1, j 2, eq_ix3 j⟩
    obtain ⟨-, rfl, rfl⟩ := (sc3_resultIdx d huw hiw hsd hivd idx e h' k' n h k).1 (Finset.mem_filter.1 hj).2
    rfl
  · intro e _
    rfl
  · intro j hj
    obtain ⟨e, h', k', rfl⟩ : ∃ (e : Fin E) (h' : Fin H) (k' : Fin K), j = ix3 e h' k' := ⟨j 0, j 1, j 2, eq_ix3 j⟩
    obtain ⟨-, rfl, rfl⟩ := (sc3_resultIdx d huw hiw hsd hivd idx e h' k' n h k).1 (Finset.mem_filter.1 hj).2
    rfl

end Scatter3

section Gather2
variable {N C E w : Nat} (d : GatherDims ⟨2, ![N, C]⟩ ⟨2, ![E, 1]⟩ ⟨2, ![E, C]⟩)

theorem g2_start0 (hoff : d.offsetDims = [1]) (hcoll : d.collapsedSliceDims = [0])
    (hsim : d.startIndexMap = [0]) (hivd : d.indexVectorDim = 1)
    (idx : IVec ⟨2, ![E, 1]⟩ w) (j : (⟨2, ![E, C]⟩ : Shape).Idx) :
    d.start j idx 0 = min (idx (ix2 (j 0) (0 : Fin 1))).toInt.toNat (N - 1) := by
  have hsl : d.sliceSizes 0 = 1 := d.slice_collapsed 0 (by rw [hcoll]; exact List.mem_singleton.mpr rfl)
  obtain ⟨od, cd, ob, sb, sm, ivd, ss, wf⟩ := d
  simp only at hoff hsim hivd hsl
  subst hoff hsim hivd
  unfold GatherDims.start
  rw [dif_pos (List.mem_singleton.mpr rfl)]
  show min _ (N - ss 0) = _
  rw [hsl]
  congr 3
  congr 1
  funext b
  match b with
  | ⟨0, _⟩ => rfl
  | ⟨1, _⟩ => rfl

theorem g2_start1 (hsim : d.startIndexMap = [0]) (idx : IVec ⟨2, ![E, 1]⟩ w) (j : (⟨2, ![E, C]⟩ : Shape).Idx) :
    d.start j idx 1 = 0 := by
  unfold GatherDims.start
  rw [dif_neg (by rw [hsim]; exact fin2_one_nmem)]

theorem g2_off0 (hcoll : d.collapsedSliceDims = [0]) (j : (⟨2, ![E, C]⟩ : Shape).Idx) :
    d.offCoord j 0 = 0 :=
  d.offCoord_eq_zero j 0 fun h => ((d.mem_sKept 0).1 h).1 (by rw [hcoll]; exact List.mem_singleton.mpr rfl)

theorem g2_off1 (hoff : d.offsetDims = [1]) (hcoll : d.collapsedSliceDims = [0]) (hob : d.operandBatchingDims = [])
    (j : (⟨2, ![E, C]⟩ : Shape).Idx) :
    d.offCoord j 1 = (j 1).val := by
  obtain ⟨od, cd, ob, sb, sm, ivd, ss, wf⟩ := d
  simp only at hoff hcoll hob
  subst hoff hcoll hob
  unfold GatherDims.offCoord
  rw [dif_pos (by rw [GatherDims.mem_sKept]; exact ⟨fin2_one_nmem, List.not_mem_nil⟩)]
  rfl

end Gather2

theorem gather_rows2 {α : Type} {N C E w : Nat} (hN : 0 < N) (d : GatherDims ⟨2, ![N, C]⟩ ⟨2, ![E, 1]⟩ ⟨2, ![E, C]⟩)
    (hoff : d.offsetDims = [1]) (hcoll : d.collapsedSliceDims = [0])
    (hob : d.operandBatchingDims = []) (hsim : d.startIndexMap = [0]) (hivd : d.indexVectorDim = 1)
    (x : (⟨2, ![N, C]⟩ : Shape).Idx → α) (idx : IVec ⟨2, ![E, 1]⟩ w) (e : Fin E) (c : Fin C) :
    Host.gather d x idx (ix2 e c)
      = x (ix2 ⟨min (idx (ix2 e (0 : Fin 1))).toInt.toNat (N - 1), by omega⟩ c) := by
  have hb : ∀ a, d.batchCoord (ix2 e c) a = 0 := fun a =>
    d.batchCoord_eq_zero _ a (by rw [hob]; exact List.not_mem_nil)
  unfold Host.gather
  congr 1
  funext a
  refine Fin.ext ?_
  match a with
  | ⟨0, _⟩ =>
    show d.start (ix2 e c) idx 0 + d.batchCoord (ix2 e c) 0 + d.offCoord (ix2 e c) 0 = _
    rw [hb, g2_off0 d hcoll, g2_start0 d hoff hcoll hsim hivd]
    rfl
  | ⟨1, _⟩ =>
    show d.start (ix2 e c) idx 1 + d.batchCoord (ix2 e c) 1 + d.offCoord (ix2 e c) 1 = _
    rw [hb, g2_off1 d hoff hcoll hob, g2_start1 d hsim]
    show 0 + 0 + c.val = c.val
    omega

section Gather3
variable {N H K E w : Nat} (d : GatherDims ⟨3, ![N, H, K]⟩ ⟨2, ![E, 1]⟩ ⟨3, ![E, H, K]⟩)

theorem g3_start0 (hoff : d.offsetDims = [1, 2]) (hcoll : d.collapsedSliceDims = [0])
    (hsim : d.startIndexMap = [0]) (hivd : d.indexVectorDim = 1)
    (idx : IVec ⟨2, ![E, 1]⟩ w) (j : (⟨3, ![E, H, K]⟩ : Shape).Idx) :
    d.start j idx 0 = min (idx (ix2 (j 0) (0 : Fin 1))).toInt.toNat (N - 1) := by
  have hsl : d.sliceSizes 0 = 1 := d.slice_collapsed 0 (by rw [hcoll]; exact List.mem_singleton.mpr rfl)
  obtain ⟨od, cd, ob, sb, sm, ivd, ss, wf⟩ := d
  simp only at hoff hsim hivd hsl
  subst hoff hsim hivd
  unfold GatherDims.start
  rw [dif_pos (List.mem_singleton.mpr rfl)]
  show min _ (N - ss 0) = _
  rw [hsl]
  congr 3
  congr 1
  funext b
  match b with
  | ⟨0, _⟩ => rfl
  | ⟨1, _⟩ => rfl

theorem g3_start1 (hsim : d.startIndexMap = [0]) (idx : IVec ⟨2, ![E, 1]⟩ w) (j : (⟨3, ![E, H, K]⟩ : Shape).Idx) :
    d.start j idx 1 = 0 := by
  unfold GatherDims.start
  rw [dif_neg (by rw [hsim]; exact fin3_one_nmem)]

theorem g3_start2 (hsim : d.startIndexMap = [0]) (idx : IVec ⟨2, ![E, 1]⟩ w) (j : (⟨3, ![E, H, K]⟩ : Shape).Idx) :
    d.start j idx 2 = 0 := by
  unfold GatherDims.start
  rw [dif_neg (by rw [hsim]; exact fin3_two_nmem)]

theorem g3_off0 (hcoll : d.collapsedSliceDims = [0]) (j : (⟨3, ![E, H, K]⟩ : Shape).Idx) :
    d.offCoord j 0 = 0 :=
  d.offCoord_eq_zero j 0 fun h => ((d.mem_sKept 0).1 h).1 (by rw [hcoll]; exact List.mem_singleton.mpr rfl)

theorem g3_off1 (hoff : d.offsetDims = [1, 2]) (hcoll : d.collapsedSliceDims = [0]) (hob : d.operandBatchingDims = [])
    (j : (⟨3, ![E, H, K]⟩ : Shape).Idx) :
    d.offCoord j 1 = (j 1).val := by
  obtain ⟨od, cd, ob, sb, sm, ivd, ss, wf⟩ := d
  simp only at hoff hcoll hob
  subst hoff hcoll hob
  unfold GatherDims.offCoord
  rw [dif_pos (by rw [GatherDims.mem_sKept]; exact ⟨fin3_one_nmem, List.not_mem_nil⟩)]
  rfl

theorem g3_off2 (hoff : d.offsetDims = [1, 2]) (hcoll : d.collapsedSliceDims = [0]) (hob : d.operandBatchingDims = [])
    (j : (⟨3, ![E, H, K]⟩ : Shape).Idx) :
    d.offCoord j 2 = (j 2).val := by
  obtain ⟨od, cd, ob, sb, sm, ivd, ss, wf⟩ := d
  simp only at hoff hcoll hob
  subst hoff hcoll hob
  unfold GatherDims.offCoord
  rw [dif_pos (by rw [GatherDims.mem_sKept]; exact ⟨fin3_two_nmem, List.not_mem_nil⟩)]
  rfl

end Gather3

theorem gather_rows3 {α : Type} {N H K E w : Nat} (hN : 0 < N)
    (d : GatherDims ⟨3, ![N, H, K]⟩ ⟨2, ![E, 1]⟩ ⟨3, ![E, H, K]⟩)
    (hoff : d.offsetDims = [1, 2]) (hcoll : d.collapsedSliceDims = [0])
    (hob : d.operandBatchingDims = []) (hsim : d.startIndexMap = [0]) (hivd : d.indexVectorDim = 1)
    (x : (⟨3, ![N, H, K]⟩ : Shape).Idx → α) (idx : IVec ⟨2, ![E, 1]⟩ w) (e : Fin E) (h : Fin H) (k : Fin K) :
    Host.gather d x idx (ix3 e h k)
      = x (ix3 ⟨min (idx (ix2 e (0 : Fin 1))).toInt.toNat (N - 1), by omega⟩ h k) := by
  have hb : ∀ a, d.batchCoord (ix3 e h k) a = 0 := fun a =>
    d.batchCoord_eq_zero _ a (by rw [hob]; exact List.not_mem_nil)
  unfold Host.gather
  congr 1
  funext a
  refine Fin.ext ?_
  match a with
  | ⟨0, _⟩ =>
    show d.start (ix3 e h k) idx 0 + d.batchCoord (ix3 e h k) 0 + d.offCoord (ix3 e h k) 0 = _
    rw [hb, g3_off0 d hcoll, g3_start0 d hoff hcoll hsim hivd]
    rfl
  | ⟨1, _⟩ =>
    show d.start (ix3 e h k) idx 1 + d.batchCoord (ix3 e h k) 1 + d.offCoord (ix3 e h k) 1 = _
    rw [hb, g3_off1 d hoff hcoll hob, g3_start1 d hsim]
    show 0 + 0 + h.val = h.val
    omega
  | ⟨2, _⟩ =>
    show d.start (ix3 e h k) idx 2 + d.batchCoord (ix3 e h k) 2 + d.offCoord (ix3 e h k) 2 = _
    rw [hb, g3_off2 d hoff hcoll hob, g3_start2 d hsim]
    show 0 + 0 + k.val = k.val
    omega

end Cert.LibRows

end
-- ==== Proof.GIdx.lean ====
import Idealize.ShloMosaic.PureOps.Ideal
import Idealize.ShloMosaic.Lib.ValueIdx

namespace Cert.GIdx

open Idealize.ShloMosaic Idealize.ShloMosaic.ValueIdx

def gword (w : BitVec 32) : BitVec 32 :=
  Scalar.select (IntOp.cmpi .slt w 0#32) (IntOp.addi w 100000#32) w

theorem gword_eq (w : BitVec 32) : gword w = if w.slt 0#32 then w + 100000#32 else w := by
  unfold gword Scalar.select IntOp.cmpi IntOp.addi
  cases h : w.slt 0#32 <;> simp

def gidx (g : (⟨1, ![200000]⟩ : Shape).Idx → BitVec 32) (p : Fin 200000) : Fin 100000 :=
  ⟨min (gword (g (ix1 p))).toInt.toNat 99999, by omega⟩

theorem gidx_val (g : (⟨1, ![200000]⟩ : Shape).Idx → BitVec 32) (p : Fin 200000) :
    (gidx g p).val = min (gword (g (ix1 p))).toInt.toNat 99999 := rfl

end Cert.GIdx
-- ==== Proof.HostTail.lean ====
import proofs.«428180_j4174708212170_2_alg».proof.Proof.Gen.KernelIdeal.Regions
import proofs.«428180_j4174708212170_2_alg».proof.Proof.LibRows
import proofs.«428180_j4174708212170_2_alg».proof.Proof.GIdx
import Idealize.ShloMosaic.Lib.ValueIdx
import Idealize.ShloMosaic.Lib.Pipeline.Value

noncomputable section

namespace Cert.KernelIdeal.HandValue

open Cert.KernelIdeal Cert.KernelIdeal.Gen Cert.GIdx Idealize.ShloMosaic Idealize.ShloMosaic.TcCoe Idealize.ShloMosaic.ValueIdx

section Stretch
variable (V : Valuation τ sig (Elt Ideal))

theorem hostOps2_v97 : (StableHlo.after hostOps2 V (Proc.devRef .tc main_v97) : S100000x3.Idx → EReal)
    = Host.scatterAdd scatter_S100000x3_S200000x1_S200000x3_1_0_0_1
        (broadcastInDim S100000x3 ![] bcast_S_S100000x3 (constant (F := Ideal) S_ .f32 0x00000000#32))
        (broadcastInDim S200000x1 ![0] bcast_S200000_S200000x1_0 (V main_arg4))
        (V main_v94) := by
  after_results

theorem hostOps1_2_v85 : (StableHlo.after hostOps1_2 V (Proc.devRef .tc main_v85) : S1000x1.Idx → EReal)
    = Host.scatterAdd scatter_S1000x1_S100000x1_S100000x1_1_0_0_1
        (broadcastInDim S1000x1 ![] bcast_S_S1000x1 (constant (F := Ideal) S_ .f32 0x00000000#32))
        (broadcastInDim S100000x1 ![0] bcast_S100000_S100000x1_0 (V main_arg2))
        (V main_v81) := by
  after_results

theorem hostOps1_2_v92 : (StableHlo.after hostOps1_2 V (Proc.devRef .tc main_v92) : S200000x256.Idx → EReal)
    = Host.gather gather_S100000x256_S200000x1_S200000x256_1_0_n_n_0_1_1256 (V main_v82)
        (broadcastInDim S200000x1 ![0] bcast_S200000_S200000x1_0
          (select (cmpi .slt (V main_arg4) (broadcastInDim S200000 ![] bcast_S_S200000 (constantI S_ 32 0#32)))
            (addi (V main_arg4) (broadcastInDim S200000 ![] bcast_S_S200000 (constantI S_ 32 100000#32)))
            (V main_arg4))) := by
  after_results_simp

theorem hostOps1_2_v93 : (StableHlo.after hostOps1_2 V (Proc.devRef .tc main_v93) : S200000x768.Idx → EReal)
    = shapeCast S200000x768 (V main_arg3) shapeCasts_S200000x3x256_S200000x768 := by
  after_results
  rfl

theorem hostOps0_15_v76 : (StableHlo.after hostOps0_15 V (Proc.devRef .tc main_v76) : S4x1x256.Idx → EReal)
    = broadcastInDim S4x1x256 ![0, 2] bcast_S4x256_S4x1x256_0_2 (V main_arg6) := by
  after_results

theorem hostOps0_15_v77 : (StableHlo.after hostOps0_15 V (Proc.devRef .tc main_v77) : S4x1x256.Idx → EReal)
    = broadcastInDim S4x1x256 ![0, 2] bcast_S4x256_S4x1x256_0_2 (V main_arg8) := by
  after_results

theorem hostOps0_15_v78 : (StableHlo.after hostOps0_15 V (Proc.devRef .tc main_v78) : S4x1x1.Idx → EReal)
    = broadcastInDim S4x1x1 ![0, 2] bcast_S4x1_S4x1x1_0_2 (V main_arg10) := by
  after_results

theorem hostOps0_15_v79 : (StableHlo.after hostOps0_15 V (Proc.devRef .tc main_v79) : S4x1x1.Idx → EReal)
    = broadcastInDim S4x1x1 ![0, 2] bcast_S4x1_S4x1x1_0_2 (V main_arg12) := by
  after_results

end Stretch

section Points

theorem normWord_apply (g : IVec S200000 32) (p : Fin 200000) :
    (broadcastInDim S200000x1 ![0] bcast_S200000_S200000x1_0
        (select (cmpi .slt g (broadcastInDim S200000 ![] bcast_S_S200000 (constantI S_ 32 0#32)))
          (addi g (broadcastInDim S200000 ![] bcast_S_S200000 (constantI S_ 32 100000#32))) g) : IVec S200000x1 32)
      (ix2 p (0 : Fin 1)) = gword (g (ix1 p)) :=
  (broadcastInDim_apply ![0] bcast_S200000_S200000x1_0 _ (ix2 p (0 : Fin 1)) (ix1 p)
    (fun a => match a with | ⟨0, _⟩ => rfl)).trans rfl

theorem gather_point (x : S100000x256.Idx → EReal) (g : IVec S200000 32) (p : Fin 200000) (f : Fin 256) :
    Host.gather gather_S100000x256_S200000x1_S200000x256_1_0_n_n_0_1_1256 x
        (broadcastInDim S200000x1 ![0] bcast_S200000_S200000x1_0
          (select (cmpi .slt g (broadcastInDim S200000 ![] bcast_S_S200000 (constantI S_ 32 0#32)))
            (addi g (broadcastInDim S200000 ![] bcast_S_S200000 (constantI S_ 32 100000#32))) g)) (ix2 p f)
      = x (ix2 (gidx g p) f) := by
  refine (Cert.LibRows.gather_rows2 (by decide) gather_S100000x256_S200000x1_S200000x256_1_0_n_n_0_1_1256 rfl rfl rfl rfl rfl
    x _ p f).trans ?_
  refine congrArg x (congrArg (fun r : Fin 100000 => ix2 r f) (Fin.ext ?_))
  show min (_ : BitVec 32).toInt.toNat (100000 - 1) = (gidx g p).val
  rw [normWord_apply]
  rfl

theorem reshape_point (x : S200000x3x256.Idx → EReal) (p : Fin 200000) (d : Fin 3) (f : Fin 256) :
    shapeCast S200000x768 x shapeCasts_S200000x3x256_S200000x768 (ix2 p (⟨256 * d.val + f.val, by omega⟩ : Fin 768))
      = x (ix3 p d f) :=
  shapeCast_apply x _ _ _ (by
    rw [Shape.rowMajor_val_three, Shape.rowMajor_val_two]
    show (p.val * 3 + d.val) * 256 + f.val = p.val * 768 + (256 * d.val + f.val)
    omega)

theorem bcast_row_point (x : S4x256.Idx → EReal) (s : Fin 4) (u : Fin 1) (j : Fin 256) :
    broadcastInDim S4x1x256 ![0, 2] bcast_S4x256_S4x1x256_0_2 x (ix3 s u j) = x (ix2 s j) :=
  broadcastInDim_apply ![0, 2] bcast_S4x256_S4x1x256_0_2 x (ix3 s u j) (ix2 s j)
    (fun a => match a with | ⟨0, _⟩ => rfl | ⟨1, _⟩ => rfl)

theorem bcast_one_point (x : S4x1.Idx → EReal) (s : Fin 4) (u v : Fin 1) :
    broadcastInDim S4x1x1 ![0, 2] bcast_S4x1_S4x1x1_0_2 x (ix3 s u v) = x (ix2 s (0 : Fin 1)) :=
  broadcastInDim_apply ![0, 2] bcast_S4x1_S4x1x1_0_2 x (ix3 s u v) (ix2 s (0 : Fin 1))
    (fun a => match a with | ⟨0, _⟩ => rfl | ⟨1, _⟩ => rfl)

end Points

section AtProgram
variable (m : (ℓ : Loc nD τ sig) → Buf (Elt Ideal) ℓ) (outs : Gen.Outs (F := Ideal)) (c : Dev nD)

theorem V22_eq_V19 (r : Ref sig .tc) (h20 : r ∉ hostOps1_2_W) (h21 : r ∉ ([main_v94] : List (Ref sig .tc)))
    (h22 : r ∉ hostOps2_W) : Gen.V22 m outs c r = Gen.V19 m outs c r :=
  (Gen.V22_of m outs c r h22).trans <| (Gen.V21_of m outs c r h21).trans (Gen.V20_of m outs c r h20)

theorem V15_launch (r : Ref sig .tc) (h0 : r ∉ hostOps0_W) (h1 : r ∉ hostOps0_1_W) (h2 : r ∉ hostOps0_2_W)
    (h3 : r ∉ hostOps0_3_W) (h4 : r ∉ hostOps0_4_W) (h5 : r ∉ hostOps0_5_W) (h6 : r ∉ hostOps0_6_W)
    (h7 : r ∉ hostOps0_7_W) (h8 : r ∉ hostOps0_8_W) (h9 : r ∉ hostOps0_9_W) (h10 : r ∉ hostOps0_10_W)
    (h11 : r ∉ hostOps0_11_W) (h12 : r ∉ hostOps0_12_W) (h13 : r ∉ hostOps0_13_W) (h14 : r ∉ hostOps0_14_W) :
    Gen.V15 m c r = m ((c : Thread nD τ).loc r) :=
  (Gen.V15_of m c r h14).trans <| (Gen.V14_of m c r h13).trans <| (Gen.V13_of m c r h12).trans <|
  (Gen.V12_of m c r h11).trans <| (Gen.V11_of m c r h10).trans <| (Gen.V10_of m c r h9).trans <|
  (Gen.V9_of m c r h8).trans <| (Gen.V8_of m c r h7).trans <| (Gen.V7_of m c r h6).trans <|
  (Gen.V6_of m c r h5).trans <| (Gen.V5_of m c r h4).trans <| (Gen.V4_of m c r h3).trans <|
  (Gen.V3_of m c r h2).trans <| (Gen.V2_of m c r h1).trans <| (Gen.V1_of m c r h0).trans rfl

theorem arg2_V19 : Gen.V19 m outs c main_arg2 = m ((c : Thread nD τ).loc main_arg2) :=
  (V22_eq_V19 m outs c main_arg2 (by decide) (by decide) (by decide)).symm.trans (Gen.V22_main_arg2 m outs c)

theorem arg3_V19 : Gen.V19 m outs c main_arg3 = m ((c : Thread nD τ).loc main_arg3) :=
  (V22_eq_V19 m outs c main_arg3 (by decide) (by decide) (by decide)).symm.trans (Gen.V22_main_arg3 m outs c)

theorem arg4_V19 : Gen.V19 m outs c main_arg4 = m ((c : Thread nD τ).loc main_arg4) :=
  (V22_eq_V19 m outs c main_arg4 (by decide) (by decide) (by decide)).symm.trans (Gen.V22_main_arg4 m outs c)

theorem arg4_V21 : Gen.V21 m outs c main_arg4 = m ((c : Thread nD τ).loc main_arg4) :=
  (Gen.V22_of m outs c main_arg4 (by decide)).symm.trans (Gen.V22_main_arg4 m outs c)

theorem v81_V22 : Gen.V22 m outs c main_v81 = Gen.V19 m outs c main_v81 :=
  V22_eq_V19 m outs c main_v81 (by decide) (by decide) (by decide)

theorem v82_V22 : Gen.V22 m outs c main_v82 = Gen.V19 m outs c main_v82 :=
  V22_eq_V19 m outs c main_v82 (by decide) (by decide) (by decide)

theorem v82_V20 : Gen.V20 m outs c main_v82 = Gen.V19 m outs c main_v82 :=
  Gen.V20_of m outs c main_v82 (by decide)

theorem v92_V22 : Gen.V22 m outs c main_v92 = Gen.V20 m outs c main_v92 :=
  (Gen.V22_of m outs c main_v92 (by decide)).trans (Gen.V21_of m outs c main_v92 (by decide))

theorem v93_V22 : Gen.V22 m outs c main_v93 = Gen.V20 m outs c main_v93 :=
  (Gen.V22_of m outs c main_v93 (by decide)).trans (Gen.V21_of m outs c main_v93 (by decide))

theorem v85_V22 : Gen.V22 m outs c main_v85 = Gen.V20 m outs c main_v85 :=
  (Gen.V22_of m outs c main_v85 (by decide)).trans (Gen.V21_of m outs c main_v85 (by decide))

theorem v94_V21 : Gen.V21 m outs c main_v94 = outs 21 main_v94 c :=
  Function.update_self _ _ _

theorem energies_eq : (Gen.V22 m outs c main_v85 : S1000x1.Idx → EReal)
    = Host.scatterAdd scatter_S1000x1_S100000x1_S100000x1_1_0_0_1
        (broadcastInDim S1000x1 ![] bcast_S_S1000x1 (constant (F := Ideal) S_ .f32 0x00000000#32))
        (broadcastInDim S100000x1 ![0] bcast_S100000_S100000x1_0 (m ((c : Thread nD τ).loc main_arg2)))
        (Gen.V22 m outs c main_v81) := by
  rw [v85_V22, v81_V22, ← arg2_V19 m outs c]
  exact hostOps1_2_v85 (Gen.V19 m outs c)

theorem forces_eq : (Gen.V22 m outs c main_v97 : S100000x3.Idx → EReal)
    = Host.scatterAdd scatter_S100000x3_S200000x1_S200000x3_1_0_0_1
        (broadcastInDim S100000x3 ![] bcast_S_S100000x3 (constant (F := Ideal) S_ .f32 0x00000000#32))
        (broadcastInDim S200000x1 ![0] bcast_S200000_S200000x1_0 (m ((c : Thread nD τ).loc main_arg4)))
        (outs 21 main_v94 c) := by
  rw [← arg4_V21 m outs c, ← v94_V21 m outs c]
  exact hostOps2_v97 (Gen.V21 m outs c)

theorem gathered_apply_V20 (p : Fin 200000) (f : Fin 256) :
    (Gen.V20 m outs c main_v92 : S200000x256.Idx → EReal) (ix2 p f)
      = (Gen.V19 m outs c main_v82 : S100000x256.Idx → EReal) (ix2 (gidx (m ((c : Thread nD τ).loc main_arg4)) p) f) := by
  rw [← arg4_V19 m outs c]
  exact (congrFun (hostOps1_2_v92 (Gen.V19 m outs c)) (ix2 p f)).trans (gather_point _ _ p f)

theorem gathered_apply (p : Fin 200000) (f : Fin 256) :
    (Gen.V22 m outs c main_v92 : S200000x256.Idx → EReal) (ix2 p f)
      = (Gen.V22 m outs c main_v82 : S100000x256.Idx → EReal) (ix2 (gidx (m ((c : Thread nD τ).loc main_arg4)) p) f) := by
  rw [v92_V22, v82_V22]
  exact gathered_apply_V20 m outs c p f

theorem pgflat_apply_V20 (p : Fin 200000) (d : Fin 3) (f : Fin 256) :
    (Gen.V20 m outs c main_v93 : S200000x768.Idx → EReal) (ix2 p (⟨256 * d.val + f.val, by omega⟩ : Fin 768))
      = (m ((c : Thread nD τ).loc main_arg3) : S200000x3x256.Idx → EReal) (ix3 p d f) := by
  rw [← arg3_V19 m outs c]
  exact (congrFun (hostOps1_2_v93 (Gen.V19 m outs c)) _).trans (reshape_point _ p d f)

theorem pgflat_apply (p : Fin 200000) (d : Fin 3) (f : Fin 256) :
    (Gen.V22 m outs c main_v93 : S200000x768.Idx → EReal) (ix2 p (⟨256 * d.val + f.val, by omega⟩ : Fin 768))
      = (m ((c : Thread nD τ).loc main_arg3) : S200000x3x256.Idx → EReal) (ix3 p d f) := by
  rw [v93_V22]
  exact pgflat_apply_V20 m outs c p d f

theorem v76_apply (s : Fin 4) (u : Fin 1) (j : Fin 256) :
    (Gen.V16 m c main_v76 : S4x1x256.Idx → EReal) (ix3 s u j)
      = (m ((c : Thread nD τ).loc main_arg6) : S4x256.Idx → EReal) (ix2 s j) := by
  rw [← V15_launch m c main_arg6 (by decide) (by decide) (by decide) (by decide) (by decide) (by decide) (by decide)
    (by decide) (by decide) (by decide) (by decide) (by decide) (by decide) (by decide) (by decide)]
  exact (congrFun (hostOps0_15_v76 (Gen.V15 m c)) _).trans (bcast_row_point _ s u j)

theorem v77_apply (s : Fin 4) (u : Fin 1) (j : Fin 256) :
    (Gen.V16 m c main_v77 : S4x1x256.Idx → EReal) (ix3 s u j)
      = (m ((c : Thread nD τ).loc main_arg8) : S4x256.Idx → EReal) (ix2 s j) := by
  rw [← V15_launch m c main_arg8 (by decide) (by decide) (by decide) (by decide) (by decide) (by decide) (by decide)
    (by decide) (by decide) (by decide) (by decide) (by decide) (by decide) (by decide) (by decide)]
  exact (congrFun (hostOps0_15_v77 (Gen.V15 m c)) _).trans (bcast_row_point _ s u j)

theorem v78_apply (s : Fin 4) (u v : Fin 1) :
    (Gen.V16 m c main_v78 : S4x1x1.Idx → EReal) (ix3 s u v)
      = (m ((c : Thread nD τ).loc main_arg10) : S4x1.Idx → EReal) (ix2 s (0 : Fin 1)) := by
  rw [← V15_launch m c main_arg10 (by decide) (by decide) (by decide) (by decide) (by decide) (by decide) (by decide)
    (by decide) (by decide) (by decide) (by decide) (by decide) (by decide) (by decide) (by decide)]
  exact (congrFun (hostOps0_15_v78 (Gen.V15 m c)) _).trans (bcast_one_point _ s u v)

theorem v79_apply (s : Fin 4) (u v : Fin 1) :
    (Gen.V16 m c main_v79 : S4x1x1.Idx → EReal) (ix3 s u v)
      = (m ((c : Thread nD τ).loc main_arg12) : S4x1.Idx → EReal) (ix2 s (0 : Fin 1)) := by
  rw [← V15_launch m c main_arg12 (by decide) (by decide) (by decide) (by decide) (by decide) (by decide) (by decide)
    (by decide) (by decide) (by decide) (by decide) (by decide) (by decide) (by decide) (by decide)]
  exact (congrFun (hostOps0_15_v79 (Gen.V15 m c)) _).trans (bcast_one_point _ s u v)

end AtProgram

end Cert.KernelIdeal.HandValue

end
-- ==== Proof.RefTail.lean ====
import proofs.«428180_j4174708212170_2_alg».proof.Proof.RefRead
import proofs.«428180_j4174708212170_2_alg».proof.Proof.GIdx
import proofs.«428180_j4174708212170_2_alg».proof.Proof.LibRows
import proofs.«428180_j4174708212170_2_alg».proof.Proof.Gen.KernelIdeal

noncomputable section

namespace Cert.RefTail

open Cert.ReferenceIdeal Cert.ReferenceIdeal.Read Cert.GIdx Idealize.ShloMosaic Idealize.ShloMosaic.ValueIdx

theorem normWord_ref (x4 : (⟨S200000, .i32⟩ : BufTy).Contents (Elt Ideal)) (p : Fin 200000) :
    val_main_v233 (F := Ideal) x4 (ix2 p (0 : Fin 1)) = gword (x4 (ix1 p)) := by
  have e : idx_main_v233 (ix2 p (0 : Fin 1)) = ix1 p := funext fun a => match a with | ⟨0, _⟩ => rfl
  rw [val_main_v233_apply, val_main_v232_apply, val_main_v229_apply, val_main_v231_apply, val_main_v228_apply,
    val_main_v230_apply, val_main_c_13_apply, val_main_c_14_apply, e]
  rfl

theorem gather_ref (x : S100000x256.Idx → EReal) (x4 : (⟨S200000, .i32⟩ : BufTy).Contents (Elt Ideal))
    (p : Fin 200000) (f : Fin 256) :
    Host.gather gather_S100000x256_S200000x1_S200000x256_1_0_n_n_0_1_1256 x (val_main_v233 (F := Ideal) x4) (ix2 p f)
      = x (ix2 (gidx x4 p) f) := by
  refine (Cert.LibRows.gather_rows2 (by decide) gather_S100000x256_S200000x1_S200000x256_1_0_n_n_0_1_1256
    rfl rfl rfl rfl rfl x _ p f).trans ?_
  refine congrArg x (congrArg (fun r : Fin 100000 => ix2 r f) (Fin.ext ?_))
  show min (val_main_v233 (F := Ideal) x4 (ix2 p (0 : Fin 1))).toInt.toNat (100000 - 1) = (gidx x4 p).val
  rw [normWord_ref]
  rfl

variable (x0 : (⟨S100000x256, .f32⟩ : BufTy).Contents (Elt Ideal)) (x1 : (⟨S100000, .i32⟩ : BufTy).Contents (Elt Ideal))
  (x3 : (⟨S200000x3x256, .f32⟩ : BufTy).Contents (Elt Ideal)) (x4 : (⟨S200000, .i32⟩ : BufTy).Contents (Elt Ideal))
  (x5 : (⟨S4x256x256, .f32⟩ : BufTy).Contents (Elt Ideal)) (x6 : (⟨S4x256, .f32⟩ : BufTy).Contents (Elt Ideal))
  (x7 : (⟨S4x256x256, .f32⟩ : BufTy).Contents (Elt Ideal)) (x8 : (⟨S4x256, .f32⟩ : BufTy).Contents (Elt Ideal))
  (x9 : (⟨S4x256x1, .f32⟩ : BufTy).Contents (Elt Ideal)) (x11 : (⟨S4x256x1, .f32⟩ : BufTy).Contents (Elt Ideal))

theorem per_pair_ref (p : Fin 200000) (d : Fin 3) :
    val_main_v239 (F := Ideal) x0 x1 x3 x4 x5 x6 x7 x8 x9 x11 (ix2 p d)
      = -(0 + ∑ f : Fin 256, x3 (ix3 p d f)
          * val_main_v227 (F := Ideal) x0 x1 x5 x6 x7 x8 x9 x11 (ix2 (gidx x4 p) f)) := by
  rw [val_main_v239_apply, val_main_v238_apply, val_main_cst_15_apply]
  show -(Ideal.ofBits .f32 0x00000000#32 + _) = _
  rw [Ideal.ofBits_zero_f32]
  refine congrArg (fun s : EReal => -(0 + s)) (Finset.sum_congr rfl fun f _ => ?_)
  have e238 : idx_main_v238 (ix2 p d) f = ix3 p d f :=
    funext fun a => match a with | ⟨0, _⟩ => rfl | ⟨1, _⟩ => rfl | ⟨2, _⟩ => rfl
  have e235 : idx_main_v235 (idx_main_v236 (ix3 p d f)) = ix2 p f :=
    funext fun a => match a with | ⟨0, _⟩ => rfl | ⟨1, _⟩ => rfl
  rw [e238, val_main_v237_apply, val_main_v236_apply, val_main_v235_apply, e235]
  show x3 (ix3 p d f) * Host.gather gather_S100000x256_S200000x1_S200000x256_1_0_n_n_0_1_1256
    (val_main_v227 (F := Ideal) x0 x1 x5 x6 x7 x8 x9 x11) (val_main_v233 (F := Ideal) x4) (ix2 p f) = _
  rw [gather_ref]

theorem scatter_energy_eq : Cert.ReferenceIdeal.scatter_S1000x1_S100000x1_S100000x1_1_0_0_1
    = Cert.KernelIdeal.scatter_S1000x1_S100000x1_S100000x1_1_0_0_1 := rfl

theorem scatter_force_eq : Cert.ReferenceIdeal.scatter_S100000x3_S200000x1_S200000x3_1_0_0_1
    = Cert.KernelIdeal.scatter_S100000x3_S200000x1_S200000x3_1_0_0_1 := rfl

end Cert.RefTail

end
-- ==== Proof.SchedZ.lean ====
import proofs.«428180_j4174708212170_2_alg».proof.KernelIdeal
import Idealize.ShloMosaic.Lib.ValueIdx

noncomputable section

namespace Cert.KernelIdeal.Hand

open Cert.KernelIdeal Idealize.ShloMosaic Idealize.ShloMosaic.TcCoe Idealize.ShloMosaic.ValueIdx

variable {F : FTy → Type} [FloatOps F]

abbrev zw (m : (ℓ : Loc nD τ sig) → Buf (Elt F) ℓ) (c : Dev nD) : IVec S100000 32 :=
  m ((c : Thread nD τ).loc main_arg1)

def zf (m : (ℓ : Loc nD τ sig) → Buf (Elt F) ℓ) (c : Dev nD)
    (hz : ∀ i : Fin 100000, (zw m c (ix1 i)).toNat < 4) : Fin 100000 → Fin 4 :=
  fun i => ⟨(zw m c (ix1 i)).toNat, hz i⟩

@[simp] theorem zf_val (m : (ℓ : Loc nD τ sig) → Buf (Elt F) ℓ) (c : Dev nD)
    (hz : ∀ i : Fin 100000, (zw m c (ix1 i)).toNat < 4) (i : Fin 100000) :
    (zf m c hz i).val = (zw m c (ix1 i)).toNat := rfl

end Cert.KernelIdeal.Hand

end
-- ==== Proof.Spec.lean ====
import Idealize.ShloMosaic.PureOps.Ideal
import Idealize.ShloMosaic.Lib.ValueIdx

noncomputable section

namespace Cert.Spec

open Idealize.ShloMosaic Idealize.ShloMosaic.ValueIdx

structure Params where
  W1 : Fin 256 → Fin 256 → EReal
  b1 : Fin 256 → EReal
  W2 : Fin 256 → Fin 256 → EReal
  b2 : Fin 256 → EReal
  W3 : Fin 256 → EReal
  b3 : EReal
  Ws : Fin 256 → EReal
  bs : EReal

def params (W1 : (⟨3, ![4, 256, 256]⟩ : Shape).Idx → EReal) (b1 : (⟨2, ![4, 256]⟩ : Shape).Idx → EReal)
    (W2 : (⟨3, ![4, 256, 256]⟩ : Shape).Idx → EReal) (b2 : (⟨2, ![4, 256]⟩ : Shape).Idx → EReal)
    (W3 : (⟨3, ![4, 256, 1]⟩ : Shape).Idx → EReal) (b3 : (⟨2, ![4, 1]⟩ : Shape).Idx → EReal)
    (Ws : (⟨3, ![4, 256, 1]⟩ : Shape).Idx → EReal) (bs : (⟨2, ![4, 1]⟩ : Shape).Idx → EReal) (s : Fin 4) : Params where
  W1 k j := W1 (ix3 s k j)
  b1 j := b1 (ix2 s j)
  W2 k j := W2 (ix3 s k j)
  b2 j := b2 (ix2 s j)
  W3 k := W3 (ix3 s k (0 : Fin 1))
  b3 := b3 (ix2 s (0 : Fin 1))
  Ws k := Ws (ix3 s k (0 : Fin 1))
  bs := bs (ix2 s (0 : Fin 1))

def row {n : Nat} (a : (⟨2, ![n, 256]⟩ : Shape).Idx → EReal) (r : Fin n) : Fin 256 → EReal := fun k => a (ix2 r k)

section
variable (P : Params) (x : Fin 256 → EReal)

def z1 (j : Fin 256) : EReal := (∑ k, x k * P.W1 k j) + P.b1 j

def h1 (j : Fin 256) : EReal := Ideal.tanh (z1 P x j)

def z2 (j : Fin 256) : EReal := (∑ k, h1 P x k * P.W2 k j) + P.b2 j

def h2 (j : Fin 256) : EReal := Ideal.tanh (z2 P x j)

def out : EReal := ((∑ k, h2 P x k * P.W3 k) + P.b3) + ((∑ k, x k * P.Ws k) + P.bs)

def d2 (j : Fin 256) : EReal := (1 - h2 P x j * h2 P x j) * P.W3 j

def dh1 (k : Fin 256) : EReal := ∑ j, d2 P x j * P.W2 k j

def d1 (k : Fin 256) : EReal := (1 - h1 P x k * h1 P x k) * dh1 P x k

def grad (f : Fin 256) : EReal := (∑ k, d1 P x k * P.W1 f k) + P.Ws f

end

end Cert.Spec

end
-- ==== Proof.RefW.lean ====
import proofs.«428180_j4174708212170_2_alg».proof.Proof.RefRead

noncomputable section

namespace Cert.RefRead

open Cert.ReferenceIdeal Cert.ReferenceIdeal.Read Idealize.ShloMosaic Idealize.ShloMosaic.ValueIdx

variable (x5 : (⟨S4x256x256, .f32⟩ : BufTy).Contents (Elt Ideal)) (x6 : (⟨S4x256, .f32⟩ : BufTy).Contents (Elt Ideal))
  (x7 : (⟨S4x256x256, .f32⟩ : BufTy).Contents (Elt Ideal)) (x8 : (⟨S4x256, .f32⟩ : BufTy).Contents (Elt Ideal))
  (x9 : (⟨S4x256x1, .f32⟩ : BufTy).Contents (Elt Ideal)) (x10 : (⟨S4x1, .f32⟩ : BufTy).Contents (Elt Ideal))
  (x11 : (⟨S4x256x1, .f32⟩ : BufTy).Contents (Elt Ideal)) (x12 : (⟨S4x1, .f32⟩ : BufTy).Contents (Elt Ideal))

set_option hygiene false in

local macro "mat_coords" : tactic => `(tactic| (
  refine congrArg _ (funext fun a => Fin.ext ?_)
  have hk := k.isLt
  have hj := j.isLt
  match a with
  | ⟨0, _⟩ => rfl
  | ⟨1, _⟩ => (show (k.val * 256 + j.val) / 256 % 256 = k.val; omega)
  | ⟨2, _⟩ => (show (k.val * 256 + j.val) % 256 = j.val; omega)))

set_option hygiene false in

local macro "vec_coords" : tactic => `(tactic| (
  refine congrArg _ (funext fun a => Fin.ext ?_)
  have hj := j.isLt
  match a with
  | ⟨0, _⟩ => rfl
  | ⟨1, _⟩ => (show j.val % 256 = j.val; omega)))

set_option hygiene false in

local macro "col_coords" : tactic => `(tactic| (
  refine congrArg _ (funext fun a => Fin.ext ?_)
  have hk := k.isLt
  have hc := c.isLt
  match a with
  | ⟨0, _⟩ => rfl
  | ⟨1, _⟩ => (show (k.val * 1 + c.val) / 1 % 256 = k.val; omega)
  | ⟨2, _⟩ => rfl))

set_option hygiene false in

local macro "sca_coords" : tactic => `(tactic| (
  refine congrArg _ (funext fun a => Fin.ext ?_)
  match a with
  | ⟨0, _⟩ => rfl
  | ⟨1, _⟩ => rfl))

theorem W1_0 (k j : Fin 256) : val_main_v2 (F := Ideal) x5 (ix2 k j) = x5 (ix3 (0 : Fin 4) k j) := by
  rw [val_main_v2_apply, val_main_v1_apply]; mat_coords
theorem b1_0 (i : Fin 100000) (j : Fin 256) : val_main_v7 (F := Ideal) x6 (ix2 i j) = x6 (ix2 (0 : Fin 4) j) := by
  rw [val_main_v7_apply, val_main_v6_apply, val_main_v5_apply, val_main_v4_apply]; vec_coords
theorem W2_0 (k j : Fin 256) : val_main_v13 (F := Ideal) x7 (ix2 k j) = x7 (ix3 (0 : Fin 4) k j) := by
  rw [val_main_v13_apply, val_main_v12_apply]; mat_coords
theorem b2_0 (i : Fin 100000) (j : Fin 256) : val_main_v18 (F := Ideal) x8 (ix2 i j) = x8 (ix2 (0 : Fin 4) j) := by
  rw [val_main_v18_apply, val_main_v17_apply, val_main_v16_apply, val_main_v15_apply]; vec_coords
theorem W3_0 (k : Fin 256) (c : Fin 1) : val_main_v24 (F := Ideal) x9 (ix2 k c) = x9 (ix3 (0 : Fin 4) k (0 : Fin 1)) := by
  rw [val_main_v24_apply, val_main_v23_apply]; col_coords
theorem b3_0 (i : Fin 100000) (c : Fin 1) : val_main_v29 (F := Ideal) x10 (ix2 i c) = x10 (ix2 (0 : Fin 4) (0 : Fin 1)) := by
  rw [val_main_v29_apply, val_main_v28_apply, val_main_v27_apply, val_main_v26_apply]; sca_coords
theorem Ws_0 (k : Fin 256) (c : Fin 1) : val_main_v32 (F := Ideal) x11 (ix2 k c) = x11 (ix3 (0 : Fin 4) k (0 : Fin 1)) := by
  rw [val_main_v32_apply, val_main_v31_apply]; col_coords
theorem bs_0 (i : Fin 100000) (c : Fin 1) : val_main_v38 (F := Ideal) x12 (ix2 i c) = x12 (ix2 (0 : Fin 4) (0 : Fin 1)) := by
  rw [val_main_v38_apply, val_main_v37_apply, val_main_v36_apply, val_main_v35_apply]; sca_coords

theorem W1_1 (k j : Fin 256) : val_main_v45 (F := Ideal) x5 (ix2 k j) = x5 (ix3 (1 : Fin 4) k j) := by
  rw [val_main_v45_apply, val_main_v44_apply]; mat_coords
theorem b1_1 (i : Fin 100000) (j : Fin 256) : val_main_v50 (F := Ideal) x6 (ix2 i j) = x6 (ix2 (1 : Fin 4) j) := by
  rw [val_main_v50_apply, val_main_v49_apply, val_main_v48_apply, val_main_v47_apply]; vec_coords
theorem W2_1 (k j : Fin 256) : val_main_v56 (F := Ideal) x7 (ix2 k j) = x7 (ix3 (1 : Fin 4) k j) := by
  rw [val_main_v56_apply, val_main_v55_apply]; mat_coords
theorem b2_1 (i : Fin 100000) (j : Fin 256) : val_main_v61 (F := Ideal) x8 (ix2 i j) = x8 (ix2 (1 : Fin 4) j) := by
  rw [val_main_v61_apply, val_main_v60_apply, val_main_v59_apply, val_main_v58_apply]; vec_coords
theorem W3_1 (k : Fin 256) (c : Fin 1) : val_main_v67 (F := Ideal) x9 (ix2 k c) = x9 (ix3 (1 : Fin 4) k (0 : Fin 1)) := by
  rw [val_main_v67_apply, val_main_v66_apply]; col_coords
theorem b3_1 (i : Fin 100000) (c : Fin 1) : val_main_v72 (F := Ideal) x10 (ix2 i c) = x10 (ix2 (1 : Fin 4) (0 : Fin 1)) := by
  rw [val_main_v72_apply, val_main_v71_apply, val_main_v70_apply, val_main_v69_apply]; sca_coords
theorem Ws_1 (k : Fin 256) (c : Fin 1) : val_main_v75 (F := Ideal) x11 (ix2 k c) = x11 (ix3 (1 : Fin 4) k (0 : Fin 1)) := by
  rw [val_main_v75_apply, val_main_v74_apply]; col_coords
theorem bs_1 (i : Fin 100000) (c : Fin 1) : val_main_v81 (F := Ideal) x12 (ix2 i c) = x12 (ix2 (1 : Fin 4) (0 : Fin 1)) := by
  rw [val_main_v81_apply, val_main_v80_apply, val_main_v79_apply, val_main_v78_apply]; sca_coords

theorem W1_2 (k j : Fin 256) : val_main_v88 (F := Ideal) x5 (ix2 k j) = x5 (ix3 (2 : Fin 4) k j) := by
  rw [val_main_v88_apply, val_main_v87_apply]; mat_coords
theorem b1_2 (i : Fin 100000) (j : Fin 256) : val_main_v93 (F := Ideal) x6 (ix2 i j) = x6 (ix2 (2 : Fin 4) j) := by
  rw [val_main_v93_apply, val_main_v92_apply, val_main_v91_apply, val_main_v90_apply]; vec_coords
theorem W2_2 (k j : Fin 256) : val_main_v99 (F := Ideal) x7 (ix2 k j) = x7 (ix3 (2 : Fin 4) k j) := by
  rw [val_main_v99_apply, val_main_v98_apply]; mat_coords
theorem b2_2 (i : Fin 100000) (j : Fin 256) : val_main_v104 (F := Ideal) x8 (ix2 i j) = x8 (ix2 (2 : Fin 4) j) := by
  rw [val_main_v104_apply, val_main_v103_apply, val_main_v102_apply, val_main_v101_apply]; vec_coords
theorem W3_2 (k : Fin 256) (c : Fin 1) : val_main_v110 (F := Ideal) x9 (ix2 k c) = x9 (ix3 (2 : Fin 4) k (0 : Fin 1)) := by
  rw [val_main_v110_apply, val_main_v109_apply]; col_coords
theorem b3_2 (i : Fin 100000) (c : Fin 1) : val_main_v115 (F := Ideal) x10 (ix2 i c) = x10 (ix2 (2 : Fin 4) (0 : Fin 1)) := by
  rw [val_main_v115_apply, val_main_v114_apply, val_main_v113_apply, val_main_v112_apply]; sca_coords
theorem Ws_2 (k : Fin 256) (c : Fin 1) : val_main_v118 (F := Ideal) x11 (ix2 k c) = x11 (ix3 (2 : Fin 4) k (0 : Fin 1)) := by
  rw [val_main_v118_apply, val_main_v117_apply]; col_coords
theorem bs_2 (i : Fin 100000) (c : Fin 1) : val_main_v124 (F := Ideal) x12 (ix2 i c) = x12 (ix2 (2 : Fin 4) (0 : Fin 1)) := by
  rw [val_main_v124_apply, val_main_v123_apply, val_main_v122_apply, val_main_v121_apply]; sca_coords

theorem W1_3 (k j : Fin 256) : val_main_v131 (F := Ideal) x5 (ix2 k j) = x5 (ix3 (3 : Fin 4) k j) := by
  rw [val_main_v131_apply, val_main_v130_apply]; mat_coords
theorem b1_3 (i : Fin 100000) (j : Fin 256) : val_main_v136 (F := Ideal) x6 (ix2 i j) = x6 (ix2 (3 : Fin 4) j) := by
  rw [val_main_v136_apply, val_main_v135_apply, val_main_v134_apply, val_main_v133_apply]; vec_coords
theorem W2_3 (k j : Fin 256) : val_main_v142 (F := Ideal) x7 (ix2 k j) = x7 (ix3 (3 : Fin 4) k j) := by
  rw [val_main_v142_apply, val_main_v141_apply]; mat_coords
theorem b2_3 (i : Fin 100000) (j : Fin 256) : val_main_v147 (F := Ideal) x8 (ix2 i j) = x8 (ix2 (3 : Fin 4) j) := by
  rw [val_main_v147_apply, val_main_v146_apply, val_main_v145_apply, val_main_v144_apply]; vec_coords
theorem W3_3 (k : Fin 256) (c : Fin 1) : val_main_v153 (F := Ideal) x9 (ix2 k c) = x9 (ix3 (3 : Fin 4) k (0 : Fin 1)) := by
  rw [val_main_v153_apply, val_main_v152_apply]; col_coords
theorem b3_3 (i : Fin 100000) (c : Fin 1) : val_main_v158 (F := Ideal) x10 (ix2 i c) = x10 (ix2 (3 : Fin 4) (0 : Fin 1)) := by
  rw [val_main_v158_apply, val_main_v157_apply, val_main_v156_apply, val_main_v155_apply]; sca_coords
theorem Ws_3 (k : Fin 256) (c : Fin 1) : val_main_v161 (F := Ideal) x11 (ix2 k c) = x11 (ix3 (3 : Fin 4) k (0 : Fin 1)) := by
  rw [val_main_v161_apply, val_main_v160_apply]; col_coords
theorem bs_3 (i : Fin 100000) (c : Fin 1) : val_main_v167 (F := Ideal) x12 (ix2 i c) = x12 (ix2 (3 : Fin 4) (0 : Fin 1)) := by
  rw [val_main_v167_apply, val_main_v166_apply, val_main_v165_apply, val_main_v164_apply]; sca_coords

end Cert.RefRead

end
-- ==== Proof.RefFwdH.lean ====
import proofs.«428180_j4174708212170_2_alg».proof.Proof.RefW
import proofs.«428180_j4174708212170_2_alg».proof.Proof.Spec

noncomputable section

namespace Cert.RefRead

open Cert.ReferenceIdeal Cert.ReferenceIdeal.Read Idealize.ShloMosaic Idealize.ShloMosaic.ValueIdx

variable (x0 : (⟨S100000x256, .f32⟩ : BufTy).Contents (Elt Ideal))
  (x5 : (⟨S4x256x256, .f32⟩ : BufTy).Contents (Elt Ideal)) (x6 : (⟨S4x256, .f32⟩ : BufTy).Contents (Elt Ideal))
  (x7 : (⟨S4x256x256, .f32⟩ : BufTy).Contents (Elt Ideal)) (x8 : (⟨S4x256, .f32⟩ : BufTy).Contents (Elt Ideal))
  (x9 : (⟨S4x256x1, .f32⟩ : BufTy).Contents (Elt Ideal)) (x10 : (⟨S4x1, .f32⟩ : BufTy).Contents (Elt Ideal))
  (x11 : (⟨S4x256x1, .f32⟩ : BufTy).Contents (Elt Ideal)) (x12 : (⟨S4x1, .f32⟩ : BufTy).Contents (Elt Ideal))

local macro "idx2" : term => `(funext fun a => Fin.ext (by match a with | ⟨0, _⟩ => rfl | ⟨1, _⟩ => rfl))

theorem h1_0 (i : Fin 100000) (j : Fin 256) :
    val_main_v9 (F := Ideal) x0 x5 x6 (ix2 i j)
      = Cert.Spec.h1 (Cert.Spec.params x5 x6 x7 x8 x9 x10 x11 x12 0) (Cert.Spec.row x0 i) j := by
  rw [val_main_v9_apply, val_main_v8_apply, val_main_v3_apply, b1_0]
  have hsum : ∀ k : Fin 256, x0 (lidx_main_v3 (ix2 i j) k) * val_main_v2 (F := Ideal) x5 (ridx_main_v3 (ix2 i j) k)
      = x0 (ix2 i k) * x5 (ix3 (0 : Fin 4) k j) := fun k => by
    rw [show lidx_main_v3 (ix2 i j) k = ix2 i k from idx2, show ridx_main_v3 (ix2 i j) k = ix2 k j from idx2, W1_0]
  simp only [hsum]
  rfl

theorem h2_0 (i : Fin 100000) (j : Fin 256) :
    val_main_v20 (F := Ideal) x0 x5 x6 x7 x8 (ix2 i j)
      = Cert.Spec.h2 (Cert.Spec.params x5 x6 x7 x8 x9 x10 x11 x12 0) (Cert.Spec.row x0 i) j := by
  rw [val_main_v20_apply, val_main_v19_apply, val_main_v14_apply, b2_0]
  have hsum : ∀ k : Fin 256, val_main_v9 (F := Ideal) x0 x5 x6 (lidx_main_v14 (ix2 i j) k) * val_main_v13 (F := Ideal) x7 (ridx_main_v14 (ix2 i j) k)
      = Cert.Spec.h1 (Cert.Spec.params x5 x6 x7 x8 x9 x10 x11 x12 0) (Cert.Spec.row x0 i) k * x7 (ix3 (0 : Fin 4) k j) := fun k => by
    rw [show lidx_main_v14 (ix2 i j) k = ix2 i k from idx2, show ridx_main_v14 (ix2 i j) k = ix2 k j from idx2,
      h1_0 x0 x5 x6 x7 x8 x9 x10 x11 x12, W2_0]
  simp only [hsum]
  rfl

theorem h1_1 (i : Fin 100000) (j : Fin 256) :
    val_main_v52 (F := Ideal) x0 x5 x6 (ix2 i j)
      = Cert.Spec.h1 (Cert.Spec.params x5 x6 x7 x8 x9 x10 x11 x12 1) (Cert.Spec.row x0 i) j := by
  rw [val_main_v52_apply, val_main_v51_apply, val_main_v46_apply, b1_1]
  have hsum : ∀ k : Fin 256, x0 (lidx_main_v46 (ix2 i j) k) * val_main_v45 (F := Ideal) x5 (ridx_main_v46 (ix2 i j) k)
      = x0 (ix2 i k) * x5 (ix3 (1 : Fin 4) k j) := fun k => by
    rw [show lidx_main_v46 (ix2 i j) k = ix2 i k from idx2, show ridx_main_v46 (ix2 i j) k = ix2 k j from idx2, W1_1]
  simp only [hsum]
  rfl

theorem h2_1 (i : Fin 100000) (j : Fin 256) :
    val_main_v63 (F := Ideal) x0 x5 x6 x7 x8 (ix2 i j)
      = Cert.Spec.h2 (Cert.Spec.params x5 x6 x7 x8 x9 x10 x11 x12 1) (Cert.Spec.row x0 i) j := by
  rw [val_main_v63_apply, val_main_v62_apply, val_main_v57_apply, b2_1]
  have hsum : ∀ k : Fin 256, val_main_v52 (F := Ideal) x0 x5 x6 (lidx_main_v57 (ix2 i j) k) * val_main_v56 (F := Ideal) x7 (ridx_main_v57 (ix2 i j) k)
      = Cert.Spec.h1 (Cert.Spec.params x5 x6 x7 x8 x9 x10 x11 x12 1) (Cert.Spec.row x0 i) k * x7 (ix3 (1 : Fin 4) k j) := fun k => by
    rw [show lidx_main_v57 (ix2 i j) k = ix2 i k from idx2, show ridx_main_v57 (ix2 i j) k = ix2 k j from idx2,
      h1_1 x0 x5 x6 x7 x8 x9 x10 x11 x12, W2_1]
  simp only [hsum]
  rfl

theorem h1_2 (i : Fin 100000) (j : Fin 256) :
    val_main_v95 (F := Ideal) x0 x5 x6 (ix2 i j)
      = Cert.Spec.h1 (Cert.Spec.params x5 x6 x7 x8 x9 x10 x11 x12 2) (Cert.Spec.row x0 i) j := by
  rw [val_main_v95_apply, val_main_v94_apply, val_main_v89_apply, b1_2]
  have hsum : ∀ k : Fin 256, x0 (lidx_main_v89 (ix2 i j) k) * val_main_v88 (F := Ideal) x5 (ridx_main_v89 (ix2 i j) k)
      = x0 (ix2 i k) * x5 (ix3 (2 : Fin 4) k j) := fun k => by
    rw [show lidx_main_v89 (ix2 i j) k = ix2 i k from idx2, show ridx_main_v89 (ix2 i j) k = ix2 k j from idx2, W1_2]
  simp only [hsum]
  rfl

theorem h2_2 (i : Fin 100000) (j : Fin 256) :
    val_main_v106 (F := Ideal) x0 x5 x6 x7 x8 (ix2 i j)
      = Cert.Spec.h2 (Cert.Spec.params x5 x6 x7 x8 x9 x10 x11 x12 2) (Cert.Spec.row x0 i) j := by
  rw [val_main_v106_apply, val_main_v105_apply, val_main_v100_apply, b2_2]
  have hsum : ∀ k : Fin 256, val_main_v95 (F := Ideal) x0 x5 x6 (lidx_main_v100 (ix2 i j) k) * val_main_v99 (F := Ideal) x7 (ridx_main_v100 (ix2 i j) k)
      = Cert.Spec.h1 (Cert.Spec.params x5 x6 x7 x8 x9 x10 x11 x12 2) (Cert.Spec.row x0 i) k * x7 (ix3 (2 : Fin 4) k j) := fun k => by
    rw [show lidx_main_v100 (ix2 i j) k = ix2 i k from idx2, show ridx_main_v100 (ix2 i j) k = ix2 k j from idx2,
      h1_2 x0 x5 x6 x7 x8 x9 x10 x11 x12, W2_2]
  simp only [hsum]
  rfl

theorem h1_3 (i : Fin 100000) (j : Fin 256) :
    val_main_v138 (F := Ideal) x0 x5 x6 (ix2 i j)
      = Cert.Spec.h1 (Cert.Spec.params x5 x6 x7 x8 x9 x10 x11 x12 3) (Cert.Spec.row x0 i) j := by
  rw [val_main_v138_apply, val_main_v137_apply, val_main_v132_apply, b1_3]
  have hsum : ∀ k : Fin 256, x0 (lidx_main_v132 (ix2 i j) k) * val_main_v131 (F := Ideal) x5 (ridx_main_v132 (ix2 i j) k)
      = x0 (ix2 i k) * x5 (ix3 (3 : Fin 4) k j) := fun k => by
    rw [show lidx_main_v132 (ix2 i j) k = ix2 i k from idx2, show ridx_main_v132 (ix2 i j) k = ix2 k j from idx2, W1_3]
  simp only [hsum]
  rfl

theorem h2_3 (i : Fin 100000) (j : Fin 256) :
    val_main_v149 (F := Ideal) x0 x5 x6 x7 x8 (ix2 i j)
      = Cert.Spec.h2 (Cert.Spec.params x5 x6 x7 x8 x9 x10 x11 x12 3) (Cert.Spec.row x0 i) j := by
  rw [val_main_v149_apply, val_main_v148_apply, val_main_v143_apply, b2_3]
  have hsum : ∀ k : Fin 256, val_main_v138 (F := Ideal) x0 x5 x6 (lidx_main_v143 (ix2 i j) k) * val_main_v142 (F := Ideal) x7 (ridx_main_v143 (ix2 i j) k)
      = Cert.Spec.h1 (Cert.Spec.params x5 x6 x7 x8 x9 x10 x11 x12 3) (Cert.Spec.row x0 i) k * x7 (ix3 (3 : Fin 4) k j) := fun k => by
    rw [show lidx_main_v143 (ix2 i j) k = ix2 i k from idx2, show ridx_main_v143 (ix2 i j) k = ix2 k j from idx2,
      h1_3 x0 x5 x6 x7 x8 x9 x10 x11 x12, W2_3]
  simp only [hsum]
  rfl

end Cert.RefRead

end
-- ==== Proof.SpecRef.lean ====
import proofs.«428180_j4174708212170_2_alg».proof.Proof.Spec

noncomputable section

namespace Cert.SpecRef

open Cert.Spec

variable (P : Params) (x : Fin 256 → EReal) (ct : EReal)

def skipT (f : Fin 256) : EReal := ct * P.Ws f

def a2 (j : Fin 256) : EReal := ct * P.W3 j

def b2 (j : Fin 256) : EReal := a2 P ct j * (1 - h2 P x j)

def c2 (j : Fin 256) : EReal := b2 P x ct j + b2 P x ct j * h2 P x j

def a1 (k : Fin 256) : EReal := ∑ j, c2 P x ct j * P.W2 k j

def b1 (k : Fin 256) : EReal := a1 P x ct k * (1 - h1 P x k)

def c1 (k : Fin 256) : EReal := b1 P x ct k + b1 P x ct k * h1 P x k

def mainT (f : Fin 256) : EReal := ∑ k, c1 P x ct k * P.W1 f k

def outR : EReal := (((∑ k, h2 P x k * P.W3 k) + P.b3) + (∑ k, x k * P.Ws k)) + P.bs

end Cert.SpecRef

end
-- ==== Proof.RefFwd.lean ====
import proofs.«428180_j4174708212170_2_alg».proof.Proof.RefFwdH
import proofs.«428180_j4174708212170_2_alg».proof.Proof.SpecRef
import Idealize.ShloMosaic.Lib.StableHlo.Predicate

noncomputable section

namespace Cert.RefRead

open Cert.ReferenceIdeal Cert.ReferenceIdeal.Read Idealize.ShloMosaic Idealize.ShloMosaic.ValueIdx

theorem outR_eq_out (P : Cert.Spec.Params) (x : Fin 256 → EReal) : Cert.SpecRef.outR P x = Cert.Spec.out P x := by
  unfold Cert.SpecRef.outR Cert.Spec.out
  rw [add_assoc]

variable (x0 : (⟨S100000x256, .f32⟩ : BufTy).Contents (Elt Ideal)) (x1 : (⟨S100000, .i32⟩ : BufTy).Contents (Elt Ideal))
  (x5 : (⟨S4x256x256, .f32⟩ : BufTy).Contents (Elt Ideal)) (x6 : (⟨S4x256, .f32⟩ : BufTy).Contents (Elt Ideal))
  (x7 : (⟨S4x256x256, .f32⟩ : BufTy).Contents (Elt Ideal)) (x8 : (⟨S4x256, .f32⟩ : BufTy).Contents (Elt Ideal))
  (x9 : (⟨S4x256x1, .f32⟩ : BufTy).Contents (Elt Ideal)) (x10 : (⟨S4x1, .f32⟩ : BufTy).Contents (Elt Ideal))
  (x11 : (⟨S4x256x1, .f32⟩ : BufTy).Contents (Elt Ideal)) (x12 : (⟨S4x1, .f32⟩ : BufTy).Contents (Elt Ideal))

local macro "idx2" : term => `(funext fun a => Fin.ext (by match a with | ⟨0, _⟩ => rfl | ⟨1, _⟩ => rfl))

theorem outR_0 (i : Fin 100000) (c : Fin 1) :
    val_main_v39 (F := Ideal) x0 x5 x6 x7 x8 x9 x10 x11 x12 (ix2 i c)
      = Cert.SpecRef.outR (Cert.Spec.params x5 x6 x7 x8 x9 x10 x11 x12 0) (Cert.Spec.row x0 i) := by
  rw [val_main_v39_apply, val_main_v34_apply, val_main_v30_apply, val_main_v25_apply, val_main_v33_apply, b3_0, bs_0]
  have hhead : ∀ k : Fin 256, val_main_v20 (F := Ideal) x0 x5 x6 x7 x8 (lidx_main_v25 (ix2 i c) k) * val_main_v24 (F := Ideal) x9 (ridx_main_v25 (ix2 i c) k)
      = Cert.Spec.h2 (Cert.Spec.params x5 x6 x7 x8 x9 x10 x11 x12 0) (Cert.Spec.row x0 i) k * x9 (ix3 (0 : Fin 4) k (0 : Fin 1)) := fun k => by
    rw [show lidx_main_v25 (ix2 i c) k = ix2 i k from idx2, show ridx_main_v25 (ix2 i c) k = ix2 k c from idx2,
      h2_0 x0 x5 x6 x7 x8 x9 x10 x11 x12, W3_0]
  have hskip : ∀ k : Fin 256, x0 (lidx_main_v33 (ix2 i c) k) * val_main_v32 (F := Ideal) x11 (ridx_main_v33 (ix2 i c) k)
      = x0 (ix2 i k) * x11 (ix3 (0 : Fin 4) k (0 : Fin 1)) := fun k => by
    rw [show lidx_main_v33 (ix2 i c) k = ix2 i k from idx2, show ridx_main_v33 (ix2 i c) k = ix2 k c from idx2, Ws_0]
  simp only [hhead, hskip]
  rfl

theorem outR_1 (i : Fin 100000) (c : Fin 1) :
    val_main_v82 (F := Ideal) x0 x5 x6 x7 x8 x9 x10 x11 x12 (ix2 i c)
      = Cert.SpecRef.outR (Cert.Spec.params x5 x6 x7 x8 x9 x10 x11 x12 1) (Cert.Spec.row x0 i) := by
  rw [val_main_v82_apply, val_main_v77_apply, val_main_v73_apply, val_main_v68_apply, val_main_v76_apply, b3_1, bs_1]
  have hhead : ∀ k : Fin 256, val_main_v63 (F := Ideal) x0 x5 x6 x7 x8 (lidx_main_v68 (ix2 i c) k) * val_main_v67 (F := Ideal) x9 (ridx_main_v68 (ix2 i c) k)
      = Cert.Spec.h2 (Cert.Spec.params x5 x6 x7 x8 x9 x10 x11 x12 1) (Cert.Spec.row x0 i) k * x9 (ix3 (1 : Fin 4) k (0 : Fin 1)) := fun k => by
    rw [show lidx_main_v68 (ix2 i c) k = ix2 i k from idx2, show ridx_main_v68 (ix2 i c) k = ix2 k c from idx2,
      h2_1 x0 x5 x6 x7 x8 x9 x10 x11 x12, W3_1]
  have hskip : ∀ k : Fin 256, x0 (lidx_main_v76 (ix2 i c) k) * val_main_v75 (F := Ideal) x11 (ridx_main_v76 (ix2 i c) k)
      = x0 (ix2 i k) * x11 (ix3 (1 : Fin 4) k (0 : Fin 1)) := fun k => by
    rw [show lidx_main_v76 (ix2 i c) k = ix2 i k from idx2, show ridx_main_v76 (ix2 i c) k = ix2 k c from idx2, Ws_1]
  simp only [hhead, hskip]
  rfl

theorem outR_2 (i : Fin 100000) (c : Fin 1) :
    val_main_v125 (F := Ideal) x0 x5 x6 x7 x8 x9 x10 x11 x12 (ix2 i c)
      = Cert.SpecRef.outR (Cert.Spec.params x5 x6 x7 x8 x9 x10 x11 x12 2) (Cert.Spec.row x0 i) := by
  rw [val_main_v125_apply, val_main_v120_apply, val_main_v116_apply, val_main_v111_apply, val_main_v119_apply, b3_2, bs_2]
  have hhead : ∀ k : Fin 256, val_main_v106 (F := Ideal) x0 x5 x6 x7 x8 (lidx_main_v111 (ix2 i c) k) * val_main_v110 (F := Ideal) x9 (ridx_main_v111 (ix2 i c) k)
      = Cert.Spec.h2 (Cert.Spec.params x5 x6 x7 x8 x9 x10 x11 x12 2) (Cert.Spec.row x0 i) k * x9 (ix3 (2 : Fin 4) k (0 : Fin 1)) := fun k => by
    rw [show lidx_main_v111 (ix2 i c) k = ix2 i k from idx2, show ridx_main_v111 (ix2 i c) k = ix2 k c from idx2,
      h2_2 x0 x5 x6 x7 x8 x9 x10 x11 x12, W3_2]
  have hskip : ∀ k : Fin 256, x0 (lidx_main_v119 (ix2 i c) k) * val_main_v118 (F := Ideal) x11 (ridx_main_v119 (ix2 i c) k)
      = x0 (ix2 i k) * x11 (ix3 (2 : Fin 4) k (0 : Fin 1)) := fun k => by
    rw [show lidx_main_v119 (ix2 i c) k = ix2 i k from idx2, show ridx_main_v119 (ix2 i c) k = ix2 k c from idx2, Ws_2]
  simp only [hhead, hskip]
  rfl

theorem outR_3 (i : Fin 100000) (c : Fin 1) :
    val_main_v168 (F := Ideal) x0 x5 x6 x7 x8 x9 x10 x11 x12 (ix2 i c)
      = Cert.SpecRef.outR (Cert.Spec.params x5 x6 x7 x8 x9 x10 x11 x12 3) (Cert.Spec.row x0 i) := by
  rw [val_main_v168_apply, val_main_v163_apply, val_main_v159_apply, val_main_v154_apply, val_main_v162_apply, b3_3, bs_3]
  have hhead : ∀ k : Fin 256, val_main_v149 (F := Ideal) x0 x5 x6 x7 x8 (lidx_main_v154 (ix2 i c) k) * val_main_v153 (F := Ideal) x9 (ridx_main_v154 (ix2 i c) k)
      = Cert.Spec.h2 (Cert.Spec.params x5 x6 x7 x8 x9 x10 x11 x12 3) (Cert.Spec.row x0 i) k * x9 (ix3 (3 : Fin 4) k (0 : Fin 1)) := fun k => by
    rw [show lidx_main_v154 (ix2 i c) k = ix2 i k from idx2, show ridx_main_v154 (ix2 i c) k = ix2 k c from idx2,
      h2_3 x0 x5 x6 x7 x8 x9 x10 x11 x12, W3_3]
  have hskip : ∀ k : Fin 256, x0 (lidx_main_v162 (ix2 i c) k) * val_main_v161 (F := Ideal) x11 (ridx_main_v162 (ix2 i c) k)
      = x0 (ix2 i k) * x11 (ix3 (3 : Fin 4) k (0 : Fin 1)) := fun k => by
    rw [show lidx_main_v162 (ix2 i c) k = ix2 i k from idx2, show ridx_main_v162 (ix2 i c) k = ix2 k c from idx2, Ws_3]
  simp only [hhead, hskip]
  rfl

theorem select_cmpi_eq {n : Nat} (w v : BitVec n) (a b : EReal) :
    Scalar.select (IntOp.cmpi .eq w v) a b = if w = v then a else b := by
  unfold Scalar.select
  by_cases h : w = v
  · rw [if_pos h]; exact if_pos (StableHlo.Predicate.cmpi_eq_iff.mpr h)
  · rw [if_neg h]; exact if_neg (fun h' => h (StableHlo.Predicate.cmpi_eq_iff.mp h'))

theorem cond_0 (i : Fin 100000) (c : Fin 1) :
    val_main_v42 (F := Ideal) x1 (ix2 i c) = IntOp.cmpi .eq (x1 (ix1 i)) 0#32 := by
  rw [val_main_v42_apply, val_main_v41_apply, val_main_v40_apply, val_main_c_apply,
    show idx_main_v42 (ix2 i c) = ix1 i from funext fun a => Fin.ext (by match a with | ⟨0, _⟩ => rfl)]
theorem cond_1 (i : Fin 100000) (c : Fin 1) :
    val_main_v85 (F := Ideal) x1 (ix2 i c) = IntOp.cmpi .eq (x1 (ix1 i)) 1#32 := by
  rw [val_main_v85_apply, val_main_v84_apply, val_main_v83_apply, val_main_c_4_apply,
    show idx_main_v85 (ix2 i c) = ix1 i from funext fun a => Fin.ext (by match a with | ⟨0, _⟩ => rfl)]
theorem cond_2 (i : Fin 100000) (c : Fin 1) :
    val_main_v128 (F := Ideal) x1 (ix2 i c) = IntOp.cmpi .eq (x1 (ix1 i)) 2#32 := by
  rw [val_main_v128_apply, val_main_v127_apply, val_main_v126_apply, val_main_c_7_apply,
    show idx_main_v128 (ix2 i c) = ix1 i from funext fun a => Fin.ext (by match a with | ⟨0, _⟩ => rfl)]
theorem cond_3 (i : Fin 100000) (c : Fin 1) :
    val_main_v171 (F := Ideal) x1 (ix2 i c) = IntOp.cmpi .eq (x1 (ix1 i)) 3#32 := by
  rw [val_main_v171_apply, val_main_v170_apply, val_main_v169_apply, val_main_c_10_apply,
    show idx_main_v171 (ix2 i c) = ix1 i from funext fun a => Fin.ext (by match a with | ⟨0, _⟩ => rfl)]

theorem chain_pick (w : BitVec 32) (hw : w.toNat < 4) (y : Fin 4 → EReal) (z : EReal) :
    (if w = 3#32 then y 3 else if w = 2#32 then y 2 else if w = 1#32 then y 1 else if w = 0#32 then y 0 else z)
      = y ⟨w.toNat, hw⟩ := by
  have hcases : w = 0#32 ∨ w = 1#32 ∨ w = 2#32 ∨ w = 3#32 := by
    have h0 : w.toNat = 0 ∨ w.toNat = 1 ∨ w.toNat = 2 ∨ w.toNat = 3 := by omega
    rcases h0 with h | h | h | h
    · exact Or.inl (BitVec.eq_of_toNat_eq h)
    · exact Or.inr (Or.inl (BitVec.eq_of_toNat_eq h))
    · exact Or.inr (Or.inr (Or.inl (BitVec.eq_of_toNat_eq h)))
    · exact Or.inr (Or.inr (Or.inr (BitVec.eq_of_toNat_eq h)))
  rcases hcases with h | h | h | h <;> subst h
  · rw [if_neg (by decide), if_neg (by decide), if_neg (by decide), if_pos rfl]; rfl
  · rw [if_neg (by decide), if_neg (by decide), if_pos rfl]; rfl
  · rw [if_neg (by decide), if_pos rfl]; rfl
  · rw [if_pos rfl]; rfl

theorem nn_per_atom_ref (hz : ∀ i : Fin 100000, (x1 (ix1 i)).toNat < 4) (i : Fin 100000) :
    val_main_v172 (F := Ideal) x0 x1 x5 x6 x7 x8 x9 x10 x11 x12 (ix2 i (0 : Fin 1))
      = Cert.Spec.out (Cert.Spec.params x5 x6 x7 x8 x9 x10 x11 x12 ⟨(x1 (ix1 i)).toNat, hz i⟩) (Cert.Spec.row x0 i) := by
  have key := chain_pick (x1 (ix1 i)) (hz i)
    (fun s => Cert.Spec.out (Cert.Spec.params x5 x6 x7 x8 x9 x10 x11 x12 s) (Cert.Spec.row x0 i))
    (val_main_v0 (F := Ideal) (ix2 i (0 : Fin 1)))
  rw [val_main_v172_apply, cond_3, select_cmpi_eq, val_main_v129_apply, cond_2, select_cmpi_eq,
    val_main_v86_apply, cond_1, select_cmpi_eq, val_main_v43_0_apply, cond_0, select_cmpi_eq,
    outR_3, outR_2, outR_1, outR_0, outR_eq_out, outR_eq_out, outR_eq_out, outR_eq_out]
  exact key

end Cert.RefRead

end
-- ==== Proof.RefBwd0.lean ====
import proofs.«428180_j4174708212170_2_alg».proof.Proof.RefRead
import proofs.«428180_j4174708212170_2_alg».proof.Proof.SpecRef
import Idealize.ShloMosaic.Lib.IdealHost

noncomputable section

namespace Cert.RefRead

open Cert.ReferenceIdeal Cert.ReferenceIdeal.Read Idealize.ShloMosaic Idealize.ShloMosaic.ValueIdx Cert.Spec Cert.SpecRef

variable (x0 : (⟨S100000x256, .f32⟩ : BufTy).Contents (Elt Ideal)) (x1 : (⟨S100000, .i32⟩ : BufTy).Contents (Elt Ideal))
  (x5 : (⟨S4x256x256, .f32⟩ : BufTy).Contents (Elt Ideal)) (x6 : (⟨S4x256, .f32⟩ : BufTy).Contents (Elt Ideal))
  (x7 : (⟨S4x256x256, .f32⟩ : BufTy).Contents (Elt Ideal)) (x8 : (⟨S4x256, .f32⟩ : BufTy).Contents (Elt Ideal))
  (x9 : (⟨S4x256x1, .f32⟩ : BufTy).Contents (Elt Ideal)) (x10 : (⟨S4x1, .f32⟩ : BufTy).Contents (Elt Ideal))
  (x11 : (⟨S4x256x1, .f32⟩ : BufTy).Contents (Elt Ideal)) (x12 : (⟨S4x1, .f32⟩ : BufTy).Contents (Elt Ideal))

theorem w1_0 (f k : Fin 256) : val_main_v2 (F := Ideal) x5 (ix2 f k) = x5 (ix3 (0 : Fin 4) f k) := by
  rw [val_main_v2_apply, val_main_v1_apply]
  congr 1
  funext a; apply Fin.ext
  match a with
  | ⟨0, _⟩ => rfl
  | ⟨1, _⟩ => have := f.isLt; have := k.isLt; show (f.val * 256 + k.val) / 256 % 256 = f.val; omega
  | ⟨2, _⟩ => have := f.isLt; have := k.isLt; show (f.val * 256 + k.val) % 256 = k.val; omega

theorem w2_0 (k j : Fin 256) : val_main_v13 (F := Ideal) x7 (ix2 k j) = x7 (ix3 (0 : Fin 4) k j) := by
  rw [val_main_v13_apply, val_main_v12_apply]
  congr 1
  funext a; apply Fin.ext
  match a with
  | ⟨0, _⟩ => rfl
  | ⟨1, _⟩ => have := k.isLt; have := j.isLt; show (k.val * 256 + j.val) / 256 % 256 = k.val; omega
  | ⟨2, _⟩ => have := k.isLt; have := j.isLt; show (k.val * 256 + j.val) % 256 = j.val; omega

theorem w3_0 (j : Fin 256) (c : Fin 1) :
    val_main_v24 (F := Ideal) x9 (ix2 j c) = x9 (ix3 (0 : Fin 4) j (0 : Fin 1)) := by
  rw [val_main_v24_apply, val_main_v23_apply]
  congr 1
  funext a; apply Fin.ext
  match a with
  | ⟨0, _⟩ => rfl
  | ⟨1, _⟩ => have := j.isLt; have := c.isLt; show (j.val * 1 + c.val) / 1 % 256 = j.val; omega
  | ⟨2, _⟩ => rfl

theorem ws_0 (j : Fin 256) (c : Fin 1) :
    val_main_v32 (F := Ideal) x11 (ix2 j c) = x11 (ix3 (0 : Fin 4) j (0 : Fin 1)) := by
  rw [val_main_v32_apply, val_main_v31_apply]
  congr 1
  funext a; apply Fin.ext
  match a with
  | ⟨0, _⟩ => rfl
  | ⟨1, _⟩ => have := j.isLt; have := c.isLt; show (j.val * 1 + c.val) / 1 % 256 = j.val; omega
  | ⟨2, _⟩ => rfl

theorem one1_0 (p : S100000x256.Idx) : val_main_v10 (F := Ideal) p = 1 := by
  rw [val_main_v10_apply, val_main_cst_0_apply, Ideal.ofBits_def, Ideal.ofBits_one_f32]

theorem one2_0 (p : S100000x256.Idx) : val_main_v21 (F := Ideal) p = 1 := by
  rw [val_main_v21_apply, val_main_cst_1_apply, Ideal.ofBits_def, Ideal.ofBits_one_f32]

theorem skipT_0 (i : Fin 100000) (f : Fin 256) :
    val_main_v216 (F := Ideal) x1 x11 (ix2 i f) = skipT (params x5 x6 x7 x8 x9 x10 x11 x12 (0 : Fin 4)) (val_main_v215 (F := Ideal) x1 (ix2 i (0 : Fin 1))) f := by
  rw [val_main_v216_apply, Fin.sum_univ_one]
  have el : lidx_main_v216 (ix2 i f) (0 : Fin 1) = ix2 i (0 : Fin 1) :=
    funext fun a => Fin.ext (by match a with | ⟨0, _⟩ => rfl | ⟨1, _⟩ => rfl)
  have er : ridx_main_v216 (ix2 i f) (0 : Fin 1) = ix2 f (0 : Fin 1) :=
    funext fun a => Fin.ext (by match a with | ⟨0, _⟩ => rfl | ⟨1, _⟩ => rfl)
  rw [el, er, ws_0]
  rfl

theorem a2_0 (i : Fin 100000) (j : Fin 256) :
    val_main_v218 (F := Ideal) x1 x9 (ix2 i j) = a2 (params x5 x6 x7 x8 x9 x10 x11 x12 (0 : Fin 4)) (val_main_v215 (F := Ideal) x1 (ix2 i (0 : Fin 1))) j := by
  rw [val_main_v218_apply, Fin.sum_univ_one]
  have el : lidx_main_v218 (ix2 i j) (0 : Fin 1) = ix2 i (0 : Fin 1) :=
    funext fun a => Fin.ext (by match a with | ⟨0, _⟩ => rfl | ⟨1, _⟩ => rfl)
  have er : ridx_main_v218 (ix2 i j) (0 : Fin 1) = ix2 j (0 : Fin 1) :=
    funext fun a => Fin.ext (by match a with | ⟨0, _⟩ => rfl | ⟨1, _⟩ => rfl)
  rw [el, er, w3_0]
  rfl

theorem c2_0
    (hh2 : ∀ (i : Fin 100000) (j : Fin 256),
      val_main_v20 (F := Ideal) x0 x5 x6 x7 x8 (ix2 i j) = h2 (params x5 x6 x7 x8 x9 x10 x11 x12 (0 : Fin 4)) (row (n := 100000) x0 i) j)
    (i : Fin 100000) (j : Fin 256) :
    val_main_v221 (F := Ideal) x0 x1 x5 x6 x7 x8 x9 (ix2 i j) = c2 (params x5 x6 x7 x8 x9 x10 x11 x12 (0 : Fin 4)) (row (n := 100000) x0 i) (val_main_v215 (F := Ideal) x1 (ix2 i (0 : Fin 1))) j := by
  rw [val_main_v221_apply, val_main_v220_apply, val_main_v219_apply, val_main_v22_apply,
    a2_0 x1 x5 x6 x7 x8 x9 x10 x11 x12, one2_0, hh2]
  rfl

theorem a1_0
    (hh2 : ∀ (i : Fin 100000) (j : Fin 256),
      val_main_v20 (F := Ideal) x0 x5 x6 x7 x8 (ix2 i j) = h2 (params x5 x6 x7 x8 x9 x10 x11 x12 (0 : Fin 4)) (row (n := 100000) x0 i) j)
    (i : Fin 100000) (k : Fin 256) :
    val_main_v222 (F := Ideal) x0 x1 x5 x6 x7 x8 x9 (ix2 i k) = a1 (params x5 x6 x7 x8 x9 x10 x11 x12 (0 : Fin 4)) (row (n := 100000) x0 i) (val_main_v215 (F := Ideal) x1 (ix2 i (0 : Fin 1))) k := by
  rw [val_main_v222_apply]
  unfold a1
  refine Finset.sum_congr rfl fun j _ => ?_
  have el : lidx_main_v222 (ix2 i k) j = ix2 i j :=
    funext fun a => Fin.ext (by match a with | ⟨0, _⟩ => rfl | ⟨1, _⟩ => rfl)
  have er : ridx_main_v222 (ix2 i k) j = ix2 k j :=
    funext fun a => Fin.ext (by match a with | ⟨0, _⟩ => rfl | ⟨1, _⟩ => rfl)
  rw [el, er, c2_0 x0 x1 x5 x6 x7 x8 x9 x10 x11 x12 hh2, w2_0]
  rfl

theorem c1_0
    (hh1 : ∀ (i : Fin 100000) (k : Fin 256),
      val_main_v9 (F := Ideal) x0 x5 x6 (ix2 i k) = h1 (params x5 x6 x7 x8 x9 x10 x11 x12 (0 : Fin 4)) (row (n := 100000) x0 i) k)
    (hh2 : ∀ (i : Fin 100000) (j : Fin 256),
      val_main_v20 (F := Ideal) x0 x5 x6 x7 x8 (ix2 i j) = h2 (params x5 x6 x7 x8 x9 x10 x11 x12 (0 : Fin 4)) (row (n := 100000) x0 i) j)
    (i : Fin 100000) (k : Fin 256) :
    val_main_v225 (F := Ideal) x0 x1 x5 x6 x7 x8 x9 (ix2 i k) = c1 (params x5 x6 x7 x8 x9 x10 x11 x12 (0 : Fin 4)) (row (n := 100000) x0 i) (val_main_v215 (F := Ideal) x1 (ix2 i (0 : Fin 1))) k := by
  rw [val_main_v225_apply, val_main_v224_apply, val_main_v223_apply, val_main_v11_apply,
    a1_0 x0 x1 x5 x6 x7 x8 x9 x10 x11 x12 hh2, one1_0, hh1]
  rfl

theorem mainT_0
    (hh1 : ∀ (i : Fin 100000) (k : Fin 256),
      val_main_v9 (F := Ideal) x0 x5 x6 (ix2 i k) = h1 (params x5 x6 x7 x8 x9 x10 x11 x12 (0 : Fin 4)) (row (n := 100000) x0 i) k)
    (hh2 : ∀ (i : Fin 100000) (j : Fin 256),
      val_main_v20 (F := Ideal) x0 x5 x6 x7 x8 (ix2 i j) = h2 (params x5 x6 x7 x8 x9 x10 x11 x12 (0 : Fin 4)) (row (n := 100000) x0 i) j)
    (i : Fin 100000) (f : Fin 256) :
    val_main_v226 (F := Ideal) x0 x1 x5 x6 x7 x8 x9 (ix2 i f) = mainT (params x5 x6 x7 x8 x9 x10 x11 x12 (0 : Fin 4)) (row (n := 100000) x0 i) (val_main_v215 (F := Ideal) x1 (ix2 i (0 : Fin 1))) f := by
  rw [val_main_v226_apply]
  unfold mainT
  refine Finset.sum_congr rfl fun k _ => ?_
  have el : lidx_main_v226 (ix2 i f) k = ix2 i k :=
    funext fun a => Fin.ext (by match a with | ⟨0, _⟩ => rfl | ⟨1, _⟩ => rfl)
  have er : ridx_main_v226 (ix2 i f) k = ix2 f k :=
    funext fun a => Fin.ext (by match a with | ⟨0, _⟩ => rfl | ⟨1, _⟩ => rfl)
  rw [el, er, c1_0 x0 x1 x5 x6 x7 x8 x9 x10 x11 x12 hh1 hh2, w1_0]
  rfl

end Cert.RefRead

end
-- ==== Proof.RefBwd1.lean ====
import proofs.«428180_j4174708212170_2_alg».proof.Proof.RefRead
import proofs.«428180_j4174708212170_2_alg».proof.Proof.SpecRef
import Idealize.ShloMosaic.Lib.IdealHost

noncomputable section

namespace Cert.RefRead

open Cert.ReferenceIdeal Cert.ReferenceIdeal.Read Idealize.ShloMosaic Idealize.ShloMosaic.ValueIdx Cert.Spec Cert.SpecRef

variable (x0 : (⟨S100000x256, .f32⟩ : BufTy).Contents (Elt Ideal)) (x1 : (⟨S100000, .i32⟩ : BufTy).Contents (Elt Ideal))
  (x5 : (⟨S4x256x256, .f32⟩ : BufTy).Contents (Elt Ideal)) (x6 : (⟨S4x256, .f32⟩ : BufTy).Contents (Elt Ideal))
  (x7 : (⟨S4x256x256, .f32⟩ : BufTy).Contents (Elt Ideal)) (x8 : (⟨S4x256, .f32⟩ : BufTy).Contents (Elt Ideal))
  (x9 : (⟨S4x256x1, .f32⟩ : BufTy).Contents (Elt Ideal)) (x10 : (⟨S4x1, .f32⟩ : BufTy).Contents (Elt Ideal))
  (x11 : (⟨S4x256x1, .f32⟩ : BufTy).Contents (Elt Ideal)) (x12 : (⟨S4x1, .f32⟩ : BufTy).Contents (Elt Ideal))

theorem w1_1 (f k : Fin 256) : val_main_v45 (F := Ideal) x5 (ix2 f k) = x5 (ix3 (1 : Fin 4) f k) := by
  rw [val_main_v45_apply, val_main_v44_apply]
  congr 1
  funext a; apply Fin.ext
  match a with
  | ⟨0, _⟩ => rfl
  | ⟨1, _⟩ => have := f.isLt; have := k.isLt; show (f.val * 256 + k.val) / 256 % 256 = f.val; omega
  | ⟨2, _⟩ => have := f.isLt; have := k.isLt; show (f.val * 256 + k.val) % 256 = k.val; omega

theorem w2_1 (k j : Fin 256) : val_main_v56 (F := Ideal) x7 (ix2 k j) = x7 (ix3 (1 : Fin 4) k j) := by
  rw [val_main_v56_apply, val_main_v55_apply]
  congr 1
  funext a; apply Fin.ext
  match a with
  | ⟨0, _⟩ => rfl
  | ⟨1, _⟩ => have := k.isLt; have := j.isLt; show (k.val * 256 + j.val) / 256 % 256 = k.val; omega
  | ⟨2, _⟩ => have := k.isLt; have := j.isLt; show (k.val * 256 + j.val) % 256 = j.val; omega

theorem w3_1 (j : Fin 256) (c : Fin 1) :
    val_main_v67 (F := Ideal) x9 (ix2 j c) = x9 (ix3 (1 : Fin 4) j (0 : Fin 1)) := by
  rw [val_main_v67_apply, val_main_v66_apply]
  congr 1
  funext a; apply Fin.ext
  match a with
  | ⟨0, _⟩ => rfl
  | ⟨1, _⟩ => have := j.isLt; have := c.isLt; show (j.val * 1 + c.val) / 1 % 256 = j.val; omega
  | ⟨2, _⟩ => rfl

theorem ws_1 (j : Fin 256) (c : Fin 1) :
    val_main_v75 (F := Ideal) x11 (ix2 j c) = x11 (ix3 (1 : Fin 4) j (0 : Fin 1)) := by
  rw [val_main_v75_apply, val_main_v74_apply]
  congr 1
  funext a; apply Fin.ext
  match a with
  | ⟨0, _⟩ => rfl
  | ⟨1, _⟩ => have := j.isLt; have := c.isLt; show (j.val * 1 + c.val) / 1 % 256 = j.val; omega
  | ⟨2, _⟩ => rfl

theorem one1_1 (p : S100000x256.Idx) : val_main_v53 (F := Ideal) p = 1 := by
  rw [val_main_v53_apply, val_main_cst_2_apply, Ideal.ofBits_def, Ideal.ofBits_one_f32]

theorem one2_1 (p : S100000x256.Idx) : val_main_v64 (F := Ideal) p = 1 := by
  rw [val_main_v64_apply, val_main_cst_3_apply, Ideal.ofBits_def, Ideal.ofBits_one_f32]

theorem skipT_1 (i : Fin 100000) (f : Fin 256) :
    val_main_v203 (F := Ideal) x1 x11 (ix2 i f) = skipT (params x5 x6 x7 x8 x9 x10 x11 x12 (1 : Fin 4)) (val_main_v202_0 (F := Ideal) x1 (ix2 i (0 : Fin 1))) f := by
  rw [val_main_v203_apply, Fin.sum_univ_one]
  have el : lidx_main_v203 (ix2 i f) (0 : Fin 1) = ix2 i (0 : Fin 1) :=
    funext fun a => Fin.ext (by match a with | ⟨0, _⟩ => rfl | ⟨1, _⟩ => rfl)
  have er : ridx_main_v203 (ix2 i f) (0 : Fin 1) = ix2 f (0 : Fin 1) :=
    funext fun a => Fin.ext (by match a with | ⟨0, _⟩ => rfl | ⟨1, _⟩ => rfl)
  rw [el, er, ws_1]
  rfl

theorem a2_1 (i : Fin 100000) (j : Fin 256) :
    val_main_v205 (F := Ideal) x1 x9 (ix2 i j) = a2 (params x5 x6 x7 x8 x9 x10 x11 x12 (1 : Fin 4)) (val_main_v202_0 (F := Ideal) x1 (ix2 i (0 : Fin 1))) j := by
  rw [val_main_v205_apply, Fin.sum_univ_one]
  have el : lidx_main_v205 (ix2 i j) (0 : Fin 1) = ix2 i (0 : Fin 1) :=
    funext fun a => Fin.ext (by match a with | ⟨0, _⟩ => rfl | ⟨1, _⟩ => rfl)
  have er : ridx_main_v205 (ix2 i j) (0 : Fin 1) = ix2 j (0 : Fin 1) :=
    funext fun a => Fin.ext (by match a with | ⟨0, _⟩ => rfl | ⟨1, _⟩ => rfl)
  rw [el, er, w3_1]
  rfl

theorem c2_1
    (hh2 : ∀ (i : Fin 100000) (j : Fin 256),
      val_main_v63 (F := Ideal) x0 x5 x6 x7 x8 (ix2 i j) = h2 (params x5 x6 x7 x8 x9 x10 x11 x12 (1 : Fin 4)) (row (n := 100000) x0 i) j)
    (i : Fin 100000) (j : Fin 256) :
    val_main_v208 (F := Ideal) x0 x1 x5 x6 x7 x8 x9 (ix2 i j) = c2 (params x5 x6 x7 x8 x9 x10 x11 x12 (1 : Fin 4)) (row (n := 100000) x0 i) (val_main_v202_0 (F := Ideal) x1 (ix2 i (0 : Fin 1))) j := by
  rw [val_main_v208_apply, val_main_v207_apply, val_main_v206_apply, val_main_v65_apply,
    a2_1 x1 x5 x6 x7 x8 x9 x10 x11 x12, one2_1, hh2]
  rfl

theorem a1_1
    (hh2 : ∀ (i : Fin 100000) (j : Fin 256),
      val_main_v63 (F := Ideal) x0 x5 x6 x7 x8 (ix2 i j) = h2 (params x5 x6 x7 x8 x9 x10 x11 x12 (1 : Fin 4)) (row (n := 100000) x0 i) j)
    (i : Fin 100000) (k : Fin 256) :
    val_main_v209 (F := Ideal) x0 x1 x5 x6 x7 x8 x9 (ix2 i k) = a1 (params x5 x6 x7 x8 x9 x10 x11 x12 (1 : Fin 4)) (row (n := 100000) x0 i) (val_main_v202_0 (F := Ideal) x1 (ix2 i (0 : Fin 1))) k := by
  rw [val_main_v209_apply]
  unfold a1
  refine Finset.sum_congr rfl fun j _ => ?_
  have el : lidx_main_v209 (ix2 i k) j = ix2 i j :=
    funext fun a => Fin.ext (by match a with | ⟨0, _⟩ => rfl | ⟨1, _⟩ => rfl)
  have er : ridx_main_v209 (ix2 i k) j = ix2 k j :=
    funext fun a => Fin.ext (by match a with | ⟨0, _⟩ => rfl | ⟨1, _⟩ => rfl)
  rw [el, er, c2_1 x0 x1 x5 x6 x7 x8 x9 x10 x11 x12 hh2, w2_1]
  rfl

theorem c1_1
    (hh1 : ∀ (i : Fin 100000) (k : Fin 256),
      val_main_v52 (F := Ideal) x0 x5 x6 (ix2 i k) = h1 (params x5 x6 x7 x8 x9 x10 x11 x12 (1 : Fin 4)) (row (n := 100000) x0 i) k)
    (hh2 : ∀ (i : Fin 100000) (j : Fin 256),
      val_main_v63 (F := Ideal) x0 x5 x6 x7 x8 (ix2 i j) = h2 (params x5 x6 x7 x8 x9 x10 x11 x12 (1 : Fin 4)) (row (n := 100000) x0 i) j)
    (i : Fin 100000) (k : Fin 256) :
    val_main_v212 (F := Ideal) x0 x1 x5 x6 x7 x8 x9 (ix2 i k) = c1 (params x5 x6 x7 x8 x9 x10 x11 x12 (1 : Fin 4)) (row (n := 100000) x0 i) (val_main_v202_0 (F := Ideal) x1 (ix2 i (0 : Fin 1))) k := by
  rw [val_main_v212_apply, val_main_v211_apply, val_main_v210_apply, val_main_v54_apply,
    a1_1 x0 x1 x5 x6 x7 x8 x9 x10 x11 x12 hh2, one1_1, hh1]
  rfl

theorem mainT_1
    (hh1 : ∀ (i : Fin 100000) (k : Fin 256),
      val_main_v52 (F := Ideal) x0 x5 x6 (ix2 i k) = h1 (params x5 x6 x7 x8 x9 x10 x11 x12 (1 : Fin 4)) (row (n := 100000) x0 i) k)
    (hh2 : ∀ (i : Fin 100000) (j : Fin 256),
      val_main_v63 (F := Ideal) x0 x5 x6 x7 x8 (ix2 i j) = h2 (params x5 x6 x7 x8 x9 x10 x11 x12 (1 : Fin 4)) (row (n := 100000) x0 i) j)
    (i : Fin 100000) (f : Fin 256) :
    val_main_v213 (F := Ideal) x0 x1 x5 x6 x7 x8 x9 (ix2 i f) = mainT (params x5 x6 x7 x8 x9 x10 x11 x12 (1 : Fin 4)) (row (n := 100000) x0 i) (val_main_v202_0 (F := Ideal) x1 (ix2 i (0 : Fin 1))) f := by
  rw [val_main_v213_apply]
  unfold mainT
  refine Finset.sum_congr rfl fun k _ => ?_
  have el : lidx_main_v213 (ix2 i f) k = ix2 i k :=
    funext fun a => Fin.ext (by match a with | ⟨0, _⟩ => rfl | ⟨1, _⟩ => rfl)
  have er : ridx_main_v213 (ix2 i f) k = ix2 f k :=
    funext fun a => Fin.ext (by match a with | ⟨0, _⟩ => rfl | ⟨1, _⟩ => rfl)
  rw [el, er, c1_1 x0 x1 x5 x6 x7 x8 x9 x10 x11 x12 hh1 hh2, w1_1]
  rfl

end Cert.RefRead

end
-- ==== Proof.RefBwd2.lean ====
import proofs.«428180_j4174708212170_2_alg».proof.Proof.RefRead
import proofs.«428180_j4174708212170_2_alg».proof.Proof.SpecRef
import Idealize.ShloMosaic.Lib.IdealHost

noncomputable section

namespace Cert.RefRead

open Cert.ReferenceIdeal Cert.ReferenceIdeal.Read Idealize.ShloMosaic Idealize.ShloMosaic.ValueIdx Cert.Spec Cert.SpecRef

variable (x0 : (⟨S100000x256, .f32⟩ : BufTy).Contents (Elt Ideal)) (x1 : (⟨S100000, .i32⟩ : BufTy).Contents (Elt Ideal))
  (x5 : (⟨S4x256x256, .f32⟩ : BufTy).Contents (Elt Ideal)) (x6 : (⟨S4x256, .f32⟩ : BufTy).Contents (Elt Ideal))
  (x7 : (⟨S4x256x256, .f32⟩ : BufTy).Contents (Elt Ideal)) (x8 : (⟨S4x256, .f32⟩ : BufTy).Contents (Elt Ideal))
  (x9 : (⟨S4x256x1, .f32⟩ : BufTy).Contents (Elt Ideal)) (x10 : (⟨S4x1, .f32⟩ : BufTy).Contents (Elt Ideal))
  (x11 : (⟨S4x256x1, .f32⟩ : BufTy).Contents (Elt Ideal)) (x12 : (⟨S4x1, .f32⟩ : BufTy).Contents (Elt Ideal))

theorem w1_2 (f k : Fin 256) : val_main_v88 (F := Ideal) x5 (ix2 f k) = x5 (ix3 (2 : Fin 4) f k) := by
  rw [val_main_v88_apply, val_main_v87_apply]
  congr 1
  funext a; apply Fin.ext
  match a with
  | ⟨0, _⟩ => rfl
  | ⟨1, _⟩ => have := f.isLt; have := k.isLt; show (f.val * 256 + k.val) / 256 % 256 = f.val; omega
  | ⟨2, _⟩ => have := f.isLt; have := k.isLt; show (f.val * 256 + k.val) % 256 = k.val; omega

theorem w2_2 (k j : Fin 256) : val_main_v99 (F := Ideal) x7 (ix2 k j) = x7 (ix3 (2 : Fin 4) k j) := by
  rw [val_main_v99_apply, val_main_v98_apply]
  congr 1
  funext a; apply Fin.ext
  match a with
  | ⟨0, _⟩ => rfl
  | ⟨1, _⟩ => have := k.isLt; have := j.isLt; show (k.val * 256 + j.val) / 256 % 256 = k.val; omega
  | ⟨2, _⟩ => have := k.isLt; have := j.isLt; show (k.val * 256 + j.val) % 256 = j.val; omega

theorem w3_2 (j : Fin 256) (c : Fin 1) :
    val_main_v110 (F := Ideal) x9 (ix2 j c) = x9 (ix3 (2 : Fin 4) j (0 : Fin 1)) := by
  rw [val_main_v110_apply, val_main_v109_apply]
  congr 1
  funext a; apply Fin.ext
  match a with
  | ⟨0, _⟩ => rfl
  | ⟨1, _⟩ => have := j.isLt; have := c.isLt; show (j.val * 1 + c.val) / 1 % 256 = j.val; omega
  | ⟨2, _⟩ => rfl

theorem ws_2 (j : Fin 256) (c : Fin 1) :
    val_main_v118 (F := Ideal) x11 (ix2 j c) = x11 (ix3 (2 : Fin 4) j (0 : Fin 1)) := by
  rw [val_main_v118_apply, val_main_v117_apply]
  congr 1
  funext a; apply Fin.ext
  match a with
  | ⟨0, _⟩ => rfl
  | ⟨1, _⟩ => have := j.isLt; have := c.isLt; show (j.val * 1 + c.val) / 1 % 256 = j.val; omega
  | ⟨2, _⟩ => rfl

theorem one1_2 (p : S100000x256.Idx) : val_main_v96 (F := Ideal) p = 1 := by
  rw [val_main_v96_apply, val_main_cst_5_apply, Ideal.ofBits_def, Ideal.ofBits_one_f32]

theorem one2_2 (p : S100000x256.Idx) : val_main_v107 (F := Ideal) p = 1 := by
  rw [val_main_v107_apply, val_main_cst_6_apply, Ideal.ofBits_def, Ideal.ofBits_one_f32]

theorem skipT_2 (i : Fin 100000) (f : Fin 256) :
    val_main_v190 (F := Ideal) x1 x11 (ix2 i f) = skipT (params x5 x6 x7 x8 x9 x10 x11 x12 (2 : Fin 4)) (val_main_v189_0 (F := Ideal) x1 (ix2 i (0 : Fin 1))) f := by
  rw [val_main_v190_apply, Fin.sum_univ_one]
  have el : lidx_main_v190 (ix2 i f) (0 : Fin 1) = ix2 i (0 : Fin 1) :=
    funext fun a => Fin.ext (by match a with | ⟨0, _⟩ => rfl | ⟨1, _⟩ => rfl)
  have er : ridx_main_v190 (ix2 i f) (0 : Fin 1) = ix2 f (0 : Fin 1) :=
    funext fun a => Fin.ext (by match a with | ⟨0, _⟩ => rfl | ⟨1, _⟩ => rfl)
  rw [el, er, ws_2]
  rfl

theorem a2_2 (i : Fin 100000) (j : Fin 256) :
    val_main_v192 (F := Ideal) x1 x9 (ix2 i j) = a2 (params x5 x6 x7 x8 x9 x10 x11 x12 (2 : Fin 4)) (val_main_v189_0 (F := Ideal) x1 (ix2 i (0 : Fin 1))) j := by
  rw [val_main_v192_apply, Fin.sum_univ_one]
  have el : lidx_main_v192 (ix2 i j) (0 : Fin 1) = ix2 i (0 : Fin 1) :=
    funext fun a => Fin.ext (by match a with | ⟨0, _⟩ => rfl | ⟨1, _⟩ => rfl)
  have er : ridx_main_v192 (ix2 i j) (0 : Fin 1) = ix2 j (0 : Fin 1) :=
    funext fun a => Fin.ext (by match a with | ⟨0, _⟩ => rfl | ⟨1, _⟩ => rfl)
  rw [el, er, w3_2]
  rfl

theorem c2_2
    (hh2 : ∀ (i : Fin 100000) (j : Fin 256),
      val_main_v106 (F := Ideal) x0 x5 x6 x7 x8 (ix2 i j) = h2 (params x5 x6 x7 x8 x9 x10 x11 x12 (2 : Fin 4)) (row (n := 100000) x0 i) j)
    (i : Fin 100000) (j : Fin 256) :
    val_main_v195 (F := Ideal) x0 x1 x5 x6 x7 x8 x9 (ix2 i j) = c2 (params x5 x6 x7 x8 x9 x10 x11 x12 (2 : Fin 4)) (row (n := 100000) x0 i) (val_main_v189_0 (F := Ideal) x1 (ix2 i (0 : Fin 1))) j := by
  rw [val_main_v195_apply, val_main_v194_apply, val_main_v193_apply, val_main_v108_apply,
    a2_2 x1 x5 x6 x7 x8 x9 x10 x11 x12, one2_2, hh2]
  rfl

theorem a1_2
    (hh2 : ∀ (i : Fin 100000) (j : Fin 256),
      val_main_v106 (F := Ideal) x0 x5 x6 x7 x8 (ix2 i j) = h2 (params x5 x6 x7 x8 x9 x10 x11 x12 (2 : Fin 4)) (row (n := 100000) x0 i) j)
    (i : Fin 100000) (k : Fin 256) :
    val_main_v196 (F := Ideal) x0 x1 x5 x6 x7 x8 x9 (ix2 i k) = a1 (params x5 x6 x7 x8 x9 x10 x11 x12 (2 : Fin 4)) (row (n := 100000) x0 i) (val_main_v189_0 (F := Ideal) x1 (ix2 i (0 : Fin 1))) k := by
  rw [val_main_v196_apply]
  unfold a1
  refine Finset.sum_congr rfl fun j _ => ?_
  have el : lidx_main_v196 (ix2 i k) j = ix2 i j :=
    funext fun a => Fin.ext (by match a with | ⟨0, _⟩ => rfl | ⟨1, _⟩ => rfl)
  have er : ridx_main_v196 (ix2 i k) j = ix2 k j :=
    funext fun a => Fin.ext (by match a with | ⟨0, _⟩ => rfl | ⟨1, _⟩ => rfl)
  rw [el, er, c2_2 x0 x1 x5 x6 x7 x8 x9 x10 x11 x12 hh2, w2_2]
  rfl

theorem c1_2
    (hh1 : ∀ (i : Fin 100000) (k : Fin 256),
      val_main_v95 (F := Ideal) x0 x5 x6 (ix2 i k) = h1 (params x5 x6 x7 x8 x9 x10 x11 x12 (2 : Fin 4)) (row (n := 100000) x0 i) k)
    (hh2 : ∀ (i : Fin 100000) (j : Fin 256),
      val_main_v106 (F := Ideal) x0 x5 x6 x7 x8 (ix2 i j) = h2 (params x5 x6 x7 x8 x9 x10 x11 x12 (2 : Fin 4)) (row (n := 100000) x0 i) j)
    (i : Fin 100000) (k : Fin 256) :
    val_main_v199 (F := Ideal) x0 x1 x5 x6 x7 x8 x9 (ix2 i k) = c1 (params x5 x6 x7 x8 x9 x10 x11 x12 (2 : Fin 4)) (row (n := 100000) x0 i) (val_main_v189_0 (F := Ideal) x1 (ix2 i (0 : Fin 1))) k := by
  rw [val_main_v199_apply, val_main_v198_apply, val_main_v197_apply, val_main_v97_apply,
    a1_2 x0 x1 x5 x6 x7 x8 x9 x10 x11 x12 hh2, one1_2, hh1]
  rfl

theorem mainT_2
    (hh1 : ∀ (i : Fin 100000) (k : Fin 256),
      val_main_v95 (F := Ideal) x0 x5 x6 (ix2 i k) = h1 (params x5 x6 x7 x8 x9 x10 x11 x12 (2 : Fin 4)) (row (n := 100000) x0 i) k)
    (hh2 : ∀ (i : Fin 100000) (j : Fin 256),
      val_main_v106 (F := Ideal) x0 x5 x6 x7 x8 (ix2 i j) = h2 (params x5 x6 x7 x8 x9 x10 x11 x12 (2 : Fin 4)) (row (n := 100000) x0 i) j)
    (i : Fin 100000) (f : Fin 256) :
    val_main_v200 (F := Ideal) x0 x1 x5 x6 x7 x8 x9 (ix2 i f) = mainT (params x5 x6 x7 x8 x9 x10 x11 x12 (2 : Fin 4)) (row (n := 100000) x0 i) (val_main_v189_0 (F := Ideal) x1 (ix2 i (0 : Fin 1))) f := by
  rw [val_main_v200_apply]
  unfold mainT
  refine Finset.sum_congr rfl fun k _ => ?_
  have el : lidx_main_v200 (ix2 i f) k = ix2 i k :=
    funext fun a => Fin.ext (by match a with | ⟨0, _⟩ => rfl | ⟨1, _⟩ => rfl)
  have er : ridx_main_v200 (ix2 i f) k = ix2 f k :=
    funext fun a => Fin.ext (by match a with | ⟨0, _⟩ => rfl | ⟨1, _⟩ => rfl)
  rw [el, er, c1_2 x0 x1 x5 x6 x7 x8 x9 x10 x11 x12 hh1 hh2, w1_2]
  rfl

end Cert.RefRead

end
-- ==== Proof.RefBwd3.lean ====
import proofs.«428180_j4174708212170_2_alg».proof.Proof.RefRead
import proofs.«428180_j4174708212170_2_alg».proof.Proof.SpecRef
import Idealize.ShloMosaic.Lib.IdealHost

noncomputable section

namespace Cert.RefRead

open Cert.ReferenceIdeal Cert.ReferenceIdeal.Read Idealize.ShloMosaic Idealize.ShloMosaic.ValueIdx Cert.Spec Cert.SpecRef

variable (x0 : (⟨S100000x256, .f32⟩ : BufTy).Contents (Elt Ideal)) (x1 : (⟨S100000, .i32⟩ : BufTy).Contents (Elt Ideal))
  (x5 : (⟨S4x256x256, .f32⟩ : BufTy).Contents (Elt Ideal)) (x6 : (⟨S4x256, .f32⟩ : BufTy).Contents (Elt Ideal))
  (x7 : (⟨S4x256x256, .f32⟩ : BufTy).Contents (Elt Ideal)) (x8 : (⟨S4x256, .f32⟩ : BufTy).Contents (Elt Ideal))
  (x9 : (⟨S4x256x1, .f32⟩ : BufTy).Contents (Elt Ideal)) (x10 : (⟨S4x1, .f32⟩ : BufTy).Contents (Elt Ideal))
  (x11 : (⟨S4x256x1, .f32⟩ : BufTy).Contents (Elt Ideal)) (x12 : (⟨S4x1, .f32⟩ : BufTy).Contents (Elt Ideal))

theorem w1_3 (f k : Fin 256) : val_main_v131 (F := Ideal) x5 (ix2 f k) = x5 (ix3 (3 : Fin 4) f k) := by
  rw [val_main_v131_apply, val_main_v130_apply]
  congr 1
  funext a; apply Fin.ext
  match a with
  | ⟨0, _⟩ => rfl
  | ⟨1, _⟩ => have := f.isLt; have := k.isLt; show (f.val * 256 + k.val) / 256 % 256 = f.val; omega
  | ⟨2, _⟩ => have := f.isLt; have := k.isLt; show (f.val * 256 + k.val) % 256 = k.val; omega

theorem w2_3 (k j : Fin 256) : val_main_v142 (F := Ideal) x7 (ix2 k j) = x7 (ix3 (3 : Fin 4) k j) := by
  rw [val_main_v142_apply, val_main_v141_apply]
  congr 1
  funext a; apply Fin.ext
  match a with
  | ⟨0, _⟩ => rfl
  | ⟨1, _⟩ => have := k.isLt; have := j.isLt; show (k.val * 256 + j.val) / 256 % 256 = k.val; omega
  | ⟨2, _⟩ => have := k.isLt; have := j.isLt; show (k.val * 256 + j.val) % 256 = j.val; omega

theorem w3_3 (j : Fin 256) (c : Fin 1) :
    val_main_v153 (F := Ideal) x9 (ix2 j c) = x9 (ix3 (3 : Fin 4) j (0 : Fin 1)) := by
  rw [val_main_v153_apply, val_main_v152_apply]
  congr 1
  funext a; apply Fin.ext
  match a with
  | ⟨0, _⟩ => rfl
  | ⟨1, _⟩ => have := j.isLt; have := c.isLt; show (j.val * 1 + c.val) / 1 % 256 = j.val; omega
  | ⟨2, _⟩ => rfl

theorem ws_3 (j : Fin 256) (c : Fin 1) :
    val_main_v161 (F := Ideal) x11 (ix2 j c) = x11 (ix3 (3 : Fin 4) j (0 : Fin 1)) := by
  rw [val_main_v161_apply, val_main_v160_apply]
  congr 1
  funext a; apply Fin.ext
  match a with
  | ⟨0, _⟩ => rfl
  | ⟨1, _⟩ => have := j.isLt; have := c.isLt; show (j.val * 1 + c.val) / 1 % 256 = j.val; omega
  | ⟨2, _⟩ => rfl

theorem one1_3 (p : S100000x256.Idx) : val_main_v139 (F := Ideal) p = 1 := by
  rw [val_main_v139_apply, val_main_cst_8_apply, Ideal.ofBits_def, Ideal.ofBits_one_f32]

theorem one2_3 (p : S100000x256.Idx) : val_main_v150 (F := Ideal) p = 1 := by
  rw [val_main_v150_apply, val_main_cst_9_apply, Ideal.ofBits_def, Ideal.ofBits_one_f32]

theorem skipT_3 (i : Fin 100000) (f : Fin 256) :
    val_main_v178 (F := Ideal) x1 x11 (ix2 i f) = skipT (params x5 x6 x7 x8 x9 x10 x11 x12 (3 : Fin 4)) (val_main_v177_0 (F := Ideal) x1 (ix2 i (0 : Fin 1))) f := by
  rw [val_main_v178_apply, Fin.sum_univ_one]
  have el : lidx_main_v178 (ix2 i f) (0 : Fin 1) = ix2 i (0 : Fin 1) :=
    funext fun a => Fin.ext (by match a with | ⟨0, _⟩ => rfl | ⟨1, _⟩ => rfl)
  have er : ridx_main_v178 (ix2 i f) (0 : Fin 1) = ix2 f (0 : Fin 1) :=
    funext fun a => Fin.ext (by match a with | ⟨0, _⟩ => rfl | ⟨1, _⟩ => rfl)
  rw [el, er, ws_3]
  rfl

theorem a2_3 (i : Fin 100000) (j : Fin 256) :
    val_main_v179 (F := Ideal) x1 x9 (ix2 i j) = a2 (params x5 x6 x7 x8 x9 x10 x11 x12 (3 : Fin 4)) (val_main_v177_0 (F := Ideal) x1 (ix2 i (0 : Fin 1))) j := by
  rw [val_main_v179_apply, Fin.sum_univ_one]
  have el : lidx_main_v179 (ix2 i j) (0 : Fin 1) = ix2 i (0 : Fin 1) :=
    funext fun a => Fin.ext (by match a with | ⟨0, _⟩ => rfl | ⟨1, _⟩ => rfl)
  have er : ridx_main_v179 (ix2 i j) (0 : Fin 1) = ix2 j (0 : Fin 1) :=
    funext fun a => Fin.ext (by match a with | ⟨0, _⟩ => rfl | ⟨1, _⟩ => rfl)
  rw [el, er, w3_3]
  rfl

theorem c2_3
    (hh2 : ∀ (i : Fin 100000) (j : Fin 256),
      val_main_v149 (F := Ideal) x0 x5 x6 x7 x8 (ix2 i j) = h2 (params x5 x6 x7 x8 x9 x10 x11 x12 (3 : Fin 4)) (row (n := 100000) x0 i) j)
    (i : Fin 100000) (j : Fin 256) :
    val_main_v182 (F := Ideal) x0 x1 x5 x6 x7 x8 x9 (ix2 i j) = c2 (params x5 x6 x7 x8 x9 x10 x11 x12 (3 : Fin 4)) (row (n := 100000) x0 i) (val_main_v177_0 (F := Ideal) x1 (ix2 i (0 : Fin 1))) j := by
  rw [val_main_v182_apply, val_main_v181_apply, val_main_v180_apply, val_main_v151_apply,
    a2_3 x1 x5 x6 x7 x8 x9 x10 x11 x12, one2_3, hh2]
  rfl

theorem a1_3
    (hh2 : ∀ (i : Fin 100000) (j : Fin 256),
      val_main_v149 (F := Ideal) x0 x5 x6 x7 x8 (ix2 i j) = h2 (params x5 x6 x7 x8 x9 x10 x11 x12 (3 : Fin 4)) (row (n := 100000) x0 i) j)
    (i : Fin 100000) (k : Fin 256) :
    val_main_v183 (F := Ideal) x0 x1 x5 x6 x7 x8 x9 (ix2 i k) = a1 (params x5 x6 x7 x8 x9 x10 x11 x12 (3 : Fin 4)) (row (n := 100000) x0 i) (val_main_v177_0 (F := Ideal) x1 (ix2 i (0 : Fin 1))) k := by
  rw [val_main_v183_apply]
  unfold a1
  refine Finset.sum_congr rfl fun j _ => ?_
  have el : lidx_main_v183 (ix2 i k) j = ix2 i j :=
    funext fun a => Fin.ext (by match a with | ⟨0, _⟩ => rfl | ⟨1, _⟩ => rfl)
  have er : ridx_main_v183 (ix2 i k) j = ix2 k j :=
    funext fun a => Fin.ext (by match a with | ⟨0, _⟩ => rfl | ⟨1, _⟩ => rfl)
  rw [el, er, c2_3 x0 x1 x5 x6 x7 x8 x9 x10 x11 x12 hh2, w2_3]
  rfl

theorem c1_3
    (hh1 : ∀ (i : Fin 100000) (k : Fin 256),
      val_main_v138 (F := Ideal) x0 x5 x6 (ix2 i k) = h1 (params x5 x6 x7 x8 x9 x10 x11 x12 (3 : Fin 4)) (row (n := 100000) x0 i) k)
    (hh2 : ∀ (i : Fin 100000) (j : Fin 256),
      val_main_v149 (F := Ideal) x0 x5 x6 x7 x8 (ix2 i j) = h2 (params x5 x6 x7 x8 x9 x10 x11 x12 (3 : Fin 4)) (row (n := 100000) x0 i) j)
    (i : Fin 100000) (k : Fin 256) :
    val_main_v186 (F := Ideal) x0 x1 x5 x6 x7 x8 x9 (ix2 i k) = c1 (params x5 x6 x7 x8 x9 x10 x11 x12 (3 : Fin 4)) (row (n := 100000) x0 i) (val_main_v177_0 (F := Ideal) x1 (ix2 i (0 : Fin 1))) k := by
  rw [val_main_v186_apply, val_main_v185_apply, val_main_v184_apply, val_main_v140_apply,
    a1_3 x0 x1 x5 x6 x7 x8 x9 x10 x11 x12 hh2, one1_3, hh1]
  rfl

theorem mainT_3
    (hh1 : ∀ (i : Fin 100000) (k : Fin 256),
      val_main_v138 (F := Ideal) x0 x5 x6 (ix2 i k) = h1 (params x5 x6 x7 x8 x9 x10 x11 x12 (3 : Fin 4)) (row (n := 100000) x0 i) k)
    (hh2 : ∀ (i : Fin 100000) (j : Fin 256),
      val_main_v149 (F := Ideal) x0 x5 x6 x7 x8 (ix2 i j) = h2 (params x5 x6 x7 x8 x9 x10 x11 x12 (3 : Fin 4)) (row (n := 100000) x0 i) j)
    (i : Fin 100000) (f : Fin 256) :
    val_main_v187 (F := Ideal) x0 x1 x5 x6 x7 x8 x9 (ix2 i f) = mainT (params x5 x6 x7 x8 x9 x10 x11 x12 (3 : Fin 4)) (row (n := 100000) x0 i) (val_main_v177_0 (F := Ideal) x1 (ix2 i (0 : Fin 1))) f := by
  rw [val_main_v187_apply]
  unfold mainT
  refine Finset.sum_congr rfl fun k _ => ?_
  have el : lidx_main_v187 (ix2 i f) k = ix2 i k :=
    funext fun a => Fin.ext (by match a with | ⟨0, _⟩ => rfl | ⟨1, _⟩ => rfl)
  have er : ridx_main_v187 (ix2 i f) k = ix2 f k :=
    funext fun a => Fin.ext (by match a with | ⟨0, _⟩ => rfl | ⟨1, _⟩ => rfl)
  rw [el, er, c1_3 x0 x1 x5 x6 x7 x8 x9 x10 x11 x12 hh1 hh2, w1_3]
  rfl

end Cert.RefRead

end
-- ==== Proof.RefBwdCt.lean ====
import Idealize.ShloMosaic.PureOps.Ideal
import Idealize.ShloMosaic.Lib.ValueIdx

namespace Cert.RefRead.Ct

open Idealize.ShloMosaic

theorem select_cmpi_eq {α : Type} (z c : BitVec 32) (a b : α) :
    Scalar.select (IntOp.cmpi .eq z c) a b = if z = c then a else b := by
  unfold Scalar.select IntOp.cmpi
  by_cases h : z = c
  · subst h; simp
  · have hb : (z == c) = false := by simpa using h
    rw [if_neg h, hb]; rfl

theorem word_cases (z : BitVec 32) (hz : z.toNat < 4) : z = 0#32 ∨ z = 1#32 ∨ z = 2#32 ∨ z = 3#32 := by
  have h : z.toNat = 0 ∨ z.toNat = 1 ∨ z.toNat = 2 ∨ z.toNat = 3 := by omega
  rcases h with h | h | h | h
  · exact Or.inl (BitVec.eq_of_toNat_eq h)
  · exact Or.inr (Or.inl (BitVec.eq_of_toNat_eq h))
  · exact Or.inr (Or.inr (Or.inl (BitVec.eq_of_toNat_eq h)))
  · exact Or.inr (Or.inr (Or.inr (BitVec.eq_of_toNat_eq h)))

section
variable {α : Type} (one zero : α) (z : BitVec 32)

def ct3 : α := Scalar.select (IntOp.cmpi .eq z 3#32) one zero

def rest3 : α := Scalar.select (IntOp.cmpi .eq z 3#32) zero one

def ct2 : α := Scalar.select (IntOp.cmpi .eq z 2#32) (rest3 one zero z) zero

def rest2 : α := Scalar.select (IntOp.cmpi .eq z 2#32) zero (rest3 one zero z)

def ct1 : α := Scalar.select (IntOp.cmpi .eq z 1#32) (rest2 one zero z) zero

def rest1 : α := Scalar.select (IntOp.cmpi .eq z 1#32) zero (rest2 one zero z)

def ct0 : α := Scalar.select (IntOp.cmpi .eq z 0#32) (rest1 one zero z) zero

theorem ct3_eq : ct3 one zero z = if z = 3#32 then one else zero := select_cmpi_eq _ _ _ _
theorem ct2_eq : ct2 one zero z = if z = 2#32 then (if z = 3#32 then zero else one) else zero := by
  unfold ct2 rest3; rw [select_cmpi_eq, select_cmpi_eq]
theorem ct1_eq : ct1 one zero z
    = if z = 1#32 then (if z = 2#32 then zero else (if z = 3#32 then zero else one)) else zero := by
  unfold ct1 rest2 rest3; rw [select_cmpi_eq, select_cmpi_eq, select_cmpi_eq]
theorem ct0_eq : ct0 one zero z
    = if z = 0#32 then (if z = 1#32 then zero else (if z = 2#32 then zero else (if z = 3#32 then zero else one)))
      else zero := by
  unfold ct0 rest1 rest2 rest3; rw [select_cmpi_eq, select_cmpi_eq, select_cmpi_eq, select_cmpi_eq]

theorem cts_at3 : ct3 one zero 3#32 = one ∧ ct2 one zero 3#32 = zero ∧ ct1 one zero 3#32 = zero
    ∧ ct0 one zero 3#32 = zero := by
  rw [ct3_eq, ct2_eq, ct1_eq, ct0_eq]; refine ⟨by simp, by simp, by simp, by simp⟩

theorem cts_at2 : ct3 one zero 2#32 = zero ∧ ct2 one zero 2#32 = one ∧ ct1 one zero 2#32 = zero
    ∧ ct0 one zero 2#32 = zero := by
  rw [ct3_eq, ct2_eq, ct1_eq, ct0_eq]; refine ⟨by simp, by simp, by simp, by simp⟩

theorem cts_at1 : ct3 one zero 1#32 = zero ∧ ct2 one zero 1#32 = zero ∧ ct1 one zero 1#32 = one
    ∧ ct0 one zero 1#32 = zero := by
  rw [ct3_eq, ct2_eq, ct1_eq, ct0_eq]; refine ⟨by simp, by simp, by simp, by simp⟩

theorem cts_at0 : ct3 one zero 0#32 = zero ∧ ct2 one zero 0#32 = zero ∧ ct1 one zero 0#32 = zero
    ∧ ct0 one zero 0#32 = one := by
  rw [ct3_eq, ct2_eq, ct1_eq, ct0_eq]; refine ⟨by simp, by simp, by simp, by simp⟩

theorem cts_pick (hz : z.toNat < 4) (s : Fin 4) :
    (match s with
      | ⟨0, _⟩ => ct0 one zero z | ⟨1, _⟩ => ct1 one zero z | ⟨2, _⟩ => ct2 one zero z | ⟨3, _⟩ => ct3 one zero z)
      = if s = ⟨z.toNat, hz⟩ then one else zero := by
  rcases word_cases z hz with rfl | rfl | rfl | rfl
  · obtain ⟨h3, h2, h1, h0⟩ := cts_at0 one zero
    match s with
    | ⟨0, _⟩ => exact h0.trans (if_pos rfl).symm
    | ⟨1, _⟩ => exact h1.trans (if_neg fun h => absurd (congrArg Fin.val h) (by decide : ¬ (1 : Nat) = (0#32).toNat)).symm
    | ⟨2, _⟩ => exact h2.trans (if_neg fun h => absurd (congrArg Fin.val h) (by decide : ¬ (2 : Nat) = (0#32).toNat)).symm
    | ⟨3, _⟩ => exact h3.trans (if_neg fun h => absurd (congrArg Fin.val h) (by decide : ¬ (3 : Nat) = (0#32).toNat)).symm
  · obtain ⟨h3, h2, h1, h0⟩ := cts_at1 one zero
    match s with
    | ⟨0, _⟩ => exact h0.trans (if_neg fun h => absurd (congrArg Fin.val h) (by decide : ¬ (0 : Nat) = (1#32).toNat)).symm
    | ⟨1, _⟩ => exact h1.trans (if_pos rfl).symm
    | ⟨2, _⟩ => exact h2.trans (if_neg fun h => absurd (congrArg Fin.val h) (by decide : ¬ (2 : Nat) = (1#32).toNat)).symm
    | ⟨3, _⟩ => exact h3.trans (if_neg fun h => absurd (congrArg Fin.val h) (by decide : ¬ (3 : Nat) = (1#32).toNat)).symm
  · obtain ⟨h3, h2, h1, h0⟩ := cts_at2 one zero
    match s with
    | ⟨0, _⟩ => exact h0.trans (if_neg fun h => absurd (congrArg Fin.val h) (by decide : ¬ (0 : Nat) = (2#32).toNat)).symm
    | ⟨1, _⟩ => exact h1.trans (if_neg fun h => absurd (congrArg Fin.val h) (by decide : ¬ (1 : Nat) = (2#32).toNat)).symm
    | ⟨2, _⟩ => exact h2.trans (if_pos rfl).symm
    | ⟨3, _⟩ => exact h3.trans (if_neg fun h => absurd (congrArg Fin.val h) (by decide : ¬ (3 : Nat) = (2#32).toNat)).symm
  · obtain ⟨h3, h2, h1, h0⟩ := cts_at3 one zero
    match s with
    | ⟨0, _⟩ => exact h0.trans (if_neg fun h => absurd (congrArg Fin.val h) (by decide : ¬ (0 : Nat) = (3#32).toNat)).symm
    | ⟨1, _⟩ => exact h1.trans (if_neg fun h => absurd (congrArg Fin.val h) (by decide : ¬ (1 : Nat) = (3#32).toNat)).symm
    | ⟨2, _⟩ => exact h2.trans (if_neg fun h => absurd (congrArg Fin.val h) (by decide : ¬ (2 : Nat) = (3#32).toNat)).symm
    | ⟨3, _⟩ => exact h3.trans (if_pos rfl).symm

end

end Cert.RefRead.Ct
-- ==== Proof.Algebra.lean ====
import proofs.«428180_j4174708212170_2_alg».proof.Proof.SpecRef
import Mathlib.Data.EReal.Operations

noncomputable section

namespace Cert.SpecRef

open Cert.Spec Idealize.ShloMosaic

theorem coe_sum {ι : Type} (s : Finset ι) (g : ι → ℝ) :
    (∑ i ∈ s, (g i : EReal)) = ((∑ i ∈ s, g i : ℝ) : EReal) := by
  classical
  refine Finset.induction_on s ?_ ?_
  · simp
  · intro a s ha ih
    rw [Finset.sum_insert ha, Finset.sum_insert ha, ih, EReal.coe_add]

section zero
variable (P : Params) (x : Fin 256 → EReal)

theorem skipT_zero (f : Fin 256) : skipT P 0 f = 0 := zero_mul _

theorem a2_zero (j : Fin 256) : a2 P 0 j = 0 := zero_mul _

theorem c2_zero (j : Fin 256) : c2 P x 0 j = 0 := by
  unfold c2 b2
  rw [a2_zero, zero_mul, zero_mul, add_zero]

theorem a1_zero (k : Fin 256) : a1 P x 0 k = 0 := by
  unfold a1
  simp only [c2_zero, zero_mul]
  exact Finset.sum_const_zero

theorem c1_zero (k : Fin 256) : c1 P x 0 k = 0 := by
  unfold c1 b1
  rw [a1_zero, zero_mul, zero_mul, add_zero]

theorem mainT_zero (f : Fin 256) : mainT P x 0 f = 0 := by
  unfold mainT
  simp only [c1_zero, zero_mul]
  exact Finset.sum_const_zero

end zero

theorem tanh_real (z : EReal) : ∃ r : ℝ, Ideal.tanh z = (r : EReal) := by
  induction z using EReal.rec with
  | bot => exact ⟨-1, by rw [Ideal.tanh_bot, EReal.coe_neg, EReal.coe_one]⟩
  | coe r => exact ⟨Real.tanh r, rfl⟩
  | top => exact ⟨1, by rw [Ideal.tanh_top, EReal.coe_one]⟩

theorem h1_real (P : Params) (x : Fin 256 → EReal) (j : Fin 256) : ∃ r : ℝ, Cert.Spec.h1 P x j = (r : EReal) :=
  tanh_real _

theorem h2_real (P : Params) (x : Fin 256 → EReal) (j : Fin 256) : ∃ r : ℝ, Cert.Spec.h2 P x j = (r : EReal) :=
  tanh_real _

theorem tanh_form (g h : ℝ) :
    (g : EReal) * (1 - (h : EReal)) + (g : EReal) * (1 - (h : EReal)) * (h : EReal)
      = (1 - (h : EReal) * (h : EReal)) * (g : EReal) := by
  rw [← EReal.coe_one, ← EReal.coe_sub, ← EReal.coe_mul, ← EReal.coe_mul, ← EReal.coe_add, ← EReal.coe_mul,
    ← EReal.coe_sub, ← EReal.coe_mul]
  congr 1
  ring

section one
variable (P : Params) (x : Fin 256 → EReal)
  (hW3 : ∀ j, ∃ r : ℝ, P.W3 j = (r : EReal)) (hW2 : ∀ k j, ∃ r : ℝ, P.W2 k j = (r : EReal))

include hW3 in
theorem c2_one (j : Fin 256) : c2 P x 1 j = d2 P x j := by
  obtain ⟨w, hw⟩ := hW3 j
  obtain ⟨r, hr⟩ := h2_real P x j
  unfold c2 b2 a2 d2
  rw [one_mul, hw, hr]
  exact tanh_form w r

include hW3 in
theorem a1_one (k : Fin 256) : a1 P x 1 k = dh1 P x k := by
  unfold a1 dh1
  exact Finset.sum_congr rfl fun j _ => by rw [c2_one P x hW3 j]

include hW3 in
theorem d2_real (j : Fin 256) : ∃ r : ℝ, d2 P x j = (r : EReal) := by
  obtain ⟨w, hw⟩ := hW3 j
  obtain ⟨r, hr⟩ := h2_real P x j
  refine ⟨(1 - r * r) * w, ?_⟩
  unfold d2
  rw [hw, hr, EReal.coe_mul, EReal.coe_sub, EReal.coe_mul, EReal.coe_one]

include hW3 hW2 in
theorem dh1_real (k : Fin 256) : ∃ r : ℝ, dh1 P x k = (r : EReal) := by
  choose w hw using d2_real P x hW3
  choose v hv using hW2 k
  refine ⟨∑ j, w j * v j, ?_⟩
  unfold dh1
  rw [← coe_sum]
  exact Finset.sum_congr rfl fun j _ => by rw [hw, hv, EReal.coe_mul]

include hW3 hW2 in
theorem c1_one (k : Fin 256) : c1 P x 1 k = d1 P x k := by
  obtain ⟨g, hg⟩ := dh1_real P x hW3 hW2 k
  obtain ⟨r, hr⟩ := h1_real P x k
  unfold c1 b1 d1
  rw [a1_one P x hW3, hg, hr]
  exact tanh_form g r

include hW3 hW2 in
theorem mainT_one (f : Fin 256) : mainT P x 1 f = ∑ k, d1 P x k * P.W1 f k := by
  unfold mainT
  exact Finset.sum_congr rfl fun k _ => by rw [c1_one P x hW3 hW2 k]

theorem skipT_one (f : Fin 256) : skipT P 1 f = P.Ws f := one_mul _

end one

theorem grad_one (P : Params) (x : Fin 256 → EReal) (hW3 : ∀ j, ∃ r : ℝ, P.W3 j = (r : EReal))
    (hW2 : ∀ k j, ∃ r : ℝ, P.W2 k j = (r : EReal)) (f : Fin 256) :
    skipT P 1 f + mainT P x 1 f = Cert.Spec.grad P x f := by
  rw [skipT_one, mainT_one P x hW3 hW2, add_comm]
  rfl

theorem sum_pick (s₀ : Fin 4) (P : Fin 4 → Params) (x : Fin 256 → EReal) (ct : Fin 4 → EReal)
    (hct : ∀ s, ct s = if s = s₀ then 1 else 0)
    (hW3 : ∀ j, ∃ r : ℝ, (P s₀).W3 j = (r : EReal)) (hW2 : ∀ k j, ∃ r : ℝ, (P s₀).W2 k j = (r : EReal))
    (f : Fin 256) :
    ((((((skipT (P 3) (ct 3) f + mainT (P 3) x (ct 3) f) + skipT (P 2) (ct 2) f) + mainT (P 2) x (ct 2) f)
      + skipT (P 1) (ct 1) f) + mainT (P 1) x (ct 1) f) + skipT (P 0) (ct 0) f) + mainT (P 0) x (ct 0) f
      = Cert.Spec.grad (P s₀) x f := by
  have hone : ct s₀ = 1 := by rw [hct, if_pos rfl]
  have hzero : ∀ s, s ≠ s₀ → ct s = 0 := fun s hs => by rw [hct, if_neg hs]
  have hg := grad_one (P s₀) x hW3 hW2 f
  have hs : ∀ s : Fin 4, s = 0 ∨ s = 1 ∨ s = 2 ∨ s = 3 := by decide
  obtain rfl | rfl | rfl | rfl := hs s₀
  · simp only [hzero 3 (by decide), hzero 2 (by decide), hzero 1 (by decide), hone, skipT_zero, mainT_zero,
      add_zero, zero_add]
    exact hg
  · simp only [hzero 3 (by decide), hzero 2 (by decide), hzero 0 (by decide), hone, skipT_zero, mainT_zero,
      add_zero, zero_add]
    exact hg
  · simp only [hzero 3 (by decide), hzero 1 (by decide), hzero 0 (by decide), hone, skipT_zero, mainT_zero,
      add_zero, zero_add]
    exact hg
  · simp only [hzero 2 (by decide), hzero 1 (by decide), hzero 0 (by decide), hone, skipT_zero, mainT_zero,
      add_zero, zero_add]
    exact hg

end Cert.SpecRef

end
-- ==== Proof.RefBwd.lean ====
import proofs.«428180_j4174708212170_2_alg».proof.Proof.RefBwd0
import proofs.«428180_j4174708212170_2_alg».proof.Proof.RefBwd1
import proofs.«428180_j4174708212170_2_alg».proof.Proof.RefBwd2
import proofs.«428180_j4174708212170_2_alg».proof.Proof.RefBwd3
import proofs.«428180_j4174708212170_2_alg».proof.Proof.RefBwdCt
import proofs.«428180_j4174708212170_2_alg».proof.Proof.RefFwdH
import proofs.«428180_j4174708212170_2_alg».proof.Proof.Algebra

noncomputable section

namespace Cert.RefRead

open Cert.ReferenceIdeal Cert.ReferenceIdeal.Read Idealize.ShloMosaic Idealize.ShloMosaic.ValueIdx Cert.Spec Cert.SpecRef
open Cert.RefRead.Ct

variable (x0 : (⟨S100000x256, .f32⟩ : BufTy).Contents (Elt Ideal)) (x1 : (⟨S100000, .i32⟩ : BufTy).Contents (Elt Ideal))
  (x5 : (⟨S4x256x256, .f32⟩ : BufTy).Contents (Elt Ideal)) (x6 : (⟨S4x256, .f32⟩ : BufTy).Contents (Elt Ideal))
  (x7 : (⟨S4x256x256, .f32⟩ : BufTy).Contents (Elt Ideal)) (x8 : (⟨S4x256, .f32⟩ : BufTy).Contents (Elt Ideal))
  (x9 : (⟨S4x256x1, .f32⟩ : BufTy).Contents (Elt Ideal)) (x10 : (⟨S4x1, .f32⟩ : BufTy).Contents (Elt Ideal))
  (x11 : (⟨S4x256x1, .f32⟩ : BufTy).Contents (Elt Ideal)) (x12 : (⟨S4x1, .f32⟩ : BufTy).Contents (Elt Ideal))

theorem mask3 (i : Fin 100000) (c : Fin 1) :
    val_main_v171 (F := Ideal) x1 (ix2 i c) = IntOp.cmpi .eq (x1 (ix1 i)) 3#32 := by
  rw [val_main_v171_apply, val_main_v170_apply, val_main_v169_apply, val_main_c_10_apply]
  have e : idx_main_v171 (ix2 i c) = ix1 i := funext fun a => Fin.ext (by match a with | ⟨0, _⟩ => rfl)
  rw [e]

theorem mask2 (i : Fin 100000) (c : Fin 1) :
    val_main_v128 (F := Ideal) x1 (ix2 i c) = IntOp.cmpi .eq (x1 (ix1 i)) 2#32 := by
  rw [val_main_v128_apply, val_main_v127_apply, val_main_v126_apply, val_main_c_7_apply]
  have e : idx_main_v128 (ix2 i c) = ix1 i := funext fun a => Fin.ext (by match a with | ⟨0, _⟩ => rfl)
  rw [e]

theorem mask1 (i : Fin 100000) (c : Fin 1) :
    val_main_v85 (F := Ideal) x1 (ix2 i c) = IntOp.cmpi .eq (x1 (ix1 i)) 1#32 := by
  rw [val_main_v85_apply, val_main_v84_apply, val_main_v83_apply, val_main_c_4_apply]
  have e : idx_main_v85 (ix2 i c) = ix1 i := funext fun a => Fin.ext (by match a with | ⟨0, _⟩ => rfl)
  rw [e]

theorem mask0 (i : Fin 100000) (c : Fin 1) :
    val_main_v42 (F := Ideal) x1 (ix2 i c) = IntOp.cmpi .eq (x1 (ix1 i)) 0#32 := by
  rw [val_main_v42_apply, val_main_v41_apply, val_main_v40_apply, val_main_c_apply]
  have e : idx_main_v42 (ix2 i c) = ix1 i := funext fun a => Fin.ext (by match a with | ⟨0, _⟩ => rfl)
  rw [e]

theorem seed_one (p : S100000x1.Idx) : val_main_v176 (F := Ideal) p = 1 := by
  rw [val_main_v176_apply, val_main_cst_12_apply, Ideal.ofBits_def, Ideal.ofBits_one_f32]

theorem zero4 (p : S100000x1.Idx) : val_main_call4_v0 (F := Ideal) p = 0 := by
  rw [val_main_call4_v0_apply, val_main_call4_cst_apply, Ideal.ofBits_def, Ideal.ofBits_zero_f32]

theorem zero5 (p : S100000x1.Idx) : val_main_call5_v0 (F := Ideal) p = 0 := by
  rw [val_main_call5_v0_apply, val_main_call5_cst_apply, Ideal.ofBits_def, Ideal.ofBits_zero_f32]

theorem zero6 (p : S100000x1.Idx) : val_main_call6_v0 (F := Ideal) p = 0 := by
  rw [val_main_call6_v0_apply, val_main_call6_cst_apply, Ideal.ofBits_def, Ideal.ofBits_zero_f32]

theorem zero7 (p : S100000x1.Idx) : val_main_call7_v0 (F := Ideal) p = 0 := by
  rw [val_main_call7_v0_apply, val_main_call7_cst_apply, Ideal.ofBits_def, Ideal.ofBits_zero_f32]

theorem ct3_read (i : Fin 100000) :
    val_main_v177_0 (F := Ideal) x1 (ix2 i (0 : Fin 1)) = ct3 (1 : EReal) 0 (x1 (ix1 i)) := by
  rw [val_main_v177_0_apply, mask3, seed_one, zero4]; rfl

theorem rest3_read (i : Fin 100000) :
    val_main_v177_1 (F := Ideal) x1 (ix2 i (0 : Fin 1)) = rest3 (1 : EReal) 0 (x1 (ix1 i)) := by
  rw [val_main_v177_1_apply, mask3, seed_one, zero4]; rfl

theorem ct2_read (i : Fin 100000) :
    val_main_v189_0 (F := Ideal) x1 (ix2 i (0 : Fin 1)) = ct2 (1 : EReal) 0 (x1 (ix1 i)) := by
  rw [val_main_v189_0_apply, mask2, rest3_read, zero5]; rfl

theorem rest2_read (i : Fin 100000) :
    val_main_v189_1 (F := Ideal) x1 (ix2 i (0 : Fin 1)) = rest2 (1 : EReal) 0 (x1 (ix1 i)) := by
  rw [val_main_v189_1_apply, mask2, rest3_read, zero5]; rfl

theorem ct1_read (i : Fin 100000) :
    val_main_v202_0 (F := Ideal) x1 (ix2 i (0 : Fin 1)) = ct1 (1 : EReal) 0 (x1 (ix1 i)) := by
  rw [val_main_v202_0_apply, mask1, rest2_read, zero6]; rfl

theorem rest1_read (i : Fin 100000) :
    val_main_v202_1 (F := Ideal) x1 (ix2 i (0 : Fin 1)) = rest1 (1 : EReal) 0 (x1 (ix1 i)) := by
  rw [val_main_v202_1_apply, mask1, rest2_read, zero6]; rfl

theorem ct0_read (i : Fin 100000) :
    val_main_v215 (F := Ideal) x1 (ix2 i (0 : Fin 1)) = ct0 (1 : EReal) 0 (x1 (ix1 i)) := by
  rw [val_main_v215_apply, mask0, rest1_read, zero7]; rfl

theorem nn_grads_ref_sum (i : Fin 100000) (f : Fin 256) :
    val_main_v227 (F := Ideal) x0 x1 x5 x6 x7 x8 x9 x11 (ix2 i f)
      = ((((((skipT (params x5 x6 x7 x8 x9 x10 x11 x12 (3 : Fin 4)) (val_main_v177_0 (F := Ideal) x1 (ix2 i (0 : Fin 1))) f + mainT (params x5 x6 x7 x8 x9 x10 x11 x12 (3 : Fin 4)) (row (n := 100000) x0 i) (val_main_v177_0 (F := Ideal) x1 (ix2 i (0 : Fin 1))) f)
        + skipT (params x5 x6 x7 x8 x9 x10 x11 x12 (2 : Fin 4)) (val_main_v189_0 (F := Ideal) x1 (ix2 i (0 : Fin 1))) f) + mainT (params x5 x6 x7 x8 x9 x10 x11 x12 (2 : Fin 4)) (row (n := 100000) x0 i) (val_main_v189_0 (F := Ideal) x1 (ix2 i (0 : Fin 1))) f)
        + skipT (params x5 x6 x7 x8 x9 x10 x11 x12 (1 : Fin 4)) (val_main_v202_0 (F := Ideal) x1 (ix2 i (0 : Fin 1))) f) + mainT (params x5 x6 x7 x8 x9 x10 x11 x12 (1 : Fin 4)) (row (n := 100000) x0 i) (val_main_v202_0 (F := Ideal) x1 (ix2 i (0 : Fin 1))) f)
        + skipT (params x5 x6 x7 x8 x9 x10 x11 x12 (0 : Fin 4)) (val_main_v215 (F := Ideal) x1 (ix2 i (0 : Fin 1))) f) + mainT (params x5 x6 x7 x8 x9 x10 x11 x12 (0 : Fin 4)) (row (n := 100000) x0 i) (val_main_v215 (F := Ideal) x1 (ix2 i (0 : Fin 1))) f := by
  rw [val_main_v227_apply, val_main_v217_apply, val_main_v214_apply, val_main_v204_apply, val_main_v201_apply,
    val_main_v191_apply, val_main_v188_apply,
    skipT_3 x1 x5 x6 x7 x8 x9 x10 x11 x12, mainT_3 x0 x1 x5 x6 x7 x8 x9 x10 x11 x12 (h1_3 x0 x5 x6 x7 x8 x9 x10 x11 x12) (h2_3 x0 x5 x6 x7 x8 x9 x10 x11 x12),
    skipT_2 x1 x5 x6 x7 x8 x9 x10 x11 x12, mainT_2 x0 x1 x5 x6 x7 x8 x9 x10 x11 x12 (h1_2 x0 x5 x6 x7 x8 x9 x10 x11 x12) (h2_2 x0 x5 x6 x7 x8 x9 x10 x11 x12),
    skipT_1 x1 x5 x6 x7 x8 x9 x10 x11 x12, mainT_1 x0 x1 x5 x6 x7 x8 x9 x10 x11 x12 (h1_1 x0 x5 x6 x7 x8 x9 x10 x11 x12) (h2_1 x0 x5 x6 x7 x8 x9 x10 x11 x12),
    skipT_0 x1 x5 x6 x7 x8 x9 x10 x11 x12, mainT_0 x0 x1 x5 x6 x7 x8 x9 x10 x11 x12 (h1_0 x0 x5 x6 x7 x8 x9 x10 x11 x12) (h2_0 x0 x5 x6 x7 x8 x9 x10 x11 x12)]
  rfl

theorem nn_grads_ref (hz : ∀ i : Fin 100000, (x1 (ix1 i)).toNat < 4)
    (hW2 : ∀ p, ∃ r : ℝ, x7 p = (r : EReal)) (hW3 : ∀ p, ∃ r : ℝ, x9 p = (r : EReal))
    (i : Fin 100000) (f : Fin 256) :
    val_main_v227 (F := Ideal) x0 x1 x5 x6 x7 x8 x9 x11 (ix2 i f)
      = grad (params x5 x6 x7 x8 x9 x10 x11 x12 ⟨(x1 (ix1 i)).toNat, hz i⟩) (row (n := 100000) x0 i) f := by
  rw [nn_grads_ref_sum x0 x1 x5 x6 x7 x8 x9 x10 x11 x12, ct3_read, ct2_read, ct1_read, ct0_read]
  exact sum_pick ⟨(x1 (ix1 i)).toNat, hz i⟩ (fun s => params x5 x6 x7 x8 x9 x10 x11 x12 s) (row (n := 100000) x0 i)
    (fun s => match s with
      | ⟨0, _⟩ => ct0 (1 : EReal) 0 (x1 (ix1 i)) | ⟨1, _⟩ => ct1 (1 : EReal) 0 (x1 (ix1 i))
      | ⟨2, _⟩ => ct2 (1 : EReal) 0 (x1 (ix1 i)) | ⟨3, _⟩ => ct3 (1 : EReal) 0 (x1 (ix1 i)))
    (cts_pick (1 : EReal) 0 (x1 (ix1 i)) (hz i))
    (fun j => hW3 (ix3 _ j (0 : Fin 1))) (fun k j => hW2 (ix3 _ k j)) f

end Cert.RefRead

end
-- ==== Proof.KVal0a.lean ====
import proofs.«428180_j4174708212170_2_alg».proof.Proof.Gen.KernelIdeal.Skeleton
import Idealize.ShloMosaic.Lib.ValueIdx
import Idealize.ShloMosaic.Lib.ValueLayout
import Idealize.ShloMosaic.PureOps.Ideal.Laws

noncomputable section

namespace Cert.KernelIdeal.HandValue

open Cert.KernelIdeal Cert.KernelIdeal.Gen Idealize.ShloMosaic Idealize.ShloMosaic.ValueIdx

theorem lhs_mat_0 (i : S1000x256.Idx) (q : dot_S1000x256_S256x256_S1000x256_1_0_0_1_n_n.contr.Idx) :
    (dot_S1000x256_S256x256_S1000x256_1_0_0_1_n_n.lhsIdx i q 0).val = (i 0).val := by
  unfold DotDims.lhsIdx
  rw [dif_neg (show ¬(0 : Fin S1000x256.rank) ∈ dot_S1000x256_S256x256_S1000x256_1_0_0_1_n_n.lhsBatch by decide), dif_pos (show (0 : Fin S1000x256.rank) ∈ dot_S1000x256_S256x256_S1000x256_1_0_0_1_n_n.lhsNonContracting by decide)]
  rfl
theorem lhs_mat_1 (i : S1000x256.Idx) (q : dot_S1000x256_S256x256_S1000x256_1_0_0_1_n_n.contr.Idx) :
    (dot_S1000x256_S256x256_S1000x256_1_0_0_1_n_n.lhsIdx i q 1).val = (q ⟨0, by decide⟩).val :=
  dot_S1000x256_S256x256_S1000x256_1_0_0_1_n_n.lhsIdx_val_of_single rfl i q
theorem rhs_mat_0 (i : S1000x256.Idx) (q : dot_S1000x256_S256x256_S1000x256_1_0_0_1_n_n.contr.Idx) :
    (dot_S1000x256_S256x256_S1000x256_1_0_0_1_n_n.rhsIdx i q 0).val = (q ⟨0, by decide⟩).val :=
  dot_S1000x256_S256x256_S1000x256_1_0_0_1_n_n.rhsIdx_val_of_single rfl i q
theorem rhs_mat_1 (i : S1000x256.Idx) (q : dot_S1000x256_S256x256_S1000x256_1_0_0_1_n_n.contr.Idx) :
    (dot_S1000x256_S256x256_S1000x256_1_0_0_1_n_n.rhsIdx i q 1).val = (i 1).val := by
  unfold DotDims.rhsIdx
  rw [dif_neg (show ¬(1 : Fin S256x256.rank) ∈ dot_S1000x256_S256x256_S1000x256_1_0_0_1_n_n.rhsBatch by decide), dif_pos (show (1 : Fin S256x256.rank) ∈ dot_S1000x256_S256x256_S1000x256_1_0_0_1_n_n.rhsNonContracting by decide)]
  rfl

theorem matmul_mat_apply {φ₁ φ₂ : FTy} (A : FVec Ideal S1000x256 φ₁) (B : FVec Ideal S256x256 φ₂) (q : Fin 1000) (j : Fin 256) :
    matmul dot_S1000x256_S256x256_S1000x256_1_0_0_1_n_n none A B (constant (F := Ideal) S1000x256 .f32 0x00000000#32) (ix2 q j)
      = ∑ k : Fin 256, A (ix2 q k) * B (ix2 k j) := by
  simp only [matmul]
  rw [Ideal.matmul_constant_zero_apply, ← Equiv.sum_comp (contrEquiv1 dot_S1000x256_S256x256_S1000x256_1_0_0_1_n_n 256 rfl rfl).symm]
  refine Finset.sum_congr rfl fun k _ => ?_
  have hk := contrEquiv1_symm_val dot_S1000x256_S256x256_S1000x256_1_0_0_1_n_n 256 rfl rfl k
  have el : dot_S1000x256_S256x256_S1000x256_1_0_0_1_n_n.lhsIdx (ix2 q j) ((contrEquiv1 dot_S1000x256_S256x256_S1000x256_1_0_0_1_n_n 256 rfl rfl).symm k) = ix2 q k := funext fun a => Fin.ext (by
    match a with
    | ⟨0, _⟩ => exact lhs_mat_0 _ _
    | ⟨1, _⟩ => exact (lhs_mat_1 _ _).trans hk)
  have er : dot_S1000x256_S256x256_S1000x256_1_0_0_1_n_n.rhsIdx (ix2 q j) ((contrEquiv1 dot_S1000x256_S256x256_S1000x256_1_0_0_1_n_n 256 rfl rfl).symm k) = ix2 k j := funext fun a => Fin.ext (by
    match a with
    | ⟨0, _⟩ => exact (rhs_mat_0 _ _).trans hk
    | ⟨1, _⟩ => exact rhs_mat_1 _ _)
  rw [el, er]

theorem lhs_col_0 (i : S1000x1.Idx) (q : dot_S1000x256_S256x1_S1000x1_1_0_0_1_n_n.contr.Idx) :
    (dot_S1000x256_S256x1_S1000x1_1_0_0_1_n_n.lhsIdx i q 0).val = (i 0).val := by
  unfold DotDims.lhsIdx
  rw [dif_neg (show ¬(0 : Fin S1000x256.rank) ∈ dot_S1000x256_S256x1_S1000x1_1_0_0_1_n_n.lhsBatch by decide), dif_pos (show (0 : Fin S1000x256.rank) ∈ dot_S1000x256_S256x1_S1000x1_1_0_0_1_n_n.lhsNonContracting by decide)]
  rfl
theorem lhs_col_1 (i : S1000x1.Idx) (q : dot_S1000x256_S256x1_S1000x1_1_0_0_1_n_n.contr.Idx) :
    (dot_S1000x256_S256x1_S1000x1_1_0_0_1_n_n.lhsIdx i q 1).val = (q ⟨0, by decide⟩).val :=
  dot_S1000x256_S256x1_S1000x1_1_0_0_1_n_n.lhsIdx_val_of_single rfl i q
theorem rhs_col_0 (i : S1000x1.Idx) (q : dot_S1000x256_S256x1_S1000x1_1_0_0_1_n_n.contr.Idx) :
    (dot_S1000x256_S256x1_S1000x1_1_0_0_1_n_n.rhsIdx i q 0).val = (q ⟨0, by decide⟩).val :=
  dot_S1000x256_S256x1_S1000x1_1_0_0_1_n_n.rhsIdx_val_of_single rfl i q
theorem rhs_col_1 (i : S1000x1.Idx) (q : dot_S1000x256_S256x1_S1000x1_1_0_0_1_n_n.contr.Idx) :
    (dot_S1000x256_S256x1_S1000x1_1_0_0_1_n_n.rhsIdx i q 1).val = (i 1).val := by
  unfold DotDims.rhsIdx
  rw [dif_neg (show ¬(1 : Fin S256x1.rank) ∈ dot_S1000x256_S256x1_S1000x1_1_0_0_1_n_n.rhsBatch by decide), dif_pos (show (1 : Fin S256x1.rank) ∈ dot_S1000x256_S256x1_S1000x1_1_0_0_1_n_n.rhsNonContracting by decide)]
  rfl

theorem matmul_col_apply {φ₁ φ₂ : FTy} (A : FVec Ideal S1000x256 φ₁) (B : FVec Ideal S256x1 φ₂) (q : Fin 1000) (u : Fin 1) :
    matmul dot_S1000x256_S256x1_S1000x1_1_0_0_1_n_n none A B (constant (F := Ideal) S1000x1 .f32 0x00000000#32) (ix2 q u)
      = ∑ k : Fin 256, A (ix2 q k) * B (ix2 k u) := by
  simp only [matmul]
  rw [Ideal.matmul_constant_zero_apply, ← Equiv.sum_comp (contrEquiv1 dot_S1000x256_S256x1_S1000x1_1_0_0_1_n_n 256 rfl rfl).symm]
  refine Finset.sum_congr rfl fun k _ => ?_
  have hk := contrEquiv1_symm_val dot_S1000x256_S256x1_S1000x1_1_0_0_1_n_n 256 rfl rfl k
  have el : dot_S1000x256_S256x1_S1000x1_1_0_0_1_n_n.lhsIdx (ix2 q u) ((contrEquiv1 dot_S1000x256_S256x1_S1000x1_1_0_0_1_n_n 256 rfl rfl).symm k) = ix2 q k := funext fun a => Fin.ext (by
    match a with
    | ⟨0, _⟩ => exact lhs_col_0 _ _
    | ⟨1, _⟩ => exact (lhs_col_1 _ _).trans hk)
  have er : dot_S1000x256_S256x1_S1000x1_1_0_0_1_n_n.rhsIdx (ix2 q u) ((contrEquiv1 dot_S1000x256_S256x1_S1000x1_1_0_0_1_n_n 256 rfl rfl).symm k) = ix2 k u := funext fun a => Fin.ext (by
    match a with
    | ⟨0, _⟩ => exact (rhs_col_0 _ _).trans hk
    | ⟨1, _⟩ => exact rhs_col_1 _ _)
  rw [el, er]

theorem lhs_tr_0 (i : S1000x256.Idx) (q : dot_S1000x256_S256x256_S1000x256_1_1_0_0_n_n.contr.Idx) :
    (dot_S1000x256_S256x256_S1000x256_1_1_0_0_n_n.lhsIdx i q 0).val = (i 0).val := by
  unfold DotDims.lhsIdx
  rw [dif_neg (show ¬(0 : Fin S1000x256.rank) ∈ dot_S1000x256_S256x256_S1000x256_1_1_0_0_n_n.lhsBatch by decide), dif_pos (show (0 : Fin S1000x256.rank) ∈ dot_S1000x256_S256x256_S1000x256_1_1_0_0_n_n.lhsNonContracting by decide)]
  rfl
theorem lhs_tr_1 (i : S1000x256.Idx) (q : dot_S1000x256_S256x256_S1000x256_1_1_0_0_n_n.contr.Idx) :
    (dot_S1000x256_S256x256_S1000x256_1_1_0_0_n_n.lhsIdx i q 1).val = (q ⟨0, by decide⟩).val :=
  dot_S1000x256_S256x256_S1000x256_1_1_0_0_n_n.lhsIdx_val_of_single rfl i q
theorem rhs_tr_0 (i : S1000x256.Idx) (q : dot_S1000x256_S256x256_S1000x256_1_1_0_0_n_n.contr.Idx) :
    (dot_S1000x256_S256x256_S1000x256_1_1_0_0_n_n.rhsIdx i q 0).val = (i 1).val := by
  unfold DotDims.rhsIdx
  rw [dif_neg (show ¬(0 : Fin S256x256.rank) ∈ dot_S1000x256_S256x256_S1000x256_1_1_0_0_n_n.rhsBatch by decide), dif_pos (show (0 : Fin S256x256.rank) ∈ dot_S1000x256_S256x256_S1000x256_1_1_0_0_n_n.rhsNonContracting by decide)]
  rfl
theorem rhs_tr_1 (i : S1000x256.Idx) (q : dot_S1000x256_S256x256_S1000x256_1_1_0_0_n_n.contr.Idx) :
    (dot_S1000x256_S256x256_S1000x256_1_1_0_0_n_n.rhsIdx i q 1).val = (q ⟨0, by decide⟩).val :=
  dot_S1000x256_S256x256_S1000x256_1_1_0_0_n_n.rhsIdx_val_of_single rfl i q

theorem matmul_tr_apply {φ₁ φ₂ : FTy} (A : FVec Ideal S1000x256 φ₁) (B : FVec Ideal S256x256 φ₂) (q : Fin 1000) (j : Fin 256) :
    matmul dot_S1000x256_S256x256_S1000x256_1_1_0_0_n_n none A B (constant (F := Ideal) S1000x256 .f32 0x00000000#32) (ix2 q j)
      = ∑ k : Fin 256, A (ix2 q k) * B (ix2 j k) := by
  simp only [matmul]
  rw [Ideal.matmul_constant_zero_apply, ← Equiv.sum_comp (contrEquiv1 dot_S1000x256_S256x256_S1000x256_1_1_0_0_n_n 256 rfl rfl).symm]
  refine Finset.sum_congr rfl fun k _ => ?_
  have hk := contrEquiv1_symm_val dot_S1000x256_S256x256_S1000x256_1_1_0_0_n_n 256 rfl rfl k
  have el : dot_S1000x256_S256x256_S1000x256_1_1_0_0_n_n.lhsIdx (ix2 q j) ((contrEquiv1 dot_S1000x256_S256x256_S1000x256_1_1_0_0_n_n 256 rfl rfl).symm k) = ix2 q k := funext fun a => Fin.ext (by
    match a with
    | ⟨0, _⟩ => exact lhs_tr_0 _ _
    | ⟨1, _⟩ => exact (lhs_tr_1 _ _).trans hk)
  have er : dot_S1000x256_S256x256_S1000x256_1_1_0_0_n_n.rhsIdx (ix2 q j) ((contrEquiv1 dot_S1000x256_S256x256_S1000x256_1_1_0_0_n_n 256 rfl rfl).symm k) = ix2 j k := funext fun a => Fin.ext (by
    match a with
    | ⟨0, _⟩ => exact rhs_tr_0 _ _
    | ⟨1, _⟩ => exact (rhs_tr_1 _ _).trans hk)
  rw [el, er]

theorem shapeCast_a1_a_apply {α : Type} {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Cert.KernelIdeal.HandValue

end
-- ==== Proof.KVal0b.lean ====
import proofs.«428180_j4174708212170_2_alg».proof.Proof.KVal0a
import proofs.«428180_j4174708212170_2_alg».proof.Proof.Spec
import Idealize.ShloMosaic.Lib.IdealHost

noncomputable section

namespace Cert.KernelIdeal.HandValue

open Cert.KernelIdeal Cert.KernelIdeal.Gen Idealize.ShloMosaic Idealize.ShloMosaic.ValueIdx

def blockParams (v3 : Vec Ideal S1x256x256 .f32) (v6 : Vec Ideal S1x1x256 .f32) (v13 : Vec Ideal S1x256x256 .f32)
    (v16 : Vec Ideal S1x1x256 .f32) (v23 : Vec Ideal S1x256x1 .f32) (v26 : Vec Ideal S1x1x1 .f32)
    (v31 : Vec Ideal S1x256x1 .f32) (v34 : Vec Ideal S1x1x1 .f32) : Cert.Spec.Params :=
  { W1 := fun k j => v3 (ix3 (0 : Fin 1) k j)
    b1 := fun j => v6 (ix3 (0 : Fin 1) (0 : Fin 1) j)
    W2 := fun k j => v13 (ix3 (0 : Fin 1) k j)
    b2 := fun j => v16 (ix3 (0 : Fin 1) (0 : Fin 1) j)
    W3 := fun k => v23 (ix3 (0 : Fin 1) k (0 : Fin 1))
    b3 := v26 (ix3 (0 : Fin 1) (0 : Fin 1) (0 : Fin 1))
    Ws := fun k => v31 (ix3 (0 : Fin 1) k (0 : Fin 1))
    bs := v34 (ix3 (0 : Fin 1) (0 : Fin 1) (0 : Fin 1)) }

section
variable (v3 : Vec Ideal S1x256x256 .f32) (v6 : Vec Ideal S1x1x256 .f32) (v13 : Vec Ideal S1x256x256 .f32)
  (v16 : Vec Ideal S1x1x256 .f32) (v23 : Vec Ideal S1x256x1 .f32) (v26 : Vec Ideal S1x1x1 .f32)
  (v31 : Vec Ideal S1x256x1 .f32) (v34 : Vec Ideal S1x1x1 .f32)

theorem blockParams_W1 (k j : Fin 256) : (blockParams v3 v6 v13 v16 v23 v26 v31 v34).W1 k j = v3 (ix3 (0 : Fin 1) k j) := rfl
theorem blockParams_b1 (j : Fin 256) : (blockParams v3 v6 v13 v16 v23 v26 v31 v34).b1 j = v6 (ix3 (0 : Fin 1) (0 : Fin 1) j) := rfl
theorem blockParams_W2 (k j : Fin 256) : (blockParams v3 v6 v13 v16 v23 v26 v31 v34).W2 k j = v13 (ix3 (0 : Fin 1) k j) := rfl
theorem blockParams_b2 (j : Fin 256) : (blockParams v3 v6 v13 v16 v23 v26 v31 v34).b2 j = v16 (ix3 (0 : Fin 1) (0 : Fin 1) j) := rfl
theorem blockParams_W3 (k : Fin 256) : (blockParams v3 v6 v13 v16 v23 v26 v31 v34).W3 k = v23 (ix3 (0 : Fin 1) k (0 : Fin 1)) := rfl
theorem blockParams_b3 : (blockParams v3 v6 v13 v16 v23 v26 v31 v34).b3 = v26 (ix3 (0 : Fin 1) (0 : Fin 1) (0 : Fin 1)) := rfl
theorem blockParams_Ws (k : Fin 256) : (blockParams v3 v6 v13 v16 v23 v26 v31 v34).Ws k = v31 (ix3 (0 : Fin 1) k (0 : Fin 1)) := rfl
theorem blockParams_bs : (blockParams v3 v6 v13 v16 v23 v26 v31 v34).bs = v34 (ix3 (0 : Fin 1) (0 : Fin 1) (0 : Fin 1)) := rfl

end

section
variable (v0 : Vec Ideal S1000x256 .f32) (v3 : Vec Ideal S1x256x256 .f32) (v6 : Vec Ideal S1x1x256 .f32)
  (v13 : Vec Ideal S1x256x256 .f32) (v16 : Vec Ideal S1x1x256 .f32) (v23 : Vec Ideal S1x256x1 .f32)
  (v26 : Vec Ideal S1x1x1 .f32) (v31 : Vec Ideal S1x256x1 .f32) (v34 : Vec Ideal S1x1x1 .f32)

theorem pay3_apply (q : Fin 1000) (k : Fin 256) : k0_pay3 (F := Ideal) v0 (ix2 q k) = v0 (ix2 q k) := by
  unfold k0_pay3
  simp only [truncf_apply, shapeCast_self]

theorem pay4_apply (k j : Fin 256) : k0_pay4 (F := Ideal) v3 (ix2 k j) = v3 (ix3 (0 : Fin 1) k j) := by
  unfold k0_pay4
  simp only [truncf_apply, shapeCast_1ab_ab_apply]

theorem pay6_apply (k j : Fin 256) : k0_pay6 (F := Ideal) v13 (ix2 k j) = v13 (ix3 (0 : Fin 1) k j) := by
  unfold k0_pay6
  simp only [truncf_apply, shapeCast_1ab_ab_apply]

theorem pay8_apply (k : Fin 256) (u : Fin 1) : k0_pay8 (F := Ideal) v23 (ix2 k u) = v23 (ix3 (0 : Fin 1) k u) := by
  unfold k0_pay8
  simp only [shapeCast_1ab_ab_apply]

theorem pay10_apply (k : Fin 256) (u : Fin 1) : k0_pay10 (F := Ideal) v31 (ix2 k u) = v31 (ix3 (0 : Fin 1) k u) := by
  unfold k0_pay10
  simp only [shapeCast_1ab_ab_apply]

theorem pay5_apply (q : Fin 1000) (j : Fin 256) :
    k0_pay5 (F := Ideal) v0 v3 v6 (ix2 q j)
      = Cert.Spec.h1 (blockParams v3 v6 v13 v16 v23 v26 v31 v34) (fun k => v0 (ix2 q k)) j := by
  unfold k0_pay5 Cert.Spec.h1 Cert.Spec.z1 blockParams
  simp only [tanh, addf_apply, matmul_mat_apply, broadcastTo_1b_ab_apply, shapeCast_1ab_ab_apply, pay3_apply, pay4_apply,
    Ideal.tanh_def]

theorem pay7_apply (q : Fin 1000) (j : Fin 256) :
    k0_pay7 (F := Ideal) v0 v3 v6 v13 v16 (ix2 q j)
      = Cert.Spec.h2 (blockParams v3 v6 v13 v16 v23 v26 v31 v34) (fun k => v0 (ix2 q k)) j := by
  unfold k0_pay7 Cert.Spec.h2 Cert.Spec.z2
  simp only [tanh, addf_apply, matmul_mat_apply, broadcastTo_1b_ab_apply, shapeCast_1ab_ab_apply, truncf_apply, pay6_apply,
    pay5_apply v0 v3 v6 v13 v16 v23 v26 v31 v34, Ideal.tanh_def, blockParams_W2, blockParams_b2]

theorem pay9_apply (q : Fin 1000) :
    k0_pay9 (F := Ideal) v0 v3 v6 v13 v16 v23 v26 (ix2 q (0 : Fin 1))
      = (∑ k, Cert.Spec.h2 (blockParams v3 v6 v13 v16 v23 v26 v31 v34) (fun k => v0 (ix2 q k)) k
            * (blockParams v3 v6 v13 v16 v23 v26 v31 v34).W3 k)
          + (blockParams v3 v6 v13 v16 v23 v26 v31 v34).b3 := by
  unfold k0_pay9
  simp only [addf_apply, matmul_col_apply, broadcastTo_1b_ab_apply, shapeCast_1ab_ab_apply, truncf_apply, pay8_apply,
    pay7_apply v0 v3 v6 v13 v16 v23 v26 v31 v34, blockParams_W3, blockParams_b3]

end

theorem pay1_apply (v2 : FVec Ideal S1000x256 .bf16) (v30 : FVec Ideal S1000x1 .f32) (v32 : FVec Ideal S256x1 .f32)
    (v34 : Vec Ideal S1x1x1 .f32) (q : Fin 1000) :
    k0_pay1 (F := Ideal) v2 v30 v32 v34 (ix2 q (0 : Fin 1))
      = v30 (ix2 q (0 : Fin 1))
          + ((∑ k : Fin 256, v2 (ix2 q k) * v32 (ix2 k (0 : Fin 1))) + v34 (ix3 (0 : Fin 1) (0 : Fin 1) (0 : Fin 1))) := by
  unfold k0_pay1
  simp only [addf_apply, matmul_col_apply, broadcastTo_1b_ab_apply, shapeCast_1ab_ab_apply, truncf_apply]

theorem pay2_apply (v5 : FVec Ideal S256x256 .bf16) (v11 : FVec Ideal S1000x256 .f32) (v15 : FVec Ideal S256x256 .bf16)
    (v21 : FVec Ideal S1000x256 .f32) (v24 : FVec Ideal S256x1 .f32) (v32 : FVec Ideal S256x1 .f32) (q : Fin 1000) (f : Fin 256) :
    k0_pay2 (F := Ideal) v5 v11 v15 v21 v24 v32 (ix2 q f)
      = (∑ k : Fin 256,
            ((1 - v11 (ix2 q k) * v11 (ix2 q k))
              * ∑ j : Fin 256, ((1 - v21 (ix2 q j) * v21 (ix2 q j)) * v24 (ix2 j (0 : Fin 1))) * v15 (ix2 k j))
            * v5 (ix2 f k))
          + v32 (ix2 f (0 : Fin 1)) := by
  unfold k0_pay2
  simp only [addf_apply, mulf_apply, subf_apply, broadcast_apply, truncf_apply, matmul_tr_apply, broadcastTo_1b_ab_apply,
    shapeCast_a_1a_apply, shapeCast_a1_a_apply, Ideal.ofBits_def, Ideal.ofBits_one_f32]

end Cert.KernelIdeal.HandValue

end
-- ==== Proof.KVal0.lean ====
import proofs.«428180_j4174708212170_2_alg».proof.Proof.KOut
import proofs.«428180_j4174708212170_2_alg».proof.Proof.KVal0b

noncomputable section

namespace Cert.KernelIdeal.HandValue

open Cert.KernelIdeal Cert.KernelIdeal.Gen Cert.KernelIdeal.Hand Idealize.ShloMosaic Idealize.ShloMosaic.ValueIdx

section
variable (v0 : Vec Ideal S1000x256 .f32) (v3 : Vec Ideal S1x256x256 .f32) (v6 : Vec Ideal S1x1x256 .f32)
  (v13 : Vec Ideal S1x256x256 .f32) (v16 : Vec Ideal S1x1x256 .f32) (v23 : Vec Ideal S1x256x1 .f32)
  (v26 : Vec Ideal S1x1x1 .f32) (v31 : Vec Ideal S1x256x1 .f32) (v34 : Vec Ideal S1x1x1 .f32)

theorem blkOut_apply (q : Fin 1000) :
    blkOut v0 v3 v6 v13 v16 v23 v26 v31 v34 (ix2 q (0 : Fin 1))
      = Cert.Spec.out (blockParams v3 v6 v13 v16 v23 v26 v31 v34) (fun k => v0 (ix2 q k)) := by
  unfold blkOut Cert.Spec.out
  rw [pay1_apply]
  simp only [pay3_apply, pay10_apply, pay9_apply v0 v3 v6 v13 v16 v23 v26 v31 v34, blockParams_Ws, blockParams_bs]

theorem blkGrad_apply (q : Fin 1000) (f : Fin 256) :
    blkGrad v0 v3 v6 v13 v16 v23 v31 (ix2 q f)
      = Cert.Spec.grad (blockParams v3 v6 v13 v16 v23 v26 v31 v34) (fun k => v0 (ix2 q k)) f := by
  unfold blkGrad Cert.Spec.grad Cert.Spec.d1 Cert.Spec.dh1 Cert.Spec.d2
  rw [pay2_apply]
  simp only [pay4_apply, pay6_apply, pay8_apply, pay10_apply, pay5_apply v0 v3 v6 v13 v16 v23 v26 v31 v34,
    pay7_apply v0 v3 v6 v13 v16 v23 v26 v31 v34, blockParams_W1, blockParams_W2, blockParams_W3, blockParams_Ws]

end

end Cert.KernelIdeal.HandValue

end
-- ==== Proof.KArr0a.lean ====
import proofs.«428180_j4174708212170_2_alg».proof.Proof.Region0
import proofs.«428180_j4174708212170_2_alg».proof.Proof.KVal0
import Idealize.ShloMosaic.Lib.Pipeline.Value
import Idealize.ShloMosaic.Lib.ValueIdx

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))
variable (a : (pcfg0 (F := Ideal)).Adm)

theorem N0 : (cfg0 a).N = 104 := rfl

theorem coords_val (t : Fin 104) : ((cfg0 a).grid.coords t 0).val = t.val := by
  have hs : (cfg0 a).grid.stride 0 = 1 := rfl
  have ht : t.val < 104 := t.isLt
  show t.val / (cfg0 a).grid.stride 0 % 104 = t.val
  rw [hs]; omega

theorem coords_eq (t : Fin 104) : ((cfg0 a).grid.coords t 0 : Fin 104) = t := Fin.ext (coords_val a t)

theorem row_tile {n : Nat} (h : n < 104000) : n / 1000 < 104 := by omega

theorem tile0_lt (r : Fin 104000) : r.val / 1000 < 104 := row_tile r.isLt

theorem word_val (i : grid0.Coords) : (BitVec.ofNat 32 (i 0).val).toNat = (i 0).val := by
  have hi : (i 0).val < 104 := (i 0).isLt
  rw [BitVec.toNat_ofNat]; exact Nat.mod_eq_of_lt (by omega)

theorem tr0_eq (i : grid0.Coords) : cc0_transform_0 i = ![(i 0).val, 0] := by
  show ![(BitVec.ofNat 32 (i 0).val).toNat, (0#32).toNat] = _
  rw [word_val]; rfl

theorem tr9_eq (i : grid0.Coords) : cc0_transform_9 i = ![(i 0).val, 0] := by
  show ![(BitVec.ofNat 32 (i 0).val).toNat, (0#32).toNat] = _
  rw [word_val]; rfl

theorem tr10_eq (i : grid0.Coords) : cc0_transform_10 i = ![(i 0).val, 0] := by
  show ![(BitVec.ofNat 32 (i 0).val).toNat, (0#32).toNat] = _
  rw [word_val]; rfl

theorem word_idx (i : grid0.Coords) :
    (Rect.unit (s := S104) ![(Scalar.indexCast (BitVec.ofNat 32 (i 0).val)).toNat] S1.size (k0_off1_inb i)).emb
      (Shape.Idx.first (numel1_S1.symm ▸ Nat.one_pos)) = ix1 (i 0 : Fin 104) := by
  funext d
  apply Fin.ext
  match d with
  | ⟨0, _⟩ =>
    show (BitVec.ofNat 32 (i 0).val).toNat + 1 * (Shape.Idx.first (s := S1) (numel1_S1.symm ▸ Nat.one_pos) (0 : Fin 1)).val = (i 0).val
    have h0 : (Shape.Idx.first (s := S1) (numel1_S1.symm ▸ Nat.one_pos) (0 : Fin 1)).val < 1 :=
      (Shape.Idx.first (s := S1) _ (0 : Fin 1)).isLt
    rw [word_val]; omega

theorem tr1_eq (pf : pre0.Contents (Elt Ideal)) (i : grid0.Coords) :
    cc0_transform_1 k0_off1_inb numel1_S1 pf i = ![((pf 0 : IVec S104 32) (ix1 (i 0 : Fin 104))).toNat, 0, 0] := by
  show ![((pf 0 : IVec S104 32) _).toNat, (0#32).toNat, (0#32).toNat] = _
  exact congrArg (fun z : S104.Idx => (![((pf 0 : IVec S104 32) z).toNat, 0, 0] : Fin 3 → Nat)) (word_idx i)

theorem tr2_eq (pf : pre0.Contents (Elt Ideal)) (i : grid0.Coords) :
    cc0_transform_2 k0_off1_inb numel1_S1 pf i = ![((pf 0 : IVec S104 32) (ix1 (i 0 : Fin 104))).toNat, 0, 0] := by
  show ![((pf 0 : IVec S104 32) _).toNat, (0#32).toNat, (0#32).toNat] = _
  exact congrArg (fun z : S104.Idx => (![((pf 0 : IVec S104 32) z).toNat, 0, 0] : Fin 3 → Nat)) (word_idx i)

theorem tr3_eq (pf : pre0.Contents (Elt Ideal)) (i : grid0.Coords) :
    cc0_transform_3 k0_off1_inb numel1_S1 pf i = ![((pf 0 : IVec S104 32) (ix1 (i 0 : Fin 104))).toNat, 0, 0] := by
  show ![((pf 0 : IVec S104 32) _).toNat, (0#32).toNat, (0#32).toNat] = _
  exact congrArg (fun z : S104.Idx => (![((pf 0 : IVec S104 32) z).toNat, 0, 0] : Fin 3 → Nat)) (word_idx i)

theorem tr4_eq (pf : pre0.Contents (Elt Ideal)) (i : grid0.Coords) :
    cc0_transform_4 k0_off1_inb numel1_S1 pf i = ![((pf 0 : IVec S104 32) (ix1 (i 0 : Fin 104))).toNat, 0, 0] := by
  show ![((pf 0 : IVec S104 32) _).toNat, (0#32).toNat, (0#32).toNat] = _
  exact congrArg (fun z : S104.Idx => (![((pf 0 : IVec S104 32) z).toNat, 0, 0] : Fin 3 → Nat)) (word_idx i)

theorem tr5_eq (pf : pre0.Contents (Elt Ideal)) (i : grid0.Coords) :
    cc0_transform_5 k0_off1_inb numel1_S1 pf i = ![((pf 0 : IVec S104 32) (ix1 (i 0 : Fin 104))).toNat, 0, 0] := by
  show ![((pf 0 : IVec S104 32) _).toNat, (0#32).toNat, (0#32).toNat] = _
  exact congrArg (fun z : S104.Idx => (![((pf 0 : IVec S104 32) z).toNat, 0, 0] : Fin 3 → Nat)) (word_idx i)

theorem tr6_eq (pf : pre0.Contents (Elt Ideal)) (i : grid0.Coords) :
    cc0_transform_6 k0_off1_inb numel1_S1 pf i = ![((pf 0 : IVec S104 32) (ix1 (i 0 : Fin 104))).toNat, 0, 0] := by
  show ![((pf 0 : IVec S104 32) _).toNat, (0#32).toNat, (0#32).toNat] = _
  exact congrArg (fun z : S104.Idx => (![((pf 0 : IVec S104 32) z).toNat, 0, 0] : Fin 3 → Nat)) (word_idx i)

theorem tr7_eq (pf : pre0.Contents (Elt Ideal)) (i : grid0.Coords) :
    cc0_transform_7 k0_off1_inb numel1_S1 pf i = ![((pf 0 : IVec S104 32) (ix1 (i 0 : Fin 104))).toNat, 0, 0] := by
  show ![((pf 0 : IVec S104 32) _).toNat, (0#32).toNat, (0#32).toNat] = _
  exact congrArg (fun z : S104.Idx => (![((pf 0 : IVec S104 32) z).toNat, 0, 0] : Fin 3 → Nat)) (word_idx i)

theorem tr8_eq (pf : pre0.Contents (Elt Ideal)) (i : grid0.Coords) :
    cc0_transform_8 k0_off1_inb numel1_S1 pf i = ![((pf 0 : IVec S104 32) (ix1 (i 0 : Fin 104))).toNat, 0, 0] := by
  show ![((pf 0 : IVec S104 32) _).toNat, (0#32).toNat, (0#32).toNat] = _
  exact congrArg (fun z : S104.Idx => (![((pf 0 : IVec S104 32) z).toNat, 0, 0] : Fin 3 → Nat)) (word_idx i)

def tbl (a : (pcfg0 (F := Ideal)).Adm) (t : Fin 104) : Nat := ((a.1 0 : IVec S104 32) (ix1 t)).toNat

theorem tbl_lt (t : Fin 104) : tbl a t < 4 := by
  obtain ⟨h, -⟩ := a.2.1 (ix1 t : grid0.Coords)
  have h0 := h 0
  rw [tr1_eq] at h0
  have h1 : (tbl a t + 1) * 1 ≤ 4 := h0
  omega

theorem idx0 (t : Fin 104) : ((cfg0 a).win 0).index t = ![t.val, 0] := by
  show cc0_transform_0 ((cfg0 a).grid.coords t) = _
  rw [tr0_eq, coords_val]

theorem idx9 (t : Fin 104) : ((cfg0 a).win 9).index t = ![t.val, 0] := by
  show cc0_transform_9 ((cfg0 a).grid.coords t) = _
  rw [tr9_eq, coords_val]

theorem idx10 (t : Fin 104) : ((cfg0 a).win 10).index t = ![t.val, 0] := by
  show cc0_transform_10 ((cfg0 a).grid.coords t) = _
  rw [tr10_eq, coords_val]

theorem idx1 (t : Fin 104) : ((cfg0 a).win 1).index t = ![tbl a t, 0, 0] := by
  show cc0_transform_1 k0_off1_inb numel1_S1 a.1 ((cfg0 a).grid.coords t) = _
  rw [tr1_eq]
  exact congrArg (fun z : Fin 104 => (![((a.1 0 : IVec S104 32) (ix1 z)).toNat, 0, 0] : Fin 3 → Nat)) (coords_eq a t)

theorem idx2 (t : Fin 104) : ((cfg0 a).win 2).index t = ![tbl a t, 0, 0] := by
  show cc0_transform_2 k0_off1_inb numel1_S1 a.1 ((cfg0 a).grid.coords t) = _
  rw [tr2_eq]
  exact congrArg (fun z : Fin 104 => (![((a.1 0 : IVec S104 32) (ix1 z)).toNat, 0, 0] : Fin 3 → Nat)) (coords_eq a t)

theorem idx3 (t : Fin 104) : ((cfg0 a).win 3).index t = ![tbl a t, 0, 0] := by
  show cc0_transform_3 k0_off1_inb numel1_S1 a.1 ((cfg0 a).grid.coords t) = _
  rw [tr3_eq]
  exact congrArg (fun z : Fin 104 => (![((a.1 0 : IVec S104 32) (ix1 z)).toNat, 0, 0] : Fin 3 → Nat)) (coords_eq a t)

theorem idx4 (t : Fin 104) : ((cfg0 a).win 4).index t = ![tbl a t, 0, 0] := by
  show cc0_transform_4 k0_off1_inb numel1_S1 a.1 ((cfg0 a).grid.coords t) = _
  rw [tr4_eq]
  exact congrArg (fun z : Fin 104 => (![((a.1 0 : IVec S104 32) (ix1 z)).toNat, 0, 0] : Fin 3 → Nat)) (coords_eq a t)

theorem idx5 (t : Fin 104) : ((cfg0 a).win 5).index t = ![tbl a t, 0, 0] := by
  show cc0_transform_5 k0_off1_inb numel1_S1 a.1 ((cfg0 a).grid.coords t) = _
  rw [tr5_eq]
  exact congrArg (fun z : Fin 104 => (![((a.1 0 : IVec S104 32) (ix1 z)).toNat, 0, 0] : Fin 3 → Nat)) (coords_eq a t)

theorem idx6 (t : Fin 104) : ((cfg0 a).win 6).index t = ![tbl a t, 0, 0] := by
  show cc0_transform_6 k0_off1_inb numel1_S1 a.1 ((cfg0 a).grid.coords t) = _
  rw [tr6_eq]
  exact congrArg (fun z : Fin 104 => (![((a.1 0 : IVec S104 32) (ix1 z)).toNat, 0, 0] : Fin 3 → Nat)) (coords_eq a t)

theorem idx7 (t : Fin 104) : ((cfg0 a).win 7).index t = ![tbl a t, 0, 0] := by
  show cc0_transform_7 k0_off1_inb numel1_S1 a.1 ((cfg0 a).grid.coords t) = _
  rw [tr7_eq]
  exact congrArg (fun z : Fin 104 => (![((a.1 0 : IVec S104 32) (ix1 z)).toNat, 0, 0] : Fin 3 → Nat)) (coords_eq a t)

theorem idx8 (t : Fin 104) : ((cfg0 a).win 8).index t = ![tbl a t, 0, 0] := by
  show cc0_transform_8 k0_off1_inb numel1_S1 a.1 ((cfg0 a).grid.coords t) = _
  rw [tr8_eq]
  exact congrArg (fun z : Fin 104 => (![((a.1 0 : IVec S104 32) (ix1 z)).toNat, 0, 0] : Fin 3 → Nat)) (coords_eq a t)

theorem iblk0_0_at (c : Dev nD) (t : Fin 104) (x : S1000x256.Idx) (k : S104000x256.Idx)
    (h0 : (k 0).val = 1000 * t.val + (x 0).val) (h1 : (k 1).val = (x 1).val) :
    (iblk0 V a c 0 t : Vec Ideal S1000x256 .f32) x = (V c main_v75 : S104000x256.Idx → Elt Ideal .f32) k := by
  unfold iblk0
  show (V c main_v75 : S104000x256.Idx → Elt Ideal .f32) ((((cfg0 a).win 0).blk t).view.emb x) = _
  refine congrArg _ ?_
  funext d
  apply Fin.ext
  match d with
  | ⟨0, _⟩ =>
    show ((cfg0 a).win 0).index t (0 : Fin 2) * 1000 + 1 * (x 0).val = (k 0).val
    rw [idx0, h0]; show t.val * 1000 + 1 * (x 0).val = _; omega
  | ⟨1, _⟩ =>
    show ((cfg0 a).win 0).index t (1 : Fin 2) * 256 + 1 * (x 1).val = (k 1).val
    rw [idx0, h1]; show 0 * 256 + 1 * (x 1).val = _; omega

theorem row0_lt (t : Fin 104) (q : Fin 1000) : 1000 * t.val + q.val < 104000 := by
  have := t.isLt; have := q.isLt; omega

theorem iblk0_0_apply (c : Dev nD) (t : Fin 104) (q : Fin 1000) (k : Fin 256) :
    (iblk0 V a c 0 t : Vec Ideal S1000x256 .f32) (ix2 q k)
      = (V c main_v75 : S104000x256.Idx → Elt Ideal .f32) (ix2 (⟨1000 * t.val + q.val, row0_lt t q⟩ : Fin 104000) k) :=
  iblk0_0_at V a c t _ _ rfl rfl

theorem iblk0_1_at (c : Dev nD) (t : Fin 104) (x : S1x256x256.Idx) (k : S4x256x256.Idx)
    (h0 : (k 0).val = tbl a t) (h1 : (k 1).val = (x 1).val) (h2 : (k 2).val = (x 2).val) :
    (iblk0 V a c 1 t : Vec Ideal S1x256x256 .f32) x = (V c main_arg5 : S4x256x256.Idx → Elt Ideal .f32) k := by
  have hx : (x 0).val < 1 := (x 0).isLt
  unfold iblk0
  show (V c main_arg5 : S4x256x256.Idx → Elt Ideal .f32) ((((cfg0 a).win 1).blk t).view.emb x) = _
  refine congrArg _ ?_
  funext d
  apply Fin.ext
  match d with
  | ⟨0, _⟩ =>
    show ((cfg0 a).win 1).index t (0 : Fin 3) * 1 + 1 * (x 0).val = (k 0).val
    rw [idx1, h0]; show tbl a t * 1 + 1 * (x 0).val = _; omega
  | ⟨1, _⟩ =>
    show ((cfg0 a).win 1).index t (1 : Fin 3) * 256 + 1 * (x 1).val = (k 1).val
    rw [idx1, h1]; show 0 * 256 + 1 * (x 1).val = _; omega
  | ⟨2, _⟩ =>
    show ((cfg0 a).win 1).index t (2 : Fin 3) * 256 + 1 * (x 2).val = (k 2).val
    rw [idx1, h2]; show 0 * 256 + 1 * (x 2).val = _; omega

theorem iblk0_1_apply (c : Dev nD) (t : Fin 104) (k : Fin 256) (j : Fin 256) :
    (iblk0 V a c 1 t : Vec Ideal S1x256x256 .f32) (ix3 (0 : Fin 1) k j)
      = (V c main_arg5 : S4x256x256.Idx → Elt Ideal .f32) (ix3 (⟨tbl a t, tbl_lt a t⟩ : Fin 4) k j) :=
  iblk0_1_at V a c t _ _ rfl rfl rfl

theorem iblk0_2_at (c : Dev nD) (t : Fin 104) (x : S1x1x256.Idx) (k : S4x1x256.Idx)
    (h0 : (k 0).val = tbl a t) (h1 : (k 1).val = (x 1).val) (h2 : (k 2).val = (x 2).val) :
    (iblk0 V a c 2 t : Vec Ideal S1x1x256 .f32) x = (V c main_v76 : S4x1x256.Idx → Elt Ideal .f32) k := by
  have hx : (x 0).val < 1 := (x 0).isLt
  unfold iblk0
  show (V c main_v76 : S4x1x256.Idx → Elt Ideal .f32) ((((cfg0 a).win 2).blk t).view.emb x) = _
  refine congrArg _ ?_
  funext d
  apply Fin.ext
  match d with
  | ⟨0, _⟩ =>
    show ((cfg0 a).win 2).index t (0 : Fin 3) * 1 + 1 * (x 0).val = (k 0).val
    rw [idx2, h0]; show tbl a t * 1 + 1 * (x 0).val = _; omega
  | ⟨1, _⟩ =>
    show ((cfg0 a).win 2).index t (1 : Fin 3) * 1 + 1 * (x 1).val = (k 1).val
    rw [idx2, h1]; show 0 * 1 + 1 * (x 1).val = _; omega
  | ⟨2, _⟩ =>
    show ((cfg0 a).win 2).index t (2 : Fin 3) * 256 + 1 * (x 2).val = (k 2).val
    rw [idx2, h2]; show 0 * 256 + 1 * (x 2).val = _; omega

theorem iblk0_2_apply (c : Dev nD) (t : Fin 104) (k : Fin 1) (j : Fin 256) :
    (iblk0 V a c 2 t : Vec Ideal S1x1x256 .f32) (ix3 (0 : Fin 1) k j)
      = (V c main_v76 : S4x1x256.Idx → Elt Ideal .f32) (ix3 (⟨tbl a t, tbl_lt a t⟩ : Fin 4) k j) :=
  iblk0_2_at V a c t _ _ rfl rfl rfl

theorem iblk0_3_at (c : Dev nD) (t : Fin 104) (x : S1x256x256.Idx) (k : S4x256x256.Idx)
    (h0 : (k 0).val = tbl a t) (h1 : (k 1).val = (x 1).val) (h2 : (k 2).val = (x 2).val) :
    (iblk0 V a c 3 t : Vec Ideal S1x256x256 .f32) x = (V c main_arg7 : S4x256x256.Idx → Elt Ideal .f32) k := by
  have hx : (x 0).val < 1 := (x 0).isLt
  unfold iblk0
  show (V c main_arg7 : S4x256x256.Idx → Elt Ideal .f32) ((((cfg0 a).win 3).blk t).view.emb x) = _
  refine congrArg _ ?_
  funext d
  apply Fin.ext
  match d with
  | ⟨0, _⟩ =>
    show ((cfg0 a).win 3).index t (0 : Fin 3) * 1 + 1 * (x 0).val = (k 0).val
    rw [idx3, h0]; show tbl a t * 1 + 1 * (x 0).val = _; omega
  | ⟨1, _⟩ =>
    show ((cfg0 a).win 3).index t (1 : Fin 3) * 256 + 1 * (x 1).val = (k 1).val
    rw [idx3, h1]; show 0 * 256 + 1 * (x 1).val = _; omega
  | ⟨2, _⟩ =>
    show ((cfg0 a).win 3).index t (2 : Fin 3) * 256 + 1 * (x 2).val = (k 2).val
    rw [idx3, h2]; show 0 * 256 + 1 * (x 2).val = _; omega

theorem iblk0_3_apply (c : Dev nD) (t : Fin 104) (k : Fin 256) (j : Fin 256) :
    (iblk0 V a c 3 t : Vec Ideal S1x256x256 .f32) (ix3 (0 : Fin 1) k j)
      = (V c main_arg7 : S4x256x256.Idx → Elt Ideal .f32) (ix3 (⟨tbl a t, tbl_lt a t⟩ : Fin 4) k j) :=
  iblk0_3_at V a c t _ _ rfl rfl rfl

theorem iblk0_4_at (c : Dev nD) (t : Fin 104) (x : S1x1x256.Idx) (k : S4x1x256.Idx)
    (h0 : (k 0).val = tbl a t) (h1 : (k 1).val = (x 1).val) (h2 : (k 2).val = (x 2).val) :
    (iblk0 V a c 4 t : Vec Ideal S1x1x256 .f32) x = (V c main_v77 : S4x1x256.Idx → Elt Ideal .f32) k := by
  have hx : (x 0).val < 1 := (x 0).isLt
  unfold iblk0
  show (V c main_v77 : S4x1x256.Idx → Elt Ideal .f32) ((((cfg0 a).win 4).blk t).view.emb x) = _
  refine congrArg _ ?_
  funext d
  apply Fin.ext
  match d with
  | ⟨0, _⟩ =>
    show ((cfg0 a).win 4).index t (0 : Fin 3) * 1 + 1 * (x 0).val = (k 0).val
    rw [idx4, h0]; show tbl a t * 1 + 1 * (x 0).val = _; omega
  | ⟨1, _⟩ =>
    show ((cfg0 a).win 4).index t (1 : Fin 3) * 1 + 1 * (x 1).val = (k 1).val
    rw [idx4, h1]; show 0 * 1 + 1 * (x 1).val = _; omega
  | ⟨2, _⟩ =>
    show ((cfg0 a).win 4).index t (2 : Fin 3) * 256 + 1 * (x 2).val = (k 2).val
    rw [idx4, h2]; show 0 * 256 + 1 * (x 2).val = _; omega

theorem iblk0_4_apply (c : Dev nD) (t : Fin 104) (k : Fin 1) (j : Fin 256) :
    (iblk0 V a c 4 t : Vec Ideal S1x1x256 .f32) (ix3 (0 : Fin 1) k j)
      = (V c main_v77 : S4x1x256.Idx → Elt Ideal .f32) (ix3 (⟨tbl a t, tbl_lt a t⟩ : Fin 4) k j) :=
  iblk0_4_at V a c t _ _ rfl rfl rfl

theorem iblk0_5_at (c : Dev nD) (t : Fin 104) (x : S1x256x1.Idx) (k : S4x256x1.Idx)
    (h0 : (k 0).val = tbl a t) (h1 : (k 1).val = (x 1).val) (h2 : (k 2).val = (x 2).val) :
    (iblk0 V a c 5 t : Vec Ideal S1x256x1 .f32) x = (V c main_arg9 : S4x256x1.Idx → Elt Ideal .f32) k := by
  have hx : (x 0).val < 1 := (x 0).isLt
  unfold iblk0
  show (V c main_arg9 : S4x256x1.Idx → Elt Ideal .f32) ((((cfg0 a).win 5).blk t).view.emb x) = _
  refine congrArg _ ?_
  funext d
  apply Fin.ext
  match d with
  | ⟨0, _⟩ =>
    show ((cfg0 a).win 5).index t (0 : Fin 3) * 1 + 1 * (x 0).val = (k 0).val
    rw [idx5, h0]; show tbl a t * 1 + 1 * (x 0).val = _; omega
  | ⟨1, _⟩ =>
    show ((cfg0 a).win 5).index t (1 : Fin 3) * 256 + 1 * (x 1).val = (k 1).val
    rw [idx5, h1]; show 0 * 256 + 1 * (x 1).val = _; omega
  | ⟨2, _⟩ =>
    show ((cfg0 a).win 5).index t (2 : Fin 3) * 1 + 1 * (x 2).val = (k 2).val
    rw [idx5, h2]; show 0 * 1 + 1 * (x 2).val = _; omega

theorem iblk0_5_apply (c : Dev nD) (t : Fin 104) (k : Fin 256) (j : Fin 1) :
    (iblk0 V a c 5 t : Vec Ideal S1x256x1 .f32) (ix3 (0 : Fin 1) k j)
      = (V c main_arg9 : S4x256x1.Idx → Elt Ideal .f32) (ix3 (⟨tbl a t, tbl_lt a t⟩ : Fin 4) k j) :=
  iblk0_5_at V a c t _ _ rfl rfl rfl

theorem iblk0_6_at (c : Dev nD) (t : Fin 104) (x : S1x1x1.Idx) (k : S4x1x1.Idx)
    (h0 : (k 0).val = tbl a t) (h1 : (k 1).val = (x 1).val) (h2 : (k 2).val = (x 2).val) :
    (iblk0 V a c 6 t : Vec Ideal S1x1x1 .f32) x = (V c main_v78 : S4x1x1.Idx → Elt Ideal .f32) k := by
  have hx : (x 0).val < 1 := (x 0).isLt
  unfold iblk0
  show (V c main_v78 : S4x1x1.Idx → Elt Ideal .f32) ((((cfg0 a).win 6).blk t).view.emb x) = _
  refine congrArg _ ?_
  funext d
  apply Fin.ext
  match d with
  | ⟨0, _⟩ =>
    show ((cfg0 a).win 6).index t (0 : Fin 3) * 1 + 1 * (x 0).val = (k 0).val
    rw [idx6, h0]; show tbl a t * 1 + 1 * (x 0).val = _; omega
  | ⟨1, _⟩ =>
    show ((cfg0 a).win 6).index t (1 : Fin 3) * 1 + 1 * (x 1).val = (k 1).val
    rw [idx6, h1]; show 0 * 1 + 1 * (x 1).val = _; omega
  | ⟨2, _⟩ =>
    show ((cfg0 a).win 6).index t (2 : Fin 3) * 1 + 1 * (x 2).val = (k 2).val
    rw [idx6, h2]; show 0 * 1 + 1 * (x 2).val = _; omega

theorem iblk0_6_apply (c : Dev nD) (t : Fin 104) (k : Fin 1) (j : Fin 1) :
    (iblk0 V a c 6 t : Vec Ideal S1x1x1 .f32) (ix3 (0 : Fin 1) k j)
      = (V c main_v78 : S4x1x1.Idx → Elt Ideal .f32) (ix3 (⟨tbl a t, tbl_lt a t⟩ : Fin 4) k j) :=
  iblk0_6_at V a c t _ _ rfl rfl rfl

theorem iblk0_7_at (c : Dev nD) (t : Fin 104) (x : S1x256x1.Idx) (k : S4x256x1.Idx)
    (h0 : (k 0).val = tbl a t) (h1 : (k 1).val = (x 1).val) (h2 : (k 2).val = (x 2).val) :
    (iblk0 V a c 7 t : Vec Ideal S1x256x1 .f32) x = (V c main_arg11 : S4x256x1.Idx → Elt Ideal .f32) k := by
  have hx : (x 0).val < 1 := (x 0).isLt
  unfold iblk0
  show (V c main_arg11 : S4x256x1.Idx → Elt Ideal .f32) ((((cfg0 a).win 7).blk t).view.emb x) = _
  refine congrArg _ ?_
  funext d
  apply Fin.ext
  match d with
  | ⟨0, _⟩ =>
    show ((cfg0 a).win 7).index t (0 : Fin 3) * 1 + 1 * (x 0).val = (k 0).val
    rw [idx7, h0]; show tbl a t * 1 + 1 * (x 0).val = _; omega
  | ⟨1, _⟩ =>
    show ((cfg0 a).win 7).index t (1 : Fin 3) * 256 + 1 * (x 1).val = (k 1).val
    rw [idx7, h1]; show 0 * 256 + 1 * (x 1).val = _; omega
  | ⟨2, _⟩ =>
    show ((cfg0 a).win 7).index t (2 : Fin 3) * 1 + 1 * (x 2).val = (k 2).val
    rw [idx7, h2]; show 0 * 1 + 1 * (x 2).val = _; omega

theorem iblk0_7_apply (c : Dev nD) (t : Fin 104) (k : Fin 256) (j : Fin 1) :
    (iblk0 V a c 7 t : Vec Ideal S1x256x1 .f32) (ix3 (0 : Fin 1) k j)
      = (V c main_arg11 : S4x256x1.Idx → Elt Ideal .f32) (ix3 (⟨tbl a t, tbl_lt a t⟩ : Fin 4) k j) :=
  iblk0_7_at V a c t _ _ rfl rfl rfl

theorem iblk0_8_at (c : Dev nD) (t : Fin 104) (x : S1x1x1.Idx) (k : S4x1x1.Idx)
    (h0 : (k 0).val = tbl a t) (h1 : (k 1).val = (x 1).val) (h2 : (k 2).val = (x 2).val) :
    (iblk0 V a c 8 t : Vec Ideal S1x1x1 .f32) x = (V c main_v79 : S4x1x1.Idx → Elt Ideal .f32) k := by
  have hx : (x 0).val < 1 := (x 0).isLt
  unfold iblk0
  show (V c main_v79 : S4x1x1.Idx → Elt Ideal .f32) ((((cfg0 a).win 8).blk t).view.emb x) = _
  refine congrArg _ ?_
  funext d
  apply Fin.ext
  match d with
  | ⟨0, _⟩ =>
    show ((cfg0 a).win 8).index t (0 : Fin 3) * 1 + 1 * (x 0).val = (k 0).val
    rw [idx8, h0]; show tbl a t * 1 + 1 * (x 0).val = _; omega
  | ⟨1, _⟩ =>
    show ((cfg0 a).win 8).index t (1 : Fin 3) * 1 + 1 * (x 1).val = (k 1).val
    rw [idx8, h1]; show 0 * 1 + 1 * (x 1).val = _; omega
  | ⟨2, _⟩ =>
    show ((cfg0 a).win 8).index t (2 : Fin 3) * 1 + 1 * (x 2).val = (k 2).val
    rw [idx8, h2]; show 0 * 1 + 1 * (x 2).val = _; omega

theorem iblk0_8_apply (c : Dev nD) (t : Fin 104) (k : Fin 1) (j : Fin 1) :
    (iblk0 V a c 8 t : Vec Ideal S1x1x1 .f32) (ix3 (0 : Fin 1) k j)
      = (V c main_v79 : S4x1x1.Idx → Elt Ideal .f32) (ix3 (⟨tbl a t, tbl_lt a t⟩ : Fin 4) k j) :=
  iblk0_8_at V a c t _ _ rfl rfl rfl

end Cert.KernelIdeal.HandValue

end
-- ==== Proof.KArr0.lean ====
import proofs.«428180_j4174708212170_2_alg».proof.Proof.KArr0a
import proofs.«428180_j4174708212170_2_alg».proof.Proof.KVal0
import Idealize.ShloMosaic.Lib.Pipeline.Value
import Idealize.ShloMosaic.Lib.ValueIdx

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))
variable (a : (pcfg0 (F := Ideal)).Adm)

def outAt (c : Dev nD) (t : Fin 104) : Vec Ideal S1000x1 .f32 :=
  blkOut (iblk0 V a c 0 t) (iblk0 V a c 1 t) (iblk0 V a c 2 t) (iblk0 V a c 3 t) (iblk0 V a c 4 t) (iblk0 V a c 5 t) (iblk0 V a c 6 t) (iblk0 V a c 7 t) (iblk0 V a c 8 t)

def gradAt (c : Dev nD) (t : Fin 104) : Vec Ideal S1000x256 .f32 :=
  blkGrad (iblk0 V a c 0 t) (iblk0 V a c 1 t) (iblk0 V a c 2 t) (iblk0 V a c 3 t) (iblk0 V a c 4 t) (iblk0 V a c 5 t) (iblk0 V a c 7 t)

def G9 (c : Dev nD) : S104000x1.Idx → Elt Ideal .f32 := fun i =>
  outAt V a c ⟨(i 0).val / 1000, row_tile (i 0).isLt⟩ (ix2 (⟨(i 0).val % 1000, Nat.mod_lt _ (by decide)⟩ : Fin 1000) (i 1 : Fin 1))

def G10 (c : Dev nD) : S104000x256.Idx → Elt Ideal .f32 := fun i =>
  gradAt V a c ⟨(i 0).val / 1000, row_tile (i 0).isLt⟩ (ix2 (⟨(i 0).val % 1000, Nat.mod_lt _ (by decide)⟩ : Fin 1000) (i 1 : Fin 256))

theorem idx9' (t : Fin (cfg0 a).N) : ((cfg0 a).win 9).index t = ![t.val, 0] := idx9 a t

theorem flush0_9 (t : Fin (cfg0 a).N) : ((cfg0 a).win 9).flush t = true := by
  have hO : ((cfg0 a).win 9).isOut = true := rfl
  have ht : t.val < 104 := t.isLt
  have hN : (cfg0 a).grid.N = 104 := rfl
  unfold Pipeline.Window.flush
  rw [hO, Bool.true_and, Bool.or_eq_true, decide_eq_true_eq, decide_eq_true_eq]
  by_cases h : t.val + 1 = (cfg0 a).grid.N
  · exact Or.inl h
  · refine Or.inr ⟨by omega, fun e => ?_⟩
    have e0 := congrFun e (0 : Fin 2)
    rw [idx9', idx9'] at e0
    have : t.val + 1 = t.val := e0
    omega

theorem mem_blk9 (t : Fin (cfg0 a).N) (i : S104000x1.Idx) :
    i ∈ (((cfg0 a).win 9).blk t).view.set ↔ ∀ d : Fin 2, ((cfg0 a).win 9).index t d * S1000x1.size d ≤ (i d).val
      ∧ (i d).val < ((cfg0 a).win 9).index t d * S1000x1.size d + S1000x1.size d := by
  exact (iff_of_eq (congrArg (fun s : Finset S104000x1.Idx => i ∈ s)
    (View.set_slice_whole main_v80_0 (((cfg0 a).win 9).rect t)))).trans Rect.mem_set_unit

theorem cover9 (i : S104000x1.Idx) :
    ∃ t : Fin (cfg0 a).N, ((cfg0 a).win 9).flush t = true ∧ i ∈ (((cfg0 a).win 9).blk t).view.set := by
  have h0 : (i 0).val < 104000 := (i 0).isLt
  have h1 : (i 1).val < 1 := (i 1).isLt
  refine ⟨⟨(i 0).val / 1000, row_tile h0⟩, flush0_9 a _, ?_⟩
  rw [mem_blk9]
  intro d
  match d with
  | ⟨0, _⟩ =>
    show ((cfg0 a).win 9).index _ (0 : Fin 2) * 1000 ≤ (i 0).val ∧ (i 0).val < ((cfg0 a).win 9).index _ (0 : Fin 2) * 1000 + 1000
    rw [idx9']
    show (i 0).val / 1000 * 1000 ≤ (i 0).val ∧ (i 0).val < (i 0).val / 1000 * 1000 + 1000
    omega
  | ⟨1, _⟩ =>
    show ((cfg0 a).win 9).index _ (1 : Fin 2) * 1 ≤ (i 1).val ∧ (i 1).val < ((cfg0 a).win 9).index _ (1 : Fin 2) * 1 + 1
    rw [idx9']
    show 0 * 1 ≤ (i 1).val ∧ (i 1).val < 0 * 1 + 1
    omega

theorem G9_at (c : Dev nD) (i : S104000x1.Idx) (t : Fin 104) (j : S1000x1.Idx)
    (h0 : (i 0).val = t.val * 1000 + (j 0).val) (h1 : (i 1).val = (j 1).val) : G9 V a c i = outAt V a c t j := by
  have hj : (j 0).val < 1000 := (j 0).isLt
  have hd : (i 0).val / 1000 = t.val := by omega
  have hm : (i 0).val % 1000 = (j 0).val := by omega
  have et : (⟨(i 0).val / 1000, row_tile (i 0).isLt⟩ : Fin 104) = t := Fin.ext hd
  have ej : (ix2 (⟨(i 0).val % 1000, Nat.mod_lt _ (by decide)⟩ : Fin 1000) (i 1 : Fin 1) : S1000x1.Idx) = j := by
    funext d
    apply Fin.ext
    match d with
    | ⟨0, _⟩ => exact hm
    | ⟨1, _⟩ => exact h1
  show outAt V a c ⟨(i 0).val / 1000, row_tile (i 0).isLt⟩ (ix2 (⟨(i 0).val % 1000, Nat.mod_lt _ (by decide)⟩ : Fin 1000) (i 1 : Fin 1)) = _
  rw [et, ej]

theorem flushed9_eq (c : Dev nD) (t : Fin (cfg0 a).N) :
    (dat0 V a c).flushed 9 t = (((cfg0 a).win 9).blk t).view.read (Elt Ideal) (G9 V a c) := by
  show ((cfg0 a).win 9).cut ((cfg0 a).grid.coords t) ((dat0 V a c).after 9 t) = _
  rw [after0_9]
  refine funext fun (j : S1000x1.Idx) => ?_
  show outAt V a c t j = G9 V a c ((((cfg0 a).win 9).blk t).view.emb j)
  refine (G9_at V a c _ t j ?_ ?_).symm
  · show ((cfg0 a).win 9).index t (0 : Fin 2) * 1000 + 1 * (j 0).val = _
    rw [idx9']; show t.val * 1000 + 1 * (j 0).val = _; omega
  · show ((cfg0 a).win 9).index t (1 : Fin 2) * 1 + 1 * (j 1).val = _
    rw [idx9']; show 0 * 1 + 1 * (j 1).val = _; omega

theorem final9 (c : Dev nD) : (dat0 V a c).arrAt 9 (cfg0 a).N = G9 V a c :=
  (dat0 V a c).arrAt_eq_of_cover 9 (G9 V a c) (fun t _ => flushed9_eq V a c t) (cover9 a)

theorem idx10' (t : Fin (cfg0 a).N) : ((cfg0 a).win 10).index t = ![t.val, 0] := idx10 a t

theorem flush0_10 (t : Fin (cfg0 a).N) : ((cfg0 a).win 10).flush t = true := by
  have hO : ((cfg0 a).win 10).isOut = true := rfl
  have ht : t.val < 104 := t.isLt
  have hN : (cfg0 a).grid.N = 104 := rfl
  unfold Pipeline.Window.flush
  rw [hO, Bool.true_and, Bool.or_eq_true, decide_eq_true_eq, decide_eq_true_eq]
  by_cases h : t.val + 1 = (cfg0 a).grid.N
  · exact Or.inl h
  · refine Or.inr ⟨by omega, fun e => ?_⟩
    have e0 := congrFun e (0 : Fin 2)
    rw [idx10', idx10'] at e0
    have : t.val + 1 = t.val := e0
    omega

theorem mem_blk10 (t : Fin (cfg0 a).N) (i : S104000x256.Idx) :
    i ∈ (((cfg0 a).win 10).blk t).view.set ↔ ∀ d : Fin 2, ((cfg0 a).win 10).index t d * S1000x256.size d ≤ (i d).val
      ∧ (i d).val < ((cfg0 a).win 10).index t d * S1000x256.size d + S1000x256.size d := by
  exact (iff_of_eq (congrArg (fun s : Finset S104000x256.Idx => i ∈ s)
    (View.set_slice_whole main_v80_1 (((cfg0 a).win 10).rect t)))).trans Rect.mem_set_unit

theorem cover10 (i : S104000x256.Idx) :
    ∃ t : Fin (cfg0 a).N, ((cfg0 a).win 10).flush t = true ∧ i ∈ (((cfg0 a).win 10).blk t).view.set := by
  have h0 : (i 0).val < 104000 := (i 0).isLt
  have h1 : (i 1).val < 256 := (i 1).isLt
  refine ⟨⟨(i 0).val / 1000, row_tile h0⟩, flush0_10 a _, ?_⟩
  rw [mem_blk10]
  intro d
  match d with
  | ⟨0, _⟩ =>
    show ((cfg0 a).win 10).index _ (0 : Fin 2) * 1000 ≤ (i 0).val ∧ (i 0).val < ((cfg0 a).win 10).index _ (0 : Fin 2) * 1000 + 1000
    rw [idx10']
    show (i 0).val / 1000 * 1000 ≤ (i 0).val ∧ (i 0).val < (i 0).val / 1000 * 1000 + 1000
    omega
  | ⟨1, _⟩ =>
    show ((cfg0 a).win 10).index _ (1 : Fin 2) * 256 ≤ (i 1).val ∧ (i 1).val < ((cfg0 a).win 10).index _ (1 : Fin 2) * 256 + 256
    rw [idx10']
    show 0 * 256 ≤ (i 1).val ∧ (i 1).val < 0 * 256 + 256
    omega

theorem G10_at (c : Dev nD) (i : S104000x256.Idx) (t : Fin 104) (j : S1000x256.Idx)
    (h0 : (i 0).val = t.val * 1000 + (j 0).val) (h1 : (i 1).val = (j 1).val) : G10 V a c i = gradAt V a c t j := by
  have hj : (j 0).val < 1000 := (j 0).isLt
  have hd : (i 0).val / 1000 = t.val := by omega
  have hm : (i 0).val % 1000 = (j 0).val := by omega
  have et : (⟨(i 0).val / 1000, row_tile (i 0).isLt⟩ : Fin 104) = t := Fin.ext hd
  have ej : (ix2 (⟨(i 0).val % 1000, Nat.mod_lt _ (by decide)⟩ : Fin 1000) (i 1 : Fin 256) : S1000x256.Idx) = j := by
    funext d
    apply Fin.ext
    match d with
    | ⟨0, _⟩ => exact hm
    | ⟨1, _⟩ => exact h1
  show gradAt V a c ⟨(i 0).val / 1000, row_tile (i 0).isLt⟩ (ix2 (⟨(i 0).val % 1000, Nat.mod_lt _ (by decide)⟩ : Fin 1000) (i 1 : Fin 256)) = _
  rw [et, ej]

theorem flushed10_eq (c : Dev nD) (t : Fin (cfg0 a).N) :
    (dat0 V a c).flushed 10 t = (((cfg0 a).win 10).blk t).view.read (Elt Ideal) (G10 V a c) := by
  show ((cfg0 a).win 10).cut ((cfg0 a).grid.coords t) ((dat0 V a c).after 10 t) = _
  rw [after0_10]
  refine funext fun (j : S1000x256.Idx) => ?_
  show gradAt V a c t j = G10 V a c ((((cfg0 a).win 10).blk t).view.emb j)
  refine (G10_at V a c _ t j ?_ ?_).symm
  · show ((cfg0 a).win 10).index t (0 : Fin 2) * 1000 + 1 * (j 0).val = _
    rw [idx10']; show t.val * 1000 + 1 * (j 0).val = _; omega
  · show ((cfg0 a).win 10).index t (1 : Fin 2) * 256 + 1 * (j 1).val = _
    rw [idx10']; show 0 * 256 + 1 * (j 1).val = _; omega

theorem final10 (c : Dev nD) : (dat0 V a c).arrAt 10 (cfg0 a).N = G10 V a c :=
  (dat0 V a c).arrAt_eq_of_cover 10 (G10 V a c) (fun t _ => flushed10_eq V a c t) (cover10 a)

theorem arr9_apply (c : Dev nD) (r : Fin 104000) :
    (dat0 V a c).arrAt 9 (cfg0 a).N (ix2 r (0 : Fin 1))
      = blkOut (iblk0 V a c 0 ⟨r.val / 1000, tile0_lt r⟩) (iblk0 V a c 1 ⟨r.val / 1000, tile0_lt r⟩) (iblk0 V a c 2 ⟨r.val / 1000, tile0_lt r⟩) (iblk0 V a c 3 ⟨r.val / 1000, tile0_lt r⟩) (iblk0 V a c 4 ⟨r.val / 1000, tile0_lt r⟩) (iblk0 V a c 5 ⟨r.val / 1000, tile0_lt r⟩) (iblk0 V a c 6 ⟨r.val / 1000, tile0_lt r⟩) (iblk0 V a c 7 ⟨r.val / 1000, tile0_lt r⟩) (iblk0 V a c 8 ⟨r.val / 1000, tile0_lt r⟩)
          (ix2 (⟨r.val % 1000, Nat.mod_lt _ (by decide)⟩ : Fin 1000) (0 : Fin 1)) := by
  rw [final9]; rfl

theorem arr10_apply (c : Dev nD) (r : Fin 104000) (f : Fin 256) :
    (dat0 V a c).arrAt 10 (cfg0 a).N (ix2 r f)
      = blkGrad (iblk0 V a c 0 ⟨r.val / 1000, tile0_lt r⟩) (iblk0 V a c 1 ⟨r.val / 1000, tile0_lt r⟩) (iblk0 V a c 2 ⟨r.val / 1000, tile0_lt r⟩) (iblk0 V a c 3 ⟨r.val / 1000, tile0_lt r⟩) (iblk0 V a c 4 ⟨r.val / 1000, tile0_lt r⟩) (iblk0 V a c 5 ⟨r.val / 1000, tile0_lt r⟩) (iblk0 V a c 7 ⟨r.val / 1000, tile0_lt r⟩)
          (ix2 (⟨r.val % 1000, Nat.mod_lt _ (by decide)⟩ : Fin 1000) f) := by
  rw [final10]; rfl

def paramsV (c : Dev nD) (s : Fin 4) : Cert.Spec.Params :=
  { W1 := fun k j => (V c main_arg5 : S4x256x256.Idx → Elt Ideal .f32) (ix3 s k j)
    b1 := fun j => (V c main_v76 : S4x1x256.Idx → Elt Ideal .f32) (ix3 s (0 : Fin 1) j)
    W2 := fun k j => (V c main_arg7 : S4x256x256.Idx → Elt Ideal .f32) (ix3 s k j)
    b2 := fun j => (V c main_v77 : S4x1x256.Idx → Elt Ideal .f32) (ix3 s (0 : Fin 1) j)
    W3 := fun k => (V c main_arg9 : S4x256x1.Idx → Elt Ideal .f32) (ix3 s k (0 : Fin 1))
    b3 := (V c main_v78 : S4x1x1.Idx → Elt Ideal .f32) (ix3 s (0 : Fin 1) (0 : Fin 1))
    Ws := fun k => (V c main_arg11 : S4x256x1.Idx → Elt Ideal .f32) (ix3 s k (0 : Fin 1))
    bs := (V c main_v79 : S4x1x1.Idx → Elt Ideal .f32) (ix3 s (0 : Fin 1) (0 : Fin 1)) }

theorem blockParams_eq (c : Dev nD) (t : Fin 104) :
    blockParams (iblk0 V a c 1 t) (iblk0 V a c 2 t) (iblk0 V a c 3 t) (iblk0 V a c 4 t) (iblk0 V a c 5 t) (iblk0 V a c 6 t) (iblk0 V a c 7 t) (iblk0 V a c 8 t)
      = paramsV V c ⟨tbl a t, tbl_lt a t⟩ := by
  simp only [blockParams, paramsV, iblk0_1_apply, iblk0_2_apply, iblk0_3_apply, iblk0_4_apply, iblk0_5_apply, iblk0_6_apply,
    iblk0_7_apply, iblk0_8_apply]

theorem row_split (r : Fin 104000) (k : Fin 256) :
    (ix2 (⟨1000 * (r.val / 1000) + r.val % 1000, by have := r.isLt; omega⟩ : Fin 104000) k : S104000x256.Idx) = ix2 r k := by
  funext d
  apply Fin.ext
  match d with
  | ⟨0, _⟩ => show 1000 * (r.val / 1000) + r.val % 1000 = r.val; omega
  | ⟨1, _⟩ => rfl

theorem out_sorted_at (c : Dev nD) (r : Fin 104000) :
    (dat0 V a c).arrAt 9 (cfg0 a).N (ix2 r (0 : Fin 1))
      = Cert.Spec.out (paramsV V c ⟨tbl a ⟨r.val / 1000, tile0_lt r⟩, tbl_lt a _⟩)
          (fun k => (V c main_v75 : S104000x256.Idx → Elt Ideal .f32) (ix2 r k)) := by
  refine (arr9_apply V a c r).trans ((blkOut_apply (iblk0 V a c 0 ⟨r.val / 1000, tile0_lt r⟩) (iblk0 V a c 1 ⟨r.val / 1000, tile0_lt r⟩) (iblk0 V a c 2 ⟨r.val / 1000, tile0_lt r⟩) (iblk0 V a c 3 ⟨r.val / 1000, tile0_lt r⟩) (iblk0 V a c 4 ⟨r.val / 1000, tile0_lt r⟩) (iblk0 V a c 5 ⟨r.val / 1000, tile0_lt r⟩) (iblk0 V a c 6 ⟨r.val / 1000, tile0_lt r⟩) (iblk0 V a c 7 ⟨r.val / 1000, tile0_lt r⟩) (iblk0 V a c 8 ⟨r.val / 1000, tile0_lt r⟩)
    (⟨r.val % 1000, Nat.mod_lt _ (by decide)⟩ : Fin 1000)).trans ?_)
  refine congrArg₂ Cert.Spec.out (blockParams_eq V a c ⟨r.val / 1000, tile0_lt r⟩) (funext fun k => ?_)
  exact (iblk0_0_apply V a c ⟨r.val / 1000, tile0_lt r⟩ ⟨r.val % 1000, Nat.mod_lt _ (by decide)⟩ k).trans
    (congrArg (V c main_v75 : S104000x256.Idx → Elt Ideal .f32) (row_split r k))

theorem grad_sorted_at (c : Dev nD) (r : Fin 104000) (f : Fin 256) :
    (dat0 V a c).arrAt 10 (cfg0 a).N (ix2 r f)
      = Cert.Spec.grad (paramsV V c ⟨tbl a ⟨r.val / 1000, tile0_lt r⟩, tbl_lt a _⟩)
          (fun k => (V c main_v75 : S104000x256.Idx → Elt Ideal .f32) (ix2 r k)) f := by
  refine (arr10_apply V a c r f).trans ((blkGrad_apply (iblk0 V a c 0 ⟨r.val / 1000, tile0_lt r⟩) (iblk0 V a c 1 ⟨r.val / 1000, tile0_lt r⟩) (iblk0 V a c 2 ⟨r.val / 1000, tile0_lt r⟩) (iblk0 V a c 3 ⟨r.val / 1000, tile0_lt r⟩) (iblk0 V a c 4 ⟨r.val / 1000, tile0_lt r⟩) (iblk0 V a c 5 ⟨r.val / 1000, tile0_lt r⟩) (iblk0 V a c 6 ⟨r.val / 1000, tile0_lt r⟩) (iblk0 V a c 7 ⟨r.val / 1000, tile0_lt r⟩) (iblk0 V a c 8 ⟨r.val / 1000, tile0_lt r⟩)
    (⟨r.val % 1000, Nat.mod_lt _ (by decide)⟩ : Fin 1000) f).trans ?_)
  refine congrArg₂ (fun p x => Cert.Spec.grad p x f) (blockParams_eq V a c ⟨r.val / 1000, tile0_lt r⟩) (funext fun k => ?_)
  exact (iblk0_0_apply V a c ⟨r.val / 1000, tile0_lt r⟩ ⟨r.val % 1000, Nat.mod_lt _ (by decide)⟩ k).trans
    (congrArg (V c main_v75 : S104000x256.Idx → Elt Ideal .f32) (row_split r k))

end Cert.KernelIdeal.HandValue

end
-- ==== Proof.KVal1.lean ====
import proofs.«428180_j4174708212170_2_alg».proof.Proof.KOut
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.HandValue

open Cert.KernelIdeal Cert.KernelIdeal.Gen Cert.KernelIdeal.Hand
open Idealize.ShloMosaic Idealize.ShloMosaic.ValueIdx

theorem laneSum_apply (src : FVec Ideal S2000x256 .f32) (h : S2000x256.Reduces [1] S2000) (hφ : FKind.Formats .f32)
    (hacc : (0x00000000#32 : BitVec 32) = 0x00000000#32) (q : Fin 2000) :
    multiReduction .add [1] S2000 src 0x00000000#32 h hφ hacc (ix1 q) = ∑ f : Fin 256, src (ix2 q f) := by
  refine (Ideal.multiReduction_add_single src 0x00000000#32 h hφ hacc (ix1 q)).trans ?_
  refine Finset.sum_congr rfl fun f _ => congrArg src ?_
  funext a
  match a with
  | ⟨0, _⟩ => rfl
  | ⟨1, _⟩ => rfl

theorem column_apply (v0 : FVec Ideal S2000x256 .f32) (v2 : FVec Ideal S2000x768 .f32) (o : Nat) (ho : o + 256 ≤ 768)
    (hs : S2000x768.Slices ![0, o] S2000x256) (h : S2000x256.Reduces [1] S2000) (hφ : FKind.Formats .f32)
    (hacc : (0x00000000#32 : BitVec 32) = 0x00000000#32) (hc : S2000.ShapeCasts S2000x1) (q : Fin 2000) :
    subf (broadcast S2000x1 (Scalar.ofBits (F := Ideal) .f32 0x00000000#32))
        (shapeCast S2000x1 (multiReduction .add [1] S2000 (mulf (extractStridedSlice S2000x256 ![0, o] v2 hs) v0) 0x00000000#32 h hφ hacc) hc)
        (ix2 q (0 : Fin 1))
      = 0 - ∑ f : Fin 256, v2 (ix2 q ⟨o + f.val, by omega⟩) * v0 (ix2 q f) := by
  rw [subf_apply, broadcast_apply]
  rw [shapeCast_apply _ hc (ix2 q (0 : Fin 1)) (ix1 q) (by rw [Shape.rowMajor_val_one, Shape.rowMajor_val_two]; show q.val = q.val * 1 + 0; omega)]
  rw [laneSum_apply]
  congr 1
  · exact Ideal.ofBits_zero_f32
  · refine Finset.sum_congr rfl fun f _ => ?_
    rw [mulf_apply]
    congr 1
    exact extractStridedSlice_apply _ _ hs (ix2 q f) (ix2 q ⟨o + f.val, by omega⟩) (fun a => match a with
      | ⟨0, _⟩ => by show q.val = 0 + q.val; omega
      | ⟨1, _⟩ => rfl)

section Columns

variable {α : Type} (x0 x1 x2 : S2000x1.Idx → α) (h : Shape.Concatenates [S2000x1, S2000x1, S2000x1] S2000x3 1) (q : Fin 2000)

theorem columns_apply_0 :
    concatenate S2000x3 1 [⟨S2000x1, x0⟩, ⟨S2000x1, x1⟩, ⟨S2000x1, x2⟩] h (ix2 q (0 : Fin 3)) = x0 (ix2 q (0 : Fin 1)) :=
  concatenate_apply_piece (1 : Fin S2000x3.rank) [⟨S2000x1, x0⟩, ⟨S2000x1, x1⟩, ⟨S2000x1, x2⟩] h (ix2 q (0 : Fin 3))
    0 (Nat.zero_lt_succ _) S2000x1 x0 rfl rfl 0 rfl (ix2 q (0 : Fin 1))
    (fun b hb => match b, hb with | ⟨0, _⟩, _ => rfl | ⟨1, _⟩, hb => absurd rfl hb) rfl

theorem columns_apply_1 :
    concatenate S2000x3 1 [⟨S2000x1, x0⟩, ⟨S2000x1, x1⟩, ⟨S2000x1, x2⟩] h (ix2 q (1 : Fin 3)) = x1 (ix2 q (0 : Fin 1)) :=
  concatenate_apply_piece (1 : Fin S2000x3.rank) [⟨S2000x1, x0⟩, ⟨S2000x1, x1⟩, ⟨S2000x1, x2⟩] h (ix2 q (1 : Fin 3))
    1 (Nat.succ_lt_succ (Nat.zero_lt_succ _)) S2000x1 x1 rfl rfl 1 rfl (ix2 q (0 : Fin 1))
    (fun b hb => match b, hb with | ⟨0, _⟩, _ => rfl | ⟨1, _⟩, hb => absurd rfl hb) rfl

theorem columns_apply_2 :
    concatenate S2000x3 1 [⟨S2000x1, x0⟩, ⟨S2000x1, x1⟩, ⟨S2000x1, x2⟩] h (ix2 q (2 : Fin 3)) = x2 (ix2 q (0 : Fin 1)) :=
  concatenate_apply_piece (1 : Fin S2000x3.rank) [⟨S2000x1, x0⟩, ⟨S2000x1, x1⟩, ⟨S2000x1, x2⟩] h (ix2 q (2 : Fin 3))
    2 (Nat.succ_lt_succ (Nat.succ_lt_succ (Nat.zero_lt_succ _))) S2000x1 x2 rfl rfl 2 rfl (ix2 q (0 : Fin 1))
    (fun b hb => match b, hb with | ⟨0, _⟩, _ => rfl | ⟨1, _⟩, hb => absurd rfl hb) rfl

end Columns

theorem blkForce_apply (v0 : Vec Ideal S2000x256 .f32) (v2 : Vec Ideal S2000x768 .f32) (q : Fin 2000) (d : Fin 3) :
    blkForce v0 v2 (ix2 q d) = 0 - ∑ f : Fin 256, v2 (ix2 q ⟨256 * d.val + f.val, by omega⟩) * v0 (ix2 q f) := by
  unfold blkForce k1_pay1
  simp only [shapeCast_self]
  match d with
  | ⟨0, _⟩ =>
    refine (columns_apply_0 _ _ _ _ q).trans ?_
    refine (column_apply v0 v2 0 (by omega) _ _ _ _ _ q).trans ?_
    simp only [Nat.mul_zero, Nat.zero_add]
  | ⟨1, _⟩ =>
    refine (columns_apply_1 _ _ _ _ q).trans ?_
    refine (column_apply v0 v2 256 (by omega) _ _ _ _ _ q).trans ?_
    simp only [Nat.mul_one]
  | ⟨2, _⟩ =>
    refine (columns_apply_2 _ _ _ _ q).trans ?_
    refine (column_apply v0 v2 512 (by omega) _ _ _ _ _ q).trans ?_
    rfl

end Cert.KernelIdeal.HandValue

end
-- ==== Proof.KArr1.lean ====
import proofs.«428180_j4174708212170_2_alg».proof.Proof.Region1
import proofs.«428180_j4174708212170_2_alg».proof.Proof.KVal1
import Idealize.ShloMosaic.Lib.Pipeline.Value
import Idealize.ShloMosaic.Lib.ValueIdx

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

theorem tile_lt (p : Fin 200000) : p.val / 2000 < cfg1.N := by
  rw [show cfg1.N = 100 from N_1]; have := p.isLt; omega

theorem row_lt (t : Fin cfg1.N) (q : Fin 2000) : 2000 * t.val + q.val < 200000 := by
  have ht : t.val < 100 := Nat.lt_of_lt_of_eq t.isLt (N_1 : cfg1.N = 100); have := q.isLt; omega

def tileOf (p : Fin 200000) : Fin cfg1.N := ⟨p.val / 2000, tile_lt p⟩

def inTile (p : Fin 200000) : Fin 2000 := ⟨p.val % 2000, Nat.mod_lt _ (by decide)⟩

theorem tileOf_val (p : Fin 200000) : (tileOf p).val = p.val / 2000 := rfl
theorem inTile_val (p : Fin 200000) : (inTile p).val = p.val % 2000 := rfl

theorem iblk1_0_apply (c : Dev nD) (t : Fin cfg1.N) (q : Fin 2000) (f : Fin 256) :
    (iblk1 V c 0 t : Vec Ideal S2000x256 .f32) (ix2 q f)
      = (V c main_v92 : S200000x256.Idx → Elt Ideal .f32) (ix2 ⟨2000 * t.val + q.val, row_lt t q⟩ f) := by
  obtain ⟨e0, e1, -, -, -, -⟩ := idx_facts1 t
  unfold iblk1
  rw [View.read_apply]
  show V c main_v92 _ = V c main_v92 _
  congr 1
  funext a
  apply Fin.ext
  match a with
  | ⟨0, _⟩ => show win1_0.index t (0 : Fin 2) * 2000 + 1 * q.val = 2000 * t.val + q.val; rw [e0]; omega
  | ⟨1, _⟩ => show win1_0.index t (1 : Fin 2) * 256 + 1 * f.val = f.val; rw [e1]; omega

theorem iblk1_1_apply (c : Dev nD) (t : Fin cfg1.N) (q : Fin 2000) (k : Fin 768) :
    (iblk1 V c 1 t : Vec Ideal S2000x768 .f32) (ix2 q k)
      = (V c main_v93 : S200000x768.Idx → Elt Ideal .f32) (ix2 ⟨2000 * t.val + q.val, row_lt t q⟩ k) := by
  obtain ⟨-, -, e2, e3, -, -⟩ := idx_facts1 t
  unfold iblk1
  rw [View.read_apply]
  show V c main_v93 _ = V c main_v93 _
  congr 1
  funext a
  apply Fin.ext
  match a with
  | ⟨0, _⟩ => show win1_1.index t (0 : Fin 2) * 2000 + 1 * q.val = 2000 * t.val + q.val; rw [e2]; omega
  | ⟨1, _⟩ => show win1_1.index t (1 : Fin 2) * 768 + 1 * k.val = k.val; rw [e3]; omega

def forceArr (c : Dev nD) : S200000x3.Idx → Elt Ideal .f32 := fun i =>
  blkForce (iblk1 V c 0 (tileOf ⟨(i 0).val, idx2_lt0 i⟩)) (iblk1 V c 1 (tileOf ⟨(i 0).val, idx2_lt0 i⟩))
    (ix2 (inTile ⟨(i 0).val, idx2_lt0 i⟩) (⟨(i 1).val, idx2_lt1 i⟩ : Fin 3))

theorem forceArr_apply (c : Dev nD) (i : S200000x3.Idx) (t : Fin cfg1.N) (q : Fin 2000) (d : Fin 3)
    (h0 : (i 0).val = 2000 * t.val + q.val) (h1 : (i 1).val = d.val) :
    forceArr V c i = blkForce (iblk1 V c 0 t) (iblk1 V c 1 t) (ix2 q d) := by
  have ht : tileOf ⟨(i 0).val, idx2_lt0 i⟩ = t := Fin.ext (by rw [tileOf_val]; show (i 0).val / 2000 = t.val; have := q.isLt; omega)
  have hq : inTile ⟨(i 0).val, idx2_lt0 i⟩ = q := Fin.ext (by rw [inTile_val]; show (i 0).val % 2000 = q.val; have := q.isLt; omega)
  have hd : (⟨(i 1).val, idx2_lt1 i⟩ : Fin 3) = d := Fin.ext h1
  unfold forceArr
  rw [ht, hq, hd]

theorem flushed1_2_eq (c : Dev nD) (t : Fin cfg1.N) :
    (dat1 V c).flushed 2 t = ((cfg1.win 2).blk t).view.read (Elt Ideal) (forceArr V c) := by
  obtain ⟨-, -, -, -, e4, e5⟩ := idx_facts1 t
  show (cfg1.win 2).cut (grid1.coords t) ((dat1 V c).after 2 t) = _
  rw [after1_2]
  funext j
  show blkForce (iblk1 V c 0 t) (iblk1 V c 1 t) j = forceArr V c (((cfg1.win 2).blk t).view.emb j)
  have hj : (j : S2000x3.Idx) = ix2 (j 0) (j 1) := eq_ix2 (n0 := 2000) (n1 := 3) j
  refine (congrArg (blkForce (iblk1 V c 0 t) (iblk1 V c 1 t)) hj).trans (forceArr_apply V c _ t (j 0) (j 1) ?_ ?_).symm
  · show win1_2.index t (0 : Fin 2) * 2000 + 1 * (j 0).val = 2000 * t.val + (j 0).val; rw [e4]; omega
  · show win1_2.index t (1 : Fin 2) * 3 + 1 * (j 1).val = (j 1).val; rw [e5]; omega

theorem mem_blk1_2 (t : Fin cfg1.N) (i : S200000x3.Idx) :
    i ∈ ((cfg1.win 2).blk t).view.set ↔ ∀ a : Fin 2, win1_2.index t a * S2000x3.size a ≤ (i a).val ∧ (i a).val < win1_2.index t a * S2000x3.size a + S2000x3.size a := by
  show i ∈ ((View.whole main_v94).slice (win1_2.rect t)).set ↔ _
  rw [View.set_slice_whole, Rect.mem_set_unit]
  exact Iff.rfl

theorem covered1_2 (i : S200000x3.Idx) :
    ∃ t : Fin cfg1.N, (cfg1.win 2).flush t = true ∧ i ∈ ((cfg1.win 2).blk t).view.set := by
  have hi1 : (i 1).val < 3 := idx2_lt1 i
  refine ⟨tileOf ⟨(i 0).val, idx2_lt0 i⟩, flush1_2 _, ?_⟩
  obtain ⟨-, -, -, -, e4, e5⟩ := idx_facts1 (tileOf ⟨(i 0).val, idx2_lt0 i⟩)
  rw [mem_blk1_2]
  intro a
  match a with
  | ⟨0, _⟩ =>
    show win1_2.index _ (0 : Fin 2) * 2000 ≤ (i 0).val ∧ (i 0).val < win1_2.index _ (0 : Fin 2) * 2000 + 2000
    rw [e4, tileOf_val]
    show (i 0).val / 2000 * 2000 ≤ (i 0).val ∧ (i 0).val < (i 0).val / 2000 * 2000 + 2000
    omega
  | ⟨1, _⟩ =>
    show win1_2.index _ (1 : Fin 2) * 3 ≤ (i 1).val ∧ (i 1).val < win1_2.index _ (1 : Fin 2) * 3 + 3
    rw [e5]
    omega

theorem arr2_eq (c : Dev nD) : (dat1 V c).arrAt 2 cfg1.N = forceArr V c :=
  (dat1 V c).arrAt_eq_of_cover 2 (forceArr V c) (fun t _ => flushed1_2_eq V c t) covered1_2

theorem arr2_apply (c : Dev nD) (p : Fin 200000) (d : Fin 3) :
    ((dat1 V c).arrAt 2 cfg1.N : S200000x3.Idx → Elt Ideal .f32) (ix2 p d)
      = blkForce (iblk1 V c 0 (tileOf p)) (iblk1 V c 1 (tileOf p)) (ix2 (inTile p) d) := by
  rw [arr2_eq]
  exact forceArr_apply V c (ix2 p d) (tileOf p) (inTile p) d
    (by rw [tileOf_val, inTile_val]; show p.val = 2000 * (p.val / 2000) + p.val % 2000; omega) rfl

theorem per_pair_at (c : Dev nD) (g : S200000x256.Idx → Ideal .f32) (x : S200000x768.Idx → Ideal .f32)
    (hg : (V c main_v92 : S200000x256.Idx → Elt Ideal .f32) = g) (hx : (V c main_v93 : S200000x768.Idx → Elt Ideal .f32) = x)
    (p : Fin 200000) (d : Fin 3) :
    ((dat1 V c).arrAt 2 cfg1.N : S200000x3.Idx → Elt Ideal .f32) (ix2 p d)
      = 0 - ∑ f : Fin 256, x (ix2 p ⟨256 * d.val + f.val, by omega⟩) * g (ix2 p f) := by
  subst hg hx
  have hp : (⟨2000 * (tileOf p).val + (inTile p).val, row_lt (tileOf p) (inTile p)⟩ : Fin 200000) = p :=
    Fin.ext (by show 2000 * (p.val / 2000) + p.val % 2000 = p.val; omega)
  rw [arr2_apply, blkForce_apply]
  congr 1
  refine Finset.sum_congr rfl fun f _ => ?_
  rw [iblk1_1_apply, iblk1_0_apply, hp]

end Cert.KernelIdeal.HandValue

end
-- ==== Proof.HostTakes.lean ====
import Idealize.ShloMosaic.Lib.StableHlo.Predicate
import proofs.«428180_j4174708212170_2_alg».proof.Proof.LibRows
import proofs.«428180_j4174708212170_2_alg».proof.Proof.Gen.KernelIdeal.Regions

noncomputable section

namespace Cert.KernelIdeal.HandValue

open Idealize.ShloMosaic Idealize.ShloMosaic.ValueIdx

section Take
variable {α : Type} {N C E : Nat}

theorem bcast_axis0 (h : (⟨1, ![E]⟩ : Shape).BroadcastsInDim ⟨2, ![E, C]⟩ ![0])
    (v : (⟨1, ![E]⟩ : Shape).Idx → α) (e : Fin E) (c : Fin C) :
    broadcastInDim ⟨2, ![E, C]⟩ ![0] h v (ix2 e c) = v (ix1 e) := by
  simp only [broadcastInDim]
  congr 1
  funext a
  have ha : a = 0 := Subsingleton.elim _ _
  subst ha
  apply Fin.ext
  have he := e.isLt
  split
  · next h1 => change E = 1 at h1; show (0 : Nat) = e.val; omega
  · rfl

theorem foldl_andi_one {ι : Type} (g : ι → BitVec 1) (l : List ι) (hl : ∀ i ∈ l, g i = 1#1) :
    l.foldl (fun r i => IntOp.andi r (g i)) 1#1 = 1#1 := by
  induction l with
  | nil => rfl
  | cons a l ih =>
    rw [List.foldl_cons, hl a (List.mem_cons_self ..)]
    exact ih (fun i hi => hl i (List.mem_cons_of_mem _ hi))

theorem reduce_andi_col (mask : IVec ⟨2, ![E, 1]⟩ 1) (h : (⟨2, ![E, 1]⟩ : Shape).ReducesTo [1] ⟨1, ![E]⟩)
    {u : Shape} (hu : 0 < u.numel) (e : Fin E) (he : mask (ix2 e (0 : Fin 1)) = 1#1) :
    Host.reduce IntOp.andi mask (constantI u 1 1#1) h hu (ix1 e) = 1#1 := by
  rw [Host.reduce_eq_foldl]
  refine foldl_andi_one _ _ fun i hi => ?_
  have hd : h.drop i = ix1 e := of_decide_eq_true (List.mem_filter.1 hi).2
  have hv : (h.drop i 0 : Nat) = i 0 := Shape.ReducesTo.drop_apply_val h i 0
  rw [hd] at hv
  have hi' : i = ix2 e (0 : Fin 1) := by
    funext b
    match b with
    | ⟨0, _⟩ => exact Fin.ext hv.symm
    | ⟨1, hb⟩ =>
      have h1 : (i ⟨1, hb⟩).val < 1 := (i ⟨1, hb⟩).isLt
      exact Fin.ext (show (i ⟨1, hb⟩).val = 0 by omega)
  rw [hi']; exact he

@[irreducible] def takeRows (d : GatherDims ⟨2, ![N, C]⟩ ⟨2, ![E, 1]⟩ ⟨2, ![E, C]⟩)
    (b1 : (⟨0, ![]⟩ : Shape).BroadcastsInDim ⟨1, ![E]⟩ ![])
    (b2 : (⟨1, ![E]⟩ : Shape).BroadcastsInDim ⟨2, ![E, 1]⟩ ![0])
    (b3 : (⟨0, ![]⟩ : Shape).BroadcastsInDim ⟨2, ![E, 1]⟩ ![])
    (b4 : (⟨1, ![1]⟩ : Shape).BroadcastsInDim ⟨2, ![1, 1]⟩ ![1])
    (b5 : (⟨2, ![1, 1]⟩ : Shape).BroadcastsInDim ⟨2, ![E, 1]⟩ ![0, 1])
    (hr : (⟨2, ![E, 1]⟩ : Shape).ReducesTo [1] ⟨1, ![E]⟩) (h0 : 0 < (⟨0, ![]⟩ : Shape).numel)
    (b6 : (⟨1, ![E]⟩ : Shape).BroadcastsInDim ⟨2, ![E, C]⟩ ![0])
    (ext last : BitVec 32) (x : (⟨2, ![N, C]⟩ : Shape).Idx → α) (idx : IVec ⟨1, ![E]⟩ 32)
    (fill : (⟨2, ![E, C]⟩ : Shape).Idx → α) : (⟨2, ![E, C]⟩ : Shape).Idx → α :=
  select
    (broadcastInDim ⟨2, ![E, C]⟩ ![0] b6
      (Host.reduce IntOp.andi
        (andi
          (cmpi .sge
            (broadcastInDim ⟨2, ![E, 1]⟩ ![0] b2
              (select (cmpi .slt idx (broadcastInDim ⟨1, ![E]⟩ ![] b1 (constantI ⟨0, ![]⟩ 32 0#32)))
                (addi idx (broadcastInDim ⟨1, ![E]⟩ ![] b1 (constantI ⟨0, ![]⟩ 32 ext))) idx))
            (broadcastInDim ⟨2, ![E, 1]⟩ ![] b3 (constantI ⟨0, ![]⟩ 32 0#32)))
          (cmpi .sle
            (broadcastInDim ⟨2, ![E, 1]⟩ ![0] b2
              (select (cmpi .slt idx (broadcastInDim ⟨1, ![E]⟩ ![] b1 (constantI ⟨0, ![]⟩ 32 0#32)))
                (addi idx (broadcastInDim ⟨1, ![E]⟩ ![] b1 (constantI ⟨0, ![]⟩ 32 ext))) idx))
            (broadcastInDim ⟨2, ![E, 1]⟩ ![0, 1] b5
              (broadcastInDim ⟨2, ![1, 1]⟩ ![1] b4 (constantI ⟨1, ![1]⟩ 32 last)))))
        (constantI ⟨0, ![]⟩ 1 1#1) hr h0))
    (Host.gather d x
      (broadcastInDim ⟨2, ![E, 1]⟩ ![0] b2
        (select (cmpi .slt idx (broadcastInDim ⟨1, ![E]⟩ ![] b1 (constantI ⟨0, ![]⟩ 32 0#32)))
          (addi idx (broadcastInDim ⟨1, ![E]⟩ ![] b1 (constantI ⟨0, ![]⟩ 32 ext))) idx)))
    fill

theorem takeRows_apply (hN : 0 < N) (hN31 : N < 2 ^ 31)
    (d : GatherDims ⟨2, ![N, C]⟩ ⟨2, ![E, 1]⟩ ⟨2, ![E, C]⟩)
    (hoff : d.offsetDims = [1]) (hcoll : d.collapsedSliceDims = [0])
    (hob : d.operandBatchingDims = []) (hsim : d.startIndexMap = [0]) (hivd : d.indexVectorDim = 1)
    (b1 : (⟨0, ![]⟩ : Shape).BroadcastsInDim ⟨1, ![E]⟩ ![])
    (b2 : (⟨1, ![E]⟩ : Shape).BroadcastsInDim ⟨2, ![E, 1]⟩ ![0])
    (b3 : (⟨0, ![]⟩ : Shape).BroadcastsInDim ⟨2, ![E, 1]⟩ ![])
    (b4 : (⟨1, ![1]⟩ : Shape).BroadcastsInDim ⟨2, ![1, 1]⟩ ![1])
    (b5 : (⟨2, ![1, 1]⟩ : Shape).BroadcastsInDim ⟨2, ![E, 1]⟩ ![0, 1])
    (hr : (⟨2, ![E, 1]⟩ : Shape).ReducesTo [1] ⟨1, ![E]⟩) (h0 : 0 < (⟨0, ![]⟩ : Shape).numel)
    (b6 : (⟨1, ![E]⟩ : Shape).BroadcastsInDim ⟨2, ![E, C]⟩ ![0])
    (ext last : BitVec 32) (hlast : last.toNat = N - 1)
    (x : (⟨2, ![N, C]⟩ : Shape).Idx → α) (idx : IVec ⟨1, ![E]⟩ 32) (fill : (⟨2, ![E, C]⟩ : Shape).Idx → α)
    (e : Fin E) (c : Fin C) (he : (idx (ix1 e)).toNat < N) :
    takeRows d b1 b2 b3 b4 b5 hr h0 b6 ext last x idx fill (ix2 e c) = x (ix2 ⟨(idx (ix1 e)).toNat, he⟩ c) := by
  have hw31 : (idx (ix1 e)).toNat < 2 ^ 31 := by omega
  have hz : (0#32 : BitVec 32).toNat < 2 ^ 31 := by decide

  have hneg : IntOp.cmpi .slt (idx (ix1 e)) 0#32 = 0#1 :=
    eq_zero_of_ne_one fun h1 => by
      have := (StableHlo.Predicate.slt_iff_toNat hw31 hz).1 h1
      simp at this
  have hcol : ∀ c' : Fin 1,
      broadcastInDim ⟨2, ![E, 1]⟩ ![0] b2
        (select (cmpi .slt idx (broadcastInDim ⟨1, ![E]⟩ ![] b1 (constantI ⟨0, ![]⟩ 32 0#32)))
          (addi idx (broadcastInDim ⟨1, ![E]⟩ ![] b1 (constantI ⟨0, ![]⟩ 32 ext))) idx) (ix2 e c') = idx (ix1 e) := by
    intro c'
    rw [bcast_axis0]
    show Scalar.select (IntOp.cmpi .slt (idx (ix1 e)) 0#32) (IntOp.addi (idx (ix1 e)) ext) (idx (ix1 e)) = _
    rw [hneg, select_zero]

  have hge : IntOp.cmpi .sge (idx (ix1 e)) 0#32 = 1#1 :=
    (StableHlo.Predicate.sge_iff_toNat hw31 hz).2 (by simp)
  have hle : IntOp.cmpi .sle (idx (ix1 e)) last = 1#1 :=
    (StableHlo.Predicate.sle_iff_toNat hw31 (by omega)).2 (by omega)
  unfold takeRows
  rw [select_apply, bcast_axis0, reduce_andi_col _ hr h0 e ?_, select_one,
    Cert.LibRows.gather_rows2 hN d hoff hcoll hob hsim hivd]
  · refine congrArg (fun r => x (ix2 r c)) (Fin.ext ?_)
    show min (_ : BitVec 32).toInt.toNat (N - 1) = (idx (ix1 e)).toNat
    rw [hcol 0, StableHlo.Predicate.toInt_eq_toNat_of_lt hw31]
    omega
  · show IntOp.andi (IntOp.cmpi .sge _ 0#32) (IntOp.cmpi .sle _ last) = 1#1
    rw [hcol 0, hge, hle]
    rfl

end Take

section Program
open Cert.KernelIdeal Cert.KernelIdeal.Gen Idealize.ShloMosaic.TcCoe

theorem ofBuf_toBuf {T : BufTy} {Val : EltTy → Type} (x : StableHlo.TRef sig T) (v : T.Contents Val) :
    x.ofBuf (x.toBuf v) = v := by
  obtain ⟨r, rfl, h1, h2⟩ := x
  rfl

set_option maxHeartbeats 400000 in

theorem take8_result (W : Valuation τ sig (Elt Ideal)) :
    StableHlo.after Gen.hostOps0_14 W (Proc.devRef .tc main_v75)
      = (StableHlo.TRef.of main_v75 : StableHlo.TRef sig ⟨S104000x256, .f32⟩).toBuf
        (takeRows gather_S100000x256_S104000x1_S104000x256_1_0_n_n_0_1_1256
          Gen.bcast_S_S104000 Gen.bcast_S104000_S104000x1_0 Gen.bcast_S_S104000x1 Gen.bcast_S1_S1x1_1
          Gen.bcast_S1x1_S104000x1_0_1 Gen.reducesTo_S104000x1_S104000_d1 Gen.h_S_ Gen.bcast_S104000_S104000x256_0
          100000#32 99999#32
          ((StableHlo.TRef.of main_arg0 : StableHlo.TRef sig ⟨S100000x256, .f32⟩).ofBuf (W (Proc.devRef .tc main_arg0)))
          ((StableHlo.TRef.of main_v57 : StableHlo.TRef sig ⟨S104000, .i32⟩).ofBuf (W (Proc.devRef .tc main_v57)))
          (broadcastInDim S104000x256 ![] Gen.bcast_S_S104000x256 (constant (F := Ideal) S_ .f32 0x7FC00000#32))) := by
  after_results_simp
  simp only [ofBuf_toBuf]
  unfold takeRows
  rfl

set_option maxHeartbeats 400000 in

theorem take9_result (W : Valuation τ sig (Elt Ideal)) :
    StableHlo.after Gen.hostOps1 W (Proc.devRef .tc main_v81)
      = (StableHlo.TRef.of main_v81 : StableHlo.TRef sig ⟨S100000x1, .f32⟩).toBuf
        (takeRows gather_S104000x1_S100000x1_S100000x1_1_0_n_n_0_1_11
          Gen.bcast_S_S100000 Gen.bcast_S100000_S100000x1_0 Gen.bcast_S_S100000x1 Gen.bcast_S1_S1x1_1
          Gen.bcast_S1x1_S100000x1_0_1 Gen.reducesTo_S100000x1_S100000_d1 Gen.h_S_ Gen.bcast_S100000_S100000x1_0
          104000#32 103999#32
          ((StableHlo.TRef.of main_v80_0 : StableHlo.TRef sig ⟨S104000x1, .f32⟩).ofBuf (W (Proc.devRef .tc main_v80_0)))
          ((StableHlo.TRef.of main_v65 : StableHlo.TRef sig ⟨S100000, .i32⟩).ofBuf (W (Proc.devRef .tc main_v65)))
          (broadcastInDim S100000x1 ![] Gen.bcast_S_S100000x1 (constant (F := Ideal) S_ .f32 0x7FC00000#32))) := by
  after_results_simp
  simp only [ofBuf_toBuf]
  unfold takeRows
  rfl

set_option maxHeartbeats 400000 in

theorem take10_result (W : Valuation τ sig (Elt Ideal)) :
    StableHlo.after Gen.hostOps1_1 W (Proc.devRef .tc main_v82)
      = (StableHlo.TRef.of main_v82 : StableHlo.TRef sig ⟨S100000x256, .f32⟩).toBuf
        (takeRows gather_S104000x256_S100000x1_S100000x256_1_0_n_n_0_1_1256
          Gen.bcast_S_S100000 Gen.bcast_S100000_S100000x1_0 Gen.bcast_S_S100000x1 Gen.bcast_S1_S1x1_1
          Gen.bcast_S1x1_S100000x1_0_1 Gen.reducesTo_S100000x1_S100000_d1 Gen.h_S_ Gen.bcast_S100000_S100000x256_0
          104000#32 103999#32
          ((StableHlo.TRef.of main_v80_1 : StableHlo.TRef sig ⟨S104000x256, .f32⟩).ofBuf (W (Proc.devRef .tc main_v80_1)))
          ((StableHlo.TRef.of main_v65 : StableHlo.TRef sig ⟨S100000, .i32⟩).ofBuf (W (Proc.devRef .tc main_v65)))
          (broadcastInDim S100000x256 ![] Gen.bcast_S_S100000x256 (constant (F := Ideal) S_ .f32 0x7FC00000#32))) := by
  after_results_simp
  simp only [ofBuf_toBuf]
  unfold takeRows
  rfl

theorem toBuf_v75 (f : (⟨S104000x256, .f32⟩ : BufTy).Contents (Elt Ideal)) :
    (StableHlo.TRef.of main_v75 : StableHlo.TRef sig ⟨S104000x256, .f32⟩).toBuf f = f := rfl
theorem toBuf_v81 (f : (⟨S100000x1, .f32⟩ : BufTy).Contents (Elt Ideal)) :
    (StableHlo.TRef.of main_v81 : StableHlo.TRef sig ⟨S100000x1, .f32⟩).toBuf f = f := rfl
theorem toBuf_v82 (f : (⟨S100000x256, .f32⟩ : BufTy).Contents (Elt Ideal)) :
    (StableHlo.TRef.of main_v82 : StableHlo.TRef sig ⟨S100000x256, .f32⟩).toBuf f = f := rfl
theorem ofBuf_arg0 (v : (Proc.devRef (τ := τ) .tc main_arg0).ty.Contents (Elt Ideal)) :
    (StableHlo.TRef.of main_arg0 : StableHlo.TRef sig ⟨S100000x256, .f32⟩).ofBuf v = v := rfl
theorem ofBuf_v57 (v : (Proc.devRef (τ := τ) .tc main_v57).ty.Contents (Elt Ideal)) :
    (StableHlo.TRef.of main_v57 : StableHlo.TRef sig ⟨S104000, .i32⟩).ofBuf v = v := rfl
theorem ofBuf_v65 (v : (Proc.devRef (τ := τ) .tc main_v65).ty.Contents (Elt Ideal)) :
    (StableHlo.TRef.of main_v65 : StableHlo.TRef sig ⟨S100000, .i32⟩).ofBuf v = v := rfl
theorem ofBuf_v80_0 (v : (Proc.devRef (τ := τ) .tc main_v80_0).ty.Contents (Elt Ideal)) :
    (StableHlo.TRef.of main_v80_0 : StableHlo.TRef sig ⟨S104000x1, .f32⟩).ofBuf v = v := rfl
theorem ofBuf_v80_1 (v : (Proc.devRef (τ := τ) .tc main_v80_1).ty.Contents (Elt Ideal)) :
    (StableHlo.TRef.of main_v80_1 : StableHlo.TRef sig ⟨S104000x256, .f32⟩).ofBuf v = v := rfl

theorem take8_apply (W : Valuation τ sig (Elt Ideal)) (r : Fin 104000) (k : Fin 256)
    (hr : ((W (Proc.devRef .tc main_v57) : IVec S104000 32) (ix1 r)).toNat < 100000) :
    (StableHlo.after Gen.hostOps0_14 W (Proc.devRef .tc main_v75) : S104000x256.Idx → EReal) (ix2 r k)
      = (W (Proc.devRef .tc main_arg0) : S100000x256.Idx → EReal)
          (ix2 ⟨((W (Proc.devRef .tc main_v57) : IVec S104000 32) (ix1 r)).toNat, hr⟩ k) := by
  rw [take8_result, toBuf_v75, ofBuf_arg0, ofBuf_v57]
  exact takeRows_apply (by norm_num) (by norm_num) gather_S100000x256_S104000x1_S104000x256_1_0_n_n_0_1_1256
    rfl rfl rfl rfl rfl _ _ _ _ _ _ _ _ _ _ (by decide)
    (W (Proc.devRef .tc main_arg0) : S100000x256.Idx → EReal) (W (Proc.devRef .tc main_v57) : IVec S104000 32) _ r k hr

theorem take9_apply (W : Valuation τ sig (Elt Ideal)) (i : Fin 100000) (j : Fin 1)
    (hi : ((W (Proc.devRef .tc main_v65) : IVec S100000 32) (ix1 i)).toNat < 104000) :
    (StableHlo.after Gen.hostOps1 W (Proc.devRef .tc main_v81) : S100000x1.Idx → EReal) (ix2 i j)
      = (W (Proc.devRef .tc main_v80_0) : S104000x1.Idx → EReal)
          (ix2 ⟨((W (Proc.devRef .tc main_v65) : IVec S100000 32) (ix1 i)).toNat, hi⟩ j) := by
  rw [take9_result, toBuf_v81, ofBuf_v80_0, ofBuf_v65]
  exact takeRows_apply (by norm_num) (by norm_num) gather_S104000x1_S100000x1_S100000x1_1_0_n_n_0_1_11
    rfl rfl rfl rfl rfl _ _ _ _ _ _ _ _ _ _ (by decide)
    (W (Proc.devRef .tc main_v80_0) : S104000x1.Idx → EReal) (W (Proc.devRef .tc main_v65) : IVec S100000 32) _ i j hi

theorem take10_apply (W : Valuation τ sig (Elt Ideal)) (i : Fin 100000) (f : Fin 256)
    (hi : ((W (Proc.devRef .tc main_v65) : IVec S100000 32) (ix1 i)).toNat < 104000) :
    (StableHlo.after Gen.hostOps1_1 W (Proc.devRef .tc main_v82) : S100000x256.Idx → EReal) (ix2 i f)
      = (W (Proc.devRef .tc main_v80_1) : S104000x256.Idx → EReal)
          (ix2 ⟨((W (Proc.devRef .tc main_v65) : IVec S100000 32) (ix1 i)).toNat, hi⟩ f) := by
  rw [take10_result, toBuf_v82, ofBuf_v80_1, ofBuf_v65]
  exact takeRows_apply (by norm_num) (by norm_num) gather_S104000x256_S100000x1_S100000x256_1_0_n_n_0_1_1256
    rfl rfl rfl rfl rfl _ _ _ _ _ _ _ _ _ _ (by decide)
    (W (Proc.devRef .tc main_v80_1) : S104000x256.Idx → EReal) (W (Proc.devRef .tc main_v65) : IVec S100000 32) _ i f hi

variable (m : (ℓ : Loc nD τ sig) → Buf (Elt Ideal) ℓ) (outs : Gen.Outs (F := Ideal)) (c : Dev nD)

theorem V14_main_arg0 : Gen.V14 m c main_arg0 = m ((c : Thread nD τ).loc main_arg0) :=
  (V14_of m c main_arg0 (by decide)).trans <| (V13_of m c main_arg0 (by decide)).trans <| (V12_of m c main_arg0 (by decide)).trans <| (V11_of m c main_arg0 (by decide)).trans <| (V10_of m c main_arg0 (by decide)).trans <| (V9_of m c main_arg0 (by decide)).trans <| (V8_of m c main_arg0 (by decide)).trans <| (V7_of m c main_arg0 (by decide)).trans <| (V6_of m c main_arg0 (by decide)).trans <| (V5_of m c main_arg0 (by decide)).trans <| (V4_of m c main_arg0 (by decide)).trans <| (V3_of m c main_arg0 (by decide)).trans <| (V2_of m c main_arg0 (by decide)).trans <| (V1_of m c main_arg0 (by decide)).trans rfl

theorem V22_main_v75 : Gen.V22 m outs c main_v75 = Gen.V15 m c main_v75 :=
  (V22_of m outs c main_v75 (by decide)).trans <| (V21_of m outs c main_v75 (by decide)).trans <| (V20_of m outs c main_v75 (by decide)).trans <| (V19_of m outs c main_v75 (by decide)).trans <| (V18_of m outs c main_v75 (by decide)).trans <| (V17_of m outs c main_v75 (by decide)).trans <| (V16_of m c main_v75 (by decide))

theorem V22_main_v57 : Gen.V22 m outs c main_v57 = Gen.V14 m c main_v57 :=
  (V22_of m outs c main_v57 (by decide)).trans <| (V21_of m outs c main_v57 (by decide)).trans <| (V20_of m outs c main_v57 (by decide)).trans <| (V19_of m outs c main_v57 (by decide)).trans <| (V18_of m outs c main_v57 (by decide)).trans <| (V17_of m outs c main_v57 (by decide)).trans <| (V16_of m c main_v57 (by decide)).trans <| (V15_of m c main_v57 (by decide))

theorem V17_main_v80_0 : Gen.V17 m outs c main_v80_0 = outs 17 main_v80_0 c := by
  simp only [Gen.V17, Function.update_of_ne (StableHlo.devRef_ne_of_ne (by decide) : (Proc.devRef .tc main_v80_0 : DevRef τ sig) ≠ Proc.devRef .tc main_v80_1), Function.update_self]

theorem V18_main_v80_1 : Gen.V18 m outs c main_v80_1 = outs 17 main_v80_1 c :=
  (V18_of m outs c main_v80_1 (by decide)).trans (by simp only [Gen.V17, Function.update_self])

theorem V22_main_v81 : Gen.V22 m outs c main_v81 = Gen.V18 m outs c main_v81 :=
  (V22_of m outs c main_v81 (by decide)).trans <| (V21_of m outs c main_v81 (by decide)).trans <| (V20_of m outs c main_v81 (by decide)).trans <| (V19_of m outs c main_v81 (by decide))

theorem V22_main_v82 : Gen.V22 m outs c main_v82 = Gen.V19 m outs c main_v82 :=
  (V22_of m outs c main_v82 (by decide)).trans <| (V21_of m outs c main_v82 (by decide)).trans <| (V20_of m outs c main_v82 (by decide))

theorem V22_main_v65_17 : Gen.V22 m outs c main_v65 = Gen.V17 m outs c main_v65 :=
  (V22_of m outs c main_v65 (by decide)).trans <| (V21_of m outs c main_v65 (by decide)).trans <| (V20_of m outs c main_v65 (by decide)).trans <| (V19_of m outs c main_v65 (by decide)).trans <| (V18_of m outs c main_v65 (by decide))

theorem V22_main_v65_18 : Gen.V22 m outs c main_v65 = Gen.V18 m outs c main_v65 :=
  (V22_of m outs c main_v65 (by decide)).trans <| (V21_of m outs c main_v65 (by decide)).trans <| (V20_of m outs c main_v65 (by decide)).trans <| (V19_of m outs c main_v65 (by decide))

theorem xsorted_apply (r : Fin 104000) (k : Fin 256)
    (hr : ((Gen.V22 m outs c main_v57 : IVec S104000 32) (ix1 r)).toNat < 100000) :
    (Gen.V22 m outs c main_v75 : S104000x256.Idx → EReal) (ix2 r k)
      = (m ((c : Thread nD τ).loc main_arg0) : S100000x256.Idx → EReal)
          (ix2 ⟨((Gen.V22 m outs c main_v57 : IVec S104000 32) (ix1 r)).toNat, hr⟩ k) := by
  revert hr
  rw [V22_main_v75, V22_main_v57, ← V14_main_arg0 m c]
  intro hr
  exact take8_apply (Gen.V14 m c) r k hr

theorem xsorted_apply_entry (r : Fin 104000) (k : Fin 256)
    (hr : ((Gen.V16 m c main_v57 : IVec S104000 32) (ix1 r)).toNat < 100000) :
    (Gen.V16 m c main_v75 : S104000x256.Idx → EReal) (ix2 r k)
      = (m ((c : Thread nD τ).loc main_arg0) : S100000x256.Idx → EReal)
          (ix2 ⟨((Gen.V16 m c main_v57 : IVec S104000 32) (ix1 r)).toNat, hr⟩ k) := by
  revert hr
  rw [V16_of m c main_v75 (by decide), (V16_of m c main_v57 (by decide)).trans (V15_of m c main_v57 (by decide)),
    ← V14_main_arg0 m c]
  intro hr
  exact take8_apply (Gen.V14 m c) r k hr

theorem nn_per_atom_apply (i : Fin 100000)
    (hi : ((Gen.V22 m outs c main_v65 : IVec S100000 32) (ix1 i)).toNat < 104000) :
    (Gen.V22 m outs c main_v81 : S100000x1.Idx → EReal) (ix2 i (0 : Fin 1))
      = (outs 17 main_v80_0 c : S104000x1.Idx → EReal)
          (ix2 ⟨((Gen.V22 m outs c main_v65 : IVec S100000 32) (ix1 i)).toNat, hi⟩ (0 : Fin 1)) := by
  revert hi
  rw [V22_main_v81, V22_main_v65_17, ← V17_main_v80_0 m outs c]
  intro hi
  exact take9_apply (Gen.V17 m outs c) i 0 hi

theorem nn_grads_apply (i : Fin 100000) (f : Fin 256)
    (hi : ((Gen.V22 m outs c main_v65 : IVec S100000 32) (ix1 i)).toNat < 104000) :
    (Gen.V22 m outs c main_v82 : S100000x256.Idx → EReal) (ix2 i f)
      = (outs 17 main_v80_1 c : S104000x256.Idx → EReal)
          (ix2 ⟨((Gen.V22 m outs c main_v65 : IVec S100000 32) (ix1 i)).toNat, hi⟩ f) := by
  revert hi
  rw [V22_main_v82, V22_main_v65_18, ← V18_main_v80_1 m outs c]
  intro hi
  exact take10_apply (Gen.V18 m outs c) i f hi

end Program

end Cert.KernelIdeal.HandValue

end
-- ==== Proof.SchedPure.lean ====
import Mathlib.Data.Fintype.Card
import Mathlib.Algebra.BigOperators.Group.Finset.Basic
import Mathlib.Algebra.BigOperators.Ring.Finset
import Mathlib.Algebra.Order.BigOperators.Group.Finset
import Mathlib.Order.Interval.Finset.Fin
import Mathlib.Order.Monotone.Basic

namespace Cert.Sched

variable {N : ℕ}

def count (z : Fin N → Fin 4) (s : Fin 4) : ℕ := (Finset.univ.filter fun i => z i = s).card

def pad (z : Fin N → Fin 4) (s : Fin 4) : ℕ := ((count z s + 999) / 1000) * 1000

def uoff (z : Fin N → Fin 4) (s : Fin 4) : ℕ := ∑ s' ∈ Finset.univ.filter (· < s), count z s'

def poff (z : Fin N → Fin 4) (s : Fin 4) : ℕ := ∑ s' ∈ Finset.univ.filter (· < s), pad z s'

def tcum (z : Fin N → Fin 4) (s : Fin 4) : ℕ := ∑ s' ∈ Finset.univ.filter (· ≤ s), pad z s' / 1000

def dest (z : Fin N → Fin 4) (σ : Fin N → Fin N) (j : Fin N) : ℕ :=
  poff z (z (σ j)) + (j.val - uoff z (z (σ j)))

variable (z : Fin N → Fin 4) (σ : Fin N → Fin N)

theorem count_le_pad (s : Fin 4) : count z s ≤ pad z s := by unfold pad; omega

theorem pad_lt (s : Fin 4) : pad z s < count z s + 1000 := by unfold pad; omega

theorem pad_div_mul (s : Fin 4) : pad z s / 1000 * 1000 = pad z s := by unfold pad; omega

theorem poff_add_pad (s : Fin 4) :
    ∑ x ∈ Finset.univ.filter (· ≤ s), pad z x = poff z s + pad z s := by
  have h : Finset.univ.filter (· ≤ s) = insert s (Finset.univ.filter (· < s)) := by
    ext x; simp [le_iff_eq_or_lt]
  rw [h, Finset.sum_insert (by simp), poff, add_comm]

theorem ptop_le_poff {s1 s2 : Fin 4} (h : s1 < s2) : poff z s1 + pad z s1 ≤ poff z s2 := by
  rw [← poff_add_pad]; unfold poff
  apply Finset.sum_le_sum_of_subset
  intro x hx
  simp only [Finset.mem_filter, Finset.mem_univ, true_and] at hx ⊢
  exact lt_of_le_of_lt hx h

theorem ptop_mono {s1 s2 : Fin 4} (h : s1 ≤ s2) : poff z s1 + pad z s1 ≤ poff z s2 + pad z s2 := by
  rcases h.lt_or_eq with h | rfl
  · exact (ptop_le_poff z h).trans (Nat.le_add_right _ _)
  · exact le_rfl

theorem tcum_mul (s : Fin 4) : tcum z s * 1000 = poff z s + pad z s := by
  rw [← poff_add_pad, tcum, Finset.sum_mul]
  exact Finset.sum_congr rfl fun x _ => pad_div_mul z x

theorem sum_count : ∑ s : Fin 4, count z s = N := by
  have h := Finset.card_eq_sum_card_fiberwise (f := z) (s := Finset.univ) (t := Finset.univ)
    (fun _ _ => Finset.mem_univ _)
  simp only [Finset.card_univ, Fintype.card_fin] at h
  exact h.symm

theorem ptop_le (s : Fin 4) : poff z s + pad z s ≤ N + 3996 := by
  rw [← poff_add_pad]
  calc ∑ x ∈ Finset.univ.filter (· ≤ s), pad z x
      ≤ ∑ x : Fin 4, pad z x := Finset.sum_le_sum_of_subset (Finset.subset_univ _)
    _ ≤ ∑ x : Fin 4, (count z x + 999) :=
        Finset.sum_le_sum fun x _ => by have := pad_lt z x; omega
    _ = N + 3996 := by rw [Finset.sum_add_distrib, sum_count]; simp

theorem card_fiber (hσ : Function.Bijective σ) (s : Fin 4) :
    (Finset.univ.filter fun j => z (σ j) = s).card = count z s := by
  unfold count
  apply Finset.card_bij (fun j _ => σ j)
  · intro j hj; simpa using hj
  · intro a _ b _ h; exact hσ.1 h
  · intro i hi
    obtain ⟨j, rfl⟩ := hσ.2 i
    exact ⟨j, by simpa using hi, rfl⟩

theorem card_below (hσ : Function.Bijective σ) (s : Fin 4) :
    (Finset.univ.filter fun j => z (σ j) < s).card = uoff z s := by
  rw [Finset.card_eq_sum_card_fiberwise (f := fun j => z (σ j)) (t := Finset.univ.filter (· < s))
    (by intro j hj; simpa using hj)]
  unfold uoff
  apply Finset.sum_congr rfl
  intro b hb
  rw [← card_fiber z σ hσ b, Finset.filter_filter]
  congr 1
  ext j
  simp only [Finset.mem_filter, Finset.mem_univ, true_and] at hb ⊢
  constructor
  · exact fun h => h.2
  · exact fun h => ⟨h ▸ hb, h⟩

theorem rank_bounds (hσ : Function.Bijective σ) (hm : Monotone (z ∘ σ)) (j : Fin N) :
    uoff z (z (σ j)) ≤ j.val ∧ j.val < uoff z (z (σ j)) + count z (z (σ j)) := by
  constructor
  · calc uoff z (z (σ j)) = (Finset.univ.filter fun i => z (σ i) < z (σ j)).card :=
          (card_below z σ hσ _).symm
      _ ≤ (Finset.Iio j).card := Finset.card_le_card (by
          intro i hi
          simp only [Finset.mem_filter, Finset.mem_univ, true_and] at hi
          rw [Finset.mem_Iio]
          by_contra hji
          exact absurd (hm (not_lt.mp hji)) (not_le.mpr hi))
      _ = j.val := Fin.card_Iio j
  · have h1 : j.val + 1 = (Finset.Iic j).card := (Fin.card_Iic j).symm
    have h2 : (Finset.Iic j).card ≤ ((Finset.univ.filter fun i => z (σ i) < z (σ j)) ∪
        (Finset.univ.filter fun i => z (σ i) = z (σ j))).card :=
      Finset.card_le_card (by
        intro i hi
        rw [Finset.mem_Iic] at hi
        simp only [Finset.mem_union, Finset.mem_filter, Finset.mem_univ, true_and]
        exact (hm hi).lt_or_eq)
    have h3 := Finset.card_union_le (Finset.univ.filter fun i => z (σ i) < z (σ j))
      (Finset.univ.filter fun i => z (σ i) = z (σ j))
    rw [card_below z σ hσ, card_fiber z σ hσ] at h3
    omega

theorem dest_bounds (hσ : Function.Bijective σ) (hm : Monotone (z ∘ σ)) (j : Fin N) :
    poff z (z (σ j)) ≤ dest z σ j ∧ dest z σ j < poff z (z (σ j)) + pad z (z (σ j)) := by
  have h1 := rank_bounds z σ hσ hm j
  have h2 := count_le_pad z (z (σ j))
  unfold dest
  omega

theorem dest_lt (hσ : Function.Bijective σ) (hm : Monotone (z ∘ σ)) (j : Fin N) :
    dest z σ j < N + 4000 := by
  have h1 := dest_bounds z σ hσ hm j
  have h2 := ptop_le z (z (σ j))
  omega

theorem dest_inj (hσ : Function.Bijective σ) (hm : Monotone (z ∘ σ)) :
    Function.Injective (dest z σ) := by
  intro j1 j2 h
  have b1 := dest_bounds z σ hσ hm j1
  have b2 := dest_bounds z σ hσ hm j2
  have hs : z (σ j1) = z (σ j2) := by
    rcases lt_trichotomy (z (σ j1)) (z (σ j2)) with hlt | heq | hgt
    · have := ptop_le_poff z hlt; omega
    · exact heq
    · have := ptop_le_poff z hgt; omega
  have r1 := rank_bounds z σ hσ hm j1
  have r2 := rank_bounds z σ hσ hm j2
  unfold dest at h
  rw [hs] at h r1
  apply Fin.ext
  omega

theorem tile_of_dest (hσ : Function.Bijective σ) (hm : Monotone (z ∘ σ)) (j : Fin N) :
    (Finset.univ.filter fun s : Fin 4 => tcum z s ≤ dest z σ j / 1000).card = (z (σ j)).val := by
  have b := dest_bounds z σ hσ hm j
  have key : ∀ s : Fin 4, tcum z s ≤ dest z σ j / 1000 ↔ s < z (σ j) := by
    intro s
    have hmul := tcum_mul z s
    constructor
    · intro h
      by_contra hn
      have := ptop_mono z (not_lt.mp hn)
      omega
    · intro h
      have := ptop_le_poff z h
      omega
  have : (Finset.univ.filter fun s : Fin 4 => tcum z s ≤ dest z σ j / 1000) = Finset.Iio (z (σ j)) := by
    ext s
    simp only [Finset.mem_filter, Finset.mem_univ, true_and, Finset.mem_Iio]
    exact key s
  rw [this, Fin.card_Iio]

end Cert.Sched
-- ==== Proof.SchedCore.lean ====
import proofs.«428180_j4174708212170_2_alg».proof.Proof.SchedPure
import Idealize.ShloMosaic.Lib.ValueIdx

namespace Cert.Sched

open Idealize.ShloMosaic Idealize.ShloMosaic.ValueIdx

theorem at_congr {n w : ℕ} (v : IVec ⟨1, ![n]⟩ w) {a b : ℕ} (ha : a < n) (hb : b < n) (h : a = b) :
    v (ix1 ⟨a, ha⟩) = v (ix1 ⟨b, hb⟩) := by
  subst h; rfl

theorem sched_core (zf : Fin 100000 → Fin 4) (σ : Fin 100000 → Fin 100000)
    (hσ : Function.Bijective σ) (hm : Monotone (zf ∘ σ))
    (v25 v49 v65 : IVec ⟨1, ![100000]⟩ 32) (v57 : IVec ⟨1, ![104000]⟩ 32) (v74 : IVec ⟨1, ![104]⟩ 32)
    (h25 : ∀ j, (v25 (ix1 j)).toNat = (σ j).val)
    (h49 : ∀ j, (v49 (ix1 j)).toNat = dest zf σ j)
    (h57 : ∀ j (h : dest zf σ j < 104000), v57 (ix1 ⟨dest zf σ j, h⟩) = v25 (ix1 j))
    (h65 : ∀ j, v65 (ix1 (σ j)) = v49 (ix1 j))
    (h74 : ∀ t : Fin 104, (v74 (ix1 t)).toNat
      = min 3 (Finset.univ.filter fun s : Fin 4 => tcum zf s ≤ t.val).card)
    (i : Fin 100000) :
    ∃ h : (v65 (ix1 i)).toNat < 104000,
      (v57 (ix1 ⟨(v65 (ix1 i)).toNat, h⟩)).toNat = i.val ∧
      (v74 (ix1 ⟨(v65 (ix1 i)).toNat / 1000, by omega⟩)).toNat = (zf i).val := by
  obtain ⟨j, rfl⟩ := hσ.2 i
  have hd := dest_lt zf σ hσ hm j
  have hinv : (v65 (ix1 (σ j))).toNat = dest zf σ j := by rw [h65, h49]
  have hlt : (v65 (ix1 (σ j))).toNat < 104000 := by rw [hinv]; omega
  refine ⟨hlt, ?_, ?_⟩
  · rw [at_congr v57 hlt (by omega) hinv, h57, h25]
  · rw [at_congr v74 (by omega) (by omega : dest zf σ j / 1000 < 104) (by rw [hinv]), h74]
    have h1 := tile_of_dest zf σ hσ hm j
    have h2 := (zf (σ j)).isLt
    simp only at h1 ⊢
    omega

end Cert.Sched
-- ==== Proof.SchedFactsOf.lean ====
import proofs.«428180_j4174708212170_2_alg».proof.Proof.SchedCore
import proofs.«428180_j4174708212170_2_alg».proof.Proof.SchedZ
import proofs.«428180_j4174708212170_2_alg».proof.Proof.Gen.KernelIdeal.Regions

set_option maxRecDepth 1644

noncomputable section

namespace Cert.KernelIdeal.Hand

open Cert.KernelIdeal Cert.KernelIdeal.Gen Cert.Sched
open Idealize.ShloMosaic Idealize.ShloMosaic.TcCoe Idealize.ShloMosaic.ValueIdx

variable {F : FTy → Type} [FloatOps F]
variable (m : (ℓ : Loc nD τ sig) → Buf (Elt F) ℓ) (outs : Gen.Outs (F := F)) (c : Dev nD)

theorem V22_v65 : Gen.V22 m outs c main_v65 = Gen.V16 m c main_v65 :=
  (V22_of m outs c main_v65 (by decide)).trans <| (V21_of m outs c main_v65 (by decide)).trans <| (V20_of m outs c main_v65 (by decide)).trans <| (V19_of m outs c main_v65 (by decide)).trans <| (V18_of m outs c main_v65 (by decide)).trans <| (V17_of m outs c main_v65 (by decide))
theorem V22_v57 : Gen.V22 m outs c main_v57 = Gen.V16 m c main_v57 :=
  (V22_of m outs c main_v57 (by decide)).trans <| (V21_of m outs c main_v57 (by decide)).trans <| (V20_of m outs c main_v57 (by decide)).trans <| (V19_of m outs c main_v57 (by decide)).trans <| (V18_of m outs c main_v57 (by decide)).trans <| (V17_of m outs c main_v57 (by decide))
theorem V22_v74 : Gen.V22 m outs c main_v74 = Gen.V16 m c main_v74 :=
  (V22_of m outs c main_v74 (by decide)).trans <| (V21_of m outs c main_v74 (by decide)).trans <| (V20_of m outs c main_v74 (by decide)).trans <| (V19_of m outs c main_v74 (by decide)).trans <| (V18_of m outs c main_v74 (by decide)).trans <| (V17_of m outs c main_v74 (by decide))

theorem sched_facts_of (zf : Fin 100000 → Fin 4) (σ : Fin 100000 → Fin 100000)
    (hσ : Function.Bijective σ) (hm : Monotone (zf ∘ σ))
    (h25 : ∀ j, ((Gen.V16 m c main_v25 : IVec S100000 32) (ix1 j)).toNat = (σ j).val)
    (h49 : ∀ j, ((Gen.V16 m c main_v49 : IVec S100000 32) (ix1 j)).toNat = dest zf σ j)
    (h57 : ∀ j (h : dest zf σ j < 104000), (Gen.V16 m c main_v57 : IVec S104000 32) (ix1 ⟨dest zf σ j, h⟩)
      = (Gen.V16 m c main_v25 : IVec S100000 32) (ix1 j))
    (h65 : ∀ j, (Gen.V16 m c main_v65 : IVec S100000 32) (ix1 (σ j))
      = (Gen.V16 m c main_v49 : IVec S100000 32) (ix1 j))
    (h74 : ∀ t : Fin 104, ((Gen.V16 m c main_v74 : IVec S104 32) (ix1 t)).toNat
      = min 3 (Finset.univ.filter fun s : Fin 4 => tcum zf s ≤ t.val).card)
    (i : Fin 100000) :
    ∃ h : ((Gen.V16 m c main_v65 : IVec S100000 32) (ix1 i)).toNat < 104000,
      ((Gen.V16 m c main_v57 : IVec S104000 32)
        (ix1 ⟨((Gen.V16 m c main_v65 : IVec S100000 32) (ix1 i)).toNat, h⟩)).toNat = i.val ∧
      ((Gen.V16 m c main_v74 : IVec S104 32)
        (ix1 ⟨((Gen.V16 m c main_v65 : IVec S100000 32) (ix1 i)).toNat / 1000, by omega⟩)).toNat = (zf i).val :=
  sched_core zf σ hσ hm (Gen.V16 m c main_v25) (Gen.V16 m c main_v49) (Gen.V16 m c main_v65)
    (Gen.V16 m c main_v57) (Gen.V16 m c main_v74) h25 h49 h57 h65 h74 i

theorem sched_facts_end_of (zf : Fin 100000 → Fin 4) (σ : Fin 100000 → Fin 100000)
    (hσ : Function.Bijective σ) (hm : Monotone (zf ∘ σ))
    (h25 : ∀ j, ((Gen.V16 m c main_v25 : IVec S100000 32) (ix1 j)).toNat = (σ j).val)
    (h49 : ∀ j, ((Gen.V16 m c main_v49 : IVec S100000 32) (ix1 j)).toNat = dest zf σ j)
    (h57 : ∀ j (h : dest zf σ j < 104000), (Gen.V16 m c main_v57 : IVec S104000 32) (ix1 ⟨dest zf σ j, h⟩)
      = (Gen.V16 m c main_v25 : IVec S100000 32) (ix1 j))
    (h65 : ∀ j, (Gen.V16 m c main_v65 : IVec S100000 32) (ix1 (σ j))
      = (Gen.V16 m c main_v49 : IVec S100000 32) (ix1 j))
    (h74 : ∀ t : Fin 104, ((Gen.V16 m c main_v74 : IVec S104 32) (ix1 t)).toNat
      = min 3 (Finset.univ.filter fun s : Fin 4 => tcum zf s ≤ t.val).card)
    (i : Fin 100000) :
    ∃ h : ((Gen.V22 m outs c main_v65 : IVec S100000 32) (ix1 i)).toNat < 104000,
      ((Gen.V22 m outs c main_v57 : IVec S104000 32)
        (ix1 ⟨((Gen.V22 m outs c main_v65 : IVec S100000 32) (ix1 i)).toNat, h⟩)).toNat = i.val ∧
      ((Gen.V22 m outs c main_v74 : IVec S104 32)
        (ix1 ⟨((Gen.V22 m outs c main_v65 : IVec S100000 32) (ix1 i)).toNat / 1000, by omega⟩)).toNat
        = (zf i).val := by
  exact sched_core zf σ hσ hm (Gen.V16 m c main_v25) (Gen.V16 m c main_v49) (Gen.V22 m outs c main_v65)
    (Gen.V22 m outs c main_v57) (Gen.V22 m outs c main_v74) h25 h49
    (fun j h => (congrFun (V22_v57 m outs c : (Gen.V22 m outs c main_v57 : IVec S104000 32) = _) _).trans (h57 j h))
    (fun j => (congrFun (V22_v65 m outs c : (Gen.V22 m outs c main_v65 : IVec S100000 32) = _) _).trans (h65 j))
    (fun t => (congrArg BitVec.toNat
      (congrFun (V22_v74 m outs c : (Gen.V22 m outs c main_v74 : IVec S104 32) = _) _)).trans (h74 t)) i

end Cert.KernelIdeal.Hand

end
-- ==== Proof.KChain.lean ====
import proofs.«428180_j4174708212170_2_alg».proof.Proof.KRun
import proofs.«428180_j4174708212170_2_alg».proof.Proof.KArr0
import proofs.«428180_j4174708212170_2_alg».proof.Proof.KArr1
import proofs.«428180_j4174708212170_2_alg».proof.Proof.HostTail
import proofs.«428180_j4174708212170_2_alg».proof.Proof.HostTakes
import proofs.«428180_j4174708212170_2_alg».proof.Proof.SchedFactsOf
import proofs.«428180_j4174708212170_2_alg».proof.Proof.KTable
import proofs.«428180_j4174708212170_2_alg».proof.Proof.SchedZ
import proofs.«428180_j4174708212170_2_alg».proof.Proof.Spec
import proofs.«428180_j4174708212170_2_alg».proof.Proof.GIdx
import Idealize.ShloMosaic.Lib.ValueIdx

set_option maxRecDepth 16384

noncomputable section

namespace Cert.KernelIdeal.HandValue

open Cert.KernelIdeal Cert.KernelIdeal.Gen Cert.KernelIdeal.Hand Cert.GIdx
open Idealize.ShloMosaic Idealize.ShloMosaic.TcCoe Idealize.ShloMosaic.ValueIdx

theorem params_ext {P Q : Cert.Spec.Params} (h1 : P.W1 = Q.W1) (h2 : P.b1 = Q.b1) (h3 : P.W2 = Q.W2) (h4 : P.b2 = Q.b2)
    (h5 : P.W3 = Q.W3) (h6 : P.b3 = Q.b3) (h7 : P.Ws = Q.Ws) (h8 : P.bs = Q.bs) : P = Q := by
  cases P; cases Q
  simp only [Cert.Spec.Params.mk.injEq]
  exact ⟨h1, h2, h3, h4, h5, h6, h7, h8⟩

theorem paramsV_eq (V : (c : Dev nD) → (b : Ref sig .tc) → Buf (Elt Ideal) ((c : Thread nD τ).loc b)) (c : Dev nD) (s : Fin 4)
    (W1 : S4x256x256.Idx → EReal) (B1 : S4x256.Idx → EReal) (W2 : S4x256x256.Idx → EReal) (B2 : S4x256.Idx → EReal)
    (W3 : S4x256x1.Idx → EReal) (B3 : S4x1.Idx → EReal) (Ws : S4x256x1.Idx → EReal) (Bs : S4x1.Idx → EReal)
    (h5 : (V c main_arg5 : S4x256x256.Idx → EReal) = W1)
    (h6 : ∀ j : Fin 256, (V c main_v76 : S4x1x256.Idx → EReal) (ix3 s (0 : Fin 1) j) = B1 (ix2 s j))
    (h7 : (V c main_arg7 : S4x256x256.Idx → EReal) = W2)
    (h8 : ∀ j : Fin 256, (V c main_v77 : S4x1x256.Idx → EReal) (ix3 s (0 : Fin 1) j) = B2 (ix2 s j))
    (h9 : (V c main_arg9 : S4x256x1.Idx → EReal) = W3)
    (h10 : (V c main_v78 : S4x1x1.Idx → EReal) (ix3 s (0 : Fin 1) (0 : Fin 1)) = B3 (ix2 s (0 : Fin 1)))
    (h11 : (V c main_arg11 : S4x256x1.Idx → EReal) = Ws)
    (h12 : (V c main_v79 : S4x1x1.Idx → EReal) (ix3 s (0 : Fin 1) (0 : Fin 1)) = Bs (ix2 s (0 : Fin 1))) :
    paramsV V c s = Cert.Spec.params W1 B1 W2 B2 W3 B3 Ws Bs s := by
  subst h5 h7 h9 h11
  exact params_ext rfl (funext h6) rfl (funext h8) rfl h10 rfl h12

theorem row_of_word (x : S100000x256.Idx → EReal) (xs : S104000x256.Idx → EReal) (w : BitVec 32) (r : Fin 104000) (k : Fin 256)
    (hx : ∀ hr : w.toNat < 100000, xs (ix2 r k) = x (ix2 ⟨w.toNat, hr⟩ k)) (i : Fin 100000) (hw : w.toNat = i.val) :
    xs (ix2 r k) = x (ix2 i k) := by
  have hr : w.toNat < 100000 := by rw [hw]; exact i.isLt
  rw [hx hr]
  exact congrArg (fun a : Fin 100000 => x (ix2 a k)) (Fin.ext hw)

theorem chain_sorted {β : Type} (G : Cert.Spec.Params → (Fin 256 → EReal) → β)
    (PV P : Fin 4 → Cert.Spec.Params) (hP : ∀ s, PV s = P s)
    (tb : Fin 104 → ℕ) (htb : ∀ t, tb t < 4) (v74 : IVec S104 32) (htb74 : ∀ t, tb t = (v74 (ix1 t)).toNat)
    (xs : S104000x256.Idx → EReal) (x : S100000x256.Idx → EReal) (v57 : IVec S104000 32)
    (hxs : ∀ (r : Fin 104000) (k : Fin 256) (hr : (v57 (ix1 r)).toNat < 100000),
      xs (ix2 r k) = x (ix2 ⟨(v57 (ix1 r)).toNat, hr⟩ k))
    (n : ℕ) (hn : n < 104000) (i : Fin 100000) (z : Fin 4)
    (hsrc : (v57 (ix1 (⟨n, hn⟩ : Fin 104000))).toNat = i.val)
    (htile : (v74 (ix1 (⟨n / 1000, by omega⟩ : Fin 104))).toNat = z.val) :
    G (PV ⟨tb ⟨(⟨n, hn⟩ : Fin 104000).val / 1000, tile0_lt ⟨n, hn⟩⟩, htb _⟩) (fun k => xs (ix2 (⟨n, hn⟩ : Fin 104000) k))
      = G (P z) (Cert.Spec.row x i) := by
  have hs : (⟨tb ⟨(⟨n, hn⟩ : Fin 104000).val / 1000, tile0_lt ⟨n, hn⟩⟩, htb _⟩ : Fin 4) = z :=
    Fin.ext ((htb74 _).trans htile)
  have hrow : (fun k => xs (ix2 (⟨n, hn⟩ : Fin 104000) k)) = Cert.Spec.row x i :=
    funext fun k => row_of_word x xs _ ⟨n, hn⟩ k (fun hr => hxs ⟨n, hn⟩ k hr) i hsrc
  rw [hs, hrow, hP]

section
variable (m : (ℓ : Loc nD τ sig) → Buf (Elt Ideal) ℓ) (c : Dev nD)

abbrev launchParams (s : Fin 4) : Cert.Spec.Params :=
  Cert.Spec.params (m ((c : Thread nD τ).loc main_arg5)) (m ((c : Thread nD τ).loc main_arg6))
    (m ((c : Thread nD τ).loc main_arg7)) (m ((c : Thread nD τ).loc main_arg8))
    (m ((c : Thread nD τ).loc main_arg9)) (m ((c : Thread nD τ).loc main_arg10))
    (m ((c : Thread nD τ).loc main_arg11)) (m ((c : Thread nD τ).loc main_arg12)) s

theorem V16_arg5 : (Gen.V16 m c main_arg5 : S4x256x256.Idx → EReal) = m ((c : Thread nD τ).loc main_arg5) :=
  (Gen.V16_of m c main_arg5 (by decide)).trans (V15_launch m c main_arg5 (by decide) (by decide) (by decide) (by decide)
    (by decide) (by decide) (by decide) (by decide) (by decide) (by decide) (by decide) (by decide) (by decide) (by decide) (by decide))
theorem V16_arg7 : (Gen.V16 m c main_arg7 : S4x256x256.Idx → EReal) = m ((c : Thread nD τ).loc main_arg7) :=
  (Gen.V16_of m c main_arg7 (by decide)).trans (V15_launch m c main_arg7 (by decide) (by decide) (by decide) (by decide)
    (by decide) (by decide) (by decide) (by decide) (by decide) (by decide) (by decide) (by decide) (by decide) (by decide) (by decide))
theorem V16_arg9 : (Gen.V16 m c main_arg9 : S4x256x1.Idx → EReal) = m ((c : Thread nD τ).loc main_arg9) :=
  (Gen.V16_of m c main_arg9 (by decide)).trans (V15_launch m c main_arg9 (by decide) (by decide) (by decide) (by decide)
    (by decide) (by decide) (by decide) (by decide) (by decide) (by decide) (by decide) (by decide) (by decide) (by decide) (by decide))
theorem V16_arg11 : (Gen.V16 m c main_arg11 : S4x256x1.Idx → EReal) = m ((c : Thread nD τ).loc main_arg11) :=
  (Gen.V16_of m c main_arg11 (by decide)).trans (V15_launch m c main_arg11 (by decide) (by decide) (by decide) (by decide)
    (by decide) (by decide) (by decide) (by decide) (by decide) (by decide) (by decide) (by decide) (by decide) (by decide) (by decide))

theorem paramsV_entry (s : Fin 4) : paramsV (VR16 m) c s = launchParams m c s :=
  paramsV_eq (VR16 m) c s (m ((c : Thread nD τ).loc main_arg5)) (m ((c : Thread nD τ).loc main_arg6))
    (m ((c : Thread nD τ).loc main_arg7)) (m ((c : Thread nD τ).loc main_arg8))
    (m ((c : Thread nD τ).loc main_arg9)) (m ((c : Thread nD τ).loc main_arg10))
    (m ((c : Thread nD τ).loc main_arg11)) (m ((c : Thread nD τ).loc main_arg12))
    (V16_arg5 m c) (fun j => v76_apply m c s (0 : Fin 1) j) (V16_arg7 m c) (fun j => v77_apply m c s (0 : Fin 1) j)
    (V16_arg9 m c) (v78_apply m c s (0 : Fin 1) (0 : Fin 1)) (V16_arg11 m c) (v79_apply m c s (0 : Fin 1) (0 : Fin 1))

theorem tbl_word (a : (pcfg0 (F := Ideal)).Adm) (t : Fin 104) : tbl a t = ((a.1 0 : IVec S104 32) (ix1 t)).toNat := rfl

theorem tbl_adm0 (t : Fin 104) : tbl (adm0 m) t = ((Gen.V16 m c main_v74 : IVec S104 32) (ix1 t)).toNat := by
  obtain rfl : c = 0 := Subsingleton.elim _ _
  have e : ((adm0 m).1 0 : IVec S104 32) = (Gen.V16 m 0 main_v74 : IVec S104 32) :=
    (congrFun (adm0_val m) 0).trans (tbl0_zero m)
  exact (tbl_word (adm0 m) t).trans (congrArg (fun v : IVec S104 32 => (v (ix1 t)).toNat) e)

section
variable (hz : ∀ i : Fin 100000, (zw m c (ix1 i)).toNat < 4)

theorem nn_per_atom_k
    (hS : ∀ i : Fin 100000, ∃ h : ((Gen.V22 m (outs m) c main_v65 : IVec S100000 32) (ix1 i)).toNat < 104000,
      ((Gen.V22 m (outs m) c main_v57 : IVec S104000 32)
        (ix1 ⟨((Gen.V22 m (outs m) c main_v65 : IVec S100000 32) (ix1 i)).toNat, h⟩)).toNat = i.val ∧
      ((Gen.V22 m (outs m) c main_v74 : IVec S104 32)
        (ix1 ⟨((Gen.V22 m (outs m) c main_v65 : IVec S100000 32) (ix1 i)).toNat / 1000, by omega⟩)).toNat
        = (zw m c (ix1 i)).toNat)
    (i : Fin 100000) :
    (Gen.V22 m (outs m) c main_v81 : S100000x1.Idx → EReal) (ix2 i (0 : Fin 1))
      = Cert.Spec.out (launchParams m c (zf m c hz i)) (Cert.Spec.row (m ((c : Thread nD τ).loc main_arg0)) i) := by
  obtain ⟨hi, hsrc, htile⟩ := hS i
  have hsrc16 := (congrArg (fun v : IVec S104000 32 => (v (ix1 ⟨_, hi⟩)).toNat) (Cert.KernelIdeal.Hand.V22_v57 m (outs m) c)).symm.trans hsrc
  have htile16 := ((congrArg (fun v : IVec S104 32 => (v (ix1 ⟨_, by omega⟩)).toNat) (Cert.KernelIdeal.Hand.V22_v74 m (outs m) c)).symm.trans htile).trans (zf_val m c hz i).symm
  refine (nn_per_atom_apply m (outs m) c i hi).trans ?_
  refine (congrArg (fun a : S104000x1.Idx → EReal => a (ix2 ⟨_, hi⟩ (0 : Fin 1))) (outs_v80_0 m c)).trans ?_
  refine (out_sorted_at (VR16 m) (adm0 m) c ⟨_, hi⟩).trans ?_
  exact chain_sorted (fun P x => Cert.Spec.out P x) (paramsV (VR16 m) c) (launchParams m c) (paramsV_entry m c)
    (tbl (adm0 m)) (tbl_lt (adm0 m)) (Gen.V16 m c main_v74) (tbl_adm0 m c)
    (Gen.V16 m c main_v75) (m ((c : Thread nD τ).loc main_arg0)) (Gen.V16 m c main_v57)
    (fun r k hr => xsorted_apply_entry m c r k hr) _ hi i (zf m c hz i) hsrc16 htile16

theorem nn_grads_k
    (hS : ∀ i : Fin 100000, ∃ h : ((Gen.V22 m (outs m) c main_v65 : IVec S100000 32) (ix1 i)).toNat < 104000,
      ((Gen.V22 m (outs m) c main_v57 : IVec S104000 32)
        (ix1 ⟨((Gen.V22 m (outs m) c main_v65 : IVec S100000 32) (ix1 i)).toNat, h⟩)).toNat = i.val ∧
      ((Gen.V22 m (outs m) c main_v74 : IVec S104 32)
        (ix1 ⟨((Gen.V22 m (outs m) c main_v65 : IVec S100000 32) (ix1 i)).toNat / 1000, by omega⟩)).toNat
        = (zw m c (ix1 i)).toNat)
    (i : Fin 100000) (f : Fin 256) :
    (Gen.V22 m (outs m) c main_v82 : S100000x256.Idx → EReal) (ix2 i f)
      = Cert.Spec.grad (launchParams m c (zf m c hz i)) (Cert.Spec.row (m ((c : Thread nD τ).loc main_arg0)) i) f := by
  obtain ⟨hi, hsrc, htile⟩ := hS i
  have hsrc16 := (congrArg (fun v : IVec S104000 32 => (v (ix1 ⟨_, hi⟩)).toNat) (Cert.KernelIdeal.Hand.V22_v57 m (outs m) c)).symm.trans hsrc
  have htile16 := ((congrArg (fun v : IVec S104 32 => (v (ix1 ⟨_, by omega⟩)).toNat) (Cert.KernelIdeal.Hand.V22_v74 m (outs m) c)).symm.trans htile).trans (zf_val m c hz i).symm
  refine (nn_grads_apply m (outs m) c i f hi).trans ?_
  refine (congrArg (fun a : S104000x256.Idx → EReal => a (ix2 ⟨_, hi⟩ f)) (outs_v80_1 m c)).trans ?_
  refine (grad_sorted_at (VR16 m) (adm0 m) c ⟨_, hi⟩ f).trans ?_
  exact chain_sorted (fun P x => Cert.Spec.grad P x f) (paramsV (VR16 m) c) (launchParams m c) (paramsV_entry m c)
    (tbl (adm0 m)) (tbl_lt (adm0 m)) (Gen.V16 m c main_v74) (tbl_adm0 m c)
    (Gen.V16 m c main_v75) (m ((c : Thread nD τ).loc main_arg0)) (Gen.V16 m c main_v57)
    (fun r k hr => xsorted_apply_entry m c r k hr) _ hi i (zf m c hz i) hsrc16 htile16

end

abbrev pairGradArg : S200000x3x256.Idx → EReal := m ((c : Thread nD τ).loc main_arg3)

abbrev gradsEnd : S100000x256.Idx → EReal := Gen.V22 m (outs m) c main_v82

abbrev perPairEnd : S200000x3.Idx → EReal := outs m 21 main_v94 c

theorem per_pair_k (p : Fin 200000) (d : Fin 3) :
    perPairEnd m c (ix2 p d)
      = 0 - ∑ f : Fin 256, pairGradArg m c (ix3 p d f) * gradsEnd m c (ix2 (gidx (m ((c : Thread nD τ).loc main_arg4)) p) f) := by
  refine (congrArg (fun a : S200000x3.Idx → EReal => a (ix2 p d)) (outs_v94 m c)).trans ?_
  refine (per_pair_at (VR20 m) c _ _ rfl rfl p d).trans ?_
  refine congrArg (fun s : EReal => 0 - s) (Finset.sum_congr rfl fun f _ => ?_)
  refine congrArg₂ (· * ·) (pgflat_apply_V20 m (outs m) c p d f) ?_
  refine (gathered_apply_V20 m (outs m) c p f).trans ?_
  exact (congrArg (fun a : S100000x256.Idx → EReal => a (ix2 (gidx (m ((c : Thread nD τ).loc main_arg4)) p) f)) (v82_V22 m (outs m) c)).symm

end

end Cert.KernelIdeal.HandValue

end
-- ==== Proof.SchedSortLib.lean ====
import Idealize.ShloMosaic.Lib.StableHlo.Predicate
import Idealize.ShloMosaic.Lib.SortFacts
import Idealize.ShloMosaic.Lib.ValueIdx

namespace Cert.SortLib

open Idealize.ShloMosaic Idealize.ShloMosaic.ValueIdx Idealize.ShloMosaic.StableHlo.Predicate

theorem ix1_eq_ofFin {n : Nat} (p : Fin n) : (ix1 p : (⟨1, ![n]⟩ : Shape).Idx) = Shape.Idx.ofFin p := by
  funext d
  match d with
  | ⟨0, _⟩ => exact Fin.ext rfl

theorem before_iff (x y : BitVec 32) : (IntOp.cmpi .slt x y == 1#1) = true ↔ x.toInt < y.toInt := by
  unfold IntOp.cmpi
  simp only [beq_iff_eq, ofBool_eq_one_iff, BitVec.slt, decide_eq_true_eq]

theorem before_false_iff (x y : BitVec 32) : (IntOp.cmpi .slt x y == 1#1) = false ↔ y.toInt ≤ x.toInt := by
  rw [← Bool.not_eq_true, before_iff]; omega

section SortPerm
variable {n : Nat}

def perm (z : IVec ⟨1, ![n]⟩ 32) : Fin n → Fin n :=
  sortedFrom fun k k' => IntOp.cmpi .slt (z (Shape.Idx.ofFin k)) (z (Shape.Idx.ofFin k')) == 1#1

theorem perm_bijective (z : IVec ⟨1, ![n]⟩ 32) : Function.Bijective (perm z) :=
  ⟨sortedFrom_injective _, sortedFrom_surjective _⟩

theorem perm_sorted (z : IVec ⟨1, ![n]⟩ 32) (i j : Fin n) (hij : i ≤ j) :
    (z (Shape.Idx.ofFin (perm z i))).toInt ≤ (z (Shape.Idx.ofFin (perm z j))).toInt := by
  rcases eq_or_lt_of_le hij with rfl | hlt
  · exact le_refl _
  · have h := sortedFrom_noInversion
      (fun k k' => IntOp.cmpi .slt (z (Shape.Idx.ofFin k)) (z (Shape.Idx.ofFin k')) == 1#1)
      (fun k k' => IntOp.cmpi .slt (z (Shape.Idx.ofFin k)) (z (Shape.Idx.ofFin k')) == 1#1)
      (fun a b hab => by rw [before_iff] at hab; rw [before_false_iff]; omega)
      (fun _ _ h => h)
      (fun a b c hab hbc => by rw [before_false_iff] at hab hbc ⊢; omega)
      i j hlt
    exact (before_false_iff _ _).1 h

theorem sort2_snd {β : Type} (cmp : BitVec 32 × β → BitVec 32 × β → BitVec 1)
    (hcmp : ∀ l r, cmp l r = IntOp.cmpi .slt l.1 r.1)
    (z : IVec ⟨1, ![n]⟩ 32) (y : (⟨1, ![n]⟩ : Shape).Idx → β) (j : (⟨1, ![n]⟩ : Shape).Idx) :
    (Host.sort2 ⟨1, ![n]⟩ 0 cmp z y).2 j = y (Shape.Idx.ofFin (perm z (j 0))) := by
  unfold Host.sort2 perm
  simp [hcmp]

end SortPerm

attribute [irreducible] perm

theorem slt_zero_of_small (a : BitVec 32) (ha : a.toNat < 2 ^ 31) : IntOp.cmpi .slt a 0#32 = 0#1 := by
  refine eq_zero_of_ne_one fun h => ?_
  have := (slt_iff_toNat ha (by decide)).1 h
  simp at this

theorem norm_of_small (a e : BitVec 32) (ha : a.toNat < 2 ^ 31) :
    Scalar.select (IntOp.cmpi .slt a 0#32) (IntOp.addi a e) a = a := by
  rw [slt_zero_of_small a ha, select_zero]

theorem take_norm {α : Type} {N n : Nat} (d : GatherDims ⟨1, ![N]⟩ ⟨2, ![n, 1]⟩ ⟨1, ![n]⟩)
    (hcoll : d.collapsedSliceDims = [0]) (hob : d.operandBatchingDims = [])
    (hsim : d.startIndexMap = [0]) (hivd : d.indexVectorDim = 1)
    (h₀ : (⟨0, ![]⟩ : Shape).BroadcastsInDim ⟨1, ![n]⟩ ![])
    (h₁ : (⟨1, ![n]⟩ : Shape).BroadcastsInDim ⟨2, ![n, 1]⟩ ![0])
    (x : (⟨1, ![N]⟩ : Shape).Idx → α) (s : IVec ⟨1, ![n]⟩ 32) (e : BitVec 32) (p : Fin n) (k : Fin N)
    (hN : N < 2 ^ 31) (hk : (s (ix1 p)).toNat = k.val) :
    Host.gather d x (broadcastInDim ⟨2, ![n, 1]⟩ ![0] h₁
        (select (cmpi .slt s (broadcastInDim ⟨1, ![n]⟩ ![] h₀ (constantI ⟨0, ![]⟩ 32 0#32)))
          (addi s (broadcastInDim ⟨1, ![n]⟩ ![] h₀ (constantI ⟨0, ![]⟩ 32 e))) s)) (ix1 p)
      = x (ix1 k) := by
  have hkN := k.isLt
  rw [ix1_eq_ofFin] at hk
  rw [ix1_eq_ofFin, ix1_eq_ofFin, gather_take d hcoll hob hsim hivd x _ p (by omega)]
  refine congrArg x (congrArg Shape.Idx.ofFin (Fin.ext ?_))
  simp only []
  rw [bcast_col1]
  have hsel : select (cmpi .slt s (broadcastInDim ⟨1, ![n]⟩ ![] h₀ (constantI ⟨0, ![]⟩ 32 0#32)))
      (addi s (broadcastInDim ⟨1, ![n]⟩ ![] h₀ (constantI ⟨0, ![]⟩ 32 e))) s (Shape.Idx.ofFin p)
      = s (Shape.Idx.ofFin p) :=
    norm_of_small (s (Shape.Idx.ofFin p)) e (by omega)
  rw [hsel, toInt_eq_toNat_of_lt (by omega), hk]
  show min (Int.toNat (k.val : Int)) (N - 1) = k.val
  omega

theorem dest_word (a b : BitVec 32) (j u p : Nat) (ha : a.toNat = p) (hb : b.toNat = u) (hj : j < 2 ^ 32)
    (hu : u ≤ j) (hs : p + (j - u) < 2 ^ 32) :
    (IntOp.addi a (IntOp.subi (BitVec.ofNat 32 j) b)).toNat = p + (j - u) := by
  show (a + (BitVec.ofNat 32 j - b)).toNat = _
  rw [BitVec.toNat_add, BitVec.toNat_sub, BitVec.toNat_ofNat, ha, hb]
  omega

end Cert.SortLib
-- ==== Proof.SchedSort.lean ====
import proofs.«428180_j4174708212170_2_alg».proof.Proof.Gen.KernelIdeal.Regions
import proofs.«428180_j4174708212170_2_alg».proof.Proof.SchedZ
import proofs.«428180_j4174708212170_2_alg».proof.Proof.SchedPure
import proofs.«428180_j4174708212170_2_alg».proof.Proof.SchedSortLib

noncomputable section

namespace Cert.KernelIdeal.Hand

open Cert.KernelIdeal Cert.KernelIdeal.Gen Idealize.ShloMosaic Idealize.ShloMosaic.TcCoe Idealize.ShloMosaic.ValueIdx
open Idealize.ShloMosaic.StableHlo.Predicate

variable {F : FTy → Type} [FloatOps F]
variable (m : (ℓ : Loc nD τ sig) → Buf (Elt F) ℓ) (c : Dev nD)

theorem arg1_V11 : (V11 m c main_arg1 : IVec S100000 32) = zw m c :=
  (V11_of m c main_arg1 (by decide)).trans <| (V10_of m c main_arg1 (by decide)).trans <|
  (V9_of m c main_arg1 (by decide)).trans <| (V8_of m c main_arg1 (by decide)).trans <|
  (V7_of m c main_arg1 (by decide)).trans <| (V6_of m c main_arg1 (by decide)).trans <|
  (V5_of m c main_arg1 (by decide)).trans <| (V4_of m c main_arg1 (by decide)).trans <|
  (V3_of m c main_arg1 (by decide)).trans <| (V2_of m c main_arg1 (by decide)).trans <|
  (V1_of m c main_arg1 (by decide))

theorem arg1_V12 : (V12 m c main_arg1 : IVec S100000 32) = zw m c :=
  (V12_of m c main_arg1 (by decide)).trans (arg1_V11 m c)

theorem v25_V12 : (V12 m c main_v25 : IVec S100000 32)
    = (Host.sort2 S100000 0 comparator_i32_i32_d0 (zw m c) (iotaInDim S100000 32 0)).2 := by
  rw [← arg1_V11 m c]
  dsimp only [V12, hostOps0_11]
  after_results
  rfl

abbrev normIdx (s : IVec S100000 32) (e : BitVec 32) : IVec S100000x1 32 :=
  broadcastInDim S100000x1 ![0] bcast_S100000_S100000x1_0
    (select (cmpi .slt s (broadcastInDim S100000 ![] bcast_S_S100000 (constantI S_ 32 0#32)))
      (addi s (broadcastInDim S100000 ![] bcast_S_S100000 (constantI S_ 32 e))) s)

set_option maxHeartbeats 400000 in

theorem v32_V13 : (V13 m c main_v32 : IVec S100000 32)
    = Host.gather gather_S100000_S100000x1_S100000_n_0_n_n_0_1_1 (zw m c)
        (normIdx (V12 m c main_v25 : IVec S100000 32) 100000#32) := by
  rw [← arg1_V12 m c]
  dsimp only [V13, hostOps0_12]
  after_results_simp

set_option maxHeartbeats 400000 in

theorem v49_V13 : (V13 m c main_v49 : IVec S100000 32)
    = addi
        (Host.gather gather_S4_S100000x1_S100000_n_0_n_n_0_1_1 (V12 m c main_v22 : IVec S4 32)
          (normIdx (Host.gather gather_S100000_S100000x1_S100000_n_0_n_n_0_1_1 (zw m c)
            (normIdx (V12 m c main_v25 : IVec S100000 32) 100000#32)) 4#32))
        (subi (iotaInDim S100000 32 0)
          (Host.gather gather_S4_S100000x1_S100000_n_0_n_n_0_1_1 (V12 m c main_v18 : IVec S4 32)
            (normIdx (Host.gather gather_S100000_S100000x1_S100000_n_0_n_n_0_1_1 (zw m c)
              (normIdx (V12 m c main_v25 : IVec S100000 32) 100000#32)) 4#32))) := by
  rw [← arg1_V12 m c]
  dsimp only [V13, hostOps0_12]
  after_results_simp

theorem v25_V16 : (V16 m c main_v25 : IVec S100000 32) = V12 m c main_v25 :=
  (V16_of m c main_v25 (by decide)).trans <| (V15_of m c main_v25 (by decide)).trans <|
  (V14_of m c main_v25 (by decide)).trans (V13_of m c main_v25 (by decide))

theorem sort_word (j : Fin 100000) :
    (V16 m c main_v25 : IVec S100000 32) (ix1 j) = BitVec.ofNat 32 (Cert.SortLib.perm (zw m c) j).val := by
  rw [v25_V16, v25_V12, Cert.SortLib.ix1_eq_ofFin,
    Cert.SortLib.sort2_snd comparator_i32_i32_d0 (fun _ _ => rfl), Shape.Idx.ofFin_zero]
  exact iota_apply _

theorem sort_lt (j : Fin 100000) : ((V16 m c main_v25 : IVec S100000 32) (ix1 j)).toNat < 100000 := by
  rw [sort_word, BitVec.toNat_ofNat]
  have := (Cert.SortLib.perm (zw m c) j).isLt
  omega

def sortIdx (j : Fin 100000) : Fin 100000 :=
  ⟨((V16 m c main_v25 : IVec S100000 32) (ix1 j)).toNat, sort_lt m c j⟩

theorem sortIdx_eq : sortIdx m c = Cert.SortLib.perm (zw m c) := by
  funext j
  refine Fin.ext ?_
  show ((V16 m c main_v25 : IVec S100000 32) (ix1 j)).toNat = _
  rw [sort_word, BitVec.toNat_ofNat]
  have := (Cert.SortLib.perm (zw m c) j).isLt
  omega

theorem sort_bij : Function.Bijective (sortIdx m c) := by
  rw [sortIdx_eq]
  exact Cert.SortLib.perm_bijective _

theorem sort_mono (hz : ∀ i : Fin 100000, (zw m c (ix1 i)).toNat < 4) :
    Monotone (zf m c hz ∘ sortIdx m c) := by
  intro i j hij
  show zf m c hz (sortIdx m c i) ≤ zf m c hz (sortIdx m c j)
  rw [sortIdx_eq, Fin.le_def, zf_val, zf_val]
  have h := Cert.SortLib.perm_sorted (zw m c) i j hij
  have hi := hz (Cert.SortLib.perm (zw m c) i)
  have hj := hz (Cert.SortLib.perm (zw m c) j)
  rw [← Cert.SortLib.ix1_eq_ofFin, ← Cert.SortLib.ix1_eq_ofFin,
    toInt_eq_toNat_of_lt (by omega), toInt_eq_toNat_of_lt (by omega)] at h
  exact_mod_cast h

theorem sorted_word (j : Fin 100000) :
    Host.gather gather_S100000_S100000x1_S100000_n_0_n_n_0_1_1 (zw m c)
        (normIdx (V12 m c main_v25 : IVec S100000 32) 100000#32) (ix1 j)
      = zw m c (ix1 (sortIdx m c j)) :=
  Cert.SortLib.take_norm _ rfl rfl rfl rfl bcast_S_S100000 bcast_S100000_S100000x1_0 (zw m c) _ _ j (sortIdx m c j)
    (by decide) (by rw [← v25_V16]; rfl)

theorem sorted_z_val (hz : ∀ i : Fin 100000, (zw m c (ix1 i)).toNat < 4) (j : Fin 100000) :
    ((V16 m c main_v32 : IVec S100000 32) (ix1 j)).toNat = (zf m c hz (sortIdx m c j)).val := by
  have e : (V16 m c main_v32 : IVec S100000 32) = V13 m c main_v32 :=
    (V16_of m c main_v32 (by decide)).trans <| (V15_of m c main_v32 (by decide)).trans
      (V14_of m c main_v32 (by decide))
  rw [e, v32_V13, sorted_word, zf_val]

theorem dest_val (hz : ∀ i : Fin 100000, (zw m c (ix1 i)).toNat < 4)
    (huoff : ∀ s : Fin 4, ((V16 m c main_v18 : IVec S4 32) (ix1 s)).toNat = Cert.Sched.uoff (zf m c hz) s)
    (hpoff : ∀ s : Fin 4, ((V16 m c main_v22 : IVec S4 32) (ix1 s)).toNat = Cert.Sched.poff (zf m c hz) s)
    (hrank : ∀ j : Fin 100000, Cert.Sched.uoff (zf m c hz) (zf m c hz (sortIdx m c j)) ≤ j.val
      ∧ j.val < Cert.Sched.uoff (zf m c hz) (zf m c hz (sortIdx m c j))
          + Cert.Sched.count (zf m c hz) (zf m c hz (sortIdx m c j)))
    (j : Fin 100000) :
    ((V16 m c main_v49 : IVec S100000 32) (ix1 j)).toNat = Cert.Sched.dest (zf m c hz) (sortIdx m c) j := by
  have e49 : (V16 m c main_v49 : IVec S100000 32) = V13 m c main_v49 :=
    (V16_of m c main_v49 (by decide)).trans <| (V15_of m c main_v49 (by decide)).trans
      (V14_of m c main_v49 (by decide))
  have e18 : (V16 m c main_v18 : IVec S4 32) = V12 m c main_v18 :=
    (V16_of m c main_v18 (by decide)).trans <| (V15_of m c main_v18 (by decide)).trans <|
    (V14_of m c main_v18 (by decide)).trans (V13_of m c main_v18 (by decide))
  have e22 : (V16 m c main_v22 : IVec S4 32) = V12 m c main_v22 :=
    (V16_of m c main_v22 (by decide)).trans <| (V15_of m c main_v22 (by decide)).trans <|
    (V14_of m c main_v22 (by decide)).trans (V13_of m c main_v22 (by decide))
  have hs : (Host.gather gather_S100000_S100000x1_S100000_n_0_n_n_0_1_1 (zw m c)
      (normIdx (V12 m c main_v25 : IVec S100000 32) 100000#32) (ix1 j)).toNat
      = (zf m c hz (sortIdx m c j)).val := by rw [sorted_word, zf_val]
  have g18 := Cert.SortLib.take_norm gather_S4_S100000x1_S100000_n_0_n_n_0_1_1 rfl rfl rfl rfl
    bcast_S_S100000 bcast_S100000_S100000x1_0 (V12 m c main_v18 : IVec S4 32) _ 4#32 j
    (zf m c hz (sortIdx m c j)) (by decide) hs
  have g22 := Cert.SortLib.take_norm gather_S4_S100000x1_S100000_n_0_n_n_0_1_1 rfl rfl rfl rfl
    bcast_S_S100000 bcast_S100000_S100000x1_0 (V12 m c main_v22 : IVec S4 32) _ 4#32 j
    (zf m c hz (sortIdx m c j)) (by decide) hs
  have hd := Cert.Sched.dest_lt (zf m c hz) (sortIdx m c) (sort_bij m c) (sort_mono m c hz) j
  have hj := j.isLt
  rw [e49, v49_V13]
  show (IntOp.addi (Host.gather gather_S4_S100000x1_S100000_n_0_n_n_0_1_1 (V12 m c main_v22 : IVec S4 32) _ (ix1 j))
    (IntOp.subi (BitVec.ofNat 32 j.val)
      (Host.gather gather_S4_S100000x1_S100000_n_0_n_n_0_1_1 (V12 m c main_v18 : IVec S4 32) _ (ix1 j)))).toNat = _
  rw [g18, g22]
  refine Cert.SortLib.dest_word _ _ j.val _ _ (by rw [← e22]; exact hpoff _) (by rw [← e18]; exact huoff _)
    (by omega) (hrank j).1 ?_
  unfold Cert.Sched.dest at hd
  omega

end Cert.KernelIdeal.Hand

end
-- ==== Proof.LibScatterSet.lean ====
import Idealize.ShloMosaic.PureOps.ShapeOps
import Idealize.ShloMosaic.Lib.ValueIdx

noncomputable section

namespace Cert.LibScatterSet

open Idealize.ShloMosaic Idealize.ShloMosaic.ValueIdx

section Fold
variable {I ι α : Type}

theorem foldl_at_of_miss (g : (I → α) → ι → (I → α)) (i : I) (l : List ι)
    (hmiss : ∀ r, ∀ n ∈ l, g r n i = r i) (x : I → α) : l.foldl g x i = x i := by
  induction l generalizing x with
  | nil => rfl
  | cons a l ih =>
    rw [List.foldl_cons, ih (fun r n hn => hmiss r n (List.mem_cons_of_mem _ hn)),
      hmiss x a List.mem_cons_self]

theorem foldl_at_of_hit (g : (I → α) → ι → (I → α)) (i : I) (w : α) (l : List ι) (n0 : ι) (hmem : n0 ∈ l)
    (hhit : ∀ r, g r n0 i = w) (hmiss : ∀ r, ∀ n ∈ l, n ≠ n0 → g r n i = r i) (x : I → α) :
    l.foldl g x i = w := by
  induction l generalizing x with
  | nil => exact absurd hmem List.not_mem_nil
  | cons a l ih =>
    rw [List.foldl_cons]
    by_cases hl : n0 ∈ l
    · exact ih hl (fun r n hn hne => hmiss r n (List.mem_cons_of_mem _ hn) hne) (g x a)
    · have ha : a = n0 := by
        rcases List.mem_cons.1 hmem with h | h
        · exact h.symm
        · exact absurd h hl
      subst ha
      rw [foldl_at_of_miss g i l (fun r n hn =>
        hmiss r n (List.mem_cons_of_mem _ hn) (fun e => hl (e ▸ hn))) (g x a)]
      exact hhit x

end Fold

section Dims
variable {M E w : Nat} (d : ScatterDims ⟨1, ![M]⟩ ⟨2, ![E, 1]⟩ ⟨1, ![E]⟩)

theorem sc1_start (huw : d.updateWindowDims = []) (hsd : d.scatterDimsToOperandDims = [0])
    (hivd : d.indexVectorDim = 1) (idx : IVec ⟨2, ![E, 1]⟩ w) (j : (⟨1, ![E]⟩ : Shape).Idx) :
    d.start j idx 0 = (idx (ix2 (j 0) (0 : Fin 1))).toInt := by
  obtain ⟨uw, iw, sd, ivd, wf⟩ := d
  simp only at huw hsd hivd
  subst huw hsd hivd
  unfold ScatterDims.start
  rw [dif_pos (List.mem_singleton.mpr rfl)]
  congr 2
  funext b
  match b with
  | ⟨0, _⟩ => rfl
  | ⟨1, _⟩ => rfl

theorem sc1_window (hiw : d.insertedWindowDims = [0]) (j : (⟨1, ![E]⟩ : Shape).Idx) :
    d.window j 0 = 0 := by
  unfold ScatterDims.window
  rw [dif_neg (by
    rw [ScatterDims.sKept, Shape.kept, List.mem_filter, hiw]
    simp)]

theorem sc1_resultIdx (huw : d.updateWindowDims = []) (hiw : d.insertedWindowDims = [0])
    (hsd : d.scatterDimsToOperandDims = [0]) (hivd : d.indexVectorDim = 1)
    (idx : IVec ⟨2, ![E, 1]⟩ w) (e : Fin E) (n : Fin M) :
    d.resultIdx? (ix1 e) idx = some (ix1 n) ↔ (idx (ix2 e (0 : Fin 1))).toInt = (n.val : Int) := by
  have hs : d.start (ix1 e) idx 0 = (idx (ix2 e (0 : Fin 1))).toInt := sc1_start d huw hsd hivd idx _
  have hw : d.window (ix1 e) 0 = 0 := sc1_window d hiw _
  generalize (idx (ix2 e (0 : Fin 1))).toInt = z at hs ⊢
  have hn := n.isLt
  unfold ScatterDims.resultIdx?
  split
  · next h =>
    rw [Option.some.injEq]
    constructor
    · intro hf
      have h0 : (d.start (ix1 e) idx 0 + (d.window (ix1 e) 0 : Int)).toNat = n.val :=
        congrArg (fun f : (⟨1, ![M]⟩ : Shape).Idx => (f 0).val) hf
      have h00 := (h 0).1
      rw [hs, hw] at h0 h00
      omega
    · intro hz
      funext a
      match a with
      | ⟨0, _⟩ =>
        refine Fin.ext ?_
        show (d.start (ix1 e) idx 0 + (d.window (ix1 e) 0 : Int)).toNat = n.val
        rw [hs, hw]; omega
  · next h =>
    constructor
    · intro hf; cases hf
    · intro hz
      refine absurd ?_ h
      intro a
      match a with
      | ⟨0, _⟩ =>
        show 0 ≤ d.start (ix1 e) idx 0 + (d.window (ix1 e) 0 : Int)
          ∧ d.start (ix1 e) idx 0 + (d.window (ix1 e) 0 : Int) < (M : Int)
        rw [hs, hw]; omega

end Dims

section Set
variable {α : Type} {M E w : Nat} (d : ScatterDims ⟨1, ![M]⟩ ⟨2, ![E, 1]⟩ ⟨1, ![E]⟩)

theorem scatterSet_rows1_miss (huw : d.updateWindowDims = []) (hiw : d.insertedWindowDims = [0])
    (hsd : d.scatterDimsToOperandDims = [0]) (hivd : d.indexVectorDim = 1)
    (x : (⟨1, ![M]⟩ : Shape).Idx → α) (idx : IVec ⟨2, ![E, 1]⟩ w) (upd : (⟨1, ![E]⟩ : Shape).Idx → α) (n : Fin M)
    (hnone : ∀ e : Fin E, (idx (ix2 e (0 : Fin 1))).toInt ≠ (n.val : Int)) :
    Host.scatter d (fun _ b => b) x idx upd (ix1 n) = x (ix1 n) := by
  unfold Host.scatter
  refine foldl_at_of_miss _ (ix1 n) _ ?_ x
  intro r k _
  have hne : d.resultIdx? ((⟨1, ![E]⟩ : Shape).rowMajor.symm k) idx ≠ some (ix1 n) := by
    intro h
    rw [eq_ix1 ((⟨1, ![E]⟩ : Shape).rowMajor.symm k)] at h
    exact hnone _ ((sc1_resultIdx d huw hiw hsd hivd idx _ n).1 h)
  revert hne
  generalize d.resultIdx? ((⟨1, ![E]⟩ : Shape).rowMajor.symm k) idx = o
  intro hne
  cases o with
  | none => rfl
  | some i0 =>
    show (if ix1 n = i0 then _ else _) = _
    rw [if_neg (fun hi : ix1 n = i0 => hne (congrArg some hi.symm))]

theorem scatterSet_rows1 (huw : d.updateWindowDims = []) (hiw : d.insertedWindowDims = [0])
    (hsd : d.scatterDimsToOperandDims = [0]) (hivd : d.indexVectorDim = 1)
    (x : (⟨1, ![M]⟩ : Shape).Idx → α) (idx : IVec ⟨2, ![E, 1]⟩ w) (upd : (⟨1, ![E]⟩ : Shape).Idx → α)
    (e : Fin E) (n : Fin M) (he : (idx (ix2 e (0 : Fin 1))).toInt = (n.val : Int))
    (huniq : ∀ e' : Fin E, (idx (ix2 e' (0 : Fin 1))).toInt = (n.val : Int) → e' = e) :
    Host.scatter d (fun _ b => b) x idx upd (ix1 n) = upd (ix1 e) := by
  have hsymm : (⟨1, ![E]⟩ : Shape).rowMajor.symm ((⟨1, ![E]⟩ : Shape).rowMajor (ix1 e)) = ix1 e :=
    Equiv.symm_apply_apply _ _
  unfold Host.scatter
  refine foldl_at_of_hit _ (ix1 n) (upd (ix1 e)) _ ((⟨1, ![E]⟩ : Shape).rowMajor (ix1 e)) (List.mem_finRange _) ?_ ?_ x
  · intro r
    have h : d.resultIdx? ((⟨1, ![E]⟩ : Shape).rowMajor.symm ((⟨1, ![E]⟩ : Shape).rowMajor (ix1 e))) idx
        = some (ix1 n) := by
      rw [hsymm]; exact (sc1_resultIdx d huw hiw hsd hivd idx e n).2 he
    rw [h]
    show (if ix1 n = ix1 n then _ else _) = _
    rw [if_pos rfl, hsymm]
  · intro r k _ hk
    have hne : d.resultIdx? ((⟨1, ![E]⟩ : Shape).rowMajor.symm k) idx ≠ some (ix1 n) := by
      intro h
      apply hk
      obtain ⟨e', he'⟩ : ∃ e' : Fin E, (⟨1, ![E]⟩ : Shape).rowMajor.symm k = ix1 e' := ⟨_, eq_ix1 _⟩
      rw [he'] at h
      obtain rfl := huniq e' ((sc1_resultIdx d huw hiw hsd hivd idx e' n).1 h)
      rw [← he', Equiv.apply_symm_apply]
    revert hne
    generalize d.resultIdx? ((⟨1, ![E]⟩ : Shape).rowMajor.symm k) idx = o
    intro hne
    cases o with
    | none => rfl
    | some i0 =>
      show (if ix1 n = i0 then _ else _) = _
      rw [if_neg (fun hi : ix1 n = i0 => hne (congrArg some hi.symm))]

end Set

end Cert.LibScatterSet

end
-- ==== Proof.SchedAuxTile.lean ====
import proofs.«428180_j4174708212170_2_alg».proof.KernelIdeal
import Idealize.ShloMosaic.Lib.StableHlo.Predicate
import Idealize.ShloMosaic.Lib.ValueIdx

namespace Cert.KernelIdeal.Hand

open Cert.KernelIdeal Idealize.ShloMosaic Idealize.ShloMosaic.ValueIdx Idealize.ShloMosaic.StableHlo.Predicate

theorem ofFin_eq_ix1 {n : ℕ} (p : Fin n) : (Shape.Idx.ofFin p : (⟨1, ![n]⟩ : Shape).Idx) = ix1 p := by
  funext b; match b with | ⟨0, _⟩ => rfl

theorem clip03 (w : BitVec 32) (hw : w.toNat ≤ 4) :
    (IntOp.minsi 3#32 (IntOp.maxsi 0#32 w)).toNat = min 3 w.toNat := by
  have hti : w.toInt = w.toNat := toInt_eq_toNat_of_lt (by omega)
  have h0 : (0#32 : BitVec 32).toInt = 0 := by decide
  have h3 : (3#32 : BitVec 32).toInt = 3 := by decide
  have hmax : IntOp.maxsi 0#32 w = w := by
    unfold IntOp.maxsi
    split <;> rename_i hc <;> simp only [BitVec.slt, hti, h0, decide_eq_true_eq] at hc
    · omega
    · rfl
  rw [hmax]
  unfold IntOp.minsi
  split <;> rename_i hc <;> simp only [BitVec.slt, hti, h3, decide_eq_true_eq] at hc
  · have : (3#32 : BitVec 32).toNat = 3 := by decide
    omega
  · omega

theorem tile_count (hb0 : S_.BroadcastsInDim S104 (![] : Fin 0 → Fin S104.rank))
    (hb1 : S104.BroadcastsInDim S104x1 (![0] : Fin 1 → Fin S104x1.rank))
    (hb2 : S104x1.BroadcastsInDim S104x4 (![0, 1] : Fin 2 → Fin S104x4.rank))
    (hb3 : S4.BroadcastsInDim S1x4 (![1] : Fin 1 → Fin S1x4.rank))
    (hb4 : S1x4.BroadcastsInDim S104x4 (![0, 1] : Fin 2 → Fin S104x4.rank))
    (hw : 1 < 32) (hr : S104x4.ReducesTo [1] S104) (h0 : 0 < S_.numel)
    (tc : IVec S4 32) (T : Fin 4 → ℕ) (hT : ∀ s : Fin 4, (tc (ix1 s)).toNat = T s) (hlt : ∀ s, T s < 2 ^ 31)
    (t : Fin 104) :
    ((minsi (broadcastInDim S104 ![] hb0 (constantI S_ 32 3#32))
      (maxsi (broadcastInDim S104 ![] hb0 (constantI S_ 32 0#32))
        (Host.reduce IntOp.addi
          (extui 32 (cmpi .sge
            (broadcastInDim S104x4 ![0, 1] hb2 (broadcastInDim S104x1 ![0] hb1 (iotaInDim S104 32 0)))
            (broadcastInDim S104x4 ![0, 1] hb4 (broadcastInDim S1x4 ![1] hb3 tc))) hw)
          (constantI S_ 32 0#32) hr h0))) (ix1 t)).toNat
      = min 3 (Finset.univ.filter fun s : Fin 4 => T s ≤ t.val).card := by
  have hcount := toNat_reduce_count_cols (n := 104) (m := 4) (by decide)
    (cmpi .sge
      (broadcastInDim S104x4 ![0, 1] hb2 (broadcastInDim S104x1 ![0] hb1 (iotaInDim S104 32 0)))
      (broadcastInDim S104x4 ![0, 1] hb4 (broadcastInDim S1x4 ![1] hb3 tc))) hw hr h0 (ix1 t)
  have hbit : ∀ q : Fin 4, (cmpi .sge
      (broadcastInDim S104x4 ![0, 1] hb2 (broadcastInDim S104x1 ![0] hb1 (iotaInDim S104 32 0)))
      (broadcastInDim S104x4 ![0, 1] hb4 (broadcastInDim S1x4 ![1] hb3 tc))) (ij ((ix1 t : S104.Idx) 0) q) = 1#1
      ↔ T q ≤ t.val := by
    intro q
    show IntOp.cmpi .sge
      (broadcastInDim S104x4 ![0, 1] hb2 (broadcastInDim S104x1 ![0] hb1 (iotaInDim S104 32 0)) (ij t q))
      (broadcastInDim S104x4 ![0, 1] hb4 (broadcastInDim S1x4 ![1] hb3 tc) (ij t q)) = 1#1 ↔ _
    rw [bcast_rows hb1 hb2, bcast_cols hb3 hb4, iota_apply, ofFin_eq_ix1]
    have ht : (BitVec.ofNat 32 t.val).toNat = t.val := by
      rw [BitVec.toNat_ofNat]; have := t.isLt; omega
    rw [sge_iff_toNat (by rw [ht]; have := t.isLt; omega) (by rw [hT]; exact hlt q), ht, hT]
  have hcard : (Finset.univ.filter fun q : Fin 4 => (cmpi .sge
      (broadcastInDim S104x4 ![0, 1] hb2 (broadcastInDim S104x1 ![0] hb1 (iotaInDim S104 32 0)))
      (broadcastInDim S104x4 ![0, 1] hb4 (broadcastInDim S1x4 ![1] hb3 tc))) (ij ((ix1 t : S104.Idx) 0) q) = 1#1)
      = Finset.univ.filter fun s : Fin 4 => T s ≤ t.val :=
    Finset.filter_congr fun q _ => hbit q
  rw [hcard] at hcount
  have hle : (Finset.univ.filter fun s : Fin 4 => T s ≤ t.val).card ≤ 4 := by
    have := Finset.card_le_univ (Finset.univ.filter fun s : Fin 4 => T s ≤ t.val)
    simpa using this
  show (IntOp.minsi 3#32 (IntOp.maxsi 0#32 _)).toNat = _
  rw [clip03 _ (by rw [hcount]; exact hle), hcount]

end Cert.KernelIdeal.Hand
-- ==== Proof.SchedScatter.lean ====
import proofs.«428180_j4174708212170_2_alg».proof.Proof.Gen.KernelIdeal.Regions
import proofs.«428180_j4174708212170_2_alg».proof.Proof.LibScatterSet
import proofs.«428180_j4174708212170_2_alg».proof.Proof.SchedAuxTile
import Idealize.ShloMosaic.Lib.StableHlo.Predicate
import Idealize.ShloMosaic.Lib.StableHlo.Run

noncomputable section

namespace Cert.KernelIdeal.Hand

open Cert.KernelIdeal Cert.KernelIdeal.Gen Idealize.ShloMosaic Idealize.ShloMosaic.TcCoe Idealize.ShloMosaic.StableHlo
open Idealize.ShloMosaic.ValueIdx

variable {F : FTy → Type} [FloatOps F]

namespace SchedScatter

theorem slt_zero_ne_one (a : BitVec 32) (ha : a.toNat < 2 ^ 31) : IntOp.cmpi .slt a 0#32 ≠ 1#1 := fun h =>
  Nat.not_lt_zero _ ((Predicate.slt_iff_toNat ha (by decide)).1 h)

theorem select_norm (a k : BitVec 32) (ha : a.toNat < 2 ^ 31) :
    Scalar.select (IntOp.cmpi .slt a 0#32) (IntOp.addi a k) a = a := by
  rw [eq_zero_of_ne_one (slt_zero_ne_one a ha), select_zero]

theorem bcast_col_ix {α : Type} {n : Nat} (h₁ : (⟨1, ![n]⟩ : Shape).BroadcastsInDim ⟨2, ![n, 1]⟩ ![0])
    (v : (⟨1, ![n]⟩ : Shape).Idx → α) (p : Fin n) :
    broadcastInDim ⟨2, ![n, 1]⟩ ![0] h₁ v (ix2 p (0 : Fin 1)) = v (ix1 p) := by
  have h := Predicate.bcast_col1 h₁ v p
  have e1 : Predicate.ixP p = ix2 p (0 : Fin 1) := by
    funext a; match a with | ⟨0, _⟩ => rfl | ⟨1, _⟩ => rfl
  rw [e1, ofFin_eq_ix1] at h
  exact h

theorem bcast_const {t : Shape} (h : (⟨0, ![]⟩ : Shape).BroadcastsInDim t ![]) (b : BitVec 32) (j : t.Idx) :
    broadcastInDim t ![] h (constantI ⟨0, ![]⟩ 32 b) j = b := by
  rw [Predicate.bcast_scalar h (by decide) _ j]; rfl

abbrev normCol {E : Nat} (hb0 : (⟨0, ![]⟩ : Shape).BroadcastsInDim ⟨1, ![E]⟩ ![])
    (hb1 : (⟨1, ![E]⟩ : Shape).BroadcastsInDim ⟨2, ![E, 1]⟩ ![0]) (v : IVec ⟨1, ![E]⟩ 32) (K : BitVec 32) :
    IVec ⟨2, ![E, 1]⟩ 32 :=
  broadcastInDim ⟨2, ![E, 1]⟩ ![0] hb1
    (select (cmpi .slt v (broadcastInDim ⟨1, ![E]⟩ ![] hb0 (constantI ⟨0, ![]⟩ 32 0#32)))
      (addi v (broadcastInDim ⟨1, ![E]⟩ ![] hb0 (constantI ⟨0, ![]⟩ 32 K))) v)

theorem normCol_at {E : Nat} (hb0 : (⟨0, ![]⟩ : Shape).BroadcastsInDim ⟨1, ![E]⟩ ![])
    (hb1 : (⟨1, ![E]⟩ : Shape).BroadcastsInDim ⟨2, ![E, 1]⟩ ![0]) (v : IVec ⟨1, ![E]⟩ 32) (K : BitVec 32) (e : Fin E)
    (hv : (v (ix1 e)).toNat < 2 ^ 31) :
    normCol hb0 hb1 v K (ix2 e (0 : Fin 1)) = v (ix1 e) := by
  unfold normCol
  rw [bcast_col_ix]
  show Scalar.select (IntOp.cmpi .slt (v (ix1 e)) (broadcastInDim ⟨1, ![E]⟩ ![] hb0 (constantI ⟨0, ![]⟩ 32 0#32) (ix1 e)))
      (IntOp.addi (v (ix1 e)) (broadcastInDim ⟨1, ![E]⟩ ![] hb0 (constantI ⟨0, ![]⟩ 32 K) (ix1 e))) (v (ix1 e)) = _
  rw [bcast_const, bcast_const]
  exact select_norm _ _ hv

theorem normCol_toInt {E : Nat} (hb0 : (⟨0, ![]⟩ : Shape).BroadcastsInDim ⟨1, ![E]⟩ ![])
    (hb1 : (⟨1, ![E]⟩ : Shape).BroadcastsInDim ⟨2, ![E, 1]⟩ ![0]) (v : IVec ⟨1, ![E]⟩ 32) (K : BitVec 32) (e : Fin E)
    (hv : (v (ix1 e)).toNat < 2 ^ 31) :
    (normCol hb0 hb1 v K (ix2 e (0 : Fin 1))).toInt = ((v (ix1 e)).toNat : Int) := by
  rw [normCol_at hb0 hb1 v K e hv, Predicate.toInt_eq_toNat_of_lt hv]

theorem set_at_injective {α : Type} {M E : Nat} (d : ScatterDims ⟨1, ![M]⟩ ⟨2, ![E, 1]⟩ ⟨1, ![E]⟩)
    (huw : d.updateWindowDims = []) (hiw : d.insertedWindowDims = [0])
    (hsd : d.scatterDimsToOperandDims = [0]) (hivd : d.indexVectorDim = 1)
    (hb0 : (⟨0, ![]⟩ : Shape).BroadcastsInDim ⟨1, ![E]⟩ ![])
    (hb1 : (⟨1, ![E]⟩ : Shape).BroadcastsInDim ⟨2, ![E, 1]⟩ ![0])
    (x : (⟨1, ![M]⟩ : Shape).Idx → α) (v : IVec ⟨1, ![E]⟩ 32) (K : BitVec 32) (upd : (⟨1, ![E]⟩ : Shape).Idx → α)
    (D : Fin E → ℕ) (hD : ∀ e, (v (ix1 e)).toNat = D e) (hlt : ∀ e, D e < M) (hM : M ≤ 2 ^ 31)
    (hinj : Function.Injective D) (e : Fin E) :
    Host.scatter d (fun _ b => b) x (normCol hb0 hb1 v K) upd (ix1 ⟨D e, hlt e⟩) = upd (ix1 e) := by
  have hv : ∀ e', (v (ix1 e')).toNat < 2 ^ 31 := fun e' => by rw [hD]; exact lt_of_lt_of_le (hlt e') hM
  refine Cert.LibScatterSet.scatterSet_rows1 d huw hiw hsd hivd x _ upd e ⟨D e, hlt e⟩ ?_ ?_
  · rw [normCol_toInt hb0 hb1 v K e (hv e), hD]
  · intro e' he'
    rw [normCol_toInt hb0 hb1 v K e' (hv e'), hD] at he'
    exact hinj (by exact_mod_cast he')

section Read
variable (X : Valuation τ sig (Elt F))

theorem read12_v57 :
    (after hostOps0_12 X main_v57 : IVec S104000 32)
      = Host.scatter scatter_S104000_S100000x1_S100000_n_0_0_1 (fun _ b => b)
          (broadcastInDim S104000 ![] bcast_S_S104000 (constantI S_ 32 0#32))
          (normCol bcast_S_S100000 bcast_S100000_S100000x1_0 (after hostOps0_12 X main_v49 : IVec S100000 32) 104000#32)
          (X main_v25 : IVec S100000 32) := by
  after_results_simp

theorem read12_v65 :
    (after hostOps0_12 X main_v65 : IVec S100000 32)
      = Host.scatter scatter_S100000_S100000x1_S100000_n_0_0_1 (fun _ b => b)
          (broadcastInDim S100000 ![] bcast_S_S100000 (constantI S_ 32 0#32))
          (normCol bcast_S_S100000 bcast_S100000_S100000x1_0 (X main_v25 : IVec S100000 32) 100000#32)
          (after hostOps0_12 X main_v49 : IVec S100000 32) := by
  after_results_simp

theorem read12_v73 :
    (after hostOps0_12 X main_v73 : IVec S104 32)
      = Host.reduce IntOp.addi
          (extui 32 (cmpi .sge
            (broadcastInDim S104x4 ![0, 1] bcast_S104x1_S104x4_0_1 (broadcastInDim S104x1 ![0] bcast_S104_S104x1_0 (iotaInDim S104 32 0)))
            (broadcastInDim S104x4 ![0, 1] bcast_S1x4_S104x4_0_1 (broadcastInDim S1x4 ![1] bcast_S4_S1x4_1 (X main_v24 : IVec S4 32))))
            natLt_1_32)
          (constantI S_ 32 0#32) reducesTo_S104x4_S104_d1 h_S_ := by
  after_results_simp

theorem read12_c23 : (after hostOps0_12 X main_c_23 : IVec S_ 32) = constantI S_ 32 0#32 := by
  after_results_simp

theorem read12_c24 : (after hostOps0_12 X main_c_24 : IVec S_ 32) = constantI S_ 32 3#32 := by
  after_results_simp

theorem read13_v74 :
    (after hostOps0_13 X main_v74 : IVec S104 32)
      = minsi (broadcastInDim S104 ![] bcast_S_S104 (X main_c_24 : IVec S_ 32))
          (maxsi (broadcastInDim S104 ![] bcast_S_S104 (X main_c_23 : IVec S_ 32)) (X main_v73 : IVec S104 32)) := by
  after_results_simp
  rfl

end Read

section Kept
variable (m : (ℓ : Loc nD τ sig) → Buf (Elt F) ℓ) (c : Dev nD)

theorem V16_v25 : V16 m c main_v25 = V12 m c main_v25 :=
  (V16_of m c main_v25 (by decide)).trans <| (V15_of m c main_v25 (by decide)).trans <|
    (V14_of m c main_v25 (by decide)).trans (V13_of m c main_v25 (by decide))

theorem V16_v24 : V16 m c main_v24 = V12 m c main_v24 :=
  (V16_of m c main_v24 (by decide)).trans <| (V15_of m c main_v24 (by decide)).trans <|
    (V14_of m c main_v24 (by decide)).trans (V13_of m c main_v24 (by decide))

theorem V16_v49 : V16 m c main_v49 = after hostOps0_12 (V12 m c) main_v49 :=
  (V16_of m c main_v49 (by decide)).trans <| (V15_of m c main_v49 (by decide)).trans (V14_of m c main_v49 (by decide))

theorem V16_v57 : V16 m c main_v57 = after hostOps0_12 (V12 m c) main_v57 :=
  (V16_of m c main_v57 (by decide)).trans <| (V15_of m c main_v57 (by decide)).trans (V14_of m c main_v57 (by decide))

theorem V16_v65 : V16 m c main_v65 = after hostOps0_12 (V12 m c) main_v65 :=
  (V16_of m c main_v65 (by decide)).trans <| (V15_of m c main_v65 (by decide)).trans (V14_of m c main_v65 (by decide))

theorem V16_v74 : V16 m c main_v74 = after hostOps0_13 (V13 m c) main_v74 :=
  (V16_of m c main_v74 (by decide)).trans (V15_of m c main_v74 (by decide))

end Kept

end SchedScatter

open SchedScatter

section Final
variable (m : (ℓ : Loc nD τ sig) → Buf (Elt F) ℓ) (c : Dev nD)

theorem full_src_at (D : Fin 100000 → ℕ)
    (hdest : ∀ j : Fin 100000, ((V16 m c main_v49 : IVec S100000 32) (ix1 j)).toNat = D j)
    (hdlt : ∀ j, D j < 104000) (hdinj : Function.Injective D) (j : Fin 100000) :
    (V16 m c main_v57 : IVec S104000 32) (ix1 ⟨D j, hdlt j⟩) = (V16 m c main_v25 : IVec S100000 32) (ix1 j) := by
  have h57 : (V16 m c main_v57 : IVec S104000 32) = _ := (V16_v57 m c).trans (read12_v57 (V12 m c))
  have h25 : (V16 m c main_v25 : IVec S100000 32) = (V12 m c main_v25 : IVec S100000 32) := V16_v25 m c
  have h49 : (V16 m c main_v49 : IVec S100000 32) = (after hostOps0_12 (V12 m c) main_v49 : IVec S100000 32) :=
    V16_v49 m c
  rw [h57, h25]
  exact set_at_injective scatter_S104000_S100000x1_S100000_n_0_0_1 rfl rfl rfl rfl bcast_S_S100000
    bcast_S100000_S100000x1_0 _ _ 104000#32 _ D (fun e => by rw [← h49]; exact hdest e) hdlt (by norm_num) hdinj j

theorem inv_at (σ : Fin 100000 → Fin 100000)
    (hσ : ∀ j : Fin 100000, ((V16 m c main_v25 : IVec S100000 32) (ix1 j)).toNat = (σ j).val)
    (hσinj : Function.Injective σ) (j : Fin 100000) :
    (V16 m c main_v65 : IVec S100000 32) (ix1 (σ j)) = (V16 m c main_v49 : IVec S100000 32) (ix1 j) := by
  have h65 : (V16 m c main_v65 : IVec S100000 32) = _ := (V16_v65 m c).trans (read12_v65 (V12 m c))
  have h25 : (V16 m c main_v25 : IVec S100000 32) = (V12 m c main_v25 : IVec S100000 32) := V16_v25 m c
  have h49 : (V16 m c main_v49 : IVec S100000 32) = (after hostOps0_12 (V12 m c) main_v49 : IVec S100000 32) :=
    V16_v49 m c
  rw [h65, h49]
  exact set_at_injective scatter_S100000_S100000x1_S100000_n_0_0_1 rfl rfl rfl rfl bcast_S_S100000
    bcast_S100000_S100000x1_0 _ _ 100000#32 _ (fun j => (σ j).val) (fun e => by rw [← h25]; exact hσ e)
    (fun e => (σ e).isLt) (by norm_num) (fun a b h => hσinj (Fin.ext h)) j

theorem tile_val (T : Fin 4 → ℕ)
    (htcum : ∀ s : Fin 4, ((V16 m c main_v24 : IVec S4 32) (ix1 s)).toNat = T s) (hT : ∀ s, T s < 2 ^ 31)
    (t : Fin 104) :
    ((V16 m c main_v74 : IVec S104 32) (ix1 t)).toNat = min 3 (Finset.univ.filter fun s : Fin 4 => T s ≤ t.val).card := by
  have h24 : (V16 m c main_v24 : IVec S4 32) = (V12 m c main_v24 : IVec S4 32) := V16_v24 m c
  have h74 : (V16 m c main_v74 : IVec S104 32)
      = minsi (broadcastInDim S104 ![] bcast_S_S104 (constantI S_ 32 3#32))
          (maxsi (broadcastInDim S104 ![] bcast_S_S104 (constantI S_ 32 0#32))
            (Host.reduce IntOp.addi
              (extui 32 (cmpi .sge
                (broadcastInDim S104x4 ![0, 1] bcast_S104x1_S104x4_0_1
                  (broadcastInDim S104x1 ![0] bcast_S104_S104x1_0 (iotaInDim S104 32 0)))
                (broadcastInDim S104x4 ![0, 1] bcast_S1x4_S104x4_0_1
                  (broadcastInDim S1x4 ![1] bcast_S4_S1x4_1 (V12 m c main_v24 : IVec S4 32))))
                natLt_1_32)
              (constantI S_ 32 0#32) reducesTo_S104x4_S104_d1 h_S_)) := by
    refine (V16_v74 m c).trans ((read13_v74 (V13 m c)).trans ?_)
    rw [show (V13 m c main_c_24 : IVec S_ 32) = _ from read12_c24 (V12 m c),
      show (V13 m c main_c_23 : IVec S_ 32) = _ from read12_c23 (V12 m c),
      show (V13 m c main_v73 : IVec S104 32) = _ from read12_v73 (V12 m c)]
  rw [h74]
  exact tile_count bcast_S_S104 bcast_S104_S104x1_0 bcast_S104x1_S104x4_0_1 bcast_S4_S1x4_1 bcast_S1x4_S104x4_0_1
    natLt_1_32 reducesTo_S104x4_S104_d1 h_S_ _ T (fun s => by rw [← h24]; exact htcum s) hT t

end Final

end Cert.KernelIdeal.Hand

end
-- ==== Proof.SchedAuxFloorDiv.lean ====
import Idealize.ShloMosaic.PureOps.Float

namespace Cert.KernelIdeal.Hand

open Idealize.ShloMosaic

theorem divsi_1000 (x : BitVec 32) (hx : x.toNat < 2 ^ 31) :
    (IntOp.divsi .host x 1000#32).toNat = x.toNat / 1000 := by
  have hcorner : ¬ IntOp.SDivCorner x 1000#32 := by
    intro hc; rcases hc with hc | ⟨_, hc⟩ <;> exact absurd hc (by decide)
  have hm : x.msb = false := BitVec.msb_eq_false_iff_two_mul_lt.mpr (by omega)
  simp only [IntOp.divsi, if_neg hcorner, BitVec.sdiv_eq, hm, show (1000#32 : BitVec 32).msb = false from by decide,
    BitVec.udiv_eq, BitVec.toNat_udiv, BitVec.toNat_ofNat]

theorem remsi_zero_1000 : IntOp.remsi .host (0 : BitVec 32) 1000#32 = 0#32 := by
  have hcorner : ¬ IntOp.SDivCorner (0 : BitVec 32) 1000#32 := by
    intro hc; rcases hc with hc | ⟨_, hc⟩ <;> exact absurd hc (by decide)
  simp only [IntOp.remsi, if_neg hcorner]
  decide

theorem floordiv1000_word (x sc : BitVec 32) (hsc : sc = 1#32) (hx : x.toNat < 2 ^ 31) :
    (Scalar.select
      (IntOp.andi (IntOp.cmpi .ne (if x = 0 then 0 else if x.msb then -1 else 1) sc)
        (IntOp.cmpi .ne (IntOp.remsi .host x 1000#32) 0#32))
      (IntOp.subi (IntOp.divsi .host x 1000#32) 1#32) (IntOp.divsi .host x 1000#32)).toNat = x.toNat / 1000 := by
  subst hsc
  have hm : x.msb = false := BitVec.msb_eq_false_iff_two_mul_lt.mpr (by omega)
  have hcond : IntOp.andi (IntOp.cmpi .ne (if x = 0 then 0 else if x.msb then -1 else 1) 1#32)
      (IntOp.cmpi .ne (IntOp.remsi .host x 1000#32) 0#32) = 0#1 := by
    by_cases h0 : x = 0
    · subst h0
      rw [remsi_zero_1000]
      decide
    · rw [if_neg h0, hm]
      simp [IntOp.cmpi, IntOp.andi]
  rw [hcond, Scalar.select, if_neg (by decide)]
  exact divsi_1000 x hx

end Cert.KernelIdeal.Hand
-- ==== Proof.SchedVecOps.lean ====
import Idealize.ShloMosaic.PureOps.ShapeOps
import Idealize.ShloMosaic.PureOps.Contract
import Idealize.ShloMosaic.Lib.ValueIdx
import Mathlib.Data.Fintype.Card
import Mathlib.Tactic.IntervalCases
import proofs.«428180_j4174708212170_2_alg».proof.Proof.SchedPure

noncomputable section

namespace Cert.KernelIdeal.Hand

open Idealize.ShloMosaic Idealize.ShloMosaic.ValueIdx

section Bincount
variable {B E w : Nat} (d : ScatterDims ⟨1, ![B]⟩ ⟨2, ![E, 1]⟩ ⟨1, ![E]⟩)

theorem bin_start0 (huw : d.updateWindowDims = []) (hsd : d.scatterDimsToOperandDims = [0])
    (hivd : d.indexVectorDim = 1) (idx : IVec ⟨2, ![E, 1]⟩ w) (j : (⟨1, ![E]⟩ : Shape).Idx) :
    d.start j idx 0 = (idx (ix2 (j 0) (0 : Fin 1))).toInt := by
  obtain ⟨uw, iw, sd, ivd, wf⟩ := d
  simp only at huw hsd hivd
  subst huw hsd hivd
  unfold ScatterDims.start
  rw [dif_pos (List.mem_singleton.mpr rfl)]
  congr 2
  funext b
  match b with
  | ⟨0, _⟩ => rfl
  | ⟨1, _⟩ => rfl

theorem bin_window0 (hiw : d.insertedWindowDims = [0]) (j : (⟨1, ![E]⟩ : Shape).Idx) :
    d.window j 0 = 0 := by
  unfold ScatterDims.window
  rw [dif_neg (by
    rw [ScatterDims.sKept, hiw]
    simp [Shape.kept, List.mem_filter])]

theorem bin_resultIdx (huw : d.updateWindowDims = []) (hiw : d.insertedWindowDims = [0])
    (hsd : d.scatterDimsToOperandDims = [0]) (hivd : d.indexVectorDim = 1)
    (idx : IVec ⟨2, ![E, 1]⟩ w) (e : Fin E) (n : Fin B) :
    d.resultIdx? (ix1 e) idx = some (ix1 n) ↔ (idx (ix2 e (0 : Fin 1))).toInt = (n.val : Int) := by
  have hs0 : d.start (ix1 e) idx 0 = (idx (ix2 e (0 : Fin 1))).toInt := bin_start0 d huw hsd hivd idx _
  have hw0 : d.window (ix1 e) 0 = 0 := bin_window0 d hiw _
  generalize (idx (ix2 e (0 : Fin 1))).toInt = z at hs0 ⊢
  have hn := n.isLt
  unfold ScatterDims.resultIdx?
  split
  · next h =>
    rw [Option.some.injEq]
    constructor
    · intro hf
      have h0 : (d.start (ix1 e) idx 0 + (d.window (ix1 e) 0 : Int)).toNat = n.val :=
        congrArg (fun f : (⟨1, ![B]⟩ : Shape).Idx => (f 0).val) hf
      have h00 := (h 0).1
      rw [hs0, hw0] at h0 h00
      omega
    · intro hz
      funext a
      match a with
      | ⟨0, _⟩ =>
        refine Fin.ext ?_
        show (d.start (ix1 e) idx 0 + (d.window (ix1 e) 0 : Int)).toNat = n.val
        rw [hs0, hw0]; omega
  · next h =>
    constructor
    · intro hf; cases hf
    · intro hz
      refine absurd ?_ h
      intro a
      match a with
      | ⟨0, _⟩ =>
        show 0 ≤ d.start (ix1 e) idx 0 + (d.window (ix1 e) 0 : Int)
          ∧ d.start (ix1 e) idx 0 + (d.window (ix1 e) 0 : Int) < (B : Int)
        rw [hs0, hw0]; omega

end Bincount

theorem scatter_ones_fold {s si u : Shape} (d : ScatterDims s si u) {w : Nat} (idx : IVec si w)
    (l : List (Fin u.numel)) (x : s.Idx → BitVec 32) (i : s.Idx) :
    (l.foldl (fun r n =>
      match d.resultIdx? (u.rowMajor.symm n) idx with
      | some i => fun i' => if i' = i then IntOp.addi (r i) 1#32 else r i'
      | none => r) x) i
    = x i + BitVec.ofNat 32 (l.countP fun n => decide (d.resultIdx? (u.rowMajor.symm n) idx = some i)) := by
  induction l generalizing x with
  | nil => simp
  | cons n l ih =>
    rw [List.foldl_cons, ih, List.countP_cons]
    cases h : d.resultIdx? (u.rowMajor.symm n) idx with
    | none => simp
    | some i0 =>
      by_cases hi : i = i0
      · subst hi
        simp only [if_true, decide_true, IntOp.addi]
        apply BitVec.eq_of_toNat_eq
        simp only [BitVec.toNat_add, BitVec.toNat_ofNat]
        omega
      · have hne : ¬ (some i0 = some i) := fun hh => hi (Option.some.inj hh).symm
        simp only [if_neg hi, hne, decide_false]
        simp

theorem countP_finRange_eq_card {k : Nat} (p : Fin k → Prop) [DecidablePred p] :
    (List.finRange k).countP (fun n => decide (p n)) = (Finset.univ.filter p).card := by
  rw [List.countP_eq_length_filter, Fin.univ_def]
  simp [Finset.card, Finset.filter]

theorem bincount_apply {B E w : Nat} (d : ScatterDims ⟨1, ![B]⟩ ⟨2, ![E, 1]⟩ ⟨1, ![E]⟩)
    (huw : d.updateWindowDims = []) (hiw : d.insertedWindowDims = [0])
    (hsd : d.scatterDimsToOperandDims = [0]) (hivd : d.indexVectorDim = 1)
    (x : IVec ⟨1, ![B]⟩ 32) (idx : IVec ⟨2, ![E, 1]⟩ w) (upd : IVec ⟨1, ![E]⟩ 32) (hupd : ∀ j, upd j = 1#32) (n : Fin B) :
    Host.scatter d IntOp.addi x idx upd (ix1 n)
      = x (ix1 n) + BitVec.ofNat 32
          (Finset.univ.filter fun e : Fin E => (idx (ix2 e (0 : Fin 1))).toInt = (n.val : Int)).card := by
  have hu : upd = fun _ => 1#32 := funext hupd
  subst hu
  unfold Host.scatter
  refine (scatter_ones_fold d idx _ x (ix1 n)).trans ?_
  rw [countP_finRange_eq_card]
  congr 2
  refine Finset.card_bij (fun k _ => (((⟨1, ![E]⟩ : Shape).rowMajor.symm k) 0 : Fin E)) ?_ ?_ ?_
  · intro k hk
    have h := (Finset.mem_filter.1 hk).2
    rw [eq_ix1 ((⟨1, ![E]⟩ : Shape).rowMajor.symm k)] at h
    exact Finset.mem_filter.2 ⟨Finset.mem_univ _, (bin_resultIdx d huw hiw hsd hivd idx _ n).1 h⟩
  · intro k _ k' _ hkk
    have : (⟨1, ![E]⟩ : Shape).rowMajor.symm k = (⟨1, ![E]⟩ : Shape).rowMajor.symm k' := by
      rw [eq_ix1 ((⟨1, ![E]⟩ : Shape).rowMajor.symm k), eq_ix1 ((⟨1, ![E]⟩ : Shape).rowMajor.symm k')]
      exact congrArg ix1 hkk
    exact (Equiv.injective _) this
  · intro e he
    refine ⟨(⟨1, ![E]⟩ : Shape).rowMajor (ix1 e), Finset.mem_filter.2 ⟨Finset.mem_univ _, ?_⟩, ?_⟩
    · rw [Equiv.symm_apply_apply]
      exact (bin_resultIdx d huw hiw hsd hivd idx e n).2 (Finset.mem_filter.1 he).2
    · rw [Equiv.symm_apply_apply]
      rfl

theorem cumsum4_at0 (xs : Fin 4 → BitVec 32) (v : IVec ⟨0, ![]⟩ 32)
    (h : (⟨1, ![4]⟩ : Shape).ReduceWindows (![4] : Fin 1 → Nat) ![1] ![3] ![0] ⟨1, ![4]⟩) (hu : 0 < (⟨0, ![]⟩ : Shape).numel) :
    Host.reduceWindow IntOp.addi ![4] ![1] ![3] ![0] (fun j : (⟨1, ![4]⟩ : Shape).Idx => xs (j 0)) v h hu (ix1 (0 : Fin 4))
      = IntOp.addi (IntOp.addi (IntOp.addi (IntOp.addi (v (Shape.Idx.first hu)) (v (Shape.Idx.first hu))) (v (Shape.Idx.first hu))) (v (Shape.Idx.first hu))) (xs 0) := rfl

theorem cumsum4_at1 (xs : Fin 4 → BitVec 32) (v : IVec ⟨0, ![]⟩ 32)
    (h : (⟨1, ![4]⟩ : Shape).ReduceWindows (![4] : Fin 1 → Nat) ![1] ![3] ![0] ⟨1, ![4]⟩) (hu : 0 < (⟨0, ![]⟩ : Shape).numel) :
    Host.reduceWindow IntOp.addi ![4] ![1] ![3] ![0] (fun j : (⟨1, ![4]⟩ : Shape).Idx => xs (j 0)) v h hu (ix1 (1 : Fin 4))
      = IntOp.addi (IntOp.addi (IntOp.addi (IntOp.addi (v (Shape.Idx.first hu)) (v (Shape.Idx.first hu))) (v (Shape.Idx.first hu))) (xs 0)) (xs 1) := rfl

theorem cumsum4_at2 (xs : Fin 4 → BitVec 32) (v : IVec ⟨0, ![]⟩ 32)
    (h : (⟨1, ![4]⟩ : Shape).ReduceWindows (![4] : Fin 1 → Nat) ![1] ![3] ![0] ⟨1, ![4]⟩) (hu : 0 < (⟨0, ![]⟩ : Shape).numel) :
    Host.reduceWindow IntOp.addi ![4] ![1] ![3] ![0] (fun j : (⟨1, ![4]⟩ : Shape).Idx => xs (j 0)) v h hu (ix1 (2 : Fin 4))
      = IntOp.addi (IntOp.addi (IntOp.addi (IntOp.addi (v (Shape.Idx.first hu)) (v (Shape.Idx.first hu))) (xs 0)) (xs 1)) (xs 2) := rfl

theorem cumsum4_at3 (xs : Fin 4 → BitVec 32) (v : IVec ⟨0, ![]⟩ 32)
    (h : (⟨1, ![4]⟩ : Shape).ReduceWindows (![4] : Fin 1 → Nat) ![1] ![3] ![0] ⟨1, ![4]⟩) (hu : 0 < (⟨0, ![]⟩ : Shape).numel) :
    Host.reduceWindow IntOp.addi ![4] ![1] ![3] ![0] (fun j : (⟨1, ![4]⟩ : Shape).Idx => xs (j 0)) v h hu (ix1 (3 : Fin 4))
      = IntOp.addi (IntOp.addi (IntOp.addi (IntOp.addi (v (Shape.Idx.first hu)) (xs 0)) (xs 1)) (xs 2)) (xs 3) := rfl

theorem cumsum4_toNat0 (xs : Fin 4 → BitVec 32) (v : IVec ⟨0, ![]⟩ 32)
    (h : (⟨1, ![4]⟩ : Shape).ReduceWindows (![4] : Fin 1 → Nat) ![1] ![3] ![0] ⟨1, ![4]⟩) (hu : 0 < (⟨0, ![]⟩ : Shape).numel)
    (hv : v (Shape.Idx.first hu) = 0#32) :
    (Host.reduceWindow IntOp.addi ![4] ![1] ![3] ![0] (fun j : (⟨1, ![4]⟩ : Shape).Idx => xs (j 0)) v h hu (ix1 (0 : Fin 4))).toNat
      = (xs 0).toNat := by
  rw [cumsum4_at0, hv]
  simp only [IntOp.addi, BitVec.zero_add]

theorem cumsum4_toNat1 (xs : Fin 4 → BitVec 32) (v : IVec ⟨0, ![]⟩ 32)
    (h : (⟨1, ![4]⟩ : Shape).ReduceWindows (![4] : Fin 1 → Nat) ![1] ![3] ![0] ⟨1, ![4]⟩) (hu : 0 < (⟨0, ![]⟩ : Shape).numel)
    (hv : v (Shape.Idx.first hu) = 0#32) (hb : (xs 0).toNat + (xs 1).toNat < 2 ^ 32) :
    (Host.reduceWindow IntOp.addi ![4] ![1] ![3] ![0] (fun j : (⟨1, ![4]⟩ : Shape).Idx => xs (j 0)) v h hu (ix1 (1 : Fin 4))).toNat
      = (xs 0).toNat + (xs 1).toNat := by
  rw [cumsum4_at1, hv]
  simp only [IntOp.addi, BitVec.zero_add, BitVec.toNat_add]
  omega

theorem cumsum4_toNat2 (xs : Fin 4 → BitVec 32) (v : IVec ⟨0, ![]⟩ 32)
    (h : (⟨1, ![4]⟩ : Shape).ReduceWindows (![4] : Fin 1 → Nat) ![1] ![3] ![0] ⟨1, ![4]⟩) (hu : 0 < (⟨0, ![]⟩ : Shape).numel)
    (hv : v (Shape.Idx.first hu) = 0#32) (hb : (xs 0).toNat + (xs 1).toNat + (xs 2).toNat < 2 ^ 32) :
    (Host.reduceWindow IntOp.addi ![4] ![1] ![3] ![0] (fun j : (⟨1, ![4]⟩ : Shape).Idx => xs (j 0)) v h hu (ix1 (2 : Fin 4))).toNat
      = (xs 0).toNat + (xs 1).toNat + (xs 2).toNat := by
  rw [cumsum4_at2, hv]
  simp only [IntOp.addi, BitVec.zero_add, BitVec.toNat_add]
  omega

theorem cumsum4_toNat3 (xs : Fin 4 → BitVec 32) (v : IVec ⟨0, ![]⟩ 32)
    (h : (⟨1, ![4]⟩ : Shape).ReduceWindows (![4] : Fin 1 → Nat) ![1] ![3] ![0] ⟨1, ![4]⟩) (hu : 0 < (⟨0, ![]⟩ : Shape).numel)
    (hv : v (Shape.Idx.first hu) = 0#32) (hb : (xs 0).toNat + (xs 1).toNat + (xs 2).toNat + (xs 3).toNat < 2 ^ 32) :
    (Host.reduceWindow IntOp.addi ![4] ![1] ![3] ![0] (fun j : (⟨1, ![4]⟩ : Shape).Idx => xs (j 0)) v h hu (ix1 (3 : Fin 4))).toNat
      = (xs 0).toNat + (xs 1).toNat + (xs 2).toNat + (xs 3).toNat := by
  rw [cumsum4_at3, hv]
  simp only [IntOp.addi, BitVec.zero_add, BitVec.toNat_add]
  omega

theorem shift4_at0 (a0 : BitVec 32) (cs : Fin 4 → BitVec 32) (hs : (⟨1, ![4]⟩ : Shape).Slices ![0] ⟨1, ![3]⟩)
    (hc : Shape.Concatenates [(⟨1, ![1]⟩ : Shape), ⟨1, ![3]⟩] ⟨1, ![4]⟩ 0) :
    concatenate (⟨1, ![4]⟩ : Shape) 0 [⟨(⟨1, ![1]⟩ : Shape), fun _ => a0⟩,
      ⟨(⟨1, ![3]⟩ : Shape), extractStridedSlice (⟨1, ![3]⟩ : Shape) ![0] (fun j : (⟨1, ![4]⟩ : Shape).Idx => cs (j 0)) hs⟩] hc
      (ix1 (0 : Fin 4)) = a0 := rfl

theorem shift4_at1 (a0 : BitVec 32) (cs : Fin 4 → BitVec 32) (hs : (⟨1, ![4]⟩ : Shape).Slices ![0] ⟨1, ![3]⟩)
    (hc : Shape.Concatenates [(⟨1, ![1]⟩ : Shape), ⟨1, ![3]⟩] ⟨1, ![4]⟩ 0) :
    concatenate (⟨1, ![4]⟩ : Shape) 0 [⟨(⟨1, ![1]⟩ : Shape), fun _ => a0⟩,
      ⟨(⟨1, ![3]⟩ : Shape), extractStridedSlice (⟨1, ![3]⟩ : Shape) ![0] (fun j : (⟨1, ![4]⟩ : Shape).Idx => cs (j 0)) hs⟩] hc
      (ix1 (1 : Fin 4)) = cs 0 := rfl

theorem shift4_at2 (a0 : BitVec 32) (cs : Fin 4 → BitVec 32) (hs : (⟨1, ![4]⟩ : Shape).Slices ![0] ⟨1, ![3]⟩)
    (hc : Shape.Concatenates [(⟨1, ![1]⟩ : Shape), ⟨1, ![3]⟩] ⟨1, ![4]⟩ 0) :
    concatenate (⟨1, ![4]⟩ : Shape) 0 [⟨(⟨1, ![1]⟩ : Shape), fun _ => a0⟩,
      ⟨(⟨1, ![3]⟩ : Shape), extractStridedSlice (⟨1, ![3]⟩ : Shape) ![0] (fun j : (⟨1, ![4]⟩ : Shape).Idx => cs (j 0)) hs⟩] hc
      (ix1 (2 : Fin 4)) = cs 1 := rfl

theorem shift4_at3 (a0 : BitVec 32) (cs : Fin 4 → BitVec 32) (hs : (⟨1, ![4]⟩ : Shape).Slices ![0] ⟨1, ![3]⟩)
    (hc : Shape.Concatenates [(⟨1, ![1]⟩ : Shape), ⟨1, ![3]⟩] ⟨1, ![4]⟩ 0) :
    concatenate (⟨1, ![4]⟩ : Shape) 0 [⟨(⟨1, ![1]⟩ : Shape), fun _ => a0⟩,
      ⟨(⟨1, ![3]⟩ : Shape), extractStridedSlice (⟨1, ![3]⟩ : Shape) ![0] (fun j : (⟨1, ![4]⟩ : Shape).Idx => cs (j 0)) hs⟩] hc
      (ix1 (3 : Fin 4)) = cs 2 := rfl

theorem norm_index_word (x : BitVec 32) (hx : x.toNat < 4) :
    (Scalar.select (IntOp.cmpi .slt (IntOp.maxsi 0#32 x) 0#32) (IntOp.addi (IntOp.maxsi 0#32 x) 4#32)
      (IntOp.maxsi 0#32 x)).toInt = (x.toNat : Int) := by
  have h : x = BitVec.ofNat 32 x.toNat := BitVec.eq_of_toNat_eq (by rw [BitVec.toNat_ofNat]; omega)
  generalize x.toNat = k at h hx
  subst h
  interval_cases k <;> decide

theorem bcast_col_apply {α : Type} {n : Nat} (h₁ : (⟨1, ![n]⟩ : Shape).BroadcastsInDim ⟨2, ![n, 1]⟩ ![0])
    (v : (⟨1, ![n]⟩ : Shape).Idx → α) (p : Fin n) :
    broadcastInDim ⟨2, ![n, 1]⟩ ![0] h₁ v (ix2 p (0 : Fin 1)) = v (ix1 p) := by
  simp only [broadcastInDim]
  congr 1
  funext a
  have ha : a = 0 := Subsingleton.elim _ _
  subst ha
  apply Fin.ext
  have hp := p.isLt
  split
  · next h1 => change n = 1 at h1; show (0 : Nat) = p.val; omega
  · rfl

theorem count_scatter {N : Nat} (d : ScatterDims ⟨1, ![4]⟩ ⟨2, ![N, 1]⟩ ⟨1, ![N]⟩)
    (huw : d.updateWindowDims = []) (hiw : d.insertedWindowDims = [0])
    (hsd : d.scatterDimsToOperandDims = [0]) (hivd : d.indexVectorDim = 1)
    (hb : (⟨1, ![N]⟩ : Shape).BroadcastsInDim ⟨2, ![N, 1]⟩ ![0])
    (x0 : IVec ⟨1, ![4]⟩ 32) (hx0 : ∀ j, x0 j = 0#32) (idxv : IVec ⟨1, ![N]⟩ 32)
    (upd : IVec ⟨1, ![N]⟩ 32) (hupd : ∀ j, upd j = 1#32) (zf : Fin N → Fin 4)
    (hidx : ∀ e, (idxv (ix1 e)).toInt = ((zf e).val : Int)) (hN : N < 2 ^ 32) (s : Fin 4) :
    (Host.scatter d IntOp.addi x0 (broadcastInDim ⟨2, ![N, 1]⟩ ![0] hb idxv) upd (ix1 s)).toNat
      = Cert.Sched.count zf s := by
  rw [bincount_apply d huw hiw hsd hivd x0 _ upd hupd s, hx0]
  have hset : (Finset.univ.filter fun e : Fin N =>
      (broadcastInDim ⟨2, ![N, 1]⟩ ![0] hb idxv (ix2 e (0 : Fin 1))).toInt = (s.val : Int))
      = Finset.univ.filter fun e : Fin N => zf e = s := by
    refine Finset.filter_congr fun e _ => ?_
    rw [bcast_col_apply, hidx e, Int.ofNat_inj, Fin.ext_iff]
  rw [hset]
  have hle : (Finset.univ.filter fun e : Fin N => zf e = s).card ≤ N := by
    simpa using Finset.card_filter_le (Finset.univ : Finset (Fin N)) (fun e => zf e = s)
  unfold Cert.Sched.count
  rw [BitVec.zero_add, BitVec.toNat_ofNat]
  exact Nat.mod_eq_of_lt (by omega)

theorem count_le {N : Nat} (zf : Fin N → Fin 4) (s : Fin 4) : Cert.Sched.count zf s ≤ N := by
  unfold Cert.Sched.count
  simpa using Finset.card_filter_le (Finset.univ : Finset (Fin N)) (fun e => zf e = s)

section Sums
variable (g : Fin 4 → ℕ)

theorem sum_lt_0 : ∑ s' ∈ Finset.univ.filter (· < (0 : Fin 4)), g s' = 0 := by
  rw [show Finset.univ.filter (· < (0 : Fin 4)) = ∅ from by decide]; rfl
theorem sum_lt_1 : ∑ s' ∈ Finset.univ.filter (· < (1 : Fin 4)), g s' = g 0 := by
  rw [show Finset.univ.filter (· < (1 : Fin 4)) = {0} from by decide]; simp
theorem sum_lt_2 : ∑ s' ∈ Finset.univ.filter (· < (2 : Fin 4)), g s' = g 0 + g 1 := by
  rw [show Finset.univ.filter (· < (2 : Fin 4)) = {0, 1} from by decide]; simp
theorem sum_lt_3 : ∑ s' ∈ Finset.univ.filter (· < (3 : Fin 4)), g s' = g 0 + g 1 + g 2 := by
  rw [show Finset.univ.filter (· < (3 : Fin 4)) = {0, 1, 2} from by decide]; simp; omega
theorem sum_le_0 : ∑ s' ∈ Finset.univ.filter (· ≤ (0 : Fin 4)), g s' = g 0 := by
  rw [show Finset.univ.filter (· ≤ (0 : Fin 4)) = {0} from by decide]; simp
theorem sum_le_1 : ∑ s' ∈ Finset.univ.filter (· ≤ (1 : Fin 4)), g s' = g 0 + g 1 := by
  rw [show Finset.univ.filter (· ≤ (1 : Fin 4)) = {0, 1} from by decide]; simp
theorem sum_le_2 : ∑ s' ∈ Finset.univ.filter (· ≤ (2 : Fin 4)), g s' = g 0 + g 1 + g 2 := by
  rw [show Finset.univ.filter (· ≤ (2 : Fin 4)) = {0, 1, 2} from by decide]; simp; omega
theorem sum_le_3 : ∑ s' ∈ Finset.univ.filter (· ≤ (3 : Fin 4)), g s' = g 0 + g 1 + g 2 + g 3 := by
  rw [show Finset.univ.filter (· ≤ (3 : Fin 4)) = {0, 1, 2, 3} from by decide]; simp; omega

end Sums

end Cert.KernelIdeal.Hand

end
-- ==== Proof.SchedVecRdA.lean ====
import proofs.«428180_j4174708212170_2_alg».proof.Proof.Gen.KernelIdeal.Regions

set_option maxRecDepth 1644

noncomputable section

namespace Cert.KernelIdeal.Hand

open Cert.KernelIdeal Cert.KernelIdeal.Gen Idealize.ShloMosaic Idealize.ShloMosaic.TcCoe

variable {F : FTy → Type} [FloatOps F]

section Reads
variable (W : Valuation τ sig (Elt F))

abbrev b4 (v : IVec S_ 32) : IVec S4 32 := broadcastInDim S4 ![] bcast_S_S4 v

abbrev bN (v : IVec S_ 32) : IVec S100000 32 := broadcastInDim S100000 ![] bcast_S_S100000 v

abbrev fdTerm (x : IVec S4 32) (c : IVec S_ 32) : IVec S4 32 :=
  select (andi (cmpi .ne (signi x) (b4 (signi c))) (cmpi .ne (Host.remsi x (b4 c)) (b4 (constantI S_ 32 0#32))))
    (subi (Host.divsi x (b4 c)) (b4 (constantI S_ 32 1#32))) (Host.divsi x (b4 c))

abbrev csTerm (x : IVec S4 32) : IVec S4 32 :=
  Host.reduceWindow IntOp.addi ![4] ![1] ![3] ![0] x (broadcastInDim S_ ![] bcast_S_S_ (constantI S_ 32 0#32))
    reduceWindows_S4_S4_w4s1p3_0 h_S_

abbrev shTerm (a : IVec S1 32) (x : IVec S4 32) : IVec S4 32 :=
  concatenate S4 0 [⟨S1, a⟩, ⟨S3, extractStridedSlice S3 ![0] x slices_S4_S3_0⟩] concatenates_S1_S3_S4_d0

abbrev cntTerm (x0 : IVec S4 32) (v1 : IVec S100000 32) : IVec S4 32 :=
  Host.scatter scatter_S4_S100000x1_S100000_n_0_0_1 IntOp.addi x0
    (broadcastInDim S100000x1 ![0] bcast_S100000_S100000x1_0
      (select (cmpi .slt v1 (bN (constantI S_ 32 0#32))) (addi v1 (bN (constantI S_ 32 4#32))) v1))
    (bN (constantI S_ 32 1#32))

theorem rd0_v0 : (StableHlo.after hostOps0 W main_v0 : IVec S4 32) = b4 (constantI S_ 32 0#32) := by
  after_results <;> rfl
theorem rd0_c0 : (StableHlo.after hostOps0 W main_c_0 : IVec S_ 32) = constantI S_ 32 0#32 := by
  after_results <;> rfl
theorem rd1_v1 : (StableHlo.after hostOps0_1 W main_v1 : IVec S100000 32)
    = maxsi (bN (W main_c_0 : IVec S_ 32)) (W main_arg1 : IVec S100000 32) := by
  after_results <;> rfl
theorem rd2_v9 : (StableHlo.after hostOps0_2 W main_v9 : IVec S4 32)
    = cntTerm (W main_v0 : IVec S4 32) (W main_v1 : IVec S100000 32) := by
  after_results <;> rfl
set_option maxHeartbeats 400000 in
theorem rd2_v11 : (StableHlo.after hostOps0_2 W main_v11 : IVec S4 32)
    = addi (cntTerm (W main_v0 : IVec S4 32) (W main_v1 : IVec S100000 32)) (b4 (constantI S_ 32 999#32)) := by
  after_results <;> rfl
theorem rd2_c5 : (StableHlo.after hostOps0_2 W main_c_5 : IVec S_ 32) = constantI S_ 32 1000#32 := by
  after_results <;> rfl
theorem rd3_v12 : (StableHlo.after hostOps0_3 W main_v12 : IVec S4 32)
    = fdTerm (W main_v11 : IVec S4 32) (W main_c_5 : IVec S_ 32) := by
  after_results <;> rfl
theorem rd4_v14 : (StableHlo.after hostOps0_4 W main_v14 : IVec S4 32)
    = muli (W main_v12 : IVec S4 32) (b4 (constantI S_ 32 1000#32)) := by
  after_results <;> rfl
theorem rd4_v15 : (StableHlo.after hostOps0_4 W main_v15 : IVec S1 32)
    = broadcastInDim S1 ![] bcast_S_S1 (constantI S_ 32 0#32) := by
  after_results <;> rfl

end Reads

end Cert.KernelIdeal.Hand

end
-- ==== Proof.SchedVecRdB.lean ====
import proofs.«428180_j4174708212170_2_alg».proof.Proof.Gen.KernelIdeal.Regions
import proofs.«428180_j4174708212170_2_alg».proof.Proof.SchedVecRdA

set_option maxRecDepth 1644

noncomputable section

namespace Cert.KernelIdeal.Hand

open Cert.KernelIdeal Cert.KernelIdeal.Gen Idealize.ShloMosaic Idealize.ShloMosaic.TcCoe

variable {F : FTy → Type} [FloatOps F]

section Reads
variable (W : Valuation τ sig (Elt F))

theorem rd5_v16 : (StableHlo.after hostOps0_5 W main_v16 : IVec S4 32) = csTerm (W main_v9 : IVec S4 32) := by
  after_results <;> rfl
theorem rd6_v18 : (StableHlo.after hostOps0_6 W main_v18 : IVec S4 32)
    = shTerm (W main_v15 : IVec S1 32) (W main_v16 : IVec S4 32) := by
  after_results <;> rfl
theorem rd6_v19 : (StableHlo.after hostOps0_6 W main_v19 : IVec S1 32)
    = broadcastInDim S1 ![] bcast_S_S1 (constantI S_ 32 0#32) := by
  after_results <;> rfl
theorem rd7_v20 : (StableHlo.after hostOps0_7 W main_v20 : IVec S4 32) = csTerm (W main_v14 : IVec S4 32) := by
  after_results <;> rfl
theorem rd8_v22 : (StableHlo.after hostOps0_8 W main_v22 : IVec S4 32)
    = shTerm (W main_v19 : IVec S1 32) (W main_v20 : IVec S4 32) := by
  after_results <;> rfl
theorem rd8_c9 : (StableHlo.after hostOps0_8 W main_c_9 : IVec S_ 32) = constantI S_ 32 1000#32 := by
  after_results <;> rfl
set_option maxHeartbeats 400000 in
theorem rd9_v23 : (StableHlo.after hostOps0_9 W main_v23 : IVec S4 32)
    = fdTerm (W main_v14 : IVec S4 32) (W main_c_9 : IVec S_ 32) := by
  after_results <;> rfl
theorem rd10_v24 : (StableHlo.after hostOps0_10 W main_v24 : IVec S4 32) = csTerm (W main_v23 : IVec S4 32) := by
  after_results <;> rfl

end Reads

end Cert.KernelIdeal.Hand

end
-- ==== Proof.SchedVec.lean ====
import proofs.«428180_j4174708212170_2_alg».proof.Proof.SchedZ
import proofs.«428180_j4174708212170_2_alg».proof.Proof.SchedAuxFloorDiv
import proofs.«428180_j4174708212170_2_alg».proof.Proof.SchedVecOps
import proofs.«428180_j4174708212170_2_alg».proof.Proof.SchedVecRdB

set_option maxRecDepth 1644

noncomputable section

namespace Cert.KernelIdeal.Hand

open Cert.KernelIdeal Cert.KernelIdeal.Gen Idealize.ShloMosaic Idealize.ShloMosaic.TcCoe Idealize.ShloMosaic.ValueIdx

variable {F : FTy → Type} [FloatOps F]

theorem fdTerm_toNat (x : IVec S4 32) (s : Fin 4) (hx : (x (ix1 s)).toNat < 2 ^ 31) :
    ((fdTerm x (constantI S_ 32 1000#32)) (ix1 s)).toNat = (x (ix1 s)).toNat / 1000 :=
  floordiv1000_word (x (ix1 s)) _
    (by show (if (1000#32 : BitVec 32) = 0 then (0 : BitVec 32) else if (1000#32 : BitVec 32).msb then -1 else 1) = 1#32
        decide) hx

theorem addi_999_toNat (x : IVec S4 32) (s : Fin 4) (n : ℕ) (h : (x (ix1 s)).toNat = n) (hn : n ≤ 100000) :
    ((addi x (b4 (constantI S_ 32 999#32))) (ix1 s)).toNat = n + 999 := by
  show (x (ix1 s) + 999#32).toNat = _
  rw [BitVec.toNat_add, h]
  show (n + 999) % 2 ^ 32 = _
  omega

theorem muli_1000_toNat (x : IVec S4 32) (s : Fin 4) (q : ℕ) (h : (x (ix1 s)).toNat = q) (hq : q ≤ 101) :
    ((muli x (b4 (constantI S_ 32 1000#32))) (ix1 s)).toNat = q * 1000 := by
  show (x (ix1 s) * 1000#32).toNat = _
  rw [BitVec.toNat_mul, h]
  show q * 1000 % 2 ^ 32 = _
  omega

abbrev normTerm (v1 : IVec S100000 32) : IVec S100000 32 :=
  select (cmpi .slt v1 (bN (constantI S_ 32 0#32))) (addi v1 (bN (constantI S_ 32 4#32))) v1

theorem normTerm_at (z : IVec S100000 32) (e : Fin 100000) :
    normTerm (maxsi (bN (constantI S_ 32 0#32)) z) (ix1 e)
      = Scalar.select (IntOp.cmpi .slt (IntOp.maxsi 0#32 (z (ix1 e))) 0#32) (IntOp.addi (IntOp.maxsi 0#32 (z (ix1 e))) 4#32)
          (IntOp.maxsi 0#32 (z (ix1 e))) := rfl

theorem csTerm_toNat (x : IVec S4 32) (f : Fin 4 → ℕ) (hf : ∀ k, (x (ix1 k)).toNat = f k)
    (hb : f 0 + f 1 + f 2 + f 3 < 2 ^ 32) (s : Fin 4) :
    ((csTerm x) (ix1 s)).toNat = ∑ s' ∈ Finset.univ.filter (· ≤ s), f s' := by
  have hx : x = fun j => x (ix1 (j 0)) := funext fun j => congrArg x (eq_ix1 j)
  have e : csTerm x = csTerm (fun j => x (ix1 (j 0))) := congrArg csTerm hx
  have h0 := hf 0
  have h1 := hf 1
  have h2 := hf 2
  have h3 := hf 3
  rw [e]
  match s with
  | ⟨0, _⟩ =>
    refine (cumsum4_toNat0 (fun k => x (ix1 k)) _ reduceWindows_S4_S4_w4s1p3_0 h_S_ rfl).trans ?_
    rw [show (⟨0, by omega⟩ : Fin 4) = 0 from rfl, sum_le_0]; exact h0
  | ⟨1, _⟩ =>
    refine (cumsum4_toNat1 (fun k => x (ix1 k)) _ reduceWindows_S4_S4_w4s1p3_0 h_S_ rfl (by omega)).trans ?_
    rw [show (⟨1, by omega⟩ : Fin 4) = 1 from rfl, sum_le_1]; omega
  | ⟨2, _⟩ =>
    refine (cumsum4_toNat2 (fun k => x (ix1 k)) _ reduceWindows_S4_S4_w4s1p3_0 h_S_ rfl (by omega)).trans ?_
    rw [show (⟨2, by omega⟩ : Fin 4) = 2 from rfl, sum_le_2]; omega
  | ⟨3, _⟩ =>
    refine (cumsum4_toNat3 (fun k => x (ix1 k)) _ reduceWindows_S4_S4_w4s1p3_0 h_S_ rfl (by omega)).trans ?_
    rw [show (⟨3, by omega⟩ : Fin 4) = 3 from rfl, sum_le_3]; omega

theorem exTerm_toNat (x : IVec S4 32) (f : Fin 4 → ℕ) (hf : ∀ k, (x (ix1 k)).toNat = f k)
    (hb : f 0 + f 1 + f 2 + f 3 < 2 ^ 32) (s : Fin 4) :
    ((shTerm (broadcastInDim S1 ![] bcast_S_S1 (constantI S_ 32 0#32)) (csTerm x)) (ix1 s)).toNat
      = ∑ s' ∈ Finset.univ.filter (· < s), f s' := by
  have hy : csTerm x = fun j => csTerm x (ix1 (j 0)) := funext fun j => congrArg (csTerm x) (eq_ix1 j)
  have e : shTerm (broadcastInDim S1 ![] bcast_S_S1 (constantI S_ 32 0#32)) (csTerm x)
      = shTerm (fun _ => 0#32) (fun j => csTerm x (ix1 (j 0))) := congrArg (shTerm _) hy
  have c0 := csTerm_toNat x f hf hb 0
  have c1 := csTerm_toNat x f hf hb 1
  have c2 := csTerm_toNat x f hf hb 2
  rw [sum_le_0] at c0
  rw [sum_le_1] at c1
  rw [sum_le_2] at c2
  rw [e]
  match s with
  | ⟨0, _⟩ =>
    refine (congrArg BitVec.toNat (shift4_at0 0#32 (fun k => csTerm x (ix1 k)) slices_S4_S3_0 concatenates_S1_S3_S4_d0)).trans ?_
    rw [show (⟨0, by omega⟩ : Fin 4) = 0 from rfl, sum_lt_0]; rfl
  | ⟨1, _⟩ =>
    refine (congrArg BitVec.toNat (shift4_at1 0#32 (fun k => csTerm x (ix1 k)) slices_S4_S3_0 concatenates_S1_S3_S4_d0)).trans ?_
    rw [show (⟨1, by omega⟩ : Fin 4) = 1 from rfl, sum_lt_1]; exact c0
  | ⟨2, _⟩ =>
    refine (congrArg BitVec.toNat (shift4_at2 0#32 (fun k => csTerm x (ix1 k)) slices_S4_S3_0 concatenates_S1_S3_S4_d0)).trans ?_
    rw [show (⟨2, by omega⟩ : Fin 4) = 2 from rfl, sum_lt_2]; exact c1
  | ⟨3, _⟩ =>
    refine (congrArg BitVec.toNat (shift4_at3 0#32 (fun k => csTerm x (ix1 k)) slices_S4_S3_0 concatenates_S1_S3_S4_d0)).trans ?_
    rw [show (⟨3, by omega⟩ : Fin 4) = 3 from rfl, sum_lt_3]; exact c2

section Chain
variable (m : (ℓ : Loc nD τ sig) → Buf (Elt F) ℓ) (c : Dev nD)

theorem carry_v9 : Gen.V16 m c main_v9 = Gen.V3 m c main_v9 := by
  rw [Gen.V16_of m c main_v9 (by decide),
    Gen.V15_of m c main_v9 (by decide),
    Gen.V14_of m c main_v9 (by decide),
    Gen.V13_of m c main_v9 (by decide),
    Gen.V12_of m c main_v9 (by decide),
    Gen.V11_of m c main_v9 (by decide),
    Gen.V10_of m c main_v9 (by decide),
    Gen.V9_of m c main_v9 (by decide),
    Gen.V8_of m c main_v9 (by decide),
    Gen.V7_of m c main_v9 (by decide),
    Gen.V6_of m c main_v9 (by decide),
    Gen.V5_of m c main_v9 (by decide),
    Gen.V4_of m c main_v9 (by decide)]
theorem carry_v18 : Gen.V16 m c main_v18 = Gen.V7 m c main_v18 := by
  rw [Gen.V16_of m c main_v18 (by decide),
    Gen.V15_of m c main_v18 (by decide),
    Gen.V14_of m c main_v18 (by decide),
    Gen.V13_of m c main_v18 (by decide),
    Gen.V12_of m c main_v18 (by decide),
    Gen.V11_of m c main_v18 (by decide),
    Gen.V10_of m c main_v18 (by decide),
    Gen.V9_of m c main_v18 (by decide),
    Gen.V8_of m c main_v18 (by decide)]
theorem carry_v22 : Gen.V16 m c main_v22 = Gen.V9 m c main_v22 := by
  rw [Gen.V16_of m c main_v22 (by decide),
    Gen.V15_of m c main_v22 (by decide),
    Gen.V14_of m c main_v22 (by decide),
    Gen.V13_of m c main_v22 (by decide),
    Gen.V12_of m c main_v22 (by decide),
    Gen.V11_of m c main_v22 (by decide),
    Gen.V10_of m c main_v22 (by decide)]
theorem carry_v24 : Gen.V16 m c main_v24 = Gen.V11 m c main_v24 := by
  rw [Gen.V16_of m c main_v24 (by decide),
    Gen.V15_of m c main_v24 (by decide),
    Gen.V14_of m c main_v24 (by decide),
    Gen.V13_of m c main_v24 (by decide),
    Gen.V12_of m c main_v24 (by decide)]

variable (hz : ∀ i : Fin 100000, (zw m c (ix1 i)).toNat < 4)

theorem v9_val (s : Fin 4) :
    ((Gen.V3 m c main_v9 : IVec S4 32) (ix1 s)).toNat = Cert.Sched.count (zf m c hz) s := by
  have e0 : (Gen.V2 m c main_v0 : IVec S4 32) = b4 (constantI S_ 32 0#32) := by
    rw [Gen.V2_of m c main_v0 (by decide)]; exact rd0_v0 (Gen.V0 m c)
  have e1 : (Gen.V2 m c main_v1 : IVec S100000 32) = maxsi (bN (constantI S_ 32 0#32)) (zw m c) := by
    refine (rd1_v1 (Gen.V1 m c)).trans ?_
    rw [show (Gen.V1 m c main_c_0 : IVec S_ 32) = constantI S_ 32 0#32 from rd0_c0 (Gen.V0 m c),
      Gen.V1_of m c main_arg1 (by decide)]
  have hidx : ∀ e : Fin 100000,
      (normTerm (maxsi (bN (constantI S_ 32 0#32)) (zw m c)) (ix1 e)).toInt = ((zf m c hz e).val : Int) := fun e => by
    rw [normTerm_at, zf_val]; exact norm_index_word _ (hz e)
  refine (congrArg (fun v : IVec S4 32 => (v (ix1 s)).toNat) (rd2_v9 (Gen.V2 m c))).trans ?_
  rw [e0, e1]
  exact count_scatter scatter_S4_S100000x1_S100000_n_0_0_1 rfl rfl rfl rfl bcast_S100000_S100000x1_0
    (b4 (constantI S_ 32 0#32)) (fun _ => rfl) (normTerm (maxsi (bN (constantI S_ 32 0#32)) (zw m c)))
    (bN (constantI S_ 32 1#32)) (fun _ => rfl) (zf m c hz) hidx (by norm_num) s

theorem v11_val (s : Fin 4) :
    ((Gen.V3 m c main_v11 : IVec S4 32) (ix1 s)).toNat = Cert.Sched.count (zf m c hz) s + 999 := by
  have e : (Gen.V3 m c main_v11 : IVec S4 32)
      = addi (Gen.V3 m c main_v9 : IVec S4 32) (b4 (constantI S_ 32 999#32)) := by
    refine (rd2_v11 (Gen.V2 m c)).trans ?_
    rw [← show (Gen.V3 m c main_v9 : IVec S4 32) = _ from rd2_v9 (Gen.V2 m c)]
  rw [e]
  exact addi_999_toNat _ s _ (v9_val m c hz s) (count_le (zf m c hz) s)

theorem v14_val (s : Fin 4) :
    ((Gen.V5 m c main_v14 : IVec S4 32) (ix1 s)).toNat = Cert.Sched.pad (zf m c hz) s := by
  have h11 := v11_val m c hz s
  have hle := count_le (zf m c hz) s
  have e12 : (Gen.V4 m c main_v12 : IVec S4 32) = fdTerm (Gen.V3 m c main_v11 : IVec S4 32) (constantI S_ 32 1000#32) := by
    refine (rd3_v12 (Gen.V3 m c)).trans ?_
    rw [show (Gen.V3 m c main_c_5 : IVec S_ 32) = constantI S_ 32 1000#32 from rd2_c5 (Gen.V2 m c)]
  have h12 : ((Gen.V4 m c main_v12 : IVec S4 32) (ix1 s)).toNat = (Cert.Sched.count (zf m c hz) s + 999) / 1000 := by
    rw [e12, fdTerm_toNat _ s (by rw [h11]; omega), h11]
  have e14 : (Gen.V5 m c main_v14 : IVec S4 32) = muli (Gen.V4 m c main_v12 : IVec S4 32) (b4 (constantI S_ 32 1000#32)) :=
    rd4_v14 (Gen.V4 m c)
  rw [e14]
  exact muli_1000_toNat _ s _ h12 (by omega)

theorem pad_le (s : Fin 4) : Cert.Sched.pad (zf m c hz) s ≤ 100000 := by
  have hle := count_le (zf m c hz) s
  unfold Cert.Sched.pad
  omega

theorem counts_val (s : Fin 4) :
    ((Gen.V16 m c main_v9 : IVec S4 32) (ix1 s)).toNat = Cert.Sched.count (zf m c hz) s := by
  rw [carry_v9 m c]; exact v9_val m c hz s

theorem uoff_val (s : Fin 4) :
    ((Gen.V16 m c main_v18 : IVec S4 32) (ix1 s)).toNat = Cert.Sched.uoff (zf m c hz) s := by
  have e : (Gen.V7 m c main_v18 : IVec S4 32)
      = shTerm (broadcastInDim S1 ![] bcast_S_S1 (constantI S_ 32 0#32)) (csTerm (Gen.V3 m c main_v9 : IVec S4 32)) := by
    refine (rd6_v18 (Gen.V6 m c)).trans ?_
    rw [Gen.V6_of m c main_v15 (by decide),
      show (Gen.V5 m c main_v15 : IVec S1 32) = _ from rd4_v15 (Gen.V4 m c),
      show (Gen.V6 m c main_v16 : IVec S4 32) = _ from rd5_v16 (Gen.V5 m c),
      Gen.V5_of m c main_v9 (by decide), Gen.V4_of m c main_v9 (by decide)]
  have hb := count_le (zf m c hz)
  rw [carry_v18 m c, e]
  exact exTerm_toNat _ _ (v9_val m c hz) (by have := hb 0; have := hb 1; have := hb 2; have := hb 3; omega) s

theorem poff_val (s : Fin 4) :
    ((Gen.V16 m c main_v22 : IVec S4 32) (ix1 s)).toNat = Cert.Sched.poff (zf m c hz) s := by
  have e : (Gen.V9 m c main_v22 : IVec S4 32)
      = shTerm (broadcastInDim S1 ![] bcast_S_S1 (constantI S_ 32 0#32)) (csTerm (Gen.V5 m c main_v14 : IVec S4 32)) := by
    refine (rd8_v22 (Gen.V8 m c)).trans ?_
    rw [Gen.V8_of m c main_v19 (by decide),
      show (Gen.V7 m c main_v19 : IVec S1 32) = _ from rd6_v19 (Gen.V6 m c),
      show (Gen.V8 m c main_v20 : IVec S4 32) = _ from rd7_v20 (Gen.V7 m c),
      Gen.V7_of m c main_v14 (by decide), Gen.V6_of m c main_v14 (by decide)]
  have hb := pad_le m c hz
  rw [carry_v22 m c, e]
  exact exTerm_toNat _ _ (v14_val m c hz) (by have := hb 0; have := hb 1; have := hb 2; have := hb 3; omega) s

theorem tcum_val (s : Fin 4) :
    ((Gen.V16 m c main_v24 : IVec S4 32) (ix1 s)).toNat = Cert.Sched.tcum (zf m c hz) s := by
  have hb := pad_le m c hz
  have e23 : (Gen.V10 m c main_v23 : IVec S4 32) = fdTerm (Gen.V5 m c main_v14 : IVec S4 32) (constantI S_ 32 1000#32) := by
    refine (rd9_v23 (Gen.V9 m c)).trans ?_
    rw [show (Gen.V9 m c main_c_9 : IVec S_ 32) = constantI S_ 32 1000#32 from rd8_c9 (Gen.V8 m c),
      Gen.V9_of m c main_v14 (by decide), Gen.V8_of m c main_v14 (by decide), Gen.V7_of m c main_v14 (by decide),
      Gen.V6_of m c main_v14 (by decide)]
  have h23 : ∀ k : Fin 4, ((Gen.V10 m c main_v23 : IVec S4 32) (ix1 k)).toNat = Cert.Sched.pad (zf m c hz) k / 1000 := by
    intro k
    have := hb k
    rw [e23, fdTerm_toNat _ k (by rw [v14_val m c hz k]; omega), v14_val m c hz k]
  have e : (Gen.V11 m c main_v24 : IVec S4 32) = csTerm (Gen.V10 m c main_v23 : IVec S4 32) := rd10_v24 (Gen.V10 m c)
  rw [carry_v24 m c, e]
  exact csTerm_toNat _ _ h23 (by have := hb 0; have := hb 1; have := hb 2; have := hb 3; omega) s

end Chain

end Cert.KernelIdeal.Hand

end
-- ==== Proof.SchedFacts.lean ====
import proofs.«428180_j4174708212170_2_alg».proof.Proof.SchedFactsOf
import proofs.«428180_j4174708212170_2_alg».proof.Proof.SchedSort
import proofs.«428180_j4174708212170_2_alg».proof.Proof.SchedScatter
import proofs.«428180_j4174708212170_2_alg».proof.Proof.SchedVec

set_option maxRecDepth 1644

noncomputable section

namespace Cert.KernelIdeal.Hand

open Cert.KernelIdeal Cert.KernelIdeal.Gen Cert.Sched
open Idealize.ShloMosaic Idealize.ShloMosaic.TcCoe Idealize.ShloMosaic.ValueIdx

variable {F : FTy → Type} [FloatOps F]
variable (m : (ℓ : Loc nD τ sig) → Buf (Elt F) ℓ) (outs : Gen.Outs (F := F)) (c : Dev nD)

theorem tcum_small (z : Fin 100000 → Fin 4) (s : Fin 4) : tcum z s < 2 ^ 31 := by
  have h1 := tcum_mul z s
  have h2 := ptop_le z s
  omega

theorem sched_facts_vec (hz : ∀ i : Fin 100000, (zw m c (ix1 i)).toNat < 4)
    (huoff : ∀ s : Fin 4, ((Gen.V16 m c main_v18 : IVec S4 32) (ix1 s)).toNat = uoff (zf m c hz) s)
    (hpoff : ∀ s : Fin 4, ((Gen.V16 m c main_v22 : IVec S4 32) (ix1 s)).toNat = poff (zf m c hz) s)
    (htcum : ∀ s : Fin 4, ((Gen.V16 m c main_v24 : IVec S4 32) (ix1 s)).toNat = tcum (zf m c hz) s)
    (i : Fin 100000) :
    ∃ h : ((Gen.V16 m c main_v65 : IVec S100000 32) (ix1 i)).toNat < 104000,
      ((Gen.V16 m c main_v57 : IVec S104000 32)
        (ix1 ⟨((Gen.V16 m c main_v65 : IVec S100000 32) (ix1 i)).toNat, h⟩)).toNat = i.val ∧
      ((Gen.V16 m c main_v74 : IVec S104 32)
        (ix1 ⟨((Gen.V16 m c main_v65 : IVec S100000 32) (ix1 i)).toNat / 1000, by omega⟩)).toNat
        = (zw m c (ix1 i)).toNat := by
  have hσ := sort_bij m c
  have hm := sort_mono m c hz
  have hdest := dest_val m c hz huoff hpoff (rank_bounds (zf m c hz) (sortIdx m c) hσ hm)
  have hdlt : ∀ j, dest (zf m c hz) (sortIdx m c) j < 104000 := fun j => by
    have := dest_lt (zf m c hz) (sortIdx m c) hσ hm j; omega
  exact sched_facts_of m c (zf m c hz) (sortIdx m c) hσ hm (fun _ => rfl) hdest
    (fun j _ => full_src_at m c _ hdest hdlt (dest_inj (zf m c hz) (sortIdx m c) hσ hm) j)
    (inv_at m c (sortIdx m c) (fun _ => rfl) hσ.1)
    (tile_val m c _ htcum (tcum_small (zf m c hz))) i

theorem sched_facts_end_vec (hz : ∀ i : Fin 100000, (zw m c (ix1 i)).toNat < 4)
    (huoff : ∀ s : Fin 4, ((Gen.V16 m c main_v18 : IVec S4 32) (ix1 s)).toNat = uoff (zf m c hz) s)
    (hpoff : ∀ s : Fin 4, ((Gen.V16 m c main_v22 : IVec S4 32) (ix1 s)).toNat = poff (zf m c hz) s)
    (htcum : ∀ s : Fin 4, ((Gen.V16 m c main_v24 : IVec S4 32) (ix1 s)).toNat = tcum (zf m c hz) s)
    (i : Fin 100000) :
    ∃ h : ((Gen.V22 m outs c main_v65 : IVec S100000 32) (ix1 i)).toNat < 104000,
      ((Gen.V22 m outs c main_v57 : IVec S104000 32)
        (ix1 ⟨((Gen.V22 m outs c main_v65 : IVec S100000 32) (ix1 i)).toNat, h⟩)).toNat = i.val ∧
      ((Gen.V22 m outs c main_v74 : IVec S104 32)
        (ix1 ⟨((Gen.V22 m outs c main_v65 : IVec S100000 32) (ix1 i)).toNat / 1000, by omega⟩)).toNat
        = (zw m c (ix1 i)).toNat := by
  have hσ := sort_bij m c
  have hm := sort_mono m c hz
  have hdest := dest_val m c hz huoff hpoff (rank_bounds (zf m c hz) (sortIdx m c) hσ hm)
  have hdlt : ∀ j, dest (zf m c hz) (sortIdx m c) j < 104000 := fun j => by
    have := dest_lt (zf m c hz) (sortIdx m c) hσ hm j; omega
  exact sched_facts_end_of m outs c (zf m c hz) (sortIdx m c) hσ hm (fun _ => rfl) hdest
    (fun j _ => full_src_at m c _ hdest hdlt (dest_inj (zf m c hz) (sortIdx m c) hσ hm) j)
    (inv_at m c (sortIdx m c) (fun _ => rfl) hσ.1)
    (tile_val m c _ htcum (tcum_small (zf m c hz))) i

theorem sched_facts (hz : ∀ i : Fin 100000, (zw m c (ix1 i)).toNat < 4) (i : Fin 100000) :
    ∃ h : ((Gen.V16 m c main_v65 : IVec S100000 32) (ix1 i)).toNat < 104000,
      ((Gen.V16 m c main_v57 : IVec S104000 32)
        (ix1 ⟨((Gen.V16 m c main_v65 : IVec S100000 32) (ix1 i)).toNat, h⟩)).toNat = i.val ∧
      ((Gen.V16 m c main_v74 : IVec S104 32)
        (ix1 ⟨((Gen.V16 m c main_v65 : IVec S100000 32) (ix1 i)).toNat / 1000, by omega⟩)).toNat
        = (zw m c (ix1 i)).toNat :=
  sched_facts_vec m c hz (uoff_val m c hz) (poff_val m c hz) (tcum_val m c hz) i

theorem sched_facts_end (hz : ∀ i : Fin 100000, (zw m c (ix1 i)).toNat < 4) (i : Fin 100000) :
    ∃ h : ((Gen.V22 m outs c main_v65 : IVec S100000 32) (ix1 i)).toNat < 104000,
      ((Gen.V22 m outs c main_v57 : IVec S104000 32)
        (ix1 ⟨((Gen.V22 m outs c main_v65 : IVec S100000 32) (ix1 i)).toNat, h⟩)).toNat = i.val ∧
      ((Gen.V22 m outs c main_v74 : IVec S104 32)
        (ix1 ⟨((Gen.V22 m outs c main_v65 : IVec S100000 32) (ix1 i)).toNat / 1000, by omega⟩)).toNat
        = (zw m c (ix1 i)).toNat :=
  sched_facts_end_vec m outs c hz (uoff_val m c hz) (poff_val m c hz) (tcum_val m c hz) i

end Cert.KernelIdeal.Hand

end
-- ==== Proof.Assembly.lean ====
import proofs.«428180_j4174708212170_2_alg».proof.Proof.PreFacts
import proofs.«428180_j4174708212170_2_alg».proof.Proof.HostTail
import proofs.«428180_j4174708212170_2_alg».proof.Proof.RefTail
import proofs.«428180_j4174708212170_2_alg».proof.Proof.SchedZ
import proofs.«428180_j4174708212170_2_alg».proof.Proof.Spec
import proofs.«428180_j4174708212170_2_alg».proof.Proof.RefFwd
import proofs.«428180_j4174708212170_2_alg».proof.Proof.RefBwd
import proofs.«428180_j4174708212170_2_alg».proof.Proof.KRun
import proofs.«428180_j4174708212170_2_alg».proof.Proof.KChain
import proofs.«428180_j4174708212170_2_alg».proof.Proof.SchedFacts

noncomputable section

namespace Cert.Assembly

open Cert.KernelIdeal Cert.KernelIdeal.Gen Cert.KernelIdeal.Hand Cert.KernelIdeal.HandValue Cert.ReferenceIdeal.Read Cert.GIdx
open Idealize.ShloMosaic Idealize.ShloMosaic.TcCoe Idealize.ShloMosaic.ValueIdx

section Of
variable (m : (ℓ : Loc nD τ sig) → Buf (Elt Ideal) ℓ) (outs : Gen.Outs (F := Ideal)) (c : Dev nD)

abbrev P (s : Fin 4) : Cert.Spec.Params :=
  Cert.Spec.params (m ((c : Thread nD τ).loc main_arg5)) (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11)) (m ((c : Thread nD τ).loc main_arg12)) s

abbrev X (i : Fin 100000) : Fin 256 → EReal := Cert.Spec.row (n := 100000) (m ((c : Thread nD τ).loc main_arg0)) i

abbrev DPS : S200000x3x256.Idx → EReal := m ((c : Thread nD τ).loc main_arg3)

abbrev G82 : S100000x256.Idx → EReal := Gen.V22 m outs c main_v82

theorem energies_agree_of (hz : ∀ i : Fin 100000, (zw m c (ix1 i)).toNat < 4)
    (hk : ∀ i : Fin 100000, (Gen.V22 m outs c main_v81 : S100000x1.Idx → EReal) (ix2 i (0 : Fin 1))
      = Cert.Spec.out (P m c (zf m c hz i)) (X m c i))
    (hr : ∀ i : Fin 100000, val_main_v172 (F := Ideal) (m ((c : Thread nD τ).loc main_arg0)) (m ((c : Thread nD τ).loc main_arg1))
        (m ((c : Thread nD τ).loc main_arg5)) (m ((c : Thread nD τ).loc main_arg6)) (m ((c : Thread nD τ).loc main_arg7)) (m ((c : Thread nD τ).loc main_arg8))
        (m ((c : Thread nD τ).loc main_arg9)) (m ((c : Thread nD τ).loc main_arg10)) (m ((c : Thread nD τ).loc main_arg11)) (m ((c : Thread nD τ).loc main_arg12)) (ix2 i (0 : Fin 1))
      = Cert.Spec.out (P m c (zf m c hz i)) (X m c i)) :
    (Gen.V22 m outs c main_v85 : S1000x1.Idx → EReal)
      = val_main_v175 (F := Ideal) (m ((c : Thread nD τ).loc main_arg0)) (m ((c : Thread nD τ).loc main_arg1)) (m ((c : Thread nD τ).loc main_arg2))
        (m ((c : Thread nD τ).loc main_arg5)) (m ((c : Thread nD τ).loc main_arg6)) (m ((c : Thread nD τ).loc main_arg7)) (m ((c : Thread nD τ).loc main_arg8))
        (m ((c : Thread nD τ).loc main_arg9)) (m ((c : Thread nD τ).loc main_arg10)) (m ((c : Thread nD τ).loc main_arg11)) (m ((c : Thread nD τ).loc main_arg12)) := by
  have hupd : (Gen.V22 m outs c main_v81 : S100000x1.Idx → EReal)
      = val_main_v172 (F := Ideal) (m ((c : Thread nD τ).loc main_arg0)) (m ((c : Thread nD τ).loc main_arg1))
        (m ((c : Thread nD τ).loc main_arg5)) (m ((c : Thread nD τ).loc main_arg6)) (m ((c : Thread nD τ).loc main_arg7)) (m ((c : Thread nD τ).loc main_arg8))
        (m ((c : Thread nD τ).loc main_arg9)) (m ((c : Thread nD τ).loc main_arg10)) (m ((c : Thread nD τ).loc main_arg11)) (m ((c : Thread nD τ).loc main_arg12)) := by
    funext idx
    obtain ⟨i, u, rfl⟩ : ∃ (i : Fin 100000) (u : Fin 1), idx = ix2 i u := ⟨idx 0, idx 1, eq_ix2 idx⟩
    obtain rfl : u = 0 := Subsingleton.elim _ _
    rw [hk, hr]
  rw [energies_eq m outs c, hupd]
  rfl

theorem forces_agree_of (hz : ∀ i : Fin 100000, (zw m c (ix1 i)).toNat < 4)
    (hk94 : ∀ (p : Fin 200000) (d : Fin 3), (outs 21 main_v94 c : S200000x3.Idx → EReal) (ix2 p d)
      = 0 - ∑ f : Fin 256, DPS m c (ix3 p d f) * G82 m outs c (ix2 (gidx (m ((c : Thread nD τ).loc main_arg4)) p) f))
    (hk82 : ∀ (i : Fin 100000) (f : Fin 256), G82 m outs c (ix2 i f)
      = Cert.Spec.grad (P m c (zf m c hz i)) (X m c i) f)
    (hr : ∀ (i : Fin 100000) (f : Fin 256), val_main_v227 (F := Ideal) (m ((c : Thread nD τ).loc main_arg0)) (m ((c : Thread nD τ).loc main_arg1))
        (m ((c : Thread nD τ).loc main_arg5)) (m ((c : Thread nD τ).loc main_arg6)) (m ((c : Thread nD τ).loc main_arg7)) (m ((c : Thread nD τ).loc main_arg8))
        (m ((c : Thread nD τ).loc main_arg9)) (m ((c : Thread nD τ).loc main_arg11)) (ix2 i f)
      = Cert.Spec.grad (P m c (zf m c hz i)) (X m c i) f) :
    (Gen.V22 m outs c main_v97 : S100000x3.Idx → EReal)
      = val_main_v242 (F := Ideal) (m ((c : Thread nD τ).loc main_arg0)) (m ((c : Thread nD τ).loc main_arg1)) (m ((c : Thread nD τ).loc main_arg3)) (m ((c : Thread nD τ).loc main_arg4))
        (m ((c : Thread nD τ).loc main_arg5)) (m ((c : Thread nD τ).loc main_arg6)) (m ((c : Thread nD τ).loc main_arg7)) (m ((c : Thread nD τ).loc main_arg8))
        (m ((c : Thread nD τ).loc main_arg9)) (m ((c : Thread nD τ).loc main_arg11)) := by
  have hupd : (outs 21 main_v94 c : S200000x3.Idx → EReal)
      = val_main_v239 (F := Ideal) (m ((c : Thread nD τ).loc main_arg0)) (m ((c : Thread nD τ).loc main_arg1)) (m ((c : Thread nD τ).loc main_arg3)) (m ((c : Thread nD τ).loc main_arg4))
        (m ((c : Thread nD τ).loc main_arg5)) (m ((c : Thread nD τ).loc main_arg6)) (m ((c : Thread nD τ).loc main_arg7)) (m ((c : Thread nD τ).loc main_arg8))
        (m ((c : Thread nD τ).loc main_arg9)) (m ((c : Thread nD τ).loc main_arg11)) := by
    funext idx
    obtain ⟨p, d, rfl⟩ : ∃ (p : Fin 200000) (d : Fin 3), idx = ix2 p d := ⟨idx 0, idx 1, eq_ix2 idx⟩
    have key : (0 : EReal) - ∑ f : Fin 256, DPS m c (ix3 p d f) * G82 m outs c (ix2 (gidx (m ((c : Thread nD τ).loc main_arg4)) p) f)
        = -(0 + ∑ f : Fin 256, DPS m c (ix3 p d f)
            * val_main_v227 (F := Ideal) (m ((c : Thread nD τ).loc main_arg0)) (m ((c : Thread nD τ).loc main_arg1))
              (m ((c : Thread nD τ).loc main_arg5)) (m ((c : Thread nD τ).loc main_arg6)) (m ((c : Thread nD τ).loc main_arg7)) (m ((c : Thread nD τ).loc main_arg8))
              (m ((c : Thread nD τ).loc main_arg9)) (m ((c : Thread nD τ).loc main_arg11)) (ix2 (gidx (m ((c : Thread nD τ).loc main_arg4)) p) f)) := by
      rw [zero_sub, zero_add]
      refine congrArg (fun s : EReal => -s) (Finset.sum_congr rfl fun f _ => ?_)
      rw [hk82, hr]
    rw [hk94, Cert.RefTail.per_pair_ref]
    exact key
  rw [forces_eq m outs c, hupd]
  rfl

end Of

variable [Cert.Pre_finite_inputs.Facts]

theorem energies_agree (m : (ℓ : Loc nD τ sig) → Buf (Elt Ideal) ℓ) (hpre : Cert.Pre_KernelIdeal m) (c : Dev nD) :
    (Gen.V22 m (Hand.outs m) c main_v85 : S1000x1.Idx → EReal)
      = val_main_v175 (F := Ideal) (m ((c : Thread nD τ).loc main_arg0)) (m ((c : Thread nD τ).loc main_arg1)) (m ((c : Thread nD τ).loc main_arg2))
        (m ((c : Thread nD τ).loc main_arg5)) (m ((c : Thread nD τ).loc main_arg6)) (m ((c : Thread nD τ).loc main_arg7)) (m ((c : Thread nD τ).loc main_arg8))
        (m ((c : Thread nD τ).loc main_arg9)) (m ((c : Thread nD τ).loc main_arg10)) (m ((c : Thread nD τ).loc main_arg11)) (m ((c : Thread nD τ).loc main_arg12)) := by
  obtain ⟨-, -, -, -, -, -, -, -, -, -, hz⟩ := Cert.PreFacts.of_pre_KernelIdeal m hpre c
  exact energies_agree_of m (Hand.outs m) c hz (fun i => nn_per_atom_k m c hz (fun j => sched_facts_end m (Hand.outs m) c hz j) i)
    (fun i => Cert.RefRead.nn_per_atom_ref _ _ _ _ _ _ _ _ _ _ hz i)

theorem forces_agree (m : (ℓ : Loc nD τ sig) → Buf (Elt Ideal) ℓ) (hpre : Cert.Pre_KernelIdeal m) (c : Dev nD) :
    (Gen.V22 m (Hand.outs m) c main_v97 : S100000x3.Idx → EReal)
      = val_main_v242 (F := Ideal) (m ((c : Thread nD τ).loc main_arg0)) (m ((c : Thread nD τ).loc main_arg1)) (m ((c : Thread nD τ).loc main_arg3)) (m ((c : Thread nD τ).loc main_arg4))
        (m ((c : Thread nD τ).loc main_arg5)) (m ((c : Thread nD τ).loc main_arg6)) (m ((c : Thread nD τ).loc main_arg7)) (m ((c : Thread nD τ).loc main_arg8))
        (m ((c : Thread nD τ).loc main_arg9)) (m ((c : Thread nD τ).loc main_arg11)) := by
  obtain ⟨-, -, -, -, h7, -, h9, -, -, -, hz⟩ := Cert.PreFacts.of_pre_KernelIdeal m hpre c
  exact forces_agree_of m (Hand.outs m) c hz (fun p d => per_pair_k m c p d) (fun i f => nn_grads_k m c hz (fun j => sched_facts_end m (Hand.outs m) c hz j) i f)
    (fun i f => Cert.RefRead.nn_grads_ref _ _ _ _ _ _ _ (m ((c : Thread nD τ).loc main_arg10)) _ (m ((c : Thread nD τ).loc main_arg12)) hz h7 h9 i f)

end Cert.Assembly

end
-- ==== Proof.lean ====
import proofs.«428180_j4174708212170_2_alg».proof.Defs
import proofs.«428180_j4174708212170_2_alg».proof.Proof.Gen.Kernel
import proofs.«428180_j4174708212170_2_alg».proof.Proof.Gen.KernelIdeal
import proofs.«428180_j4174708212170_2_alg».proof.Proof.Gen.ReferenceIdeal
import proofs.«428180_j4174708212170_2_alg».proof.Proof.Gen.Pre_finite_inputs
import proofs.«428180_j4174708212170_2_alg».proof.Proof.KRun
import proofs.«428180_j4174708212170_2_alg».proof.Proof.BRun
import proofs.«428180_j4174708212170_2_alg».proof.Proof.RefRun
import proofs.«428180_j4174708212170_2_alg».proof.Proof.Assembly
import Idealize.ShloMosaic.Adequacy
import Idealize.ShloMosaic.Init

noncomputable section

namespace Cert.Proof

open Idealize.ShloMosaic Idealize.ShloMosaic.TcCoe Idealize.SL.Sem

theorem frame_p : Cert.frame_Kernel := fun m ρ _ => Cert.Kernel.Hand.frame_all (F := Idealize.ShloMosaic.Bits) m ρ

theorem frame_pi : Cert.frame_KernelIdeal := fun m ρ _ => Cert.KernelIdeal.Hand.frame_all (F := Idealize.ShloMosaic.Ideal) m ρ

theorem frame_ri : Cert.frame_ReferenceIdeal := Cert.RefRun.frame_ri

theorem preserves : Cert.preserves_Kernel_KernelIdeal := trivial

theorem algebraic : Cert.algebraic_KernelIdeal_ReferenceIdeal := by
  intro m ρ m' ρ' hpre hagree
  refine ⟨fun c => Cert.KernelIdeal.Gen.V22 m (Cert.KernelIdeal.Hand.outs m) c Cert.KernelIdeal.main_v85,
    fun c => Cert.KernelIdeal.Gen.V22 m (Cert.KernelIdeal.Hand.outs m) c Cert.KernelIdeal.main_v97,
    Cert.KernelIdeal.Hand.run_full (F := Idealize.ShloMosaic.Ideal) m ρ, ?_⟩
  refine (θ_run Cert.ReferenceIdeal.defs _ _).mono (fun _ h c => ⟨(h c).1.trans ?_, (h c).2.1.trans ?_, (h c).2.2⟩)
    (Cert.RefRun.ref_run (F := Idealize.ShloMosaic.Ideal) m' ρ')
  · obtain ⟨h0, h1, h2, h3, h4, h5, h6, h7, h8, h9, h10, h11, h12⟩ := hagree c
    rw [h0, h1, h2, h5, h6, h7, h8, h9, h10, h11, h12]
    exact (Cert.Assembly.energies_agree m hpre c).symm
  · obtain ⟨h0, h1, h2, h3, h4, h5, h6, h7, h8, h9, h10, h11, h12⟩ := hagree c
    rw [h0, h1, h3, h4, h5, h6, h7, h8, h9, h11]
    exact (Cert.Assembly.forces_agree m hpre c).symm

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
